-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096 : Shape := ⟨1, ![4096]⟩
abbrev S100000x64 : Shape := ⟨2, ![100000, 64]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_

variable [Facts]

def fn {F : FTy → Type} [FloatOps F] (main_arg0 : IVec S4096 32) (main_arg1 : IVec S100000x64 32) : IVec S_ 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 99999#32
  let main_v2 : IVec S4096 32 := broadcastInDim S4096 ![] bcast_S_S4096 main_c_0
  let main_v3 : IVec S4096 1 := cmpi .sle main_arg0 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  let main_c_2 : IVec S_ 32 := constantI S_ 32 0#32
  let main_v6 : IVec S100000x64 32 := broadcastInDim S100000x64 ![] bcast_S_S100000x64 main_c_2
  let main_v7 : IVec S100000x64 1 := cmpi .sge main_arg1 main_v6
  let main_c_3 : IVec S_ 32 := constantI S_ 32 99999#32
  let main_v8 : IVec S100000x64 32 := broadcastInDim S100000x64 ![] bcast_S_S100000x64 main_c_3
  let main_v9 : IVec S100000x64 1 := cmpi .sle main_arg1 main_v8
  let main_v10 : IVec S100000x64 1 := andi main_v7 main_v9
  let main_c_4 : IVec S_ 1 := constantI S_ 1 1#1
  let main_v11 : IVec S_ 1 := (fun x v => Host.reduce IntOp.andi x v reducesTo_S100000x64_S_d0_1 h_S_) main_v10 main_c_4
  let main_v12 : IVec S_ 1 := andi main_v5 main_v11
  main_v12
-- ==== Kernel.lean ====
abbrev S4096 : Shape := ⟨1, ![4096]⟩
abbrev S100000x64 : Shape := ⟨2, ![100000, 64]⟩
abbrev S64x100000 : Shape := ⟨2, ![64, 100000]⟩
abbrev S10x4096 : Shape := ⟨2, ![10, 4096]⟩
abbrev S100000 : Shape := ⟨1, ![100000]⟩
abbrev S1x4096 : Shape := ⟨2, ![1, 4096]⟩
abbrev S_ : Shape := ⟨0, ![]⟩
abbrev S1x100000 : Shape := ⟨2, ![1, 100000]⟩
abbrev S16 : Shape := ⟨1, ![16]⟩
abbrev S1x16 : Shape := ⟨2, ![1, 16]⟩
abbrev S25x40960 : Shape := ⟨2, ![25, 40960]⟩
abbrev S10x512 : Shape := ⟨2, ![10, 512]⟩
abbrev S1x5120 : Shape := ⟨2, ![1, 5120]⟩
abbrev S4096x10 : Shape := ⟨2, ![4096, 10]⟩
abbrev S40960x25 : Shape := ⟨2, ![40960, 25]⟩

abbrev nBuf : Table → Nat
  | .hbm => 7
  | .local .scVector .vmem => 8
  | _ => 0

abbrev bufTy : (tb : Table) → Fin (nBuf tb) → BufTy
  | .hbm, ⟨0, _⟩ => ⟨S4096, .i32⟩
  | .hbm, ⟨1, _⟩ => ⟨S100000x64, .i32⟩
  | .hbm, ⟨2, _⟩ => ⟨S64x100000, .i32⟩
  | .hbm, ⟨3, _⟩ => ⟨S10x4096, .i32⟩
  | .hbm, ⟨4, _⟩ => ⟨S25x40960, .i32⟩
  | .hbm, ⟨5, _⟩ => ⟨S4096x10, .i32⟩
  | .hbm, ⟨6, _⟩ => ⟨S40960x25, .i32⟩
  | .local .scVector .vmem, ⟨0, _⟩ => ⟨S100000, .i32⟩
  | .local .scVector .vmem, ⟨1, _⟩ => ⟨S4096, .i32⟩
  | .local .scVector .vmem, ⟨2, _⟩ => ⟨S1x4096, .i32⟩
  | .local .scVector .vmem, ⟨3, _⟩ => ⟨S100000, .i32⟩
  | .local .scVector .vmem, ⟨4, _⟩ => ⟨S10x512, .i32⟩
  | .local .scVector .vmem, ⟨5, _⟩ => ⟨S10x512, .i32⟩
  | .local .scVector .vmem, ⟨6, _⟩ => ⟨S1x5120, .i32⟩
  | .local .scVector .vmem, ⟨7, _⟩ => ⟨S1x5120, .i32⟩
  | _, _ => ⟨S4096, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v0_scv : Ref sig .scVector := ⟨.hbm, 2, rfl⟩
abbrev main_arg0_scv : Ref sig .scVector := ⟨.hbm, 0, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_scratch0 : Ref sig .scVector := ⟨.vmem, 3, rfl⟩
abbrev cc1_scratch1 : Ref sig .scVector := ⟨.vmem, 4, rfl⟩
abbrev cc1_scratch2 : Ref sig .scVector := ⟨.vmem, 5, rfl⟩
abbrev cc1_scratch3 : Ref sig .scVector := ⟨.vmem, 6, rfl⟩
abbrev cc1_scratch4 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v20 : BitVec 1 := Scalar.cmpi .slt v1 c10_i32
  let v21 : BitVec 32 := Scalar.extui v20
  let c0_i32_3 : BitVec 32 := 0#32
  let v22 : BitVec 1 := Scalar.cmpi .ne v21 c0_i32_3
  v22

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v18 : BitVec 1 := Scalar.cmpi .eq v1 c8_i32
  let c40_i32 : BitVec 32 := 40#32
  let c7_i32 : BitVec 32 := 7#32
  let v16 : BitVec 1 := Scalar.cmpi .eq v1 c7_i32
  let c51_i32 : BitVec 32 := 51#32
  let c6_i32 : BitVec 32 := 6#32
  let v14 : BitVec 1 := Scalar.cmpi .eq v1 c6_i32
  let c58_i32 : BitVec 32 := 58#32
  let c5_i32 : BitVec 32 := 5#32
  let v12 : BitVec 1 := Scalar.cmpi .eq v1 c5_i32
  let c3_i32_2 : BitVec 32 := 3#32
  let c4_i32 : BitVec 32 := 4#32
  let v10 : BitVec 1 := Scalar.cmpi .eq v1 c4_i32
  let c1_i32_1 : BitVec 32 := 1#32
  let c3_i32 : BitVec 32 := 3#32
  let v8 : BitVec 1 := Scalar.cmpi .eq v1 c3_i32
  let c32_i32 : BitVec 32 := 32#32
  let c2_i32_0 : BitVec 32 := 2#32
  let v6 : BitVec 1 := Scalar.cmpi .eq v1 c2_i32_0
  let c42_i32 : BitVec 32 := 42#32
  let c1_i32 : BitVec 32 := 1#32
  let v4 : BitVec 1 := Scalar.cmpi .eq v1 c1_i32
  let c27_i32 : BitVec 32 := 27#32
  let c0_i32 : BitVec 32 := 0#32
  let v2 : BitVec 1 := Scalar.cmpi .eq v1 c0_i32
  let c17_i32 : BitVec 32 := 17#32
  let c28_i32 : BitVec 32 := 28#32
  let v3 : BitVec 32 := Scalar.select v2 c17_i32 c28_i32
  let v5 : BitVec 32 := Scalar.select v4 c27_i32 v3
  let v7 : BitVec 32 := Scalar.select v6 c42_i32 v5
  let v9 : BitVec 32 := Scalar.select v8 c32_i32 v7
  let v11 : BitVec 32 := Scalar.select v10 c1_i32_1 v9
  let v13 : BitVec 32 := Scalar.select v12 c3_i32_2 v11
  let v15 : BitVec 32 := Scalar.select v14 c58_i32 v13
  let v17 : BitVec 32 := Scalar.select v16 c51_i32 v15
  let v19 : BitVec 32 := Scalar.select v18 c40_i32 v17
  let c0_i32_13_r0 : BitVec 32 := 0#32
  ![v19.toNat, 0]
@[reducible] def k0_t1_loop : Scf.Loop 32 :=
  let c0_i32_6 : BitVec 32 := 0#32
  let c64_i32 : BitVec 32 := 64#32
  let v23 : BitVec 32 := Scalar.addi c0_i32_6 c64_i32
  let c1_i32_7 : BitVec 32 := 1#32
  ⟨c0_i32_6, v23, c1_i32_7⟩
def k0_off2 (k0_t1 : Fin k0_t1_loop.trips) : Fin 1 → Nat :=
  let c0_i32_6 : BitVec 32 := 0#32
  let c1_i32_7 : BitVec 32 := 1#32
  let arg9 : BitVec 32 := Scf.iv c0_i32_6 c1_i32_7 k0_t1
  let c64_i32_13 : BitVec 32 := 64#32
  let v28 : BitVec 32 := Scalar.muli arg9 c64_i32_13
  let c0_i32_14 : BitVec 32 := 0#32
  let v29 : BitVec 32 := Scalar.addi v28 c0_i32_14
  let v30 : Index := Scalar.indexCast v29
  ![v30.toNat]

def k0_chk1 (i : grid0.Coords) (v31 : IVec S16 32) : Prop :=
  (∀ (k0_h1 : k0_cond1 i = 1#1), ∀ a x, ((![v31] : Fin 1 → IVec S16 32) a x).toNat < S100000.size a)
instance k0_chk1.dec : ∀ (i : grid0.Coords) (v31 : IVec S16 32), Decidable (k0_chk1 i v31) := fun i v31 => decidable_of_iff' _ (Iff.of_eq (k0_chk1.eq_1 i v31))
theorem k0_idx1_inb : ∀ (i : grid0.Coords) (v31 : IVec S16 32) (k0_hw1 : k0_chk1 i v31), ∀ (k0_h1 : k0_cond1 i = 1#1), ∀ a x, ((![v31] : Fin 1 → IVec S16 32) a x).toNat < S100000.size a := fun i v31 k0_hw1 k0_h1 => k0_hw1 k0_h1
def k0_off3 (k0_t1 : Fin k0_t1_loop.trips) : Fin 2 → Nat :=
  let c0_i32_15 : BitVec 32 := 0#32
  let v33 : Index := Scalar.indexCast c0_i32_15
  let c0_i32_6 : BitVec 32 := 0#32
  let c1_i32_7 : BitVec 32 := 1#32
  let arg9 : BitVec 32 := Scf.iv c0_i32_6 c1_i32_7 k0_t1
  let c64_i32_13 : BitVec 32 := 64#32
  let v28 : BitVec 32 := Scalar.muli arg9 c64_i32_13
  let c0_i32_14 : BitVec 32 := 0#32
  let v29 : BitVec 32 := Scalar.addi v28 c0_i32_14
  let v34 : Index := Scalar.indexCast v29
  ![0, v34.toNat]
def k0_off4 (k0_t1 : Fin k0_t1_loop.trips) : Fin 1 → Nat :=
  let c0_i32_6 : BitVec 32 := 0#32
  let c1_i32_7 : BitVec 32 := 1#32
  let arg9 : BitVec 32 := Scf.iv c0_i32_6 c1_i32_7 k0_t1
  let c64_i32_16 : BitVec 32 := 64#32
  let v36 : BitVec 32 := Scalar.muli arg9 c64_i32_16
  let c16_i32 : BitVec 32 := 16#32
  let v37 : BitVec 32 := Scalar.addi v36 c16_i32
  let v38 : Index := Scalar.indexCast v37
  ![v38.toNat]

def k0_chk2 (i : grid0.Coords) (v39 : IVec S16 32) : Prop :=
  (∀ (k0_h1 : k0_cond1 i = 1#1), ∀ a x, ((![v39] : Fin 1 → IVec S16 32) a x).toNat < S100000.size a)
instance k0_chk2.dec : ∀ (i : grid0.Coords) (v39 : IVec S16 32), Decidable (k0_chk2 i v39) := fun i v39 => decidable_of_iff' _ (Iff.of_eq (k0_chk2.eq_1 i v39))
theorem k0_idx2_inb : ∀ (i : grid0.Coords) (v39 : IVec S16 32) (k0_hw2 : k0_chk2 i v39), ∀ (k0_h1 : k0_cond1 i = 1#1), ∀ a x, ((![v39] : Fin 1 → IVec S16 32) a x).toNat < S100000.size a := fun i v39 k0_hw2 k0_h1 => k0_hw2 k0_h1
def k0_off5 (k0_t1 : Fin k0_t1_loop.trips) : Fin 2 → Nat :=
  let c0_i32_17 : BitVec 32 := 0#32
  let v41 : Index := Scalar.indexCast c0_i32_17
  let c0_i32_6 : BitVec 32 := 0#32
  let c1_i32_7 : BitVec 32 := 1#32
  let arg9 : BitVec 32 := Scf.iv c0_i32_6 c1_i32_7 k0_t1
  let c64_i32_16 : BitVec 32 := 64#32
  let v36 : BitVec 32 := Scalar.muli arg9 c64_i32_16
  let c16_i32 : BitVec 32 := 16#32
  let v37 : BitVec 32 := Scalar.addi v36 c16_i32
  let v42 : Index := Scalar.indexCast v37
  ![0, v42.toNat]
def k0_off6 (k0_t1 : Fin k0_t1_loop.trips) : Fin 1 → Nat :=
  let c0_i32_6 : BitVec 32 := 0#32
  let c1_i32_7 : BitVec 32 := 1#32
  let arg9 : BitVec 32 := Scf.iv c0_i32_6 c1_i32_7 k0_t1
  let c64_i32_18 : BitVec 32 := 64#32
  let v44 : BitVec 32 := Scalar.muli arg9 c64_i32_18
  let c32_i32_19 : BitVec 32 := 32#32
  let v45 : BitVec 32 := Scalar.addi v44 c32_i32_19
  let v46 : Index := Scalar.indexCast v45
  ![v46.toNat]

def k0_chk3 (i : grid0.Coords) (v47 : IVec S16 32) : Prop :=
  (∀ (k0_h1 : k0_cond1 i = 1#1), ∀ a x, ((![v47] : Fin 1 → IVec S16 32) a x).toNat < S100000.size a)
instance k0_chk3.dec : ∀ (i : grid0.Coords) (v47 : IVec S16 32), Decidable (k0_chk3 i v47) := fun i v47 => decidable_of_iff' _ (Iff.of_eq (k0_chk3.eq_1 i v47))
theorem k0_idx3_inb : ∀ (i : grid0.Coords) (v47 : IVec S16 32) (k0_hw3 : k0_chk3 i v47), ∀ (k0_h1 : k0_cond1 i = 1#1), ∀ a x, ((![v47] : Fin 1 → IVec S16 32) a x).toNat < S100000.size a := fun i v47 k0_hw3 k0_h1 => k0_hw3 k0_h1
def k0_off7 (k0_t1 : Fin k0_t1_loop.trips) : Fin 2 → Nat :=
  let c0_i32_20 : BitVec 32 := 0#32
  let v49 : Index := Scalar.indexCast c0_i32_20
  let c0_i32_6 : BitVec 32 := 0#32
  let c1_i32_7 : BitVec 32 := 1#32
  let arg9 : BitVec 32 := Scf.iv c0_i32_6 c1_i32_7 k0_t1
  let c64_i32_18 : BitVec 32 := 64#32
  let v44 : BitVec 32 := Scalar.muli arg9 c64_i32_18
  let c32_i32_19 : BitVec 32 := 32#32
  let v45 : BitVec 32 := Scalar.addi v44 c32_i32_19
  let v50 : Index := Scalar.indexCast v45
  ![0, v50.toNat]
def k0_off8 (k0_t1 : Fin k0_t1_loop.trips) : Fin 1 → Nat :=
  let c0_i32_6 : BitVec 32 := 0#32
  let c1_i32_7 : BitVec 32 := 1#32
  let arg9 : BitVec 32 := Scf.iv c0_i32_6 c1_i32_7 k0_t1
  let c64_i32_21 : BitVec 32 := 64#32
  let v52 : BitVec 32 := Scalar.muli arg9 c64_i32_21
  let c48_i32 : BitVec 32 := 48#32
  let v53 : BitVec 32 := Scalar.addi v52 c48_i32
  let v54 : Index := Scalar.indexCast v53
  ![v54.toNat]

def k0_chk4 (i : grid0.Coords) (v55 : IVec S16 32) : Prop :=
  (∀ (k0_h1 : k0_cond1 i = 1#1), ∀ a x, ((![v55] : Fin 1 → IVec S16 32) a x).toNat < S100000.size a)
instance k0_chk4.dec : ∀ (i : grid0.Coords) (v55 : IVec S16 32), Decidable (k0_chk4 i v55) := fun i v55 => decidable_of_iff' _ (Iff.of_eq (k0_chk4.eq_1 i v55))
theorem k0_idx4_inb : ∀ (i : grid0.Coords) (v55 : IVec S16 32) (k0_hw4 : k0_chk4 i v55), ∀ (k0_h1 : k0_cond1 i = 1#1), ∀ a x, ((![v55] : Fin 1 → IVec S16 32) a x).toNat < S100000.size a := fun i v55 k0_hw4 k0_h1 => k0_hw4 k0_h1
def k0_off9 (k0_t1 : Fin k0_t1_loop.trips) : Fin 2 → Nat :=
  let c0_i32_22 : BitVec 32 := 0#32
  let v57 : Index := Scalar.indexCast c0_i32_22
  let c0_i32_6 : BitVec 32 := 0#32
  let c1_i32_7 : BitVec 32 := 1#32
  let arg9 : BitVec 32 := Scf.iv c0_i32_6 c1_i32_7 k0_t1
  let c64_i32_21 : BitVec 32 := 64#32
  let v52 : BitVec 32 := Scalar.muli arg9 c64_i32_21
  let c48_i32 : BitVec 32 := 48#32
  let v53 : BitVec 32 := Scalar.addi v52 c48_i32
  let v58 : Index := Scalar.indexCast v53
  ![0, v58.toNat]
def k0_off10 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  ![v1.toNat, 0]
abbrev grid1 : Pipeline.Grid := ⟨2, ![2, 16], ![false, false]⟩

def k1_cond1 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32_17 : BitVec 32 := 25#32
  let v51 : BitVec 1 := Scalar.cmpi .slt v1 c25_i32_17
  let v52 : BitVec 32 := Scalar.extui v51
  let c0_i32_18 : BitVec 32 := 0#32
  let v53 : BitVec 1 := Scalar.cmpi .ne v52 c0_i32_18
  v53

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c23_i32_15 : BitVec 32 := 23#32
  let v49 : BitVec 1 := Scalar.cmpi .eq v1 c23_i32_15
  let c5_i32_16 : BitVec 32 := 5#32
  let c22_i32_14 : BitVec 32 := 22#32
  let v47 : BitVec 1 := Scalar.cmpi .eq v1 c22_i32_14
  let c27_i32 : BitVec 32 := 27#32
  let c21_i32_12 : BitVec 32 := 21#32
  let v45 : BitVec 1 := Scalar.cmpi .eq v1 c21_i32_12
  let c16_i32_13 : BitVec 32 := 16#32
  let c20_i32_10 : BitVec 32 := 20#32
  let v43 : BitVec 1 := Scalar.cmpi .eq v1 c20_i32_10
  let c18_i32_11 : BitVec 32 := 18#32
  let c19_i32_9 : BitVec 32 := 19#32
  let v41 : BitVec 1 := Scalar.cmpi .eq v1 c19_i32_9
  let c22_i32 : BitVec 32 := 22#32
  let c18_i32 : BitVec 32 := 18#32
  let v39 : BitVec 1 := Scalar.cmpi .eq v1 c18_i32
  let c19_i32 : BitVec 32 := 19#32
  let c17_i32_7 : BitVec 32 := 17#32
  let v37 : BitVec 1 := Scalar.cmpi .eq v1 c17_i32_7
  let c12_i32_8 : BitVec 32 := 12#32
  let c16_i32 : BitVec 32 := 16#32
  let v35 : BitVec 1 := Scalar.cmpi .eq v1 c16_i32
  let c17_i32 : BitVec 32 := 17#32
  let c15_i32_6 : BitVec 32 := 15#32
  let v33 : BitVec 1 := Scalar.cmpi .eq v1 c15_i32_6
  let c57_i32 : BitVec 32 := 57#32
  let c14_i32 : BitVec 32 := 14#32
  let v31 : BitVec 1 := Scalar.cmpi .eq v1 c14_i32
  let c20_i32 : BitVec 32 := 20#32
  let c13_i32 : BitVec 32 := 13#32
  let v29 : BitVec 1 := Scalar.cmpi .eq v1 c13_i32
  let c11_i32_5 : BitVec 32 := 11#32
  let c12_i32 : BitVec 32 := 12#32
  let v27 : BitVec 1 := Scalar.cmpi .eq v1 c12_i32
  let c21_i32 : BitVec 32 := 21#32
  let c11_i32 : BitVec 32 := 11#32
  let v25 : BitVec 1 := Scalar.cmpi .eq v1 c11_i32
  let c42_i32 : BitVec 32 := 42#32
  let c10_i32_4 : BitVec 32 := 10#32
  let v23 : BitVec 1 := Scalar.cmpi .eq v1 c10_i32_4
  let c60_i32 : BitVec 32 := 60#32
  let c9_i32 : BitVec 32 := 9#32
  let v21 : BitVec 1 := Scalar.cmpi .eq v1 c9_i32
  let c4_i32_3 : BitVec 32 := 4#32
  let c8_i32 : BitVec 32 := 8#32
  let v19 : BitVec 1 := Scalar.cmpi .eq v1 c8_i32
  let c49_i32 : BitVec 32 := 49#32
  let c7_i32 : BitVec 32 := 7#32
  let v17 : BitVec 1 := Scalar.cmpi .eq v1 c7_i32
  let c0_i32_2 : BitVec 32 := 0#32
  let c6_i32 : BitVec 32 := 6#32
  let v15 : BitVec 1 := Scalar.cmpi .eq v1 c6_i32
  let c28_i32 : BitVec 32 := 28#32
  let c5_i32 : BitVec 32 := 5#32
  let v13 : BitVec 1 := Scalar.cmpi .eq v1 c5_i32
  let c25_i32 : BitVec 32 := 25#32
  let c4_i32 : BitVec 32 := 4#32
  let v11 : BitVec 1 := Scalar.cmpi .eq v1 c4_i32
  let c48_i32 : BitVec 32 := 48#32
  let c3_i32 : BitVec 32 := 3#32
  let v9 : BitVec 1 := Scalar.cmpi .eq v1 c3_i32
  let c10_i32 : BitVec 32 := 10#32
  let c2_i32_1 : BitVec 32 := 2#32
  let v7 : BitVec 1 := Scalar.cmpi .eq v1 c2_i32_1
  let c15_i32 : BitVec 32 := 15#32
  let c1_i32 : BitVec 32 := 1#32
  let v5 : BitVec 1 := Scalar.cmpi .eq v1 c1_i32
  let c32_i32 : BitVec 32 := 32#32
  let c0_i32 : BitVec 32 := 0#32
  let v3 : BitVec 1 := Scalar.cmpi .eq v1 c0_i32
  let c2_i32_0 : BitVec 32 := 2#32
  let c23_i32 : BitVec 32 := 23#32
  let v4 : BitVec 32 := Scalar.select v3 c2_i32_0 c23_i32
  let v6 : BitVec 32 := Scalar.select v5 c32_i32 v4
  let v8 : BitVec 32 := Scalar.select v7 c15_i32 v6
  let v10 : BitVec 32 := Scalar.select v9 c10_i32 v8
  let v12 : BitVec 32 := Scalar.select v11 c48_i32 v10
  let v14 : BitVec 32 := Scalar.select v13 c25_i32 v12
  let v16 : BitVec 32 := Scalar.select v15 c28_i32 v14
  let v18 : BitVec 32 := Scalar.select v17 c0_i32_2 v16
  let v20 : BitVec 32 := Scalar.select v19 c49_i32 v18
  let v22 : BitVec 32 := Scalar.select v21 c4_i32_3 v20
  let v24 : BitVec 32 := Scalar.select v23 c60_i32 v22
  let v26 : BitVec 32 := Scalar.select v25 c42_i32 v24
  let v28 : BitVec 32 := Scalar.select v27 c21_i32 v26
  let v30 : BitVec 32 := Scalar.select v29 c11_i32_5 v28
  let v32 : BitVec 32 := Scalar.select v31 c20_i32 v30
  let v34 : BitVec 32 := Scalar.select v33 c57_i32 v32
  let v36 : BitVec 32 := Scalar.select v35 c17_i32 v34
  let v38 : BitVec 32 := Scalar.select v37 c12_i32_8 v36
  let v40 : BitVec 32 := Scalar.select v39 c19_i32 v38
  let v42 : BitVec 32 := Scalar.select v41 c22_i32 v40
  let v44 : BitVec 32 := Scalar.select v43 c18_i32_11 v42
  let v46 : BitVec 32 := Scalar.select v45 c16_i32_13 v44
  let v48 : BitVec 32 := Scalar.select v47 c27_i32 v46
  let v50 : BitVec 32 := Scalar.select v49 c5_i32_16 v48
  let c0_i32_20 : BitVec 32 := 0#32
  ![v50.toNat, 0]
@[reducible] def k1_t1_loop : Scf.Loop 32 :=
  let c0_i32_43 : BitVec 32 := 0#32
  let c320_i32 : BitVec 32 := 320#32
  let v81 : BitVec 32 := Scalar.addi c0_i32_43 c320_i32
  let c1_i32_44 : BitVec 32 := 1#32
  ⟨c0_i32_43, v81, c1_i32_44⟩

def k1_chk1 (i : grid1.Coords) (arg16 : IVec S16 32) (arg17 : IVec S16 32) : Prop :=
  (∀ (k1_h1 : k1_cond1 i = 1#1), ∀ a x, ((![arg16, arg17] : Fin 2 → IVec S16 32) a x).toNat < S10x512.size a)
instance k1_chk1.dec : ∀ (i : grid1.Coords) (arg16 : IVec S16 32) (arg17 : IVec S16 32), Decidable (k1_chk1 i arg16 arg17) := fun i arg16 arg17 => decidable_of_iff' _ (Iff.of_eq (k1_chk1.eq_1 i arg16 arg17))
theorem k1_idx1_inb : ∀ (i : grid1.Coords) (arg16 : IVec S16 32) (arg17 : IVec S16 32) (k1_hw1 : k1_chk1 i arg16 arg17), ∀ (k1_h1 : k1_cond1 i = 1#1), ∀ a x, ((![arg16, arg17] : Fin 2 → IVec S16 32) a x).toNat < S10x512.size a := fun i arg16 arg17 k1_hw1 k1_h1 => k1_hw1 k1_h1

def k1_chk2 (i : grid1.Coords) (v219 : IVec S16 32) : Prop :=
  (∀ (k1_h1 : k1_cond1 i = 1#1), ∀ a x, ((![v219] : Fin 1 → IVec S16 32) a x).toNat < S100000.size a)
instance k1_chk2.dec : ∀ (i : grid1.Coords) (v219 : IVec S16 32), Decidable (k1_chk2 i v219) := fun i v219 => decidable_of_iff' _ (Iff.of_eq (k1_chk2.eq_1 i v219))
theorem k1_idx2_inb : ∀ (i : grid1.Coords) (v219 : IVec S16 32) (k1_hw2 : k1_chk2 i v219), ∀ (k1_h1 : k1_cond1 i = 1#1), ∀ a x, ((![v219] : Fin 1 → IVec S16 32) a x).toNat < S100000.size a := fun i v219 k1_hw2 k1_h1 => k1_hw2 k1_h1
def k1_off2 (k1_t1 : Fin k1_t1_loop.trips) : Fin 2 → Nat :=
  let c0_i32_167 : BitVec 32 := 0#32
  let v221 : Index := Scalar.indexCast c0_i32_167
  let c0_i32_43 : BitVec 32 := 0#32
  let c1_i32_44 : BitVec 32 := 1#32
  let arg15 : BitVec 32 := Scf.iv c0_i32_43 c1_i32_44 k1_t1
  let c16_i32_166 : BitVec 32 := 16#32
  let v218 : BitVec 32 := Scalar.muli arg15 c16_i32_166
  let v222 : Index := Scalar.indexCast v218
  ![0, v222.toNat]
def k1_off3 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_46 : BitVec 32 := 0#32
  ![v1.toNat, 0]
@[reducible] def k1_t2_loop : Scf.Loop 32 :=
  let c0_i32_58 : BitVec 32 := 0#32
  let c320_i32_59 : BitVec 32 := 320#32
  let v98 : BitVec 32 := Scalar.addi c0_i32_58 c320_i32_59
  let c1_i32_60 : BitVec 32 := 1#32
  ⟨c0_i32_58, v98, c1_i32_60⟩

def k1_chk3 (i : grid1.Coords) (arg16 : IVec S16 32) (arg17 : IVec S16 32) : Prop :=
  (∀ (k1_h1 : k1_cond1 i = 1#1), ∀ a x, ((![arg16, arg17] : Fin 2 → IVec S16 32) a x).toNat < S10x512.size a)
instance k1_chk3.dec : ∀ (i : grid1.Coords) (arg16 : IVec S16 32) (arg17 : IVec S16 32), Decidable (k1_chk3 i arg16 arg17) := fun i arg16 arg17 => decidable_of_iff' _ (Iff.of_eq (k1_chk3.eq_1 i arg16 arg17))
theorem k1_idx3_inb : ∀ (i : grid1.Coords) (arg16 : IVec S16 32) (arg17 : IVec S16 32) (k1_hw3 : k1_chk3 i arg16 arg17), ∀ (k1_h1 : k1_cond1 i = 1#1), ∀ a x, ((![arg16, arg17] : Fin 2 → IVec S16 32) a x).toNat < S10x512.size a := fun i arg16 arg17 k1_hw3 k1_h1 => k1_hw3 k1_h1

def k1_chk4 (i : grid1.Coords) (v219 : IVec S16 32) : Prop :=
  (∀ (k1_h1 : k1_cond1 i = 1#1), ∀ a x, ((![v219] : Fin 1 → IVec S16 32) a x).toNat < S100000.size a)
instance k1_chk4.dec : ∀ (i : grid1.Coords) (v219 : IVec S16 32), Decidable (k1_chk4 i v219) := fun i v219 => decidable_of_iff' _ (Iff.of_eq (k1_chk4.eq_1 i v219))
theorem k1_idx4_inb : ∀ (i : grid1.Coords) (v219 : IVec S16 32) (k1_hw4 : k1_chk4 i v219), ∀ (k1_h1 : k1_cond1 i = 1#1), ∀ a x, ((![v219] : Fin 1 → IVec S16 32) a x).toNat < S100000.size a := fun i v219 k1_hw4 k1_h1 => k1_hw4 k1_h1
def k1_off4 (k1_t2 : Fin k1_t2_loop.trips) : Fin 2 → Nat :=
  let c0_i32_167 : BitVec 32 := 0#32
  let v221 : Index := Scalar.indexCast c0_i32_167
  let c0_i32_58 : BitVec 32 := 0#32
  let c1_i32_60 : BitVec 32 := 1#32
  let arg15 : BitVec 32 := Scf.iv c0_i32_58 c1_i32_60 k1_t2
  let c16_i32_166 : BitVec 32 := 16#32
  let v218 : BitVec 32 := Scalar.muli arg15 c16_i32_166
  let v222 : Index := Scalar.indexCast v218
  ![0, v222.toNat]
def k1_off5 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5120_i32 : BitVec 32 := 5120#32
  ![v1.toNat, 5120]
@[reducible] def k1_t3_loop : Scf.Loop 32 :=
  let c0_i32_75 : BitVec 32 := 0#32
  let c320_i32_76 : BitVec 32 := 320#32
  let v117 : BitVec 32 := Scalar.addi c0_i32_75 c320_i32_76
  let c1_i32_77 : BitVec 32 := 1#32
  ⟨c0_i32_75, v117, c1_i32_77⟩

def k1_chk5 (i : grid1.Coords) (arg16 : IVec S16 32) (arg17 : IVec S16 32) : Prop :=
  (∀ (k1_h1 : k1_cond1 i = 1#1), ∀ a x, ((![arg16, arg17] : Fin 2 → IVec S16 32) a x).toNat < S10x512.size a)
instance k1_chk5.dec : ∀ (i : grid1.Coords) (arg16 : IVec S16 32) (arg17 : IVec S16 32), Decidable (k1_chk5 i arg16 arg17) := fun i arg16 arg17 => decidable_of_iff' _ (Iff.of_eq (k1_chk5.eq_1 i arg16 arg17))
theorem k1_idx5_inb : ∀ (i : grid1.Coords) (arg16 : IVec S16 32) (arg17 : IVec S16 32) (k1_hw5 : k1_chk5 i arg16 arg17), ∀ (k1_h1 : k1_cond1 i = 1#1), ∀ a x, ((![arg16, arg17] : Fin 2 → IVec S16 32) a x).toNat < S10x512.size a := fun i arg16 arg17 k1_hw5 k1_h1 => k1_hw5 k1_h1

def k1_chk6 (i : grid1.Coords) (v219 : IVec S16 32) : Prop :=
  (∀ (k1_h1 : k1_cond1 i = 1#1), ∀ a x, ((![v219] : Fin 1 → IVec S16 32) a x).toNat < S100000.size a)
instance k1_chk6.dec : ∀ (i : grid1.Coords) (v219 : IVec S16 32), Decidable (k1_chk6 i v219) := fun i v219 => decidable_of_iff' _ (Iff.of_eq (k1_chk6.eq_1 i v219))
theorem k1_idx6_inb : ∀ (i : grid1.Coords) (v219 : IVec S16 32) (k1_hw6 : k1_chk6 i v219), ∀ (k1_h1 : k1_cond1 i = 1#1), ∀ a x, ((![v219] : Fin 1 → IVec S16 32) a x).toNat < S100000.size a := fun i v219 k1_hw6 k1_h1 => k1_hw6 k1_h1
def k1_off6 (k1_t3 : Fin k1_t3_loop.trips) : Fin 2 → Nat :=
  let c0_i32_167 : BitVec 32 := 0#32
  let v221 : Index := Scalar.indexCast c0_i32_167
  let c0_i32_75 : BitVec 32 := 0#32
  let c1_i32_77 : BitVec 32 := 1#32
  let arg15 : BitVec 32 := Scf.iv c0_i32_75 c1_i32_77 k1_t3
  let c16_i32_166 : BitVec 32 := 16#32
  let v218 : BitVec 32 := Scalar.muli arg15 c16_i32_166
  let v222 : Index := Scalar.indexCast v218
  ![0, v222.toNat]
def k1_off7 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  ![v1.toNat, 10240]
@[reducible] def k1_t4_loop : Scf.Loop 32 :=
  let c0_i32_92 : BitVec 32 := 0#32
  let c320_i32_93 : BitVec 32 := 320#32
  let v136 : BitVec 32 := Scalar.addi c0_i32_92 c320_i32_93
  let c1_i32_94 : BitVec 32 := 1#32
  ⟨c0_i32_92, v136, c1_i32_94⟩

def k1_chk7 (i : grid1.Coords) (arg16 : IVec S16 32) (arg17 : IVec S16 32) : Prop :=
  (∀ (k1_h1 : k1_cond1 i = 1#1), ∀ a x, ((![arg16, arg17] : Fin 2 → IVec S16 32) a x).toNat < S10x512.size a)
instance k1_chk7.dec : ∀ (i : grid1.Coords) (arg16 : IVec S16 32) (arg17 : IVec S16 32), Decidable (k1_chk7 i arg16 arg17) := fun i arg16 arg17 => decidable_of_iff' _ (Iff.of_eq (k1_chk7.eq_1 i arg16 arg17))
theorem k1_idx7_inb : ∀ (i : grid1.Coords) (arg16 : IVec S16 32) (arg17 : IVec S16 32) (k1_hw7 : k1_chk7 i arg16 arg17), ∀ (k1_h1 : k1_cond1 i = 1#1), ∀ a x, ((![arg16, arg17] : Fin 2 → IVec S16 32) a x).toNat < S10x512.size a := fun i arg16 arg17 k1_hw7 k1_h1 => k1_hw7 k1_h1

def k1_chk8 (i : grid1.Coords) (v219 : IVec S16 32) : Prop :=
  (∀ (k1_h1 : k1_cond1 i = 1#1), ∀ a x, ((![v219] : Fin 1 → IVec S16 32) a x).toNat < S100000.size a)
instance k1_chk8.dec : ∀ (i : grid1.Coords) (v219 : IVec S16 32), Decidable (k1_chk8 i v219) := fun i v219 => decidable_of_iff' _ (Iff.of_eq (k1_chk8.eq_1 i v219))
theorem k1_idx8_inb : ∀ (i : grid1.Coords) (v219 : IVec S16 32) (k1_hw8 : k1_chk8 i v219), ∀ (k1_h1 : k1_cond1 i = 1#1), ∀ a x, ((![v219] : Fin 1 → IVec S16 32) a x).toNat < S100000.size a := fun i v219 k1_hw8 k1_h1 => k1_hw8 k1_h1
def k1_off8 (k1_t4 : Fin k1_t4_loop.trips) : Fin 2 → Nat :=
  let c0_i32_167 : BitVec 32 := 0#32
  let v221 : Index := Scalar.indexCast c0_i32_167
  let c0_i32_92 : BitVec 32 := 0#32
  let c1_i32_94 : BitVec 32 := 1#32
  let arg15 : BitVec 32 := Scf.iv c0_i32_92 c1_i32_94 k1_t4
  let c16_i32_166 : BitVec 32 := 16#32
  let v218 : BitVec 32 := Scalar.muli arg15 c16_i32_166
  let v222 : Index := Scalar.indexCast v218
  ![0, v222.toNat]
def k1_off9 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15360_i32 : BitVec 32 := 15360#32
  ![v1.toNat, 15360]
@[reducible] def k1_t5_loop : Scf.Loop 32 :=
  let c0_i32_109 : BitVec 32 := 0#32
  let c320_i32_110 : BitVec 32 := 320#32
  let v155 : BitVec 32 := Scalar.addi c0_i32_109 c320_i32_110
  let c1_i32_111 : BitVec 32 := 1#32
  ⟨c0_i32_109, v155, c1_i32_111⟩

def k1_chk9 (i : grid1.Coords) (arg16 : IVec S16 32) (arg17 : IVec S16 32) : Prop :=
  (∀ (k1_h1 : k1_cond1 i = 1#1), ∀ a x, ((![arg16, arg17] : Fin 2 → IVec S16 32) a x).toNat < S10x512.size a)
instance k1_chk9.dec : ∀ (i : grid1.Coords) (arg16 : IVec S16 32) (arg17 : IVec S16 32), Decidable (k1_chk9 i arg16 arg17) := fun i arg16 arg17 => decidable_of_iff' _ (Iff.of_eq (k1_chk9.eq_1 i arg16 arg17))
theorem k1_idx9_inb : ∀ (i : grid1.Coords) (arg16 : IVec S16 32) (arg17 : IVec S16 32) (k1_hw9 : k1_chk9 i arg16 arg17), ∀ (k1_h1 : k1_cond1 i = 1#1), ∀ a x, ((![arg16, arg17] : Fin 2 → IVec S16 32) a x).toNat < S10x512.size a := fun i arg16 arg17 k1_hw9 k1_h1 => k1_hw9 k1_h1

def k1_chk10 (i : grid1.Coords) (v219 : IVec S16 32) : Prop :=
  (∀ (k1_h1 : k1_cond1 i = 1#1), ∀ a x, ((![v219] : Fin 1 → IVec S16 32) a x).toNat < S100000.size a)
instance k1_chk10.dec : ∀ (i : grid1.Coords) (v219 : IVec S16 32), Decidable (k1_chk10 i v219) := fun i v219 => decidable_of_iff' _ (Iff.of_eq (k1_chk10.eq_1 i v219))
theorem k1_idx10_inb : ∀ (i : grid1.Coords) (v219 : IVec S16 32) (k1_hw10 : k1_chk10 i v219), ∀ (k1_h1 : k1_cond1 i = 1#1), ∀ a x, ((![v219] : Fin 1 → IVec S16 32) a x).toNat < S100000.size a := fun i v219 k1_hw10 k1_h1 => k1_hw10 k1_h1
def k1_off10 (k1_t5 : Fin k1_t5_loop.trips) : Fin 2 → Nat :=
  let c0_i32_167 : BitVec 32 := 0#32
  let v221 : Index := Scalar.indexCast c0_i32_167
  let c0_i32_109 : BitVec 32 := 0#32
  let c1_i32_111 : BitVec 32 := 1#32
  let arg15 : BitVec 32 := Scf.iv c0_i32_109 c1_i32_111 k1_t5
  let c16_i32_166 : BitVec 32 := 16#32
  let v218 : BitVec 32 := Scalar.muli arg15 c16_i32_166
  let v222 : Index := Scalar.indexCast v218
  ![0, v222.toNat]
def k1_off11 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20480_i32 : BitVec 32 := 20480#32
  ![v1.toNat, 20480]
@[reducible] def k1_t6_loop : Scf.Loop 32 :=
  let c0_i32_126 : BitVec 32 := 0#32
  let c320_i32_127 : BitVec 32 := 320#32
  let v174 : BitVec 32 := Scalar.addi c0_i32_126 c320_i32_127
  let c1_i32_128 : BitVec 32 := 1#32
  ⟨c0_i32_126, v174, c1_i32_128⟩

def k1_chk11 (i : grid1.Coords) (arg16 : IVec S16 32) (arg17 : IVec S16 32) : Prop :=
  (∀ (k1_h1 : k1_cond1 i = 1#1), ∀ a x, ((![arg16, arg17] : Fin 2 → IVec S16 32) a x).toNat < S10x512.size a)
instance k1_chk11.dec : ∀ (i : grid1.Coords) (arg16 : IVec S16 32) (arg17 : IVec S16 32), Decidable (k1_chk11 i arg16 arg17) := fun i arg16 arg17 => decidable_of_iff' _ (Iff.of_eq (k1_chk11.eq_1 i arg16 arg17))
theorem k1_idx11_inb : ∀ (i : grid1.Coords) (arg16 : IVec S16 32) (arg17 : IVec S16 32) (k1_hw11 : k1_chk11 i arg16 arg17), ∀ (k1_h1 : k1_cond1 i = 1#1), ∀ a x, ((![arg16, arg17] : Fin 2 → IVec S16 32) a x).toNat < S10x512.size a := fun i arg16 arg17 k1_hw11 k1_h1 => k1_hw11 k1_h1

def k1_chk12 (i : grid1.Coords) (v219 : IVec S16 32) : Prop :=
  (∀ (k1_h1 : k1_cond1 i = 1#1), ∀ a x, ((![v219] : Fin 1 → IVec S16 32) a x).toNat < S100000.size a)
instance k1_chk12.dec : ∀ (i : grid1.Coords) (v219 : IVec S16 32), Decidable (k1_chk12 i v219) := fun i v219 => decidable_of_iff' _ (Iff.of_eq (k1_chk12.eq_1 i v219))
theorem k1_idx12_inb : ∀ (i : grid1.Coords) (v219 : IVec S16 32) (k1_hw12 : k1_chk12 i v219), ∀ (k1_h1 : k1_cond1 i = 1#1), ∀ a x, ((![v219] : Fin 1 → IVec S16 32) a x).toNat < S100000.size a := fun i v219 k1_hw12 k1_h1 => k1_hw12 k1_h1
def k1_off12 (k1_t6 : Fin k1_t6_loop.trips) : Fin 2 → Nat :=
  let c0_i32_167 : BitVec 32 := 0#32
  let v221 : Index := Scalar.indexCast c0_i32_167
  let c0_i32_126 : BitVec 32 := 0#32
  let c1_i32_128 : BitVec 32 := 1#32
  let arg15 : BitVec 32 := Scf.iv c0_i32_126 c1_i32_128 k1_t6
  let c16_i32_166 : BitVec 32 := 16#32
  let v218 : BitVec 32 := Scalar.muli arg15 c16_i32_166
  let v222 : Index := Scalar.indexCast v218
  ![0, v222.toNat]
def k1_off13 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  ![v1.toNat, 25600]
@[reducible] def k1_t7_loop : Scf.Loop 32 :=
  let c0_i32_143 : BitVec 32 := 0#32
  let c320_i32_144 : BitVec 32 := 320#32
  let v193 : BitVec 32 := Scalar.addi c0_i32_143 c320_i32_144
  let c1_i32_145 : BitVec 32 := 1#32
  ⟨c0_i32_143, v193, c1_i32_145⟩

def k1_chk13 (i : grid1.Coords) (arg16 : IVec S16 32) (arg17 : IVec S16 32) : Prop :=
  (∀ (k1_h1 : k1_cond1 i = 1#1), ∀ a x, ((![arg16, arg17] : Fin 2 → IVec S16 32) a x).toNat < S10x512.size a)
instance k1_chk13.dec : ∀ (i : grid1.Coords) (arg16 : IVec S16 32) (arg17 : IVec S16 32), Decidable (k1_chk13 i arg16 arg17) := fun i arg16 arg17 => decidable_of_iff' _ (Iff.of_eq (k1_chk13.eq_1 i arg16 arg17))
theorem k1_idx13_inb : ∀ (i : grid1.Coords) (arg16 : IVec S16 32) (arg17 : IVec S16 32) (k1_hw13 : k1_chk13 i arg16 arg17), ∀ (k1_h1 : k1_cond1 i = 1#1), ∀ a x, ((![arg16, arg17] : Fin 2 → IVec S16 32) a x).toNat < S10x512.size a := fun i arg16 arg17 k1_hw13 k1_h1 => k1_hw13 k1_h1

def k1_chk14 (i : grid1.Coords) (v219 : IVec S16 32) : Prop :=
  (∀ (k1_h1 : k1_cond1 i = 1#1), ∀ a x, ((![v219] : Fin 1 → IVec S16 32) a x).toNat < S100000.size a)
instance k1_chk14.dec : ∀ (i : grid1.Coords) (v219 : IVec S16 32), Decidable (k1_chk14 i v219) := fun i v219 => decidable_of_iff' _ (Iff.of_eq (k1_chk14.eq_1 i v219))
theorem k1_idx14_inb : ∀ (i : grid1.Coords) (v219 : IVec S16 32) (k1_hw14 : k1_chk14 i v219), ∀ (k1_h1 : k1_cond1 i = 1#1), ∀ a x, ((![v219] : Fin 1 → IVec S16 32) a x).toNat < S100000.size a := fun i v219 k1_hw14 k1_h1 => k1_hw14 k1_h1
def k1_off14 (k1_t7 : Fin k1_t7_loop.trips) : Fin 2 → Nat :=
  let c0_i32_167 : BitVec 32 := 0#32
  let v221 : Index := Scalar.indexCast c0_i32_167
  let c0_i32_143 : BitVec 32 := 0#32
  let c1_i32_145 : BitVec 32 := 1#32
  let arg15 : BitVec 32 := Scf.iv c0_i32_143 c1_i32_145 k1_t7
  let c16_i32_166 : BitVec 32 := 16#32
  let v218 : BitVec 32 := Scalar.muli arg15 c16_i32_166
  let v222 : Index := Scalar.indexCast v218
  ![0, v222.toNat]
def k1_off15 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30720_i32 : BitVec 32 := 30720#32
  ![v1.toNat, 30720]
@[reducible] def k1_t8_loop : Scf.Loop 32 :=
  let c0_i32_157 : BitVec 32 := 0#32
  let c320_i32_158 : BitVec 32 := 320#32
  let v210 : BitVec 32 := Scalar.addi c0_i32_157 c320_i32_158
  let c1_i32_159 : BitVec 32 := 1#32
  ⟨c0_i32_157, v210, c1_i32_159⟩

def k1_chk15 (i : grid1.Coords) (arg16 : IVec S16 32) (arg17 : IVec S16 32) : Prop :=
  (∀ (k1_h1 : k1_cond1 i = 1#1), ∀ a x, ((![arg16, arg17] : Fin 2 → IVec S16 32) a x).toNat < S10x512.size a)
instance k1_chk15.dec : ∀ (i : grid1.Coords) (arg16 : IVec S16 32) (arg17 : IVec S16 32), Decidable (k1_chk15 i arg16 arg17) := fun i arg16 arg17 => decidable_of_iff' _ (Iff.of_eq (k1_chk15.eq_1 i arg16 arg17))
theorem k1_idx15_inb : ∀ (i : grid1.Coords) (arg16 : IVec S16 32) (arg17 : IVec S16 32) (k1_hw15 : k1_chk15 i arg16 arg17), ∀ (k1_h1 : k1_cond1 i = 1#1), ∀ a x, ((![arg16, arg17] : Fin 2 → IVec S16 32) a x).toNat < S10x512.size a := fun i arg16 arg17 k1_hw15 k1_h1 => k1_hw15 k1_h1

def k1_chk16 (i : grid1.Coords) (v219 : IVec S16 32) : Prop :=
  (∀ (k1_h1 : k1_cond1 i = 1#1), ∀ a x, ((![v219] : Fin 1 → IVec S16 32) a x).toNat < S100000.size a)
instance k1_chk16.dec : ∀ (i : grid1.Coords) (v219 : IVec S16 32), Decidable (k1_chk16 i v219) := fun i v219 => decidable_of_iff' _ (Iff.of_eq (k1_chk16.eq_1 i v219))
theorem k1_idx16_inb : ∀ (i : grid1.Coords) (v219 : IVec S16 32) (k1_hw16 : k1_chk16 i v219), ∀ (k1_h1 : k1_cond1 i = 1#1), ∀ a x, ((![v219] : Fin 1 → IVec S16 32) a x).toNat < S100000.size a := fun i v219 k1_hw16 k1_h1 => k1_hw16 k1_h1
def k1_off16 (k1_t8 : Fin k1_t8_loop.trips) : Fin 2 → Nat :=
  let c0_i32_167 : BitVec 32 := 0#32
  let v221 : Index := Scalar.indexCast c0_i32_167
  let c0_i32_157 : BitVec 32 := 0#32
  let c1_i32_159 : BitVec 32 := 1#32
  let arg15 : BitVec 32 := Scf.iv c0_i32_157 c1_i32_159 k1_t8
  let c16_i32_166 : BitVec 32 := 16#32
  let v218 : BitVec 32 := Scalar.muli arg15 c16_i32_166
  let v222 : Index := Scalar.indexCast v218
  ![0, v222.toNat]
def k1_off17 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c35840_i32 : BitVec 32 := 35840#32
  ![v1.toNat, 35840]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class Facts₀ : Prop where
  transposes_S100000x64_S64x100000_1_0 : S100000x64.Transposes [1, 0] S64x100000
  inb_S1x100000_S1x100000_0_0 : ∀ a, (![0, 0] : Fin 2 → Nat) a + S1x100000.size a ≤ S1x100000.size a
  squeezes_S1x100000_S100000 : S1x100000.Squeezes S100000
  h_S16 : 0 < S16.numel
  h_S100000 : 0 < S100000.numel
  h_S1x16 : 0 < S1x16.numel
  shapeCasts_S1x16_S16 : S1x16.ShapeCasts S16
  shapeCasts_S16_S1x16 : S16.ShapeCasts S1x16
  iota_S16_d0_w32_scVector : S16.Iotas .scVector 32 [0]
  inb_S10x4096_S10x512_0_0 : ∀ a, (![0, 0] : Fin 2 → Nat) a + S10x512.size a ≤ S10x4096.size a
  inb_S10x4096_S10x512_0_512 : ∀ a, (![0, 512] : Fin 2 → Nat) a + S10x512.size a ≤ S10x4096.size a
  natLt_1_32 : 1 < 32
  h_S10x512 : 0 < S10x512.numel
  inb_S10x4096_S10x512_0_1024 : ∀ a, (![0, 1024] : Fin 2 → Nat) a + S10x512.size a ≤ S10x4096.size a
  inb_S10x4096_S10x512_0_1536 : ∀ a, (![0, 1536] : Fin 2 → Nat) a + S10x512.size a ≤ S10x4096.size a
  inb_S10x4096_S10x512_0_2048 : ∀ a, (![0, 2048] : Fin 2 → Nat) a + S10x512.size a ≤ S10x4096.size a
  inb_S10x4096_S10x512_0_2560 : ∀ a, (![0, 2560] : Fin 2 → Nat) a + S10x512.size a ≤ S10x4096.size a
  inb_S10x4096_S10x512_0_3072 : ∀ a, (![0, 3072] : Fin 2 → Nat) a + S10x512.size a ≤ S10x4096.size a
  inb_S10x4096_S10x512_0_3584 : ∀ a, (![0, 3584] : Fin 2 → Nat) a + S10x512.size a ≤ S10x4096.size a
  transposes_S10x4096_S4096x10_1_0 : S10x4096.Transposes [1, 0] S4096x10
  transposes_S25x40960_S40960x25_1_0 : S25x40960.Transposes [1, 0] S40960x25
  hcc0_scratch3 : 0 + S_.numel ≤ 8
  hcc0_scoped0 : 1 + S_.numel ≤ 8
  hcc0_scoped1 : 2 + S_.numel ≤ 8
  hcc1_scratch5 : 3 + S_.numel ≤ 8
  hcc1_scratch6 : 4 + S_.numel ≤ 8
  hcc1_scratch7 : 5 + S_.numel ≤ 8
  hcc1_scratch8 : 6 + S_.numel ≤ 8
  hcc1_scratch9 : 7 + S_.numel ≤ 8
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (k0_h1 : k0_cond1 i = 1#1), ∀ a, (k0_off1 i) a + S1x100000.size a ≤ S64x100000.size a
  k0_t1_ok : ∀ i : grid0.Coords, ∀ (k0_h1 : k0_cond1 i = 1#1), k0_t1_loop.OK
  k0_off2_inb : ∀ (i : grid0.Coords) (k0_t1 : Fin k0_t1_loop.trips), ∀ (k0_h1 : k0_cond1 i = 1#1), ∀ a, (k0_off2 k0_t1) a + S16.size a ≤ S4096.size a
  k0_off3_inb : ∀ (i : grid0.Coords) (k0_t1 : Fin k0_t1_loop.trips), ∀ (k0_h1 : k0_cond1 i = 1#1), ∀ a, (k0_off3 k0_t1) a + S1x16.size a ≤ S1x4096.size a
  k0_off4_inb : ∀ (i : grid0.Coords) (k0_t1 : Fin k0_t1_loop.trips), ∀ (k0_h1 : k0_cond1 i = 1#1), ∀ a, (k0_off4 k0_t1) a + S16.size a ≤ S4096.size a
  k0_off5_inb : ∀ (i : grid0.Coords) (k0_t1 : Fin k0_t1_loop.trips), ∀ (k0_h1 : k0_cond1 i = 1#1), ∀ a, (k0_off5 k0_t1) a + S1x16.size a ≤ S1x4096.size a
  k0_off6_inb : ∀ (i : grid0.Coords) (k0_t1 : Fin k0_t1_loop.trips), ∀ (k0_h1 : k0_cond1 i = 1#1), ∀ a, (k0_off6 k0_t1) a + S16.size a ≤ S4096.size a
  k0_off7_inb : ∀ (i : grid0.Coords) (k0_t1 : Fin k0_t1_loop.trips), ∀ (k0_h1 : k0_cond1 i = 1#1), ∀ a, (k0_off7 k0_t1) a + S1x16.size a ≤ S1x4096.size a
  k0_off8_inb : ∀ (i : grid0.Coords) (k0_t1 : Fin k0_t1_loop.trips), ∀ (k0_h1 : k0_cond1 i = 1#1), ∀ a, (k0_off8 k0_t1) a + S16.size a ≤ S4096.size a
  k0_off9_inb : ∀ (i : grid0.Coords) (k0_t1 : Fin k0_t1_loop.trips), ∀ (k0_h1 : k0_cond1 i = 1#1), ∀ a, (k0_off9 k0_t1) a + S1x16.size a ≤ S1x4096.size a
  k0_off10_inb : ∀ i : grid0.Coords, ∀ (k0_h1 : k0_cond1 i = 1#1), ∀ a, (k0_off10 i) a + S1x4096.size a ≤ S10x4096.size a
  hcore1 : grid1.bound 0 ≤ τ.nSC
  hsub1 : grid1.bound 1 ≤ τ.nSub
  k1_off1_inb : ∀ i : grid1.Coords, ∀ (k1_h1 : k1_cond1 i = 1#1), ∀ a, (k1_off1 i) a + S1x100000.size a ≤ S64x100000.size a
  k1_t1_ok : ∀ i : grid1.Coords, ∀ (k1_h1 : k1_cond1 i = 1#1), k1_t1_loop.OK
  k1_off2_inb : ∀ (i : grid1.Coords) (k1_t1 : Fin k1_t1_loop.trips), ∀ (k1_h1 : k1_cond1 i = 1#1), ∀ a, (k1_off2 k1_t1) a + S1x16.size a ≤ S1x5120.size a
  k1_off3_inb : ∀ i : grid1.Coords, ∀ (k1_h1 : k1_cond1 i = 1#1), ∀ a, (k1_off3 i) a + S1x5120.size a ≤ S25x40960.size a
  k1_t2_ok : ∀ i : grid1.Coords, ∀ (k1_h1 : k1_cond1 i = 1#1), k1_t2_loop.OK
  k1_off4_inb : ∀ (i : grid1.Coords) (k1_t2 : Fin k1_t2_loop.trips), ∀ (k1_h1 : k1_cond1 i = 1#1), ∀ a, (k1_off4 k1_t2) a + S1x16.size a ≤ S1x5120.size a
  k1_off5_inb : ∀ i : grid1.Coords, ∀ (k1_h1 : k1_cond1 i = 1#1), ∀ a, (k1_off5 i) a + S1x5120.size a ≤ S25x40960.size a
  k1_t3_ok : ∀ i : grid1.Coords, ∀ (k1_h1 : k1_cond1 i = 1#1), k1_t3_loop.OK
  k1_off6_inb : ∀ (i : grid1.Coords) (k1_t3 : Fin k1_t3_loop.trips), ∀ (k1_h1 : k1_cond1 i = 1#1), ∀ a, (k1_off6 k1_t3) a + S1x16.size a ≤ S1x5120.size a
  k1_off7_inb : ∀ i : grid1.Coords, ∀ (k1_h1 : k1_cond1 i = 1#1), ∀ a, (k1_off7 i) a + S1x5120.size a ≤ S25x40960.size a
  k1_t4_ok : ∀ i : grid1.Coords, ∀ (k1_h1 : k1_cond1 i = 1#1), k1_t4_loop.OK
  k1_off8_inb : ∀ (i : grid1.Coords) (k1_t4 : Fin k1_t4_loop.trips), ∀ (k1_h1 : k1_cond1 i = 1#1), ∀ a, (k1_off8 k1_t4) a + S1x16.size a ≤ S1x5120.size a
  k1_off9_inb : ∀ i : grid1.Coords, ∀ (k1_h1 : k1_cond1 i = 1#1), ∀ a, (k1_off9 i) a + S1x5120.size a ≤ S25x40960.size a
  k1_t5_ok : ∀ i : grid1.Coords, ∀ (k1_h1 : k1_cond1 i = 1#1), k1_t5_loop.OK
  k1_off10_inb : ∀ (i : grid1.Coords) (k1_t5 : Fin k1_t5_loop.trips), ∀ (k1_h1 : k1_cond1 i = 1#1), ∀ a, (k1_off10 k1_t5) a + S1x16.size a ≤ S1x5120.size a
  k1_off11_inb : ∀ i : grid1.Coords, ∀ (k1_h1 : k1_cond1 i = 1#1), ∀ a, (k1_off11 i) a + S1x5120.size a ≤ S25x40960.size a
  k1_t6_ok : ∀ i : grid1.Coords, ∀ (k1_h1 : k1_cond1 i = 1#1), k1_t6_loop.OK
  k1_off12_inb : ∀ (i : grid1.Coords) (k1_t6 : Fin k1_t6_loop.trips), ∀ (k1_h1 : k1_cond1 i = 1#1), ∀ a, (k1_off12 k1_t6) a + S1x16.size a ≤ S1x5120.size a
  k1_off13_inb : ∀ i : grid1.Coords, ∀ (k1_h1 : k1_cond1 i = 1#1), ∀ a, (k1_off13 i) a + S1x5120.size a ≤ S25x40960.size a
  k1_t7_ok : ∀ i : grid1.Coords, ∀ (k1_h1 : k1_cond1 i = 1#1), k1_t7_loop.OK
  k1_off14_inb : ∀ (i : grid1.Coords) (k1_t7 : Fin k1_t7_loop.trips), ∀ (k1_h1 : k1_cond1 i = 1#1), ∀ a, (k1_off14 k1_t7) a + S1x16.size a ≤ S1x5120.size a
  k1_off15_inb : ∀ i : grid1.Coords, ∀ (k1_h1 : k1_cond1 i = 1#1), ∀ a, (k1_off15 i) a + S1x5120.size a ≤ S25x40960.size a
  k1_t8_ok : ∀ i : grid1.Coords, ∀ (k1_h1 : k1_cond1 i = 1#1), k1_t8_loop.OK
  k1_off16_inb : ∀ (i : grid1.Coords) (k1_t8 : Fin k1_t8_loop.trips), ∀ (k1_h1 : k1_cond1 i = 1#1), ∀ a, (k1_off16 k1_t8) a + S1x16.size a ≤ S1x5120.size a
  k1_off17_inb : ∀ i : grid1.Coords, ∀ (k1_h1 : k1_cond1 i = 1#1), ∀ a, (k1_off17 i) a + S1x5120.size a ≤ S25x40960.size a

variable [Facts₀]

abbrev cc0_scratch3 : DmaSems sig S_ := SemArray.consecutive 0 S_ hcc0_scratch3
abbrev cc0_scoped0 : DmaSems sig S_ := SemArray.consecutive 1 S_ hcc0_scoped0
abbrev cc0_scoped1 : DmaSems sig S_ := SemArray.consecutive 2 S_ hcc0_scoped1
abbrev cc1_scratch5 : DmaSems sig S_ := SemArray.consecutive 3 S_ hcc1_scratch5
abbrev cc1_scratch6 : DmaSems sig S_ := SemArray.consecutive 4 S_ hcc1_scratch6
abbrev cc1_scratch7 : DmaSems sig S_ := SemArray.consecutive 5 S_ hcc1_scratch7
abbrev cc1_scratch8 : DmaSems sig S_ := SemArray.consecutive 6 S_ hcc1_scratch8
abbrev cc1_scratch9 : DmaSems sig S_ := SemArray.consecutive 7 S_ hcc1_scratch9

class Facts : Prop extends Facts₀ where

variable [Facts]
-- ==== ReferenceIdeal.lean ====
abbrev S4096 : Shape := ⟨1, ![4096]⟩
abbrev S100000x64 : Shape := ⟨2, ![100000, 64]⟩
abbrev S_ : Shape := ⟨0, ![]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S4096x1 : Shape := ⟨2, ![4096, 1]⟩
abbrev S1x1 : Shape := ⟨2, ![1, 1]⟩
abbrev S4096x64 : Shape := ⟨2, ![4096, 64]⟩
abbrev S64 : Shape := ⟨1, ![64]⟩
abbrev S64x1 : Shape := ⟨2, ![64, 1]⟩
abbrev S4096x10 : Shape := ⟨2, ![4096, 10]⟩
abbrev S40960 : Shape := ⟨1, ![40960]⟩
abbrev S40960x1 : Shape := ⟨2, ![40960, 1]⟩
abbrev S40960x64 : Shape := ⟨2, ![40960, 64]⟩
abbrev S40960x25 : Shape := ⟨2, ![40960, 25]⟩

abbrev nBuf : Space → Nat
  | .hbm => 1287
  | .vmem => 0
  | .smem => 0
  | _ => 0

abbrev hbmTy0_0 (i : Nat) : BufTy := match i % 128 with
  | 0 => ⟨S4096, .i32⟩
  | 1 => ⟨S100000x64, .i32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S1, .i32⟩
  | 13 => ⟨S_, .i32⟩
  | 14 => ⟨S1, .i32⟩
  | 15 => ⟨S_, .i32⟩
  | 16 => ⟨S2, .i64⟩
  | 17 => ⟨S_, .i64⟩
  | 18 => ⟨S2, .i64⟩
  | 19 => ⟨S2, .i64⟩
  | 20 => ⟨S_, .i64⟩
  | 21 => ⟨S2, .i64⟩
  | 22 => ⟨S2, .i64⟩
  | 23 => ⟨S2, .i32⟩
  | 24 => ⟨S2, .i32⟩
  | 25 => ⟨S_, .i32⟩
  | 26 => ⟨S_, .i32⟩
  | 27 => ⟨S_, .i32⟩
  | 28 => ⟨S2, .i32⟩
  | 29 => ⟨S2, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S2, .i32⟩
  | 119 => ⟨S_, .i32⟩
  | 120 => ⟨S2, .i32⟩
  | 121 => ⟨S2, .i32⟩
  | 122 => ⟨S_, .i32⟩
  | 123 => ⟨S2, .i32⟩
  | 124 => ⟨S2, .i32⟩
  | 125 => ⟨S2, .i32⟩
  | 126 => ⟨S2, .i32⟩
  | 127 => ⟨S2, .i32⟩
  | _ => ⟨S4096, .i32⟩

abbrev hbmTy0_1 (i : Nat) : BufTy := match i % 128 with
  | 0 => ⟨S_, .i32⟩
  | 1 => ⟨S2, .i32⟩
  | 2 => ⟨S2, .i32⟩
  | 3 => ⟨S_, .i32⟩
  | 4 => ⟨S2, .i32⟩
  | 5 => ⟨S2, .i32⟩
  | 6 => ⟨S2, .i32⟩
  | 7 => ⟨S2, .i32⟩
  | 8 => ⟨S2, .i32⟩
  | 9 => ⟨S_, .i32⟩
  | 10 => ⟨S2, .i32⟩
  | 11 => ⟨S2, .i32⟩
  | 12 => ⟨S_, .i32⟩
  | 13 => ⟨S2, .i32⟩
  | 14 => ⟨S2, .i32⟩
  | 15 => ⟨S2, .i32⟩
  | 16 => ⟨S2, .i32⟩
  | 17 => ⟨S2, .i32⟩
  | 18 => ⟨S_, .i32⟩
  | 19 => ⟨S2, .i32⟩
  | 20 => ⟨S2, .i32⟩
  | 21 => ⟨S_, .i32⟩
  | 22 => ⟨S2, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S2, .i32⟩
  | 30 => ⟨S_, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S_, .i32⟩
  | 38 => ⟨S2, .i32⟩
  | 39 => ⟨S2, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S2x1, .i32⟩
  | 120 => ⟨S2x1, .i32⟩
  | 121 => ⟨S2x2, .i32⟩
  | 122 => ⟨S1x2, .i32⟩
  | 123 => ⟨S2, .i32⟩
  | 124 => ⟨S1x2, .i32⟩
  | 125 => ⟨S2, .i32⟩
  | 126 => ⟨S_, .i32⟩
  | 127 => ⟨S4096, .i32⟩
  | _ => ⟨S4096, .i32⟩

abbrev hbmTy0_2 (i : Nat) : BufTy := match i % 128 with
  | 0 => ⟨S4096, .i1⟩
  | 1 => ⟨S_, .i32⟩
  | 2 => ⟨S4096, .i32⟩
  | 3 => ⟨S4096, .i32⟩
  | 4 => ⟨S4096, .i32⟩
  | 5 => ⟨S4096x1, .i32⟩
  | 6 => ⟨S1, .i32⟩
  | 7 => ⟨S_, .i32⟩
  | 8 => ⟨S4096x1, .i32⟩
  | 9 => ⟨S4096x1, .i1⟩
  | 10 => ⟨S1x1, .i32⟩
  | 11 => ⟨S4096x1, .i32⟩
  | 12 => ⟨S4096x1, .i1⟩
  | 13 => ⟨S4096x1, .i1⟩
  | 14 => ⟨S_, .i1⟩
  | 15 => ⟨S4096, .i1⟩
  | 16 => ⟨S4096x64, .i32⟩
  | 17 => ⟨S4096x64, .i1⟩
  | 18 => ⟨S_, .i32⟩
  | 19 => ⟨S4096x64, .i32⟩
  | 20 => ⟨S4096x64, .i32⟩
  | 21 => ⟨S64, .i32⟩
  | 22 => ⟨S1, .i32⟩
  | 23 => ⟨S_, .i32⟩
  | 24 => ⟨S1, .i32⟩
  | 25 => ⟨S_, .i32⟩
  | 26 => ⟨S2, .i64⟩
  | 27 => ⟨S_, .i64⟩
  | 28 => ⟨S2, .i64⟩
  | 29 => ⟨S2, .i64⟩
  | 30 => ⟨S_, .i64⟩
  | 31 => ⟨S2, .i64⟩
  | 32 => ⟨S2, .i64⟩
  | 33 => ⟨S2, .i32⟩
  | 34 => ⟨S2, .i32⟩
  | 35 => ⟨S_, .i32⟩
  | 36 => ⟨S_, .i32⟩
  | 37 => ⟨S_, .i32⟩
  | 38 => ⟨S2, .i32⟩
  | 39 => ⟨S2, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S_, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S2, .i32⟩
  | 78 => ⟨S2, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S_, .i32⟩
  | 114 => ⟨S2, .i32⟩
  | 115 => ⟨S2, .i32⟩
  | 116 => ⟨S_, .i32⟩
  | 117 => ⟨S2, .i32⟩
  | 118 => ⟨S2, .i32⟩
  | 119 => ⟨S2, .i32⟩
  | 120 => ⟨S2, .i32⟩
  | 121 => ⟨S2, .i32⟩
  | 122 => ⟨S2, .i32⟩
  | 123 => ⟨S2, .i32⟩
  | 124 => ⟨S2, .i32⟩
  | 125 => ⟨S_, .i32⟩
  | 126 => ⟨S2, .i32⟩
  | 127 => ⟨S2, .i32⟩
  | _ => ⟨S4096, .i32⟩

abbrev hbmTy0_3 (i : Nat) : BufTy := match i % 128 with
  | 0 => ⟨S2, .i32⟩
  | 1 => ⟨S_, .i32⟩
  | 2 => ⟨S2, .i32⟩
  | 3 => ⟨S2, .i32⟩
  | 4 => ⟨S_, .i32⟩
  | 5 => ⟨S2, .i32⟩
  | 6 => ⟨S2, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S_, .i32⟩
  | 14 => ⟨S2, .i32⟩
  | 15 => ⟨S2, .i32⟩
  | 16 => ⟨S2, .i32⟩
  | 17 => ⟨S2, .i32⟩
  | 18 => ⟨S2, .i32⟩
  | 19 => ⟨S_, .i32⟩
  | 20 => ⟨S2, .i32⟩
  | 21 => ⟨S2, .i32⟩
  | 22 => ⟨S_, .i32⟩
  | 23 => ⟨S2, .i32⟩
  | 24 => ⟨S2, .i32⟩
  | 25 => ⟨S2, .i32⟩
  | 26 => ⟨S2, .i32⟩
  | 27 => ⟨S2, .i32⟩
  | 28 => ⟨S_, .i32⟩
  | 29 => ⟨S2, .i32⟩
  | 30 => ⟨S2, .i32⟩
  | 31 => ⟨S_, .i32⟩
  | 32 => ⟨S2, .i32⟩
  | 33 => ⟨S2, .i32⟩
  | 34 => ⟨S2, .i32⟩
  | 35 => ⟨S2, .i32⟩
  | 36 => ⟨S2, .i32⟩
  | 37 => ⟨S2, .i32⟩
  | 38 => ⟨S2, .i32⟩
  | 39 => ⟨S2, .i32⟩
  | 40 => ⟨S_, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S2, .i32⟩
  | 79 => ⟨S2, .i32⟩
  | 80 => ⟨S2, .i32⟩
  | 81 => ⟨S2, .i32⟩
  | 82 => ⟨S2, .i32⟩
  | 83 => ⟨S_, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S2, .i32⟩
  | 122 => ⟨S2, .i32⟩
  | 123 => ⟨S2, .i32⟩
  | 124 => ⟨S2, .i32⟩
  | 125 => ⟨S2, .i32⟩
  | 126 => ⟨S_, .i32⟩
  | 127 => ⟨S2, .i32⟩
  | _ => ⟨S4096, .i32⟩

abbrev hbmTy0_4 (i : Nat) : BufTy := match i % 128 with
  | 0 => ⟨S2, .i32⟩
  | 1 => ⟨S2x1, .i32⟩
  | 2 => ⟨S2x1, .i32⟩
  | 3 => ⟨S2x2, .i32⟩
  | 4 => ⟨S1x2, .i32⟩
  | 5 => ⟨S2, .i32⟩
  | 6 => ⟨S1x2, .i32⟩
  | 7 => ⟨S2, .i32⟩
  | 8 => ⟨S1, .i32⟩
  | 9 => ⟨S_, .i32⟩
  | 10 => ⟨S1, .i32⟩
  | 11 => ⟨S_, .i32⟩
  | 12 => ⟨S64, .i64⟩
  | 13 => ⟨S_, .i64⟩
  | 14 => ⟨S64, .i64⟩
  | 15 => ⟨S64, .i64⟩
  | 16 => ⟨S_, .i64⟩
  | 17 => ⟨S64, .i64⟩
  | 18 => ⟨S64, .i64⟩
  | 19 => ⟨S64, .i32⟩
  | 20 => ⟨S64, .i32⟩
  | 21 => ⟨S_, .i32⟩
  | 22 => ⟨S_, .i32⟩
  | 23 => ⟨S_, .i32⟩
  | 24 => ⟨S64, .i32⟩
  | 25 => ⟨S64, .i32⟩
  | 26 => ⟨S64, .i32⟩
  | 27 => ⟨S64, .i32⟩
  | 28 => ⟨S64, .i32⟩
  | 29 => ⟨S_, .i32⟩
  | 30 => ⟨S64, .i32⟩
  | 31 => ⟨S64, .i32⟩
  | 32 => ⟨S_, .i32⟩
  | 33 => ⟨S64, .i32⟩
  | 34 => ⟨S64, .i32⟩
  | 35 => ⟨S64, .i32⟩
  | 36 => ⟨S64, .i32⟩
  | 37 => ⟨S64, .i32⟩
  | 38 => ⟨S_, .i32⟩
  | 39 => ⟨S64, .i32⟩
  | 40 => ⟨S64, .i32⟩
  | 41 => ⟨S_, .i32⟩
  | 42 => ⟨S64, .i32⟩
  | 43 => ⟨S64, .i32⟩
  | 44 => ⟨S64, .i32⟩
  | 45 => ⟨S64, .i32⟩
  | 46 => ⟨S64, .i32⟩
  | 47 => ⟨S_, .i32⟩
  | 48 => ⟨S64, .i32⟩
  | 49 => ⟨S64, .i32⟩
  | 50 => ⟨S_, .i32⟩
  | 51 => ⟨S64, .i32⟩
  | 52 => ⟨S64, .i32⟩
  | 53 => ⟨S64, .i32⟩
  | 54 => ⟨S64, .i32⟩
  | 55 => ⟨S64, .i32⟩
  | 56 => ⟨S_, .i32⟩
  | 57 => ⟨S64, .i32⟩
  | 58 => ⟨S64, .i32⟩
  | 59 => ⟨S_, .i32⟩
  | 60 => ⟨S64, .i32⟩
  | 61 => ⟨S64, .i32⟩
  | 62 => ⟨S64, .i32⟩
  | 63 => ⟨S64, .i32⟩
  | 64 => ⟨S64, .i32⟩
  | 65 => ⟨S64, .i32⟩
  | 66 => ⟨S64, .i32⟩
  | 67 => ⟨S64, .i32⟩
  | 68 => ⟨S_, .i32⟩
  | 69 => ⟨S64, .i32⟩
  | 70 => ⟨S64, .i32⟩
  | 71 => ⟨S64, .i32⟩
  | 72 => ⟨S_, .i32⟩
  | 73 => ⟨S64, .i32⟩
  | 74 => ⟨S64, .i32⟩
  | 75 => ⟨S_, .i32⟩
  | 76 => ⟨S64, .i32⟩
  | 77 => ⟨S64, .i32⟩
  | 78 => ⟨S64, .i32⟩
  | 79 => ⟨S64, .i32⟩
  | 80 => ⟨S64, .i32⟩
  | 81 => ⟨S_, .i32⟩
  | 82 => ⟨S64, .i32⟩
  | 83 => ⟨S64, .i32⟩
  | 84 => ⟨S_, .i32⟩
  | 85 => ⟨S64, .i32⟩
  | 86 => ⟨S64, .i32⟩
  | 87 => ⟨S64, .i32⟩
  | 88 => ⟨S64, .i32⟩
  | 89 => ⟨S64, .i32⟩
  | 90 => ⟨S_, .i32⟩
  | 91 => ⟨S64, .i32⟩
  | 92 => ⟨S64, .i32⟩
  | 93 => ⟨S_, .i32⟩
  | 94 => ⟨S64, .i32⟩
  | 95 => ⟨S64, .i32⟩
  | 96 => ⟨S64, .i32⟩
  | 97 => ⟨S64, .i32⟩
  | 98 => ⟨S64, .i32⟩
  | 99 => ⟨S_, .i32⟩
  | 100 => ⟨S64, .i32⟩
  | 101 => ⟨S64, .i32⟩
  | 102 => ⟨S_, .i32⟩
  | 103 => ⟨S64, .i32⟩
  | 104 => ⟨S64, .i32⟩
  | 105 => ⟨S64, .i32⟩
  | 106 => ⟨S64, .i32⟩
  | 107 => ⟨S64, .i32⟩
  | 108 => ⟨S64, .i32⟩
  | 109 => ⟨S64, .i32⟩
  | 110 => ⟨S64, .i32⟩
  | 111 => ⟨S_, .i32⟩
  | 112 => ⟨S64, .i32⟩
  | 113 => ⟨S64, .i32⟩
  | 114 => ⟨S64, .i32⟩
  | 115 => ⟨S_, .i32⟩
  | 116 => ⟨S64, .i32⟩
  | 117 => ⟨S64, .i32⟩
  | 118 => ⟨S_, .i32⟩
  | 119 => ⟨S64, .i32⟩
  | 120 => ⟨S64, .i32⟩
  | 121 => ⟨S64, .i32⟩
  | 122 => ⟨S64, .i32⟩
  | 123 => ⟨S64, .i32⟩
  | 124 => ⟨S_, .i32⟩
  | 125 => ⟨S64, .i32⟩
  | 126 => ⟨S64, .i32⟩
  | 127 => ⟨S_, .i32⟩
  | _ => ⟨S4096, .i32⟩

abbrev hbmTy0_5 (i : Nat) : BufTy := match i % 128 with
  | 0 => ⟨S64, .i32⟩
  | 1 => ⟨S64, .i32⟩
  | 2 => ⟨S64, .i32⟩
  | 3 => ⟨S64, .i32⟩
  | 4 => ⟨S64, .i32⟩
  | 5 => ⟨S_, .i32⟩
  | 6 => ⟨S64, .i32⟩
  | 7 => ⟨S64, .i32⟩
  | 8 => ⟨S_, .i32⟩
  | 9 => ⟨S64, .i32⟩
  | 10 => ⟨S64, .i32⟩
  | 11 => ⟨S64, .i32⟩
  | 12 => ⟨S64, .i32⟩
  | 13 => ⟨S64, .i32⟩
  | 14 => ⟨S_, .i32⟩
  | 15 => ⟨S64, .i32⟩
  | 16 => ⟨S64, .i32⟩
  | 17 => ⟨S_, .i32⟩
  | 18 => ⟨S64, .i32⟩
  | 19 => ⟨S64, .i32⟩
  | 20 => ⟨S64, .i32⟩
  | 21 => ⟨S64, .i32⟩
  | 22 => ⟨S64, .i32⟩
  | 23 => ⟨S64, .i32⟩
  | 24 => ⟨S64, .i32⟩
  | 25 => ⟨S64, .i32⟩
  | 26 => ⟨S_, .i32⟩
  | 27 => ⟨S64, .i32⟩
  | 28 => ⟨S64, .i32⟩
  | 29 => ⟨S64, .i32⟩
  | 30 => ⟨S_, .i32⟩
  | 31 => ⟨S64, .i32⟩
  | 32 => ⟨S64, .i32⟩
  | 33 => ⟨S_, .i32⟩
  | 34 => ⟨S64, .i32⟩
  | 35 => ⟨S64, .i32⟩
  | 36 => ⟨S64, .i32⟩
  | 37 => ⟨S64, .i32⟩
  | 38 => ⟨S64, .i32⟩
  | 39 => ⟨S_, .i32⟩
  | 40 => ⟨S64, .i32⟩
  | 41 => ⟨S64, .i32⟩
  | 42 => ⟨S_, .i32⟩
  | 43 => ⟨S64, .i32⟩
  | 44 => ⟨S64, .i32⟩
  | 45 => ⟨S64, .i32⟩
  | 46 => ⟨S64, .i32⟩
  | 47 => ⟨S64, .i32⟩
  | 48 => ⟨S_, .i32⟩
  | 49 => ⟨S64, .i32⟩
  | 50 => ⟨S64, .i32⟩
  | 51 => ⟨S_, .i32⟩
  | 52 => ⟨S64, .i32⟩
  | 53 => ⟨S64, .i32⟩
  | 54 => ⟨S64, .i32⟩
  | 55 => ⟨S64, .i32⟩
  | 56 => ⟨S64, .i32⟩
  | 57 => ⟨S_, .i32⟩
  | 58 => ⟨S64, .i32⟩
  | 59 => ⟨S64, .i32⟩
  | 60 => ⟨S_, .i32⟩
  | 61 => ⟨S64, .i32⟩
  | 62 => ⟨S64, .i32⟩
  | 63 => ⟨S64, .i32⟩
  | 64 => ⟨S64, .i32⟩
  | 65 => ⟨S64, .i32⟩
  | 66 => ⟨S64, .i32⟩
  | 67 => ⟨S64, .i32⟩
  | 68 => ⟨S64, .i32⟩
  | 69 => ⟨S_, .i32⟩
  | 70 => ⟨S64, .i32⟩
  | 71 => ⟨S64, .i32⟩
  | 72 => ⟨S64, .i32⟩
  | 73 => ⟨S_, .i32⟩
  | 74 => ⟨S64, .i32⟩
  | 75 => ⟨S64, .i32⟩
  | 76 => ⟨S_, .i32⟩
  | 77 => ⟨S64, .i32⟩
  | 78 => ⟨S64, .i32⟩
  | 79 => ⟨S64, .i32⟩
  | 80 => ⟨S64, .i32⟩
  | 81 => ⟨S64, .i32⟩
  | 82 => ⟨S_, .i32⟩
  | 83 => ⟨S64, .i32⟩
  | 84 => ⟨S64, .i32⟩
  | 85 => ⟨S_, .i32⟩
  | 86 => ⟨S64, .i32⟩
  | 87 => ⟨S64, .i32⟩
  | 88 => ⟨S64, .i32⟩
  | 89 => ⟨S64, .i32⟩
  | 90 => ⟨S64, .i32⟩
  | 91 => ⟨S_, .i32⟩
  | 92 => ⟨S64, .i32⟩
  | 93 => ⟨S64, .i32⟩
  | 94 => ⟨S_, .i32⟩
  | 95 => ⟨S64, .i32⟩
  | 96 => ⟨S64, .i32⟩
  | 97 => ⟨S64, .i32⟩
  | 98 => ⟨S64, .i32⟩
  | 99 => ⟨S64, .i32⟩
  | 100 => ⟨S_, .i32⟩
  | 101 => ⟨S64, .i32⟩
  | 102 => ⟨S64, .i32⟩
  | 103 => ⟨S_, .i32⟩
  | 104 => ⟨S64, .i32⟩
  | 105 => ⟨S64, .i32⟩
  | 106 => ⟨S64, .i32⟩
  | 107 => ⟨S64, .i32⟩
  | 108 => ⟨S64, .i32⟩
  | 109 => ⟨S64, .i32⟩
  | 110 => ⟨S64, .i32⟩
  | 111 => ⟨S64, .i32⟩
  | 112 => ⟨S_, .i32⟩
  | 113 => ⟨S64, .i32⟩
  | 114 => ⟨S64, .i32⟩
  | 115 => ⟨S64, .i32⟩
  | 116 => ⟨S64, .i32⟩
  | 117 => ⟨S64, .i32⟩
  | 118 => ⟨S_, .i32⟩
  | 119 => ⟨S64, .i32⟩
  | 120 => ⟨S64, .i1⟩
  | 121 => ⟨S_, .i32⟩
  | 122 => ⟨S64, .i32⟩
  | 123 => ⟨S64, .i32⟩
  | 124 => ⟨S64, .i32⟩
  | 125 => ⟨S64x1, .i32⟩
  | 126 => ⟨S4096x64, .i32⟩
  | 127 => ⟨S_, .i32⟩
  | _ => ⟨S4096, .i32⟩

abbrev hbmTy0_6 (i : Nat) : BufTy := match i % 128 with
  | 0 => ⟨S_, .i32⟩
  | 1 => ⟨S4096x10, .i32⟩
  | 2 => ⟨S40960, .i32⟩
  | 3 => ⟨S_, .i32⟩
  | 4 => ⟨S40960, .i32⟩
  | 5 => ⟨S40960, .i1⟩
  | 6 => ⟨S_, .i32⟩
  | 7 => ⟨S40960, .i32⟩
  | 8 => ⟨S40960, .i32⟩
  | 9 => ⟨S40960, .i32⟩
  | 10 => ⟨S40960x1, .i32⟩
  | 11 => ⟨S1, .i32⟩
  | 12 => ⟨S_, .i32⟩
  | 13 => ⟨S40960x1, .i32⟩
  | 14 => ⟨S40960x1, .i1⟩
  | 15 => ⟨S1x1, .i32⟩
  | 16 => ⟨S40960x1, .i32⟩
  | 17 => ⟨S40960x1, .i1⟩
  | 18 => ⟨S40960x1, .i1⟩
  | 19 => ⟨S_, .i1⟩
  | 20 => ⟨S40960, .i1⟩
  | 21 => ⟨S40960x64, .i32⟩
  | 22 => ⟨S40960x64, .i1⟩
  | 23 => ⟨S_, .i32⟩
  | 24 => ⟨S40960x64, .i32⟩
  | 25 => ⟨S40960x64, .i32⟩
  | 26 => ⟨S64, .i32⟩
  | 27 => ⟨S1, .i32⟩
  | 28 => ⟨S_, .i32⟩
  | 29 => ⟨S1, .i32⟩
  | 30 => ⟨S_, .i32⟩
  | 31 => ⟨S2, .i64⟩
  | 32 => ⟨S_, .i64⟩
  | 33 => ⟨S2, .i64⟩
  | 34 => ⟨S2, .i64⟩
  | 35 => ⟨S_, .i64⟩
  | 36 => ⟨S2, .i64⟩
  | 37 => ⟨S2, .i64⟩
  | 38 => ⟨S2, .i32⟩
  | 39 => ⟨S2, .i32⟩
  | 40 => ⟨S_, .i32⟩
  | 41 => ⟨S_, .i32⟩
  | 42 => ⟨S_, .i32⟩
  | 43 => ⟨S2, .i32⟩
  | 44 => ⟨S2, .i32⟩
  | 45 => ⟨S2, .i32⟩
  | 46 => ⟨S2, .i32⟩
  | 47 => ⟨S2, .i32⟩
  | 48 => ⟨S_, .i32⟩
  | 49 => ⟨S2, .i32⟩
  | 50 => ⟨S2, .i32⟩
  | 51 => ⟨S_, .i32⟩
  | 52 => ⟨S2, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S_, .i32⟩
  | 61 => ⟨S2, .i32⟩
  | 62 => ⟨S2, .i32⟩
  | 63 => ⟨S2, .i32⟩
  | 64 => ⟨S2, .i32⟩
  | 65 => ⟨S2, .i32⟩
  | 66 => ⟨S_, .i32⟩
  | 67 => ⟨S2, .i32⟩
  | 68 => ⟨S2, .i32⟩
  | 69 => ⟨S_, .i32⟩
  | 70 => ⟨S2, .i32⟩
  | 71 => ⟨S2, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S2, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S_, .i32⟩
  | 104 => ⟨S2, .i32⟩
  | 105 => ⟨S2, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S_, .i32⟩
  | 113 => ⟨S2, .i32⟩
  | 114 => ⟨S2, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S2, .i32⟩
  | 126 => ⟨S2, .i32⟩
  | 127 => ⟨S2, .i32⟩
  | _ => ⟨S4096, .i32⟩

abbrev hbmTy0_7 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S2, .i32⟩
  | 6 => ⟨S_, .i32⟩
  | 7 => ⟨S2, .i32⟩
  | 8 => ⟨S2, .i32⟩
  | 9 => ⟨S_, .i32⟩
  | 10 => ⟨S2, .i32⟩
  | 11 => ⟨S2, .i32⟩
  | 12 => ⟨S2, .i32⟩
  | 13 => ⟨S2, .i32⟩
  | 14 => ⟨S2, .i32⟩
  | 15 => ⟨S_, .i32⟩
  | 16 => ⟨S2, .i32⟩
  | 17 => ⟨S2, .i32⟩
  | 18 => ⟨S_, .i32⟩
  | 19 => ⟨S2, .i32⟩
  | 20 => ⟨S2, .i32⟩
  | 21 => ⟨S2, .i32⟩
  | 22 => ⟨S2, .i32⟩
  | 23 => ⟨S2, .i32⟩
  | 24 => ⟨S_, .i32⟩
  | 25 => ⟨S2, .i32⟩
  | 26 => ⟨S2, .i32⟩
  | 27 => ⟨S_, .i32⟩
  | 28 => ⟨S2, .i32⟩
  | 29 => ⟨S2, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S_, .i32⟩
  | 50 => ⟨S2, .i32⟩
  | 51 => ⟨S2, .i32⟩
  | 52 => ⟨S_, .i32⟩
  | 53 => ⟨S2, .i32⟩
  | 54 => ⟨S2, .i32⟩
  | 55 => ⟨S2, .i32⟩
  | 56 => ⟨S2, .i32⟩
  | 57 => ⟨S2, .i32⟩
  | 58 => ⟨S_, .i32⟩
  | 59 => ⟨S2, .i32⟩
  | 60 => ⟨S2, .i32⟩
  | 61 => ⟨S_, .i32⟩
  | 62 => ⟨S2, .i32⟩
  | 63 => ⟨S2, .i32⟩
  | 64 => ⟨S2, .i32⟩
  | 65 => ⟨S2, .i32⟩
  | 66 => ⟨S2, .i32⟩
  | 67 => ⟨S_, .i32⟩
  | 68 => ⟨S2, .i32⟩
  | 69 => ⟨S2, .i32⟩
  | 70 => ⟨S_, .i32⟩
  | 71 => ⟨S2, .i32⟩
  | 72 => ⟨S2, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S2, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S_, .i32⟩
  | 93 => ⟨S2, .i32⟩
  | 94 => ⟨S2, .i32⟩
  | 95 => ⟨S_, .i32⟩
  | 96 => ⟨S2, .i32⟩
  | 97 => ⟨S2, .i32⟩
  | 98 => ⟨S2, .i32⟩
  | 99 => ⟨S2, .i32⟩
  | 100 => ⟨S2, .i32⟩
  | 101 => ⟨S_, .i32⟩
  | 102 => ⟨S2, .i32⟩
  | 103 => ⟨S2, .i32⟩
  | 104 => ⟨S_, .i32⟩
  | 105 => ⟨S2, .i32⟩
  | 106 => ⟨S2, .i32⟩
  | 107 => ⟨S2, .i32⟩
  | 108 => ⟨S2, .i32⟩
  | 109 => ⟨S2, .i32⟩
  | 110 => ⟨S_, .i32⟩
  | 111 => ⟨S2, .i32⟩
  | 112 => ⟨S2, .i32⟩
  | 113 => ⟨S_, .i32⟩
  | 114 => ⟨S2, .i32⟩
  | 115 => ⟨S2, .i32⟩
  | 116 => ⟨S2, .i32⟩
  | 117 => ⟨S2, .i32⟩
  | 118 => ⟨S2, .i32⟩
  | 119 => ⟨S_, .i32⟩
  | 120 => ⟨S2, .i32⟩
  | 121 => ⟨S2, .i32⟩
  | 122 => ⟨S_, .i32⟩
  | 123 => ⟨S2, .i32⟩
  | 124 => ⟨S2, .i32⟩
  | 125 => ⟨S2, .i32⟩
  | 126 => ⟨S2, .i32⟩
  | 127 => ⟨S2, .i32⟩
  | _ => ⟨S4096, .i32⟩

abbrev hbmTy0_8 (i : Nat) : BufTy := match i % 128 with
  | 0 => ⟨S2, .i32⟩
  | 1 => ⟨S2, .i32⟩
  | 2 => ⟨S2, .i32⟩
  | 3 => ⟨S_, .i32⟩
  | 4 => ⟨S2, .i32⟩
  | 5 => ⟨S2, .i32⟩
  | 6 => ⟨S2x1, .i32⟩
  | 7 => ⟨S2x1, .i32⟩
  | 8 => ⟨S2x2, .i32⟩
  | 9 => ⟨S1x2, .i32⟩
  | 10 => ⟨S2, .i32⟩
  | 11 => ⟨S1x2, .i32⟩
  | 12 => ⟨S2, .i32⟩
  | 13 => ⟨S1, .i32⟩
  | 14 => ⟨S_, .i32⟩
  | 15 => ⟨S1, .i32⟩
  | 16 => ⟨S_, .i32⟩
  | 17 => ⟨S64, .i64⟩
  | 18 => ⟨S_, .i64⟩
  | 19 => ⟨S64, .i64⟩
  | 20 => ⟨S64, .i64⟩
  | 21 => ⟨S_, .i64⟩
  | 22 => ⟨S64, .i64⟩
  | 23 => ⟨S64, .i64⟩
  | 24 => ⟨S64, .i32⟩
  | 25 => ⟨S64, .i32⟩
  | 26 => ⟨S_, .i32⟩
  | 27 => ⟨S_, .i32⟩
  | 28 => ⟨S_, .i32⟩
  | 29 => ⟨S64, .i32⟩
  | 30 => ⟨S64, .i32⟩
  | 31 => ⟨S64, .i32⟩
  | 32 => ⟨S64, .i32⟩
  | 33 => ⟨S64, .i32⟩
  | 34 => ⟨S_, .i32⟩
  | 35 => ⟨S64, .i32⟩
  | 36 => ⟨S64, .i32⟩
  | 37 => ⟨S_, .i32⟩
  | 38 => ⟨S64, .i32⟩
  | 39 => ⟨S64, .i32⟩
  | 40 => ⟨S64, .i32⟩
  | 41 => ⟨S64, .i32⟩
  | 42 => ⟨S64, .i32⟩
  | 43 => ⟨S_, .i32⟩
  | 44 => ⟨S64, .i32⟩
  | 45 => ⟨S64, .i32⟩
  | 46 => ⟨S_, .i32⟩
  | 47 => ⟨S64, .i32⟩
  | 48 => ⟨S64, .i32⟩
  | 49 => ⟨S64, .i32⟩
  | 50 => ⟨S64, .i32⟩
  | 51 => ⟨S64, .i32⟩
  | 52 => ⟨S_, .i32⟩
  | 53 => ⟨S64, .i32⟩
  | 54 => ⟨S64, .i32⟩
  | 55 => ⟨S_, .i32⟩
  | 56 => ⟨S64, .i32⟩
  | 57 => ⟨S64, .i32⟩
  | 58 => ⟨S64, .i32⟩
  | 59 => ⟨S64, .i32⟩
  | 60 => ⟨S64, .i32⟩
  | 61 => ⟨S_, .i32⟩
  | 62 => ⟨S64, .i32⟩
  | 63 => ⟨S64, .i32⟩
  | 64 => ⟨S_, .i32⟩
  | 65 => ⟨S64, .i32⟩
  | 66 => ⟨S64, .i32⟩
  | 67 => ⟨S64, .i32⟩
  | 68 => ⟨S64, .i32⟩
  | 69 => ⟨S64, .i32⟩
  | 70 => ⟨S64, .i32⟩
  | 71 => ⟨S64, .i32⟩
  | 72 => ⟨S64, .i32⟩
  | 73 => ⟨S_, .i32⟩
  | 74 => ⟨S64, .i32⟩
  | 75 => ⟨S64, .i32⟩
  | 76 => ⟨S64, .i32⟩
  | 77 => ⟨S_, .i32⟩
  | 78 => ⟨S64, .i32⟩
  | 79 => ⟨S64, .i32⟩
  | 80 => ⟨S_, .i32⟩
  | 81 => ⟨S64, .i32⟩
  | 82 => ⟨S64, .i32⟩
  | 83 => ⟨S64, .i32⟩
  | 84 => ⟨S64, .i32⟩
  | 85 => ⟨S64, .i32⟩
  | 86 => ⟨S_, .i32⟩
  | 87 => ⟨S64, .i32⟩
  | 88 => ⟨S64, .i32⟩
  | 89 => ⟨S_, .i32⟩
  | 90 => ⟨S64, .i32⟩
  | 91 => ⟨S64, .i32⟩
  | 92 => ⟨S64, .i32⟩
  | 93 => ⟨S64, .i32⟩
  | 94 => ⟨S64, .i32⟩
  | 95 => ⟨S_, .i32⟩
  | 96 => ⟨S64, .i32⟩
  | 97 => ⟨S64, .i32⟩
  | 98 => ⟨S_, .i32⟩
  | 99 => ⟨S64, .i32⟩
  | 100 => ⟨S64, .i32⟩
  | 101 => ⟨S64, .i32⟩
  | 102 => ⟨S64, .i32⟩
  | 103 => ⟨S64, .i32⟩
  | 104 => ⟨S_, .i32⟩
  | 105 => ⟨S64, .i32⟩
  | 106 => ⟨S64, .i32⟩
  | 107 => ⟨S_, .i32⟩
  | 108 => ⟨S64, .i32⟩
  | 109 => ⟨S64, .i32⟩
  | 110 => ⟨S64, .i32⟩
  | 111 => ⟨S64, .i32⟩
  | 112 => ⟨S64, .i32⟩
  | 113 => ⟨S64, .i32⟩
  | 114 => ⟨S64, .i32⟩
  | 115 => ⟨S64, .i32⟩
  | 116 => ⟨S_, .i32⟩
  | 117 => ⟨S64, .i32⟩
  | 118 => ⟨S64, .i32⟩
  | 119 => ⟨S64, .i32⟩
  | 120 => ⟨S_, .i32⟩
  | 121 => ⟨S64, .i32⟩
  | 122 => ⟨S64, .i32⟩
  | 123 => ⟨S_, .i32⟩
  | 124 => ⟨S64, .i32⟩
  | 125 => ⟨S64, .i32⟩
  | 126 => ⟨S64, .i32⟩
  | 127 => ⟨S64, .i32⟩
  | _ => ⟨S4096, .i32⟩

abbrev hbmTy0_9 (i : Nat) : BufTy := match i % 128 with
  | 0 => ⟨S64, .i32⟩
  | 1 => ⟨S_, .i32⟩
  | 2 => ⟨S64, .i32⟩
  | 3 => ⟨S64, .i32⟩
  | 4 => ⟨S_, .i32⟩
  | 5 => ⟨S64, .i32⟩
  | 6 => ⟨S64, .i32⟩
  | 7 => ⟨S64, .i32⟩
  | 8 => ⟨S64, .i32⟩
  | 9 => ⟨S64, .i32⟩
  | 10 => ⟨S_, .i32⟩
  | 11 => ⟨S64, .i32⟩
  | 12 => ⟨S64, .i32⟩
  | 13 => ⟨S_, .i32⟩
  | 14 => ⟨S64, .i32⟩
  | 15 => ⟨S64, .i32⟩
  | 16 => ⟨S64, .i32⟩
  | 17 => ⟨S64, .i32⟩
  | 18 => ⟨S64, .i32⟩
  | 19 => ⟨S_, .i32⟩
  | 20 => ⟨S64, .i32⟩
  | 21 => ⟨S64, .i32⟩
  | 22 => ⟨S_, .i32⟩
  | 23 => ⟨S64, .i32⟩
  | 24 => ⟨S64, .i32⟩
  | 25 => ⟨S64, .i32⟩
  | 26 => ⟨S64, .i32⟩
  | 27 => ⟨S64, .i32⟩
  | 28 => ⟨S64, .i32⟩
  | 29 => ⟨S64, .i32⟩
  | 30 => ⟨S64, .i32⟩
  | 31 => ⟨S_, .i32⟩
  | 32 => ⟨S64, .i32⟩
  | 33 => ⟨S64, .i32⟩
  | 34 => ⟨S64, .i32⟩
  | 35 => ⟨S_, .i32⟩
  | 36 => ⟨S64, .i32⟩
  | 37 => ⟨S64, .i32⟩
  | 38 => ⟨S_, .i32⟩
  | 39 => ⟨S64, .i32⟩
  | 40 => ⟨S64, .i32⟩
  | 41 => ⟨S64, .i32⟩
  | 42 => ⟨S64, .i32⟩
  | 43 => ⟨S64, .i32⟩
  | 44 => ⟨S_, .i32⟩
  | 45 => ⟨S64, .i32⟩
  | 46 => ⟨S64, .i32⟩
  | 47 => ⟨S_, .i32⟩
  | 48 => ⟨S64, .i32⟩
  | 49 => ⟨S64, .i32⟩
  | 50 => ⟨S64, .i32⟩
  | 51 => ⟨S64, .i32⟩
  | 52 => ⟨S64, .i32⟩
  | 53 => ⟨S_, .i32⟩
  | 54 => ⟨S64, .i32⟩
  | 55 => ⟨S64, .i32⟩
  | 56 => ⟨S_, .i32⟩
  | 57 => ⟨S64, .i32⟩
  | 58 => ⟨S64, .i32⟩
  | 59 => ⟨S64, .i32⟩
  | 60 => ⟨S64, .i32⟩
  | 61 => ⟨S64, .i32⟩
  | 62 => ⟨S_, .i32⟩
  | 63 => ⟨S64, .i32⟩
  | 64 => ⟨S64, .i32⟩
  | 65 => ⟨S_, .i32⟩
  | 66 => ⟨S64, .i32⟩
  | 67 => ⟨S64, .i32⟩
  | 68 => ⟨S64, .i32⟩
  | 69 => ⟨S64, .i32⟩
  | 70 => ⟨S64, .i32⟩
  | 71 => ⟨S64, .i32⟩
  | 72 => ⟨S64, .i32⟩
  | 73 => ⟨S64, .i32⟩
  | 74 => ⟨S_, .i32⟩
  | 75 => ⟨S64, .i32⟩
  | 76 => ⟨S64, .i32⟩
  | 77 => ⟨S64, .i32⟩
  | 78 => ⟨S_, .i32⟩
  | 79 => ⟨S64, .i32⟩
  | 80 => ⟨S64, .i32⟩
  | 81 => ⟨S_, .i32⟩
  | 82 => ⟨S64, .i32⟩
  | 83 => ⟨S64, .i32⟩
  | 84 => ⟨S64, .i32⟩
  | 85 => ⟨S64, .i32⟩
  | 86 => ⟨S64, .i32⟩
  | 87 => ⟨S_, .i32⟩
  | 88 => ⟨S64, .i32⟩
  | 89 => ⟨S64, .i32⟩
  | 90 => ⟨S_, .i32⟩
  | 91 => ⟨S64, .i32⟩
  | 92 => ⟨S64, .i32⟩
  | 93 => ⟨S64, .i32⟩
  | 94 => ⟨S64, .i32⟩
  | 95 => ⟨S64, .i32⟩
  | 96 => ⟨S_, .i32⟩
  | 97 => ⟨S64, .i32⟩
  | 98 => ⟨S64, .i32⟩
  | 99 => ⟨S_, .i32⟩
  | 100 => ⟨S64, .i32⟩
  | 101 => ⟨S64, .i32⟩
  | 102 => ⟨S64, .i32⟩
  | 103 => ⟨S64, .i32⟩
  | 104 => ⟨S64, .i32⟩
  | 105 => ⟨S_, .i32⟩
  | 106 => ⟨S64, .i32⟩
  | 107 => ⟨S64, .i32⟩
  | 108 => ⟨S_, .i32⟩
  | 109 => ⟨S64, .i32⟩
  | 110 => ⟨S64, .i32⟩
  | 111 => ⟨S64, .i32⟩
  | 112 => ⟨S64, .i32⟩
  | 113 => ⟨S64, .i32⟩
  | 114 => ⟨S64, .i32⟩
  | 115 => ⟨S64, .i32⟩
  | 116 => ⟨S64, .i32⟩
  | 117 => ⟨S_, .i32⟩
  | 118 => ⟨S64, .i32⟩
  | 119 => ⟨S64, .i32⟩
  | 120 => ⟨S64, .i32⟩
  | 121 => ⟨S64, .i32⟩
  | 122 => ⟨S64, .i32⟩
  | 123 => ⟨S_, .i32⟩
  | 124 => ⟨S64, .i32⟩
  | 125 => ⟨S64, .i1⟩
  | 126 => ⟨S_, .i32⟩
  | 127 => ⟨S64, .i32⟩
  | _ => ⟨S4096, .i32⟩

abbrev hbmTy0_10 (i : Nat) : BufTy := match i % 128 with
  | 0 => ⟨S64, .i32⟩
  | 1 => ⟨S64, .i32⟩
  | 2 => ⟨S64x1, .i32⟩
  | 3 => ⟨S40960x64, .i32⟩
  | 4 => ⟨S_, .i32⟩
  | 5 => ⟨S_, .i32⟩
  | 6 => ⟨S40960x25, .i32⟩
  | _ => ⟨S4096, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c : Ref sig .tc := ⟨.hbm, 17, rfl⟩
abbrev main_call0_v5 : Ref sig .tc := ⟨.hbm, 18, rfl⟩
abbrev main_call0_v6 : Ref sig .tc := ⟨.hbm, 19, rfl⟩
abbrev main_call0_c_0 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_call0_v0 : Ref sig .tc := ⟨.hbm, 25, rfl⟩
abbrev main_call0_call0_c : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_c_0 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_c_1 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_call0_v12 : Ref sig .tc := ⟨.hbm, 40, rfl⟩
abbrev main_call0_call0_v13 : Ref sig .tc := ⟨.hbm, 41, rfl⟩
abbrev main_call0_call0_c_2 : Ref sig .tc := ⟨.hbm, 42, rfl⟩
abbrev main_call0_call0_v14 : Ref sig .tc := ⟨.hbm, 43, rfl⟩
abbrev main_call0_call0_v15 : Ref sig .tc := ⟨.hbm, 44, rfl⟩
abbrev main_call0_call0_c_3 : Ref sig .tc := ⟨.hbm, 45, rfl⟩
abbrev main_call0_call0_v16 : Ref sig .tc := ⟨.hbm, 46, rfl⟩
abbrev main_call0_call0_v17 : Ref sig .tc := ⟨.hbm, 47, rfl⟩
abbrev main_call0_call0_v18 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_c_4 : Ref sig .tc := ⟨.hbm, 51, rfl⟩
abbrev main_call0_call0_v21 : Ref sig .tc := ⟨.hbm, 52, rfl⟩
abbrev main_call0_call0_v22 : Ref sig .tc := ⟨.hbm, 53, rfl⟩
abbrev main_call0_call0_c_5 : Ref sig .tc := ⟨.hbm, 54, rfl⟩
abbrev main_call0_call0_v23 : Ref sig .tc := ⟨.hbm, 55, rfl⟩
abbrev main_call0_call0_v24 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_v27 : Ref sig .tc := ⟨.hbm, 59, rfl⟩
abbrev main_call0_call0_c_6 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_c_7 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_v32 : Ref sig .tc := ⟨.hbm, 66, rfl⟩
abbrev main_call0_call0_v33 : Ref sig .tc := ⟨.hbm, 67, rfl⟩
abbrev main_call0_call0_v34 : Ref sig .tc := ⟨.hbm, 68, rfl⟩
abbrev main_call0_call0_v35 : Ref sig .tc := ⟨.hbm, 69, rfl⟩
abbrev main_call0_call0_v36 : Ref sig .tc := ⟨.hbm, 70, rfl⟩
abbrev main_call0_call0_v37 : Ref sig .tc := ⟨.hbm, 71, rfl⟩
abbrev main_call0_call0_c_8 : Ref sig .tc := ⟨.hbm, 72, rfl⟩
abbrev main_call0_call0_v38 : Ref sig .tc := ⟨.hbm, 73, rfl⟩
abbrev main_call0_call0_v39 : Ref sig .tc := ⟨.hbm, 74, rfl⟩
abbrev main_call0_call0_v40 : Ref sig .tc := ⟨.hbm, 75, rfl⟩
abbrev main_call0_call0_c_9 : Ref sig .tc := ⟨.hbm, 76, rfl⟩
abbrev main_call0_call0_v41 : Ref sig .tc := ⟨.hbm, 77, rfl⟩
abbrev main_call0_call0_v42 : Ref sig .tc := ⟨.hbm, 78, rfl⟩
abbrev main_call0_call0_c_10 : Ref sig .tc := ⟨.hbm, 79, rfl⟩
abbrev main_call0_call0_v43 : Ref sig .tc := ⟨.hbm, 80, rfl⟩
abbrev main_call0_call0_v44 : Ref sig .tc := ⟨.hbm, 81, rfl⟩
abbrev main_call0_call0_v45 : Ref sig .tc := ⟨.hbm, 82, rfl⟩
abbrev main_call0_call0_v46 : Ref sig .tc := ⟨.hbm, 83, rfl⟩
abbrev main_call0_call0_v47 : Ref sig .tc := ⟨.hbm, 84, rfl⟩
abbrev main_call0_call0_c_11 : Ref sig .tc := ⟨.hbm, 85, rfl⟩
abbrev main_call0_call0_v48 : Ref sig .tc := ⟨.hbm, 86, rfl⟩
abbrev main_call0_call0_v49 : Ref sig .tc := ⟨.hbm, 87, rfl⟩
abbrev main_call0_call0_c_12 : Ref sig .tc := ⟨.hbm, 88, rfl⟩
abbrev main_call0_call0_v50 : Ref sig .tc := ⟨.hbm, 89, rfl⟩
abbrev main_call0_call0_v51 : Ref sig .tc := ⟨.hbm, 90, rfl⟩
abbrev main_call0_call0_v52 : Ref sig .tc := ⟨.hbm, 91, rfl⟩
abbrev main_call0_call0_v53 : Ref sig .tc := ⟨.hbm, 92, rfl⟩
abbrev main_call0_call0_v54 : Ref sig .tc := ⟨.hbm, 93, rfl⟩
abbrev main_call0_call0_c_13 : Ref sig .tc := ⟨.hbm, 94, rfl⟩
abbrev main_call0_call0_v55 : Ref sig .tc := ⟨.hbm, 95, rfl⟩
abbrev main_call0_call0_v56 : Ref sig .tc := ⟨.hbm, 96, rfl⟩
abbrev main_call0_call0_c_14 : Ref sig .tc := ⟨.hbm, 97, rfl⟩
abbrev main_call0_call0_v57 : Ref sig .tc := ⟨.hbm, 98, rfl⟩
abbrev main_call0_call0_v58 : Ref sig .tc := ⟨.hbm, 99, rfl⟩
abbrev main_call0_call0_v59 : Ref sig .tc := ⟨.hbm, 100, rfl⟩
abbrev main_call0_call0_v60 : Ref sig .tc := ⟨.hbm, 101, rfl⟩
abbrev main_call0_call0_v61 : Ref sig .tc := ⟨.hbm, 102, rfl⟩
abbrev main_call0_call0_c_15 : Ref sig .tc := ⟨.hbm, 103, rfl⟩
abbrev main_call0_call0_v62 : Ref sig .tc := ⟨.hbm, 104, rfl⟩
abbrev main_call0_call0_v63 : Ref sig .tc := ⟨.hbm, 105, rfl⟩
abbrev main_call0_call0_c_16 : Ref sig .tc := ⟨.hbm, 106, rfl⟩
abbrev main_call0_call0_v64 : Ref sig .tc := ⟨.hbm, 107, rfl⟩
abbrev main_call0_call0_v65 : Ref sig .tc := ⟨.hbm, 108, rfl⟩
abbrev main_call0_call0_v66 : Ref sig .tc := ⟨.hbm, 109, rfl⟩
abbrev main_call0_call0_v67 : Ref sig .tc := ⟨.hbm, 110, rfl⟩
abbrev main_call0_call0_v68 : Ref sig .tc := ⟨.hbm, 111, rfl⟩
abbrev main_call0_call0_v69 : Ref sig .tc := ⟨.hbm, 112, rfl⟩
abbrev main_call0_call0_v70 : Ref sig .tc := ⟨.hbm, 113, rfl⟩
abbrev main_call0_call0_v71 : Ref sig .tc := ⟨.hbm, 114, rfl⟩
abbrev main_call0_call0_c_17 : Ref sig .tc := ⟨.hbm, 115, rfl⟩
abbrev main_call0_call0_v72 : Ref sig .tc := ⟨.hbm, 116, rfl⟩
abbrev main_call0_call0_v73 : Ref sig .tc := ⟨.hbm, 117, rfl⟩
abbrev main_call0_call0_v74 : Ref sig .tc := ⟨.hbm, 118, rfl⟩
abbrev main_call0_call0_c_18 : Ref sig .tc := ⟨.hbm, 119, rfl⟩
abbrev main_call0_call0_v75 : Ref sig .tc := ⟨.hbm, 120, rfl⟩
abbrev main_call0_call0_v76 : Ref sig .tc := ⟨.hbm, 121, rfl⟩
abbrev main_call0_call0_c_19 : Ref sig .tc := ⟨.hbm, 122, rfl⟩
abbrev main_call0_call0_v77 : Ref sig .tc := ⟨.hbm, 123, rfl⟩
abbrev main_call0_call0_v78 : Ref sig .tc := ⟨.hbm, 124, rfl⟩
abbrev main_call0_call0_v79 : Ref sig .tc := ⟨.hbm, 125, rfl⟩
abbrev main_call0_call0_v80 : Ref sig .tc := ⟨.hbm, 126, rfl⟩
abbrev main_call0_call0_v81 : Ref sig .tc := ⟨.hbm, 127, rfl⟩
abbrev main_call0_call0_c_20 : Ref sig .tc := ⟨.hbm, 128, rfl⟩
abbrev main_call0_call0_v82 : Ref sig .tc := ⟨.hbm, 129, rfl⟩
abbrev main_call0_call0_v83 : Ref sig .tc := ⟨.hbm, 130, rfl⟩
abbrev main_call0_call0_c_21 : Ref sig .tc := ⟨.hbm, 131, rfl⟩
abbrev main_call0_call0_v84 : Ref sig .tc := ⟨.hbm, 132, rfl⟩
abbrev main_call0_call0_v85 : Ref sig .tc := ⟨.hbm, 133, rfl⟩
abbrev main_call0_call0_v86 : Ref sig .tc := ⟨.hbm, 134, rfl⟩
abbrev main_call0_call0_v87 : Ref sig .tc := ⟨.hbm, 135, rfl⟩
abbrev main_call0_call0_v88 : Ref sig .tc := ⟨.hbm, 136, rfl⟩
abbrev main_call0_call0_c_22 : Ref sig .tc := ⟨.hbm, 137, rfl⟩
abbrev main_call0_call0_v89 : Ref sig .tc := ⟨.hbm, 138, rfl⟩
abbrev main_call0_call0_v90 : Ref sig .tc := ⟨.hbm, 139, rfl⟩
abbrev main_call0_call0_c_23 : Ref sig .tc := ⟨.hbm, 140, rfl⟩
abbrev main_call0_call0_v91 : Ref sig .tc := ⟨.hbm, 141, rfl⟩
abbrev main_call0_call0_v92 : Ref sig .tc := ⟨.hbm, 142, rfl⟩
abbrev main_call0_call0_v93 : Ref sig .tc := ⟨.hbm, 143, rfl⟩
abbrev main_call0_call0_v94 : Ref sig .tc := ⟨.hbm, 144, rfl⟩
abbrev main_call0_call0_v95 : Ref sig .tc := ⟨.hbm, 145, rfl⟩
abbrev main_call0_call0_c_24 : Ref sig .tc := ⟨.hbm, 146, rfl⟩
abbrev main_call0_call0_v96 : Ref sig .tc := ⟨.hbm, 147, rfl⟩
abbrev main_call0_call0_v97 : Ref sig .tc := ⟨.hbm, 148, rfl⟩
abbrev main_call0_call0_c_25 : Ref sig .tc := ⟨.hbm, 149, rfl⟩
abbrev main_call0_call0_v98 : Ref sig .tc := ⟨.hbm, 150, rfl⟩
abbrev main_call0_call0_v99 : Ref sig .tc := ⟨.hbm, 151, rfl⟩
abbrev main_call0_call0_v100 : Ref sig .tc := ⟨.hbm, 152, rfl⟩
abbrev main_call0_call0_v101 : Ref sig .tc := ⟨.hbm, 153, rfl⟩
abbrev main_call0_call0_v102 : Ref sig .tc := ⟨.hbm, 154, rfl⟩
abbrev main_call0_call0_v103 : Ref sig .tc := ⟨.hbm, 155, rfl⟩
abbrev main_call0_call0_v104 : Ref sig .tc := ⟨.hbm, 156, rfl⟩
abbrev main_call0_call0_v105 : Ref sig .tc := ⟨.hbm, 157, rfl⟩
abbrev main_call0_call0_c_26 : Ref sig .tc := ⟨.hbm, 158, rfl⟩
abbrev main_call0_call0_v106 : Ref sig .tc := ⟨.hbm, 159, rfl⟩
abbrev main_call0_call0_v107 : Ref sig .tc := ⟨.hbm, 160, rfl⟩
abbrev main_call0_call0_v108 : Ref sig .tc := ⟨.hbm, 161, rfl⟩
abbrev main_call0_call0_c_27 : Ref sig .tc := ⟨.hbm, 162, rfl⟩
abbrev main_call0_call0_v109 : Ref sig .tc := ⟨.hbm, 163, rfl⟩
abbrev main_call0_call0_v110 : Ref sig .tc := ⟨.hbm, 164, rfl⟩
abbrev main_call0_call0_c_28 : Ref sig .tc := ⟨.hbm, 165, rfl⟩
abbrev main_call0_call0_v111 : Ref sig .tc := ⟨.hbm, 166, rfl⟩
abbrev main_call0_call0_v112 : Ref sig .tc := ⟨.hbm, 167, rfl⟩
abbrev main_call0_call0_v113 : Ref sig .tc := ⟨.hbm, 168, rfl⟩
abbrev main_call0_call0_v114 : Ref sig .tc := ⟨.hbm, 169, rfl⟩
abbrev main_call0_call0_v115 : Ref sig .tc := ⟨.hbm, 170, rfl⟩
abbrev main_call0_call0_c_29 : Ref sig .tc := ⟨.hbm, 171, rfl⟩
abbrev main_call0_call0_v116 : Ref sig .tc := ⟨.hbm, 172, rfl⟩
abbrev main_call0_call0_v117 : Ref sig .tc := ⟨.hbm, 173, rfl⟩
abbrev main_call0_call0_c_30 : Ref sig .tc := ⟨.hbm, 174, rfl⟩
abbrev main_call0_call0_v118 : Ref sig .tc := ⟨.hbm, 175, rfl⟩
abbrev main_call0_call0_v119 : Ref sig .tc := ⟨.hbm, 176, rfl⟩
abbrev main_call0_call0_v120 : Ref sig .tc := ⟨.hbm, 177, rfl⟩
abbrev main_call0_call0_v121 : Ref sig .tc := ⟨.hbm, 178, rfl⟩
abbrev main_call0_call0_v122 : Ref sig .tc := ⟨.hbm, 179, rfl⟩
abbrev main_call0_call0_c_31 : Ref sig .tc := ⟨.hbm, 180, rfl⟩
abbrev main_call0_call0_v123 : Ref sig .tc := ⟨.hbm, 181, rfl⟩
abbrev main_call0_call0_v124 : Ref sig .tc := ⟨.hbm, 182, rfl⟩
abbrev main_call0_call0_c_32 : Ref sig .tc := ⟨.hbm, 183, rfl⟩
abbrev main_call0_call0_v125 : Ref sig .tc := ⟨.hbm, 184, rfl⟩
abbrev main_call0_call0_v126 : Ref sig .tc := ⟨.hbm, 185, rfl⟩
abbrev main_call0_call0_v127 : Ref sig .tc := ⟨.hbm, 186, rfl⟩
abbrev main_call0_call0_v128 : Ref sig .tc := ⟨.hbm, 187, rfl⟩
abbrev main_call0_call0_v129 : Ref sig .tc := ⟨.hbm, 188, rfl⟩
abbrev main_call0_call0_c_33 : Ref sig .tc := ⟨.hbm, 189, rfl⟩
abbrev main_call0_call0_v130 : Ref sig .tc := ⟨.hbm, 190, rfl⟩
abbrev main_call0_call0_v131 : Ref sig .tc := ⟨.hbm, 191, rfl⟩
abbrev main_call0_call0_c_34 : Ref sig .tc := ⟨.hbm, 192, rfl⟩
abbrev main_call0_call0_v132 : Ref sig .tc := ⟨.hbm, 193, rfl⟩
abbrev main_call0_call0_v133 : Ref sig .tc := ⟨.hbm, 194, rfl⟩
abbrev main_call0_call0_v134 : Ref sig .tc := ⟨.hbm, 195, rfl⟩
abbrev main_call0_call0_v135 : Ref sig .tc := ⟨.hbm, 196, rfl⟩
abbrev main_call0_call0_v136 : Ref sig .tc := ⟨.hbm, 197, rfl⟩
abbrev main_call0_call0_v137 : Ref sig .tc := ⟨.hbm, 198, rfl⟩
abbrev main_call0_call0_v138 : Ref sig .tc := ⟨.hbm, 199, rfl⟩
abbrev main_call0_call0_v139 : Ref sig .tc := ⟨.hbm, 200, rfl⟩
abbrev main_call0_call0_c_35 : Ref sig .tc := ⟨.hbm, 201, rfl⟩
abbrev main_call0_call0_v140 : Ref sig .tc := ⟨.hbm, 202, rfl⟩
abbrev main_call0_call0_v141 : Ref sig .tc := ⟨.hbm, 203, rfl⟩
abbrev main_call0_call0_v142 : Ref sig .tc := ⟨.hbm, 204, rfl⟩
abbrev main_call0_call0_c_36 : Ref sig .tc := ⟨.hbm, 205, rfl⟩
abbrev main_call0_call0_v143 : Ref sig .tc := ⟨.hbm, 206, rfl⟩
abbrev main_call0_call0_v144 : Ref sig .tc := ⟨.hbm, 207, rfl⟩
abbrev main_call0_call0_c_37 : Ref sig .tc := ⟨.hbm, 208, rfl⟩
abbrev main_call0_call0_v145 : Ref sig .tc := ⟨.hbm, 209, rfl⟩
abbrev main_call0_call0_v146 : Ref sig .tc := ⟨.hbm, 210, rfl⟩
abbrev main_call0_call0_v147 : Ref sig .tc := ⟨.hbm, 211, rfl⟩
abbrev main_call0_call0_v148 : Ref sig .tc := ⟨.hbm, 212, rfl⟩
abbrev main_call0_call0_v149 : Ref sig .tc := ⟨.hbm, 213, rfl⟩
abbrev main_call0_call0_c_38 : Ref sig .tc := ⟨.hbm, 214, rfl⟩
abbrev main_call0_call0_v150 : Ref sig .tc := ⟨.hbm, 215, rfl⟩
abbrev main_call0_call0_v151 : Ref sig .tc := ⟨.hbm, 216, rfl⟩
abbrev main_call0_call0_c_39 : Ref sig .tc := ⟨.hbm, 217, rfl⟩
abbrev main_call0_call0_v152 : Ref sig .tc := ⟨.hbm, 218, rfl⟩
abbrev main_call0_call0_v153 : Ref sig .tc := ⟨.hbm, 219, rfl⟩
abbrev main_call0_call0_v154 : Ref sig .tc := ⟨.hbm, 220, rfl⟩
abbrev main_call0_call0_v155 : Ref sig .tc := ⟨.hbm, 221, rfl⟩
abbrev main_call0_call0_v156 : Ref sig .tc := ⟨.hbm, 222, rfl⟩
abbrev main_call0_call0_c_40 : Ref sig .tc := ⟨.hbm, 223, rfl⟩
abbrev main_call0_call0_v157 : Ref sig .tc := ⟨.hbm, 224, rfl⟩
abbrev main_call0_call0_v158 : Ref sig .tc := ⟨.hbm, 225, rfl⟩
abbrev main_call0_call0_c_41 : Ref sig .tc := ⟨.hbm, 226, rfl⟩
abbrev main_call0_call0_v159 : Ref sig .tc := ⟨.hbm, 227, rfl⟩
abbrev main_call0_call0_v160 : Ref sig .tc := ⟨.hbm, 228, rfl⟩
abbrev main_call0_call0_v161 : Ref sig .tc := ⟨.hbm, 229, rfl⟩
abbrev main_call0_call0_v162 : Ref sig .tc := ⟨.hbm, 230, rfl⟩
abbrev main_call0_call0_v163 : Ref sig .tc := ⟨.hbm, 231, rfl⟩
abbrev main_call0_call0_c_42 : Ref sig .tc := ⟨.hbm, 232, rfl⟩
abbrev main_call0_call0_v164 : Ref sig .tc := ⟨.hbm, 233, rfl⟩
abbrev main_call0_call0_v165 : Ref sig .tc := ⟨.hbm, 234, rfl⟩
abbrev main_call0_call0_c_43 : Ref sig .tc := ⟨.hbm, 235, rfl⟩
abbrev main_call0_call0_v166 : Ref sig .tc := ⟨.hbm, 236, rfl⟩
abbrev main_call0_call0_v167 : Ref sig .tc := ⟨.hbm, 237, rfl⟩
abbrev main_call0_call0_v168 : Ref sig .tc := ⟨.hbm, 238, rfl⟩
abbrev main_call0_call0_v169 : Ref sig .tc := ⟨.hbm, 239, rfl⟩
abbrev main_call0_call0_v170 : Ref sig .tc := ⟨.hbm, 240, rfl⟩
abbrev main_call0_v11_0 : Ref sig .tc := ⟨.hbm, 241, rfl⟩
abbrev main_call0_call0_v172 : Ref sig .tc := ⟨.hbm, 242, rfl⟩
abbrev main_call0_call0_v173 : Ref sig .tc := ⟨.hbm, 243, rfl⟩
abbrev main_call0_call0_c_44 : Ref sig .tc := ⟨.hbm, 244, rfl⟩
abbrev main_call0_call0_v174 : Ref sig .tc := ⟨.hbm, 245, rfl⟩
abbrev main_call0_v11_1 : Ref sig .tc := ⟨.hbm, 246, rfl⟩
abbrev main_call0_v12 : Ref sig .tc := ⟨.hbm, 247, rfl⟩
abbrev main_call0_v13 : Ref sig .tc := ⟨.hbm, 248, rfl⟩
abbrev main_v7 : Ref sig .tc := ⟨.hbm, 249, rfl⟩
abbrev main_v8 : Ref sig .tc := ⟨.hbm, 250, rfl⟩
abbrev main_v9 : Ref sig .tc := ⟨.hbm, 251, rfl⟩
abbrev main_v10 : Ref sig .tc := ⟨.hbm, 252, rfl⟩
abbrev main_v11 : Ref sig .tc := ⟨.hbm, 253, rfl⟩
abbrev main_call1_c : Ref sig .tc := ⟨.hbm, 254, rfl⟩
abbrev main_call1_v0 : Ref sig .tc := ⟨.hbm, 255, rfl⟩
abbrev main_call1_v1 : Ref sig .tc := ⟨.hbm, 256, rfl⟩
abbrev main_call1_c_0 : Ref sig .tc := ⟨.hbm, 257, rfl⟩
abbrev main_call1_v2 : Ref sig .tc := ⟨.hbm, 258, rfl⟩
abbrev main_call1_v3 : Ref sig .tc := ⟨.hbm, 259, rfl⟩
abbrev main_call1_v4 : Ref sig .tc := ⟨.hbm, 260, rfl⟩
abbrev main_call1_v5 : Ref sig .tc := ⟨.hbm, 261, rfl⟩
abbrev main_call1_c_1 : Ref sig .tc := ⟨.hbm, 262, rfl⟩
abbrev main_call1_c_2 : Ref sig .tc := ⟨.hbm, 263, rfl⟩
abbrev main_call1_v6 : Ref sig .tc := ⟨.hbm, 264, rfl⟩
abbrev main_call1_v7 : Ref sig .tc := ⟨.hbm, 265, rfl⟩
abbrev main_call1_v8 : Ref sig .tc := ⟨.hbm, 266, rfl⟩
abbrev main_call1_v9 : Ref sig .tc := ⟨.hbm, 267, rfl⟩
abbrev main_call1_v10 : Ref sig .tc := ⟨.hbm, 268, rfl⟩
abbrev main_call1_v11 : Ref sig .tc := ⟨.hbm, 269, rfl⟩
abbrev main_call1_c_3 : Ref sig .tc := ⟨.hbm, 270, rfl⟩
abbrev main_call1_v12 : Ref sig .tc := ⟨.hbm, 271, rfl⟩
abbrev main_call1_v13 : Ref sig .tc := ⟨.hbm, 272, rfl⟩
abbrev main_call1_v14 : Ref sig .tc := ⟨.hbm, 273, rfl⟩
abbrev main_call1_c_4 : Ref sig .tc := ⟨.hbm, 274, rfl⟩
abbrev main_call1_v15 : Ref sig .tc := ⟨.hbm, 275, rfl⟩
abbrev main_v12 : Ref sig .tc := ⟨.hbm, 276, rfl⟩
abbrev main_v13 : Ref sig .tc := ⟨.hbm, 277, rfl⟩
abbrev main_call2_call0_v0 : Ref sig .tc := ⟨.hbm, 278, rfl⟩
abbrev main_call2_call0_v1 : Ref sig .tc := ⟨.hbm, 279, rfl⟩
abbrev main_call2_call0_v2 : Ref sig .tc := ⟨.hbm, 280, rfl⟩
abbrev main_call2_call0_v3 : Ref sig .tc := ⟨.hbm, 281, rfl⟩
abbrev main_call2_call0_v4 : Ref sig .tc := ⟨.hbm, 282, rfl⟩
abbrev main_call2_call0_c : Ref sig .tc := ⟨.hbm, 283, rfl⟩
abbrev main_call2_call0_v5 : Ref sig .tc := ⟨.hbm, 284, rfl⟩
abbrev main_call2_call0_v6 : Ref sig .tc := ⟨.hbm, 285, rfl⟩
abbrev main_call2_call0_c_0 : Ref sig .tc := ⟨.hbm, 286, rfl⟩
abbrev main_call2_call0_v7 : Ref sig .tc := ⟨.hbm, 287, rfl⟩
abbrev main_call2_call0_v8 : Ref sig .tc := ⟨.hbm, 288, rfl⟩
abbrev main_call2_call0_v9 : Ref sig .tc := ⟨.hbm, 289, rfl⟩
abbrev main_call2_call0_v10 : Ref sig .tc := ⟨.hbm, 290, rfl⟩
abbrev main_call2_call0_call0_v0 : Ref sig .tc := ⟨.hbm, 291, rfl⟩
abbrev main_call2_call0_call0_c : Ref sig .tc := ⟨.hbm, 292, rfl⟩
abbrev main_call2_call0_call0_v1 : Ref sig .tc := ⟨.hbm, 293, rfl⟩
abbrev main_call2_call0_call0_v2 : Ref sig .tc := ⟨.hbm, 294, rfl⟩
abbrev main_call2_call0_call0_v3 : Ref sig .tc := ⟨.hbm, 295, rfl⟩
abbrev main_call2_call0_call0_v4 : Ref sig .tc := ⟨.hbm, 296, rfl⟩
abbrev main_call2_call0_call0_v5 : Ref sig .tc := ⟨.hbm, 297, rfl⟩
abbrev main_call2_call0_call0_v6 : Ref sig .tc := ⟨.hbm, 298, rfl⟩
abbrev main_call2_call0_call0_c_0 : Ref sig .tc := ⟨.hbm, 299, rfl⟩
abbrev main_call2_call0_call0_v7 : Ref sig .tc := ⟨.hbm, 300, rfl⟩
abbrev main_call2_call0_call0_v8 : Ref sig .tc := ⟨.hbm, 301, rfl⟩
abbrev main_call2_call0_call0_c_1 : Ref sig .tc := ⟨.hbm, 302, rfl⟩
abbrev main_call2_call0_call0_v9 : Ref sig .tc := ⟨.hbm, 303, rfl⟩
abbrev main_call2_call0_call0_v10 : Ref sig .tc := ⟨.hbm, 304, rfl⟩
abbrev main_call2_call0_call0_v11 : Ref sig .tc := ⟨.hbm, 305, rfl⟩
abbrev main_call2_call0_call0_v12 : Ref sig .tc := ⟨.hbm, 306, rfl⟩
abbrev main_call2_call0_call0_v13 : Ref sig .tc := ⟨.hbm, 307, rfl⟩
abbrev main_call2_call0_call0_c_2 : Ref sig .tc := ⟨.hbm, 308, rfl⟩
abbrev main_call2_call0_call0_v14 : Ref sig .tc := ⟨.hbm, 309, rfl⟩
abbrev main_call2_call0_call0_v15 : Ref sig .tc := ⟨.hbm, 310, rfl⟩
abbrev main_call2_call0_call0_c_3 : Ref sig .tc := ⟨.hbm, 311, rfl⟩
abbrev main_call2_call0_call0_v16 : Ref sig .tc := ⟨.hbm, 312, rfl⟩
abbrev main_call2_call0_call0_v17 : Ref sig .tc := ⟨.hbm, 313, rfl⟩
abbrev main_call2_call0_call0_v18 : Ref sig .tc := ⟨.hbm, 314, rfl⟩
abbrev main_call2_call0_call0_v19 : Ref sig .tc := ⟨.hbm, 315, rfl⟩
abbrev main_call2_call0_call0_v20 : Ref sig .tc := ⟨.hbm, 316, rfl⟩
abbrev main_call2_call0_call0_c_4 : Ref sig .tc := ⟨.hbm, 317, rfl⟩
abbrev main_call2_call0_call0_v21 : Ref sig .tc := ⟨.hbm, 318, rfl⟩
abbrev main_call2_call0_call0_v22 : Ref sig .tc := ⟨.hbm, 319, rfl⟩
abbrev main_call2_call0_call0_c_5 : Ref sig .tc := ⟨.hbm, 320, rfl⟩
abbrev main_call2_call0_call0_v23 : Ref sig .tc := ⟨.hbm, 321, rfl⟩
abbrev main_call2_call0_call0_v24 : Ref sig .tc := ⟨.hbm, 322, rfl⟩
abbrev main_call2_call0_call0_v25 : Ref sig .tc := ⟨.hbm, 323, rfl⟩
abbrev main_call2_call0_call0_v26 : Ref sig .tc := ⟨.hbm, 324, rfl⟩
abbrev main_call2_call0_call0_v27 : Ref sig .tc := ⟨.hbm, 325, rfl⟩
abbrev main_call2_call0_call0_c_6 : Ref sig .tc := ⟨.hbm, 326, rfl⟩
abbrev main_call2_call0_call0_v28 : Ref sig .tc := ⟨.hbm, 327, rfl⟩
abbrev main_call2_call0_call0_v29 : Ref sig .tc := ⟨.hbm, 328, rfl⟩
abbrev main_call2_call0_call0_c_7 : Ref sig .tc := ⟨.hbm, 329, rfl⟩
abbrev main_call2_call0_call0_v30 : Ref sig .tc := ⟨.hbm, 330, rfl⟩
abbrev main_call2_call0_call0_v31 : Ref sig .tc := ⟨.hbm, 331, rfl⟩
abbrev main_call2_call0_call0_v32 : Ref sig .tc := ⟨.hbm, 332, rfl⟩
abbrev main_call2_call0_call0_v33 : Ref sig .tc := ⟨.hbm, 333, rfl⟩
abbrev main_call2_call0_call0_v34 : Ref sig .tc := ⟨.hbm, 334, rfl⟩
abbrev main_call2_call0_call0_v35 : Ref sig .tc := ⟨.hbm, 335, rfl⟩
abbrev main_call2_call0_call0_v36 : Ref sig .tc := ⟨.hbm, 336, rfl⟩
abbrev main_call2_call0_call0_v37 : Ref sig .tc := ⟨.hbm, 337, rfl⟩
abbrev main_call2_call0_call0_c_8 : Ref sig .tc := ⟨.hbm, 338, rfl⟩
abbrev main_call2_call0_call0_v38 : Ref sig .tc := ⟨.hbm, 339, rfl⟩
abbrev main_call2_call0_call0_v39 : Ref sig .tc := ⟨.hbm, 340, rfl⟩
abbrev main_call2_call0_call0_v40 : Ref sig .tc := ⟨.hbm, 341, rfl⟩
abbrev main_call2_call0_call0_c_9 : Ref sig .tc := ⟨.hbm, 342, rfl⟩
abbrev main_call2_call0_call0_v41 : Ref sig .tc := ⟨.hbm, 343, rfl⟩
abbrev main_call2_call0_call0_v42 : Ref sig .tc := ⟨.hbm, 344, rfl⟩
abbrev main_call2_call0_call0_c_10 : Ref sig .tc := ⟨.hbm, 345, rfl⟩
abbrev main_call2_call0_call0_v43 : Ref sig .tc := ⟨.hbm, 346, rfl⟩
abbrev main_call2_call0_call0_v44 : Ref sig .tc := ⟨.hbm, 347, rfl⟩
abbrev main_call2_call0_call0_v45 : Ref sig .tc := ⟨.hbm, 348, rfl⟩
abbrev main_call2_call0_call0_v46 : Ref sig .tc := ⟨.hbm, 349, rfl⟩
abbrev main_call2_call0_call0_v47 : Ref sig .tc := ⟨.hbm, 350, rfl⟩
abbrev main_call2_call0_call0_c_11 : Ref sig .tc := ⟨.hbm, 351, rfl⟩
abbrev main_call2_call0_call0_v48 : Ref sig .tc := ⟨.hbm, 352, rfl⟩
abbrev main_call2_call0_call0_v49 : Ref sig .tc := ⟨.hbm, 353, rfl⟩
abbrev main_call2_call0_call0_c_12 : Ref sig .tc := ⟨.hbm, 354, rfl⟩
abbrev main_call2_call0_call0_v50 : Ref sig .tc := ⟨.hbm, 355, rfl⟩
abbrev main_call2_call0_call0_v51 : Ref sig .tc := ⟨.hbm, 356, rfl⟩
abbrev main_call2_call0_call0_v52 : Ref sig .tc := ⟨.hbm, 357, rfl⟩
abbrev main_call2_call0_call0_v53 : Ref sig .tc := ⟨.hbm, 358, rfl⟩
abbrev main_call2_call0_call0_v54 : Ref sig .tc := ⟨.hbm, 359, rfl⟩
abbrev main_call2_call0_call0_c_13 : Ref sig .tc := ⟨.hbm, 360, rfl⟩
abbrev main_call2_call0_call0_v55 : Ref sig .tc := ⟨.hbm, 361, rfl⟩
abbrev main_call2_call0_call0_v56 : Ref sig .tc := ⟨.hbm, 362, rfl⟩
abbrev main_call2_call0_call0_c_14 : Ref sig .tc := ⟨.hbm, 363, rfl⟩
abbrev main_call2_call0_call0_v57 : Ref sig .tc := ⟨.hbm, 364, rfl⟩
abbrev main_call2_call0_call0_v58 : Ref sig .tc := ⟨.hbm, 365, rfl⟩
abbrev main_call2_call0_call0_v59 : Ref sig .tc := ⟨.hbm, 366, rfl⟩
abbrev main_call2_call0_call0_v60 : Ref sig .tc := ⟨.hbm, 367, rfl⟩
abbrev main_call2_call0_call0_v61 : Ref sig .tc := ⟨.hbm, 368, rfl⟩
abbrev main_call2_call0_call0_c_15 : Ref sig .tc := ⟨.hbm, 369, rfl⟩
abbrev main_call2_call0_call0_v62 : Ref sig .tc := ⟨.hbm, 370, rfl⟩
abbrev main_call2_call0_call0_v63 : Ref sig .tc := ⟨.hbm, 371, rfl⟩
abbrev main_call2_call0_call0_c_16 : Ref sig .tc := ⟨.hbm, 372, rfl⟩
abbrev main_call2_call0_call0_v64 : Ref sig .tc := ⟨.hbm, 373, rfl⟩
abbrev main_call2_call0_call0_v65 : Ref sig .tc := ⟨.hbm, 374, rfl⟩
abbrev main_call2_call0_call0_v66 : Ref sig .tc := ⟨.hbm, 375, rfl⟩
abbrev main_call2_call0_call0_v67 : Ref sig .tc := ⟨.hbm, 376, rfl⟩
abbrev main_call2_call0_call0_v68 : Ref sig .tc := ⟨.hbm, 377, rfl⟩
abbrev main_call2_call0_call0_v69 : Ref sig .tc := ⟨.hbm, 378, rfl⟩
abbrev main_call2_call0_call0_v70 : Ref sig .tc := ⟨.hbm, 379, rfl⟩
abbrev main_call2_call0_call0_v71 : Ref sig .tc := ⟨.hbm, 380, rfl⟩
abbrev main_call2_call0_call0_c_17 : Ref sig .tc := ⟨.hbm, 381, rfl⟩
abbrev main_call2_call0_call0_v72 : Ref sig .tc := ⟨.hbm, 382, rfl⟩
abbrev main_call2_call0_call0_v73 : Ref sig .tc := ⟨.hbm, 383, rfl⟩
abbrev main_call2_call0_call0_v74 : Ref sig .tc := ⟨.hbm, 384, rfl⟩
abbrev main_call2_call0_call0_c_18 : Ref sig .tc := ⟨.hbm, 385, rfl⟩
abbrev main_call2_call0_call0_v75 : Ref sig .tc := ⟨.hbm, 386, rfl⟩
abbrev main_call2_call0_call0_v76 : Ref sig .tc := ⟨.hbm, 387, rfl⟩
abbrev main_call2_call0_call0_c_19 : Ref sig .tc := ⟨.hbm, 388, rfl⟩
abbrev main_call2_call0_call0_v77 : Ref sig .tc := ⟨.hbm, 389, rfl⟩
abbrev main_call2_call0_call0_v78 : Ref sig .tc := ⟨.hbm, 390, rfl⟩
abbrev main_call2_call0_call0_v79 : Ref sig .tc := ⟨.hbm, 391, rfl⟩
abbrev main_call2_call0_call0_v80 : Ref sig .tc := ⟨.hbm, 392, rfl⟩
abbrev main_call2_call0_call0_v81 : Ref sig .tc := ⟨.hbm, 393, rfl⟩
abbrev main_call2_call0_call0_c_20 : Ref sig .tc := ⟨.hbm, 394, rfl⟩
abbrev main_call2_call0_call0_v82 : Ref sig .tc := ⟨.hbm, 395, rfl⟩
abbrev main_call2_call0_call0_v83 : Ref sig .tc := ⟨.hbm, 396, rfl⟩
abbrev main_call2_call0_call0_c_21 : Ref sig .tc := ⟨.hbm, 397, rfl⟩
abbrev main_call2_call0_call0_v84 : Ref sig .tc := ⟨.hbm, 398, rfl⟩
abbrev main_call2_call0_call0_v85 : Ref sig .tc := ⟨.hbm, 399, rfl⟩
abbrev main_call2_call0_call0_v86 : Ref sig .tc := ⟨.hbm, 400, rfl⟩
abbrev main_call2_call0_call0_v87 : Ref sig .tc := ⟨.hbm, 401, rfl⟩
abbrev main_call2_call0_call0_v88 : Ref sig .tc := ⟨.hbm, 402, rfl⟩
abbrev main_call2_call0_call0_c_22 : Ref sig .tc := ⟨.hbm, 403, rfl⟩
abbrev main_call2_call0_call0_v89 : Ref sig .tc := ⟨.hbm, 404, rfl⟩
abbrev main_call2_call0_call0_v90 : Ref sig .tc := ⟨.hbm, 405, rfl⟩
abbrev main_call2_call0_call0_c_23 : Ref sig .tc := ⟨.hbm, 406, rfl⟩
abbrev main_call2_call0_call0_v91 : Ref sig .tc := ⟨.hbm, 407, rfl⟩
abbrev main_call2_call0_call0_v92 : Ref sig .tc := ⟨.hbm, 408, rfl⟩
abbrev main_call2_call0_call0_v93 : Ref sig .tc := ⟨.hbm, 409, rfl⟩
abbrev main_call2_call0_call0_v94 : Ref sig .tc := ⟨.hbm, 410, rfl⟩
abbrev main_call2_call0_call0_v95 : Ref sig .tc := ⟨.hbm, 411, rfl⟩
abbrev main_call2_call0_call0_c_24 : Ref sig .tc := ⟨.hbm, 412, rfl⟩
abbrev main_call2_call0_call0_v96 : Ref sig .tc := ⟨.hbm, 413, rfl⟩
abbrev main_call2_call0_call0_v97 : Ref sig .tc := ⟨.hbm, 414, rfl⟩
abbrev main_call2_call0_call0_c_25 : Ref sig .tc := ⟨.hbm, 415, rfl⟩
abbrev main_call2_call0_call0_v98 : Ref sig .tc := ⟨.hbm, 416, rfl⟩
abbrev main_call2_call0_call0_v99 : Ref sig .tc := ⟨.hbm, 417, rfl⟩
abbrev main_call2_call0_call0_v100 : Ref sig .tc := ⟨.hbm, 418, rfl⟩
abbrev main_call2_call0_call0_v101 : Ref sig .tc := ⟨.hbm, 419, rfl⟩
abbrev main_call2_call0_call0_v102 : Ref sig .tc := ⟨.hbm, 420, rfl⟩
abbrev main_call2_call0_call0_v103 : Ref sig .tc := ⟨.hbm, 421, rfl⟩
abbrev main_call2_call0_call0_v104 : Ref sig .tc := ⟨.hbm, 422, rfl⟩
abbrev main_call2_call0_call0_v105 : Ref sig .tc := ⟨.hbm, 423, rfl⟩
abbrev main_call2_call0_call0_c_26 : Ref sig .tc := ⟨.hbm, 424, rfl⟩
abbrev main_call2_call0_call0_v106 : Ref sig .tc := ⟨.hbm, 425, rfl⟩
abbrev main_call2_call0_call0_v107 : Ref sig .tc := ⟨.hbm, 426, rfl⟩
abbrev main_call2_call0_call0_v108 : Ref sig .tc := ⟨.hbm, 427, rfl⟩
abbrev main_call2_call0_call0_c_27 : Ref sig .tc := ⟨.hbm, 428, rfl⟩
abbrev main_call2_call0_call0_v109 : Ref sig .tc := ⟨.hbm, 429, rfl⟩
abbrev main_call2_call0_call0_v110 : Ref sig .tc := ⟨.hbm, 430, rfl⟩
abbrev main_call2_call0_call0_c_28 : Ref sig .tc := ⟨.hbm, 431, rfl⟩
abbrev main_call2_call0_call0_v111 : Ref sig .tc := ⟨.hbm, 432, rfl⟩
abbrev main_call2_call0_call0_v112 : Ref sig .tc := ⟨.hbm, 433, rfl⟩
abbrev main_call2_call0_call0_v113 : Ref sig .tc := ⟨.hbm, 434, rfl⟩
abbrev main_call2_call0_call0_v114 : Ref sig .tc := ⟨.hbm, 435, rfl⟩
abbrev main_call2_call0_call0_v115 : Ref sig .tc := ⟨.hbm, 436, rfl⟩
abbrev main_call2_call0_call0_c_29 : Ref sig .tc := ⟨.hbm, 437, rfl⟩
abbrev main_call2_call0_call0_v116 : Ref sig .tc := ⟨.hbm, 438, rfl⟩
abbrev main_call2_call0_call0_v117 : Ref sig .tc := ⟨.hbm, 439, rfl⟩
abbrev main_call2_call0_call0_c_30 : Ref sig .tc := ⟨.hbm, 440, rfl⟩
abbrev main_call2_call0_call0_v118 : Ref sig .tc := ⟨.hbm, 441, rfl⟩
abbrev main_call2_call0_call0_v119 : Ref sig .tc := ⟨.hbm, 442, rfl⟩
abbrev main_call2_call0_call0_v120 : Ref sig .tc := ⟨.hbm, 443, rfl⟩
abbrev main_call2_call0_call0_v121 : Ref sig .tc := ⟨.hbm, 444, rfl⟩
abbrev main_call2_call0_call0_v122 : Ref sig .tc := ⟨.hbm, 445, rfl⟩
abbrev main_call2_call0_call0_c_31 : Ref sig .tc := ⟨.hbm, 446, rfl⟩
abbrev main_call2_call0_call0_v123 : Ref sig .tc := ⟨.hbm, 447, rfl⟩
abbrev main_call2_call0_call0_v124 : Ref sig .tc := ⟨.hbm, 448, rfl⟩
abbrev main_call2_call0_call0_c_32 : Ref sig .tc := ⟨.hbm, 449, rfl⟩
abbrev main_call2_call0_call0_v125 : Ref sig .tc := ⟨.hbm, 450, rfl⟩
abbrev main_call2_call0_call0_v126 : Ref sig .tc := ⟨.hbm, 451, rfl⟩
abbrev main_call2_call0_call0_v127 : Ref sig .tc := ⟨.hbm, 452, rfl⟩
abbrev main_call2_call0_call0_v128 : Ref sig .tc := ⟨.hbm, 453, rfl⟩
abbrev main_call2_call0_call0_v129 : Ref sig .tc := ⟨.hbm, 454, rfl⟩
abbrev main_call2_call0_call0_c_33 : Ref sig .tc := ⟨.hbm, 455, rfl⟩
abbrev main_call2_call0_call0_v130 : Ref sig .tc := ⟨.hbm, 456, rfl⟩
abbrev main_call2_call0_call0_v131 : Ref sig .tc := ⟨.hbm, 457, rfl⟩
abbrev main_call2_call0_call0_c_34 : Ref sig .tc := ⟨.hbm, 458, rfl⟩
abbrev main_call2_call0_call0_v132 : Ref sig .tc := ⟨.hbm, 459, rfl⟩
abbrev main_call2_call0_call0_v133 : Ref sig .tc := ⟨.hbm, 460, rfl⟩
abbrev main_call2_call0_call0_v134 : Ref sig .tc := ⟨.hbm, 461, rfl⟩
abbrev main_call2_call0_call0_v135 : Ref sig .tc := ⟨.hbm, 462, rfl⟩
abbrev main_call2_call0_call0_v136 : Ref sig .tc := ⟨.hbm, 463, rfl⟩
abbrev main_call2_call0_call0_v137 : Ref sig .tc := ⟨.hbm, 464, rfl⟩
abbrev main_call2_call0_call0_v138 : Ref sig .tc := ⟨.hbm, 465, rfl⟩
abbrev main_call2_call0_call0_v139 : Ref sig .tc := ⟨.hbm, 466, rfl⟩
abbrev main_call2_call0_call0_c_35 : Ref sig .tc := ⟨.hbm, 467, rfl⟩
abbrev main_call2_call0_call0_v140 : Ref sig .tc := ⟨.hbm, 468, rfl⟩
abbrev main_call2_call0_call0_v141 : Ref sig .tc := ⟨.hbm, 469, rfl⟩
abbrev main_call2_call0_call0_v142 : Ref sig .tc := ⟨.hbm, 470, rfl⟩
abbrev main_call2_call0_call0_c_36 : Ref sig .tc := ⟨.hbm, 471, rfl⟩
abbrev main_call2_call0_call0_v143 : Ref sig .tc := ⟨.hbm, 472, rfl⟩
abbrev main_call2_call0_call0_v144 : Ref sig .tc := ⟨.hbm, 473, rfl⟩
abbrev main_call2_call0_call0_c_37 : Ref sig .tc := ⟨.hbm, 474, rfl⟩
abbrev main_call2_call0_call0_v145 : Ref sig .tc := ⟨.hbm, 475, rfl⟩
abbrev main_call2_call0_call0_v146 : Ref sig .tc := ⟨.hbm, 476, rfl⟩
abbrev main_call2_call0_call0_v147 : Ref sig .tc := ⟨.hbm, 477, rfl⟩
abbrev main_call2_call0_call0_v148 : Ref sig .tc := ⟨.hbm, 478, rfl⟩
abbrev main_call2_call0_call0_v149 : Ref sig .tc := ⟨.hbm, 479, rfl⟩
abbrev main_call2_call0_call0_c_38 : Ref sig .tc := ⟨.hbm, 480, rfl⟩
abbrev main_call2_call0_call0_v150 : Ref sig .tc := ⟨.hbm, 481, rfl⟩
abbrev main_call2_call0_call0_v151 : Ref sig .tc := ⟨.hbm, 482, rfl⟩
abbrev main_call2_call0_call0_c_39 : Ref sig .tc := ⟨.hbm, 483, rfl⟩
abbrev main_call2_call0_call0_v152 : Ref sig .tc := ⟨.hbm, 484, rfl⟩
abbrev main_call2_call0_call0_v153 : Ref sig .tc := ⟨.hbm, 485, rfl⟩
abbrev main_call2_call0_call0_v154 : Ref sig .tc := ⟨.hbm, 486, rfl⟩
abbrev main_call2_call0_call0_v155 : Ref sig .tc := ⟨.hbm, 487, rfl⟩
abbrev main_call2_call0_call0_v156 : Ref sig .tc := ⟨.hbm, 488, rfl⟩
abbrev main_call2_call0_call0_c_40 : Ref sig .tc := ⟨.hbm, 489, rfl⟩
abbrev main_call2_call0_call0_v157 : Ref sig .tc := ⟨.hbm, 490, rfl⟩
abbrev main_call2_call0_call0_v158 : Ref sig .tc := ⟨.hbm, 491, rfl⟩
abbrev main_call2_call0_call0_c_41 : Ref sig .tc := ⟨.hbm, 492, rfl⟩
abbrev main_call2_call0_call0_v159 : Ref sig .tc := ⟨.hbm, 493, rfl⟩
abbrev main_call2_call0_call0_v160 : Ref sig .tc := ⟨.hbm, 494, rfl⟩
abbrev main_call2_call0_call0_v161 : Ref sig .tc := ⟨.hbm, 495, rfl⟩
abbrev main_call2_call0_call0_v162 : Ref sig .tc := ⟨.hbm, 496, rfl⟩
abbrev main_call2_call0_call0_v163 : Ref sig .tc := ⟨.hbm, 497, rfl⟩
abbrev main_call2_call0_call0_c_42 : Ref sig .tc := ⟨.hbm, 498, rfl⟩
abbrev main_call2_call0_call0_v164 : Ref sig .tc := ⟨.hbm, 499, rfl⟩
abbrev main_call2_call0_call0_v165 : Ref sig .tc := ⟨.hbm, 500, rfl⟩
abbrev main_call2_call0_call0_c_43 : Ref sig .tc := ⟨.hbm, 501, rfl⟩
abbrev main_call2_call0_call0_v166 : Ref sig .tc := ⟨.hbm, 502, rfl⟩
abbrev main_call2_call0_call0_v167 : Ref sig .tc := ⟨.hbm, 503, rfl⟩
abbrev main_call2_call0_call0_v168 : Ref sig .tc := ⟨.hbm, 504, rfl⟩
abbrev main_call2_call0_call0_v169 : Ref sig .tc := ⟨.hbm, 505, rfl⟩
abbrev main_call2_call0_call0_v170 : Ref sig .tc := ⟨.hbm, 506, rfl⟩
abbrev main_call2_call0_v11_0 : Ref sig .tc := ⟨.hbm, 507, rfl⟩
abbrev main_call2_call0_call0_v172 : Ref sig .tc := ⟨.hbm, 508, rfl⟩
abbrev main_call2_call0_call0_v173 : Ref sig .tc := ⟨.hbm, 509, rfl⟩
abbrev main_call2_call0_call0_c_44 : Ref sig .tc := ⟨.hbm, 510, rfl⟩
abbrev main_call2_call0_call0_v174 : Ref sig .tc := ⟨.hbm, 511, rfl⟩
abbrev main_call2_call0_v11_1 : Ref sig .tc := ⟨.hbm, 512, rfl⟩
abbrev main_call2_call0_v12 : Ref sig .tc := ⟨.hbm, 513, rfl⟩
abbrev main_call2_call0_v13 : Ref sig .tc := ⟨.hbm, 514, rfl⟩
abbrev main_call2_v0 : Ref sig .tc := ⟨.hbm, 515, rfl⟩
abbrev main_call2_v1 : Ref sig .tc := ⟨.hbm, 516, rfl⟩
abbrev main_call2_v2 : Ref sig .tc := ⟨.hbm, 517, rfl⟩
abbrev main_call2_v3 : Ref sig .tc := ⟨.hbm, 518, rfl⟩
abbrev main_call2_v4 : Ref sig .tc := ⟨.hbm, 519, rfl⟩
abbrev main_call2_v5 : Ref sig .tc := ⟨.hbm, 520, rfl⟩
abbrev main_call2_v6 : Ref sig .tc := ⟨.hbm, 521, rfl⟩
abbrev main_call2_v7 : Ref sig .tc := ⟨.hbm, 522, rfl⟩
abbrev main_call2_v8 : Ref sig .tc := ⟨.hbm, 523, rfl⟩
abbrev main_call2_v9 : Ref sig .tc := ⟨.hbm, 524, rfl⟩
abbrev main_call2_c : Ref sig .tc := ⟨.hbm, 525, rfl⟩
abbrev main_call2_v10 : Ref sig .tc := ⟨.hbm, 526, rfl⟩
abbrev main_call2_v11 : Ref sig .tc := ⟨.hbm, 527, rfl⟩
abbrev main_call2_c_0 : Ref sig .tc := ⟨.hbm, 528, rfl⟩
abbrev main_call2_v12 : Ref sig .tc := ⟨.hbm, 529, rfl⟩
abbrev main_call2_v13 : Ref sig .tc := ⟨.hbm, 530, rfl⟩
abbrev main_call2_v14 : Ref sig .tc := ⟨.hbm, 531, rfl⟩
abbrev main_call2_v15 : Ref sig .tc := ⟨.hbm, 532, rfl⟩
abbrev main_call2_call1_v0 : Ref sig .tc := ⟨.hbm, 533, rfl⟩
abbrev main_call2_call1_c : Ref sig .tc := ⟨.hbm, 534, rfl⟩
abbrev main_call2_call1_v1 : Ref sig .tc := ⟨.hbm, 535, rfl⟩
abbrev main_call2_call1_v2 : Ref sig .tc := ⟨.hbm, 536, rfl⟩
abbrev main_call2_call1_v3 : Ref sig .tc := ⟨.hbm, 537, rfl⟩
abbrev main_call2_call1_v4 : Ref sig .tc := ⟨.hbm, 538, rfl⟩
abbrev main_call2_call1_v5 : Ref sig .tc := ⟨.hbm, 539, rfl⟩
abbrev main_call2_call1_v6 : Ref sig .tc := ⟨.hbm, 540, rfl⟩
abbrev main_call2_call1_c_0 : Ref sig .tc := ⟨.hbm, 541, rfl⟩
abbrev main_call2_call1_v7 : Ref sig .tc := ⟨.hbm, 542, rfl⟩
abbrev main_call2_call1_v8 : Ref sig .tc := ⟨.hbm, 543, rfl⟩
abbrev main_call2_call1_c_1 : Ref sig .tc := ⟨.hbm, 544, rfl⟩
abbrev main_call2_call1_v9 : Ref sig .tc := ⟨.hbm, 545, rfl⟩
abbrev main_call2_call1_v10 : Ref sig .tc := ⟨.hbm, 546, rfl⟩
abbrev main_call2_call1_v11 : Ref sig .tc := ⟨.hbm, 547, rfl⟩
abbrev main_call2_call1_v12 : Ref sig .tc := ⟨.hbm, 548, rfl⟩
abbrev main_call2_call1_v13 : Ref sig .tc := ⟨.hbm, 549, rfl⟩
abbrev main_call2_call1_c_2 : Ref sig .tc := ⟨.hbm, 550, rfl⟩
abbrev main_call2_call1_v14 : Ref sig .tc := ⟨.hbm, 551, rfl⟩
abbrev main_call2_call1_v15 : Ref sig .tc := ⟨.hbm, 552, rfl⟩
abbrev main_call2_call1_c_3 : Ref sig .tc := ⟨.hbm, 553, rfl⟩
abbrev main_call2_call1_v16 : Ref sig .tc := ⟨.hbm, 554, rfl⟩
abbrev main_call2_call1_v17 : Ref sig .tc := ⟨.hbm, 555, rfl⟩
abbrev main_call2_call1_v18 : Ref sig .tc := ⟨.hbm, 556, rfl⟩
abbrev main_call2_call1_v19 : Ref sig .tc := ⟨.hbm, 557, rfl⟩
abbrev main_call2_call1_v20 : Ref sig .tc := ⟨.hbm, 558, rfl⟩
abbrev main_call2_call1_c_4 : Ref sig .tc := ⟨.hbm, 559, rfl⟩
abbrev main_call2_call1_v21 : Ref sig .tc := ⟨.hbm, 560, rfl⟩
abbrev main_call2_call1_v22 : Ref sig .tc := ⟨.hbm, 561, rfl⟩
abbrev main_call2_call1_c_5 : Ref sig .tc := ⟨.hbm, 562, rfl⟩
abbrev main_call2_call1_v23 : Ref sig .tc := ⟨.hbm, 563, rfl⟩
abbrev main_call2_call1_v24 : Ref sig .tc := ⟨.hbm, 564, rfl⟩
abbrev main_call2_call1_v25 : Ref sig .tc := ⟨.hbm, 565, rfl⟩
abbrev main_call2_call1_v26 : Ref sig .tc := ⟨.hbm, 566, rfl⟩
abbrev main_call2_call1_v27 : Ref sig .tc := ⟨.hbm, 567, rfl⟩
abbrev main_call2_call1_c_6 : Ref sig .tc := ⟨.hbm, 568, rfl⟩
abbrev main_call2_call1_v28 : Ref sig .tc := ⟨.hbm, 569, rfl⟩
abbrev main_call2_call1_v29 : Ref sig .tc := ⟨.hbm, 570, rfl⟩
abbrev main_call2_call1_c_7 : Ref sig .tc := ⟨.hbm, 571, rfl⟩
abbrev main_call2_call1_v30 : Ref sig .tc := ⟨.hbm, 572, rfl⟩
abbrev main_call2_call1_v31 : Ref sig .tc := ⟨.hbm, 573, rfl⟩
abbrev main_call2_call1_v32 : Ref sig .tc := ⟨.hbm, 574, rfl⟩
abbrev main_call2_call1_v33 : Ref sig .tc := ⟨.hbm, 575, rfl⟩
abbrev main_call2_call1_v34 : Ref sig .tc := ⟨.hbm, 576, rfl⟩
abbrev main_call2_call1_v35 : Ref sig .tc := ⟨.hbm, 577, rfl⟩
abbrev main_call2_call1_v36 : Ref sig .tc := ⟨.hbm, 578, rfl⟩
abbrev main_call2_call1_v37 : Ref sig .tc := ⟨.hbm, 579, rfl⟩
abbrev main_call2_call1_c_8 : Ref sig .tc := ⟨.hbm, 580, rfl⟩
abbrev main_call2_call1_v38 : Ref sig .tc := ⟨.hbm, 581, rfl⟩
abbrev main_call2_call1_v39 : Ref sig .tc := ⟨.hbm, 582, rfl⟩
abbrev main_call2_call1_v40 : Ref sig .tc := ⟨.hbm, 583, rfl⟩
abbrev main_call2_call1_c_9 : Ref sig .tc := ⟨.hbm, 584, rfl⟩
abbrev main_call2_call1_v41 : Ref sig .tc := ⟨.hbm, 585, rfl⟩
abbrev main_call2_call1_v42 : Ref sig .tc := ⟨.hbm, 586, rfl⟩
abbrev main_call2_call1_c_10 : Ref sig .tc := ⟨.hbm, 587, rfl⟩
abbrev main_call2_call1_v43 : Ref sig .tc := ⟨.hbm, 588, rfl⟩
abbrev main_call2_call1_v44 : Ref sig .tc := ⟨.hbm, 589, rfl⟩
abbrev main_call2_call1_v45 : Ref sig .tc := ⟨.hbm, 590, rfl⟩
abbrev main_call2_call1_v46 : Ref sig .tc := ⟨.hbm, 591, rfl⟩
abbrev main_call2_call1_v47 : Ref sig .tc := ⟨.hbm, 592, rfl⟩
abbrev main_call2_call1_c_11 : Ref sig .tc := ⟨.hbm, 593, rfl⟩
abbrev main_call2_call1_v48 : Ref sig .tc := ⟨.hbm, 594, rfl⟩
abbrev main_call2_call1_v49 : Ref sig .tc := ⟨.hbm, 595, rfl⟩
abbrev main_call2_call1_c_12 : Ref sig .tc := ⟨.hbm, 596, rfl⟩
abbrev main_call2_call1_v50 : Ref sig .tc := ⟨.hbm, 597, rfl⟩
abbrev main_call2_call1_v51 : Ref sig .tc := ⟨.hbm, 598, rfl⟩
abbrev main_call2_call1_v52 : Ref sig .tc := ⟨.hbm, 599, rfl⟩
abbrev main_call2_call1_v53 : Ref sig .tc := ⟨.hbm, 600, rfl⟩
abbrev main_call2_call1_v54 : Ref sig .tc := ⟨.hbm, 601, rfl⟩
abbrev main_call2_call1_c_13 : Ref sig .tc := ⟨.hbm, 602, rfl⟩
abbrev main_call2_call1_v55 : Ref sig .tc := ⟨.hbm, 603, rfl⟩
abbrev main_call2_call1_v56 : Ref sig .tc := ⟨.hbm, 604, rfl⟩
abbrev main_call2_call1_c_14 : Ref sig .tc := ⟨.hbm, 605, rfl⟩
abbrev main_call2_call1_v57 : Ref sig .tc := ⟨.hbm, 606, rfl⟩
abbrev main_call2_call1_v58 : Ref sig .tc := ⟨.hbm, 607, rfl⟩
abbrev main_call2_call1_v59 : Ref sig .tc := ⟨.hbm, 608, rfl⟩
abbrev main_call2_call1_v60 : Ref sig .tc := ⟨.hbm, 609, rfl⟩
abbrev main_call2_call1_v61 : Ref sig .tc := ⟨.hbm, 610, rfl⟩
abbrev main_call2_call1_c_15 : Ref sig .tc := ⟨.hbm, 611, rfl⟩
abbrev main_call2_call1_v62 : Ref sig .tc := ⟨.hbm, 612, rfl⟩
abbrev main_call2_call1_v63 : Ref sig .tc := ⟨.hbm, 613, rfl⟩
abbrev main_call2_call1_c_16 : Ref sig .tc := ⟨.hbm, 614, rfl⟩
abbrev main_call2_call1_v64 : Ref sig .tc := ⟨.hbm, 615, rfl⟩
abbrev main_call2_call1_v65 : Ref sig .tc := ⟨.hbm, 616, rfl⟩
abbrev main_call2_call1_v66 : Ref sig .tc := ⟨.hbm, 617, rfl⟩
abbrev main_call2_call1_v67 : Ref sig .tc := ⟨.hbm, 618, rfl⟩
abbrev main_call2_call1_v68 : Ref sig .tc := ⟨.hbm, 619, rfl⟩
abbrev main_call2_call1_v69 : Ref sig .tc := ⟨.hbm, 620, rfl⟩
abbrev main_call2_call1_v70 : Ref sig .tc := ⟨.hbm, 621, rfl⟩
abbrev main_call2_call1_v71 : Ref sig .tc := ⟨.hbm, 622, rfl⟩
abbrev main_call2_call1_c_17 : Ref sig .tc := ⟨.hbm, 623, rfl⟩
abbrev main_call2_call1_v72 : Ref sig .tc := ⟨.hbm, 624, rfl⟩
abbrev main_call2_call1_v73 : Ref sig .tc := ⟨.hbm, 625, rfl⟩
abbrev main_call2_call1_v74 : Ref sig .tc := ⟨.hbm, 626, rfl⟩
abbrev main_call2_call1_c_18 : Ref sig .tc := ⟨.hbm, 627, rfl⟩
abbrev main_call2_call1_v75 : Ref sig .tc := ⟨.hbm, 628, rfl⟩
abbrev main_call2_call1_v76 : Ref sig .tc := ⟨.hbm, 629, rfl⟩
abbrev main_call2_call1_c_19 : Ref sig .tc := ⟨.hbm, 630, rfl⟩
abbrev main_call2_call1_v77 : Ref sig .tc := ⟨.hbm, 631, rfl⟩
abbrev main_call2_call1_v78 : Ref sig .tc := ⟨.hbm, 632, rfl⟩
abbrev main_call2_call1_v79 : Ref sig .tc := ⟨.hbm, 633, rfl⟩
abbrev main_call2_call1_v80 : Ref sig .tc := ⟨.hbm, 634, rfl⟩
abbrev main_call2_call1_v81 : Ref sig .tc := ⟨.hbm, 635, rfl⟩
abbrev main_call2_call1_c_20 : Ref sig .tc := ⟨.hbm, 636, rfl⟩
abbrev main_call2_call1_v82 : Ref sig .tc := ⟨.hbm, 637, rfl⟩
abbrev main_call2_call1_v83 : Ref sig .tc := ⟨.hbm, 638, rfl⟩
abbrev main_call2_call1_c_21 : Ref sig .tc := ⟨.hbm, 639, rfl⟩
abbrev main_call2_call1_v84 : Ref sig .tc := ⟨.hbm, 640, rfl⟩
abbrev main_call2_call1_v85 : Ref sig .tc := ⟨.hbm, 641, rfl⟩
abbrev main_call2_call1_v86 : Ref sig .tc := ⟨.hbm, 642, rfl⟩
abbrev main_call2_call1_v87 : Ref sig .tc := ⟨.hbm, 643, rfl⟩
abbrev main_call2_call1_v88 : Ref sig .tc := ⟨.hbm, 644, rfl⟩
abbrev main_call2_call1_c_22 : Ref sig .tc := ⟨.hbm, 645, rfl⟩
abbrev main_call2_call1_v89 : Ref sig .tc := ⟨.hbm, 646, rfl⟩
abbrev main_call2_call1_v90 : Ref sig .tc := ⟨.hbm, 647, rfl⟩
abbrev main_call2_call1_c_23 : Ref sig .tc := ⟨.hbm, 648, rfl⟩
abbrev main_call2_call1_v91 : Ref sig .tc := ⟨.hbm, 649, rfl⟩
abbrev main_call2_call1_v92 : Ref sig .tc := ⟨.hbm, 650, rfl⟩
abbrev main_call2_call1_v93 : Ref sig .tc := ⟨.hbm, 651, rfl⟩
abbrev main_call2_call1_v94 : Ref sig .tc := ⟨.hbm, 652, rfl⟩
abbrev main_call2_call1_v95 : Ref sig .tc := ⟨.hbm, 653, rfl⟩
abbrev main_call2_call1_c_24 : Ref sig .tc := ⟨.hbm, 654, rfl⟩
abbrev main_call2_call1_v96 : Ref sig .tc := ⟨.hbm, 655, rfl⟩
abbrev main_call2_call1_v97 : Ref sig .tc := ⟨.hbm, 656, rfl⟩
abbrev main_call2_call1_c_25 : Ref sig .tc := ⟨.hbm, 657, rfl⟩
abbrev main_call2_call1_v98 : Ref sig .tc := ⟨.hbm, 658, rfl⟩
abbrev main_call2_call1_v99 : Ref sig .tc := ⟨.hbm, 659, rfl⟩
abbrev main_call2_call1_v100 : Ref sig .tc := ⟨.hbm, 660, rfl⟩
abbrev main_call2_call1_v101 : Ref sig .tc := ⟨.hbm, 661, rfl⟩
abbrev main_call2_call1_v102 : Ref sig .tc := ⟨.hbm, 662, rfl⟩
abbrev main_call2_call1_v103 : Ref sig .tc := ⟨.hbm, 663, rfl⟩
abbrev main_call2_call1_v104 : Ref sig .tc := ⟨.hbm, 664, rfl⟩
abbrev main_call2_call1_v105 : Ref sig .tc := ⟨.hbm, 665, rfl⟩
abbrev main_call2_call1_c_26 : Ref sig .tc := ⟨.hbm, 666, rfl⟩
abbrev main_call2_call1_v106 : Ref sig .tc := ⟨.hbm, 667, rfl⟩
abbrev main_call2_call1_v107 : Ref sig .tc := ⟨.hbm, 668, rfl⟩
abbrev main_call2_call1_v108 : Ref sig .tc := ⟨.hbm, 669, rfl⟩
abbrev main_call2_call1_c_27 : Ref sig .tc := ⟨.hbm, 670, rfl⟩
abbrev main_call2_call1_v109 : Ref sig .tc := ⟨.hbm, 671, rfl⟩
abbrev main_call2_call1_v110 : Ref sig .tc := ⟨.hbm, 672, rfl⟩
abbrev main_call2_call1_c_28 : Ref sig .tc := ⟨.hbm, 673, rfl⟩
abbrev main_call2_call1_v111 : Ref sig .tc := ⟨.hbm, 674, rfl⟩
abbrev main_call2_call1_v112 : Ref sig .tc := ⟨.hbm, 675, rfl⟩
abbrev main_call2_call1_v113 : Ref sig .tc := ⟨.hbm, 676, rfl⟩
abbrev main_call2_call1_v114 : Ref sig .tc := ⟨.hbm, 677, rfl⟩
abbrev main_call2_call1_v115 : Ref sig .tc := ⟨.hbm, 678, rfl⟩
abbrev main_call2_call1_c_29 : Ref sig .tc := ⟨.hbm, 679, rfl⟩
abbrev main_call2_call1_v116 : Ref sig .tc := ⟨.hbm, 680, rfl⟩
abbrev main_call2_call1_v117 : Ref sig .tc := ⟨.hbm, 681, rfl⟩
abbrev main_call2_call1_c_30 : Ref sig .tc := ⟨.hbm, 682, rfl⟩
abbrev main_call2_call1_v118 : Ref sig .tc := ⟨.hbm, 683, rfl⟩
abbrev main_call2_call1_v119 : Ref sig .tc := ⟨.hbm, 684, rfl⟩
abbrev main_call2_call1_v120 : Ref sig .tc := ⟨.hbm, 685, rfl⟩
abbrev main_call2_call1_v121 : Ref sig .tc := ⟨.hbm, 686, rfl⟩
abbrev main_call2_call1_v122 : Ref sig .tc := ⟨.hbm, 687, rfl⟩
abbrev main_call2_call1_c_31 : Ref sig .tc := ⟨.hbm, 688, rfl⟩
abbrev main_call2_call1_v123 : Ref sig .tc := ⟨.hbm, 689, rfl⟩
abbrev main_call2_call1_v124 : Ref sig .tc := ⟨.hbm, 690, rfl⟩
abbrev main_call2_call1_c_32 : Ref sig .tc := ⟨.hbm, 691, rfl⟩
abbrev main_call2_call1_v125 : Ref sig .tc := ⟨.hbm, 692, rfl⟩
abbrev main_call2_call1_v126 : Ref sig .tc := ⟨.hbm, 693, rfl⟩
abbrev main_call2_call1_v127 : Ref sig .tc := ⟨.hbm, 694, rfl⟩
abbrev main_call2_call1_v128 : Ref sig .tc := ⟨.hbm, 695, rfl⟩
abbrev main_call2_call1_v129 : Ref sig .tc := ⟨.hbm, 696, rfl⟩
abbrev main_call2_call1_c_33 : Ref sig .tc := ⟨.hbm, 697, rfl⟩
abbrev main_call2_call1_v130 : Ref sig .tc := ⟨.hbm, 698, rfl⟩
abbrev main_call2_call1_v131 : Ref sig .tc := ⟨.hbm, 699, rfl⟩
abbrev main_call2_call1_c_34 : Ref sig .tc := ⟨.hbm, 700, rfl⟩
abbrev main_call2_call1_v132 : Ref sig .tc := ⟨.hbm, 701, rfl⟩
abbrev main_call2_call1_v133 : Ref sig .tc := ⟨.hbm, 702, rfl⟩
abbrev main_call2_call1_v134 : Ref sig .tc := ⟨.hbm, 703, rfl⟩
abbrev main_call2_call1_v135 : Ref sig .tc := ⟨.hbm, 704, rfl⟩
abbrev main_call2_call1_v136 : Ref sig .tc := ⟨.hbm, 705, rfl⟩
abbrev main_call2_call1_v137 : Ref sig .tc := ⟨.hbm, 706, rfl⟩
abbrev main_call2_call1_v138 : Ref sig .tc := ⟨.hbm, 707, rfl⟩
abbrev main_call2_call1_v139 : Ref sig .tc := ⟨.hbm, 708, rfl⟩
abbrev main_call2_call1_c_35 : Ref sig .tc := ⟨.hbm, 709, rfl⟩
abbrev main_call2_call1_v140 : Ref sig .tc := ⟨.hbm, 710, rfl⟩
abbrev main_call2_call1_v141 : Ref sig .tc := ⟨.hbm, 711, rfl⟩
abbrev main_call2_call1_v142 : Ref sig .tc := ⟨.hbm, 712, rfl⟩
abbrev main_call2_call1_c_36 : Ref sig .tc := ⟨.hbm, 713, rfl⟩
abbrev main_call2_call1_v143 : Ref sig .tc := ⟨.hbm, 714, rfl⟩
abbrev main_call2_call1_v144 : Ref sig .tc := ⟨.hbm, 715, rfl⟩
abbrev main_call2_call1_c_37 : Ref sig .tc := ⟨.hbm, 716, rfl⟩
abbrev main_call2_call1_v145 : Ref sig .tc := ⟨.hbm, 717, rfl⟩
abbrev main_call2_call1_v146 : Ref sig .tc := ⟨.hbm, 718, rfl⟩
abbrev main_call2_call1_v147 : Ref sig .tc := ⟨.hbm, 719, rfl⟩
abbrev main_call2_call1_v148 : Ref sig .tc := ⟨.hbm, 720, rfl⟩
abbrev main_call2_call1_v149 : Ref sig .tc := ⟨.hbm, 721, rfl⟩
abbrev main_call2_call1_c_38 : Ref sig .tc := ⟨.hbm, 722, rfl⟩
abbrev main_call2_call1_v150 : Ref sig .tc := ⟨.hbm, 723, rfl⟩
abbrev main_call2_call1_v151 : Ref sig .tc := ⟨.hbm, 724, rfl⟩
abbrev main_call2_call1_c_39 : Ref sig .tc := ⟨.hbm, 725, rfl⟩
abbrev main_call2_call1_v152 : Ref sig .tc := ⟨.hbm, 726, rfl⟩
abbrev main_call2_call1_v153 : Ref sig .tc := ⟨.hbm, 727, rfl⟩
abbrev main_call2_call1_v154 : Ref sig .tc := ⟨.hbm, 728, rfl⟩
abbrev main_call2_call1_v155 : Ref sig .tc := ⟨.hbm, 729, rfl⟩
abbrev main_call2_call1_v156 : Ref sig .tc := ⟨.hbm, 730, rfl⟩
abbrev main_call2_call1_c_40 : Ref sig .tc := ⟨.hbm, 731, rfl⟩
abbrev main_call2_call1_v157 : Ref sig .tc := ⟨.hbm, 732, rfl⟩
abbrev main_call2_call1_v158 : Ref sig .tc := ⟨.hbm, 733, rfl⟩
abbrev main_call2_call1_c_41 : Ref sig .tc := ⟨.hbm, 734, rfl⟩
abbrev main_call2_call1_v159 : Ref sig .tc := ⟨.hbm, 735, rfl⟩
abbrev main_call2_call1_v160 : Ref sig .tc := ⟨.hbm, 736, rfl⟩
abbrev main_call2_call1_v161 : Ref sig .tc := ⟨.hbm, 737, rfl⟩
abbrev main_call2_call1_v162 : Ref sig .tc := ⟨.hbm, 738, rfl⟩
abbrev main_call2_call1_v163 : Ref sig .tc := ⟨.hbm, 739, rfl⟩
abbrev main_call2_call1_c_42 : Ref sig .tc := ⟨.hbm, 740, rfl⟩
abbrev main_call2_call1_v164 : Ref sig .tc := ⟨.hbm, 741, rfl⟩
abbrev main_call2_call1_v165 : Ref sig .tc := ⟨.hbm, 742, rfl⟩
abbrev main_call2_call1_c_43 : Ref sig .tc := ⟨.hbm, 743, rfl⟩
abbrev main_call2_call1_v166 : Ref sig .tc := ⟨.hbm, 744, rfl⟩
abbrev main_call2_call1_v167 : Ref sig .tc := ⟨.hbm, 745, rfl⟩
abbrev main_call2_call1_v168 : Ref sig .tc := ⟨.hbm, 746, rfl⟩
abbrev main_call2_call1_v169 : Ref sig .tc := ⟨.hbm, 747, rfl⟩
abbrev main_call2_call1_v170 : Ref sig .tc := ⟨.hbm, 748, rfl⟩
abbrev main_call2_v16_0 : Ref sig .tc := ⟨.hbm, 749, rfl⟩
abbrev main_call2_call1_v172 : Ref sig .tc := ⟨.hbm, 750, rfl⟩
abbrev main_call2_call1_v173 : Ref sig .tc := ⟨.hbm, 751, rfl⟩
abbrev main_call2_call1_c_44 : Ref sig .tc := ⟨.hbm, 752, rfl⟩
abbrev main_call2_call1_v174 : Ref sig .tc := ⟨.hbm, 753, rfl⟩
abbrev main_call2_v16_1 : Ref sig .tc := ⟨.hbm, 754, rfl⟩
abbrev main_call2_v17 : Ref sig .tc := ⟨.hbm, 755, rfl⟩
abbrev main_call2_v18_0 : Ref sig .tc := ⟨.hbm, 756, rfl⟩
abbrev main_v14 : Ref sig .tc := ⟨.hbm, 757, rfl⟩
abbrev main_c_2 : Ref sig .tc := ⟨.hbm, 758, rfl⟩
abbrev main_v15 : Ref sig .tc := ⟨.hbm, 759, rfl⟩
abbrev main_v16 : Ref sig .tc := ⟨.hbm, 760, rfl⟩
abbrev main_c_3 : Ref sig .tc := ⟨.hbm, 761, rfl⟩
abbrev main_v17 : Ref sig .tc := ⟨.hbm, 762, rfl⟩
abbrev main_v18 : Ref sig .tc := ⟨.hbm, 763, rfl⟩
abbrev main_v19 : Ref sig .tc := ⟨.hbm, 764, rfl⟩
abbrev main_v20 : Ref sig .tc := ⟨.hbm, 765, rfl⟩
abbrev main_v21 : Ref sig .tc := ⟨.hbm, 766, rfl⟩
abbrev main_c_4 : Ref sig .tc := ⟨.hbm, 767, rfl⟩
abbrev main_c_5 : Ref sig .tc := ⟨.hbm, 768, rfl⟩
abbrev main_v22 : Ref sig .tc := ⟨.hbm, 769, rfl⟩
abbrev main_v23 : Ref sig .tc := ⟨.hbm, 770, rfl⟩
abbrev main_call3_c : Ref sig .tc := ⟨.hbm, 771, rfl⟩
abbrev main_call3_v0 : Ref sig .tc := ⟨.hbm, 772, rfl⟩
abbrev main_call3_v1 : Ref sig .tc := ⟨.hbm, 773, rfl⟩
abbrev main_call3_c_0 : Ref sig .tc := ⟨.hbm, 774, rfl⟩
abbrev main_call3_v2 : Ref sig .tc := ⟨.hbm, 775, rfl⟩
abbrev main_call3_v3 : Ref sig .tc := ⟨.hbm, 776, rfl⟩
abbrev main_call3_v4 : Ref sig .tc := ⟨.hbm, 777, rfl⟩
abbrev main_call3_v5 : Ref sig .tc := ⟨.hbm, 778, rfl⟩
abbrev main_call3_c_1 : Ref sig .tc := ⟨.hbm, 779, rfl⟩
abbrev main_call3_c_2 : Ref sig .tc := ⟨.hbm, 780, rfl⟩
abbrev main_call3_v6 : Ref sig .tc := ⟨.hbm, 781, rfl⟩
abbrev main_call3_v7 : Ref sig .tc := ⟨.hbm, 782, rfl⟩
abbrev main_call3_v8 : Ref sig .tc := ⟨.hbm, 783, rfl⟩
abbrev main_call3_v9 : Ref sig .tc := ⟨.hbm, 784, rfl⟩
abbrev main_call3_v10 : Ref sig .tc := ⟨.hbm, 785, rfl⟩
abbrev main_call3_v11 : Ref sig .tc := ⟨.hbm, 786, rfl⟩
abbrev main_call3_c_3 : Ref sig .tc := ⟨.hbm, 787, rfl⟩
abbrev main_call3_v12 : Ref sig .tc := ⟨.hbm, 788, rfl⟩
abbrev main_call3_v13 : Ref sig .tc := ⟨.hbm, 789, rfl⟩
abbrev main_call3_v14 : Ref sig .tc := ⟨.hbm, 790, rfl⟩
abbrev main_call3_c_4 : Ref sig .tc := ⟨.hbm, 791, rfl⟩
abbrev main_call3_v15 : Ref sig .tc := ⟨.hbm, 792, rfl⟩
abbrev main_v24 : Ref sig .tc := ⟨.hbm, 793, rfl⟩
abbrev main_v25 : Ref sig .tc := ⟨.hbm, 794, rfl⟩
abbrev main_call4_call0_v0 : Ref sig .tc := ⟨.hbm, 795, rfl⟩
abbrev main_call4_call0_v1 : Ref sig .tc := ⟨.hbm, 796, rfl⟩
abbrev main_call4_call0_v2 : Ref sig .tc := ⟨.hbm, 797, rfl⟩
abbrev main_call4_call0_v3 : Ref sig .tc := ⟨.hbm, 798, rfl⟩
abbrev main_call4_call0_v4 : Ref sig .tc := ⟨.hbm, 799, rfl⟩
abbrev main_call4_call0_c : Ref sig .tc := ⟨.hbm, 800, rfl⟩
abbrev main_call4_call0_v5 : Ref sig .tc := ⟨.hbm, 801, rfl⟩
abbrev main_call4_call0_v6 : Ref sig .tc := ⟨.hbm, 802, rfl⟩
abbrev main_call4_call0_c_0 : Ref sig .tc := ⟨.hbm, 803, rfl⟩
abbrev main_call4_call0_v7 : Ref sig .tc := ⟨.hbm, 804, rfl⟩
abbrev main_call4_call0_v8 : Ref sig .tc := ⟨.hbm, 805, rfl⟩
abbrev main_call4_call0_v9 : Ref sig .tc := ⟨.hbm, 806, rfl⟩
abbrev main_call4_call0_v10 : Ref sig .tc := ⟨.hbm, 807, rfl⟩
abbrev main_call4_call0_call0_v0 : Ref sig .tc := ⟨.hbm, 808, rfl⟩
abbrev main_call4_call0_call0_c : Ref sig .tc := ⟨.hbm, 809, rfl⟩
abbrev main_call4_call0_call0_v1 : Ref sig .tc := ⟨.hbm, 810, rfl⟩
abbrev main_call4_call0_call0_v2 : Ref sig .tc := ⟨.hbm, 811, rfl⟩
abbrev main_call4_call0_call0_v3 : Ref sig .tc := ⟨.hbm, 812, rfl⟩
abbrev main_call4_call0_call0_v4 : Ref sig .tc := ⟨.hbm, 813, rfl⟩
abbrev main_call4_call0_call0_v5 : Ref sig .tc := ⟨.hbm, 814, rfl⟩
abbrev main_call4_call0_call0_v6 : Ref sig .tc := ⟨.hbm, 815, rfl⟩
abbrev main_call4_call0_call0_c_0 : Ref sig .tc := ⟨.hbm, 816, rfl⟩
abbrev main_call4_call0_call0_v7 : Ref sig .tc := ⟨.hbm, 817, rfl⟩
abbrev main_call4_call0_call0_v8 : Ref sig .tc := ⟨.hbm, 818, rfl⟩
abbrev main_call4_call0_call0_c_1 : Ref sig .tc := ⟨.hbm, 819, rfl⟩
abbrev main_call4_call0_call0_v9 : Ref sig .tc := ⟨.hbm, 820, rfl⟩
abbrev main_call4_call0_call0_v10 : Ref sig .tc := ⟨.hbm, 821, rfl⟩
abbrev main_call4_call0_call0_v11 : Ref sig .tc := ⟨.hbm, 822, rfl⟩
abbrev main_call4_call0_call0_v12 : Ref sig .tc := ⟨.hbm, 823, rfl⟩
abbrev main_call4_call0_call0_v13 : Ref sig .tc := ⟨.hbm, 824, rfl⟩
abbrev main_call4_call0_call0_c_2 : Ref sig .tc := ⟨.hbm, 825, rfl⟩
abbrev main_call4_call0_call0_v14 : Ref sig .tc := ⟨.hbm, 826, rfl⟩
abbrev main_call4_call0_call0_v15 : Ref sig .tc := ⟨.hbm, 827, rfl⟩
abbrev main_call4_call0_call0_c_3 : Ref sig .tc := ⟨.hbm, 828, rfl⟩
abbrev main_call4_call0_call0_v16 : Ref sig .tc := ⟨.hbm, 829, rfl⟩
abbrev main_call4_call0_call0_v17 : Ref sig .tc := ⟨.hbm, 830, rfl⟩
abbrev main_call4_call0_call0_v18 : Ref sig .tc := ⟨.hbm, 831, rfl⟩
abbrev main_call4_call0_call0_v19 : Ref sig .tc := ⟨.hbm, 832, rfl⟩
abbrev main_call4_call0_call0_v20 : Ref sig .tc := ⟨.hbm, 833, rfl⟩
abbrev main_call4_call0_call0_c_4 : Ref sig .tc := ⟨.hbm, 834, rfl⟩
abbrev main_call4_call0_call0_v21 : Ref sig .tc := ⟨.hbm, 835, rfl⟩
abbrev main_call4_call0_call0_v22 : Ref sig .tc := ⟨.hbm, 836, rfl⟩
abbrev main_call4_call0_call0_c_5 : Ref sig .tc := ⟨.hbm, 837, rfl⟩
abbrev main_call4_call0_call0_v23 : Ref sig .tc := ⟨.hbm, 838, rfl⟩
abbrev main_call4_call0_call0_v24 : Ref sig .tc := ⟨.hbm, 839, rfl⟩
abbrev main_call4_call0_call0_v25 : Ref sig .tc := ⟨.hbm, 840, rfl⟩
abbrev main_call4_call0_call0_v26 : Ref sig .tc := ⟨.hbm, 841, rfl⟩
abbrev main_call4_call0_call0_v27 : Ref sig .tc := ⟨.hbm, 842, rfl⟩
abbrev main_call4_call0_call0_c_6 : Ref sig .tc := ⟨.hbm, 843, rfl⟩
abbrev main_call4_call0_call0_v28 : Ref sig .tc := ⟨.hbm, 844, rfl⟩
abbrev main_call4_call0_call0_v29 : Ref sig .tc := ⟨.hbm, 845, rfl⟩
abbrev main_call4_call0_call0_c_7 : Ref sig .tc := ⟨.hbm, 846, rfl⟩
abbrev main_call4_call0_call0_v30 : Ref sig .tc := ⟨.hbm, 847, rfl⟩
abbrev main_call4_call0_call0_v31 : Ref sig .tc := ⟨.hbm, 848, rfl⟩
abbrev main_call4_call0_call0_v32 : Ref sig .tc := ⟨.hbm, 849, rfl⟩
abbrev main_call4_call0_call0_v33 : Ref sig .tc := ⟨.hbm, 850, rfl⟩
abbrev main_call4_call0_call0_v34 : Ref sig .tc := ⟨.hbm, 851, rfl⟩
abbrev main_call4_call0_call0_v35 : Ref sig .tc := ⟨.hbm, 852, rfl⟩
abbrev main_call4_call0_call0_v36 : Ref sig .tc := ⟨.hbm, 853, rfl⟩
abbrev main_call4_call0_call0_v37 : Ref sig .tc := ⟨.hbm, 854, rfl⟩
abbrev main_call4_call0_call0_c_8 : Ref sig .tc := ⟨.hbm, 855, rfl⟩
abbrev main_call4_call0_call0_v38 : Ref sig .tc := ⟨.hbm, 856, rfl⟩
abbrev main_call4_call0_call0_v39 : Ref sig .tc := ⟨.hbm, 857, rfl⟩
abbrev main_call4_call0_call0_v40 : Ref sig .tc := ⟨.hbm, 858, rfl⟩
abbrev main_call4_call0_call0_c_9 : Ref sig .tc := ⟨.hbm, 859, rfl⟩
abbrev main_call4_call0_call0_v41 : Ref sig .tc := ⟨.hbm, 860, rfl⟩
abbrev main_call4_call0_call0_v42 : Ref sig .tc := ⟨.hbm, 861, rfl⟩
abbrev main_call4_call0_call0_c_10 : Ref sig .tc := ⟨.hbm, 862, rfl⟩
abbrev main_call4_call0_call0_v43 : Ref sig .tc := ⟨.hbm, 863, rfl⟩
abbrev main_call4_call0_call0_v44 : Ref sig .tc := ⟨.hbm, 864, rfl⟩
abbrev main_call4_call0_call0_v45 : Ref sig .tc := ⟨.hbm, 865, rfl⟩
abbrev main_call4_call0_call0_v46 : Ref sig .tc := ⟨.hbm, 866, rfl⟩
abbrev main_call4_call0_call0_v47 : Ref sig .tc := ⟨.hbm, 867, rfl⟩
abbrev main_call4_call0_call0_c_11 : Ref sig .tc := ⟨.hbm, 868, rfl⟩
abbrev main_call4_call0_call0_v48 : Ref sig .tc := ⟨.hbm, 869, rfl⟩
abbrev main_call4_call0_call0_v49 : Ref sig .tc := ⟨.hbm, 870, rfl⟩
abbrev main_call4_call0_call0_c_12 : Ref sig .tc := ⟨.hbm, 871, rfl⟩
abbrev main_call4_call0_call0_v50 : Ref sig .tc := ⟨.hbm, 872, rfl⟩
abbrev main_call4_call0_call0_v51 : Ref sig .tc := ⟨.hbm, 873, rfl⟩
abbrev main_call4_call0_call0_v52 : Ref sig .tc := ⟨.hbm, 874, rfl⟩
abbrev main_call4_call0_call0_v53 : Ref sig .tc := ⟨.hbm, 875, rfl⟩
abbrev main_call4_call0_call0_v54 : Ref sig .tc := ⟨.hbm, 876, rfl⟩
abbrev main_call4_call0_call0_c_13 : Ref sig .tc := ⟨.hbm, 877, rfl⟩
abbrev main_call4_call0_call0_v55 : Ref sig .tc := ⟨.hbm, 878, rfl⟩
abbrev main_call4_call0_call0_v56 : Ref sig .tc := ⟨.hbm, 879, rfl⟩
abbrev main_call4_call0_call0_c_14 : Ref sig .tc := ⟨.hbm, 880, rfl⟩
abbrev main_call4_call0_call0_v57 : Ref sig .tc := ⟨.hbm, 881, rfl⟩
abbrev main_call4_call0_call0_v58 : Ref sig .tc := ⟨.hbm, 882, rfl⟩
abbrev main_call4_call0_call0_v59 : Ref sig .tc := ⟨.hbm, 883, rfl⟩
abbrev main_call4_call0_call0_v60 : Ref sig .tc := ⟨.hbm, 884, rfl⟩
abbrev main_call4_call0_call0_v61 : Ref sig .tc := ⟨.hbm, 885, rfl⟩
abbrev main_call4_call0_call0_c_15 : Ref sig .tc := ⟨.hbm, 886, rfl⟩
abbrev main_call4_call0_call0_v62 : Ref sig .tc := ⟨.hbm, 887, rfl⟩
abbrev main_call4_call0_call0_v63 : Ref sig .tc := ⟨.hbm, 888, rfl⟩
abbrev main_call4_call0_call0_c_16 : Ref sig .tc := ⟨.hbm, 889, rfl⟩
abbrev main_call4_call0_call0_v64 : Ref sig .tc := ⟨.hbm, 890, rfl⟩
abbrev main_call4_call0_call0_v65 : Ref sig .tc := ⟨.hbm, 891, rfl⟩
abbrev main_call4_call0_call0_v66 : Ref sig .tc := ⟨.hbm, 892, rfl⟩
abbrev main_call4_call0_call0_v67 : Ref sig .tc := ⟨.hbm, 893, rfl⟩
abbrev main_call4_call0_call0_v68 : Ref sig .tc := ⟨.hbm, 894, rfl⟩
abbrev main_call4_call0_call0_v69 : Ref sig .tc := ⟨.hbm, 895, rfl⟩
abbrev main_call4_call0_call0_v70 : Ref sig .tc := ⟨.hbm, 896, rfl⟩
abbrev main_call4_call0_call0_v71 : Ref sig .tc := ⟨.hbm, 897, rfl⟩
abbrev main_call4_call0_call0_c_17 : Ref sig .tc := ⟨.hbm, 898, rfl⟩
abbrev main_call4_call0_call0_v72 : Ref sig .tc := ⟨.hbm, 899, rfl⟩
abbrev main_call4_call0_call0_v73 : Ref sig .tc := ⟨.hbm, 900, rfl⟩
abbrev main_call4_call0_call0_v74 : Ref sig .tc := ⟨.hbm, 901, rfl⟩
abbrev main_call4_call0_call0_c_18 : Ref sig .tc := ⟨.hbm, 902, rfl⟩
abbrev main_call4_call0_call0_v75 : Ref sig .tc := ⟨.hbm, 903, rfl⟩
abbrev main_call4_call0_call0_v76 : Ref sig .tc := ⟨.hbm, 904, rfl⟩
abbrev main_call4_call0_call0_c_19 : Ref sig .tc := ⟨.hbm, 905, rfl⟩
abbrev main_call4_call0_call0_v77 : Ref sig .tc := ⟨.hbm, 906, rfl⟩
abbrev main_call4_call0_call0_v78 : Ref sig .tc := ⟨.hbm, 907, rfl⟩
abbrev main_call4_call0_call0_v79 : Ref sig .tc := ⟨.hbm, 908, rfl⟩
abbrev main_call4_call0_call0_v80 : Ref sig .tc := ⟨.hbm, 909, rfl⟩
abbrev main_call4_call0_call0_v81 : Ref sig .tc := ⟨.hbm, 910, rfl⟩
abbrev main_call4_call0_call0_c_20 : Ref sig .tc := ⟨.hbm, 911, rfl⟩
abbrev main_call4_call0_call0_v82 : Ref sig .tc := ⟨.hbm, 912, rfl⟩
abbrev main_call4_call0_call0_v83 : Ref sig .tc := ⟨.hbm, 913, rfl⟩
abbrev main_call4_call0_call0_c_21 : Ref sig .tc := ⟨.hbm, 914, rfl⟩
abbrev main_call4_call0_call0_v84 : Ref sig .tc := ⟨.hbm, 915, rfl⟩
abbrev main_call4_call0_call0_v85 : Ref sig .tc := ⟨.hbm, 916, rfl⟩
abbrev main_call4_call0_call0_v86 : Ref sig .tc := ⟨.hbm, 917, rfl⟩
abbrev main_call4_call0_call0_v87 : Ref sig .tc := ⟨.hbm, 918, rfl⟩
abbrev main_call4_call0_call0_v88 : Ref sig .tc := ⟨.hbm, 919, rfl⟩
abbrev main_call4_call0_call0_c_22 : Ref sig .tc := ⟨.hbm, 920, rfl⟩
abbrev main_call4_call0_call0_v89 : Ref sig .tc := ⟨.hbm, 921, rfl⟩
abbrev main_call4_call0_call0_v90 : Ref sig .tc := ⟨.hbm, 922, rfl⟩
abbrev main_call4_call0_call0_c_23 : Ref sig .tc := ⟨.hbm, 923, rfl⟩
abbrev main_call4_call0_call0_v91 : Ref sig .tc := ⟨.hbm, 924, rfl⟩
abbrev main_call4_call0_call0_v92 : Ref sig .tc := ⟨.hbm, 925, rfl⟩
abbrev main_call4_call0_call0_v93 : Ref sig .tc := ⟨.hbm, 926, rfl⟩
abbrev main_call4_call0_call0_v94 : Ref sig .tc := ⟨.hbm, 927, rfl⟩
abbrev main_call4_call0_call0_v95 : Ref sig .tc := ⟨.hbm, 928, rfl⟩
abbrev main_call4_call0_call0_c_24 : Ref sig .tc := ⟨.hbm, 929, rfl⟩
abbrev main_call4_call0_call0_v96 : Ref sig .tc := ⟨.hbm, 930, rfl⟩
abbrev main_call4_call0_call0_v97 : Ref sig .tc := ⟨.hbm, 931, rfl⟩
abbrev main_call4_call0_call0_c_25 : Ref sig .tc := ⟨.hbm, 932, rfl⟩
abbrev main_call4_call0_call0_v98 : Ref sig .tc := ⟨.hbm, 933, rfl⟩
abbrev main_call4_call0_call0_v99 : Ref sig .tc := ⟨.hbm, 934, rfl⟩
abbrev main_call4_call0_call0_v100 : Ref sig .tc := ⟨.hbm, 935, rfl⟩
abbrev main_call4_call0_call0_v101 : Ref sig .tc := ⟨.hbm, 936, rfl⟩
abbrev main_call4_call0_call0_v102 : Ref sig .tc := ⟨.hbm, 937, rfl⟩
abbrev main_call4_call0_call0_v103 : Ref sig .tc := ⟨.hbm, 938, rfl⟩
abbrev main_call4_call0_call0_v104 : Ref sig .tc := ⟨.hbm, 939, rfl⟩
abbrev main_call4_call0_call0_v105 : Ref sig .tc := ⟨.hbm, 940, rfl⟩
abbrev main_call4_call0_call0_c_26 : Ref sig .tc := ⟨.hbm, 941, rfl⟩
abbrev main_call4_call0_call0_v106 : Ref sig .tc := ⟨.hbm, 942, rfl⟩
abbrev main_call4_call0_call0_v107 : Ref sig .tc := ⟨.hbm, 943, rfl⟩
abbrev main_call4_call0_call0_v108 : Ref sig .tc := ⟨.hbm, 944, rfl⟩
abbrev main_call4_call0_call0_c_27 : Ref sig .tc := ⟨.hbm, 945, rfl⟩
abbrev main_call4_call0_call0_v109 : Ref sig .tc := ⟨.hbm, 946, rfl⟩
abbrev main_call4_call0_call0_v110 : Ref sig .tc := ⟨.hbm, 947, rfl⟩
abbrev main_call4_call0_call0_c_28 : Ref sig .tc := ⟨.hbm, 948, rfl⟩
abbrev main_call4_call0_call0_v111 : Ref sig .tc := ⟨.hbm, 949, rfl⟩
abbrev main_call4_call0_call0_v112 : Ref sig .tc := ⟨.hbm, 950, rfl⟩
abbrev main_call4_call0_call0_v113 : Ref sig .tc := ⟨.hbm, 951, rfl⟩
abbrev main_call4_call0_call0_v114 : Ref sig .tc := ⟨.hbm, 952, rfl⟩
abbrev main_call4_call0_call0_v115 : Ref sig .tc := ⟨.hbm, 953, rfl⟩
abbrev main_call4_call0_call0_c_29 : Ref sig .tc := ⟨.hbm, 954, rfl⟩
abbrev main_call4_call0_call0_v116 : Ref sig .tc := ⟨.hbm, 955, rfl⟩
abbrev main_call4_call0_call0_v117 : Ref sig .tc := ⟨.hbm, 956, rfl⟩
abbrev main_call4_call0_call0_c_30 : Ref sig .tc := ⟨.hbm, 957, rfl⟩
abbrev main_call4_call0_call0_v118 : Ref sig .tc := ⟨.hbm, 958, rfl⟩
abbrev main_call4_call0_call0_v119 : Ref sig .tc := ⟨.hbm, 959, rfl⟩
abbrev main_call4_call0_call0_v120 : Ref sig .tc := ⟨.hbm, 960, rfl⟩
abbrev main_call4_call0_call0_v121 : Ref sig .tc := ⟨.hbm, 961, rfl⟩
abbrev main_call4_call0_call0_v122 : Ref sig .tc := ⟨.hbm, 962, rfl⟩
abbrev main_call4_call0_call0_c_31 : Ref sig .tc := ⟨.hbm, 963, rfl⟩
abbrev main_call4_call0_call0_v123 : Ref sig .tc := ⟨.hbm, 964, rfl⟩
abbrev main_call4_call0_call0_v124 : Ref sig .tc := ⟨.hbm, 965, rfl⟩
abbrev main_call4_call0_call0_c_32 : Ref sig .tc := ⟨.hbm, 966, rfl⟩
abbrev main_call4_call0_call0_v125 : Ref sig .tc := ⟨.hbm, 967, rfl⟩
abbrev main_call4_call0_call0_v126 : Ref sig .tc := ⟨.hbm, 968, rfl⟩
abbrev main_call4_call0_call0_v127 : Ref sig .tc := ⟨.hbm, 969, rfl⟩
abbrev main_call4_call0_call0_v128 : Ref sig .tc := ⟨.hbm, 970, rfl⟩
abbrev main_call4_call0_call0_v129 : Ref sig .tc := ⟨.hbm, 971, rfl⟩
abbrev main_call4_call0_call0_c_33 : Ref sig .tc := ⟨.hbm, 972, rfl⟩
abbrev main_call4_call0_call0_v130 : Ref sig .tc := ⟨.hbm, 973, rfl⟩
abbrev main_call4_call0_call0_v131 : Ref sig .tc := ⟨.hbm, 974, rfl⟩
abbrev main_call4_call0_call0_c_34 : Ref sig .tc := ⟨.hbm, 975, rfl⟩
abbrev main_call4_call0_call0_v132 : Ref sig .tc := ⟨.hbm, 976, rfl⟩
abbrev main_call4_call0_call0_v133 : Ref sig .tc := ⟨.hbm, 977, rfl⟩
abbrev main_call4_call0_call0_v134 : Ref sig .tc := ⟨.hbm, 978, rfl⟩
abbrev main_call4_call0_call0_v135 : Ref sig .tc := ⟨.hbm, 979, rfl⟩
abbrev main_call4_call0_call0_v136 : Ref sig .tc := ⟨.hbm, 980, rfl⟩
abbrev main_call4_call0_call0_v137 : Ref sig .tc := ⟨.hbm, 981, rfl⟩
abbrev main_call4_call0_call0_v138 : Ref sig .tc := ⟨.hbm, 982, rfl⟩
abbrev main_call4_call0_call0_v139 : Ref sig .tc := ⟨.hbm, 983, rfl⟩
abbrev main_call4_call0_call0_c_35 : Ref sig .tc := ⟨.hbm, 984, rfl⟩
abbrev main_call4_call0_call0_v140 : Ref sig .tc := ⟨.hbm, 985, rfl⟩
abbrev main_call4_call0_call0_v141 : Ref sig .tc := ⟨.hbm, 986, rfl⟩
abbrev main_call4_call0_call0_v142 : Ref sig .tc := ⟨.hbm, 987, rfl⟩
abbrev main_call4_call0_call0_c_36 : Ref sig .tc := ⟨.hbm, 988, rfl⟩
abbrev main_call4_call0_call0_v143 : Ref sig .tc := ⟨.hbm, 989, rfl⟩
abbrev main_call4_call0_call0_v144 : Ref sig .tc := ⟨.hbm, 990, rfl⟩
abbrev main_call4_call0_call0_c_37 : Ref sig .tc := ⟨.hbm, 991, rfl⟩
abbrev main_call4_call0_call0_v145 : Ref sig .tc := ⟨.hbm, 992, rfl⟩
abbrev main_call4_call0_call0_v146 : Ref sig .tc := ⟨.hbm, 993, rfl⟩
abbrev main_call4_call0_call0_v147 : Ref sig .tc := ⟨.hbm, 994, rfl⟩
abbrev main_call4_call0_call0_v148 : Ref sig .tc := ⟨.hbm, 995, rfl⟩
abbrev main_call4_call0_call0_v149 : Ref sig .tc := ⟨.hbm, 996, rfl⟩
abbrev main_call4_call0_call0_c_38 : Ref sig .tc := ⟨.hbm, 997, rfl⟩
abbrev main_call4_call0_call0_v150 : Ref sig .tc := ⟨.hbm, 998, rfl⟩
abbrev main_call4_call0_call0_v151 : Ref sig .tc := ⟨.hbm, 999, rfl⟩
abbrev main_call4_call0_call0_c_39 : Ref sig .tc := ⟨.hbm, 1000, rfl⟩
abbrev main_call4_call0_call0_v152 : Ref sig .tc := ⟨.hbm, 1001, rfl⟩
abbrev main_call4_call0_call0_v153 : Ref sig .tc := ⟨.hbm, 1002, rfl⟩
abbrev main_call4_call0_call0_v154 : Ref sig .tc := ⟨.hbm, 1003, rfl⟩
abbrev main_call4_call0_call0_v155 : Ref sig .tc := ⟨.hbm, 1004, rfl⟩
abbrev main_call4_call0_call0_v156 : Ref sig .tc := ⟨.hbm, 1005, rfl⟩
abbrev main_call4_call0_call0_c_40 : Ref sig .tc := ⟨.hbm, 1006, rfl⟩
abbrev main_call4_call0_call0_v157 : Ref sig .tc := ⟨.hbm, 1007, rfl⟩
abbrev main_call4_call0_call0_v158 : Ref sig .tc := ⟨.hbm, 1008, rfl⟩
abbrev main_call4_call0_call0_c_41 : Ref sig .tc := ⟨.hbm, 1009, rfl⟩
abbrev main_call4_call0_call0_v159 : Ref sig .tc := ⟨.hbm, 1010, rfl⟩
abbrev main_call4_call0_call0_v160 : Ref sig .tc := ⟨.hbm, 1011, rfl⟩
abbrev main_call4_call0_call0_v161 : Ref sig .tc := ⟨.hbm, 1012, rfl⟩
abbrev main_call4_call0_call0_v162 : Ref sig .tc := ⟨.hbm, 1013, rfl⟩
abbrev main_call4_call0_call0_v163 : Ref sig .tc := ⟨.hbm, 1014, rfl⟩
abbrev main_call4_call0_call0_c_42 : Ref sig .tc := ⟨.hbm, 1015, rfl⟩
abbrev main_call4_call0_call0_v164 : Ref sig .tc := ⟨.hbm, 1016, rfl⟩
abbrev main_call4_call0_call0_v165 : Ref sig .tc := ⟨.hbm, 1017, rfl⟩
abbrev main_call4_call0_call0_c_43 : Ref sig .tc := ⟨.hbm, 1018, rfl⟩
abbrev main_call4_call0_call0_v166 : Ref sig .tc := ⟨.hbm, 1019, rfl⟩
abbrev main_call4_call0_call0_v167 : Ref sig .tc := ⟨.hbm, 1020, rfl⟩
abbrev main_call4_call0_call0_v168 : Ref sig .tc := ⟨.hbm, 1021, rfl⟩
abbrev main_call4_call0_call0_v169 : Ref sig .tc := ⟨.hbm, 1022, rfl⟩
abbrev main_call4_call0_call0_v170 : Ref sig .tc := ⟨.hbm, 1023, rfl⟩
abbrev main_call4_call0_v11_0 : Ref sig .tc := ⟨.hbm, 1024, rfl⟩
abbrev main_call4_call0_call0_v172 : Ref sig .tc := ⟨.hbm, 1025, rfl⟩
abbrev main_call4_call0_call0_v173 : Ref sig .tc := ⟨.hbm, 1026, rfl⟩
abbrev main_call4_call0_call0_c_44 : Ref sig .tc := ⟨.hbm, 1027, rfl⟩
abbrev main_call4_call0_call0_v174 : Ref sig .tc := ⟨.hbm, 1028, rfl⟩
abbrev main_call4_call0_v11_1 : Ref sig .tc := ⟨.hbm, 1029, rfl⟩
abbrev main_call4_call0_v12 : Ref sig .tc := ⟨.hbm, 1030, rfl⟩
abbrev main_call4_call0_v13 : Ref sig .tc := ⟨.hbm, 1031, rfl⟩
abbrev main_call4_v0 : Ref sig .tc := ⟨.hbm, 1032, rfl⟩
abbrev main_call4_v1 : Ref sig .tc := ⟨.hbm, 1033, rfl⟩
abbrev main_call4_v2 : Ref sig .tc := ⟨.hbm, 1034, rfl⟩
abbrev main_call4_v3 : Ref sig .tc := ⟨.hbm, 1035, rfl⟩
abbrev main_call4_v4 : Ref sig .tc := ⟨.hbm, 1036, rfl⟩
abbrev main_call4_v5 : Ref sig .tc := ⟨.hbm, 1037, rfl⟩
abbrev main_call4_v6 : Ref sig .tc := ⟨.hbm, 1038, rfl⟩
abbrev main_call4_v7 : Ref sig .tc := ⟨.hbm, 1039, rfl⟩
abbrev main_call4_v8 : Ref sig .tc := ⟨.hbm, 1040, rfl⟩
abbrev main_call4_v9 : Ref sig .tc := ⟨.hbm, 1041, rfl⟩
abbrev main_call4_c : Ref sig .tc := ⟨.hbm, 1042, rfl⟩
abbrev main_call4_v10 : Ref sig .tc := ⟨.hbm, 1043, rfl⟩
abbrev main_call4_v11 : Ref sig .tc := ⟨.hbm, 1044, rfl⟩
abbrev main_call4_c_0 : Ref sig .tc := ⟨.hbm, 1045, rfl⟩
abbrev main_call4_v12 : Ref sig .tc := ⟨.hbm, 1046, rfl⟩
abbrev main_call4_v13 : Ref sig .tc := ⟨.hbm, 1047, rfl⟩
abbrev main_call4_v14 : Ref sig .tc := ⟨.hbm, 1048, rfl⟩
abbrev main_call4_v15 : Ref sig .tc := ⟨.hbm, 1049, rfl⟩
abbrev main_call4_call1_v0 : Ref sig .tc := ⟨.hbm, 1050, rfl⟩
abbrev main_call4_call1_c : Ref sig .tc := ⟨.hbm, 1051, rfl⟩
abbrev main_call4_call1_v1 : Ref sig .tc := ⟨.hbm, 1052, rfl⟩
abbrev main_call4_call1_v2 : Ref sig .tc := ⟨.hbm, 1053, rfl⟩
abbrev main_call4_call1_v3 : Ref sig .tc := ⟨.hbm, 1054, rfl⟩
abbrev main_call4_call1_v4 : Ref sig .tc := ⟨.hbm, 1055, rfl⟩
abbrev main_call4_call1_v5 : Ref sig .tc := ⟨.hbm, 1056, rfl⟩
abbrev main_call4_call1_v6 : Ref sig .tc := ⟨.hbm, 1057, rfl⟩
abbrev main_call4_call1_c_0 : Ref sig .tc := ⟨.hbm, 1058, rfl⟩
abbrev main_call4_call1_v7 : Ref sig .tc := ⟨.hbm, 1059, rfl⟩
abbrev main_call4_call1_v8 : Ref sig .tc := ⟨.hbm, 1060, rfl⟩
abbrev main_call4_call1_c_1 : Ref sig .tc := ⟨.hbm, 1061, rfl⟩
abbrev main_call4_call1_v9 : Ref sig .tc := ⟨.hbm, 1062, rfl⟩
abbrev main_call4_call1_v10 : Ref sig .tc := ⟨.hbm, 1063, rfl⟩
abbrev main_call4_call1_v11 : Ref sig .tc := ⟨.hbm, 1064, rfl⟩
abbrev main_call4_call1_v12 : Ref sig .tc := ⟨.hbm, 1065, rfl⟩
abbrev main_call4_call1_v13 : Ref sig .tc := ⟨.hbm, 1066, rfl⟩
abbrev main_call4_call1_c_2 : Ref sig .tc := ⟨.hbm, 1067, rfl⟩
abbrev main_call4_call1_v14 : Ref sig .tc := ⟨.hbm, 1068, rfl⟩
abbrev main_call4_call1_v15 : Ref sig .tc := ⟨.hbm, 1069, rfl⟩
abbrev main_call4_call1_c_3 : Ref sig .tc := ⟨.hbm, 1070, rfl⟩
abbrev main_call4_call1_v16 : Ref sig .tc := ⟨.hbm, 1071, rfl⟩
abbrev main_call4_call1_v17 : Ref sig .tc := ⟨.hbm, 1072, rfl⟩
abbrev main_call4_call1_v18 : Ref sig .tc := ⟨.hbm, 1073, rfl⟩
abbrev main_call4_call1_v19 : Ref sig .tc := ⟨.hbm, 1074, rfl⟩
abbrev main_call4_call1_v20 : Ref sig .tc := ⟨.hbm, 1075, rfl⟩
abbrev main_call4_call1_c_4 : Ref sig .tc := ⟨.hbm, 1076, rfl⟩
abbrev main_call4_call1_v21 : Ref sig .tc := ⟨.hbm, 1077, rfl⟩
abbrev main_call4_call1_v22 : Ref sig .tc := ⟨.hbm, 1078, rfl⟩
abbrev main_call4_call1_c_5 : Ref sig .tc := ⟨.hbm, 1079, rfl⟩
abbrev main_call4_call1_v23 : Ref sig .tc := ⟨.hbm, 1080, rfl⟩
abbrev main_call4_call1_v24 : Ref sig .tc := ⟨.hbm, 1081, rfl⟩
abbrev main_call4_call1_v25 : Ref sig .tc := ⟨.hbm, 1082, rfl⟩
abbrev main_call4_call1_v26 : Ref sig .tc := ⟨.hbm, 1083, rfl⟩
abbrev main_call4_call1_v27 : Ref sig .tc := ⟨.hbm, 1084, rfl⟩
abbrev main_call4_call1_c_6 : Ref sig .tc := ⟨.hbm, 1085, rfl⟩
abbrev main_call4_call1_v28 : Ref sig .tc := ⟨.hbm, 1086, rfl⟩
abbrev main_call4_call1_v29 : Ref sig .tc := ⟨.hbm, 1087, rfl⟩
abbrev main_call4_call1_c_7 : Ref sig .tc := ⟨.hbm, 1088, rfl⟩
abbrev main_call4_call1_v30 : Ref sig .tc := ⟨.hbm, 1089, rfl⟩
abbrev main_call4_call1_v31 : Ref sig .tc := ⟨.hbm, 1090, rfl⟩
abbrev main_call4_call1_v32 : Ref sig .tc := ⟨.hbm, 1091, rfl⟩
abbrev main_call4_call1_v33 : Ref sig .tc := ⟨.hbm, 1092, rfl⟩
abbrev main_call4_call1_v34 : Ref sig .tc := ⟨.hbm, 1093, rfl⟩
abbrev main_call4_call1_v35 : Ref sig .tc := ⟨.hbm, 1094, rfl⟩
abbrev main_call4_call1_v36 : Ref sig .tc := ⟨.hbm, 1095, rfl⟩
abbrev main_call4_call1_v37 : Ref sig .tc := ⟨.hbm, 1096, rfl⟩
abbrev main_call4_call1_c_8 : Ref sig .tc := ⟨.hbm, 1097, rfl⟩
abbrev main_call4_call1_v38 : Ref sig .tc := ⟨.hbm, 1098, rfl⟩
abbrev main_call4_call1_v39 : Ref sig .tc := ⟨.hbm, 1099, rfl⟩
abbrev main_call4_call1_v40 : Ref sig .tc := ⟨.hbm, 1100, rfl⟩
abbrev main_call4_call1_c_9 : Ref sig .tc := ⟨.hbm, 1101, rfl⟩
abbrev main_call4_call1_v41 : Ref sig .tc := ⟨.hbm, 1102, rfl⟩
abbrev main_call4_call1_v42 : Ref sig .tc := ⟨.hbm, 1103, rfl⟩
abbrev main_call4_call1_c_10 : Ref sig .tc := ⟨.hbm, 1104, rfl⟩
abbrev main_call4_call1_v43 : Ref sig .tc := ⟨.hbm, 1105, rfl⟩
abbrev main_call4_call1_v44 : Ref sig .tc := ⟨.hbm, 1106, rfl⟩
abbrev main_call4_call1_v45 : Ref sig .tc := ⟨.hbm, 1107, rfl⟩
abbrev main_call4_call1_v46 : Ref sig .tc := ⟨.hbm, 1108, rfl⟩
abbrev main_call4_call1_v47 : Ref sig .tc := ⟨.hbm, 1109, rfl⟩
abbrev main_call4_call1_c_11 : Ref sig .tc := ⟨.hbm, 1110, rfl⟩
abbrev main_call4_call1_v48 : Ref sig .tc := ⟨.hbm, 1111, rfl⟩
abbrev main_call4_call1_v49 : Ref sig .tc := ⟨.hbm, 1112, rfl⟩
abbrev main_call4_call1_c_12 : Ref sig .tc := ⟨.hbm, 1113, rfl⟩
abbrev main_call4_call1_v50 : Ref sig .tc := ⟨.hbm, 1114, rfl⟩
abbrev main_call4_call1_v51 : Ref sig .tc := ⟨.hbm, 1115, rfl⟩
abbrev main_call4_call1_v52 : Ref sig .tc := ⟨.hbm, 1116, rfl⟩
abbrev main_call4_call1_v53 : Ref sig .tc := ⟨.hbm, 1117, rfl⟩
abbrev main_call4_call1_v54 : Ref sig .tc := ⟨.hbm, 1118, rfl⟩
abbrev main_call4_call1_c_13 : Ref sig .tc := ⟨.hbm, 1119, rfl⟩
abbrev main_call4_call1_v55 : Ref sig .tc := ⟨.hbm, 1120, rfl⟩
abbrev main_call4_call1_v56 : Ref sig .tc := ⟨.hbm, 1121, rfl⟩
abbrev main_call4_call1_c_14 : Ref sig .tc := ⟨.hbm, 1122, rfl⟩
abbrev main_call4_call1_v57 : Ref sig .tc := ⟨.hbm, 1123, rfl⟩
abbrev main_call4_call1_v58 : Ref sig .tc := ⟨.hbm, 1124, rfl⟩
abbrev main_call4_call1_v59 : Ref sig .tc := ⟨.hbm, 1125, rfl⟩
abbrev main_call4_call1_v60 : Ref sig .tc := ⟨.hbm, 1126, rfl⟩
abbrev main_call4_call1_v61 : Ref sig .tc := ⟨.hbm, 1127, rfl⟩
abbrev main_call4_call1_c_15 : Ref sig .tc := ⟨.hbm, 1128, rfl⟩
abbrev main_call4_call1_v62 : Ref sig .tc := ⟨.hbm, 1129, rfl⟩
abbrev main_call4_call1_v63 : Ref sig .tc := ⟨.hbm, 1130, rfl⟩
abbrev main_call4_call1_c_16 : Ref sig .tc := ⟨.hbm, 1131, rfl⟩
abbrev main_call4_call1_v64 : Ref sig .tc := ⟨.hbm, 1132, rfl⟩
abbrev main_call4_call1_v65 : Ref sig .tc := ⟨.hbm, 1133, rfl⟩
abbrev main_call4_call1_v66 : Ref sig .tc := ⟨.hbm, 1134, rfl⟩
abbrev main_call4_call1_v67 : Ref sig .tc := ⟨.hbm, 1135, rfl⟩
abbrev main_call4_call1_v68 : Ref sig .tc := ⟨.hbm, 1136, rfl⟩
abbrev main_call4_call1_v69 : Ref sig .tc := ⟨.hbm, 1137, rfl⟩
abbrev main_call4_call1_v70 : Ref sig .tc := ⟨.hbm, 1138, rfl⟩
abbrev main_call4_call1_v71 : Ref sig .tc := ⟨.hbm, 1139, rfl⟩
abbrev main_call4_call1_c_17 : Ref sig .tc := ⟨.hbm, 1140, rfl⟩
abbrev main_call4_call1_v72 : Ref sig .tc := ⟨.hbm, 1141, rfl⟩
abbrev main_call4_call1_v73 : Ref sig .tc := ⟨.hbm, 1142, rfl⟩
abbrev main_call4_call1_v74 : Ref sig .tc := ⟨.hbm, 1143, rfl⟩
abbrev main_call4_call1_c_18 : Ref sig .tc := ⟨.hbm, 1144, rfl⟩
abbrev main_call4_call1_v75 : Ref sig .tc := ⟨.hbm, 1145, rfl⟩
abbrev main_call4_call1_v76 : Ref sig .tc := ⟨.hbm, 1146, rfl⟩
abbrev main_call4_call1_c_19 : Ref sig .tc := ⟨.hbm, 1147, rfl⟩
abbrev main_call4_call1_v77 : Ref sig .tc := ⟨.hbm, 1148, rfl⟩
abbrev main_call4_call1_v78 : Ref sig .tc := ⟨.hbm, 1149, rfl⟩
abbrev main_call4_call1_v79 : Ref sig .tc := ⟨.hbm, 1150, rfl⟩
abbrev main_call4_call1_v80 : Ref sig .tc := ⟨.hbm, 1151, rfl⟩
abbrev main_call4_call1_v81 : Ref sig .tc := ⟨.hbm, 1152, rfl⟩
abbrev main_call4_call1_c_20 : Ref sig .tc := ⟨.hbm, 1153, rfl⟩
abbrev main_call4_call1_v82 : Ref sig .tc := ⟨.hbm, 1154, rfl⟩
abbrev main_call4_call1_v83 : Ref sig .tc := ⟨.hbm, 1155, rfl⟩
abbrev main_call4_call1_c_21 : Ref sig .tc := ⟨.hbm, 1156, rfl⟩
abbrev main_call4_call1_v84 : Ref sig .tc := ⟨.hbm, 1157, rfl⟩
abbrev main_call4_call1_v85 : Ref sig .tc := ⟨.hbm, 1158, rfl⟩
abbrev main_call4_call1_v86 : Ref sig .tc := ⟨.hbm, 1159, rfl⟩
abbrev main_call4_call1_v87 : Ref sig .tc := ⟨.hbm, 1160, rfl⟩
abbrev main_call4_call1_v88 : Ref sig .tc := ⟨.hbm, 1161, rfl⟩
abbrev main_call4_call1_c_22 : Ref sig .tc := ⟨.hbm, 1162, rfl⟩
abbrev main_call4_call1_v89 : Ref sig .tc := ⟨.hbm, 1163, rfl⟩
abbrev main_call4_call1_v90 : Ref sig .tc := ⟨.hbm, 1164, rfl⟩
abbrev main_call4_call1_c_23 : Ref sig .tc := ⟨.hbm, 1165, rfl⟩
abbrev main_call4_call1_v91 : Ref sig .tc := ⟨.hbm, 1166, rfl⟩
abbrev main_call4_call1_v92 : Ref sig .tc := ⟨.hbm, 1167, rfl⟩
abbrev main_call4_call1_v93 : Ref sig .tc := ⟨.hbm, 1168, rfl⟩
abbrev main_call4_call1_v94 : Ref sig .tc := ⟨.hbm, 1169, rfl⟩
abbrev main_call4_call1_v95 : Ref sig .tc := ⟨.hbm, 1170, rfl⟩
abbrev main_call4_call1_c_24 : Ref sig .tc := ⟨.hbm, 1171, rfl⟩
abbrev main_call4_call1_v96 : Ref sig .tc := ⟨.hbm, 1172, rfl⟩
abbrev main_call4_call1_v97 : Ref sig .tc := ⟨.hbm, 1173, rfl⟩
abbrev main_call4_call1_c_25 : Ref sig .tc := ⟨.hbm, 1174, rfl⟩
abbrev main_call4_call1_v98 : Ref sig .tc := ⟨.hbm, 1175, rfl⟩
abbrev main_call4_call1_v99 : Ref sig .tc := ⟨.hbm, 1176, rfl⟩
abbrev main_call4_call1_v100 : Ref sig .tc := ⟨.hbm, 1177, rfl⟩
abbrev main_call4_call1_v101 : Ref sig .tc := ⟨.hbm, 1178, rfl⟩
abbrev main_call4_call1_v102 : Ref sig .tc := ⟨.hbm, 1179, rfl⟩
abbrev main_call4_call1_v103 : Ref sig .tc := ⟨.hbm, 1180, rfl⟩
abbrev main_call4_call1_v104 : Ref sig .tc := ⟨.hbm, 1181, rfl⟩
abbrev main_call4_call1_v105 : Ref sig .tc := ⟨.hbm, 1182, rfl⟩
abbrev main_call4_call1_c_26 : Ref sig .tc := ⟨.hbm, 1183, rfl⟩
abbrev main_call4_call1_v106 : Ref sig .tc := ⟨.hbm, 1184, rfl⟩
abbrev main_call4_call1_v107 : Ref sig .tc := ⟨.hbm, 1185, rfl⟩
abbrev main_call4_call1_v108 : Ref sig .tc := ⟨.hbm, 1186, rfl⟩
abbrev main_call4_call1_c_27 : Ref sig .tc := ⟨.hbm, 1187, rfl⟩
abbrev main_call4_call1_v109 : Ref sig .tc := ⟨.hbm, 1188, rfl⟩
abbrev main_call4_call1_v110 : Ref sig .tc := ⟨.hbm, 1189, rfl⟩
abbrev main_call4_call1_c_28 : Ref sig .tc := ⟨.hbm, 1190, rfl⟩
abbrev main_call4_call1_v111 : Ref sig .tc := ⟨.hbm, 1191, rfl⟩
abbrev main_call4_call1_v112 : Ref sig .tc := ⟨.hbm, 1192, rfl⟩
abbrev main_call4_call1_v113 : Ref sig .tc := ⟨.hbm, 1193, rfl⟩
abbrev main_call4_call1_v114 : Ref sig .tc := ⟨.hbm, 1194, rfl⟩
abbrev main_call4_call1_v115 : Ref sig .tc := ⟨.hbm, 1195, rfl⟩
abbrev main_call4_call1_c_29 : Ref sig .tc := ⟨.hbm, 1196, rfl⟩
abbrev main_call4_call1_v116 : Ref sig .tc := ⟨.hbm, 1197, rfl⟩
abbrev main_call4_call1_v117 : Ref sig .tc := ⟨.hbm, 1198, rfl⟩
abbrev main_call4_call1_c_30 : Ref sig .tc := ⟨.hbm, 1199, rfl⟩
abbrev main_call4_call1_v118 : Ref sig .tc := ⟨.hbm, 1200, rfl⟩
abbrev main_call4_call1_v119 : Ref sig .tc := ⟨.hbm, 1201, rfl⟩
abbrev main_call4_call1_v120 : Ref sig .tc := ⟨.hbm, 1202, rfl⟩
abbrev main_call4_call1_v121 : Ref sig .tc := ⟨.hbm, 1203, rfl⟩
abbrev main_call4_call1_v122 : Ref sig .tc := ⟨.hbm, 1204, rfl⟩
abbrev main_call4_call1_c_31 : Ref sig .tc := ⟨.hbm, 1205, rfl⟩
abbrev main_call4_call1_v123 : Ref sig .tc := ⟨.hbm, 1206, rfl⟩
abbrev main_call4_call1_v124 : Ref sig .tc := ⟨.hbm, 1207, rfl⟩
abbrev main_call4_call1_c_32 : Ref sig .tc := ⟨.hbm, 1208, rfl⟩
abbrev main_call4_call1_v125 : Ref sig .tc := ⟨.hbm, 1209, rfl⟩
abbrev main_call4_call1_v126 : Ref sig .tc := ⟨.hbm, 1210, rfl⟩
abbrev main_call4_call1_v127 : Ref sig .tc := ⟨.hbm, 1211, rfl⟩
abbrev main_call4_call1_v128 : Ref sig .tc := ⟨.hbm, 1212, rfl⟩
abbrev main_call4_call1_v129 : Ref sig .tc := ⟨.hbm, 1213, rfl⟩
abbrev main_call4_call1_c_33 : Ref sig .tc := ⟨.hbm, 1214, rfl⟩
abbrev main_call4_call1_v130 : Ref sig .tc := ⟨.hbm, 1215, rfl⟩
abbrev main_call4_call1_v131 : Ref sig .tc := ⟨.hbm, 1216, rfl⟩
abbrev main_call4_call1_c_34 : Ref sig .tc := ⟨.hbm, 1217, rfl⟩
abbrev main_call4_call1_v132 : Ref sig .tc := ⟨.hbm, 1218, rfl⟩
abbrev main_call4_call1_v133 : Ref sig .tc := ⟨.hbm, 1219, rfl⟩
abbrev main_call4_call1_v134 : Ref sig .tc := ⟨.hbm, 1220, rfl⟩
abbrev main_call4_call1_v135 : Ref sig .tc := ⟨.hbm, 1221, rfl⟩
abbrev main_call4_call1_v136 : Ref sig .tc := ⟨.hbm, 1222, rfl⟩
abbrev main_call4_call1_v137 : Ref sig .tc := ⟨.hbm, 1223, rfl⟩
abbrev main_call4_call1_v138 : Ref sig .tc := ⟨.hbm, 1224, rfl⟩
abbrev main_call4_call1_v139 : Ref sig .tc := ⟨.hbm, 1225, rfl⟩
abbrev main_call4_call1_c_35 : Ref sig .tc := ⟨.hbm, 1226, rfl⟩
abbrev main_call4_call1_v140 : Ref sig .tc := ⟨.hbm, 1227, rfl⟩
abbrev main_call4_call1_v141 : Ref sig .tc := ⟨.hbm, 1228, rfl⟩
abbrev main_call4_call1_v142 : Ref sig .tc := ⟨.hbm, 1229, rfl⟩
abbrev main_call4_call1_c_36 : Ref sig .tc := ⟨.hbm, 1230, rfl⟩
abbrev main_call4_call1_v143 : Ref sig .tc := ⟨.hbm, 1231, rfl⟩
abbrev main_call4_call1_v144 : Ref sig .tc := ⟨.hbm, 1232, rfl⟩
abbrev main_call4_call1_c_37 : Ref sig .tc := ⟨.hbm, 1233, rfl⟩
abbrev main_call4_call1_v145 : Ref sig .tc := ⟨.hbm, 1234, rfl⟩
abbrev main_call4_call1_v146 : Ref sig .tc := ⟨.hbm, 1235, rfl⟩
abbrev main_call4_call1_v147 : Ref sig .tc := ⟨.hbm, 1236, rfl⟩
abbrev main_call4_call1_v148 : Ref sig .tc := ⟨.hbm, 1237, rfl⟩
abbrev main_call4_call1_v149 : Ref sig .tc := ⟨.hbm, 1238, rfl⟩
abbrev main_call4_call1_c_38 : Ref sig .tc := ⟨.hbm, 1239, rfl⟩
abbrev main_call4_call1_v150 : Ref sig .tc := ⟨.hbm, 1240, rfl⟩
abbrev main_call4_call1_v151 : Ref sig .tc := ⟨.hbm, 1241, rfl⟩
abbrev main_call4_call1_c_39 : Ref sig .tc := ⟨.hbm, 1242, rfl⟩
abbrev main_call4_call1_v152 : Ref sig .tc := ⟨.hbm, 1243, rfl⟩
abbrev main_call4_call1_v153 : Ref sig .tc := ⟨.hbm, 1244, rfl⟩
abbrev main_call4_call1_v154 : Ref sig .tc := ⟨.hbm, 1245, rfl⟩
abbrev main_call4_call1_v155 : Ref sig .tc := ⟨.hbm, 1246, rfl⟩
abbrev main_call4_call1_v156 : Ref sig .tc := ⟨.hbm, 1247, rfl⟩
abbrev main_call4_call1_c_40 : Ref sig .tc := ⟨.hbm, 1248, rfl⟩
abbrev main_call4_call1_v157 : Ref sig .tc := ⟨.hbm, 1249, rfl⟩
abbrev main_call4_call1_v158 : Ref sig .tc := ⟨.hbm, 1250, rfl⟩
abbrev main_call4_call1_c_41 : Ref sig .tc := ⟨.hbm, 1251, rfl⟩
abbrev main_call4_call1_v159 : Ref sig .tc := ⟨.hbm, 1252, rfl⟩
abbrev main_call4_call1_v160 : Ref sig .tc := ⟨.hbm, 1253, rfl⟩
abbrev main_call4_call1_v161 : Ref sig .tc := ⟨.hbm, 1254, rfl⟩
abbrev main_call4_call1_v162 : Ref sig .tc := ⟨.hbm, 1255, rfl⟩
abbrev main_call4_call1_v163 : Ref sig .tc := ⟨.hbm, 1256, rfl⟩
abbrev main_call4_call1_c_42 : Ref sig .tc := ⟨.hbm, 1257, rfl⟩
abbrev main_call4_call1_v164 : Ref sig .tc := ⟨.hbm, 1258, rfl⟩
abbrev main_call4_call1_v165 : Ref sig .tc := ⟨.hbm, 1259, rfl⟩
abbrev main_call4_call1_c_43 : Ref sig .tc := ⟨.hbm, 1260, rfl⟩
abbrev main_call4_call1_v166 : Ref sig .tc := ⟨.hbm, 1261, rfl⟩
abbrev main_call4_call1_v167 : Ref sig .tc := ⟨.hbm, 1262, rfl⟩
abbrev main_call4_call1_v168 : Ref sig .tc := ⟨.hbm, 1263, rfl⟩
abbrev main_call4_call1_v169 : Ref sig .tc := ⟨.hbm, 1264, rfl⟩
abbrev main_call4_call1_v170 : Ref sig .tc := ⟨.hbm, 1265, rfl⟩
abbrev main_call4_v16_0 : Ref sig .tc := ⟨.hbm, 1266, rfl⟩
abbrev main_call4_call1_v172 : Ref sig .tc := ⟨.hbm, 1267, rfl⟩
abbrev main_call4_call1_v173 : Ref sig .tc := ⟨.hbm, 1268, rfl⟩
abbrev main_call4_call1_c_44 : Ref sig .tc := ⟨.hbm, 1269, rfl⟩
abbrev main_call4_call1_v174 : Ref sig .tc := ⟨.hbm, 1270, rfl⟩
abbrev main_call4_v16_1 : Ref sig .tc := ⟨.hbm, 1271, rfl⟩
abbrev main_call4_v17 : Ref sig .tc := ⟨.hbm, 1272, rfl⟩
abbrev main_call4_v18_0 : Ref sig .tc := ⟨.hbm, 1273, rfl⟩
abbrev main_v26 : Ref sig .tc := ⟨.hbm, 1274, rfl⟩
abbrev main_c_6 : Ref sig .tc := ⟨.hbm, 1275, rfl⟩
abbrev main_v27 : Ref sig .tc := ⟨.hbm, 1276, rfl⟩
abbrev main_v28 : Ref sig .tc := ⟨.hbm, 1277, rfl⟩
abbrev main_c_7 : Ref sig .tc := ⟨.hbm, 1278, rfl⟩
abbrev main_v29 : Ref sig .tc := ⟨.hbm, 1279, rfl⟩
abbrev main_v30 : Ref sig .tc := ⟨.hbm, 1280, rfl⟩
abbrev main_v31 : Ref sig .tc := ⟨.hbm, 1281, rfl⟩
abbrev main_v32 : Ref sig .tc := ⟨.hbm, 1282, rfl⟩
abbrev main_v33 : Ref sig .tc := ⟨.hbm, 1283, rfl⟩
abbrev main_c_8 : Ref sig .tc := ⟨.hbm, 1284, rfl⟩
abbrev main_c_9 : Ref sig .tc := ⟨.hbm, 1285, rfl⟩
abbrev main_v34 : Ref sig .tc := ⟨.hbm, 1286, rfl⟩

abbrev nD : Nat := 1
abbrev τ : Topo := Topo.v7x

variable {F : FTy → Type} [FloatOps F]

class Facts₀ : Prop where
  bcast_S_S1 : S_.BroadcastsInDim S1 (![] : Fin 0 → Fin S1.rank)
  concatenates_S1_S1_S2_d0 : Shape.Concatenates [S1, S1] S2 0
  slices_S2_S1_0 : S2.Slices ![0] S1
  shapeCasts_S1_S_ : S1.ShapeCasts S_
  slices_S2_S1_1 : S2.Slices ![1] S1
  bcast_S_S2 : S_.BroadcastsInDim S2 (![] : Fin 0 → Fin S2.rank)
  natLt_32_64 : 32 < 64
  bcast_S2_S2x1_0 : S2.BroadcastsInDim S2x1 (![0] : Fin 1 → Fin S2x1.rank)
  concatenates_S2x1_S2x1_S2x2_d1 : Shape.Concatenates [S2x1, S2x1] S2x2 1
  slices_S2x2_S1x2_0_0 : S2x2.Slices ![0, 0] S1x2
  shapeCasts_S1x2_S2 : S1x2.ShapeCasts S2
  slices_S2x2_S1x2_1_0 : S2x2.Slices ![1, 0] S1x2
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x64_0 : S4096.BroadcastsInDim S4096x64 (![0] : Fin 1 → Fin S4096x64.rank)
  bcast_S_S4096x64 : S_.BroadcastsInDim S4096x64 (![] : Fin 0 → Fin S4096x64.rank)
  bcast_S_S64 : S_.BroadcastsInDim S64 (![] : Fin 0 → Fin S64.rank)
  bcast_S64_S64x1_0 : S64.BroadcastsInDim S64x1 (![0] : Fin 1 → Fin S64x1.rank)
  sliceFits_S4096x64_S4096x10 : S4096x64.Slices (fun _ => 0) S4096x10
  shapeCasts_S4096x10_S40960 : S4096x10.ShapeCasts S40960
  bcast_S_S40960 : S_.BroadcastsInDim S40960 (![] : Fin 0 → Fin S40960.rank)
  bcast_S40960_S40960x1_0 : S40960.BroadcastsInDim S40960x1 (![0] : Fin 1 → Fin S40960x1.rank)
  bcast_S_S40960x1 : S_.BroadcastsInDim S40960x1 (![] : Fin 0 → Fin S40960x1.rank)
  bcast_S1x1_S40960x1_0_1 : S1x1.BroadcastsInDim S40960x1 (![0, 1] : Fin 2 → Fin S40960x1.rank)
  reducesTo_S40960x1_S40960_d1 : S40960x1.ReducesTo [1] S40960
  bcast_S40960_S40960x64_0 : S40960.BroadcastsInDim S40960x64 (![0] : Fin 1 → Fin S40960x64.rank)
  bcast_S_S40960x64 : S_.BroadcastsInDim S40960x64 (![] : Fin 0 → Fin S40960x64.rank)
  sliceFits_S40960x64_S40960x25 : S40960x64.Slices (fun _ => 0) S40960x25
  gather_S100000x64_S4096x1_S4096x64_1_0_n_n_0_1_164_wf : GatherDims.WF S100000x64 S4096x1 S4096x64 [1] [0] [] [0] [] 1 ![1, 64]
  gather_S4096x64_S64x1_S4096x64_0_1_n_n_1_1_40961_wf : GatherDims.WF S4096x64 S64x1 S4096x64 [0] [1] [] [1] [] 1 ![4096, 1]
  gather_S100000x64_S40960x1_S40960x64_1_0_n_n_0_1_164_wf : GatherDims.WF S100000x64 S40960x1 S40960x64 [1] [0] [] [0] [] 1 ![1, 64]
  gather_S40960x64_S64x1_S40960x64_0_1_n_n_1_1_409601_wf : GatherDims.WF S40960x64 S64x1 S40960x64 [0] [1] [] [1] [] 1 ![40960, 1]

variable [Facts₀]

def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def comparator_i32_i32_d0 : BitVec 32 × BitVec 32 → BitVec 32 × BitVec 32 → BitVec 1 :=
  fun l r =>
    let v19 := IntOp.cmpi .ult l.1 r.1
    v19
def gather_S4096x64_S64x1_S4096x64_0_1_n_n_1_1_40961 : GatherDims S4096x64 S64x1 S4096x64 where
  offsetDims := [0]
  collapsedSliceDims := [1]
  operandBatchingDims := []
  startIndicesBatchingDims := []
  startIndexMap := [1]
  indexVectorDim := 1
  sliceSizes := ![4096, 1]
  wf := gather_S4096x64_S64x1_S4096x64_0_1_n_n_1_1_40961_wf
def gather_S100000x64_S40960x1_S40960x64_1_0_n_n_0_1_164 : GatherDims S100000x64 S40960x1 S40960x64 where
  offsetDims := [1]
  collapsedSliceDims := [0]
  operandBatchingDims := []
  startIndicesBatchingDims := []
  startIndexMap := [0]
  indexVectorDim := 1
  sliceSizes := ![1, 64]
  wf := gather_S100000x64_S40960x1_S40960x64_1_0_n_n_0_1_164_wf
def gather_S40960x64_S64x1_S40960x64_0_1_n_n_1_1_409601 : GatherDims S40960x64 S64x1 S40960x64 where
  offsetDims := [0]
  collapsedSliceDims := [1]
  operandBatchingDims := []
  startIndicesBatchingDims := []
  startIndexMap := [1]
  indexVectorDim := 1
  sliceSizes := ![40960, 1]
  wf := gather_S40960x64_S64x1_S40960x64_0_1_n_n_1_1_409601_wf

class Facts : Prop extends Facts₀ where

variable [Facts]
-- ==== Proof.Spec.lean ====
/- The lookup's two results as whole-array functions of the batch and the table. -/
import Idealize.ShloMosaic.PureOps
import Idealize.ShloMosaic.Lib.ValueIdx

namespace Cert.Spec

open Idealize.ShloMosaic Idealize.ShloMosaic.ValueIdx

abbrev Sx : Shape := ⟨1, ![4096]⟩
abbrev Sadj : Shape := ⟨2, ![100000, 64]⟩
abbrev SadjT : Shape := ⟨2, ![64, 100000]⟩
abbrev Sh0T : Shape := ⟨2, ![10, 4096]⟩
abbrev Sh0 : Shape := ⟨2, ![4096, 10]⟩
abbrev Sh1T : Shape := ⟨2, ![25, 40960]⟩
abbrev Sh1 : Shape := ⟨2, ![40960, 25]⟩

def p0 : Fin 10 → Fin 64 := ![17, 27, 42, 32, 1, 3, 58, 51, 40, 28]

def p1 : Fin 25 → Fin 64 :=
  ![2, 32, 15, 10, 48, 25, 28, 0, 49, 4, 60, 42, 21, 11, 20, 57, 17, 12, 19, 22, 18, 16, 27, 5, 23]

def rowOf (w : BitVec 32) : Fin 100000 := ⟨min w.toNat 99999, by omega⟩

theorem rowOf_val_of_lt {w : BitVec 32} (h : w.toNat < 100000) : (rowOf w).val = w.toNat := by
  show min w.toNat 99999 = w.toNat
  omega

def colOf (n : Fin 40960) : Fin 10 := ⟨n.val % 10, Nat.mod_lt _ (by decide)⟩
def rowIn (n : Fin 40960) : Fin 4096 := ⟨n.val / 10, by have := n.isLt; omega⟩

def adjT (adj : IVec Sadj 32) : IVec SadjT 32 := fun i => adj (ix2 (i 1 : Fin 100000) (i 0 : Fin 64))

def k0 (xv : IVec Sx 32) (av : IVec SadjT 32) : IVec Sh0T 32 :=
  fun i => av (ix2 (p0 (i 0 : Fin 10)) (rowOf (xv (ix1 (i 1 : Fin 4096)))))

def k1 (h0 : IVec Sh0T 32) (av : IVec SadjT 32) : IVec Sh1T 32 :=
  fun i => av (ix2 (p1 (i 0 : Fin 25)) (rowOf (h0 (ix2 (colOf (i 1 : Fin 40960)) (rowIn (i 1 : Fin 40960))))))

def hop0 (x : IVec Sx 32) (adj : IVec Sadj 32) : IVec Sh0 32 :=
  fun i => k0 x (adjT adj) (ix2 (i 1 : Fin 10) (i 0 : Fin 4096))
def hop1 (x : IVec Sx 32) (adj : IVec Sadj 32) : IVec Sh1 32 :=
  fun i => k1 (k0 x (adjT adj)) (adjT adj) (ix2 (i 1 : Fin 25) (i 0 : Fin 40960))

theorem k0_mem (xv : IVec Sx 32) (av : IVec SadjT 32) (i : Sh0T.Idx) : ∃ j : SadjT.Idx, k0 xv av i = av j := ⟨_, rfl⟩

end Cert.Spec
-- ==== Proof.K.Common.lean ====
/- Names the lookup's frame is stated over: locations, a worker's number, its part of each output. -/
import proofs.«215163_g69475390980333_cont_9to1_m_779_28_alg».proof.Kernel
import proofs.«215163_g69475390980333_cont_9to1_m_779_28_alg».proof.Proof.Gen.Kernel
import proofs.«215163_g69475390980333_cont_9to1_m_779_28_alg».proof.Proof.Gen.Kernel.Skeleton
import proofs.«215163_g69475390980333_cont_9to1_m_779_28_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 2) (Elt F) ℕ UU ℕ

abbrev EH : Emb UH (MT nD τ sig (HIx 2) (Elt F) ℕ UU ℕ) := embL

abbrev xLoc (d : Dev nD) : Loc nD τ sig := (SparseCore.T d).loc main_arg0
abbrev adjLoc (d : Dev nD) : Loc nD τ sig := (SparseCore.T d).loc main_arg1
abbrev aLoc (d : Dev nD) : Loc nD τ sig := (SparseCore.T d).loc main_v0
abbrev o0Loc (d : Dev nD) : Loc nD τ sig := (SparseCore.T d).loc main_v1
abbrev o1Loc (d : Dev nD) : Loc nD τ sig := (SparseCore.T d).loc main_v2
abbrev r0Loc (d : Dev nD) : Loc nD τ sig := (SparseCore.T d).loc main_v3
abbrev r1Loc (d : Dev nD) : Loc nD τ sig := (SparseCore.T d).loc main_v4

def wid0 (L : grid0.Coords) : ℕ := 2 * (L 1).val + (L 0).val
def wid1 (L : grid1.Coords) : ℕ := 2 * (L 1).val + (L 0).val

abbrev cV0 (L : grid0.Coords) : Fin τ.nSC := (L 0).castLE hcore0
abbrev jV0 (L : grid0.Coords) : Fin τ.nSub := (L 1).castLE hsub0
abbrev cV1 (L : grid1.Coords) : Fin τ.nSC := (L 0).castLE hcore1
abbrev jV1 (L : grid1.Coords) : Fin τ.nSub := (L 1).castLE hsub1

theorem hdiv0 : 10 ∣ S10x4096.size 0 := ⟨1, rfl⟩
theorem hdiv1 : 25 ∣ S25x40960.size 0 := ⟨1, rfl⟩

abbrev row0 (r : Fin 10) : Rect S10x4096 := Rect.part (s := S10x4096) (a₀ := 0) hdiv0 r
abbrev row1 (r : Fin 25) : Rect S25x40960 := Rect.part (s := S25x40960) (a₀ := 0) hdiv1 r

def own0 (L : grid0.Coords) : Finset S10x4096.Idx := if h : wid0 L < 10 then (row0 ⟨wid0 L, h⟩).set else ∅
def own1 (L : grid1.Coords) : Finset S25x40960.Idx := if h : wid1 L < 25 then (row1 ⟨wid1 L, h⟩).set else ∅

theorem own0_of_lt {L : grid0.Coords} (h : wid0 L < 10) : own0 L = (row0 ⟨wid0 L, h⟩).set := dif_pos h
theorem own0_of_not_lt {L : grid0.Coords} (h : ¬ wid0 L < 10) : own0 L = ∅ := dif_neg h
theorem own1_of_lt {L : grid1.Coords} (h : wid1 L < 25) : own1 L = (row1 ⟨wid1 L, h⟩).set := dif_pos h
theorem own1_of_not_lt {L : grid1.Coords} (h : ¬ wid1 L < 25) : own1 L = ∅ := dif_neg h

variable [FloatOps F]

def res0 (d : Dev nD) (L : grid0.Coords) (q : PosShare TreeShare) (xv : Buf (Elt F) (xLoc d)) (av : Buf (Elt F) (aLoc d))
    (f : Buf (Elt F) (o0Loc d)) : sProp 𝕄 :=
  iprop((xLoc d ↦{q} xv) ∗ (aLoc d ↦{q} av) ∗ (o0Loc d ↦[own0 L]{fullShare} f))

def res1 (d : Dev nD) (L : grid1.Coords) (q : PosShare TreeShare) (av : Buf (Elt F) (aLoc d)) (h0 : Buf (Elt F) (o0Loc d))
    (f : Buf (Elt F) (o1Loc d)) : sProp 𝕄 :=
  iprop((aLoc d ↦{q} av) ∗ (o0Loc d ↦{q} h0) ∗ (o1Loc d ↦[own1 L]{fullShare} f))

def val0 (d : Dev nD) (xv : Buf (Elt F) (xLoc d)) (av : Buf (Elt F) (aLoc d)) : Buf (Elt F) (o0Loc d) := Cert.Spec.k0 xv av
def val1 (d : Dev nD) (h0 : Buf (Elt F) (o0Loc d)) (av : Buf (Elt F) (aLoc d)) : Buf (Elt F) (o1Loc d) := Cert.Spec.k1 h0 av

end Cert.Proof.K

end
-- ==== Proof.K.Body0.lean ====
/- First stage, one worker: its row of the first result ends at the lookup's value. -/
import proofs.«215163_g69475390980333_cont_9to1_m_779_28_alg».proof.Proof.K.Common
import Idealize.ShloMosaic.Lib.ValueLayout

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 2) (Elt F) ℕ UU ℕ

namespace Body0

theorem k0_cond1_iff : ∀ L : grid0.Coords, k0_cond1 L = 1#1 ↔ wid0 L < 10 := by decide +kernel

abbrev aV : Memref sig .scVector .hbm S64x100000 .i32 := Memref.whole main_v0_scv
abbrev xV : Memref sig .scVector .hbm S4096 .i32 := Memref.whole main_arg0_scv
abbrev oV : Memref sig .scVector .hbm S10x4096 .i32 := Memref.whole main_v1_scv

abbrev sCol : Memref sig .scVector .vmem S100000 .i32 := Memref.whole cc0_scratch0
abbrev sXs : Memref sig .scVector .vmem S4096 .i32 := Memref.whole cc0_scratch1
abbrev sVal : Memref sig .scVector .vmem S1x4096 .i32 := Memref.whole cc0_scratch2

abbrev oRow (L : grid0.Coords) (h : k0_cond1 L = 1#1) : Memref sig .scVector .hbm S1x4096 .i32 :=
  (oV).slice (Rect.unit (s := S10x4096) (k0_off10 L) S1x4096.size (k0_off10_inb L h)) (fun _ => rfl)

omit [FloatOps F] in
theorem set_oRow (L : grid0.Coords) (h : k0_cond1 L = 1#1) (hw : wid0 L < 10) : (oRow L h).view.set = (row0 ⟨wid0 L, hw⟩).set := by
  show ((View.whole main_v1_scv).slice _).set = _
  rw [View.set_slice_whole]
  ext i
  rw [Rect.mem_set_unit, Rect.mem_set_unit, k0_off10_eq]
  refine forall_congr' fun a => ?_
  fin_cases a <;> simp [Shape.partIx, Shape.partSize, wid0]

abbrev cOut (d : Dev nD) (c : Fin τ.nSC) (i : Fin τ.nSub) : GSem nD τ sig := (V d c i, .dma cc0_scratch3.sem)
abbrev cCol (d : Dev nD) (c : Fin τ.nSC) (i : Fin τ.nSub) : GSem nD τ sig := (V d c i, .dma cc0_scoped0.sem)
abbrev cXs (d : Dev nD) (c : Fin τ.nSC) (i : Fin τ.nSub) : GSem nD τ sig := (V d c i, .dma cc0_scoped1.sem)

omit [FloatOps F] in

theorem ownSems0_V0 (d : Dev nD) (c : Fin τ.nSC) (i : Fin τ.nSub) :
    (ownSems0 (V d c i) : sProp 𝕄)
      = iprop((semVal (cOut d c i) 0 ∗ semVal (cCol d c i) 0 ∗ semVal (cXs d c i) 0)
          ∗ bigSep (ownCells (V d c i) \ {cOut d c i, cCol d c i, cXs d c i}) fun g => semVal g 0) := by
  have hsc : ∀ s : DmaSem sig, (SemLoc.dma s : SemLoc sig).isScoped .scVector = true := by decide
  have hsub : ({cOut d c i, cCol d c i, cXs d c i} : Finset (GSem nD τ sig)) ⊆ ownCells (V d c i) := by
    intro g hg
    simp only [Finset.mem_insert, Finset.mem_singleton] at hg
    rcases hg with rfl | rfl | rfl <;> exact mem_ownCells.mpr ⟨rfl, hsc _⟩
  unfold SparseCore.Cfg.ownSems0
  rw [SparseCore.bigSep_sdiff_split' hsub, SparseCore.bigSep_insert' (by simp; decide), SparseCore.bigSep_insert' (by simp; decide), bigSep_singleton]

omit [FloatOps F] in

theorem ownBufs_V0 (d : Dev nD) (c : Fin τ.nSC) (i : Fin τ.nSub) :
    (ownBufs (V d c i) : sProp 𝕄)
      = iprop(((∃ f, (V d c i).loc cc0_scratch0 ↦{fullShare} f) ∗ (∃ f, (V d c i).loc cc0_scratch1 ↦{fullShare} f)
            ∗ (∃ f, (V d c i).loc cc0_scratch2 ↦{fullShare} f))
          ∗ bigSep (ownRefs (τ := τ) (.scVector c i) \ {(Proc.scVector c i).devRef cc0_scratch0, (Proc.scVector c i).devRef cc0_scratch1,
              (Proc.scVector c i).devRef cc0_scratch2})
              fun b => iprop(∃ f, ((d, b) : Loc nD τ sig) ↦{fullShare} f)) := by
  have hsub : ({(Proc.scVector c i).devRef cc0_scratch0, (Proc.scVector c i).devRef cc0_scratch1, (Proc.scVector c i).devRef cc0_scratch2}
      : Finset (DevRef τ sig)) ⊆ ownRefs (τ := τ) (.scVector c i) := by
    intro b hb
    simp only [Finset.mem_insert, Finset.mem_singleton] at hb
    rcases hb with rfl | rfl | rfl <;> exact SparseCore.Cfg.mem_ownRefs_of_owner rfl
  have hne : ∀ {a b : Ref sig .scVector}, a ≠ b → (Proc.scVector c i).devRef a ≠ (Proc.scVector c i).devRef b :=
    fun h e => h (Proc.devRef_injective _ e)
  unfold SparseCore.Cfg.ownBufs
  rw [SparseCore.bigSep_sdiff_split' hsub,
    SparseCore.bigSep_insert' (by
      simp only [Finset.mem_insert, Finset.mem_singleton, not_or]
      exact ⟨hne (by decide), hne (by decide)⟩),
    SparseCore.bigSep_insert' (by
      simp only [Finset.mem_singleton]
      exact hne (by decide)), bigSep_singleton]

def rowVal (d : Dev nD) (L : grid0.Coords) (hw : wid0 L < 10) (xv : Buf (Elt F) (xLoc d)) (av : Buf (Elt F) (aLoc d)) :
    S1x4096.Idx → Elt F .i32 :=
  fun y => val0 d xv av (ValueIdx.ix2 (⟨wid0 L, hw⟩ : Fin 10) (y 1 : Fin 4096))

def inv0 (d : Dev nD) (L : grid0.Coords) (hw : wid0 L < 10) (xv : Buf (Elt F) (xLoc d)) (av : Buf (Elt F) (aLoc d))
    (colF : Buf (Elt F) ((V d (cV0 L) (jV0 L)).loc cc0_scratch0)) (xsF : Buf (Elt F) ((V d (cV0 L) (jV0 L)).loc cc0_scratch1))
    (t : Nat) (_ : PUnit) : sProp 𝕄 :=
  iprop(((sCol).view.loc (V d (cV0 L) (jV0 L)) ↦{fullShare} colF)
    ∗ ((sXs).view.loc (V d (cV0 L) (jV0 L)) ↦{fullShare} xsF)
    ∗ ∃ g : Buf (Elt F) ((V d (cV0 L) (jV0 L)).loc cc0_scratch2),
        ⌜∀ y : S1x4096.Idx, (y 1).val < 64 * t → g y = rowVal d L hw xv av y⌝ ∗ (sVal).view.loc (V d (cV0 L) (jV0 L)) ↦{fullShare} g)

theorem idx_inb_of_lt (v : IVec S16 32) (h : ∀ x, (v x).toNat < 100000) :
    ∀ a x, ((![v] : Fin 1 → IVec S16 32) a x).toNat < S100000.size a := by
  intro a x; obtain rfl : a = 0 := Subsingleton.elim _ _; exact h x

section Chk
variable (L : grid0.Coords) (d : Dev nD) (c : Fin τ.nSC) (i : Fin τ.nSub)
  (xsF : Buf (Elt F) ((V d c i).loc cc0_scratch1)) (h : ∀ j, (xsF j).toNat < 100000)
  (off : Fin 1 → Nat) (inb : ∀ a, off a + S16.size a ≤ S4096.size a)
include h
omit [FloatOps F] in

theorem chk1_read : k0_chk1 L ((sXs).view.readAt (Elt F) (Rect.unit (s := S4096) off S16.size inb).toLoadRect xsF) :=
  fun _ => idx_inb_of_lt _ fun _ => h _
omit [FloatOps F] in
theorem chk2_read : k0_chk2 L ((sXs).view.readAt (Elt F) (Rect.unit (s := S4096) off S16.size inb).toLoadRect xsF) :=
  fun _ => idx_inb_of_lt _ fun _ => h _
omit [FloatOps F] in
theorem chk3_read : k0_chk3 L ((sXs).view.readAt (Elt F) (Rect.unit (s := S4096) off S16.size inb).toLoadRect xsF) :=
  fun _ => idx_inb_of_lt _ fun _ => h _
omit [FloatOps F] in
theorem chk4_read : k0_chk4 L ((sXs).view.readAt (Elt F) (Rect.unit (s := S4096) off S16.size inb).toLoadRect xsF) :=
  fun _ => idx_inb_of_lt _ fun _ => h _
end Chk

abbrev aCol (L : grid0.Coords) (h : k0_cond1 L = 1#1) : Memref sig .scVector .hbm S100000 .i32 :=
  (((aV).slice (Rect.unit (s := S64x100000) (k0_off1 L) S1x100000.size (k0_off1_inb L h)) (fun _ => rfl)).slice
    (Rect.unit (s := S1x100000) ![0, 0] S1x100000.size inb_S1x100000_S1x100000_0_0) (fun _ => rfl)).squeeze S100000 squeezes_S1x100000_S100000

theorem k0_off1_p0 : ∀ L : grid0.Coords, ∀ r : Fin 10, wid0 L = r.val → k0_off1 L = ![(Cert.Spec.p0 r).val, 0] := by decide +kernel

omit [FloatOps F] in

theorem read_aCol (d : Dev nD) (L : grid0.Coords) (h : k0_cond1 L = 1#1) (hw : wid0 L < 10) (av : Buf (Elt F) (aLoc d)) (j : S100000.Idx) :
    (aCol L h).view.read (Elt F) av j = av (ix2 (Cert.Spec.p0 ⟨wid0 L, hw⟩) (j 0 : Fin 100000)) := by
  have e : (aCol L h).view.emb j = ix2 (Cert.Spec.p0 ⟨wid0 L, hw⟩) (j 0 : Fin 100000) := by
    show (Rect.unit (s := S64x100000) (k0_off1 L) S1x100000.size (k0_off1_inb L h)).emb
      ((Rect.unit (s := S1x100000) ![0, 0] S1x100000.size inb_S1x100000_S1x100000_0_0).emb (Shape.reshapeEquiv squeezes_S1x100000_S100000.numel_eq j)) = _
    rw [Shape.reshapeEquiv_cons_one]
    have e0 := k0_off1_p0 L ⟨wid0 L, hw⟩ rfl
    funext a; apply Fin.ext
    match a with
    | ⟨0, _⟩ =>
      rw [Rect.emb_apply, Rect.emb_apply]
      simp only [Rect.off_unit, Rect.stride_unit, Nat.one_mul]
      rw [e0]; rfl
    | ⟨1, _⟩ =>
      rw [Rect.emb_apply, Rect.emb_apply]
      simp only [Rect.off_unit, Rect.stride_unit, Nat.one_mul]
      rw [e0]
      show (0 : Nat) + (0 + ((j 0 : Fin 100000) : Nat)) = ((j 0 : Fin 100000) : Nat)
      omega
  rw [View.read_apply, e]; rfl

theorem chunk_val (d : Dev nD) (L : grid0.Coords) (hw : wid0 L < 10)
    (xv : Buf (Elt F) (xLoc d)) (av : Buf (Elt F) (aLoc d))
    (colF : Buf (Elt F) ((V d (cV0 L) (jV0 L)).loc cc0_scratch0)) (xsF : Buf (Elt F) ((V d (cV0 L) (jV0 L)).loc cc0_scratch1))
    (hcol : ∀ j : S100000.Idx, colF j = av (ix2 (Cert.Spec.p0 ⟨wid0 L, hw⟩) (j 0 : Fin 100000)))
    (hxs : ∀ n : S4096.Idx, xsF n = xv n) (hx : ∀ i, (xv i).toNat < 100000)
    (o : Nat) (off1 : Fin 1 → Nat) (off2 : Fin 2 → Nat) (inb1 : ∀ a, off1 a + S16.size a ≤ S4096.size a)
    (inb2 : ∀ a, off2 a + S1x16.size a ≤ S1x4096.size a) (e1 : off1 = ![o]) (e2 : off2 = ![0, o])
    (h : ∀ a x, ((![(sXs).view.readAt (Elt F) (Rect.unit (s := S4096) off1 S16.size inb1).toLoadRect xsF] : Fin 1 → IVec S16 32) a x).toNat
      < S100000.size a)
    (x : S1x16.Idx) :
    shapeCast S1x16 (loadIdx (View.read (Elt F) ((sCol).access (Rect.whole S100000)) colF)
        ![(sXs).view.readAt (Elt F) (Rect.unit (s := S4096) off1 S16.size inb1).toLoadRect xsF] h) shapeCasts_S16_S1x16 x
      = rowVal d L hw xv av ((Rect.unit (s := S1x4096) off2 S1x16.size inb2).emb x) := by
  subst e1 e2
  obtain ⟨u, i, rfl⟩ : ∃ (u : Fin 1) (i : Fin 16), x = ix2 u i := ⟨x 0, x 1, eq_ix2 x⟩
  rw [shapeCast_a_1a_apply]
  show View.read (Elt F) ((Memref.whole (cc0_scratch0 : Ref sig .scVector)).access (Rect.whole _)) colF (idxAt _ h (ix1 i)) = _
  rw [Memref.read_access_whole, hcol]
  show _ = av (ix2 (Cert.Spec.p0 ⟨wid0 L, hw⟩) (Cert.Spec.rowOf (xv (ix1 _))))
  congr 2
  apply Fin.ext
  rw [Cert.Spec.rowOf_val_of_lt (hx _)]
  show ((sXs).view.readAt (Elt F) (Rect.unit (s := S4096) ![o] S16.size inb1).toLoadRect xsF (ix1 i)).toNat = _
  rw [View.readAt_apply]
  show (xsF _).toNat = _
  rw [hxs]
  congr 2
  funext a
  match a with
  | ⟨0, _⟩ => apply Fin.ext; rfl

theorem trips0 : k0_t1_loop.trips = 64 := by decide

omit [FloatOps F] in

theorem mem_piece (off : Fin 2 → Nat) (inb : ∀ a, off a + S1x16.size a ≤ S1x4096.size a) (o : Nat) (e : off = ![0, o]) (y : S1x4096.Idx) :
    y ∈ (Rect.unit (s := S1x4096) off S1x16.size inb).set ↔ o ≤ (y 1).val ∧ (y 1).val < o + 16 := by
  subst e
  rw [Rect.mem_set_unit]
  constructor
  · intro h; exact h 1
  · intro h a
    match a with
    | ⟨0, _⟩ => exact ⟨Nat.zero_le _, by have h0 : (y 0).val < 1 := (y 0).isLt; show (y 0).val < 0 + 1; omega⟩
    | ⟨1, _⟩ => exact h

omit [FloatOps F] in

theorem read_sVal (d : Dev nD) (c : Fin τ.nSC) (i : Fin τ.nSub) (f : Buf (Elt F) ((V d c i).loc cc0_scratch2)) (y : S1x4096.Idx) :
    (sVal).view.read (Elt F) f y = f y := rfl

omit [FloatOps F] in

theorem emb_oRow (L : grid0.Coords) (h : k0_cond1 L = 1#1) (hw : wid0 L < 10) (y : S1x4096.Idx) :
    (oRow L h).view.emb y = ix2 (⟨wid0 L, hw⟩ : Fin 10) (y 1 : Fin 4096) := by
  show (Rect.unit (s := S10x4096) (k0_off10 L) S1x4096.size (k0_off10_inb L h)).emb y = _
  have e0 := k0_off10_eq L
  have h0 : (y 0).val < 1 := (y 0).isLt
  funext a; apply Fin.ext
  match a with
  | ⟨0, _⟩ =>
    rw [Rect.emb_apply]
    simp only [Rect.off_unit, Rect.stride_unit, Nat.one_mul]
    have e1 : k0_off10 L 0 = 2 * (L 1).val + (L 0).val := congrFun e0 0
    show k0_off10 L 0 + (y 0).val = wid0 L
    rw [e1]; unfold wid0; omega
  | ⟨1, _⟩ =>
    rw [Rect.emb_apply]
    simp only [Rect.off_unit, Rect.stride_unit, Nat.one_mul]
    have e1 : k0_off10 L 1 = 0 := congrFun e0 1
    show k0_off10 L 1 + (y 1).val = (y 1).val
    rw [e1]; omega

theorem out_congr (d : Dev nD) (L : grid0.Coords) (h : k0_cond1 L = 1#1) (hw : wid0 L < 10)
    (xv : Buf (Elt F) (xLoc d)) (av : Buf (Elt F) (aLoc d)) (f : Buf (Elt F) (o0Loc d))
    (w : S1x4096.Idx → Elt F .i32) (hw' : ∀ y : S1x4096.Idx, w y = rowVal d L hw xv av y) :
    ∀ i ∈ (oRow L h).view.set, (oRow L h).view.writes (Elt F) f [⟨Rect.whole S1x4096, w⟩] i = val0 d xv av i := by
  intro i hi
  obtain ⟨y, -, rfl⟩ := Finset.mem_map.mp hi
  have e := View.read_writes_cons_emb (oRow L h).view f (Rect.whole S1x4096) w [] y
  rw [Rect.emb_whole_apply, View.read_apply, cast_eq] at e
  rw [e, hw' y, emb_oRow L h hw y]
  rfl

set_option maxHeartbeats 4000000 in

theorem trip0 (d : Dev nD) (L : grid0.Coords) (hw : wid0 L < 10) (k0_h1 : k0_cond1 L = 1#1)
    (xv : Buf (Elt F) (xLoc d)) (av : Buf (Elt F) (aLoc d))
    (colF : Buf (Elt F) ((V d (cV0 L) (jV0 L)).loc cc0_scratch0)) (xsF : Buf (Elt F) ((V d (cV0 L) (jV0 L)).loc cc0_scratch1))
    (hcol : ∀ j : S100000.Idx, colF j = av (ix2 (Cert.Spec.p0 ⟨wid0 L, hw⟩) (j 0 : Fin 100000)))
    (hxs : ∀ n : S4096.Idx, xsF n = xv n) (hx : ∀ i, (xv i).toNat < 100000)
    (t : Fin k0_t1_loop.trips) (acc : PUnit) :
    inv0 d L hw xv av colF xsF t.val acc
      ⊢ wp frame (wpE (defs₀ (F := F)) 𝒱₀ (V d (cV0 L) (jV0 L)) none) Set.univ
          (k0_t1_body L aV (Memref.isWhole_whole _) xV (Memref.isWhole_whole _) oV (Memref.isWhole_whole _)
            sCol (Memref.isWhole_whole _) sXs (Memref.isWhole_whole _) sVal (Memref.isWhole_whole _)
            cc0_scratch3 cc0_scoped0 cc0_scoped1 k0_h1 t acc)
          (inv0 d L hw xv av colF xsF (t.val + 1)) := by
  have hxsl : ∀ i, (xsF i).toNat < 100000 := fun i => (hxs i) ▸ hx i
  have ecol : ((sCol).view.loc (V d (cV0 L) (jV0 L)) ↦{fullShare} colF : sProp 𝕄)
      = ((sCol).access (.whole S100000)).loc (V d (cV0 L) (jV0 L)) ↦{fullShare} colF := rfl
  unfold k0_t1_body
  unfold inv0
  iintro ⟨Hc, Hxs, %g, %hg, Hv⟩
  sl_exec (disch := first | sl_exact chk1_read L d _ _ xsF hxsl _ _ | sl_exact chk2_read L d _ _ xsF hxsl _ _ | sl_exact chk3_read L d _ _ xsF hxsl _ _ | sl_exact chk4_read L d _ _ xsF hxsl _ _)
  ihave Hc := (Entails.of_eq ecol) $$ Hc
  iapply (SparseCore.wp_vectorLoadIdx 𝒱₀ (V d (cV0 L) (jV0 L)) none Set.univ (base := sCol) (S := Finset.univ) (q := fullShare) (Finset.subset_univ _)) $$ Hc; iintro Hc
  ihave Hc := (Entails.of_eq ecol.symm) $$ Hc
  sl_exec (disch := first | sl_exact chk1_read L d _ _ xsF hxsl _ _ | sl_exact chk2_read L d _ _ xsF hxsl _ _ | sl_exact chk3_read L d _ _ xsF hxsl _ _ | sl_exact chk4_read L d _ _ xsF hxsl _ _)
  ihave Hc := (Entails.of_eq ecol) $$ Hc
  iapply (SparseCore.wp_vectorLoadIdx 𝒱₀ (V d (cV0 L) (jV0 L)) none Set.univ (base := sCol) (S := Finset.univ) (q := fullShare) (Finset.subset_univ _)) $$ Hc; iintro Hc
  ihave Hc := (Entails.of_eq ecol.symm) $$ Hc
  sl_exec (disch := first | sl_exact chk1_read L d _ _ xsF hxsl _ _ | sl_exact chk2_read L d _ _ xsF hxsl _ _ | sl_exact chk3_read L d _ _ xsF hxsl _ _ | sl_exact chk4_read L d _ _ xsF hxsl _ _)
  ihave Hc := (Entails.of_eq ecol) $$ Hc
  iapply (SparseCore.wp_vectorLoadIdx 𝒱₀ (V d (cV0 L) (jV0 L)) none Set.univ (base := sCol) (S := Finset.univ) (q := fullShare) (Finset.subset_univ _)) $$ Hc; iintro Hc
  ihave Hc := (Entails.of_eq ecol.symm) $$ Hc
  sl_exec (disch := first | sl_exact chk1_read L d _ _ xsF hxsl _ _ | sl_exact chk2_read L d _ _ xsF hxsl _ _ | sl_exact chk3_read L d _ _ xsF hxsl _ _ | sl_exact chk4_read L d _ _ xsF hxsl _ _)
  ihave Hc := (Entails.of_eq ecol) $$ Hc
  iapply (SparseCore.wp_vectorLoadIdx 𝒱₀ (V d (cV0 L) (jV0 L)) none Set.univ (base := sCol) (S := Finset.univ) (q := fullShare) (Finset.subset_univ _)) $$ Hc; iintro Hc
  ihave Hc := (Entails.of_eq ecol.symm) $$ Hc
  sl_exec (disch := first | sl_exact chk1_read L d _ _ xsF hxsl _ _ | sl_exact chk2_read L d _ _ xsF hxsl _ _ | sl_exact chk3_read L d _ _ xsF hxsl _ _ | sl_exact chk4_read L d _ _ xsF hxsl _ _)
  sl_step
  isplitl [Hc]; · iexact Hc
  isplitl [Hxs]; · iexact Hxs
  iexists _; isplitr
  swap; · iexact Hv
  ipureintro
  intro y hy
  refine (read_sVal d (cV0 L) (jV0 L) _ y).symm.trans ?_
  by_cases hlt : (y 1).val < 64 * t.val
  · refine (View.read_writes_apply_of_forall_not_mem (sVal).view g y _ ?_).trans (hg y hlt)
    intro p hp
    rcases List.mem_cons.mp hp with rfl | hp
    · rw [mem_piece _ _ _ (k0_off9_eq t)]; omega
    rcases List.mem_cons.mp hp with rfl | hp
    · rw [mem_piece _ _ _ (k0_off7_eq t)]; omega
    rcases List.mem_cons.mp hp with rfl | hp
    · rw [mem_piece _ _ _ (k0_off5_eq t)]; omega
    rcases List.mem_cons.mp hp with rfl | hp
    · rw [mem_piece _ _ _ (k0_off3_eq t)]; omega
    exact absurd hp List.not_mem_nil
  · refine View.read_writes_apply_of_pieces (sVal).view g (rowVal d L hw xv av) _ ?_ y ?_
    · intro p hp
      rcases List.mem_cons.mp hp with rfl | hp
      · intro x
        exact chunk_val d L hw xv av colF xsF hcol hxs hx (64 * t.val + 48) _ _ (k0_off8_inb L t k0_h1) (k0_off9_inb L t k0_h1)
          (k0_off8_eq t) (k0_off9_eq t) (idx_inb_of_lt _ fun _ => hxsl _) x
      rcases List.mem_cons.mp hp with rfl | hp
      · intro x
        exact chunk_val d L hw xv av colF xsF hcol hxs hx (64 * t.val + 32) _ _ (k0_off6_inb L t k0_h1) (k0_off7_inb L t k0_h1)
          (k0_off6_eq t) (k0_off7_eq t) (idx_inb_of_lt _ fun _ => hxsl _) x
      rcases List.mem_cons.mp hp with rfl | hp
      · intro x
        exact chunk_val d L hw xv av colF xsF hcol hxs hx (64 * t.val + 16) _ _ (k0_off4_inb L t k0_h1) (k0_off5_inb L t k0_h1)
          (k0_off4_eq t) (k0_off5_eq t) (idx_inb_of_lt _ fun _ => hxsl _) x
      rcases List.mem_cons.mp hp with rfl | hp
      · intro x
        exact chunk_val d L hw xv av colF xsF hcol hxs hx (64 * t.val) _ _ (k0_off2_inb L t k0_h1) (k0_off3_inb L t k0_h1)
          (k0_off2_eq t) (k0_off3_eq t) (idx_inb_of_lt _ fun _ => hxsl _) x
      exact absurd hp List.not_mem_nil
    · by_cases h3 : 64 * t.val + 48 ≤ (y 1).val
      · exact ⟨_, List.mem_cons_self, (mem_piece _ (k0_off9_inb L t k0_h1) _ (k0_off9_eq t) y).mpr ⟨h3, by omega⟩⟩
      by_cases h2 : 64 * t.val + 32 ≤ (y 1).val
      · exact ⟨_, List.mem_cons_of_mem _ List.mem_cons_self, (mem_piece _ (k0_off7_inb L t k0_h1) _ (k0_off7_eq t) y).mpr ⟨h2, by omega⟩⟩
      by_cases h1 : 64 * t.val + 16 ≤ (y 1).val
      · exact ⟨_, List.mem_cons_of_mem _ (List.mem_cons_of_mem _ List.mem_cons_self), (mem_piece _ (k0_off5_inb L t k0_h1) _ (k0_off5_eq t) y).mpr ⟨h1, by omega⟩⟩
      · exact ⟨_, List.mem_cons_of_mem _ (List.mem_cons_of_mem _ (List.mem_cons_of_mem _ List.mem_cons_self)),
          (mem_piece _ (k0_off3_inb L t k0_h1) _ (k0_off3_eq t) y).mpr ⟨by omega, by omega⟩⟩

end Body0

open Body0

theorem tile_body0 (hF : (K (F := F)).Facts) (d : Dev nD) (L : grid0.Coords) (q : PosShare TreeShare)
    (xv : Buf (Elt F) (xLoc d)) (av : Buf (Elt F) (aLoc d)) (f : Buf (Elt F) (o0Loc d))
    (hx : ∀ i, (xv i).toNat < 100000)
    (O : CellTallies nD τ sig (HIx 2)) (W : Waits sig (HIx 2)) (hO : ∀ g, O g none = 0) :
    iprop(levAts (K (F := F)).L (K (F := F)).lev ∗ emp ∗ res0 d L q xv av f
        ∗ scopedBufs (V d (cV0 L) (jV0 L)) ∗ scopedSems0 (V d (cV0 L) (jV0 L)) ∗ owes (V d (cV0 L) (jV0 L)) O W)
      ⊢ wp frame (wpE (defs₀ (F := F)) 𝒱₀ (V d (cV0 L) (jV0 L)) none) Set.univ
          (cc0__hop0_kernel L (Memref.whole main_v0_scv) (Memref.isWhole_whole _) (Memref.whole main_arg0_scv) (Memref.isWhole_whole _)
            (Memref.whole main_v1_scv) (Memref.isWhole_whole _) (Memref.whole cc0_scratch0) (Memref.isWhole_whole _)
            (Memref.whole cc0_scratch1) (Memref.isWhole_whole _) (Memref.whole cc0_scratch2) (Memref.isWhole_whole _)
            cc0_scratch3 cc0_scoped0 cc0_scoped1)
          fun _ => iprop(res0 d L q xv av (val0 d xv av) ∗ scopedBufs (V d (cV0 L) (jV0 L)) ∗ scopedSems0 (V d (cV0 L) (jV0 L))
            ∗ ∃ W', ⌜∀ p ∈ W', p ∈ W ∨ p.2 = none⌝ ∗ owes (V d (cV0 L) (jV0 L)) O W') := by
  by_cases hw : wid0 L < 10
  · have k0_h1 : k0_cond1 L = 1#1 := (k0_cond1_iff L).2 hw
    simp only [cc0__hop0_kernel_eq_skeleton]; unfold cc0__hop0_kernel_skel
    rw [(K (F := F)).scopedBufs_V hF d (cV0 L) (jV0 L), SparseCore.Cfg.scopedSems0_V (Val := Elt F) d (cV0 L) (jV0 L), ownSems0_V0, ownBufs_V0]
    unfold res0
    rw [own0_of_lt hw, ← set_oRow L k0_h1 hw]
    iintro ⟨#Hlv, -, ⟨Hx, Ha, Ho⟩, ⟨⟨⟨%fc, Hc⟩, ⟨%fxs, Hxs⟩, ⟨%fv, Hv⟩⟩, Hbufs⟩, ⟨⟨HsemO, HsemC, HsemX⟩, Hsems⟩, HO⟩
    ihave Hmw := (show levAts (K (F := F)).L (K (F := F)).lev ⊢ Transfers.MayWaits (V d (cV0 L) (jV0 L)) (default : HIx 2) O from
      (K (F := F)).mayWaits_none (thr := V d (cV0 L) (jV0 L)) hO) $$ Hlv
    ihave Hx' := (Entails.of_eq (show (xLoc d ↦{q} xv : sProp 𝕄) = (xV).view.loc (V d (cV0 L) (jV0 L)) ↦{q} xv from rfl)) $$ Hx
    ihave Ha' := (Entails.of_eq (show (aLoc d ↦{q} av : sProp 𝕄) = (aV).view.loc (V d (cV0 L) (jV0 L)) ↦{q} av from rfl)) $$ Ha
    ihave Ho' := (Entails.of_eq (show (o0Loc d ↦[(oRow L k0_h1).view.set]{fullShare} f : sProp 𝕄)
        = (oRow L k0_h1).view.loc (V d (cV0 L) (jV0 L)) ↦[(oRow L k0_h1).view.set]{fullShare} f from rfl)) $$ Ho
    ihave Hc' := (Entails.of_eq (show ((V d (cV0 L) (jV0 L)).loc cc0_scratch0 ↦{fullShare} fc : sProp 𝕄) = (sCol).view.loc (V d (cV0 L) (jV0 L)) ↦{fullShare} fc from rfl)) $$ Hc
    ihave Hxs' := (Entails.of_eq (show ((V d (cV0 L) (jV0 L)).loc cc0_scratch1 ↦{fullShare} fxs : sProp 𝕄) = (sXs).view.loc (V d (cV0 L) (jV0 L)) ↦{fullShare} fxs from rfl)) $$ Hxs
    ihave Hv' := (Entails.of_eq (show ((V d (cV0 L) (jV0 L)).loc cc0_scratch2 ↦{fullShare} fv : sProp 𝕄) = (sVal).view.loc (V d (cV0 L) (jV0 L)) ↦{fullShare} fv from rfl)) $$ Hv
    sl_exec
    have hcol : ∀ j : S100000.Idx, View.write (Elt F) (sCol).view fc (tile_body0.sl.dma0 d L av k0_h1) Finset.univ j
        = av (ix2 (Cert.Spec.p0 ⟨wid0 L, hw⟩) (j 0 : Fin 100000)) := fun j =>
      (congrFun (View.write_whole_univ (Val := Elt F) (cc0_scratch0 : Ref sig .scVector) fc (tile_body0.sl.dma0 d L av k0_h1)) j).trans
        (read_aCol d L k0_h1 hw av j)
    have hxsv : ∀ n : S4096.Idx, View.write (Elt F) (sXs).view fxs (tile_body0.sl.dma0_1 d xv) Finset.univ n = xv n := fun n =>
      congrFun (View.write_whole_univ (Val := Elt F) (cc0_scratch1 : Ref sig .scVector) fxs (tile_body0.sl.dma0_1 d xv)) n
    sl_for (inv0 d L hw xv av (View.write (Elt F) (sCol).view fc (tile_body0.sl.dma0 d L av k0_h1) Finset.univ)
      (View.write (Elt F) (sXs).view fxs (tile_body0.sl.dma0_1 d xv) Finset.univ)) $$ [Hc' Hxs' Hv']
    case region =>
      intro t acc
      exact trip0 d L hw k0_h1 xv av _ _ hcol hxsv hx t acc
    · unfold inv0
      isplitl [Hc']; · iexact Hc'
      isplitl [Hxs']; · iexact Hxs'
      iexists fv; isplitr
      · ipureintro; intro y hy; omega
      · iexact Hv'
    iintro %_ HI
    unfold inv0
    icases HI with ⟨Hc, Hxs, %g, %hg, Hv⟩
    sl_exec
    sl_step
    have hg' : ∀ y : S1x4096.Idx, tile_body0.sl.dma0_2 d L g y = rowVal d L hw xv av y := fun y => hg y (by
      show (y 1).val < 64 * k0_t1_loop.trips
      have h1 : (y 1).val < 4096 := (y 1).isLt
      rw [trips0]; omega)
    isplitl [Hx' Ha' Ho']
    · isplitl [Hx']; · iexact Hx'
      isplitl [Ha']; · iexact Ha'
      ihave Ho2 := (Entails.of_eq (pointsTo_congr (ℓ := (oRow L k0_h1).view.loc (V d (cV0 L) (jV0 L))) (q := fullShare)
        (out_congr d L k0_h1 hw xv av f _ hg'))) $$ Ho'
      iexact Ho2
    isplitl [Hc Hxs Hv Hbufs]
    · isplitl [Hc Hxs Hv]
      · isplitl [Hc]; · iexists _; iexact Hc
        isplitl [Hxs]; · iexists _; iexact Hxs
        iexists _; iexact Hv
      · iexact Hbufs
    isplitl [HsemO HsemC HsemX Hsems]
    · isplitl [HsemO HsemC HsemX]
      · isplitl [HsemO]; · iexact HsemO
        isplitl [HsemC]; · iexact HsemC
        iexact HsemX
      · iexact Hsems
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact .inl hp
  · have k0_h1 : ¬ k0_cond1 L = 1#1 := fun h => hw ((k0_cond1_iff L).1 h)
    simp only [cc0__hop0_kernel_eq_skeleton]; unfold cc0__hop0_kernel_skel
    unfold res0
    simp only [own0_of_not_lt hw, pointsTo_empty]
    iintro ⟨-, -, ⟨Hx, Ha, Ho⟩, Hsb, Hss, HO⟩
    sl_exec
    sl_step
    isplitl [Hx Ha Ho]
    · isplitl [Hx]; · iexact Hx
      isplitl [Ha]; · iexact Ha
      iexact Ho
    isplitl [Hsb]; · iexact Hsb
    isplitl [Hss]; · iexact Hss
    iexists W; isplitr
    · ipureintro; exact fun p hp => .inl hp
    · iexact HO

end Cert.Proof.K

end
-- ==== Proof.K.Body1A.lean ====
/- The two lane vectors the second stage's loop carries, in closed form. -/
import proofs.«215163_g69475390980333_cont_9to1_m_779_28_alg».proof.Proof.K.Common

noncomputable section

namespace Cert.Proof.K

open Cert.Kernel Cert.Kernel.Gen Idealize.ShloMosaic

def lane (x : S16.Idx) : ℕ := (x 0).val

def jvec (t : ℕ) : IVec S16 32 := fun x => BitVec.ofNat 32 ((16 * t + lane x) % 10)

def dvec (t : ℕ) : IVec S16 32 := fun x => BitVec.ofNat 32 ((16 * t + lane x) / 10)

theorem lane_lt (x : S16.Idx) : lane x < 16 := (x 0).isLt

theorem sge_ten (n : ℕ) (hn : n < 2 ^ 31) :
    IntOp.cmpi .sge (BitVec.ofNat 32 n) 10#32 = BitVec.ofBool (decide (10 ≤ n)) := by
  unfold IntOp.cmpi
  simp only
  congr 1
  rw [BitVec.sle]
  have h1 : (BitVec.ofNat 32 n).toInt = (n : Int) := by
    rw [BitVec.toInt_eq_toNat_of_lt] <;> simp [BitVec.toNat_ofNat] <;> omega
  have h2 : (10#32).toInt = 10 := by decide
  rw [h1, h2]
  congr 1
  exact propext (by omega)

theorem carry_ten (n : ℕ) (hn : n < 2 ^ 31) :
    (IntOp.cmpi .sge (BitVec.ofNat 32 n) 10#32).setWidth 32 = BitVec.ofNat 32 (if 10 ≤ n then 1 else 0) := by
  rw [sge_ten n hn]
  by_cases h : 10 ≤ n
  · simp only [h, decide_true, if_true]; rfl
  · simp only [h, decide_false, if_false]; rfl

theorem wrap_ten (n : ℕ) (hn : n < 2 ^ 31) :
    IntOp.subi (BitVec.ofNat 32 n) (IntOp.muli 10#32 ((IntOp.cmpi .sge (BitVec.ofNat 32 n) 10#32).setWidth 32))
      = BitVec.ofNat 32 (if 10 ≤ n then n - 10 else n) := by
  rw [carry_ten n hn]
  unfold IntOp.subi IntOp.muli
  by_cases h : 10 ≤ n
  · simp only [h, if_true]
    apply BitVec.eq_of_toNat_eq
    rw [BitVec.toNat_sub, BitVec.toNat_mul]
    simp only [BitVec.toNat_ofNat]
    omega
  · simp only [h, if_false]
    apply BitVec.eq_of_toNat_eq
    rw [BitVec.toNat_sub, BitVec.toNat_mul]
    simp only [BitVec.toNat_ofNat]
    omega

theorem iota_lane (x : S16.Idx) :
    iota .scVector S16 32 [0] iota_S16_d0_w32_scVector x = BitVec.ofNat 32 (lane x) := by
  unfold iota lane
  simp

theorem lanes_init_j : k1_pay1 (iota .scVector S16 32 [0] iota_S16_d0_w32_scVector) = jvec 0 := by
  funext x
  have hl := lane_lt x
  show IntOp.subi (iota .scVector S16 32 [0] iota_S16_d0_w32_scVector x)
      (IntOp.muli 10#32 ((IntOp.cmpi .sge (iota .scVector S16 32 [0] iota_S16_d0_w32_scVector x) 10#32).setWidth 32))
    = BitVec.ofNat 32 ((16 * 0 + lane x) % 10)
  rw [iota_lane, wrap_ten _ (by omega)]
  congr 1
  split <;> omega

theorem lanes_init_d : k1_pay2 (iota .scVector S16 32 [0] iota_S16_d0_w32_scVector) = dvec 0 := by
  funext x
  have hl := lane_lt x
  show (IntOp.cmpi .sge (iota .scVector S16 32 [0] iota_S16_d0_w32_scVector x) 10#32).setWidth 32
    = BitVec.ofNat 32 ((16 * 0 + lane x) / 10)
  rw [iota_lane, carry_ten _ (by omega)]
  congr 1
  split <;> omega

theorem pay3_jvec (t : ℕ) (x : S16.Idx) :
    k1_pay3 (jvec t) x = BitVec.ofNat 32 ((16 * t + lane x) % 10 + 6) := by
  show IntOp.addi (BitVec.ofNat 32 ((16 * t + lane x) % 10)) 6#32 = _
  unfold IntOp.addi
  rw [BitVec.ofNat_add]

theorem pay4_jvec (t : ℕ) (x : S16.Idx) :
    k1_pay4 (jvec t) x = BitVec.ofNat 32 (if 10 ≤ (16 * t + lane x) % 10 + 6 then 1 else 0) := by
  show (IntOp.cmpi .sge (k1_pay3 (jvec t) x) 10#32).setWidth 32 = _
  rw [pay3_jvec, carry_ten _ (by omega)]

theorem lanes_step_j (t : ℕ) (ht : t < 320) : k1_pay5 (jvec t) = jvec (t + 1) := by
  funext x
  have hl := lane_lt x
  show IntOp.subi (k1_pay3 (jvec t) x) (IntOp.muli 10#32 ((IntOp.cmpi .sge (k1_pay3 (jvec t) x) 10#32).setWidth 32))
    = BitVec.ofNat 32 ((16 * (t + 1) + lane x) % 10)
  rw [pay3_jvec, wrap_ten _ (by omega)]
  congr 1
  split <;> omega

theorem lanes_step_d (t : ℕ) (ht : t < 320) : k1_pay6 (jvec t) (dvec t) = dvec (t + 1) := by
  funext x
  have hl := lane_lt x
  show IntOp.addi (IntOp.addi (BitVec.ofNat 32 ((16 * t + lane x) / 10)) 1#32) (k1_pay4 (jvec t) x)
    = BitVec.ofNat 32 ((16 * (t + 1) + lane x) / 10)
  rw [pay4_jvec]
  unfold IntOp.addi
  rw [← BitVec.ofNat_add, ← BitVec.ofNat_add]
  congr 1
  split <;> omega

theorem lanes_inb (t : ℕ) (ht : t < 320) : ∀ a x, ((![jvec t, dvec t] : Fin 2 → IVec S16 32) a x).toNat < S10x512.size a := by
  intro a x
  have hl := lane_lt x
  fin_cases a
  · show (BitVec.ofNat 32 ((16 * t + lane x) % 10)).toNat < 10
    rw [BitVec.toNat_ofNat]
    omega
  · show (BitVec.ofNat 32 ((16 * t + lane x) / 10)).toNat < 512
    have hq : (16 * t + lane x) / 10 < 512 := by omega
    rw [BitVec.toNat_ofNat, Nat.mod_eq_of_lt (by omega)]
    exact hq

end Cert.Proof.K
-- ==== Proof.K.Body1B.lean ====
/- Second stage: the copied column and the copied slab of indices as functions of the inputs, and what one gather loads. -/
import proofs.«215163_g69475390980333_cont_9to1_m_779_28_alg».proof.Proof.K.Body1A

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 2) (Elt F) ℕ UU ℕ

abbrev aM : Memref sig .scVector .hbm S64x100000 .i32 := Memref.whole main_v0_scv
abbrev hM : Memref sig .scVector .hbm S10x4096 .i32 := Memref.whole main_v1_scv
abbrev oM : Memref sig .scVector .hbm S25x40960 .i32 := Memref.whole main_v2_scv

abbrev colSrc (L : grid1.Coords) (k1_h1 : k1_cond1 L = 1#1) : Memref sig .scVector .hbm S100000 .i32 :=
  ((aM.slice (Rect.unit (s := S64x100000) (k1_off1 L) S1x100000.size (k1_off1_inb L k1_h1)) (fun _ => rfl)).slice
    (Rect.unit (s := S1x100000) ![0, 0] S1x100000.size inb_S1x100000_S1x100000_0_0) (fun _ => rfl)).squeeze S100000 squeezes_S1x100000_S100000

theorem slab_inb (s : ℕ) (hs : s < 8) : ∀ a, (![0, 512 * s] : Fin 2 → ℕ) a + S10x512.size a ≤ S10x4096.size a := by
  intro a
  fin_cases a
  · show 0 + 10 ≤ 10
    omega
  · show 512 * s + 512 ≤ 4096
    omega

abbrev slabSrc (s : ℕ) (hs : s < 8) : Memref sig .scVector .hbm S10x512 .i32 :=
  hM.slice (Rect.unit (s := S10x4096) ![0, 512 * s] S10x512.size (slab_inb s hs)) (fun _ => rfl)

def colC (d : Dev nD) (L : grid1.Coords) (k1_h1 : k1_cond1 L = 1#1) (av : Buf (Elt F) (aLoc d)) : Vec F S100000 .i32 :=
  (colSrc L k1_h1).view.read (Elt F) av
def idxC (d : Dev nD) (s : ℕ) (hs : s < 8) (h0 : Buf (Elt F) (o0Loc d)) : Vec F S10x512 .i32 :=
  (slabSrc s hs).view.read (Elt F) h0

theorem idxC_apply (d : Dev nD) (s : ℕ) (hs : s < 8) (h0 : Buf (Elt F) (o0Loc d)) (i : S10x512.Idx) :
    idxC d s hs h0 i
      = h0 (ix2 (⟨(i 0).val, (i 0).isLt⟩ : Fin 10) (⟨512 * s + (i 1).val, by have := (i 1).isLt; change (i 1).val < 512 at this; omega⟩ : Fin 4096)) := by
  show h0 ((slabSrc s hs).view.emb i) = _
  congr 1
  funext a
  match a with
  | ⟨0, _⟩ => exact Fin.ext (show 0 + 1 * (i 0).val = (i 0).val by omega)
  | ⟨1, _⟩ => exact Fin.ext (show 512 * s + 1 * (i 1).val = 512 * s + (i 1).val by omega)

theorem gather_inb (d : Dev nD) (h0 : Buf (Elt F) (o0Loc d)) (hh : ∀ i, (h0 i).toNat < 100000) (s : ℕ) (hs : s < 8) (t : ℕ)
    (h1 : ∀ a x, ((![jvec t, dvec t] : Fin 2 → IVec S16 32) a x).toNat < S10x512.size a) :
    ∀ a x, ((![loadIdx (idxC d s hs h0) ![jvec t, dvec t] h1] : Fin 1 → IVec S16 32) a x).toNat < S100000.size a := by
  intro a x
  fin_cases a
  show (idxC d s hs h0 (idxAt ![jvec t, dvec t] h1 x)).toNat < 100000
  rw [idxC_apply]
  exact hh _

theorem off1_eq (L : grid1.Coords) (hw : wid1 L < 25) : k1_off1 L = ![(Cert.Spec.p1 ⟨wid1 L, hw⟩).val, 0] := by
  revert hw
  unfold wid1
  revert L
  decide +kernel

theorem colC_apply (d : Dev nD) (L : grid1.Coords) (hw : wid1 L < 25) (k1_h1 : k1_cond1 L = 1#1) (av : Buf (Elt F) (aLoc d))
    (i : S100000.Idx) :
    colC d L k1_h1 av i = av (ix2 (Cert.Spec.p1 ⟨wid1 L, hw⟩) (⟨(i 0).val, (i 0).isLt⟩ : Fin 100000)) := by
  show av ((colSrc L k1_h1).view.emb i) = _
  congr 1
  have hre : Shape.reshapeEquiv (s := S1x100000) (s' := S100000) squeezes_S1x100000_S100000.numel_eq i
      = Fin.cons ⟨0, Nat.one_pos⟩ i :=
    Shape.reshapeEquiv_cons_one (n := 1) (d := ![100000]) _ i
  funext a
  match a with
  | ⟨0, _⟩ =>
    apply Fin.ext
    show k1_off1 L 0 + 1 * (0 + 1 * ((Shape.reshapeEquiv (s := S1x100000) (s' := S100000) squeezes_S1x100000_S100000.numel_eq i) 0).val) = _
    rw [hre, off1_eq L hw]
    simp
    rfl
  | ⟨1, _⟩ =>
    apply Fin.ext
    show k1_off1 L 1 + 1 * (0 + 1 * ((Shape.reshapeEquiv (s := S1x100000) (s' := S100000) squeezes_S1x100000_S100000.numel_eq i) 1).val) = _
    rw [hre, off1_eq L hw]
    simp
    rfl

theorem gather_val (d : Dev nD) (L : grid1.Coords) (hw : wid1 L < 25) (k1_h1 : k1_cond1 L = 1#1)
    (av : Buf (Elt F) (aLoc d)) (h0 : Buf (Elt F) (o0Loc d)) (hh : ∀ i, (h0 i).toNat < 100000)
    (s : ℕ) (hs : s < 8) (t : ℕ) (ht : t < 320)
    (h1 : ∀ a x, ((![jvec t, dvec t] : Fin 2 → IVec S16 32) a x).toNat < S10x512.size a)
    (h2 : ∀ a x, ((![loadIdx (idxC d s hs h0) ![jvec t, dvec t] h1] : Fin 1 → IVec S16 32) a x).toNat < S100000.size a)
    (x : S16.Idx) (hN : 5120 * s + (16 * t + lane x) < 40960) :
    loadIdx (colC d L k1_h1 av) ![loadIdx (idxC d s hs h0) ![jvec t, dvec t] h1] h2 x
      = val1 d h0 av (ix2 (⟨wid1 L, hw⟩ : Fin 25) (⟨5120 * s + (16 * t + lane x), hN⟩ : Fin 40960)) := by
  have hl := lane_lt x

  have hidx : idxC d s hs h0 (idxAt ![jvec t, dvec t] h1 x)
      = h0 (ix2 (Cert.Spec.colOf ⟨5120 * s + (16 * t + lane x), hN⟩) (Cert.Spec.rowIn ⟨5120 * s + (16 * t + lane x), hN⟩)) := by
    rw [idxC_apply]
    congr 1
    funext a
    match a with
    | ⟨0, _⟩ =>
      apply Fin.ext
      show (BitVec.ofNat 32 ((16 * t + lane x) % 10)).toNat = (5120 * s + (16 * t + lane x)) % 10
      rw [BitVec.toNat_ofNat, Nat.mod_eq_of_lt (by omega)]
      omega
    | ⟨1, _⟩ =>
      apply Fin.ext
      show 512 * s + (BitVec.ofNat 32 ((16 * t + lane x) / 10)).toNat = (5120 * s + (16 * t + lane x)) / 10
      rw [BitVec.toNat_ofNat, Nat.mod_eq_of_lt (by omega)]
      omega
  show colC d L k1_h1 av (idxAt ![loadIdx (idxC d s hs h0) ![jvec t, dvec t] h1] h2 x) = _
  rw [colC_apply d L hw]
  show _ = av (ix2 (Cert.Spec.p1 ⟨wid1 L, hw⟩) (Cert.Spec.rowOf
    (h0 (ix2 (Cert.Spec.colOf ⟨5120 * s + (16 * t + lane x), hN⟩) (Cert.Spec.rowIn ⟨5120 * s + (16 * t + lane x), hN⟩)))))
  refine congrArg (fun r : Fin 100000 => av (ix2 (Cert.Spec.p1 ⟨wid1 L, hw⟩) r)) (Fin.ext ?_)
  show (idxC d s hs h0 (idxAt ![jvec t, dvec t] h1 x)).toNat = _
  rw [hidx, Cert.Spec.rowOf_val_of_lt (hh _)]

end Cert.Proof.K

end
-- ==== Proof.K.Body1C.lean ====
/- A worker's row of the second result is its eight stretches of 5120 entries. -/
import proofs.«215163_g69475390980333_cont_9to1_m_779_28_alg».proof.Proof.K.Body1B
import Idealize.ShloMosaic.Lib.Pipeline.Value

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 2) (Elt F) ℕ UU ℕ

section Stretches

variable (L : grid1.Coords) (k1_h1 : k1_cond1 L = 1#1)

abbrev outSl0 : Memref sig .scVector .hbm S1x5120 .i32 :=
  oM.slice (Rect.unit (s := S25x40960) (k1_off3 L) S1x5120.size (k1_off3_inb L k1_h1)) (fun _ => rfl)
abbrev outSl1 : Memref sig .scVector .hbm S1x5120 .i32 :=
  oM.slice (Rect.unit (s := S25x40960) (k1_off5 L) S1x5120.size (k1_off5_inb L k1_h1)) (fun _ => rfl)
abbrev outSl2 : Memref sig .scVector .hbm S1x5120 .i32 :=
  oM.slice (Rect.unit (s := S25x40960) (k1_off7 L) S1x5120.size (k1_off7_inb L k1_h1)) (fun _ => rfl)
abbrev outSl3 : Memref sig .scVector .hbm S1x5120 .i32 :=
  oM.slice (Rect.unit (s := S25x40960) (k1_off9 L) S1x5120.size (k1_off9_inb L k1_h1)) (fun _ => rfl)
abbrev outSl4 : Memref sig .scVector .hbm S1x5120 .i32 :=
  oM.slice (Rect.unit (s := S25x40960) (k1_off11 L) S1x5120.size (k1_off11_inb L k1_h1)) (fun _ => rfl)
abbrev outSl5 : Memref sig .scVector .hbm S1x5120 .i32 :=
  oM.slice (Rect.unit (s := S25x40960) (k1_off13 L) S1x5120.size (k1_off13_inb L k1_h1)) (fun _ => rfl)
abbrev outSl6 : Memref sig .scVector .hbm S1x5120 .i32 :=
  oM.slice (Rect.unit (s := S25x40960) (k1_off15 L) S1x5120.size (k1_off15_inb L k1_h1)) (fun _ => rfl)
abbrev outSl7 : Memref sig .scVector .hbm S1x5120 .i32 :=
  oM.slice (Rect.unit (s := S25x40960) (k1_off17 L) S1x5120.size (k1_off17_inb L k1_h1)) (fun _ => rfl)

/-- A stretch of 5120 entries of row `w` from column `o` on holds exactly those positions. -/
theorem mem_stretch {off : Fin 2 → ℕ} {inb : ∀ a, off a + S1x5120.size a ≤ S25x40960.size a} {w o : ℕ} (e : off = ![w, o])
    (i : S25x40960.Idx) :
    i ∈ (oM.slice (Rect.unit (s := S25x40960) off S1x5120.size inb) (fun _ => rfl)).view.set
      ↔ (i 0).val = w ∧ o ≤ (i 1).val ∧ (i 1).val < o + 5120 := by
  show i ∈ ((View.whole main_v2_scv).slice (Rect.unit (s := S25x40960) off S1x5120.size inb)).set ↔ _
  rw [View.set_slice_whole, Rect.mem_set_unit, e]
  constructor
  · intro h
    have h0 := h 0
    have h1 := h 1
    simp at h0 h1
    omega
  · intro h a
    match a with
    | ⟨0, _⟩ => simp; omega
    | ⟨1, _⟩ => simp; omega

variable (i : S25x40960.Idx)

theorem mem_outSl0 : i ∈ (outSl0 L k1_h1).view.set ↔ (i 0).val = wid1 L ∧ 0 ≤ (i 1).val ∧ (i 1).val < 0 + 5120 :=
  mem_stretch (k1_off3_eq L) i
theorem mem_outSl1 : i ∈ (outSl1 L k1_h1).view.set ↔ (i 0).val = wid1 L ∧ 5120 ≤ (i 1).val ∧ (i 1).val < 5120 + 5120 :=
  mem_stretch (k1_off5_eq L) i
theorem mem_outSl2 : i ∈ (outSl2 L k1_h1).view.set ↔ (i 0).val = wid1 L ∧ 10240 ≤ (i 1).val ∧ (i 1).val < 10240 + 5120 :=
  mem_stretch (k1_off7_eq L) i
theorem mem_outSl3 : i ∈ (outSl3 L k1_h1).view.set ↔ (i 0).val = wid1 L ∧ 15360 ≤ (i 1).val ∧ (i 1).val < 15360 + 5120 :=
  mem_stretch (k1_off9_eq L) i
theorem mem_outSl4 : i ∈ (outSl4 L k1_h1).view.set ↔ (i 0).val = wid1 L ∧ 20480 ≤ (i 1).val ∧ (i 1).val < 20480 + 5120 :=
  mem_stretch (k1_off11_eq L) i
theorem mem_outSl5 : i ∈ (outSl5 L k1_h1).view.set ↔ (i 0).val = wid1 L ∧ 25600 ≤ (i 1).val ∧ (i 1).val < 25600 + 5120 :=
  mem_stretch (k1_off13_eq L) i
theorem mem_outSl6 : i ∈ (outSl6 L k1_h1).view.set ↔ (i 0).val = wid1 L ∧ 30720 ≤ (i 1).val ∧ (i 1).val < 30720 + 5120 :=
  mem_stretch (k1_off15_eq L) i
theorem mem_outSl7 : i ∈ (outSl7 L k1_h1).view.set ↔ (i 0).val = wid1 L ∧ 35840 ≤ (i 1).val ∧ (i 1).val < 35840 + 5120 :=
  mem_stretch (k1_off17_eq L) i

theorem mem_row1 (r : Fin 25) : i ∈ (row1 r).set ↔ (i 0).val = r.val := by
  rw [Rect.mem_set_unit]
  constructor
  · intro h
    have h0 := h 0
    simp [Shape.partIx, Shape.partSize] at h0
    omega
  · intro h a
    match a with
    | ⟨0, _⟩ => simp [Shape.partIx, Shape.partSize]; omega
    | ⟨1, _⟩ => simp [Shape.partIx, Shape.partSize]; exact (i 1).isLt

/-- The stretches from the k-th on. -/
abbrev outTl7 : Finset S25x40960.Idx := (outSl7 L k1_h1).view.set
abbrev outTl6 : Finset S25x40960.Idx := (outSl6 L k1_h1).view.set ∪ outTl7 L k1_h1
abbrev outTl5 : Finset S25x40960.Idx := (outSl5 L k1_h1).view.set ∪ outTl6 L k1_h1
abbrev outTl4 : Finset S25x40960.Idx := (outSl4 L k1_h1).view.set ∪ outTl5 L k1_h1
abbrev outTl3 : Finset S25x40960.Idx := (outSl3 L k1_h1).view.set ∪ outTl4 L k1_h1
abbrev outTl2 : Finset S25x40960.Idx := (outSl2 L k1_h1).view.set ∪ outTl3 L k1_h1
abbrev outTl1 : Finset S25x40960.Idx := (outSl1 L k1_h1).view.set ∪ outTl2 L k1_h1

theorem mem_outTl7 : i ∈ outTl7 L k1_h1 ↔ (i 0).val = wid1 L ∧ 35840 ≤ (i 1).val ∧ (i 1).val < 40960 :=
  mem_outSl7 L k1_h1 i
theorem mem_outTl6 : i ∈ outTl6 L k1_h1 ↔ (i 0).val = wid1 L ∧ 30720 ≤ (i 1).val ∧ (i 1).val < 40960 := by
  rw [Finset.mem_union, mem_outSl6, mem_outTl7]
  constructor <;> intro h <;> omega
theorem mem_outTl5 : i ∈ outTl5 L k1_h1 ↔ (i 0).val = wid1 L ∧ 25600 ≤ (i 1).val ∧ (i 1).val < 40960 := by
  rw [Finset.mem_union, mem_outSl5, mem_outTl6]
  constructor <;> intro h <;> omega
theorem mem_outTl4 : i ∈ outTl4 L k1_h1 ↔ (i 0).val = wid1 L ∧ 20480 ≤ (i 1).val ∧ (i 1).val < 40960 := by
  rw [Finset.mem_union, mem_outSl4, mem_outTl5]
  constructor <;> intro h <;> omega
theorem mem_outTl3 : i ∈ outTl3 L k1_h1 ↔ (i 0).val = wid1 L ∧ 15360 ≤ (i 1).val ∧ (i 1).val < 40960 := by
  rw [Finset.mem_union, mem_outSl3, mem_outTl4]
  constructor <;> intro h <;> omega
theorem mem_outTl2 : i ∈ outTl2 L k1_h1 ↔ (i 0).val = wid1 L ∧ 10240 ≤ (i 1).val ∧ (i 1).val < 40960 := by
  rw [Finset.mem_union, mem_outSl2, mem_outTl3]
  constructor <;> intro h <;> omega
theorem mem_outTl1 : i ∈ outTl1 L k1_h1 ↔ (i 0).val = wid1 L ∧ 5120 ≤ (i 1).val ∧ (i 1).val < 40960 := by
  rw [Finset.mem_union, mem_outSl1, mem_outTl2]
  constructor <;> intro h <;> omega

theorem row1_set_outSl (hw : wid1 L < 25) : (row1 ⟨wid1 L, hw⟩).set = (outSl0 L k1_h1).view.set ∪ outTl1 L k1_h1 := by
  ext i
  rw [Finset.mem_union, mem_row1, mem_outSl0, mem_outTl1]
  have h1 : (i 1).val < 40960 := (i 1).isLt
  show (i 0).val = wid1 L ↔ _
  constructor <;> intro h <;> omega

theorem outSl_disj0 : Disjoint (outSl0 L k1_h1).view.set (outTl1 L k1_h1) :=
  Finset.disjoint_left.mpr fun i hi hj => by
    have a := (mem_outSl0 L k1_h1 i).1 hi
    have b := (mem_outTl1 L k1_h1 i).1 hj
    omega
theorem outSl_disj1 : Disjoint (outSl1 L k1_h1).view.set (outTl2 L k1_h1) :=
  Finset.disjoint_left.mpr fun i hi hj => by
    have a := (mem_outSl1 L k1_h1 i).1 hi
    have b := (mem_outTl2 L k1_h1 i).1 hj
    omega
theorem outSl_disj2 : Disjoint (outSl2 L k1_h1).view.set (outTl3 L k1_h1) :=
  Finset.disjoint_left.mpr fun i hi hj => by
    have a := (mem_outSl2 L k1_h1 i).1 hi
    have b := (mem_outTl3 L k1_h1 i).1 hj
    omega
theorem outSl_disj3 : Disjoint (outSl3 L k1_h1).view.set (outTl4 L k1_h1) :=
  Finset.disjoint_left.mpr fun i hi hj => by
    have a := (mem_outSl3 L k1_h1 i).1 hi
    have b := (mem_outTl4 L k1_h1 i).1 hj
    omega
theorem outSl_disj4 : Disjoint (outSl4 L k1_h1).view.set (outTl5 L k1_h1) :=
  Finset.disjoint_left.mpr fun i hi hj => by
    have a := (mem_outSl4 L k1_h1 i).1 hi
    have b := (mem_outTl5 L k1_h1 i).1 hj
    omega
theorem outSl_disj5 : Disjoint (outSl5 L k1_h1).view.set (outTl6 L k1_h1) :=
  Finset.disjoint_left.mpr fun i hi hj => by
    have a := (mem_outSl5 L k1_h1 i).1 hi
    have b := (mem_outTl6 L k1_h1 i).1 hj
    omega
theorem outSl_disj6 : Disjoint (outSl6 L k1_h1).view.set (outTl7 L k1_h1) :=
  Finset.disjoint_left.mpr fun i hi hj => by
    have a := (mem_outSl6 L k1_h1 i).1 hi
    have b := (mem_outTl7 L k1_h1 i).1 hj
    omega

end Stretches

abbrev outPt0 (d : Dev nD) (L : grid1.Coords) (k1_h1 : k1_cond1 L = 1#1) (f : Buf (Elt F) (o1Loc d)) : sProp 𝕄 :=
  (outSl0 L k1_h1).view.loc (V d (cV1 L) (jV1 L)) ↦[(outSl0 L k1_h1).view.set]{fullShare} f
abbrev outPt1 (d : Dev nD) (L : grid1.Coords) (k1_h1 : k1_cond1 L = 1#1) (f : Buf (Elt F) (o1Loc d)) : sProp 𝕄 :=
  (outSl1 L k1_h1).view.loc (V d (cV1 L) (jV1 L)) ↦[(outSl1 L k1_h1).view.set]{fullShare} f
abbrev outPt2 (d : Dev nD) (L : grid1.Coords) (k1_h1 : k1_cond1 L = 1#1) (f : Buf (Elt F) (o1Loc d)) : sProp 𝕄 :=
  (outSl2 L k1_h1).view.loc (V d (cV1 L) (jV1 L)) ↦[(outSl2 L k1_h1).view.set]{fullShare} f
abbrev outPt3 (d : Dev nD) (L : grid1.Coords) (k1_h1 : k1_cond1 L = 1#1) (f : Buf (Elt F) (o1Loc d)) : sProp 𝕄 :=
  (outSl3 L k1_h1).view.loc (V d (cV1 L) (jV1 L)) ↦[(outSl3 L k1_h1).view.set]{fullShare} f
abbrev outPt4 (d : Dev nD) (L : grid1.Coords) (k1_h1 : k1_cond1 L = 1#1) (f : Buf (Elt F) (o1Loc d)) : sProp 𝕄 :=
  (outSl4 L k1_h1).view.loc (V d (cV1 L) (jV1 L)) ↦[(outSl4 L k1_h1).view.set]{fullShare} f
abbrev outPt5 (d : Dev nD) (L : grid1.Coords) (k1_h1 : k1_cond1 L = 1#1) (f : Buf (Elt F) (o1Loc d)) : sProp 𝕄 :=
  (outSl5 L k1_h1).view.loc (V d (cV1 L) (jV1 L)) ↦[(outSl5 L k1_h1).view.set]{fullShare} f
abbrev outPt6 (d : Dev nD) (L : grid1.Coords) (k1_h1 : k1_cond1 L = 1#1) (f : Buf (Elt F) (o1Loc d)) : sProp 𝕄 :=
  (outSl6 L k1_h1).view.loc (V d (cV1 L) (jV1 L)) ↦[(outSl6 L k1_h1).view.set]{fullShare} f
abbrev outPt7 (d : Dev nD) (L : grid1.Coords) (k1_h1 : k1_cond1 L = 1#1) (f : Buf (Elt F) (o1Loc d)) : sProp 𝕄 :=
  (outSl7 L k1_h1).view.loc (V d (cV1 L) (jV1 L)) ↦[(outSl7 L k1_h1).view.set]{fullShare} f

theorem row_split (d : Dev nD) (L : grid1.Coords) (hw : wid1 L < 25) (k1_h1 : k1_cond1 L = 1#1) (f : Buf (Elt F) (o1Loc d)) :
    (o1Loc d ↦[(row1 ⟨wid1 L, hw⟩).set]{fullShare} f : sProp 𝕄)
      ⊢ iprop(outPt0 d L k1_h1 f ∗ outPt1 d L k1_h1 f ∗ outPt2 d L k1_h1 f ∗ outPt3 d L k1_h1 f ∗ outPt4 d L k1_h1 f ∗ outPt5 d L k1_h1 f ∗ outPt6 d L k1_h1 f ∗ outPt7 d L k1_h1 f) := by
  rw [row1_set_outSl L k1_h1 hw]
  refine (pointsTo_union (outSl_disj0 L k1_h1)).1.trans (sep_mono .rfl ?_)
  refine (pointsTo_union (outSl_disj1 L k1_h1)).1.trans (sep_mono .rfl ?_)
  refine (pointsTo_union (outSl_disj2 L k1_h1)).1.trans (sep_mono .rfl ?_)
  refine (pointsTo_union (outSl_disj3 L k1_h1)).1.trans (sep_mono .rfl ?_)
  refine (pointsTo_union (outSl_disj4 L k1_h1)).1.trans (sep_mono .rfl ?_)
  refine (pointsTo_union (outSl_disj5 L k1_h1)).1.trans (sep_mono .rfl ?_)
  exact (pointsTo_union (outSl_disj6 L k1_h1)).1

theorem row_join (d : Dev nD) (L : grid1.Coords) (hw : wid1 L < 25) (k1_h1 : k1_cond1 L = 1#1) (v : Buf (Elt F) (o1Loc d))
    (g0 g1 g2 g3 g4 g5 g6 g7 : Buf (Elt F) (o1Loc d))
    (e0 : ∀ i ∈ (outSl0 L k1_h1).view.set, g0 i = v i)
    (e1 : ∀ i ∈ (outSl1 L k1_h1).view.set, g1 i = v i)
    (e2 : ∀ i ∈ (outSl2 L k1_h1).view.set, g2 i = v i)
    (e3 : ∀ i ∈ (outSl3 L k1_h1).view.set, g3 i = v i)
    (e4 : ∀ i ∈ (outSl4 L k1_h1).view.set, g4 i = v i)
    (e5 : ∀ i ∈ (outSl5 L k1_h1).view.set, g5 i = v i)
    (e6 : ∀ i ∈ (outSl6 L k1_h1).view.set, g6 i = v i)
    (e7 : ∀ i ∈ (outSl7 L k1_h1).view.set, g7 i = v i) :
    iprop(outPt0 d L k1_h1 g0 ∗ outPt1 d L k1_h1 g1 ∗ outPt2 d L k1_h1 g2 ∗ outPt3 d L k1_h1 g3 ∗ outPt4 d L k1_h1 g4 ∗ outPt5 d L k1_h1 g5 ∗ outPt6 d L k1_h1 g6 ∗ outPt7 d L k1_h1 g7)
      ⊢ (o1Loc d ↦[(row1 ⟨wid1 L, hw⟩).set]{fullShare} v : sProp 𝕄) := by
  rw [row1_set_outSl L k1_h1 hw]
  rw [show outPt0 d L k1_h1 g0 = outPt0 d L k1_h1 v from pointsTo_congr e0,
    show outPt1 d L k1_h1 g1 = outPt1 d L k1_h1 v from pointsTo_congr e1,
    show outPt2 d L k1_h1 g2 = outPt2 d L k1_h1 v from pointsTo_congr e2,
    show outPt3 d L k1_h1 g3 = outPt3 d L k1_h1 v from pointsTo_congr e3,
    show outPt4 d L k1_h1 g4 = outPt4 d L k1_h1 v from pointsTo_congr e4,
    show outPt5 d L k1_h1 g5 = outPt5 d L k1_h1 v from pointsTo_congr e5,
    show outPt6 d L k1_h1 g6 = outPt6 d L k1_h1 v from pointsTo_congr e6,
    show outPt7 d L k1_h1 g7 = outPt7 d L k1_h1 v from pointsTo_congr e7]
  refine Entails.trans (sep_mono .rfl ?_) (pointsTo_union (outSl_disj0 L k1_h1)).2
  refine Entails.trans (sep_mono .rfl ?_) (pointsTo_union (outSl_disj1 L k1_h1)).2
  refine Entails.trans (sep_mono .rfl ?_) (pointsTo_union (outSl_disj2 L k1_h1)).2
  refine Entails.trans (sep_mono .rfl ?_) (pointsTo_union (outSl_disj3 L k1_h1)).2
  refine Entails.trans (sep_mono .rfl ?_) (pointsTo_union (outSl_disj4 L k1_h1)).2
  refine Entails.trans (sep_mono .rfl ?_) (pointsTo_union (outSl_disj5 L k1_h1)).2
  exact (pointsTo_union (outSl_disj6 L k1_h1)).2

end Cert.Proof.K

end
-- ==== Proof.K.Body1.lean ====
/- Second stage, one worker: its row of the second result ends at the lookup's value. -/
import proofs.«215163_g69475390980333_cont_9to1_m_779_28_alg».proof.Proof.K.Body1C

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 2) (Elt F) ℕ UU ℕ

omit [FloatOps F] in

theorem ownBufs_V1 (d : Dev nD) (L : grid1.Coords) :
    (ownBufs (V d (cV1 L) (jV1 L)) : sProp 𝕄)
      = iprop((∃ f, (V d (cV1 L) (jV1 L)).loc cc1_scratch0 ↦{fullShare} f) ∗ (∃ f, (V d (cV1 L) (jV1 L)).loc cc1_scratch1 ↦{fullShare} f) ∗ (∃ f, (V d (cV1 L) (jV1 L)).loc cc1_scratch2 ↦{fullShare} f) ∗ (∃ f, (V d (cV1 L) (jV1 L)).loc cc1_scratch3 ↦{fullShare} f) ∗ (∃ f, (V d (cV1 L) (jV1 L)).loc cc1_scratch4 ↦{fullShare} f)
          ∗ bigSep ((((((ownRefs (τ := τ) (.scVector (cV1 L) (jV1 L))).erase ((Proc.scVector (cV1 L) (jV1 L)).devRef cc1_scratch0)).erase ((Proc.scVector (cV1 L) (jV1 L)).devRef cc1_scratch1)).erase ((Proc.scVector (cV1 L) (jV1 L)).devRef cc1_scratch2)).erase ((Proc.scVector (cV1 L) (jV1 L)).devRef cc1_scratch3)).erase ((Proc.scVector (cV1 L) (jV1 L)).devRef cc1_scratch4))
              fun b => iprop(∃ f, ((d, b) : Loc nD τ sig) ↦{fullShare} f)) := by
  unfold SparseCore.Cfg.ownBufs
  refine (SparseCore.bigSep_erase' (SparseCore.Cfg.mem_ownRefs_of_owner (p := (Proc.scVector (cV1 L) (jV1 L))) (b := (Proc.scVector (cV1 L) (jV1 L)).devRef cc1_scratch0) rfl)).trans ?_
  rw [SparseCore.bigSep_erase' (Finset.mem_erase.mpr ⟨fun e => absurd (Proc.devRef_injective _ e) (show (cc1_scratch1 : Ref sig .scVector) ≠ cc1_scratch0 by decide), SparseCore.Cfg.mem_ownRefs_of_owner (p := (Proc.scVector (cV1 L) (jV1 L))) (b := (Proc.scVector (cV1 L) (jV1 L)).devRef cc1_scratch1) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := (Proc.scVector (cV1 L) (jV1 L))) (b := (Proc.scVector (cV1 L) (jV1 L)).devRef cc1_scratch2) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := (Proc.scVector (cV1 L) (jV1 L))) (b := (Proc.scVector (cV1 L) (jV1 L)).devRef cc1_scratch3) rfl⟩⟩⟩),
    SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := (Proc.scVector (cV1 L) (jV1 L))) (b := (Proc.scVector (cV1 L) (jV1 L)).devRef cc1_scratch4) rfl⟩⟩⟩⟩)]

omit [FloatOps F] in

theorem ownSems0_V1 (d : Dev nD) (L : grid1.Coords) :
    (ownSems0 (V d (cV1 L) (jV1 L)) : sProp 𝕄)
      = iprop(semVal (((V d (cV1 L) (jV1 L)), SemLoc.dma cc1_scratch5.sem) : GSem nD τ sig) 0 ∗ semVal (((V d (cV1 L) (jV1 L)), SemLoc.dma cc1_scratch6.sem) : GSem nD τ sig) 0 ∗ semVal (((V d (cV1 L) (jV1 L)), SemLoc.dma cc1_scratch7.sem) : GSem nD τ sig) 0 ∗ semVal (((V d (cV1 L) (jV1 L)), SemLoc.dma cc1_scratch8.sem) : GSem nD τ sig) 0 ∗ semVal (((V d (cV1 L) (jV1 L)), SemLoc.dma cc1_scratch9.sem) : GSem nD τ sig) 0
          ∗ bigSep ((((((ownCells (V d (cV1 L) (jV1 L))).erase (((V d (cV1 L) (jV1 L)), SemLoc.dma cc1_scratch5.sem) : GSem nD τ sig)).erase (((V d (cV1 L) (jV1 L)), SemLoc.dma cc1_scratch6.sem) : GSem nD τ sig)).erase (((V d (cV1 L) (jV1 L)), SemLoc.dma cc1_scratch7.sem) : GSem nD τ sig)).erase (((V d (cV1 L) (jV1 L)), SemLoc.dma cc1_scratch8.sem) : GSem nD τ sig)).erase (((V d (cV1 L) (jV1 L)), SemLoc.dma cc1_scratch9.sem) : GSem nD τ sig)) fun g => semVal g 0) := by
  unfold SparseCore.Cfg.ownSems0
  refine (SparseCore.bigSep_erase' ((mem_ownCells (g := (((V d (cV1 L) (jV1 L)), SemLoc.dma cc1_scratch5.sem) : GSem nD τ sig))).mpr ⟨rfl, by show (SemLoc.dma cc1_scratch5.sem : SemLoc sig).isScoped .scVector = true; decide⟩)).trans ?_
  rw [SparseCore.bigSep_erase' (Finset.mem_erase.mpr ⟨fun e => absurd (congrArg Prod.snd e) (show (SemLoc.dma cc1_scratch6.sem : SemLoc sig) ≠ SemLoc.dma cc1_scratch5.sem by decide), (mem_ownCells (g := (((V d (cV1 L) (jV1 L)), SemLoc.dma cc1_scratch6.sem) : GSem nD τ sig))).mpr ⟨rfl, by show (SemLoc.dma cc1_scratch6.sem : SemLoc sig).isScoped .scVector = true; decide⟩⟩),
    SparseCore.bigSep_erase' (Finset.mem_erase.mpr ⟨fun e => absurd (congrArg Prod.snd e) (show (SemLoc.dma cc1_scratch7.sem : SemLoc sig) ≠ SemLoc.dma cc1_scratch6.sem by decide), Finset.mem_erase.mpr ⟨fun e => absurd (congrArg Prod.snd e) (show (SemLoc.dma cc1_scratch7.sem : SemLoc sig) ≠ SemLoc.dma cc1_scratch5.sem by decide), (mem_ownCells (g := (((V d (cV1 L) (jV1 L)), SemLoc.dma cc1_scratch7.sem) : GSem nD τ sig))).mpr ⟨rfl, by show (SemLoc.dma cc1_scratch7.sem : SemLoc sig).isScoped .scVector = true; decide⟩⟩⟩),
    SparseCore.bigSep_erase' (Finset.mem_erase.mpr ⟨fun e => absurd (congrArg Prod.snd e) (show (SemLoc.dma cc1_scratch8.sem : SemLoc sig) ≠ SemLoc.dma cc1_scratch7.sem by decide), Finset.mem_erase.mpr ⟨fun e => absurd (congrArg Prod.snd e) (show (SemLoc.dma cc1_scratch8.sem : SemLoc sig) ≠ SemLoc.dma cc1_scratch6.sem by decide), Finset.mem_erase.mpr ⟨fun e => absurd (congrArg Prod.snd e) (show (SemLoc.dma cc1_scratch8.sem : SemLoc sig) ≠ SemLoc.dma cc1_scratch5.sem by decide), (mem_ownCells (g := (((V d (cV1 L) (jV1 L)), SemLoc.dma cc1_scratch8.sem) : GSem nD τ sig))).mpr ⟨rfl, by show (SemLoc.dma cc1_scratch8.sem : SemLoc sig).isScoped .scVector = true; decide⟩⟩⟩⟩),
    SparseCore.bigSep_erase' (Finset.mem_erase.mpr ⟨fun e => absurd (congrArg Prod.snd e) (show (SemLoc.dma cc1_scratch9.sem : SemLoc sig) ≠ SemLoc.dma cc1_scratch8.sem by decide), Finset.mem_erase.mpr ⟨fun e => absurd (congrArg Prod.snd e) (show (SemLoc.dma cc1_scratch9.sem : SemLoc sig) ≠ SemLoc.dma cc1_scratch7.sem by decide), Finset.mem_erase.mpr ⟨fun e => absurd (congrArg Prod.snd e) (show (SemLoc.dma cc1_scratch9.sem : SemLoc sig) ≠ SemLoc.dma cc1_scratch6.sem by decide), Finset.mem_erase.mpr ⟨fun e => absurd (congrArg Prod.snd e) (show (SemLoc.dma cc1_scratch9.sem : SemLoc sig) ≠ SemLoc.dma cc1_scratch5.sem by decide), (mem_ownCells (g := (((V d (cV1 L) (jV1 L)), SemLoc.dma cc1_scratch9.sem) : GSem nD τ sig))).mpr ⟨rfl, by show (SemLoc.dma cc1_scratch9.sem : SemLoc sig).isScoped .scVector = true; decide⟩⟩⟩⟩⟩)]

abbrev colM : Memref sig .scVector .vmem S100000 .i32 := Memref.whole cc1_scratch0
abbrev ixM0 : Memref sig .scVector .vmem S10x512 .i32 := Memref.whole cc1_scratch1
abbrev ixM1 : Memref sig .scVector .vmem S10x512 .i32 := Memref.whole cc1_scratch2
abbrev sgM0 : Memref sig .scVector .vmem S1x5120 .i32 := Memref.whole cc1_scratch3
abbrev sgM1 : Memref sig .scVector .vmem S1x5120 .i32 := Memref.whole cc1_scratch4

omit [FloatOps F] in
theorem pts_aM (d : Dev nD) (L : grid1.Coords) (q : PosShare TreeShare) (g : Buf (Elt F) (aLoc d)) :
    (aM.view.loc (V d (cV1 L) (jV1 L)) ↦{q} g : sProp 𝕄) = aLoc d ↦{q} g := by
  simp only [Memref.view_whole, View.set_whole]
omit [FloatOps F] in
theorem pts_hM (d : Dev nD) (L : grid1.Coords) (q : PosShare TreeShare) (g : Buf (Elt F) (o0Loc d)) :
    (hM.view.loc (V d (cV1 L) (jV1 L)) ↦{q} g : sProp 𝕄) = o0Loc d ↦{q} g := by
  simp only [Memref.view_whole, View.set_whole]
omit [FloatOps F] in
theorem pts_colM (d : Dev nD) (L : grid1.Coords) (g : Buf (Elt F) ((V d (cV1 L) (jV1 L)).loc cc1_scratch0)) :
    (colM.view.loc (V d (cV1 L) (jV1 L)) ↦{fullShare} g : sProp 𝕄) = (V d (cV1 L) (jV1 L)).loc cc1_scratch0 ↦{fullShare} g := rfl
omit [FloatOps F] in
theorem pts_ixM0 (d : Dev nD) (L : grid1.Coords) (g : Buf (Elt F) ((V d (cV1 L) (jV1 L)).loc cc1_scratch1)) :
    (ixM0.view.loc (V d (cV1 L) (jV1 L)) ↦{fullShare} g : sProp 𝕄) = (V d (cV1 L) (jV1 L)).loc cc1_scratch1 ↦{fullShare} g := rfl
omit [FloatOps F] in
theorem pts_ixM1 (d : Dev nD) (L : grid1.Coords) (g : Buf (Elt F) ((V d (cV1 L) (jV1 L)).loc cc1_scratch2)) :
    (ixM1.view.loc (V d (cV1 L) (jV1 L)) ↦{fullShare} g : sProp 𝕄) = (V d (cV1 L) (jV1 L)).loc cc1_scratch2 ↦{fullShare} g := rfl
omit [FloatOps F] in
theorem pts_sgM0 (d : Dev nD) (L : grid1.Coords) (g : Buf (Elt F) ((V d (cV1 L) (jV1 L)).loc cc1_scratch3)) :
    (sgM0.view.loc (V d (cV1 L) (jV1 L)) ↦{fullShare} g : sProp 𝕄) = (V d (cV1 L) (jV1 L)).loc cc1_scratch3 ↦{fullShare} g := rfl
omit [FloatOps F] in
theorem pts_sgM1 (d : Dev nD) (L : grid1.Coords) (g : Buf (Elt F) ((V d (cV1 L) (jV1 L)).loc cc1_scratch4)) :
    (sgM1.view.loc (V d (cV1 L) (jV1 L)) ↦{fullShare} g : sProp 𝕄) = (V d (cV1 L) (jV1 L)).loc cc1_scratch4 ↦{fullShare} g := rfl
omit [FloatOps F] in
theorem pts_colM_acc (d : Dev nD) (L : grid1.Coords) (g : Buf (Elt F) ((V d (cV1 L) (jV1 L)).loc cc1_scratch0)) :
    ((colM.access (.whole S100000)).loc (V d (cV1 L) (jV1 L)) ↦{fullShare} g : sProp 𝕄) = colM.view.loc (V d (cV1 L) (jV1 L)) ↦{fullShare} g := rfl
omit [FloatOps F] in
theorem pts_ixM0_acc (d : Dev nD) (L : grid1.Coords) (g : Buf (Elt F) ((V d (cV1 L) (jV1 L)).loc cc1_scratch1)) :
    ((ixM0.access (.whole S10x512)).loc (V d (cV1 L) (jV1 L)) ↦{fullShare} g : sProp 𝕄) = ixM0.view.loc (V d (cV1 L) (jV1 L)) ↦{fullShare} g := rfl
omit [FloatOps F] in
theorem pts_ixM1_acc (d : Dev nD) (L : grid1.Coords) (g : Buf (Elt F) ((V d (cV1 L) (jV1 L)).loc cc1_scratch2)) :
    ((ixM1.access (.whole S10x512)).loc (V d (cV1 L) (jV1 L)) ↦{fullShare} g : sProp 𝕄) = ixM1.view.loc (V d (cV1 L) (jV1 L)) ↦{fullShare} g := rfl
omit [FloatOps F] in
theorem pts_sgM0_acc (d : Dev nD) (L : grid1.Coords) (g : Buf (Elt F) ((V d (cV1 L) (jV1 L)).loc cc1_scratch3)) :
    ((sgM0.access (.whole S1x5120)).loc (V d (cV1 L) (jV1 L)) ↦{fullShare} g : sProp 𝕄) = sgM0.view.loc (V d (cV1 L) (jV1 L)) ↦{fullShare} g := rfl
omit [FloatOps F] in
theorem pts_sgM1_acc (d : Dev nD) (L : grid1.Coords) (g : Buf (Elt F) ((V d (cV1 L) (jV1 L)).loc cc1_scratch4)) :
    ((sgM1.access (.whole S1x5120)).loc (V d (cV1 L) (jV1 L)) ↦{fullShare} g : sProp 𝕄) = sgM1.view.loc (V d (cV1 L) (jV1 L)) ↦{fullShare} g := rfl

theorem read_ixM0 (g : Vec F S10x512 .i32) : (ixM0.access (Rect.whole S10x512)).read (Elt F) g = g := Memref.read_access_whole (Elt F) cc1_scratch1 g
theorem read_ixM1 (g : Vec F S10x512 .i32) : (ixM1.access (Rect.whole S10x512)).read (Elt F) g = g := Memref.read_access_whole (Elt F) cc1_scratch2 g
theorem read_colM (g : Vec F S100000 .i32) : (colM.access (Rect.whole S100000)).read (Elt F) g = g := Memref.read_access_whole (Elt F) cc1_scratch0 g

theorem stage_step {κ : Kind} {sp : Space} (v : View sig κ sp S1x5120 .i32) (g : v.ty.Contents (Elt F)) (tgt : ℕ → Elt F .i32)
    (k : ℕ) (hk : k < 320) (off : Fin 2 → ℕ) (hoff : off = ![0, 16 * k]) (inb : ∀ a, off a + S1x16.size a ≤ S1x5120.size a)
    (w : Vec F S16 .i32) (hc : S16.ShapeCasts S1x16)
    (hg : ∀ n (hn : n < 5120), n < 16 * k → v.read (Elt F) g (ix2 (0 : Fin 1) (⟨n, hn⟩ : Fin 5120)) = tgt n)
    (hw : ∀ x : S16.Idx, w x = tgt (16 * k + lane x)) :
    ∀ n (hn : n < 5120), n < 16 * (k + 1) →
      v.read (Elt F) (v.writes (Elt F) g [⟨Rect.unit (s := S1x5120) off S1x16.size inb, shapeCast S1x16 w hc⟩])
        (ix2 (0 : Fin 1) (⟨n, hn⟩ : Fin 5120)) = tgt n := by
  subst hoff
  intro n hn hlt
  by_cases hlo : n < 16 * k
  · rw [View.read_writes_apply_of_forall_not_mem]
    · exact hg n hn hlo
    · intro p hp
      rw [List.mem_singleton] at hp; subst hp
      rw [Rect.mem_set_unit]
      intro h
      have h1 := (h 1).1
      simp at h1
      omega
  · have hx : n - 16 * k < 16 := by omega
    have hi : ix2 (0 : Fin 1) (⟨n, hn⟩ : Fin 5120)
        = (Rect.unit (s := S1x5120) ![0, 16 * k] S1x16.size inb).emb (ix2 (0 : Fin 1) (⟨n - 16 * k, hx⟩ : Fin 16)) := by
      funext a
      apply Fin.ext
      rw [Rect.emb_apply]
      match a with
      | ⟨0, _⟩ => simp
      | ⟨1, _⟩ => simp; omega
    rw [hi, View.read_writes_cons_emb]
    rw [shapeCast_addUnit_apply (n := 1) (d := ![16])]
    exact (hw _).trans (congrArg tgt (by show 16 * k + (n - 16 * k) = n; omega))

def tgt1 (d : Dev nD) (L : grid1.Coords) (hw : wid1 L < 25) (av : Buf (Elt F) (aLoc d)) (h0 : Buf (Elt F) (o0Loc d)) (s n : ℕ) : Elt F .i32 :=
  val1 d h0 av (ix2 (⟨wid1 L, hw⟩ : Fin 25) (⟨(5120 * s + n) % 40960, Nat.mod_lt _ (by decide)⟩ : Fin 40960))

theorem tgt1_eq (d : Dev nD) (L : grid1.Coords) (hw : wid1 L < 25) (av : Buf (Elt F) (aLoc d)) (h0 : Buf (Elt F) (o0Loc d)) (s n : ℕ)
    (hN : 5120 * s + n < 40960) :
    tgt1 d L hw av h0 s n = val1 d h0 av (ix2 (⟨wid1 L, hw⟩ : Fin 25) (⟨5120 * s + n, hN⟩ : Fin 40960)) := by
  unfold tgt1
  simp only [Nat.mod_eq_of_lt hN]

theorem out_val (d : Dev nD) (L : grid1.Coords) (hw : wid1 L < 25) (av : Buf (Elt F) (aLoc d)) (h0 : Buf (Elt F) (o0Loc d))
    (s : ℕ) (hs : s < 8) (off : Fin 2 → ℕ) (hoff : off = ![wid1 L, 5120 * s]) (inb : ∀ a, off a + S1x5120.size a ≤ S25x40960.size a)
    (f : Buf (Elt F) (o1Loc d)) (w : Vec F S1x5120 .i32)
    (hwv : ∀ n (hn : n < 5120), w (ix2 (0 : Fin 1) (⟨n, hn⟩ : Fin 5120)) = tgt1 d L hw av h0 s n) :
    ∀ i ∈ ((View.whole main_v2_scv).slice (Rect.unit (s := S25x40960) off S1x5120.size inb)).set,
      (((View.whole main_v2_scv).slice (Rect.unit (s := S25x40960) off S1x5120.size inb)).writes (Elt F) f [⟨Rect.whole S1x5120, w⟩]) i
        = val1 d h0 av i := by
  subst hoff
  intro i hi
  obtain ⟨y, -, rfl⟩ := Finset.mem_map.mp hi
  have hy1 : (y 1).val < 5120 := (y 1).isLt
  have h01 : (y 0).val < 1 := (y 0).isLt
  have hy : y = ix2 (0 : Fin 1) (⟨(y 1).val, hy1⟩ : Fin 5120) := by
    funext a
    match a with
    | ⟨0, _⟩ => exact Fin.ext (by show (y 0).val = 0; omega)
    | ⟨1, _⟩ => rfl
  have h1 := View.read_writes_cons_emb ((View.whole main_v2_scv).slice (Rect.unit (s := S25x40960) ![wid1 L, 5120 * s] S1x5120.size inb)) f
    (Rect.whole S1x5120) w [] y
  have hwy : (Rect.whole S1x5120).emb y = y := Rect.emb_whole_apply S1x5120 y
  rw [hwy, View.read_apply, cast_eq] at h1
  have hN : 5120 * s + (y 1).val < 40960 := by omega
  rw [h1]
  rw [hy, hwv, tgt1_eq d L hw av h0 s _ hN]
  refine congrArg (val1 d h0 av) ?_
  funext a
  apply Fin.ext
  match a with
  | ⟨0, h⟩ =>
    show wid1 L = ((Rect.unit (s := S25x40960) ![wid1 L, 5120 * s] S1x5120.size inb).emb (ix2 (0 : Fin 1) (⟨(y 1).val, hy1⟩ : Fin 5120)) ⟨0, h⟩).val
    rw [Rect.emb_apply]; simp
  | ⟨1, h⟩ =>
    show 5120 * s + (y 1).val = ((Rect.unit (s := S25x40960) ![wid1 L, 5120 * s] S1x5120.size inb).emb (ix2 (0 : Fin 1) (⟨(y 1).val, hy1⟩ : Fin 5120)) ⟨1, h⟩).val
    rw [Rect.emb_apply]; simp

theorem waits_insert {W W' : Waits sig (HIx 2)} (sm : SemLoc sig) (h : ∀ p ∈ W', p ∈ W ∨ p.2 = none) :
    ∀ p ∈ insert (sm, (default : HIx 2)) W', p ∈ W ∨ p.2 = none := by
  intro p hp
  rcases Finset.mem_insert.mp hp with rfl | hp
  · exact .inr rfl
  · exact h p hp

def inv0 (d : Dev nD) (L : grid1.Coords) (hw : wid1 L < 25) (k1_h1 : k1_cond1 L = 1#1)
    (av : Buf (Elt F) (aLoc d)) (h0 : Buf (Elt F) (o0Loc d)) (s : ℕ) (hs : s < 8) (t : ℕ) (acc : IVec S16 32 × IVec S16 32) : sProp 𝕄 :=
  iprop(⌜acc = (jvec t, dvec t)⌝ ∗ (colM.view.loc (V d (cV1 L) (jV1 L)) ↦{fullShare} colC d L k1_h1 av)
    ∗ (ixM0.view.loc (V d (cV1 L) (jV1 L)) ↦{fullShare} idxC d s hs h0)
    ∗ ∃ g : Buf (Elt F) ((V d (cV1 L) (jV1 L)).loc cc1_scratch3),
        (sgM0.view.loc (V d (cV1 L) (jV1 L)) ↦{fullShare} g)
        ∗ ⌜∀ n (hn : n < 5120), n < 16 * t → g (ix2 (0 : Fin 1) (⟨n, hn⟩ : Fin 5120)) = tgt1 d L hw av h0 s n⌝)

def inv1 (d : Dev nD) (L : grid1.Coords) (hw : wid1 L < 25) (k1_h1 : k1_cond1 L = 1#1)
    (av : Buf (Elt F) (aLoc d)) (h0 : Buf (Elt F) (o0Loc d)) (s : ℕ) (hs : s < 8) (t : ℕ) (acc : IVec S16 32 × IVec S16 32) : sProp 𝕄 :=
  iprop(⌜acc = (jvec t, dvec t)⌝ ∗ (colM.view.loc (V d (cV1 L) (jV1 L)) ↦{fullShare} colC d L k1_h1 av)
    ∗ (ixM1.view.loc (V d (cV1 L) (jV1 L)) ↦{fullShare} idxC d s hs h0)
    ∗ ∃ g : Buf (Elt F) ((V d (cV1 L) (jV1 L)).loc cc1_scratch4),
        (sgM1.view.loc (V d (cV1 L) (jV1 L)) ↦{fullShare} g)
        ∗ ⌜∀ n (hn : n < 5120), n < 16 * t → g (ix2 (0 : Fin 1) (⟨n, hn⟩ : Fin 5120)) = tgt1 d L hw av h0 s n⌝)

/-- One trip of a slab's loop, first buffer pair: the invariant at `k` gives the invariant at `k + 1`, for every slab `s`. -/
theorem trip0 (d : Dev nD) (L : grid1.Coords) (hw : wid1 L < 25) (k1_h1 : k1_cond1 L = 1#1)
    (av : Buf (Elt F) (aLoc d)) (h0 : Buf (Elt F) (o0Loc d)) (hh : ∀ i, (h0 i).toNat < 100000) (s : ℕ) (hs : s < 8)
    (v2 v77 v80 : IVec S16 32) (c0 : BitVec 32) (k : Fin k1_t1_loop.trips) (acc : IVec S16 32 × IVec S16 32) :
    inv0 d L hw k1_h1 av h0 s hs k.val acc
      ⊢ wp frame (wpE (defs₀ (F := F)) 𝒱₀ (V d (cV1 L) (jV1 L)) none) Set.univ
          (k1_t1_body L aM (Memref.isWhole_whole _) hM (Memref.isWhole_whole _) oM (Memref.isWhole_whole _) colM (Memref.isWhole_whole _)
            ixM0 (Memref.isWhole_whole _) ixM1 (Memref.isWhole_whole _) sgM0 (Memref.isWhole_whole _) sgM1 (Memref.isWhole_whole _)
            cc1_scratch5 cc1_scratch6 cc1_scratch7 cc1_scratch8 cc1_scratch9 v2 k1_h1 v77 v80 c0 k acc)
          (inv0 d L hw k1_h1 av h0 s hs (k.val + 1)) := by
  unfold k1_t1_body inv0
  iintro ⟨%hacc, Hc, Hi, %g, Hs, %hg⟩
  subst hacc
  have hk : k.val < 320 := k.isLt
  have h1 := lanes_inb k.val hk
  have hc1 : k1_chk1 L (jvec k.val) (dvec k.val) := fun _ => h1
  sl_exec_parts
  ihave Hi2 := (Entails.of_eq (pts_ixM0_acc (F := F) d L _).symm) $$ Hi
  iapply (SparseCore.wp_vectorLoadIdx 𝒱₀ (V d (cV1 L) (jV1 L)) none Set.univ (base := ixM0) (S := Finset.univ) (q := fullShare) (Finset.subset_univ _)) $$ Hi2; iintro Hi2
  have h2 := gather_inb d h0 hh s hs k.val h1
  have e1 := read_ixM0 (idxC d s hs h0)
  have hc2 : k1_chk2 L (loadIdx ((ixM0.access (Rect.whole S10x512)).read (Elt F) (idxC d s hs h0)) ![jvec k.val, dvec k.val] h1) := by
    rw [e1]; exact fun _ => h2
  sl_exec_parts
  ihave Hc2 := (Entails.of_eq (pts_colM_acc (F := F) d L _).symm) $$ Hc
  iapply (SparseCore.wp_vectorLoadIdx 𝒱₀ (V d (cV1 L) (jV1 L)) none Set.univ (base := colM) (S := Finset.univ) (q := fullShare) (Finset.subset_univ _)) $$ Hc2; iintro Hc2
  ihave Hi := (Entails.of_eq (pts_ixM0_acc (F := F) d L _)) $$ Hi2
  ihave Hc := (Entails.of_eq (pts_colM_acc (F := F) d L _)) $$ Hc2
  sl_exec_parts
  sl_step
  isplitr
  · ipureintro; exact Prod.ext (lanes_step_j k.val hk) (lanes_step_d k.val hk)
  isplitl [Hc]; · iexact Hc
  isplitl [Hi]; · iexact Hi
  iexists _; isplitl [Hs]
  · iexact Hs
  · ipureintro
    have e2 := read_colM (colC d L k1_h1 av)
    refine stage_step (F := F) sgM0.view g (tgt1 d L hw av h0 s) k.val hk _ (k1_off2_eq k) _ _ _ hg ?_
    intro x
    simp only [e1, e2]
    have hN : 5120 * s + (16 * k.val + lane x) < 40960 := by have := lane_lt x; omega
    exact (gather_val d L hw k1_h1 av h0 hh s hs k.val hk h1 h2 x hN).trans (tgt1_eq d L hw av h0 s _ hN).symm

/-- The same for the second buffer pair. -/
theorem trip1 (d : Dev nD) (L : grid1.Coords) (hw : wid1 L < 25) (k1_h1 : k1_cond1 L = 1#1)
    (av : Buf (Elt F) (aLoc d)) (h0 : Buf (Elt F) (o0Loc d)) (hh : ∀ i, (h0 i).toNat < 100000) (s : ℕ) (hs : s < 8)
    (v2 v77 v80 : IVec S16 32) (c0 : BitVec 32) (k : Fin k1_t2_loop.trips) (acc : IVec S16 32 × IVec S16 32) :
    inv1 d L hw k1_h1 av h0 s hs k.val acc
      ⊢ wp frame (wpE (defs₀ (F := F)) 𝒱₀ (V d (cV1 L) (jV1 L)) none) Set.univ
          (k1_t2_body L aM (Memref.isWhole_whole _) hM (Memref.isWhole_whole _) oM (Memref.isWhole_whole _) colM (Memref.isWhole_whole _)
            ixM0 (Memref.isWhole_whole _) ixM1 (Memref.isWhole_whole _) sgM0 (Memref.isWhole_whole _) sgM1 (Memref.isWhole_whole _)
            cc1_scratch5 cc1_scratch6 cc1_scratch7 cc1_scratch8 cc1_scratch9 v2 k1_h1 v77 v80 c0 k acc)
          (inv1 d L hw k1_h1 av h0 s hs (k.val + 1)) := by
  unfold k1_t2_body inv1
  iintro ⟨%hacc, Hc, Hi, %g, Hs, %hg⟩
  subst hacc
  have hk : k.val < 320 := k.isLt
  have h1 := lanes_inb k.val hk
  have hc1 : k1_chk3 L (jvec k.val) (dvec k.val) := fun _ => h1
  sl_exec_parts
  ihave Hi2 := (Entails.of_eq (pts_ixM1_acc (F := F) d L _).symm) $$ Hi
  iapply (SparseCore.wp_vectorLoadIdx 𝒱₀ (V d (cV1 L) (jV1 L)) none Set.univ (base := ixM1) (S := Finset.univ) (q := fullShare) (Finset.subset_univ _)) $$ Hi2; iintro Hi2
  have h2 := gather_inb d h0 hh s hs k.val h1
  have e1 := read_ixM1 (idxC d s hs h0)
  have hc2 : k1_chk4 L (loadIdx ((ixM1.access (Rect.whole S10x512)).read (Elt F) (idxC d s hs h0)) ![jvec k.val, dvec k.val] h1) := by
    rw [e1]; exact fun _ => h2
  sl_exec_parts
  ihave Hc2 := (Entails.of_eq (pts_colM_acc (F := F) d L _).symm) $$ Hc
  iapply (SparseCore.wp_vectorLoadIdx 𝒱₀ (V d (cV1 L) (jV1 L)) none Set.univ (base := colM) (S := Finset.univ) (q := fullShare) (Finset.subset_univ _)) $$ Hc2; iintro Hc2
  ihave Hi := (Entails.of_eq (pts_ixM1_acc (F := F) d L _)) $$ Hi2
  ihave Hc := (Entails.of_eq (pts_colM_acc (F := F) d L _)) $$ Hc2
  sl_exec_parts
  sl_step
  isplitr
  · ipureintro; exact Prod.ext (lanes_step_j k.val hk) (lanes_step_d k.val hk)
  isplitl [Hc]; · iexact Hc
  isplitl [Hi]; · iexact Hi
  iexists _; isplitl [Hs]
  · iexact Hs
  · ipureintro
    have e2 := read_colM (colC d L k1_h1 av)
    refine stage_step (F := F) sgM1.view g (tgt1 d L hw av h0 s) k.val hk _ (k1_off4_eq k) _ _ _ hg ?_
    intro x
    simp only [e1, e2]
    have hN : 5120 * s + (16 * k.val + lane x) < 40960 := by have := lane_lt x; omega
    exact (gather_val d L hw k1_h1 av h0 hh s hs k.val hk h1 h2 x hN).trans (tgt1_eq d L hw av h0 s _ hN).symm

theorem tile_body1 (hF : (K (F := F)).Facts) (d : Dev nD) (L : grid1.Coords) (q : PosShare TreeShare)
    (av : Buf (Elt F) (aLoc d)) (h0 : Buf (Elt F) (o0Loc d)) (f : Buf (Elt F) (o1Loc d))
    (hh : ∀ i, (h0 i).toNat < 100000)
    (O : CellTallies nD τ sig (HIx 2)) (W : Waits sig (HIx 2)) (hO : ∀ g, O g none = 0) :
    iprop(levAts (K (F := F)).L (K (F := F)).lev ∗ emp ∗ res1 d L q av h0 f
        ∗ scopedBufs (V d (cV1 L) (jV1 L)) ∗ scopedSems0 (V d (cV1 L) (jV1 L)) ∗ owes (V d (cV1 L) (jV1 L)) O W)
      ⊢ wp frame (wpE (defs₀ (F := F)) 𝒱₀ (V d (cV1 L) (jV1 L)) none) Set.univ
          (cc1__hop1_kernel L (Memref.whole main_v0_scv) (Memref.isWhole_whole _) (Memref.whole main_v1_scv) (Memref.isWhole_whole _)
            (Memref.whole main_v2_scv) (Memref.isWhole_whole _) (Memref.whole cc1_scratch0) (Memref.isWhole_whole _)
            (Memref.whole cc1_scratch1) (Memref.isWhole_whole _) (Memref.whole cc1_scratch2) (Memref.isWhole_whole _)
            (Memref.whole cc1_scratch3) (Memref.isWhole_whole _) (Memref.whole cc1_scratch4) (Memref.isWhole_whole _)
            cc1_scratch5 cc1_scratch6 cc1_scratch7 cc1_scratch8 cc1_scratch9)
          fun _ => iprop(res1 d L q av h0 (val1 d h0 av) ∗ scopedBufs (V d (cV1 L) (jV1 L)) ∗ scopedSems0 (V d (cV1 L) (jV1 L))
            ∗ ∃ W', ⌜∀ p ∈ W', p ∈ W ∨ p.2 = none⌝ ∗ owes (V d (cV1 L) (jV1 L)) O W') := by
  by_cases hw : wid1 L < 25
  · have k1_h1 : k1_cond1 L = 1#1 := by
      revert hw; unfold wid1; revert L; decide +kernel
    simp only [cc1__hop1_kernel_eq_skeleton]; unfold cc1__hop1_kernel_skel
    unfold res1
    rw [(K (F := F)).scopedBufs_V hF d (cV1 L) (jV1 L), SparseCore.Cfg.scopedSems0_V (Val := Elt F) d (cV1 L) (jV1 L), ownSems0_V1, ownBufs_V1,
      own1_of_lt hw]
    iintro ⟨#Hlv, -, ⟨Ha, Hh, Ho⟩, ⟨⟨%fc, Hc⟩, ⟨%fi0, Hi0⟩, ⟨%fi1, Hi1⟩, ⟨%fs0, Hs0⟩, ⟨%fs1, Hs1⟩, Hbufs⟩, ⟨HsC, HsI0, HsI1, HsO0, HsO1, Hsems⟩, HO⟩
    ihave Hmw := ((K (F := F)).mayWaits_none (thr := V d (cV1 L) (jV1 L)) hO) $$ Hlv
    ihave Ha' := (Entails.of_eq (pts_aM (F := F) d L q av).symm) $$ Ha
    ihave Hhh := (pointsTo_share (PosShare.mem_left_op_right q)).1 $$ Hh
    icases Hhh with ⟨Hh1, Hh2⟩
    ihave Hh1' := (Entails.of_eq (pts_hM (F := F) d L q.left h0).symm) $$ Hh1
    ihave Hh2' := (Entails.of_eq (pts_hM (F := F) d L q.right h0).symm) $$ Hh2
    ihave Hc' := (Entails.of_eq (pts_colM (F := F) d L fc).symm) $$ Hc
    ihave Hi0' := (Entails.of_eq (pts_ixM0 (F := F) d L fi0).symm) $$ Hi0
    ihave Hi1' := (Entails.of_eq (pts_ixM1 (F := F) d L fi1).symm) $$ Hi1
    ihave Hs0' := (Entails.of_eq (pts_sgM0 (F := F) d L fs0).symm) $$ Hs0
    ihave Hs1' := (Entails.of_eq (pts_sgM1 (F := F) d L fs1).symm) $$ Hs1
    ihave Hos := (row_split (F := F) d L hw k1_h1 f) $$ Ho
    icases Hos with ⟨Ho0, Ho1, Ho2, Ho3, Ho4, Ho5, Ho6, Ho7⟩
    sl_exec_parts
    ihave Hc' := (Entails.of_eq (congrArg (fun g => (colM.view.loc (V d (cV1 L) (jV1 L)) ↦{fullShare} g : sProp 𝕄)) (View.write_whole_univ (Val := Elt F) cc1_scratch0 fc _))) $$ Hc'
    ihave Hi0' := (Entails.of_eq (congrArg (fun g => (ixM0.view.loc (V d (cV1 L) (jV1 L)) ↦{fullShare} g : sProp 𝕄)) (View.write_whole_univ (Val := Elt F) cc1_scratch1 _ _))) $$ Hi0'
    sl_for (inv0 d L hw k1_h1 av h0 0 (by omega)) $$ [Hc' Hi0' Hs0']
    case region => exact fun k acc => trip0 d L hw k1_h1 av h0 hh 0 (by omega) (jvec 0) (jvec 0) (jvec 0) 0#32 k acc
    · unfold inv0
      isplitr; · ipureintro; exact Prod.ext lanes_init_j lanes_init_d
      isplitl [Hc']; · iexact Hc'
      isplitl [Hi0']; · iexact Hi0'
      iexists _; isplitl [Hs0']
      · iexact Hs0'
      · ipureintro; intro n hn h; omega
    iintro %acc1 HI
    unfold inv0
    icases HI with ⟨-, Hc', Hi0', %g0, Hs0', %hg0⟩
    sl_exec_parts
    ihave Hi1' := (Entails.of_eq (congrArg (fun g => (ixM1.view.loc (V d (cV1 L) (jV1 L)) ↦{fullShare} g : sProp 𝕄)) (View.write_whole_univ (Val := Elt F) cc1_scratch2 _ _))) $$ Hi1'
    sl_for (inv1 d L hw k1_h1 av h0 1 (by omega)) $$ [Hc' Hi1' Hs1']
    case region => exact fun k acc => trip1 d L hw k1_h1 av h0 hh 1 (by omega) (jvec 0) (jvec 0) (jvec 0) 0#32 k acc
    · unfold inv1
      isplitr; · ipureintro; exact Prod.ext lanes_init_j lanes_init_d
      isplitl [Hc']; · iexact Hc'
      isplitl [Hi1']; · iexact Hi1'
      iexists _; isplitl [Hs1']
      · iexact Hs1'
      · ipureintro; intro n hn h; omega
    iintro %acc2 HI
    unfold inv1
    icases HI with ⟨-, Hc', Hi1', %g1, Hs1', %hg1⟩
    sl_exec_parts
    ihave Hi0' := (Entails.of_eq (congrArg (fun g => (ixM0.view.loc (V d (cV1 L) (jV1 L)) ↦{fullShare} g : sProp 𝕄)) (View.write_whole_univ (Val := Elt F) cc1_scratch1 _ _))) $$ Hi0'
    sl_for (inv0 d L hw k1_h1 av h0 2 (by omega)) $$ [Hc' Hi0' Hs0']
    case region => exact fun k acc => trip0 d L hw k1_h1 av h0 hh 2 (by omega) (jvec 0) (jvec 0) (jvec 0) 0#32 k acc
    · unfold inv0
      isplitr; · ipureintro; exact Prod.ext lanes_init_j lanes_init_d
      isplitl [Hc']; · iexact Hc'
      isplitl [Hi0']; · iexact Hi0'
      iexists _; isplitl [Hs0']
      · iexact Hs0'
      · ipureintro; intro n hn h; omega
    iintro %acc3 HI
    unfold inv0
    icases HI with ⟨-, Hc', Hi0', %g2, Hs0', %hg2⟩
    sl_exec_parts
    ihave Hi1' := (Entails.of_eq (congrArg (fun g => (ixM1.view.loc (V d (cV1 L) (jV1 L)) ↦{fullShare} g : sProp 𝕄)) (View.write_whole_univ (Val := Elt F) cc1_scratch2 _ _))) $$ Hi1'
    sl_for (inv1 d L hw k1_h1 av h0 3 (by omega)) $$ [Hc' Hi1' Hs1']
    case region => exact fun k acc => trip1 d L hw k1_h1 av h0 hh 3 (by omega) (jvec 0) (jvec 0) (jvec 0) 0#32 k acc
    · unfold inv1
      isplitr; · ipureintro; exact Prod.ext lanes_init_j lanes_init_d
      isplitl [Hc']; · iexact Hc'
      isplitl [Hi1']; · iexact Hi1'
      iexists _; isplitl [Hs1']
      · iexact Hs1'
      · ipureintro; intro n hn h; omega
    iintro %acc4 HI
    unfold inv1
    icases HI with ⟨-, Hc', Hi1', %g3, Hs1', %hg3⟩
    sl_exec_parts
    ihave Hi0' := (Entails.of_eq (congrArg (fun g => (ixM0.view.loc (V d (cV1 L) (jV1 L)) ↦{fullShare} g : sProp 𝕄)) (View.write_whole_univ (Val := Elt F) cc1_scratch1 _ _))) $$ Hi0'
    sl_for (inv0 d L hw k1_h1 av h0 4 (by omega)) $$ [Hc' Hi0' Hs0']
    case region => exact fun k acc => trip0 d L hw k1_h1 av h0 hh 4 (by omega) (jvec 0) (jvec 0) (jvec 0) 0#32 k acc
    · unfold inv0
      isplitr; · ipureintro; exact Prod.ext lanes_init_j lanes_init_d
      isplitl [Hc']; · iexact Hc'
      isplitl [Hi0']; · iexact Hi0'
      iexists _; isplitl [Hs0']
      · iexact Hs0'
      · ipureintro; intro n hn h; omega
    iintro %acc5 HI
    unfold inv0
    icases HI with ⟨-, Hc', Hi0', %g4, Hs0', %hg4⟩
    sl_exec_parts
    ihave Hi1' := (Entails.of_eq (congrArg (fun g => (ixM1.view.loc (V d (cV1 L) (jV1 L)) ↦{fullShare} g : sProp 𝕄)) (View.write_whole_univ (Val := Elt F) cc1_scratch2 _ _))) $$ Hi1'
    sl_for (inv1 d L hw k1_h1 av h0 5 (by omega)) $$ [Hc' Hi1' Hs1']
    case region => exact fun k acc => trip1 d L hw k1_h1 av h0 hh 5 (by omega) (jvec 0) (jvec 0) (jvec 0) 0#32 k acc
    · unfold inv1
      isplitr; · ipureintro; exact Prod.ext lanes_init_j lanes_init_d
      isplitl [Hc']; · iexact Hc'
      isplitl [Hi1']; · iexact Hi1'
      iexists _; isplitl [Hs1']
      · iexact Hs1'
      · ipureintro; intro n hn h; omega
    iintro %acc6 HI
    unfold inv1
    icases HI with ⟨-, Hc', Hi1', %g5, Hs1', %hg5⟩
    sl_exec_parts
    ihave Hi0' := (Entails.of_eq (congrArg (fun g => (ixM0.view.loc (V d (cV1 L) (jV1 L)) ↦{fullShare} g : sProp 𝕄)) (View.write_whole_univ (Val := Elt F) cc1_scratch1 _ _))) $$ Hi0'
    sl_for (inv0 d L hw k1_h1 av h0 6 (by omega)) $$ [Hc' Hi0' Hs0']
    case region => exact fun k acc => trip0 d L hw k1_h1 av h0 hh 6 (by omega) (jvec 0) (jvec 0) (jvec 0) 0#32 k acc
    · unfold inv0
      isplitr; · ipureintro; exact Prod.ext lanes_init_j lanes_init_d
      isplitl [Hc']; · iexact Hc'
      isplitl [Hi0']; · iexact Hi0'
      iexists _; isplitl [Hs0']
      · iexact Hs0'
      · ipureintro; intro n hn h; omega
    iintro %acc7 HI
    unfold inv0
    icases HI with ⟨-, Hc', Hi0', %g6, Hs0', %hg6⟩
    sl_exec_parts
    ihave Hi1' := (Entails.of_eq (congrArg (fun g => (ixM1.view.loc (V d (cV1 L) (jV1 L)) ↦{fullShare} g : sProp 𝕄)) (View.write_whole_univ (Val := Elt F) cc1_scratch2 _ _))) $$ Hi1'
    sl_for (inv1 d L hw k1_h1 av h0 7 (by omega)) $$ [Hc' Hi1' Hs1']
    case region => exact fun k acc => trip1 d L hw k1_h1 av h0 hh 7 (by omega) (jvec 0) (jvec 0) (jvec 0) 0#32 k acc
    · unfold inv1
      isplitr; · ipureintro; exact Prod.ext lanes_init_j lanes_init_d
      isplitl [Hc']; · iexact Hc'
      isplitl [Hi1']; · iexact Hi1'
      iexists _; isplitl [Hs1']
      · iexact Hs1'
      · ipureintro; intro n hn h; omega
    iintro %acc8 HI
    unfold inv1
    icases HI with ⟨-, Hc', Hi1', %g7, Hs1', %hg7⟩
    sl_exec_parts
    sl_step
    have ht1 : Scf.trips k1_t1_loop.lb k1_t1_loop.ub k1_t1_loop.st = 320 := by decide
    have ht2 : Scf.trips k1_t2_loop.lb k1_t2_loop.ub k1_t2_loop.st = 320 := by decide
    have ht3 : Scf.trips k1_t3_loop.lb k1_t3_loop.ub k1_t3_loop.st = 320 := by decide
    have ht4 : Scf.trips k1_t4_loop.lb k1_t4_loop.ub k1_t4_loop.st = 320 := by decide
    have ht5 : Scf.trips k1_t5_loop.lb k1_t5_loop.ub k1_t5_loop.st = 320 := by decide
    have ht6 : Scf.trips k1_t6_loop.lb k1_t6_loop.ub k1_t6_loop.st = 320 := by decide
    have ht7 : Scf.trips k1_t7_loop.lb k1_t7_loop.ub k1_t7_loop.st = 320 := by decide
    have ht8 : Scf.trips k1_t8_loop.lb k1_t8_loop.ub k1_t8_loop.st = 320 := by decide
    ihave Ho0 := (Entails.of_eq (pointsTo_congr (out_val d L hw av h0 0 (by omega) _ (k1_off3_eq L) _ _ g0 (fun n hn => hg0 n hn (by rw [ht1]; omega))))) $$ Ho0
    ihave Ho1 := (Entails.of_eq (pointsTo_congr (out_val d L hw av h0 1 (by omega) _ (k1_off5_eq L) _ _ g1 (fun n hn => hg1 n hn (by rw [ht2]; omega))))) $$ Ho1
    ihave Ho2 := (Entails.of_eq (pointsTo_congr (out_val d L hw av h0 2 (by omega) _ (k1_off7_eq L) _ _ g2 (fun n hn => hg2 n hn (by rw [ht3]; omega))))) $$ Ho2
    ihave Ho3 := (Entails.of_eq (pointsTo_congr (out_val d L hw av h0 3 (by omega) _ (k1_off9_eq L) _ _ g3 (fun n hn => hg3 n hn (by rw [ht4]; omega))))) $$ Ho3
    ihave Ho4 := (Entails.of_eq (pointsTo_congr (out_val d L hw av h0 4 (by omega) _ (k1_off11_eq L) _ _ g4 (fun n hn => hg4 n hn (by rw [ht5]; omega))))) $$ Ho4
    ihave Ho5 := (Entails.of_eq (pointsTo_congr (out_val d L hw av h0 5 (by omega) _ (k1_off13_eq L) _ _ g5 (fun n hn => hg5 n hn (by rw [ht6]; omega))))) $$ Ho5
    ihave Ho6 := (Entails.of_eq (pointsTo_congr (out_val d L hw av h0 6 (by omega) _ (k1_off15_eq L) _ _ g6 (fun n hn => hg6 n hn (by rw [ht7]; omega))))) $$ Ho6
    ihave Ho7 := (Entails.of_eq (pointsTo_congr (out_val d L hw av h0 7 (by omega) _ (k1_off17_eq L) _ _ g7 (fun n hn => hg7 n hn (by rw [ht8]; omega))))) $$ Ho7
    isplitl [Ha' Hh1' Hh2' Ho0 Ho1 Ho2 Ho3 Ho4 Ho5 Ho6 Ho7]
    · isplitl [Ha']
      · iapply (Entails.of_eq (pts_aM (F := F) d L q av)); iexact Ha'
      isplitl [Hh1' Hh2']
      · ihave Hh1 := (Entails.of_eq (pts_hM (F := F) d L q.left h0)) $$ Hh1'
        ihave Hh2 := (Entails.of_eq (pts_hM (F := F) d L q.right h0)) $$ Hh2'
        iapply (pointsTo_share (PosShare.mem_left_op_right q)).2
        isplitl [Hh1]; · iexact Hh1
        iexact Hh2
      · iapply (row_join (F := F) d L hw k1_h1 (val1 d h0 av) (val1 d h0 av) (val1 d h0 av) (val1 d h0 av) (val1 d h0 av) (val1 d h0 av) (val1 d h0 av) (val1 d h0 av) (val1 d h0 av)
          (fun _ _ => rfl) (fun _ _ => rfl) (fun _ _ => rfl) (fun _ _ => rfl) (fun _ _ => rfl) (fun _ _ => rfl) (fun _ _ => rfl) (fun _ _ => rfl))
        isplitl [Ho0]; · iexact Ho0
        isplitl [Ho1]; · iexact Ho1
        isplitl [Ho2]; · iexact Ho2
        isplitl [Ho3]; · iexact Ho3
        isplitl [Ho4]; · iexact Ho4
        isplitl [Ho5]; · iexact Ho5
        isplitl [Ho6]; · iexact Ho6
        iexact Ho7
    isplitl [Hc' Hi0' Hi1' Hs0' Hs1' Hbufs]
    · isplitl [Hc']; · iexists _; iapply (Entails.of_eq (pts_colM (F := F) d L _)); iexact Hc'
      isplitl [Hi0']; · iexists _; iapply (Entails.of_eq (pts_ixM0 (F := F) d L _)); iexact Hi0'
      isplitl [Hi1']; · iexists _; iapply (Entails.of_eq (pts_ixM1 (F := F) d L _)); iexact Hi1'
      isplitl [Hs0']; · iexists _; iapply (Entails.of_eq (pts_sgM0 (F := F) d L _)); iexact Hs0'
      isplitl [Hs1']; · iexists _; iapply (Entails.of_eq (pts_sgM1 (F := F) d L _)); iexact Hs1'
      iexact Hbufs
    isplitl [HsC HsI0 HsI1 HsO0 HsO1 Hsems]
    · isplitl [HsC]; · iexact HsC
      isplitl [HsI0]; · iexact HsI0
      isplitl [HsI1]; · iexact HsI1
      isplitl [HsO0]; · iexact HsO0
      isplitl [HsO1]; · iexact HsO1
      iexact Hsems
    iexists _; isplitr
    pick_goal 2
    · iexact HO
    ipureintro
    repeat (first | exact fun p hp => Or.inl hp | refine waits_insert _ ?_)
  · have k1_h1 : ¬ k1_cond1 L = 1#1 := by
      revert hw; unfold wid1; revert L; decide +kernel
    simp only [cc1__hop1_kernel_eq_skeleton]; unfold cc1__hop1_kernel_skel
    iintro ⟨-, -, Hst, Hsb, Hss, HO⟩
    sl_exec_parts
    sl_step
    isplitl [Hst]
    · unfold res1
      rw [own1_of_not_lt hw, pointsTo_empty, pointsTo_empty]
      iexact Hst
    isplitl [Hsb]; · iexact Hsb
    isplitl [Hss]; · iexact Hss
    iexists W; isplitr
    · ipureintro; exact fun p hp => .inl hp
    · iexact HO

end Cert.Proof.K

end
-- ==== Proof.K.Deal.lean ====
/- How the arrays are shared out among the workers, and the two stages' obligations for the launch. -/
import proofs.«215163_g69475390980333_cont_9to1_m_779_28_alg».proof.Proof.K.Body0
import proofs.«215163_g69475390980333_cont_9to1_m_779_28_alg».proof.Proof.K.Body1

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 2) (Elt F) ℕ UU ℕ

variable (m : (ℓ : Loc nD τ sig) → Buf (Elt F) ℓ) (ρ : Dev nD → PrngReg)

abbrev X (d : Dev nD) : Buf (Elt F) (xLoc d) := m (xLoc d)
def AT (d : Dev nD) : Buf (Elt F) (aLoc d) := Cert.Spec.adjT (m (adjLoc d))
def H0 (d : Dev nD) : Buf (Elt F) (o0Loc d) := Cert.Spec.k0 (X m d) (AT m d)
def H1 (d : Dev nD) : Buf (Elt F) (o1Loc d) := Cert.Spec.k1 (H0 m d) (AT m d)

def PreOK : Prop := (∀ d i, (m (xLoc d) i).toNat < 100000) ∧ (∀ d i, (m (adjLoc d) i).toNat < 100000)

theorem H0_lt (hpre : PreOK m) (d : Dev nD) (i : Idx (o0Loc d)) : (H0 m d i).toNat < 100000 := hpre.2 d _

def coordsV0 (c : Fin (grid0.bound 0)) (s : Fin (grid0.bound 1)) : grid0.Coords :=
  fun | 0 => c | 1 => s | ⟨_ + 2, h⟩ => absurd h (Nat.not_lt.2 (Nat.le_add_left _ _))
def coordsV1 (c : Fin (grid1.bound 0)) (s : Fin (grid1.bound 1)) : grid1.Coords :=
  fun | 0 => c | 1 => s | ⟨_ + 2, h⟩ => absurd h (Nat.not_lt.2 (Nat.le_add_left _ _))

def own0N (c s : ℕ) : Finset S10x4096.Idx := if h : 2 * s + c < 10 then (row0 ⟨2 * s + c, h⟩).set else ∅
def own1N (c s : ℕ) : Finset S25x40960.Idx := if h : 2 * s + c < 25 then (row1 ⟨2 * s + c, h⟩).set else ∅

theorem own0_coords (c : Fin (grid0.bound 0)) (s : Fin (grid0.bound 1)) : own0 (coordsV0 c s) = own0N c.val s.val := rfl
theorem own1_coords (c : Fin (grid1.bound 0)) (s : Fin (grid1.bound 1)) : own1 (coordsV1 c s) = own1N c.val s.val := rfl

theorem own0N_disjoint {c s c' s' : ℕ} (h : 2 * s + c ≠ 2 * s' + c') : Disjoint (own0N c s) (own0N c' s') := by
  unfold own0N
  split_ifs with h1 h2 h2
  · exact Rect.part_disjoint hdiv0 (fun e => h (congrArg Fin.val e))
  · exact Finset.disjoint_empty_right _
  · exact Finset.disjoint_empty_left _
  · exact Finset.disjoint_empty_left _
theorem own1N_disjoint {c s c' s' : ℕ} (h : 2 * s + c ≠ 2 * s' + c') : Disjoint (own1N c s) (own1N c' s') := by
  unfold own1N
  split_ifs with h1 h2 h2
  · exact Rect.part_disjoint hdiv1 (fun e => h (congrArg Fin.val e))
  · exact Finset.disjoint_empty_right _
  · exact Finset.disjoint_empty_left _
  · exact Finset.disjoint_empty_left _

def ownC0 (c : ℕ) : Finset S10x4096.Idx := (Finset.univ : Finset (Fin 16)).biUnion fun s => own0N c s.val
def ownC1 (c : ℕ) : Finset S25x40960.Idx := (Finset.univ : Finset (Fin 16)).biUnion fun s => own1N c s.val

theorem sub0_disjoint (c : ℕ) : ∀ s ∈ (Finset.univ : Finset (Fin 16)), ∀ s' ∈ (Finset.univ : Finset (Fin 16)), s ≠ s' →
    Disjoint (own0N c s.val) (own0N c s'.val) :=
  fun s _ s' _ h => own0N_disjoint (fun e => h (Fin.ext (by omega)))
theorem sub1_disjoint (c : ℕ) : ∀ s ∈ (Finset.univ : Finset (Fin 16)), ∀ s' ∈ (Finset.univ : Finset (Fin 16)), s ≠ s' →
    Disjoint (own1N c s.val) (own1N c s'.val) :=
  fun s _ s' _ h => own1N_disjoint (fun e => h (Fin.ext (by omega)))

theorem core0_disjoint : ∀ c ∈ (Finset.univ : Finset (Fin 2)), ∀ c' ∈ (Finset.univ : Finset (Fin 2)), c ≠ c' →
    Disjoint (ownC0 c.val) (ownC0 c'.val) := by
  intro c _ c' _ h
  unfold ownC0
  refine (Finset.disjoint_biUnion_left _ _ _).mpr fun s _ => (Finset.disjoint_biUnion_right _ _ _).mpr fun s' _ => ?_
  refine own0N_disjoint fun e => h (Fin.ext ?_)
  have := c.isLt; have := c'.isLt; omega
theorem core1_disjoint : ∀ c ∈ (Finset.univ : Finset (Fin 2)), ∀ c' ∈ (Finset.univ : Finset (Fin 2)), c ≠ c' →
    Disjoint (ownC1 c.val) (ownC1 c'.val) := by
  intro c _ c' _ h
  unfold ownC1
  refine (Finset.disjoint_biUnion_left _ _ _).mpr fun s _ => (Finset.disjoint_biUnion_right _ _ _).mpr fun s' _ => ?_
  refine own1N_disjoint fun e => h (Fin.ext ?_)
  have := c.isLt; have := c'.isLt; omega

theorem core0_cover : (Finset.univ : Finset (Fin 2)).biUnion (fun c => ownC0 c.val) = Finset.univ := by
  ext i
  simp only [Finset.mem_biUnion, Finset.mem_univ, true_and, iff_true]
  obtain ⟨r, hr⟩ := Rect.exists_mem_part hdiv0 i
  have hr10 := r.isLt
  refine ⟨⟨r.val % 2, Nat.mod_lt _ (by decide)⟩, ?_⟩
  unfold ownC0
  simp only [Finset.mem_biUnion, Finset.mem_univ, true_and]
  refine ⟨⟨r.val / 2, by omega⟩, ?_⟩
  have hw : 2 * (r.val / 2) + r.val % 2 = r.val := Nat.div_add_mod r.val 2
  unfold own0N
  rw [dif_pos (by show 2 * (r.val / 2) + r.val % 2 < 10; omega)]
  have e : (⟨2 * (r.val / 2) + r.val % 2, by omega⟩ : Fin 10) = r := Fin.ext hw
  rw [e]; exact hr
theorem core1_cover : (Finset.univ : Finset (Fin 2)).biUnion (fun c => ownC1 c.val) = Finset.univ := by
  ext i
  simp only [Finset.mem_biUnion, Finset.mem_univ, true_and, iff_true]
  obtain ⟨r, hr⟩ := Rect.exists_mem_part hdiv1 i
  have hr25 := r.isLt
  refine ⟨⟨r.val % 2, Nat.mod_lt _ (by decide)⟩, ?_⟩
  unfold ownC1
  simp only [Finset.mem_biUnion, Finset.mem_univ, true_and]
  refine ⟨⟨r.val / 2, by omega⟩, ?_⟩
  have hw : 2 * (r.val / 2) + r.val % 2 = r.val := Nat.div_add_mod r.val 2
  unfold own1N
  rw [dif_pos (by show 2 * (r.val / 2) + r.val % 2 < 25; omega)]
  have e : (⟨2 * (r.val / 2) + r.val % 2, by omega⟩ : Fin 25) = r := Fin.ext hw
  rw [e]; exact hr

abbrev qC (c : ℕ) : PosShare TreeShare := Transfers.shareTokN fullShare c
abbrev qT (c s : ℕ) : PosShare TreeShare := Transfers.shareTokN (qC c) s

variable [FloatOps F]

def P : (K (F := F)).Pay (nD := nD) (Val := Elt F) (Name := ℕ) (U := UU) where
  st := fun q d c => match q with
    | 0 => iprop((xLoc d ↦{qC c.val} X m d) ∗ (aLoc d ↦{qC c.val} AT m d) ∗ (o0Loc d ↦[ownC0 c.val]{fullShare} m (o0Loc d)))
    | 1 => iprop((aLoc d ↦{qC c.val} AT m d) ∗ (o0Loc d ↦{qC c.val} H0 m d) ∗ (o1Loc d ↦[ownC1 c.val]{fullShare} m (o1Loc d)))
  dn := fun q d c => match q with
    | 0 => iprop((xLoc d ↦{qC c.val} X m d) ∗ (aLoc d ↦{qC c.val} AT m d) ∗ (o0Loc d ↦[ownC0 c.val]{fullShare} H0 m d))
    | 1 => iprop((aLoc d ↦{qC c.val} AT m d) ∗ (o0Loc d ↦{qC c.val} H0 m d) ∗ (o1Loc d ↦[ownC1 c.val]{fullShare} H1 m d))
  go := fun q d c i => match q with
    | 0 => res0 d (coordsV0 c i) (qT c.val i.val) (X m d) (AT m d) (m (o0Loc d))
    | 1 => res1 d (coordsV1 c i) (qT c.val i.val) (AT m d) (H0 m d) (m (o1Loc d))
  td := fun q d c i => match q with
    | 0 => res0 d (coordsV0 c i) (qT c.val i.val) (X m d) (AT m d) (H0 m d)
    | 1 => res1 d (coordsV1 c i) (qT c.val i.val) (AT m d) (H0 m d) (H1 m d)
  x := fun _ _ => iprop(emp)

instance P_storable : (P (F := F) m).IsStorable where
  st q d c := match q with
    | 0 => by unfold P; dsimp only; infer_instance
    | 1 => by unfold P; dsimp only; infer_instance
  dn q d c := match q with
    | 0 => by unfold P; dsimp only; infer_instance
    | 1 => by unfold P; dsimp only; infer_instance
  go q d c i := match q with
    | 0 => by unfold P res0; dsimp only; infer_instance
    | 1 => by unfold P res1; dsimp only; infer_instance
  td q d c i := match q with
    | 0 => by unfold P res0; dsimp only; infer_instance
    | 1 => by unfold P res1; dsimp only; infer_instance

theorem defs₀_vector0 (c : Fin τ.nSC) (s : Fin τ.nSub) :
    defs₀ (F := F) (.scVector c s) 0 ()
      = SparseCore.onTile hcore0 hsub0 (fun c s => cc0__hop0_kernel (coordsV0 c s)
          (Memref.whole main_v0_scv) (Memref.isWhole_whole _) (Memref.whole main_arg0_scv) (Memref.isWhole_whole _)
          (Memref.whole main_v1_scv) (Memref.isWhole_whole _) (Memref.whole cc0_scratch0) (Memref.isWhole_whole _)
          (Memref.whole cc0_scratch1) (Memref.isWhole_whole _) (Memref.whole cc0_scratch2) (Memref.isWhole_whole _)
          cc0_scratch3 cc0_scoped0 cc0_scoped1) ⟨⟩ c s := rfl

theorem defs₀_vector1 (c : Fin τ.nSC) (s : Fin τ.nSub) :
    defs₀ (F := F) (.scVector c s) 1 ()
      = SparseCore.onTile hcore1 hsub1 (fun c s => cc1__hop1_kernel (coordsV1 c s)
          (Memref.whole main_v0_scv) (Memref.isWhole_whole _) (Memref.whole main_v1_scv) (Memref.isWhole_whole _)
          (Memref.whole main_v2_scv) (Memref.isWhole_whole _) (Memref.whole cc1_scratch0) (Memref.isWhole_whole _)
          (Memref.whole cc1_scratch1) (Memref.isWhole_whole _) (Memref.whole cc1_scratch2) (Memref.isWhole_whole _)
          (Memref.whole cc1_scratch3) (Memref.isWhole_whole _) (Memref.whole cc1_scratch4) (Memref.isWhole_whole _)
          cc1_scratch5 cc1_scratch6 cc1_scratch7 cc1_scratch8 cc1_scratch9) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl0 (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  exact (tile_body0 hF d (coordsV0 ⟨_, hc.1⟩ ⟨_, hc.2⟩) _ (X m d) (AT m d) (m (o0Loc d)) (hpre.1 d) O W hO).trans (wp_mono frame _ _ fun _ => obl_post)

theorem tileObl1 (hF : (K (F := F)).Facts) (hpre : PreOK m) : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vector1]; simp only [SparseCore.onTile, hc, and_self, ↓reduceDIte]
  exact (tile_body1 hF d (coordsV1 ⟨_, hc.1⟩ ⟨_, hc.2⟩) _ (AT m d) (H0 m d) (m (o1Loc d)) (H0_lt m hpre d) O W hO).trans (wp_mono frame _ _ fun _ => obl_post)

theorem vecSplit0 : (K (F := F)).VecSplit' (P m) 0 := by
  intro d c
  show iprop((xLoc d ↦{qC c.val} X m d) ∗ (aLoc d ↦{qC c.val} AT m d) ∗ (o0Loc d ↦[ownC0 c.val]{fullShare} m (o0Loc d)))
      ⊢ |={Set.univ}=> iprop((bigSep Finset.univ fun i : Fin 16 => res0 d (coordsV0 c i) (qT c.val i.val) (X m d) (AT m d) (m (o0Loc d)))
        ∗ ((bigSep Finset.univ fun i : Fin 16 => res0 d (coordsV0 c i) (qT c.val i.val) (X m d) (AT m d) (H0 m d))
            -∗ iprop((xLoc d ↦{qC c.val} X m d) ∗ (aLoc d ↦{qC c.val} AT m d) ∗ (o0Loc d ↦[ownC0 c.val]{fullShare} H0 m d))))
  simp only [res0, own0_coords]
  rw [bigSep_sep', bigSep_sep', bigSep_sep', bigSep_sep']
  unfold ownC0
  rw [pointsTo_biUnion _ _ (sub0_disjoint c.val), pointsTo_biUnion _ _ (sub0_disjoint c.val)]
  iintro ⟨Hs1, Hs2, Ho⟩
  ihave Hs1' := (Transfers.pointsTo_toks_split (qC c.val) 16) $$ Hs1
  icases Hs1' with ⟨Hs1r, Hs1t⟩
  ihave Hs2' := (Transfers.pointsTo_toks_split (qC c.val) 16) $$ Hs2
  icases Hs2' with ⟨Hs2r, Hs2t⟩
  imodintro
  isplitl [Hs1t Hs2t Ho]
  · isplitl [Hs1t]; · iexact Hs1t
    isplitl [Hs2t]; · iexact Hs2t
    iexact Ho
  iintro ⟨Hs1t, Hs2t, Ho⟩
  isplitl [Hs1r Hs1t]
  · iapply (Transfers.pointsTo_toks_join (qC c.val) 16)
    isplitl [Hs1r]; · iexact Hs1r
    iexact Hs1t
  isplitl [Hs2r Hs2t]
  · iapply (Transfers.pointsTo_toks_join (qC c.val) 16)
    isplitl [Hs2r]; · iexact Hs2r
    iexact Hs2t
  iexact Ho

theorem vecSplit1 : (K (F := F)).VecSplit' (P m) 1 := by
  intro d c
  show iprop((aLoc d ↦{qC c.val} AT m d) ∗ (o0Loc d ↦{qC c.val} H0 m d) ∗ (o1Loc d ↦[ownC1 c.val]{fullShare} m (o1Loc d)))
      ⊢ |={Set.univ}=> iprop((bigSep Finset.univ fun i : Fin 16 => res1 d (coordsV1 c i) (qT c.val i.val) (AT m d) (H0 m d) (m (o1Loc d)))
        ∗ ((bigSep Finset.univ fun i : Fin 16 => res1 d (coordsV1 c i) (qT c.val i.val) (AT m d) (H0 m d) (H1 m d))
            -∗ iprop((aLoc d ↦{qC c.val} AT m d) ∗ (o0Loc d ↦{qC c.val} H0 m d) ∗ (o1Loc d ↦[ownC1 c.val]{fullShare} H1 m d))))
  simp only [res1, own1_coords]
  rw [bigSep_sep', bigSep_sep', bigSep_sep', bigSep_sep']
  unfold ownC1
  rw [pointsTo_biUnion _ _ (sub1_disjoint c.val), pointsTo_biUnion _ _ (sub1_disjoint c.val)]
  iintro ⟨Hs1, Hs2, Ho⟩
  ihave Hs1' := (Transfers.pointsTo_toks_split (qC c.val) 16) $$ Hs1
  icases Hs1' with ⟨Hs1r, Hs1t⟩
  ihave Hs2' := (Transfers.pointsTo_toks_split (qC c.val) 16) $$ Hs2
  icases Hs2' with ⟨Hs2r, Hs2t⟩
  imodintro
  isplitl [Hs1t Hs2t Ho]
  · isplitl [Hs1t]; · iexact Hs1t
    isplitl [Hs2t]; · iexact Hs2t
    iexact Ho
  iintro ⟨Hs1t, Hs2t, Ho⟩
  isplitl [Hs1r Hs1t]
  · iapply (Transfers.pointsTo_toks_join (qC c.val) 16)
    isplitl [Hs1r]; · iexact Hs1r
    iexact Hs1t
  isplitl [Hs2r Hs2t]
  · iapply (Transfers.pointsTo_toks_join (qC c.val) 16)
    isplitl [Hs2r]; · iexact Hs2r
    iexact Hs2t
  iexact Ho

end Cert.Proof.K

end
-- ==== Proof.K.Run.lean ====
/- The program's run: both results end at the lookup's functions of the inputs, the inputs unchanged. -/
import proofs.«215163_g69475390980333_cont_9to1_m_779_28_alg».proof.Proof.K.Deal
import Idealize.ShloMosaic.Lib.ValueLayout

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 2) (Elt F) ℕ UU ℕ

variable (m : (ℓ : Loc nD τ sig) → Buf (Elt F) ℓ) (ρ : Dev nD → PrngReg)

variable [FloatOps F]

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

abbrev x' : DevRef τ sig := Proc.devRef .tc (main_arg0 : Ref sig .tc)
abbrev adj' : DevRef τ sig := Proc.devRef .tc (main_arg1 : Ref sig .tc)
abbrev a' : DevRef τ sig := Proc.devRef .tc (main_v0 : Ref sig .tc)
abbrev o0' : DevRef τ sig := Proc.devRef .tc (main_v1 : Ref sig .tc)
abbrev o1' : DevRef τ sig := Proc.devRef .tc (main_v2 : Ref sig .tc)
abbrev r0' : DevRef τ sig := Proc.devRef .tc (main_v3 : Ref sig .tc)
abbrev r1' : DevRef τ sig := Proc.devRef .tc (main_v4 : Ref sig .tc)

omit [FloatOps F] in

theorem unscopedBufs_eq (d : Dev nD) (W : (b : Ref sig .tc) → Buf (Elt F) ((d.tc : Thread nD τ).loc b)) :
    (unscopedBufs d W : sProp 𝕄) = iprop((xLoc d ↦{fullShare} W main_arg0) ∗ (adjLoc d ↦{fullShare} W main_arg1) ∗ (aLoc d ↦{fullShare} W main_v0)
      ∗ (o0Loc d ↦{fullShare} W main_v1) ∗ (o1Loc d ↦{fullShare} W main_v2) ∗ (r0Loc d ↦{fullShare} W main_v3) ∗ (r1Loc d ↦{fullShare} W main_v4)) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in

theorem held_pair (d : Dev nD) (a b : DevRef τ sig) (hab : a ∉ ({b} : Finset (DevRef τ sig))) (W : Valuation τ sig (Elt F)) :
    (held (T d) {a, b} W : sProp 𝕄) = iprop(((d, a) ↦{fullShare} W a) ∗ ((d, b) ↦{fullShare} W b)) := by
  unfold held
  rw [SparseCore.bigSep_insert' hab, bigSep_singleton]

abbrev opA : HloOp τ sig (Elt F) :=
  StableHlo.unary main_arg1 main_v0 ((transpose S64x100000 [1, 0] · transposes_S100000x64_S64x100000_1_0) : (⟨S100000x64, .i32⟩ : BufTy).Contents (Elt F) → (⟨S64x100000, .i32⟩ : BufTy).Contents (Elt F))
abbrev opB : HloOp τ sig (Elt F) :=
  StableHlo.unary main_v1 main_v3 ((transpose S4096x10 [1, 0] · transposes_S10x4096_S4096x10_1_0) : (⟨S10x4096, .i32⟩ : BufTy).Contents (Elt F) → (⟨S4096x10, .i32⟩ : BufTy).Contents (Elt F))
abbrev opC : HloOp τ sig (Elt F) :=
  StableHlo.unary main_v2 main_v4 ((transpose S40960x25 [1, 0] · transposes_S25x40960_S40960x25_1_0) : (⟨S25x40960, .i32⟩ : BufTy).Contents (Elt F) → (⟨S40960x25, .i32⟩ : BufTy).Contents (Elt F))

theorem hA : (opA (F := F)).bufs ⊆ ({adj', a'} : Finset (DevRef τ sig)) := show ({adj', a'} : Finset (DevRef τ sig)) ⊆ {adj', a'} from Finset.Subset.refl _
theorem hB : (opB (F := F)).bufs ⊆ ({o0', r0'} : Finset (DevRef τ sig)) := show ({o0', r0'} : Finset (DevRef τ sig)) ⊆ {o0', r0'} from Finset.Subset.refl _
theorem hC : (opC (F := F)).bufs ⊆ ({o1', r1'} : Finset (DevRef τ sig)) := show ({o1', r1'} : Finset (DevRef τ sig)) ⊆ {o1', r1'} from Finset.Subset.refl _

def R0 (d : Dev nD) : Buf (Elt F) (r0Loc d) := transpose S4096x10 [1, 0] (H0 m d) transposes_S10x4096_S4096x10_1_0
def R1 (d : Dev nD) : Buf (Elt F) (r1Loc d) := transpose S40960x25 [1, 0] (H1 m d) transposes_S25x40960_S40960x25_1_0

theorem AT_eq (d : Dev nD) : (transpose S64x100000 [1, 0] (m (adjLoc d)) transposes_S100000x64_S64x100000_1_0 : Buf (Elt F) (aLoc d)) = AT m d := by
  funext i
  obtain ⟨p, q, rfl⟩ : ∃ (p : Fin 64) (q : Fin 100000), i = ValueIdx.ix2 p q := ⟨i 0, i 1, ValueIdx.eq_ix2 i⟩
  exact ValueIdx.transpose_ix2_apply _ _ p q

theorem R0_eq (d : Dev nD) : R0 m d = Cert.Spec.hop0 (m (xLoc d)) (m (adjLoc d)) := by
  funext i
  obtain ⟨p, q, rfl⟩ : ∃ (p : Fin 4096) (q : Fin 10), i = ValueIdx.ix2 p q := ⟨i 0, i 1, ValueIdx.eq_ix2 i⟩
  exact ValueIdx.transpose_ix2_apply _ _ p q
theorem R1_eq (d : Dev nD) : R1 m d = Cert.Spec.hop1 (m (xLoc d)) (m (adjLoc d)) := by
  funext i
  obtain ⟨p, q, rfl⟩ : ∃ (p : Fin 40960) (q : Fin 25), i = ValueIdx.ix2 p q := ⟨i 0, i 1, ValueIdx.eq_ix2 i⟩
  exact ValueIdx.transpose_ix2_apply _ _ p q

def V0 (d : Dev nD) : Valuation τ sig (Elt F) := fun b => m (d, b)
def VB (d : Dev nD) : Valuation τ sig (Elt F) := Function.update (V0 m d) o0' (H0 m d)
def VC (d : Dev nD) : Valuation τ sig (Elt F) := Function.update (V0 m d) o1' (H1 m d)

theorem VB_o0 (d : Dev nD) : VB m d o0' = H0 m d := Function.update_self _ _ _
theorem VB_r0 (d : Dev nD) : VB m d r0' = m (r0Loc d) := Function.update_of_ne (show r0' ≠ o0' by decide) _ _
theorem VC_o1 (d : Dev nD) : VC m d o1' = H1 m d := Function.update_self _ _ _
theorem VC_r1 (d : Dev nD) : VC m d r1' = m (r1Loc d) := Function.update_of_ne (show r1' ≠ o1' by decide) _ _

theorem resA_adj (d : Dev nD) : (opA (F := F)).result (V0 m d) adj' = m (adjLoc d) :=
  StableHlo.unary_result_ne' _ _ _ _ (show (main_arg1 : Ref sig .tc) ≠ main_v0 by decide)
theorem resA_a (d : Dev nD) : (opA (F := F)).result (V0 m d) a' = AT m d :=
  (StableHlo.unary_result' _ _ _ _).trans (AT_eq m d)
theorem resB_o0 (d : Dev nD) : (opB (F := F)).result (VB m d) o0' = H0 m d :=
  (StableHlo.unary_result_ne' _ _ _ _ (show (main_v1 : Ref sig .tc) ≠ main_v3 by decide)).trans (VB_o0 m d)
theorem resB_r0 (d : Dev nD) : (opB (F := F)).result (VB m d) r0' = R0 m d := by
  refine (StableHlo.unary_result' _ _ _ _).trans ?_
  show transpose S4096x10 [1, 0] (VB m d o0') transposes_S10x4096_S4096x10_1_0 = _
  rw [VB_o0]; rfl
theorem resC_o1 (d : Dev nD) : (opC (F := F)).result (VC m d) o1' = H1 m d :=
  (StableHlo.unary_result_ne' _ _ _ _ (show (main_v2 : Ref sig .tc) ≠ main_v4 by decide)).trans (VC_o1 m d)
theorem resC_r1 (d : Dev nD) : (opC (F := F)).result (VC m d) r1' = R1 m d := by
  refine (StableHlo.unary_result' _ _ _ _).trans ?_
  show transpose S40960x25 [1, 0] (VC m d o1') transposes_S25x40960_S40960x25_1_0 = _
  rw [VC_o1]; rfl

theorem heldA_res (d : Dev nD) : (held (T d) {adj', a'} ((opA (F := F)).result (V0 m d)) : sProp 𝕄)
    = iprop(((d, adj') ↦{fullShare} m (adjLoc d)) ∗ ((d, a') ↦{fullShare} AT m d)) := by
  rw [held_pair (F := F) d adj' a' (by decide), resA_adj, resA_a]
theorem heldB_res (d : Dev nD) : (held (T d) {o0', r0'} ((opB (F := F)).result (VB m d)) : sProp 𝕄)
    = iprop(((d, o0') ↦{fullShare} H0 m d) ∗ ((d, r0') ↦{fullShare} R0 m d)) := by
  rw [held_pair (F := F) d o0' r0' (by decide), resB_o0, resB_r0]
theorem heldC_res (d : Dev nD) : (held (T d) {o1', r1'} ((opC (F := F)).result (VC m d)) : sProp 𝕄)
    = iprop(((d, o1') ↦{fullShare} H1 m d) ∗ ((d, r1') ↦{fullShare} R1 m d)) := by
  rw [held_pair (F := F) d o1' r1' (by decide), resC_o1, resC_r1]

omit [FloatOps F] in
theorem o0_cores (d : Dev nD) (f : Buf (Elt F) (o0Loc d)) :
    (o0Loc d ↦{fullShare} f : sProp 𝕄) = bigSep Finset.univ fun c : Fin 2 => o0Loc d ↦[ownC0 c.val]{fullShare} f := by
  rw [← pointsTo_biUnion Finset.univ (ℓ := o0Loc d) (fun c : Fin 2 => ownC0 c.val) core0_disjoint, core0_cover]; try rfl
omit [FloatOps F] in
theorem o1_cores (d : Dev nD) (f : Buf (Elt F) (o1Loc d)) :
    (o1Loc d ↦{fullShare} f : sProp 𝕄) = bigSep Finset.univ fun c : Fin 2 => o1Loc d ↦[ownC1 c.val]{fullShare} f := by
  rw [← pointsTo_biUnion Finset.univ (ℓ := o1Loc d) (fun c : Fin 2 => ownC1 c.val) core1_disjoint, core1_cover]; try rfl

theorem st0_eq (d : Dev nD) : (bigSep Finset.univ fun c : Fin ((K (F := F)).nCore 0) => (P m).st 0 d c)
    = iprop((bigSep Finset.univ fun c : Fin 2 => xLoc d ↦{qC c.val} X m d) ∗ (bigSep Finset.univ fun c : Fin 2 => aLoc d ↦{qC c.val} AT m d)
        ∗ (bigSep Finset.univ fun c : Fin 2 => o0Loc d ↦[ownC0 c.val]{fullShare} m (o0Loc d))) := by
  show (bigSep (Finset.univ : Finset (Fin 2)) fun c => iprop((xLoc d ↦{qC c.val} X m d) ∗ (aLoc d ↦{qC c.val} AT m d) ∗ (o0Loc d ↦[ownC0 c.val]{fullShare} m (o0Loc d)))) = _
  rw [bigSep_sep', bigSep_sep']
theorem dn0_eq (d : Dev nD) : (bigSep Finset.univ fun c : Fin ((K (F := F)).nCore 0) => (P m).dn 0 d c)
    = iprop((bigSep Finset.univ fun c : Fin 2 => xLoc d ↦{qC c.val} X m d) ∗ (bigSep Finset.univ fun c : Fin 2 => aLoc d ↦{qC c.val} AT m d)
        ∗ (bigSep Finset.univ fun c : Fin 2 => o0Loc d ↦[ownC0 c.val]{fullShare} H0 m d)) := by
  show (bigSep (Finset.univ : Finset (Fin 2)) fun c => iprop((xLoc d ↦{qC c.val} X m d) ∗ (aLoc d ↦{qC c.val} AT m d) ∗ (o0Loc d ↦[ownC0 c.val]{fullShare} H0 m d))) = _
  rw [bigSep_sep', bigSep_sep']
theorem st1_eq (d : Dev nD) : (bigSep Finset.univ fun c : Fin ((K (F := F)).nCore 1) => (P m).st 1 d c)
    = iprop((bigSep Finset.univ fun c : Fin 2 => aLoc d ↦{qC c.val} AT m d) ∗ (bigSep Finset.univ fun c : Fin 2 => o0Loc d ↦{qC c.val} H0 m d)
        ∗ (bigSep Finset.univ fun c : Fin 2 => o1Loc d ↦[ownC1 c.val]{fullShare} m (o1Loc d))) := by
  show (bigSep (Finset.univ : Finset (Fin 2)) fun c => iprop((aLoc d ↦{qC c.val} AT m d) ∗ (o0Loc d ↦{qC c.val} H0 m d) ∗ (o1Loc d ↦[ownC1 c.val]{fullShare} m (o1Loc d)))) = _
  rw [bigSep_sep', bigSep_sep']
theorem dn1_eq (d : Dev nD) : (bigSep Finset.univ fun c : Fin ((K (F := F)).nCore 1) => (P m).dn 1 d c)
    = iprop((bigSep Finset.univ fun c : Fin 2 => aLoc d ↦{qC c.val} AT m d) ∗ (bigSep Finset.univ fun c : Fin 2 => o0Loc d ↦{qC c.val} H0 m d)
        ∗ (bigSep Finset.univ fun c : Fin 2 => o1Loc d ↦[ownC1 c.val]{fullShare} H1 m d)) := by
  show (bigSep (Finset.univ : Finset (Fin 2)) fun c => iprop((aLoc d ↦{qC c.val} AT m d) ∗ (o0Loc d ↦{qC c.val} H0 m d) ∗ (o1Loc d ↦[ownC1 c.val]{fullShare} H1 m d))) = _
  rw [bigSep_sep', bigSep_sep']

abbrev FIN (d : Dev nD) : sProp 𝕄 :=
  iprop((xLoc d ↦{fullShare} m (xLoc d)) ∗ (adjLoc d ↦{fullShare} m (adjLoc d)) ∗ (r0Loc d ↦{fullShare} R0 m d) ∗ (r1Loc d ↦{fullShare} R1 m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d) := by
  unfold SparseCore.Cfg.tcRes
  rw [unscopedBufs_eq]
  simp only [main, wp_bind, wp_pure]
  iintro ⟨#Hctx, Hst, ⟨Hb, ⟨Hx, Hadj, Ha, Ho0, Ho1, Hr0, Hr1⟩, -, -⟩, -⟩

  iapply (wp_hlo_within 𝒱 (SparseCore.T d) none Set.univ (op := opA) (S := {adj', a'}) hA (V := V0 m d)) $$ [Hb Hadj Ha]
  · isplitl [Hb]; · iexact Hb
    rw [held_pair (F := F) d adj' a' (by decide)]
    isplitl [Hadj]; · iexact Hadj
    iexact Ha
  iintro ⟨Hb, Hheld⟩
  ihave Hh := (Entails.of_eq (heldA_res (F := F) m d)) $$ Hheld
  icases Hh with ⟨Hadj, Ha⟩
  rw [wp_ret]; imodintro

  ihave Hx2 := (Transfers.pointsTo_toks_split fullShare 2) $$ Hx
  icases Hx2 with ⟨Hxr, Hxt⟩
  ihave Ha2 := (Transfers.pointsTo_toks_split fullShare 2) $$ Ha
  icases Ha2 with ⟨Har, Hat⟩
  ihave Ho0c := (Entails.of_eq (o0_cores (F := F) d (m (o0Loc d)))) $$ Ho0
  iapply ((K (F := F)).wp_run (D (F := F)) 𝒱 (EH := EH) (P := P m) κ d 0) $$ [Hst Hxt Hat Ho0c Hb Hadj Hxr Har Ho1 Hr0 Hr1]
  isplitr; · iexact Hctx
  isplitl [Hst]; · iexact Hst
  isplitl [Hxt Hat Ho0c]
  · rw [st0_eq]
    isplitl [Hxt]; · iexact Hxt
    isplitl [Hat]; · iexact Hat
    iexact Ho0c
  iintro ⟨Hst, Hdn⟩
  ihave Hdn' := (Entails.of_eq (dn0_eq m d)) $$ Hdn
  icases Hdn' with ⟨Hxt, Hat, Ho0c⟩
  ihave Hx := (Transfers.pointsTo_toks_join fullShare 2) $$ [Hxr Hxt]
  · isplitl [Hxr]; · iexact Hxr
    iexact Hxt
  ihave Ha := (Transfers.pointsTo_toks_join fullShare 2) $$ [Har Hat]
  · isplitl [Har]; · iexact Har
    iexact Hat
  ihave Ho0 := (Entails.of_eq (o0_cores (F := F) d (H0 m d)).symm) $$ Ho0c

  ihave Ha2 := (Transfers.pointsTo_toks_split fullShare 2) $$ Ha
  icases Ha2 with ⟨Har, Hat⟩
  ihave Ho02 := (Transfers.pointsTo_toks_split fullShare 2) $$ Ho0
  icases Ho02 with ⟨Ho0r, Ho0t⟩
  ihave Ho1c := (Entails.of_eq (o1_cores (F := F) d (m (o1Loc d)))) $$ Ho1
  iapply ((K (F := F)).wp_run (D (F := F)) 𝒱 (EH := EH) (P := P m) κ d 1) $$ [Hst Hat Ho0t Ho1c Hb Hadj Hx Har Ho0r Hr0 Hr1]
  isplitr; · iexact Hctx
  isplitl [Hst]; · iexact Hst
  isplitl [Hat Ho0t Ho1c]
  · rw [st1_eq]
    isplitl [Hat]; · iexact Hat
    isplitl [Ho0t]; · iexact Ho0t
    iexact Ho1c
  iintro ⟨Hst, Hdn⟩
  ihave Hdn' := (Entails.of_eq (dn1_eq m d)) $$ Hdn
  icases Hdn' with ⟨Hat, Ho0t, Ho1c⟩
  ihave Ha := (Transfers.pointsTo_toks_join fullShare 2) $$ [Har Hat]
  · isplitl [Har]; · iexact Har
    iexact Hat
  ihave Ho0 := (Transfers.pointsTo_toks_join fullShare 2) $$ [Ho0r Ho0t]
  · isplitl [Ho0r]; · iexact Ho0r
    iexact Ho0t
  ihave Ho1 := (Entails.of_eq (o1_cores (F := F) d (H1 m d)).symm) $$ Ho1c

  iapply (wp_hlo_within 𝒱 (SparseCore.T d) none Set.univ (op := opB) (S := {o0', r0'}) hB (V := VB m d)) $$ [Hb Ho0 Hr0]
  · isplitl [Hb]; · iexact Hb
    rw [held_pair (F := F) d o0' r0' (by decide), VB_o0, VB_r0]
    isplitl [Ho0]; · iexact Ho0
    iexact Hr0
  iintro ⟨Hb, Hheld⟩
  ihave Hh := (Entails.of_eq (heldB_res (F := F) m d)) $$ Hheld
  icases Hh with ⟨Ho0, Hr0⟩
  rw [wp_ret]; imodintro

  iapply (wp_hlo_within 𝒱 (SparseCore.T d) none Set.univ (op := opC) (S := {o1', r1'}) hC (V := VC m d)) $$ [Hb Ho1 Hr1]
  · isplitl [Hb]; · iexact Hb
    rw [held_pair (F := F) d o1' r1' (by decide), VC_o1, VC_r1]
    isplitl [Ho1]; · iexact Ho1
    iexact Hr1
  iintro ⟨Hb, Hheld⟩
  ihave Hh := (Entails.of_eq (heldC_res (F := F) m d)) $$ Hheld
  icases Hh with ⟨Ho1, Hr1⟩
  rw [wp_ret]; imodintro; imodintro
  isplitl [Hst]; · iexact Hst
  isplitl [Hx]; · iexact Hx
  isplitl [Hadj]; · iexact Hadj
  isplitl [Hr0]; · iexact Hr0
  iexact Hr1

def fq (d : Dev nD) (s' : Phys nD τ sig (Elt F)) : Prop :=
  s'.mem.mem (xLoc d) = m (xLoc d) ∧ s'.mem.mem (adjLoc d) = m (adjLoc d) ∧ s'.mem.mem (r0Loc d) = R0 m d ∧ s'.mem.mem (r1Loc d) = R1 m d

theorem hfin (d : Dev nD) (s' : Phys nD τ sig (Elt F)) : iprop(FIN m d ∗ SI s') ⊢ (⌜fq m d s'⌝ : sProp 𝕄) := by
  iintro ⟨⟨Hx, Hadj, Hr0, Hr1⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := adjLoc d) (I := Finset.univ) (q := fullShare) (f := m (adjLoc d)))) $$ [HSI Hadj]
  · isplitl [HSI] <;> iassumption
  icases H with ⟨%h2, HSI, -⟩
  ihave H := (persistent_entails_right (SI_pointsTo_agree (st := s') (ℓ := r0Loc d) (I := Finset.univ) (q := fullShare) (f := R0 m d))) $$ [HSI Hr0]
  · isplitl [HSI] <;> iassumption
  icases H with ⟨%h3, HSI, -⟩
  ihave H := (SI_pointsTo_agree (st := s') (ℓ := r1Loc d) (I := Finset.univ) (q := fullShare) (f := R1 m d)) $$ [HSI Hr1]
  · isplitl [HSI] <;> iassumption
  icases H with %h4
  ipureintro
  exact ⟨funext fun i => h1 i (Finset.mem_univ i), funext fun i => h2 i (Finset.mem_univ i), funext fun i => h3 i (Finset.mem_univ i),
    funext fun i => h4 i (Finset.mem_univ i)⟩

def QC : PUnit × MemSt nD τ sig (Elt F) → Prop := fun r => ∀ c : Dev nD,
  r.2.mem (r0Loc c) = Cert.Spec.hop0 (m (xLoc c)) (m (adjLoc c)) ∧ r.2.mem (r1Loc c) = Cert.Spec.hop1 (m (xLoc c)) (m (adjLoc c))
    ∧ r.2.mem (xLoc c) = m (xLoc c) ∧ r.2.mem (adjLoc c) = m (adjLoc c)

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq | 1 => nomatch hq)
    (fun q _ => match q with | 0 => tileObl0 m facts hpre | 1 => tileObl1 m facts hpre)
    (fun q _ => match q with | 0 => SparseCore.Cfg.VecSplit.of_plain (vecSplit0 m) | 1 => SparseCore.Cfg.VecSplit.of_plain (vecSplit1 m))
    m ρ main (fun _ => iprop(emp)) (FIN m) (u₀ (F := F)) (sep_elim_left.trans (hu₀ m)) (hmain m ρ) (fq m) (hfin m) (QC m)
    (fun _ h c => ⟨(h c).2.2.1.trans (R0_eq m c), (h c).2.2.2.trans (R1_eq m c), (h c).1, (h c).2.1⟩)

end Cert.Proof.K

end
-- ==== Proof.KI.Common.lean ====
/- Names the lookup's frame is stated over: locations, a worker's number, its part of each output. -/
import proofs.«215163_g69475390980333_cont_9to1_m_779_28_alg».proof.KernelIdeal
import proofs.«215163_g69475390980333_cont_9to1_m_779_28_alg».proof.Proof.Gen.KernelIdeal
import proofs.«215163_g69475390980333_cont_9to1_m_779_28_alg».proof.Proof.Gen.KernelIdeal.Skeleton
import proofs.«215163_g69475390980333_cont_9to1_m_779_28_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 2) (Elt F) ℕ UU ℕ

abbrev EH : Emb UH (MT nD τ sig (HIx 2) (Elt F) ℕ UU ℕ) := embL

abbrev xLoc (d : Dev nD) : Loc nD τ sig := (SparseCore.T d).loc main_arg0
abbrev adjLoc (d : Dev nD) : Loc nD τ sig := (SparseCore.T d).loc main_arg1
abbrev aLoc (d : Dev nD) : Loc nD τ sig := (SparseCore.T d).loc main_v0
abbrev o0Loc (d : Dev nD) : Loc nD τ sig := (SparseCore.T d).loc main_v1
abbrev o1Loc (d : Dev nD) : Loc nD τ sig := (SparseCore.T d).loc main_v2
abbrev r0Loc (d : Dev nD) : Loc nD τ sig := (SparseCore.T d).loc main_v3
abbrev r1Loc (d : Dev nD) : Loc nD τ sig := (SparseCore.T d).loc main_v4

def wid0 (L : grid0.Coords) : ℕ := 2 * (L 1).val + (L 0).val
def wid1 (L : grid1.Coords) : ℕ := 2 * (L 1).val + (L 0).val

abbrev cV0 (L : grid0.Coords) : Fin τ.nSC := (L 0).castLE hcore0
abbrev jV0 (L : grid0.Coords) : Fin τ.nSub := (L 1).castLE hsub0
abbrev cV1 (L : grid1.Coords) : Fin τ.nSC := (L 0).castLE hcore1
abbrev jV1 (L : grid1.Coords) : Fin τ.nSub := (L 1).castLE hsub1

theorem hdiv0 : 10 ∣ S10x4096.size 0 := ⟨1, rfl⟩
theorem hdiv1 : 25 ∣ S25x40960.size 0 := ⟨1, rfl⟩

abbrev row0 (r : Fin 10) : Rect S10x4096 := Rect.part (s := S10x4096) (a₀ := 0) hdiv0 r
abbrev row1 (r : Fin 25) : Rect S25x40960 := Rect.part (s := S25x40960) (a₀ := 0) hdiv1 r

def own0 (L : grid0.Coords) : Finset S10x4096.Idx := if h : wid0 L < 10 then (row0 ⟨wid0 L, h⟩).set else ∅
def own1 (L : grid1.Coords) : Finset S25x40960.Idx := if h : wid1 L < 25 then (row1 ⟨wid1 L, h⟩).set else ∅

theorem own0_of_lt {L : grid0.Coords} (h : wid0 L < 10) : own0 L = (row0 ⟨wid0 L, h⟩).set := dif_pos h
theorem own0_of_not_lt {L : grid0.Coords} (h : ¬ wid0 L < 10) : own0 L = ∅ := dif_neg h
theorem own1_of_lt {L : grid1.Coords} (h : wid1 L < 25) : own1 L = (row1 ⟨wid1 L, h⟩).set := dif_pos h
theorem own1_of_not_lt {L : grid1.Coords} (h : ¬ wid1 L < 25) : own1 L = ∅ := dif_neg h

variable [FloatOps F]

def res0 (d : Dev nD) (L : grid0.Coords) (q : PosShare TreeShare) (xv : Buf (Elt F) (xLoc d)) (av : Buf (Elt F) (aLoc d))
    (f : Buf (Elt F) (o0Loc d)) : sProp 𝕄 :=
  iprop((xLoc d ↦{q} xv) ∗ (aLoc d ↦{q} av) ∗ (o0Loc d ↦[own0 L]{fullShare} f))

def res1 (d : Dev nD) (L : grid1.Coords) (q : PosShare TreeShare) (av : Buf (Elt F) (aLoc d)) (h0 : Buf (Elt F) (o0Loc d))
    (f : Buf (Elt F) (o1Loc d)) : sProp 𝕄 :=
  iprop((aLoc d ↦{q} av) ∗ (o0Loc d ↦{q} h0) ∗ (o1Loc d ↦[own1 L]{fullShare} f))

def val0 (d : Dev nD) (xv : Buf (Elt F) (xLoc d)) (av : Buf (Elt F) (aLoc d)) : Buf (Elt F) (o0Loc d) := Cert.Spec.k0 xv av
def val1 (d : Dev nD) (h0 : Buf (Elt F) (o0Loc d)) (av : Buf (Elt F) (aLoc d)) : Buf (Elt F) (o1Loc d) := Cert.Spec.k1 h0 av

end Cert.Proof.KI

end
-- ==== Proof.KI.Body0.lean ====
/- First stage, one worker: its row of the first result ends at the lookup's value. -/
import proofs.«215163_g69475390980333_cont_9to1_m_779_28_alg».proof.Proof.KI.Common
import Idealize.ShloMosaic.Lib.ValueLayout

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 2) (Elt F) ℕ UU ℕ

namespace Body0

theorem k0_cond1_iff : ∀ L : grid0.Coords, k0_cond1 L = 1#1 ↔ wid0 L < 10 := by decide +kernel

abbrev aV : Memref sig .scVector .hbm S64x100000 .i32 := Memref.whole main_v0_scv
abbrev xV : Memref sig .scVector .hbm S4096 .i32 := Memref.whole main_arg0_scv
abbrev oV : Memref sig .scVector .hbm S10x4096 .i32 := Memref.whole main_v1_scv

abbrev sCol : Memref sig .scVector .vmem S100000 .i32 := Memref.whole cc0_scratch0
abbrev sXs : Memref sig .scVector .vmem S4096 .i32 := Memref.whole cc0_scratch1
abbrev sVal : Memref sig .scVector .vmem S1x4096 .i32 := Memref.whole cc0_scratch2

abbrev oRow (L : grid0.Coords) (h : k0_cond1 L = 1#1) : Memref sig .scVector .hbm S1x4096 .i32 :=
  (oV).slice (Rect.unit (s := S10x4096) (k0_off10 L) S1x4096.size (k0_off10_inb L h)) (fun _ => rfl)

omit [FloatOps F] in
theorem set_oRow (L : grid0.Coords) (h : k0_cond1 L = 1#1) (hw : wid0 L < 10) : (oRow L h).view.set = (row0 ⟨wid0 L, hw⟩).set := by
  show ((View.whole main_v1_scv).slice _).set = _
  rw [View.set_slice_whole]
  ext i
  rw [Rect.mem_set_unit, Rect.mem_set_unit, k0_off10_eq]
  refine forall_congr' fun a => ?_
  fin_cases a <;> simp [Shape.partIx, Shape.partSize, wid0]

abbrev cOut (d : Dev nD) (c : Fin τ.nSC) (i : Fin τ.nSub) : GSem nD τ sig := (V d c i, .dma cc0_scratch3.sem)
abbrev cCol (d : Dev nD) (c : Fin τ.nSC) (i : Fin τ.nSub) : GSem nD τ sig := (V d c i, .dma cc0_scoped0.sem)
abbrev cXs (d : Dev nD) (c : Fin τ.nSC) (i : Fin τ.nSub) : GSem nD τ sig := (V d c i, .dma cc0_scoped1.sem)

omit [FloatOps F] in

theorem ownSems0_V0 (d : Dev nD) (c : Fin τ.nSC) (i : Fin τ.nSub) :
    (ownSems0 (V d c i) : sProp 𝕄)
      = iprop((semVal (cOut d c i) 0 ∗ semVal (cCol d c i) 0 ∗ semVal (cXs d c i) 0)
          ∗ bigSep (ownCells (V d c i) \ {cOut d c i, cCol d c i, cXs d c i}) fun g => semVal g 0) := by
  have hsc : ∀ s : DmaSem sig, (SemLoc.dma s : SemLoc sig).isScoped .scVector = true := by decide
  have hsub : ({cOut d c i, cCol d c i, cXs d c i} : Finset (GSem nD τ sig)) ⊆ ownCells (V d c i) := by
    intro g hg
    simp only [Finset.mem_insert, Finset.mem_singleton] at hg
    rcases hg with rfl | rfl | rfl <;> exact mem_ownCells.mpr ⟨rfl, hsc _⟩
  unfold SparseCore.Cfg.ownSems0
  rw [SparseCore.bigSep_sdiff_split' hsub, SparseCore.bigSep_insert' (by simp; decide), SparseCore.bigSep_insert' (by simp; decide), bigSep_singleton]

omit [FloatOps F] in

theorem ownBufs_V0 (d : Dev nD) (c : Fin τ.nSC) (i : Fin τ.nSub) :
    (ownBufs (V d c i) : sProp 𝕄)
      = iprop(((∃ f, (V d c i).loc cc0_scratch0 ↦{fullShare} f) ∗ (∃ f, (V d c i).loc cc0_scratch1 ↦{fullShare} f)
            ∗ (∃ f, (V d c i).loc cc0_scratch2 ↦{fullShare} f))
          ∗ bigSep (ownRefs (τ := τ) (.scVector c i) \ {(Proc.scVector c i).devRef cc0_scratch0, (Proc.scVector c i).devRef cc0_scratch1,
              (Proc.scVector c i).devRef cc0_scratch2})
              fun b => iprop(∃ f, ((d, b) : Loc nD τ sig) ↦{fullShare} f)) := by
  have hsub : ({(Proc.scVector c i).devRef cc0_scratch0, (Proc.scVector c i).devRef cc0_scratch1, (Proc.scVector c i).devRef cc0_scratch2}
      : Finset (DevRef τ sig)) ⊆ ownRefs (τ := τ) (.scVector c i) := by
    intro b hb
    simp only [Finset.mem_insert, Finset.mem_singleton] at hb
    rcases hb with rfl | rfl | rfl <;> exact SparseCore.Cfg.mem_ownRefs_of_owner rfl
  have hne : ∀ {a b : Ref sig .scVector}, a ≠ b → (Proc.scVector c i).devRef a ≠ (Proc.scVector c i).devRef b :=
    fun h e => h (Proc.devRef_injective _ e)
  unfold SparseCore.Cfg.ownBufs
  rw [SparseCore.bigSep_sdiff_split' hsub,
    SparseCore.bigSep_insert' (by
      simp only [Finset.mem_insert, Finset.mem_singleton, not_or]
      exact ⟨hne (by decide), hne (by decide)⟩),
    SparseCore.bigSep_insert' (by
      simp only [Finset.mem_singleton]
      exact hne (by decide)), bigSep_singleton]

def rowVal (d : Dev nD) (L : grid0.Coords) (hw : wid0 L < 10) (xv : Buf (Elt F) (xLoc d)) (av : Buf (Elt F) (aLoc d)) :
    S1x4096.Idx → Elt F .i32 :=
  fun y => val0 d xv av (ValueIdx.ix2 (⟨wid0 L, hw⟩ : Fin 10) (y 1 : Fin 4096))

def inv0 (d : Dev nD) (L : grid0.Coords) (hw : wid0 L < 10) (xv : Buf (Elt F) (xLoc d)) (av : Buf (Elt F) (aLoc d))
    (colF : Buf (Elt F) ((V d (cV0 L) (jV0 L)).loc cc0_scratch0)) (xsF : Buf (Elt F) ((V d (cV0 L) (jV0 L)).loc cc0_scratch1))
    (t : Nat) (_ : PUnit) : sProp 𝕄 :=
  iprop(((sCol).view.loc (V d (cV0 L) (jV0 L)) ↦{fullShare} colF)
    ∗ ((sXs).view.loc (V d (cV0 L) (jV0 L)) ↦{fullShare} xsF)
    ∗ ∃ g : Buf (Elt F) ((V d (cV0 L) (jV0 L)).loc cc0_scratch2),
        ⌜∀ y : S1x4096.Idx, (y 1).val < 64 * t → g y = rowVal d L hw xv av y⌝ ∗ (sVal).view.loc (V d (cV0 L) (jV0 L)) ↦{fullShare} g)

theorem idx_inb_of_lt (v : IVec S16 32) (h : ∀ x, (v x).toNat < 100000) :
    ∀ a x, ((![v] : Fin 1 → IVec S16 32) a x).toNat < S100000.size a := by
  intro a x; obtain rfl : a = 0 := Subsingleton.elim _ _; exact h x

section Chk
variable (L : grid0.Coords) (d : Dev nD) (c : Fin τ.nSC) (i : Fin τ.nSub)
  (xsF : Buf (Elt F) ((V d c i).loc cc0_scratch1)) (h : ∀ j, (xsF j).toNat < 100000)
  (off : Fin 1 → Nat) (inb : ∀ a, off a + S16.size a ≤ S4096.size a)
include h
omit [FloatOps F] in

theorem chk1_read : k0_chk1 L ((sXs).view.readAt (Elt F) (Rect.unit (s := S4096) off S16.size inb).toLoadRect xsF) :=
  fun _ => idx_inb_of_lt _ fun _ => h _
omit [FloatOps F] in
theorem chk2_read : k0_chk2 L ((sXs).view.readAt (Elt F) (Rect.unit (s := S4096) off S16.size inb).toLoadRect xsF) :=
  fun _ => idx_inb_of_lt _ fun _ => h _
omit [FloatOps F] in
theorem chk3_read : k0_chk3 L ((sXs).view.readAt (Elt F) (Rect.unit (s := S4096) off S16.size inb).toLoadRect xsF) :=
  fun _ => idx_inb_of_lt _ fun _ => h _
omit [FloatOps F] in
theorem chk4_read : k0_chk4 L ((sXs).view.readAt (Elt F) (Rect.unit (s := S4096) off S16.size inb).toLoadRect xsF) :=
  fun _ => idx_inb_of_lt _ fun _ => h _
end Chk

abbrev aCol (L : grid0.Coords) (h : k0_cond1 L = 1#1) : Memref sig .scVector .hbm S100000 .i32 :=
  (((aV).slice (Rect.unit (s := S64x100000) (k0_off1 L) S1x100000.size (k0_off1_inb L h)) (fun _ => rfl)).slice
    (Rect.unit (s := S1x100000) ![0, 0] S1x100000.size inb_S1x100000_S1x100000_0_0) (fun _ => rfl)).squeeze S100000 squeezes_S1x100000_S100000

theorem k0_off1_p0 : ∀ L : grid0.Coords, ∀ r : Fin 10, wid0 L = r.val → k0_off1 L = ![(Cert.Spec.p0 r).val, 0] := by decide +kernel

omit [FloatOps F] in

theorem read_aCol (d : Dev nD) (L : grid0.Coords) (h : k0_cond1 L = 1#1) (hw : wid0 L < 10) (av : Buf (Elt F) (aLoc d)) (j : S100000.Idx) :
    (aCol L h).view.read (Elt F) av j = av (ix2 (Cert.Spec.p0 ⟨wid0 L, hw⟩) (j 0 : Fin 100000)) := by
  have e : (aCol L h).view.emb j = ix2 (Cert.Spec.p0 ⟨wid0 L, hw⟩) (j 0 : Fin 100000) := by
    show (Rect.unit (s := S64x100000) (k0_off1 L) S1x100000.size (k0_off1_inb L h)).emb
      ((Rect.unit (s := S1x100000) ![0, 0] S1x100000.size inb_S1x100000_S1x100000_0_0).emb (Shape.reshapeEquiv squeezes_S1x100000_S100000.numel_eq j)) = _
    rw [Shape.reshapeEquiv_cons_one]
    have e0 := k0_off1_p0 L ⟨wid0 L, hw⟩ rfl
    funext a; apply Fin.ext
    match a with
    | ⟨0, _⟩ =>
      rw [Rect.emb_apply, Rect.emb_apply]
      simp only [Rect.off_unit, Rect.stride_unit, Nat.one_mul]
      rw [e0]; rfl
    | ⟨1, _⟩ =>
      rw [Rect.emb_apply, Rect.emb_apply]
      simp only [Rect.off_unit, Rect.stride_unit, Nat.one_mul]
      rw [e0]
      show (0 : Nat) + (0 + ((j 0 : Fin 100000) : Nat)) = ((j 0 : Fin 100000) : Nat)
      omega
  rw [View.read_apply, e]; rfl

theorem chunk_val (d : Dev nD) (L : grid0.Coords) (hw : wid0 L < 10)
    (xv : Buf (Elt F) (xLoc d)) (av : Buf (Elt F) (aLoc d))
    (colF : Buf (Elt F) ((V d (cV0 L) (jV0 L)).loc cc0_scratch0)) (xsF : Buf (Elt F) ((V d (cV0 L) (jV0 L)).loc cc0_scratch1))
    (hcol : ∀ j : S100000.Idx, colF j = av (ix2 (Cert.Spec.p0 ⟨wid0 L, hw⟩) (j 0 : Fin 100000)))
    (hxs : ∀ n : S4096.Idx, xsF n = xv n) (hx : ∀ i, (xv i).toNat < 100000)
    (o : Nat) (off1 : Fin 1 → Nat) (off2 : Fin 2 → Nat) (inb1 : ∀ a, off1 a + S16.size a ≤ S4096.size a)
    (inb2 : ∀ a, off2 a + S1x16.size a ≤ S1x4096.size a) (e1 : off1 = ![o]) (e2 : off2 = ![0, o])
    (h : ∀ a x, ((![(sXs).view.readAt (Elt F) (Rect.unit (s := S4096) off1 S16.size inb1).toLoadRect xsF] : Fin 1 → IVec S16 32) a x).toNat
      < S100000.size a)
    (x : S1x16.Idx) :
    shapeCast S1x16 (loadIdx (View.read (Elt F) ((sCol).access (Rect.whole S100000)) colF)
        ![(sXs).view.readAt (Elt F) (Rect.unit (s := S4096) off1 S16.size inb1).toLoadRect xsF] h) shapeCasts_S16_S1x16 x
      = rowVal d L hw xv av ((Rect.unit (s := S1x4096) off2 S1x16.size inb2).emb x) := by
  subst e1 e2
  obtain ⟨u, i, rfl⟩ : ∃ (u : Fin 1) (i : Fin 16), x = ix2 u i := ⟨x 0, x 1, eq_ix2 x⟩
  rw [shapeCast_a_1a_apply]
  show View.read (Elt F) ((Memref.whole (cc0_scratch0 : Ref sig .scVector)).access (Rect.whole _)) colF (idxAt _ h (ix1 i)) = _
  rw [Memref.read_access_whole, hcol]
  show _ = av (ix2 (Cert.Spec.p0 ⟨wid0 L, hw⟩) (Cert.Spec.rowOf (xv (ix1 _))))
  congr 2
  apply Fin.ext
  rw [Cert.Spec.rowOf_val_of_lt (hx _)]
  show ((sXs).view.readAt (Elt F) (Rect.unit (s := S4096) ![o] S16.size inb1).toLoadRect xsF (ix1 i)).toNat = _
  rw [View.readAt_apply]
  show (xsF _).toNat = _
  rw [hxs]
  congr 2
  funext a
  match a with
  | ⟨0, _⟩ => apply Fin.ext; rfl

theorem trips0 : k0_t1_loop.trips = 64 := by decide

omit [FloatOps F] in

theorem mem_piece (off : Fin 2 → Nat) (inb : ∀ a, off a + S1x16.size a ≤ S1x4096.size a) (o : Nat) (e : off = ![0, o]) (y : S1x4096.Idx) :
    y ∈ (Rect.unit (s := S1x4096) off S1x16.size inb).set ↔ o ≤ (y 1).val ∧ (y 1).val < o + 16 := by
  subst e
  rw [Rect.mem_set_unit]
  constructor
  · intro h; exact h 1
  · intro h a
    match a with
    | ⟨0, _⟩ => exact ⟨Nat.zero_le _, by have h0 : (y 0).val < 1 := (y 0).isLt; show (y 0).val < 0 + 1; omega⟩
    | ⟨1, _⟩ => exact h

omit [FloatOps F] in

theorem read_sVal (d : Dev nD) (c : Fin τ.nSC) (i : Fin τ.nSub) (f : Buf (Elt F) ((V d c i).loc cc0_scratch2)) (y : S1x4096.Idx) :
    (sVal).view.read (Elt F) f y = f y := rfl

omit [FloatOps F] in

theorem emb_oRow (L : grid0.Coords) (h : k0_cond1 L = 1#1) (hw : wid0 L < 10) (y : S1x4096.Idx) :
    (oRow L h).view.emb y = ix2 (⟨wid0 L, hw⟩ : Fin 10) (y 1 : Fin 4096) := by
  show (Rect.unit (s := S10x4096) (k0_off10 L) S1x4096.size (k0_off10_inb L h)).emb y = _
  have e0 := k0_off10_eq L
  have h0 : (y 0).val < 1 := (y 0).isLt
  funext a; apply Fin.ext
  match a with
  | ⟨0, _⟩ =>
    rw [Rect.emb_apply]
    simp only [Rect.off_unit, Rect.stride_unit, Nat.one_mul]
    have e1 : k0_off10 L 0 = 2 * (L 1).val + (L 0).val := congrFun e0 0
    show k0_off10 L 0 + (y 0).val = wid0 L
    rw [e1]; unfold wid0; omega
  | ⟨1, _⟩ =>
    rw [Rect.emb_apply]
    simp only [Rect.off_unit, Rect.stride_unit, Nat.one_mul]
    have e1 : k0_off10 L 1 = 0 := congrFun e0 1
    show k0_off10 L 1 + (y 1).val = (y 1).val
    rw [e1]; omega

theorem out_congr (d : Dev nD) (L : grid0.Coords) (h : k0_cond1 L = 1#1) (hw : wid0 L < 10)
    (xv : Buf (Elt F) (xLoc d)) (av : Buf (Elt F) (aLoc d)) (f : Buf (Elt F) (o0Loc d))
    (w : S1x4096.Idx → Elt F .i32) (hw' : ∀ y : S1x4096.Idx, w y = rowVal d L hw xv av y) :
    ∀ i ∈ (oRow L h).view.set, (oRow L h).view.writes (Elt F) f [⟨Rect.whole S1x4096, w⟩] i = val0 d xv av i := by
  intro i hi
  obtain ⟨y, -, rfl⟩ := Finset.mem_map.mp hi
  have e := View.read_writes_cons_emb (oRow L h).view f (Rect.whole S1x4096) w [] y
  rw [Rect.emb_whole_apply, View.read_apply, cast_eq] at e
  rw [e, hw' y, emb_oRow L h hw y]
  rfl

set_option maxHeartbeats 4000000 in

theorem trip0 (d : Dev nD) (L : grid0.Coords) (hw : wid0 L < 10) (k0_h1 : k0_cond1 L = 1#1)
    (xv : Buf (Elt F) (xLoc d)) (av : Buf (Elt F) (aLoc d))
    (colF : Buf (Elt F) ((V d (cV0 L) (jV0 L)).loc cc0_scratch0)) (xsF : Buf (Elt F) ((V d (cV0 L) (jV0 L)).loc cc0_scratch1))
    (hcol : ∀ j : S100000.Idx, colF j = av (ix2 (Cert.Spec.p0 ⟨wid0 L, hw⟩) (j 0 : Fin 100000)))
    (hxs : ∀ n : S4096.Idx, xsF n = xv n) (hx : ∀ i, (xv i).toNat < 100000)
    (t : Fin k0_t1_loop.trips) (acc : PUnit) :
    inv0 d L hw xv av colF xsF t.val acc
      ⊢ wp frame (wpE (defs₀ (F := F)) 𝒱₀ (V d (cV0 L) (jV0 L)) none) Set.univ
          (k0_t1_body L aV (Memref.isWhole_whole _) xV (Memref.isWhole_whole _) oV (Memref.isWhole_whole _)
            sCol (Memref.isWhole_whole _) sXs (Memref.isWhole_whole _) sVal (Memref.isWhole_whole _)
            cc0_scratch3 cc0_scoped0 cc0_scoped1 k0_h1 t acc)
          (inv0 d L hw xv av colF xsF (t.val + 1)) := by
  have hxsl : ∀ i, (xsF i).toNat < 100000 := fun i => (hxs i) ▸ hx i
  have ecol : ((sCol).view.loc (V d (cV0 L) (jV0 L)) ↦{fullShare} colF : sProp 𝕄)
      = ((sCol).access (.whole S100000)).loc (V d (cV0 L) (jV0 L)) ↦{fullShare} colF := rfl
  unfold k0_t1_body
  unfold inv0
  iintro ⟨Hc, Hxs, %g, %hg, Hv⟩
  sl_exec (disch := first | sl_exact chk1_read L d _ _ xsF hxsl _ _ | sl_exact chk2_read L d _ _ xsF hxsl _ _ | sl_exact chk3_read L d _ _ xsF hxsl _ _ | sl_exact chk4_read L d _ _ xsF hxsl _ _)
  ihave Hc := (Entails.of_eq ecol) $$ Hc
  iapply (SparseCore.wp_vectorLoadIdx 𝒱₀ (V d (cV0 L) (jV0 L)) none Set.univ (base := sCol) (S := Finset.univ) (q := fullShare) (Finset.subset_univ _)) $$ Hc; iintro Hc
  ihave Hc := (Entails.of_eq ecol.symm) $$ Hc
  sl_exec (disch := first | sl_exact chk1_read L d _ _ xsF hxsl _ _ | sl_exact chk2_read L d _ _ xsF hxsl _ _ | sl_exact chk3_read L d _ _ xsF hxsl _ _ | sl_exact chk4_read L d _ _ xsF hxsl _ _)
  ihave Hc := (Entails.of_eq ecol) $$ Hc
  iapply (SparseCore.wp_vectorLoadIdx 𝒱₀ (V d (cV0 L) (jV0 L)) none Set.univ (base := sCol) (S := Finset.univ) (q := fullShare) (Finset.subset_univ _)) $$ Hc; iintro Hc
  ihave Hc := (Entails.of_eq ecol.symm) $$ Hc
  sl_exec (disch := first | sl_exact chk1_read L d _ _ xsF hxsl _ _ | sl_exact chk2_read L d _ _ xsF hxsl _ _ | sl_exact chk3_read L d _ _ xsF hxsl _ _ | sl_exact chk4_read L d _ _ xsF hxsl _ _)
  ihave Hc := (Entails.of_eq ecol) $$ Hc
  iapply (SparseCore.wp_vectorLoadIdx 𝒱₀ (V d (cV0 L) (jV0 L)) none Set.univ (base := sCol) (S := Finset.univ) (q := fullShare) (Finset.subset_univ _)) $$ Hc; iintro Hc
  ihave Hc := (Entails.of_eq ecol.symm) $$ Hc
  sl_exec (disch := first | sl_exact chk1_read L d _ _ xsF hxsl _ _ | sl_exact chk2_read L d _ _ xsF hxsl _ _ | sl_exact chk3_read L d _ _ xsF hxsl _ _ | sl_exact chk4_read L d _ _ xsF hxsl _ _)
  ihave Hc := (Entails.of_eq ecol) $$ Hc
  iapply (SparseCore.wp_vectorLoadIdx 𝒱₀ (V d (cV0 L) (jV0 L)) none Set.univ (base := sCol) (S := Finset.univ) (q := fullShare) (Finset.subset_univ _)) $$ Hc; iintro Hc
  ihave Hc := (Entails.of_eq ecol.symm) $$ Hc
  sl_exec (disch := first | sl_exact chk1_read L d _ _ xsF hxsl _ _ | sl_exact chk2_read L d _ _ xsF hxsl _ _ | sl_exact chk3_read L d _ _ xsF hxsl _ _ | sl_exact chk4_read L d _ _ xsF hxsl _ _)
  sl_step
  isplitl [Hc]; · iexact Hc
  isplitl [Hxs]; · iexact Hxs
  iexists _; isplitr
  swap; · iexact Hv
  ipureintro
  intro y hy
  refine (read_sVal d (cV0 L) (jV0 L) _ y).symm.trans ?_
  by_cases hlt : (y 1).val < 64 * t.val
  · refine (View.read_writes_apply_of_forall_not_mem (sVal).view g y _ ?_).trans (hg y hlt)
    intro p hp
    rcases List.mem_cons.mp hp with rfl | hp
    · rw [mem_piece _ _ _ (k0_off9_eq t)]; omega
    rcases List.mem_cons.mp hp with rfl | hp
    · rw [mem_piece _ _ _ (k0_off7_eq t)]; omega
    rcases List.mem_cons.mp hp with rfl | hp
    · rw [mem_piece _ _ _ (k0_off5_eq t)]; omega
    rcases List.mem_cons.mp hp with rfl | hp
    · rw [mem_piece _ _ _ (k0_off3_eq t)]; omega
    exact absurd hp List.not_mem_nil
  · refine View.read_writes_apply_of_pieces (sVal).view g (rowVal d L hw xv av) _ ?_ y ?_
    · intro p hp
      rcases List.mem_cons.mp hp with rfl | hp
      · intro x
        exact chunk_val d L hw xv av colF xsF hcol hxs hx (64 * t.val + 48) _ _ (k0_off8_inb L t k0_h1) (k0_off9_inb L t k0_h1)
          (k0_off8_eq t) (k0_off9_eq t) (idx_inb_of_lt _ fun _ => hxsl _) x
      rcases List.mem_cons.mp hp with rfl | hp
      · intro x
        exact chunk_val d L hw xv av colF xsF hcol hxs hx (64 * t.val + 32) _ _ (k0_off6_inb L t k0_h1) (k0_off7_inb L t k0_h1)
          (k0_off6_eq t) (k0_off7_eq t) (idx_inb_of_lt _ fun _ => hxsl _) x
      rcases List.mem_cons.mp hp with rfl | hp
      · intro x
        exact chunk_val d L hw xv av colF xsF hcol hxs hx (64 * t.val + 16) _ _ (k0_off4_inb L t k0_h1) (k0_off5_inb L t k0_h1)
          (k0_off4_eq t) (k0_off5_eq t) (idx_inb_of_lt _ fun _ => hxsl _) x
      rcases List.mem_cons.mp hp with rfl | hp
      · intro x
        exact chunk_val d L hw xv av colF xsF hcol hxs hx (64 * t.val) _ _ (k0_off2_inb L t k0_h1) (k0_off3_inb L t k0_h1)
          (k0_off2_eq t) (k0_off3_eq t) (idx_inb_of_lt _ fun _ => hxsl _) x
      exact absurd hp List.not_mem_nil
    · by_cases h3 : 64 * t.val + 48 ≤ (y 1).val
      · exact ⟨_, List.mem_cons_self, (mem_piece _ (k0_off9_inb L t k0_h1) _ (k0_off9_eq t) y).mpr ⟨h3, by omega⟩⟩
      by_cases h2 : 64 * t.val + 32 ≤ (y 1).val
      · exact ⟨_, List.mem_cons_of_mem _ List.mem_cons_self, (mem_piece _ (k0_off7_inb L t k0_h1) _ (k0_off7_eq t) y).mpr ⟨h2, by omega⟩⟩
      by_cases h1 : 64 * t.val + 16 ≤ (y 1).val
      · exact ⟨_, List.mem_cons_of_mem _ (List.mem_cons_of_mem _ List.mem_cons_self), (mem_piece _ (k0_off5_inb L t k0_h1) _ (k0_off5_eq t) y).mpr ⟨h1, by omega⟩⟩
      · exact ⟨_, List.mem_cons_of_mem _ (List.mem_cons_of_mem _ (List.mem_cons_of_mem _ List.mem_cons_self)),
          (mem_piece _ (k0_off3_inb L t k0_h1) _ (k0_off3_eq t) y).mpr ⟨by omega, by omega⟩⟩

end Body0

open Body0

theorem tile_body0 (hF : (K (F := F)).Facts) (d : Dev nD) (L : grid0.Coords) (q : PosShare TreeShare)
    (xv : Buf (Elt F) (xLoc d)) (av : Buf (Elt F) (aLoc d)) (f : Buf (Elt F) (o0Loc d))
    (hx : ∀ i, (xv i).toNat < 100000)
    (O : CellTallies nD τ sig (HIx 2)) (W : Waits sig (HIx 2)) (hO : ∀ g, O g none = 0) :
    iprop(levAts (K (F := F)).L (K (F := F)).lev ∗ emp ∗ res0 d L q xv av f
        ∗ scopedBufs (V d (cV0 L) (jV0 L)) ∗ scopedSems0 (V d (cV0 L) (jV0 L)) ∗ owes (V d (cV0 L) (jV0 L)) O W)
      ⊢ wp frame (wpE (defs₀ (F := F)) 𝒱₀ (V d (cV0 L) (jV0 L)) none) Set.univ
          (cc0__hop0_kernel L (Memref.whole main_v0_scv) (Memref.isWhole_whole _) (Memref.whole main_arg0_scv) (Memref.isWhole_whole _)
            (Memref.whole main_v1_scv) (Memref.isWhole_whole _) (Memref.whole cc0_scratch0) (Memref.isWhole_whole _)
            (Memref.whole cc0_scratch1) (Memref.isWhole_whole _) (Memref.whole cc0_scratch2) (Memref.isWhole_whole _)
            cc0_scratch3 cc0_scoped0 cc0_scoped1)
          fun _ => iprop(res0 d L q xv av (val0 d xv av) ∗ scopedBufs (V d (cV0 L) (jV0 L)) ∗ scopedSems0 (V d (cV0 L) (jV0 L))
            ∗ ∃ W', ⌜∀ p ∈ W', p ∈ W ∨ p.2 = none⌝ ∗ owes (V d (cV0 L) (jV0 L)) O W') := by
  by_cases hw : wid0 L < 10
  · have k0_h1 : k0_cond1 L = 1#1 := (k0_cond1_iff L).2 hw
    simp only [cc0__hop0_kernel_eq_skeleton]; unfold cc0__hop0_kernel_skel
    rw [(K (F := F)).scopedBufs_V hF d (cV0 L) (jV0 L), SparseCore.Cfg.scopedSems0_V (Val := Elt F) d (cV0 L) (jV0 L), ownSems0_V0, ownBufs_V0]
    unfold res0
    rw [own0_of_lt hw, ← set_oRow L k0_h1 hw]
    iintro ⟨#Hlv, -, ⟨Hx, Ha, Ho⟩, ⟨⟨⟨%fc, Hc⟩, ⟨%fxs, Hxs⟩, ⟨%fv, Hv⟩⟩, Hbufs⟩, ⟨⟨HsemO, HsemC, HsemX⟩, Hsems⟩, HO⟩
    ihave Hmw := (show levAts (K (F := F)).L (K (F := F)).lev ⊢ Transfers.MayWaits (V d (cV0 L) (jV0 L)) (default : HIx 2) O from
      (K (F := F)).mayWaits_none (thr := V d (cV0 L) (jV0 L)) hO) $$ Hlv
    ihave Hx' := (Entails.of_eq (show (xLoc d ↦{q} xv : sProp 𝕄) = (xV).view.loc (V d (cV0 L) (jV0 L)) ↦{q} xv from rfl)) $$ Hx
    ihave Ha' := (Entails.of_eq (show (aLoc d ↦{q} av : sProp 𝕄) = (aV).view.loc (V d (cV0 L) (jV0 L)) ↦{q} av from rfl)) $$ Ha
    ihave Ho' := (Entails.of_eq (show (o0Loc d ↦[(oRow L k0_h1).view.set]{fullShare} f : sProp 𝕄)
        = (oRow L k0_h1).view.loc (V d (cV0 L) (jV0 L)) ↦[(oRow L k0_h1).view.set]{fullShare} f from rfl)) $$ Ho
    ihave Hc' := (Entails.of_eq (show ((V d (cV0 L) (jV0 L)).loc cc0_scratch0 ↦{fullShare} fc : sProp 𝕄) = (sCol).view.loc (V d (cV0 L) (jV0 L)) ↦{fullShare} fc from rfl)) $$ Hc
    ihave Hxs' := (Entails.of_eq (show ((V d (cV0 L) (jV0 L)).loc cc0_scratch1 ↦{fullShare} fxs : sProp 𝕄) = (sXs).view.loc (V d (cV0 L) (jV0 L)) ↦{fullShare} fxs from rfl)) $$ Hxs
    ihave Hv' := (Entails.of_eq (show ((V d (cV0 L) (jV0 L)).loc cc0_scratch2 ↦{fullShare} fv : sProp 𝕄) = (sVal).view.loc (V d (cV0 L) (jV0 L)) ↦{fullShare} fv from rfl)) $$ Hv
    sl_exec
    have hcol : ∀ j : S100000.Idx, View.write (Elt F) (sCol).view fc (tile_body0.sl.dma0 d L av k0_h1) Finset.univ j
        = av (ix2 (Cert.Spec.p0 ⟨wid0 L, hw⟩) (j 0 : Fin 100000)) := fun j =>
      (congrFun (View.write_whole_univ (Val := Elt F) (cc0_scratch0 : Ref sig .scVector) fc (tile_body0.sl.dma0 d L av k0_h1)) j).trans
        (read_aCol d L k0_h1 hw av j)
    have hxsv : ∀ n : S4096.Idx, View.write (Elt F) (sXs).view fxs (tile_body0.sl.dma0_1 d xv) Finset.univ n = xv n := fun n =>
      congrFun (View.write_whole_univ (Val := Elt F) (cc0_scratch1 : Ref sig .scVector) fxs (tile_body0.sl.dma0_1 d xv)) n
    sl_for (inv0 d L hw xv av (View.write (Elt F) (sCol).view fc (tile_body0.sl.dma0 d L av k0_h1) Finset.univ)
      (View.write (Elt F) (sXs).view fxs (tile_body0.sl.dma0_1 d xv) Finset.univ)) $$ [Hc' Hxs' Hv']
    case region =>
      intro t acc
      exact trip0 d L hw k0_h1 xv av _ _ hcol hxsv hx t acc
    · unfold inv0
      isplitl [Hc']; · iexact Hc'
      isplitl [Hxs']; · iexact Hxs'
      iexists fv; isplitr
      · ipureintro; intro y hy; omega
      · iexact Hv'
    iintro %_ HI
    unfold inv0
    icases HI with ⟨Hc, Hxs, %g, %hg, Hv⟩
    sl_exec
    sl_step
    have hg' : ∀ y : S1x4096.Idx, tile_body0.sl.dma0_2 d L g y = rowVal d L hw xv av y := fun y => hg y (by
      show (y 1).val < 64 * k0_t1_loop.trips
      have h1 : (y 1).val < 4096 := (y 1).isLt
      rw [trips0]; omega)
    isplitl [Hx' Ha' Ho']
    · isplitl [Hx']; · iexact Hx'
      isplitl [Ha']; · iexact Ha'
      ihave Ho2 := (Entails.of_eq (pointsTo_congr (ℓ := (oRow L k0_h1).view.loc (V d (cV0 L) (jV0 L))) (q := fullShare)
        (out_congr d L k0_h1 hw xv av f _ hg'))) $$ Ho'
      iexact Ho2
    isplitl [Hc Hxs Hv Hbufs]
    · isplitl [Hc Hxs Hv]
      · isplitl [Hc]; · iexists _; iexact Hc
        isplitl [Hxs]; · iexists _; iexact Hxs
        iexists _; iexact Hv
      · iexact Hbufs
    isplitl [HsemO HsemC HsemX Hsems]
    · isplitl [HsemO HsemC HsemX]
      · isplitl [HsemO]; · iexact HsemO
        isplitl [HsemC]; · iexact HsemC
        iexact HsemX
      · iexact Hsems
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact .inl hp
  · have k0_h1 : ¬ k0_cond1 L = 1#1 := fun h => hw ((k0_cond1_iff L).1 h)
    simp only [cc0__hop0_kernel_eq_skeleton]; unfold cc0__hop0_kernel_skel
    unfold res0
    simp only [own0_of_not_lt hw, pointsTo_empty]
    iintro ⟨-, -, ⟨Hx, Ha, Ho⟩, Hsb, Hss, HO⟩
    sl_exec
    sl_step
    isplitl [Hx Ha Ho]
    · isplitl [Hx]; · iexact Hx
      isplitl [Ha]; · iexact Ha
      iexact Ho
    isplitl [Hsb]; · iexact Hsb
    isplitl [Hss]; · iexact Hss
    iexists W; isplitr
    · ipureintro; exact fun p hp => .inl hp
    · iexact HO

end Cert.Proof.KI

end
-- ==== Proof.KI.Body1A.lean ====
/- The two lane vectors the second stage's loop carries, in closed form. -/
import proofs.«215163_g69475390980333_cont_9to1_m_779_28_alg».proof.Proof.KI.Common

noncomputable section

namespace Cert.Proof.KI

open Cert.KernelIdeal Cert.KernelIdeal.Gen Idealize.ShloMosaic

def lane (x : S16.Idx) : ℕ := (x 0).val

def jvec (t : ℕ) : IVec S16 32 := fun x => BitVec.ofNat 32 ((16 * t + lane x) % 10)

def dvec (t : ℕ) : IVec S16 32 := fun x => BitVec.ofNat 32 ((16 * t + lane x) / 10)

theorem lane_lt (x : S16.Idx) : lane x < 16 := (x 0).isLt

theorem sge_ten (n : ℕ) (hn : n < 2 ^ 31) :
    IntOp.cmpi .sge (BitVec.ofNat 32 n) 10#32 = BitVec.ofBool (decide (10 ≤ n)) := by
  unfold IntOp.cmpi
  simp only
  congr 1
  rw [BitVec.sle]
  have h1 : (BitVec.ofNat 32 n).toInt = (n : Int) := by
    rw [BitVec.toInt_eq_toNat_of_lt] <;> simp [BitVec.toNat_ofNat] <;> omega
  have h2 : (10#32).toInt = 10 := by decide
  rw [h1, h2]
  congr 1
  exact propext (by omega)

theorem carry_ten (n : ℕ) (hn : n < 2 ^ 31) :
    (IntOp.cmpi .sge (BitVec.ofNat 32 n) 10#32).setWidth 32 = BitVec.ofNat 32 (if 10 ≤ n then 1 else 0) := by
  rw [sge_ten n hn]
  by_cases h : 10 ≤ n
  · simp only [h, decide_true, if_true]; rfl
  · simp only [h, decide_false, if_false]; rfl

theorem wrap_ten (n : ℕ) (hn : n < 2 ^ 31) :
    IntOp.subi (BitVec.ofNat 32 n) (IntOp.muli 10#32 ((IntOp.cmpi .sge (BitVec.ofNat 32 n) 10#32).setWidth 32))
      = BitVec.ofNat 32 (if 10 ≤ n then n - 10 else n) := by
  rw [carry_ten n hn]
  unfold IntOp.subi IntOp.muli
  by_cases h : 10 ≤ n
  · simp only [h, if_true]
    apply BitVec.eq_of_toNat_eq
    rw [BitVec.toNat_sub, BitVec.toNat_mul]
    simp only [BitVec.toNat_ofNat]
    omega
  · simp only [h, if_false]
    apply BitVec.eq_of_toNat_eq
    rw [BitVec.toNat_sub, BitVec.toNat_mul]
    simp only [BitVec.toNat_ofNat]
    omega

theorem iota_lane (x : S16.Idx) :
    iota .scVector S16 32 [0] iota_S16_d0_w32_scVector x = BitVec.ofNat 32 (lane x) := by
  unfold iota lane
  simp

theorem lanes_init_j : k1_pay1 (iota .scVector S16 32 [0] iota_S16_d0_w32_scVector) = jvec 0 := by
  funext x
  have hl := lane_lt x
  show IntOp.subi (iota .scVector S16 32 [0] iota_S16_d0_w32_scVector x)
      (IntOp.muli 10#32 ((IntOp.cmpi .sge (iota .scVector S16 32 [0] iota_S16_d0_w32_scVector x) 10#32).setWidth 32))
    = BitVec.ofNat 32 ((16 * 0 + lane x) % 10)
  rw [iota_lane, wrap_ten _ (by omega)]
  congr 1
  split <;> omega

theorem lanes_init_d : k1_pay2 (iota .scVector S16 32 [0] iota_S16_d0_w32_scVector) = dvec 0 := by
  funext x
  have hl := lane_lt x
  show (IntOp.cmpi .sge (iota .scVector S16 32 [0] iota_S16_d0_w32_scVector x) 10#32).setWidth 32
    = BitVec.ofNat 32 ((16 * 0 + lane x) / 10)
  rw [iota_lane, carry_ten _ (by omega)]
  congr 1
  split <;> omega

theorem pay3_jvec (t : ℕ) (x : S16.Idx) :
    k1_pay3 (jvec t) x = BitVec.ofNat 32 ((16 * t + lane x) % 10 + 6) := by
  show IntOp.addi (BitVec.ofNat 32 ((16 * t + lane x) % 10)) 6#32 = _
  unfold IntOp.addi
  rw [BitVec.ofNat_add]

theorem pay4_jvec (t : ℕ) (x : S16.Idx) :
    k1_pay4 (jvec t) x = BitVec.ofNat 32 (if 10 ≤ (16 * t + lane x) % 10 + 6 then 1 else 0) := by
  show (IntOp.cmpi .sge (k1_pay3 (jvec t) x) 10#32).setWidth 32 = _
  rw [pay3_jvec, carry_ten _ (by omega)]

theorem lanes_step_j (t : ℕ) (ht : t < 320) : k1_pay5 (jvec t) = jvec (t + 1) := by
  funext x
  have hl := lane_lt x
  show IntOp.subi (k1_pay3 (jvec t) x) (IntOp.muli 10#32 ((IntOp.cmpi .sge (k1_pay3 (jvec t) x) 10#32).setWidth 32))
    = BitVec.ofNat 32 ((16 * (t + 1) + lane x) % 10)
  rw [pay3_jvec, wrap_ten _ (by omega)]
  congr 1
  split <;> omega

theorem lanes_step_d (t : ℕ) (ht : t < 320) : k1_pay6 (jvec t) (dvec t) = dvec (t + 1) := by
  funext x
  have hl := lane_lt x
  show IntOp.addi (IntOp.addi (BitVec.ofNat 32 ((16 * t + lane x) / 10)) 1#32) (k1_pay4 (jvec t) x)
    = BitVec.ofNat 32 ((16 * (t + 1) + lane x) / 10)
  rw [pay4_jvec]
  unfold IntOp.addi
  rw [← BitVec.ofNat_add, ← BitVec.ofNat_add]
  congr 1
  split <;> omega

theorem lanes_inb (t : ℕ) (ht : t < 320) : ∀ a x, ((![jvec t, dvec t] : Fin 2 → IVec S16 32) a x).toNat < S10x512.size a := by
  intro a x
  have hl := lane_lt x
  fin_cases a
  · show (BitVec.ofNat 32 ((16 * t + lane x) % 10)).toNat < 10
    rw [BitVec.toNat_ofNat]
    omega
  · show (BitVec.ofNat 32 ((16 * t + lane x) / 10)).toNat < 512
    have hq : (16 * t + lane x) / 10 < 512 := by omega
    rw [BitVec.toNat_ofNat, Nat.mod_eq_of_lt (by omega)]
    exact hq

end Cert.Proof.KI
-- ==== Proof.KI.Body1B.lean ====
/- Second stage: the copied column and the copied slab of indices as functions of the inputs, and what one gather loads. -/
import proofs.«215163_g69475390980333_cont_9to1_m_779_28_alg».proof.Proof.KI.Body1A

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 2) (Elt F) ℕ UU ℕ

abbrev aM : Memref sig .scVector .hbm S64x100000 .i32 := Memref.whole main_v0_scv
abbrev hM : Memref sig .scVector .hbm S10x4096 .i32 := Memref.whole main_v1_scv
abbrev oM : Memref sig .scVector .hbm S25x40960 .i32 := Memref.whole main_v2_scv

abbrev colSrc (L : grid1.Coords) (k1_h1 : k1_cond1 L = 1#1) : Memref sig .scVector .hbm S100000 .i32 :=
  ((aM.slice (Rect.unit (s := S64x100000) (k1_off1 L) S1x100000.size (k1_off1_inb L k1_h1)) (fun _ => rfl)).slice
    (Rect.unit (s := S1x100000) ![0, 0] S1x100000.size inb_S1x100000_S1x100000_0_0) (fun _ => rfl)).squeeze S100000 squeezes_S1x100000_S100000

theorem slab_inb (s : ℕ) (hs : s < 8) : ∀ a, (![0, 512 * s] : Fin 2 → ℕ) a + S10x512.size a ≤ S10x4096.size a := by
  intro a
  fin_cases a
  · show 0 + 10 ≤ 10
    omega
  · show 512 * s + 512 ≤ 4096
    omega

abbrev slabSrc (s : ℕ) (hs : s < 8) : Memref sig .scVector .hbm S10x512 .i32 :=
  hM.slice (Rect.unit (s := S10x4096) ![0, 512 * s] S10x512.size (slab_inb s hs)) (fun _ => rfl)

def colC (d : Dev nD) (L : grid1.Coords) (k1_h1 : k1_cond1 L = 1#1) (av : Buf (Elt F) (aLoc d)) : Vec F S100000 .i32 :=
  (colSrc L k1_h1).view.read (Elt F) av
def idxC (d : Dev nD) (s : ℕ) (hs : s < 8) (h0 : Buf (Elt F) (o0Loc d)) : Vec F S10x512 .i32 :=
  (slabSrc s hs).view.read (Elt F) h0

theorem idxC_apply (d : Dev nD) (s : ℕ) (hs : s < 8) (h0 : Buf (Elt F) (o0Loc d)) (i : S10x512.Idx) :
    idxC d s hs h0 i
      = h0 (ix2 (⟨(i 0).val, (i 0).isLt⟩ : Fin 10) (⟨512 * s + (i 1).val, by have := (i 1).isLt; change (i 1).val < 512 at this; omega⟩ : Fin 4096)) := by
  show h0 ((slabSrc s hs).view.emb i) = _
  congr 1
  funext a
  match a with
  | ⟨0, _⟩ => exact Fin.ext (show 0 + 1 * (i 0).val = (i 0).val by omega)
  | ⟨1, _⟩ => exact Fin.ext (show 512 * s + 1 * (i 1).val = 512 * s + (i 1).val by omega)

theorem gather_inb (d : Dev nD) (h0 : Buf (Elt F) (o0Loc d)) (hh : ∀ i, (h0 i).toNat < 100000) (s : ℕ) (hs : s < 8) (t : ℕ)
    (h1 : ∀ a x, ((![jvec t, dvec t] : Fin 2 → IVec S16 32) a x).toNat < S10x512.size a) :
    ∀ a x, ((![loadIdx (idxC d s hs h0) ![jvec t, dvec t] h1] : Fin 1 → IVec S16 32) a x).toNat < S100000.size a := by
  intro a x
  fin_cases a
  show (idxC d s hs h0 (idxAt ![jvec t, dvec t] h1 x)).toNat < 100000
  rw [idxC_apply]
  exact hh _

theorem off1_eq (L : grid1.Coords) (hw : wid1 L < 25) : k1_off1 L = ![(Cert.Spec.p1 ⟨wid1 L, hw⟩).val, 0] := by
  revert hw
  unfold wid1
  revert L
  decide +kernel

theorem colC_apply (d : Dev nD) (L : grid1.Coords) (hw : wid1 L < 25) (k1_h1 : k1_cond1 L = 1#1) (av : Buf (Elt F) (aLoc d))
    (i : S100000.Idx) :
    colC d L k1_h1 av i = av (ix2 (Cert.Spec.p1 ⟨wid1 L, hw⟩) (⟨(i 0).val, (i 0).isLt⟩ : Fin 100000)) := by
  show av ((colSrc L k1_h1).view.emb i) = _
  congr 1
  have hre : Shape.reshapeEquiv (s := S1x100000) (s' := S100000) squeezes_S1x100000_S100000.numel_eq i
      = Fin.cons ⟨0, Nat.one_pos⟩ i :=
    Shape.reshapeEquiv_cons_one (n := 1) (d := ![100000]) _ i
  funext a
  match a with
  | ⟨0, _⟩ =>
    apply Fin.ext
    show k1_off1 L 0 + 1 * (0 + 1 * ((Shape.reshapeEquiv (s := S1x100000) (s' := S100000) squeezes_S1x100000_S100000.numel_eq i) 0).val) = _
    rw [hre, off1_eq L hw]
    simp
    rfl
  | ⟨1, _⟩ =>
    apply Fin.ext
    show k1_off1 L 1 + 1 * (0 + 1 * ((Shape.reshapeEquiv (s := S1x100000) (s' := S100000) squeezes_S1x100000_S100000.numel_eq i) 1).val) = _
    rw [hre, off1_eq L hw]
    simp
    rfl

theorem gather_val (d : Dev nD) (L : grid1.Coords) (hw : wid1 L < 25) (k1_h1 : k1_cond1 L = 1#1)
    (av : Buf (Elt F) (aLoc d)) (h0 : Buf (Elt F) (o0Loc d)) (hh : ∀ i, (h0 i).toNat < 100000)
    (s : ℕ) (hs : s < 8) (t : ℕ) (ht : t < 320)
    (h1 : ∀ a x, ((![jvec t, dvec t] : Fin 2 → IVec S16 32) a x).toNat < S10x512.size a)
    (h2 : ∀ a x, ((![loadIdx (idxC d s hs h0) ![jvec t, dvec t] h1] : Fin 1 → IVec S16 32) a x).toNat < S100000.size a)
    (x : S16.Idx) (hN : 5120 * s + (16 * t + lane x) < 40960) :
    loadIdx (colC d L k1_h1 av) ![loadIdx (idxC d s hs h0) ![jvec t, dvec t] h1] h2 x
      = val1 d h0 av (ix2 (⟨wid1 L, hw⟩ : Fin 25) (⟨5120 * s + (16 * t + lane x), hN⟩ : Fin 40960)) := by
  have hl := lane_lt x

  have hidx : idxC d s hs h0 (idxAt ![jvec t, dvec t] h1 x)
      = h0 (ix2 (Cert.Spec.colOf ⟨5120 * s + (16 * t + lane x), hN⟩) (Cert.Spec.rowIn ⟨5120 * s + (16 * t + lane x), hN⟩)) := by
    rw [idxC_apply]
    congr 1
    funext a
    match a with
    | ⟨0, _⟩ =>
      apply Fin.ext
      show (BitVec.ofNat 32 ((16 * t + lane x) % 10)).toNat = (5120 * s + (16 * t + lane x)) % 10
      rw [BitVec.toNat_ofNat, Nat.mod_eq_of_lt (by omega)]
      omega
    | ⟨1, _⟩ =>
      apply Fin.ext
      show 512 * s + (BitVec.ofNat 32 ((16 * t + lane x) / 10)).toNat = (5120 * s + (16 * t + lane x)) / 10
      rw [BitVec.toNat_ofNat, Nat.mod_eq_of_lt (by omega)]
      omega
  show colC d L k1_h1 av (idxAt ![loadIdx (idxC d s hs h0) ![jvec t, dvec t] h1] h2 x) = _
  rw [colC_apply d L hw]
  show _ = av (ix2 (Cert.Spec.p1 ⟨wid1 L, hw⟩) (Cert.Spec.rowOf
    (h0 (ix2 (Cert.Spec.colOf ⟨5120 * s + (16 * t + lane x), hN⟩) (Cert.Spec.rowIn ⟨5120 * s + (16 * t + lane x), hN⟩)))))
  refine congrArg (fun r : Fin 100000 => av (ix2 (Cert.Spec.p1 ⟨wid1 L, hw⟩) r)) (Fin.ext ?_)
  show (idxC d s hs h0 (idxAt ![jvec t, dvec t] h1 x)).toNat = _
  rw [hidx, Cert.Spec.rowOf_val_of_lt (hh _)]

end Cert.Proof.KI

end
-- ==== Proof.KI.Body1C.lean ====
/- A worker's row of the second result is its eight stretches of 5120 entries. -/
import proofs.«215163_g69475390980333_cont_9to1_m_779_28_alg».proof.Proof.KI.Body1B
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 2) (Elt F) ℕ UU ℕ

section Stretches

variable (L : grid1.Coords) (k1_h1 : k1_cond1 L = 1#1)

abbrev outSl0 : Memref sig .scVector .hbm S1x5120 .i32 :=
  oM.slice (Rect.unit (s := S25x40960) (k1_off3 L) S1x5120.size (k1_off3_inb L k1_h1)) (fun _ => rfl)
abbrev outSl1 : Memref sig .scVector .hbm S1x5120 .i32 :=
  oM.slice (Rect.unit (s := S25x40960) (k1_off5 L) S1x5120.size (k1_off5_inb L k1_h1)) (fun _ => rfl)
abbrev outSl2 : Memref sig .scVector .hbm S1x5120 .i32 :=
  oM.slice (Rect.unit (s := S25x40960) (k1_off7 L) S1x5120.size (k1_off7_inb L k1_h1)) (fun _ => rfl)
abbrev outSl3 : Memref sig .scVector .hbm S1x5120 .i32 :=
  oM.slice (Rect.unit (s := S25x40960) (k1_off9 L) S1x5120.size (k1_off9_inb L k1_h1)) (fun _ => rfl)
abbrev outSl4 : Memref sig .scVector .hbm S1x5120 .i32 :=
  oM.slice (Rect.unit (s := S25x40960) (k1_off11 L) S1x5120.size (k1_off11_inb L k1_h1)) (fun _ => rfl)
abbrev outSl5 : Memref sig .scVector .hbm S1x5120 .i32 :=
  oM.slice (Rect.unit (s := S25x40960) (k1_off13 L) S1x5120.size (k1_off13_inb L k1_h1)) (fun _ => rfl)
abbrev outSl6 : Memref sig .scVector .hbm S1x5120 .i32 :=
  oM.slice (Rect.unit (s := S25x40960) (k1_off15 L) S1x5120.size (k1_off15_inb L k1_h1)) (fun _ => rfl)
abbrev outSl7 : Memref sig .scVector .hbm S1x5120 .i32 :=
  oM.slice (Rect.unit (s := S25x40960) (k1_off17 L) S1x5120.size (k1_off17_inb L k1_h1)) (fun _ => rfl)

/-- A stretch of 5120 entries of row `w` from column `o` on holds exactly those positions. -/
theorem mem_stretch {off : Fin 2 → ℕ} {inb : ∀ a, off a + S1x5120.size a ≤ S25x40960.size a} {w o : ℕ} (e : off = ![w, o])
    (i : S25x40960.Idx) :
    i ∈ (oM.slice (Rect.unit (s := S25x40960) off S1x5120.size inb) (fun _ => rfl)).view.set
      ↔ (i 0).val = w ∧ o ≤ (i 1).val ∧ (i 1).val < o + 5120 := by
  show i ∈ ((View.whole main_v2_scv).slice (Rect.unit (s := S25x40960) off S1x5120.size inb)).set ↔ _
  rw [View.set_slice_whole, Rect.mem_set_unit, e]
  constructor
  · intro h
    have h0 := h 0
    have h1 := h 1
    simp at h0 h1
    omega
  · intro h a
    match a with
    | ⟨0, _⟩ => simp; omega
    | ⟨1, _⟩ => simp; omega

variable (i : S25x40960.Idx)

theorem mem_outSl0 : i ∈ (outSl0 L k1_h1).view.set ↔ (i 0).val = wid1 L ∧ 0 ≤ (i 1).val ∧ (i 1).val < 0 + 5120 :=
  mem_stretch (k1_off3_eq L) i
theorem mem_outSl1 : i ∈ (outSl1 L k1_h1).view.set ↔ (i 0).val = wid1 L ∧ 5120 ≤ (i 1).val ∧ (i 1).val < 5120 + 5120 :=
  mem_stretch (k1_off5_eq L) i
theorem mem_outSl2 : i ∈ (outSl2 L k1_h1).view.set ↔ (i 0).val = wid1 L ∧ 10240 ≤ (i 1).val ∧ (i 1).val < 10240 + 5120 :=
  mem_stretch (k1_off7_eq L) i
theorem mem_outSl3 : i ∈ (outSl3 L k1_h1).view.set ↔ (i 0).val = wid1 L ∧ 15360 ≤ (i 1).val ∧ (i 1).val < 15360 + 5120 :=
  mem_stretch (k1_off9_eq L) i
theorem mem_outSl4 : i ∈ (outSl4 L k1_h1).view.set ↔ (i 0).val = wid1 L ∧ 20480 ≤ (i 1).val ∧ (i 1).val < 20480 + 5120 :=
  mem_stretch (k1_off11_eq L) i
theorem mem_outSl5 : i ∈ (outSl5 L k1_h1).view.set ↔ (i 0).val = wid1 L ∧ 25600 ≤ (i 1).val ∧ (i 1).val < 25600 + 5120 :=
  mem_stretch (k1_off13_eq L) i
theorem mem_outSl6 : i ∈ (outSl6 L k1_h1).view.set ↔ (i 0).val = wid1 L ∧ 30720 ≤ (i 1).val ∧ (i 1).val < 30720 + 5120 :=
  mem_stretch (k1_off15_eq L) i
theorem mem_outSl7 : i ∈ (outSl7 L k1_h1).view.set ↔ (i 0).val = wid1 L ∧ 35840 ≤ (i 1).val ∧ (i 1).val < 35840 + 5120 :=
  mem_stretch (k1_off17_eq L) i

theorem mem_row1 (r : Fin 25) : i ∈ (row1 r).set ↔ (i 0).val = r.val := by
  rw [Rect.mem_set_unit]
  constructor
  · intro h
    have h0 := h 0
    simp [Shape.partIx, Shape.partSize] at h0
    omega
  · intro h a
    match a with
    | ⟨0, _⟩ => simp [Shape.partIx, Shape.partSize]; omega
    | ⟨1, _⟩ => simp [Shape.partIx, Shape.partSize]; exact (i 1).isLt

/-- The stretches from the k-th on. -/
abbrev outTl7 : Finset S25x40960.Idx := (outSl7 L k1_h1).view.set
abbrev outTl6 : Finset S25x40960.Idx := (outSl6 L k1_h1).view.set ∪ outTl7 L k1_h1
abbrev outTl5 : Finset S25x40960.Idx := (outSl5 L k1_h1).view.set ∪ outTl6 L k1_h1
abbrev outTl4 : Finset S25x40960.Idx := (outSl4 L k1_h1).view.set ∪ outTl5 L k1_h1
abbrev outTl3 : Finset S25x40960.Idx := (outSl3 L k1_h1).view.set ∪ outTl4 L k1_h1
abbrev outTl2 : Finset S25x40960.Idx := (outSl2 L k1_h1).view.set ∪ outTl3 L k1_h1
abbrev outTl1 : Finset S25x40960.Idx := (outSl1 L k1_h1).view.set ∪ outTl2 L k1_h1

theorem mem_outTl7 : i ∈ outTl7 L k1_h1 ↔ (i 0).val = wid1 L ∧ 35840 ≤ (i 1).val ∧ (i 1).val < 40960 :=
  mem_outSl7 L k1_h1 i
theorem mem_outTl6 : i ∈ outTl6 L k1_h1 ↔ (i 0).val = wid1 L ∧ 30720 ≤ (i 1).val ∧ (i 1).val < 40960 := by
  rw [Finset.mem_union, mem_outSl6, mem_outTl7]
  constructor <;> intro h <;> omega
theorem mem_outTl5 : i ∈ outTl5 L k1_h1 ↔ (i 0).val = wid1 L ∧ 25600 ≤ (i 1).val ∧ (i 1).val < 40960 := by
  rw [Finset.mem_union, mem_outSl5, mem_outTl6]
  constructor <;> intro h <;> omega
theorem mem_outTl4 : i ∈ outTl4 L k1_h1 ↔ (i 0).val = wid1 L ∧ 20480 ≤ (i 1).val ∧ (i 1).val < 40960 := by
  rw [Finset.mem_union, mem_outSl4, mem_outTl5]
  constructor <;> intro h <;> omega
theorem mem_outTl3 : i ∈ outTl3 L k1_h1 ↔ (i 0).val = wid1 L ∧ 15360 ≤ (i 1).val ∧ (i 1).val < 40960 := by
  rw [Finset.mem_union, mem_outSl3, mem_outTl4]
  constructor <;> intro h <;> omega
theorem mem_outTl2 : i ∈ outTl2 L k1_h1 ↔ (i 0).val = wid1 L ∧ 10240 ≤ (i 1).val ∧ (i 1).val < 40960 := by
  rw [Finset.mem_union, mem_outSl2, mem_outTl3]
  constructor <;> intro h <;> omega
theorem mem_outTl1 : i ∈ outTl1 L k1_h1 ↔ (i 0).val = wid1 L ∧ 5120 ≤ (i 1).val ∧ (i 1).val < 40960 := by
  rw [Finset.mem_union, mem_outSl1, mem_outTl2]
  constructor <;> intro h <;> omega

theorem row1_set_outSl (hw : wid1 L < 25) : (row1 ⟨wid1 L, hw⟩).set = (outSl0 L k1_h1).view.set ∪ outTl1 L k1_h1 := by
  ext i
  rw [Finset.mem_union, mem_row1, mem_outSl0, mem_outTl1]
  have h1 : (i 1).val < 40960 := (i 1).isLt
  show (i 0).val = wid1 L ↔ _
  constructor <;> intro h <;> omega

theorem outSl_disj0 : Disjoint (outSl0 L k1_h1).view.set (outTl1 L k1_h1) :=
  Finset.disjoint_left.mpr fun i hi hj => by
    have a := (mem_outSl0 L k1_h1 i).1 hi
    have b := (mem_outTl1 L k1_h1 i).1 hj
    omega
theorem outSl_disj1 : Disjoint (outSl1 L k1_h1).view.set (outTl2 L k1_h1) :=
  Finset.disjoint_left.mpr fun i hi hj => by
    have a := (mem_outSl1 L k1_h1 i).1 hi
    have b := (mem_outTl2 L k1_h1 i).1 hj
    omega
theorem outSl_disj2 : Disjoint (outSl2 L k1_h1).view.set (outTl3 L k1_h1) :=
  Finset.disjoint_left.mpr fun i hi hj => by
    have a := (mem_outSl2 L k1_h1 i).1 hi
    have b := (mem_outTl3 L k1_h1 i).1 hj
    omega
theorem outSl_disj3 : Disjoint (outSl3 L k1_h1).view.set (outTl4 L k1_h1) :=
  Finset.disjoint_left.mpr fun i hi hj => by
    have a := (mem_outSl3 L k1_h1 i).1 hi
    have b := (mem_outTl4 L k1_h1 i).1 hj
    omega
theorem outSl_disj4 : Disjoint (outSl4 L k1_h1).view.set (outTl5 L k1_h1) :=
  Finset.disjoint_left.mpr fun i hi hj => by
    have a := (mem_outSl4 L k1_h1 i).1 hi
    have b := (mem_outTl5 L k1_h1 i).1 hj
    omega
theorem outSl_disj5 : Disjoint (outSl5 L k1_h1).view.set (outTl6 L k1_h1) :=
  Finset.disjoint_left.mpr fun i hi hj => by
    have a := (mem_outSl5 L k1_h1 i).1 hi
    have b := (mem_outTl6 L k1_h1 i).1 hj
    omega
theorem outSl_disj6 : Disjoint (outSl6 L k1_h1).view.set (outTl7 L k1_h1) :=
  Finset.disjoint_left.mpr fun i hi hj => by
    have a := (mem_outSl6 L k1_h1 i).1 hi
    have b := (mem_outTl7 L k1_h1 i).1 hj
    omega

end Stretches

abbrev outPt0 (d : Dev nD) (L : grid1.Coords) (k1_h1 : k1_cond1 L = 1#1) (f : Buf (Elt F) (o1Loc d)) : sProp 𝕄 :=
  (outSl0 L k1_h1).view.loc (V d (cV1 L) (jV1 L)) ↦[(outSl0 L k1_h1).view.set]{fullShare} f
abbrev outPt1 (d : Dev nD) (L : grid1.Coords) (k1_h1 : k1_cond1 L = 1#1) (f : Buf (Elt F) (o1Loc d)) : sProp 𝕄 :=
  (outSl1 L k1_h1).view.loc (V d (cV1 L) (jV1 L)) ↦[(outSl1 L k1_h1).view.set]{fullShare} f
abbrev outPt2 (d : Dev nD) (L : grid1.Coords) (k1_h1 : k1_cond1 L = 1#1) (f : Buf (Elt F) (o1Loc d)) : sProp 𝕄 :=
  (outSl2 L k1_h1).view.loc (V d (cV1 L) (jV1 L)) ↦[(outSl2 L k1_h1).view.set]{fullShare} f
abbrev outPt3 (d : Dev nD) (L : grid1.Coords) (k1_h1 : k1_cond1 L = 1#1) (f : Buf (Elt F) (o1Loc d)) : sProp 𝕄 :=
  (outSl3 L k1_h1).view.loc (V d (cV1 L) (jV1 L)) ↦[(outSl3 L k1_h1).view.set]{fullShare} f
abbrev outPt4 (d : Dev nD) (L : grid1.Coords) (k1_h1 : k1_cond1 L = 1#1) (f : Buf (Elt F) (o1Loc d)) : sProp 𝕄 :=
  (outSl4 L k1_h1).view.loc (V d (cV1 L) (jV1 L)) ↦[(outSl4 L k1_h1).view.set]{fullShare} f
abbrev outPt5 (d : Dev nD) (L : grid1.Coords) (k1_h1 : k1_cond1 L = 1#1) (f : Buf (Elt F) (o1Loc d)) : sProp 𝕄 :=
  (outSl5 L k1_h1).view.loc (V d (cV1 L) (jV1 L)) ↦[(outSl5 L k1_h1).view.set]{fullShare} f
abbrev outPt6 (d : Dev nD) (L : grid1.Coords) (k1_h1 : k1_cond1 L = 1#1) (f : Buf (Elt F) (o1Loc d)) : sProp 𝕄 :=
  (outSl6 L k1_h1).view.loc (V d (cV1 L) (jV1 L)) ↦[(outSl6 L k1_h1).view.set]{fullShare} f
abbrev outPt7 (d : Dev nD) (L : grid1.Coords) (k1_h1 : k1_cond1 L = 1#1) (f : Buf (Elt F) (o1Loc d)) : sProp 𝕄 :=
  (outSl7 L k1_h1).view.loc (V d (cV1 L) (jV1 L)) ↦[(outSl7 L k1_h1).view.set]{fullShare} f

theorem row_split (d : Dev nD) (L : grid1.Coords) (hw : wid1 L < 25) (k1_h1 : k1_cond1 L = 1#1) (f : Buf (Elt F) (o1Loc d)) :
    (o1Loc d ↦[(row1 ⟨wid1 L, hw⟩).set]{fullShare} f : sProp 𝕄)
      ⊢ iprop(outPt0 d L k1_h1 f ∗ outPt1 d L k1_h1 f ∗ outPt2 d L k1_h1 f ∗ outPt3 d L k1_h1 f ∗ outPt4 d L k1_h1 f ∗ outPt5 d L k1_h1 f ∗ outPt6 d L k1_h1 f ∗ outPt7 d L k1_h1 f) := by
  rw [row1_set_outSl L k1_h1 hw]
  refine (pointsTo_union (outSl_disj0 L k1_h1)).1.trans (sep_mono .rfl ?_)
  refine (pointsTo_union (outSl_disj1 L k1_h1)).1.trans (sep_mono .rfl ?_)
  refine (pointsTo_union (outSl_disj2 L k1_h1)).1.trans (sep_mono .rfl ?_)
  refine (pointsTo_union (outSl_disj3 L k1_h1)).1.trans (sep_mono .rfl ?_)
  refine (pointsTo_union (outSl_disj4 L k1_h1)).1.trans (sep_mono .rfl ?_)
  refine (pointsTo_union (outSl_disj5 L k1_h1)).1.trans (sep_mono .rfl ?_)
  exact (pointsTo_union (outSl_disj6 L k1_h1)).1

theorem row_join (d : Dev nD) (L : grid1.Coords) (hw : wid1 L < 25) (k1_h1 : k1_cond1 L = 1#1) (v : Buf (Elt F) (o1Loc d))
    (g0 g1 g2 g3 g4 g5 g6 g7 : Buf (Elt F) (o1Loc d))
    (e0 : ∀ i ∈ (outSl0 L k1_h1).view.set, g0 i = v i)
    (e1 : ∀ i ∈ (outSl1 L k1_h1).view.set, g1 i = v i)
    (e2 : ∀ i ∈ (outSl2 L k1_h1).view.set, g2 i = v i)
    (e3 : ∀ i ∈ (outSl3 L k1_h1).view.set, g3 i = v i)
    (e4 : ∀ i ∈ (outSl4 L k1_h1).view.set, g4 i = v i)
    (e5 : ∀ i ∈ (outSl5 L k1_h1).view.set, g5 i = v i)
    (e6 : ∀ i ∈ (outSl6 L k1_h1).view.set, g6 i = v i)
    (e7 : ∀ i ∈ (outSl7 L k1_h1).view.set, g7 i = v i) :
    iprop(outPt0 d L k1_h1 g0 ∗ outPt1 d L k1_h1 g1 ∗ outPt2 d L k1_h1 g2 ∗ outPt3 d L k1_h1 g3 ∗ outPt4 d L k1_h1 g4 ∗ outPt5 d L k1_h1 g5 ∗ outPt6 d L k1_h1 g6 ∗ outPt7 d L k1_h1 g7)
      ⊢ (o1Loc d ↦[(row1 ⟨wid1 L, hw⟩).set]{fullShare} v : sProp 𝕄) := by
  rw [row1_set_outSl L k1_h1 hw]
  rw [show outPt0 d L k1_h1 g0 = outPt0 d L k1_h1 v from pointsTo_congr e0,
    show outPt1 d L k1_h1 g1 = outPt1 d L k1_h1 v from pointsTo_congr e1,
    show outPt2 d L k1_h1 g2 = outPt2 d L k1_h1 v from pointsTo_congr e2,
    show outPt3 d L k1_h1 g3 = outPt3 d L k1_h1 v from pointsTo_congr e3,
    show outPt4 d L k1_h1 g4 = outPt4 d L k1_h1 v from pointsTo_congr e4,
    show outPt5 d L k1_h1 g5 = outPt5 d L k1_h1 v from pointsTo_congr e5,
    show outPt6 d L k1_h1 g6 = outPt6 d L k1_h1 v from pointsTo_congr e6,
    show outPt7 d L k1_h1 g7 = outPt7 d L k1_h1 v from pointsTo_congr e7]
  refine Entails.trans (sep_mono .rfl ?_) (pointsTo_union (outSl_disj0 L k1_h1)).2
  refine Entails.trans (sep_mono .rfl ?_) (pointsTo_union (outSl_disj1 L k1_h1)).2
  refine Entails.trans (sep_mono .rfl ?_) (pointsTo_union (outSl_disj2 L k1_h1)).2
  refine Entails.trans (sep_mono .rfl ?_) (pointsTo_union (outSl_disj3 L k1_h1)).2
  refine Entails.trans (sep_mono .rfl ?_) (pointsTo_union (outSl_disj4 L k1_h1)).2
  refine Entails.trans (sep_mono .rfl ?_) (pointsTo_union (outSl_disj5 L k1_h1)).2
  exact (pointsTo_union (outSl_disj6 L k1_h1)).2

end Cert.Proof.KI

end
-- ==== Proof.KI.Body1.lean ====
/- Second stage, one worker: its row of the second result ends at the lookup's value. -/
import proofs.«215163_g69475390980333_cont_9to1_m_779_28_alg».proof.Proof.KI.Body1C

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 2) (Elt F) ℕ UU ℕ

omit [FloatOps F] in

theorem ownBufs_V1 (d : Dev nD) (L : grid1.Coords) :
    (ownBufs (V d (cV1 L) (jV1 L)) : sProp 𝕄)
      = iprop((∃ f, (V d (cV1 L) (jV1 L)).loc cc1_scratch0 ↦{fullShare} f) ∗ (∃ f, (V d (cV1 L) (jV1 L)).loc cc1_scratch1 ↦{fullShare} f) ∗ (∃ f, (V d (cV1 L) (jV1 L)).loc cc1_scratch2 ↦{fullShare} f) ∗ (∃ f, (V d (cV1 L) (jV1 L)).loc cc1_scratch3 ↦{fullShare} f) ∗ (∃ f, (V d (cV1 L) (jV1 L)).loc cc1_scratch4 ↦{fullShare} f)
          ∗ bigSep ((((((ownRefs (τ := τ) (.scVector (cV1 L) (jV1 L))).erase ((Proc.scVector (cV1 L) (jV1 L)).devRef cc1_scratch0)).erase ((Proc.scVector (cV1 L) (jV1 L)).devRef cc1_scratch1)).erase ((Proc.scVector (cV1 L) (jV1 L)).devRef cc1_scratch2)).erase ((Proc.scVector (cV1 L) (jV1 L)).devRef cc1_scratch3)).erase ((Proc.scVector (cV1 L) (jV1 L)).devRef cc1_scratch4))
              fun b => iprop(∃ f, ((d, b) : Loc nD τ sig) ↦{fullShare} f)) := by
  unfold SparseCore.Cfg.ownBufs
  refine (SparseCore.bigSep_erase' (SparseCore.Cfg.mem_ownRefs_of_owner (p := (Proc.scVector (cV1 L) (jV1 L))) (b := (Proc.scVector (cV1 L) (jV1 L)).devRef cc1_scratch0) rfl)).trans ?_
  rw [SparseCore.bigSep_erase' (Finset.mem_erase.mpr ⟨fun e => absurd (Proc.devRef_injective _ e) (show (cc1_scratch1 : Ref sig .scVector) ≠ cc1_scratch0 by decide), SparseCore.Cfg.mem_ownRefs_of_owner (p := (Proc.scVector (cV1 L) (jV1 L))) (b := (Proc.scVector (cV1 L) (jV1 L)).devRef cc1_scratch1) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := (Proc.scVector (cV1 L) (jV1 L))) (b := (Proc.scVector (cV1 L) (jV1 L)).devRef cc1_scratch2) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := (Proc.scVector (cV1 L) (jV1 L))) (b := (Proc.scVector (cV1 L) (jV1 L)).devRef cc1_scratch3) rfl⟩⟩⟩),
    SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := (Proc.scVector (cV1 L) (jV1 L))) (b := (Proc.scVector (cV1 L) (jV1 L)).devRef cc1_scratch4) rfl⟩⟩⟩⟩)]

omit [FloatOps F] in

theorem ownSems0_V1 (d : Dev nD) (L : grid1.Coords) :
    (ownSems0 (V d (cV1 L) (jV1 L)) : sProp 𝕄)
      = iprop(semVal (((V d (cV1 L) (jV1 L)), SemLoc.dma cc1_scratch5.sem) : GSem nD τ sig) 0 ∗ semVal (((V d (cV1 L) (jV1 L)), SemLoc.dma cc1_scratch6.sem) : GSem nD τ sig) 0 ∗ semVal (((V d (cV1 L) (jV1 L)), SemLoc.dma cc1_scratch7.sem) : GSem nD τ sig) 0 ∗ semVal (((V d (cV1 L) (jV1 L)), SemLoc.dma cc1_scratch8.sem) : GSem nD τ sig) 0 ∗ semVal (((V d (cV1 L) (jV1 L)), SemLoc.dma cc1_scratch9.sem) : GSem nD τ sig) 0
          ∗ bigSep ((((((ownCells (V d (cV1 L) (jV1 L))).erase (((V d (cV1 L) (jV1 L)), SemLoc.dma cc1_scratch5.sem) : GSem nD τ sig)).erase (((V d (cV1 L) (jV1 L)), SemLoc.dma cc1_scratch6.sem) : GSem nD τ sig)).erase (((V d (cV1 L) (jV1 L)), SemLoc.dma cc1_scratch7.sem) : GSem nD τ sig)).erase (((V d (cV1 L) (jV1 L)), SemLoc.dma cc1_scratch8.sem) : GSem nD τ sig)).erase (((V d (cV1 L) (jV1 L)), SemLoc.dma cc1_scratch9.sem) : GSem nD τ sig)) fun g => semVal g 0) := by
  unfold SparseCore.Cfg.ownSems0
  refine (SparseCore.bigSep_erase' ((mem_ownCells (g := (((V d (cV1 L) (jV1 L)), SemLoc.dma cc1_scratch5.sem) : GSem nD τ sig))).mpr ⟨rfl, by show (SemLoc.dma cc1_scratch5.sem : SemLoc sig).isScoped .scVector = true; decide⟩)).trans ?_
  rw [SparseCore.bigSep_erase' (Finset.mem_erase.mpr ⟨fun e => absurd (congrArg Prod.snd e) (show (SemLoc.dma cc1_scratch6.sem : SemLoc sig) ≠ SemLoc.dma cc1_scratch5.sem by decide), (mem_ownCells (g := (((V d (cV1 L) (jV1 L)), SemLoc.dma cc1_scratch6.sem) : GSem nD τ sig))).mpr ⟨rfl, by show (SemLoc.dma cc1_scratch6.sem : SemLoc sig).isScoped .scVector = true; decide⟩⟩),
    SparseCore.bigSep_erase' (Finset.mem_erase.mpr ⟨fun e => absurd (congrArg Prod.snd e) (show (SemLoc.dma cc1_scratch7.sem : SemLoc sig) ≠ SemLoc.dma cc1_scratch6.sem by decide), Finset.mem_erase.mpr ⟨fun e => absurd (congrArg Prod.snd e) (show (SemLoc.dma cc1_scratch7.sem : SemLoc sig) ≠ SemLoc.dma cc1_scratch5.sem by decide), (mem_ownCells (g := (((V d (cV1 L) (jV1 L)), SemLoc.dma cc1_scratch7.sem) : GSem nD τ sig))).mpr ⟨rfl, by show (SemLoc.dma cc1_scratch7.sem : SemLoc sig).isScoped .scVector = true; decide⟩⟩⟩),
    SparseCore.bigSep_erase' (Finset.mem_erase.mpr ⟨fun e => absurd (congrArg Prod.snd e) (show (SemLoc.dma cc1_scratch8.sem : SemLoc sig) ≠ SemLoc.dma cc1_scratch7.sem by decide), Finset.mem_erase.mpr ⟨fun e => absurd (congrArg Prod.snd e) (show (SemLoc.dma cc1_scratch8.sem : SemLoc sig) ≠ SemLoc.dma cc1_scratch6.sem by decide), Finset.mem_erase.mpr ⟨fun e => absurd (congrArg Prod.snd e) (show (SemLoc.dma cc1_scratch8.sem : SemLoc sig) ≠ SemLoc.dma cc1_scratch5.sem by decide), (mem_ownCells (g := (((V d (cV1 L) (jV1 L)), SemLoc.dma cc1_scratch8.sem) : GSem nD τ sig))).mpr ⟨rfl, by show (SemLoc.dma cc1_scratch8.sem : SemLoc sig).isScoped .scVector = true; decide⟩⟩⟩⟩),
    SparseCore.bigSep_erase' (Finset.mem_erase.mpr ⟨fun e => absurd (congrArg Prod.snd e) (show (SemLoc.dma cc1_scratch9.sem : SemLoc sig) ≠ SemLoc.dma cc1_scratch8.sem by decide), Finset.mem_erase.mpr ⟨fun e => absurd (congrArg Prod.snd e) (show (SemLoc.dma cc1_scratch9.sem : SemLoc sig) ≠ SemLoc.dma cc1_scratch7.sem by decide), Finset.mem_erase.mpr ⟨fun e => absurd (congrArg Prod.snd e) (show (SemLoc.dma cc1_scratch9.sem : SemLoc sig) ≠ SemLoc.dma cc1_scratch6.sem by decide), Finset.mem_erase.mpr ⟨fun e => absurd (congrArg Prod.snd e) (show (SemLoc.dma cc1_scratch9.sem : SemLoc sig) ≠ SemLoc.dma cc1_scratch5.sem by decide), (mem_ownCells (g := (((V d (cV1 L) (jV1 L)), SemLoc.dma cc1_scratch9.sem) : GSem nD τ sig))).mpr ⟨rfl, by show (SemLoc.dma cc1_scratch9.sem : SemLoc sig).isScoped .scVector = true; decide⟩⟩⟩⟩⟩)]

abbrev colM : Memref sig .scVector .vmem S100000 .i32 := Memref.whole cc1_scratch0
abbrev ixM0 : Memref sig .scVector .vmem S10x512 .i32 := Memref.whole cc1_scratch1
abbrev ixM1 : Memref sig .scVector .vmem S10x512 .i32 := Memref.whole cc1_scratch2
abbrev sgM0 : Memref sig .scVector .vmem S1x5120 .i32 := Memref.whole cc1_scratch3
abbrev sgM1 : Memref sig .scVector .vmem S1x5120 .i32 := Memref.whole cc1_scratch4

omit [FloatOps F] in
theorem pts_aM (d : Dev nD) (L : grid1.Coords) (q : PosShare TreeShare) (g : Buf (Elt F) (aLoc d)) :
    (aM.view.loc (V d (cV1 L) (jV1 L)) ↦{q} g : sProp 𝕄) = aLoc d ↦{q} g := by
  simp only [Memref.view_whole, View.set_whole]
omit [FloatOps F] in
theorem pts_hM (d : Dev nD) (L : grid1.Coords) (q : PosShare TreeShare) (g : Buf (Elt F) (o0Loc d)) :
    (hM.view.loc (V d (cV1 L) (jV1 L)) ↦{q} g : sProp 𝕄) = o0Loc d ↦{q} g := by
  simp only [Memref.view_whole, View.set_whole]
omit [FloatOps F] in
theorem pts_colM (d : Dev nD) (L : grid1.Coords) (g : Buf (Elt F) ((V d (cV1 L) (jV1 L)).loc cc1_scratch0)) :
    (colM.view.loc (V d (cV1 L) (jV1 L)) ↦{fullShare} g : sProp 𝕄) = (V d (cV1 L) (jV1 L)).loc cc1_scratch0 ↦{fullShare} g := rfl
omit [FloatOps F] in
theorem pts_ixM0 (d : Dev nD) (L : grid1.Coords) (g : Buf (Elt F) ((V d (cV1 L) (jV1 L)).loc cc1_scratch1)) :
    (ixM0.view.loc (V d (cV1 L) (jV1 L)) ↦{fullShare} g : sProp 𝕄) = (V d (cV1 L) (jV1 L)).loc cc1_scratch1 ↦{fullShare} g := rfl
omit [FloatOps F] in
theorem pts_ixM1 (d : Dev nD) (L : grid1.Coords) (g : Buf (Elt F) ((V d (cV1 L) (jV1 L)).loc cc1_scratch2)) :
    (ixM1.view.loc (V d (cV1 L) (jV1 L)) ↦{fullShare} g : sProp 𝕄) = (V d (cV1 L) (jV1 L)).loc cc1_scratch2 ↦{fullShare} g := rfl
omit [FloatOps F] in
theorem pts_sgM0 (d : Dev nD) (L : grid1.Coords) (g : Buf (Elt F) ((V d (cV1 L) (jV1 L)).loc cc1_scratch3)) :
    (sgM0.view.loc (V d (cV1 L) (jV1 L)) ↦{fullShare} g : sProp 𝕄) = (V d (cV1 L) (jV1 L)).loc cc1_scratch3 ↦{fullShare} g := rfl
omit [FloatOps F] in
theorem pts_sgM1 (d : Dev nD) (L : grid1.Coords) (g : Buf (Elt F) ((V d (cV1 L) (jV1 L)).loc cc1_scratch4)) :
    (sgM1.view.loc (V d (cV1 L) (jV1 L)) ↦{fullShare} g : sProp 𝕄) = (V d (cV1 L) (jV1 L)).loc cc1_scratch4 ↦{fullShare} g := rfl
omit [FloatOps F] in
theorem pts_colM_acc (d : Dev nD) (L : grid1.Coords) (g : Buf (Elt F) ((V d (cV1 L) (jV1 L)).loc cc1_scratch0)) :
    ((colM.access (.whole S100000)).loc (V d (cV1 L) (jV1 L)) ↦{fullShare} g : sProp 𝕄) = colM.view.loc (V d (cV1 L) (jV1 L)) ↦{fullShare} g := rfl
omit [FloatOps F] in
theorem pts_ixM0_acc (d : Dev nD) (L : grid1.Coords) (g : Buf (Elt F) ((V d (cV1 L) (jV1 L)).loc cc1_scratch1)) :
    ((ixM0.access (.whole S10x512)).loc (V d (cV1 L) (jV1 L)) ↦{fullShare} g : sProp 𝕄) = ixM0.view.loc (V d (cV1 L) (jV1 L)) ↦{fullShare} g := rfl
omit [FloatOps F] in
theorem pts_ixM1_acc (d : Dev nD) (L : grid1.Coords) (g : Buf (Elt F) ((V d (cV1 L) (jV1 L)).loc cc1_scratch2)) :
    ((ixM1.access (.whole S10x512)).loc (V d (cV1 L) (jV1 L)) ↦{fullShare} g : sProp 𝕄) = ixM1.view.loc (V d (cV1 L) (jV1 L)) ↦{fullShare} g := rfl
omit [FloatOps F] in
theorem pts_sgM0_acc (d : Dev nD) (L : grid1.Coords) (g : Buf (Elt F) ((V d (cV1 L) (jV1 L)).loc cc1_scratch3)) :
    ((sgM0.access (.whole S1x5120)).loc (V d (cV1 L) (jV1 L)) ↦{fullShare} g : sProp 𝕄) = sgM0.view.loc (V d (cV1 L) (jV1 L)) ↦{fullShare} g := rfl
omit [FloatOps F] in
theorem pts_sgM1_acc (d : Dev nD) (L : grid1.Coords) (g : Buf (Elt F) ((V d (cV1 L) (jV1 L)).loc cc1_scratch4)) :
    ((sgM1.access (.whole S1x5120)).loc (V d (cV1 L) (jV1 L)) ↦{fullShare} g : sProp 𝕄) = sgM1.view.loc (V d (cV1 L) (jV1 L)) ↦{fullShare} g := rfl

theorem read_ixM0 (g : Vec F S10x512 .i32) : (ixM0.access (Rect.whole S10x512)).read (Elt F) g = g := Memref.read_access_whole (Elt F) cc1_scratch1 g
theorem read_ixM1 (g : Vec F S10x512 .i32) : (ixM1.access (Rect.whole S10x512)).read (Elt F) g = g := Memref.read_access_whole (Elt F) cc1_scratch2 g
theorem read_colM (g : Vec F S100000 .i32) : (colM.access (Rect.whole S100000)).read (Elt F) g = g := Memref.read_access_whole (Elt F) cc1_scratch0 g

theorem stage_step {κ : Kind} {sp : Space} (v : View sig κ sp S1x5120 .i32) (g : v.ty.Contents (Elt F)) (tgt : ℕ → Elt F .i32)
    (k : ℕ) (hk : k < 320) (off : Fin 2 → ℕ) (hoff : off = ![0, 16 * k]) (inb : ∀ a, off a + S1x16.size a ≤ S1x5120.size a)
    (w : Vec F S16 .i32) (hc : S16.ShapeCasts S1x16)
    (hg : ∀ n (hn : n < 5120), n < 16 * k → v.read (Elt F) g (ix2 (0 : Fin 1) (⟨n, hn⟩ : Fin 5120)) = tgt n)
    (hw : ∀ x : S16.Idx, w x = tgt (16 * k + lane x)) :
    ∀ n (hn : n < 5120), n < 16 * (k + 1) →
      v.read (Elt F) (v.writes (Elt F) g [⟨Rect.unit (s := S1x5120) off S1x16.size inb, shapeCast S1x16 w hc⟩])
        (ix2 (0 : Fin 1) (⟨n, hn⟩ : Fin 5120)) = tgt n := by
  subst hoff
  intro n hn hlt
  by_cases hlo : n < 16 * k
  · rw [View.read_writes_apply_of_forall_not_mem]
    · exact hg n hn hlo
    · intro p hp
      rw [List.mem_singleton] at hp; subst hp
      rw [Rect.mem_set_unit]
      intro h
      have h1 := (h 1).1
      simp at h1
      omega
  · have hx : n - 16 * k < 16 := by omega
    have hi : ix2 (0 : Fin 1) (⟨n, hn⟩ : Fin 5120)
        = (Rect.unit (s := S1x5120) ![0, 16 * k] S1x16.size inb).emb (ix2 (0 : Fin 1) (⟨n - 16 * k, hx⟩ : Fin 16)) := by
      funext a
      apply Fin.ext
      rw [Rect.emb_apply]
      match a with
      | ⟨0, _⟩ => simp
      | ⟨1, _⟩ => simp; omega
    rw [hi, View.read_writes_cons_emb]
    rw [shapeCast_addUnit_apply (n := 1) (d := ![16])]
    exact (hw _).trans (congrArg tgt (by show 16 * k + (n - 16 * k) = n; omega))

def tgt1 (d : Dev nD) (L : grid1.Coords) (hw : wid1 L < 25) (av : Buf (Elt F) (aLoc d)) (h0 : Buf (Elt F) (o0Loc d)) (s n : ℕ) : Elt F .i32 :=
  val1 d h0 av (ix2 (⟨wid1 L, hw⟩ : Fin 25) (⟨(5120 * s + n) % 40960, Nat.mod_lt _ (by decide)⟩ : Fin 40960))

theorem tgt1_eq (d : Dev nD) (L : grid1.Coords) (hw : wid1 L < 25) (av : Buf (Elt F) (aLoc d)) (h0 : Buf (Elt F) (o0Loc d)) (s n : ℕ)
    (hN : 5120 * s + n < 40960) :
    tgt1 d L hw av h0 s n = val1 d h0 av (ix2 (⟨wid1 L, hw⟩ : Fin 25) (⟨5120 * s + n, hN⟩ : Fin 40960)) := by
  unfold tgt1
  simp only [Nat.mod_eq_of_lt hN]

theorem out_val (d : Dev nD) (L : grid1.Coords) (hw : wid1 L < 25) (av : Buf (Elt F) (aLoc d)) (h0 : Buf (Elt F) (o0Loc d))
    (s : ℕ) (hs : s < 8) (off : Fin 2 → ℕ) (hoff : off = ![wid1 L, 5120 * s]) (inb : ∀ a, off a + S1x5120.size a ≤ S25x40960.size a)
    (f : Buf (Elt F) (o1Loc d)) (w : Vec F S1x5120 .i32)
    (hwv : ∀ n (hn : n < 5120), w (ix2 (0 : Fin 1) (⟨n, hn⟩ : Fin 5120)) = tgt1 d L hw av h0 s n) :
    ∀ i ∈ ((View.whole main_v2_scv).slice (Rect.unit (s := S25x40960) off S1x5120.size inb)).set,
      (((View.whole main_v2_scv).slice (Rect.unit (s := S25x40960) off S1x5120.size inb)).writes (Elt F) f [⟨Rect.whole S1x5120, w⟩]) i
        = val1 d h0 av i := by
  subst hoff
  intro i hi
  obtain ⟨y, -, rfl⟩ := Finset.mem_map.mp hi
  have hy1 : (y 1).val < 5120 := (y 1).isLt
  have h01 : (y 0).val < 1 := (y 0).isLt
  have hy : y = ix2 (0 : Fin 1) (⟨(y 1).val, hy1⟩ : Fin 5120) := by
    funext a
    match a with
    | ⟨0, _⟩ => exact Fin.ext (by show (y 0).val = 0; omega)
    | ⟨1, _⟩ => rfl
  have h1 := View.read_writes_cons_emb ((View.whole main_v2_scv).slice (Rect.unit (s := S25x40960) ![wid1 L, 5120 * s] S1x5120.size inb)) f
    (Rect.whole S1x5120) w [] y
  have hwy : (Rect.whole S1x5120).emb y = y := Rect.emb_whole_apply S1x5120 y
  rw [hwy, View.read_apply, cast_eq] at h1
  have hN : 5120 * s + (y 1).val < 40960 := by omega
  rw [h1]
  rw [hy, hwv, tgt1_eq d L hw av h0 s _ hN]
  refine congrArg (val1 d h0 av) ?_
  funext a
  apply Fin.ext
  match a with
  | ⟨0, h⟩ =>
    show wid1 L = ((Rect.unit (s := S25x40960) ![wid1 L, 5120 * s] S1x5120.size inb).emb (ix2 (0 : Fin 1) (⟨(y 1).val, hy1⟩ : Fin 5120)) ⟨0, h⟩).val
    rw [Rect.emb_apply]; simp
  | ⟨1, h⟩ =>
    show 5120 * s + (y 1).val = ((Rect.unit (s := S25x40960) ![wid1 L, 5120 * s] S1x5120.size inb).emb (ix2 (0 : Fin 1) (⟨(y 1).val, hy1⟩ : Fin 5120)) ⟨1, h⟩).val
    rw [Rect.emb_apply]; simp

theorem waits_insert {W W' : Waits sig (HIx 2)} (sm : SemLoc sig) (h : ∀ p ∈ W', p ∈ W ∨ p.2 = none) :
    ∀ p ∈ insert (sm, (default : HIx 2)) W', p ∈ W ∨ p.2 = none := by
  intro p hp
  rcases Finset.mem_insert.mp hp with rfl | hp
  · exact .inr rfl
  · exact h p hp

def inv0 (d : Dev nD) (L : grid1.Coords) (hw : wid1 L < 25) (k1_h1 : k1_cond1 L = 1#1)
    (av : Buf (Elt F) (aLoc d)) (h0 : Buf (Elt F) (o0Loc d)) (s : ℕ) (hs : s < 8) (t : ℕ) (acc : IVec S16 32 × IVec S16 32) : sProp 𝕄 :=
  iprop(⌜acc = (jvec t, dvec t)⌝ ∗ (colM.view.loc (V d (cV1 L) (jV1 L)) ↦{fullShare} colC d L k1_h1 av)
    ∗ (ixM0.view.loc (V d (cV1 L) (jV1 L)) ↦{fullShare} idxC d s hs h0)
    ∗ ∃ g : Buf (Elt F) ((V d (cV1 L) (jV1 L)).loc cc1_scratch3),
        (sgM0.view.loc (V d (cV1 L) (jV1 L)) ↦{fullShare} g)
        ∗ ⌜∀ n (hn : n < 5120), n < 16 * t → g (ix2 (0 : Fin 1) (⟨n, hn⟩ : Fin 5120)) = tgt1 d L hw av h0 s n⌝)

def inv1 (d : Dev nD) (L : grid1.Coords) (hw : wid1 L < 25) (k1_h1 : k1_cond1 L = 1#1)
    (av : Buf (Elt F) (aLoc d)) (h0 : Buf (Elt F) (o0Loc d)) (s : ℕ) (hs : s < 8) (t : ℕ) (acc : IVec S16 32 × IVec S16 32) : sProp 𝕄 :=
  iprop(⌜acc = (jvec t, dvec t)⌝ ∗ (colM.view.loc (V d (cV1 L) (jV1 L)) ↦{fullShare} colC d L k1_h1 av)
    ∗ (ixM1.view.loc (V d (cV1 L) (jV1 L)) ↦{fullShare} idxC d s hs h0)
    ∗ ∃ g : Buf (Elt F) ((V d (cV1 L) (jV1 L)).loc cc1_scratch4),
        (sgM1.view.loc (V d (cV1 L) (jV1 L)) ↦{fullShare} g)
        ∗ ⌜∀ n (hn : n < 5120), n < 16 * t → g (ix2 (0 : Fin 1) (⟨n, hn⟩ : Fin 5120)) = tgt1 d L hw av h0 s n⌝)

/-- One trip of a slab's loop, first buffer pair: the invariant at `k` gives the invariant at `k + 1`, for every slab `s`. -/
theorem trip0 (d : Dev nD) (L : grid1.Coords) (hw : wid1 L < 25) (k1_h1 : k1_cond1 L = 1#1)
    (av : Buf (Elt F) (aLoc d)) (h0 : Buf (Elt F) (o0Loc d)) (hh : ∀ i, (h0 i).toNat < 100000) (s : ℕ) (hs : s < 8)
    (v2 v77 v80 : IVec S16 32) (c0 : BitVec 32) (k : Fin k1_t1_loop.trips) (acc : IVec S16 32 × IVec S16 32) :
    inv0 d L hw k1_h1 av h0 s hs k.val acc
      ⊢ wp frame (wpE (defs₀ (F := F)) 𝒱₀ (V d (cV1 L) (jV1 L)) none) Set.univ
          (k1_t1_body L aM (Memref.isWhole_whole _) hM (Memref.isWhole_whole _) oM (Memref.isWhole_whole _) colM (Memref.isWhole_whole _)
            ixM0 (Memref.isWhole_whole _) ixM1 (Memref.isWhole_whole _) sgM0 (Memref.isWhole_whole _) sgM1 (Memref.isWhole_whole _)
            cc1_scratch5 cc1_scratch6 cc1_scratch7 cc1_scratch8 cc1_scratch9 v2 k1_h1 v77 v80 c0 k acc)
          (inv0 d L hw k1_h1 av h0 s hs (k.val + 1)) := by
  unfold k1_t1_body inv0
  iintro ⟨%hacc, Hc, Hi, %g, Hs, %hg⟩
  subst hacc
  have hk : k.val < 320 := k.isLt
  have h1 := lanes_inb k.val hk
  have hc1 : k1_chk1 L (jvec k.val) (dvec k.val) := fun _ => h1
  sl_exec_parts
  ihave Hi2 := (Entails.of_eq (pts_ixM0_acc (F := F) d L _).symm) $$ Hi
  iapply (SparseCore.wp_vectorLoadIdx 𝒱₀ (V d (cV1 L) (jV1 L)) none Set.univ (base := ixM0) (S := Finset.univ) (q := fullShare) (Finset.subset_univ _)) $$ Hi2; iintro Hi2
  have h2 := gather_inb d h0 hh s hs k.val h1
  have e1 := read_ixM0 (idxC d s hs h0)
  have hc2 : k1_chk2 L (loadIdx ((ixM0.access (Rect.whole S10x512)).read (Elt F) (idxC d s hs h0)) ![jvec k.val, dvec k.val] h1) := by
    rw [e1]; exact fun _ => h2
  sl_exec_parts
  ihave Hc2 := (Entails.of_eq (pts_colM_acc (F := F) d L _).symm) $$ Hc
  iapply (SparseCore.wp_vectorLoadIdx 𝒱₀ (V d (cV1 L) (jV1 L)) none Set.univ (base := colM) (S := Finset.univ) (q := fullShare) (Finset.subset_univ _)) $$ Hc2; iintro Hc2
  ihave Hi := (Entails.of_eq (pts_ixM0_acc (F := F) d L _)) $$ Hi2
  ihave Hc := (Entails.of_eq (pts_colM_acc (F := F) d L _)) $$ Hc2
  sl_exec_parts
  sl_step
  isplitr
  · ipureintro; exact Prod.ext (lanes_step_j k.val hk) (lanes_step_d k.val hk)
  isplitl [Hc]; · iexact Hc
  isplitl [Hi]; · iexact Hi
  iexists _; isplitl [Hs]
  · iexact Hs
  · ipureintro
    have e2 := read_colM (colC d L k1_h1 av)
    refine stage_step (F := F) sgM0.view g (tgt1 d L hw av h0 s) k.val hk _ (k1_off2_eq k) _ _ _ hg ?_
    intro x
    simp only [e1, e2]
    have hN : 5120 * s + (16 * k.val + lane x) < 40960 := by have := lane_lt x; omega
    exact (gather_val d L hw k1_h1 av h0 hh s hs k.val hk h1 h2 x hN).trans (tgt1_eq d L hw av h0 s _ hN).symm

/-- The same for the second buffer pair. -/
theorem trip1 (d : Dev nD) (L : grid1.Coords) (hw : wid1 L < 25) (k1_h1 : k1_cond1 L = 1#1)
    (av : Buf (Elt F) (aLoc d)) (h0 : Buf (Elt F) (o0Loc d)) (hh : ∀ i, (h0 i).toNat < 100000) (s : ℕ) (hs : s < 8)
    (v2 v77 v80 : IVec S16 32) (c0 : BitVec 32) (k : Fin k1_t2_loop.trips) (acc : IVec S16 32 × IVec S16 32) :
    inv1 d L hw k1_h1 av h0 s hs k.val acc
      ⊢ wp frame (wpE (defs₀ (F := F)) 𝒱₀ (V d (cV1 L) (jV1 L)) none) Set.univ
          (k1_t2_body L aM (Memref.isWhole_whole _) hM (Memref.isWhole_whole _) oM (Memref.isWhole_whole _) colM (Memref.isWhole_whole _)
            ixM0 (Memref.isWhole_whole _) ixM1 (Memref.isWhole_whole _) sgM0 (Memref.isWhole_whole _) sgM1 (Memref.isWhole_whole _)
            cc1_scratch5 cc1_scratch6 cc1_scratch7 cc1_scratch8 cc1_scratch9 v2 k1_h1 v77 v80 c0 k acc)
          (inv1 d L hw k1_h1 av h0 s hs (k.val + 1)) := by
  unfold k1_t2_body inv1
  iintro ⟨%hacc, Hc, Hi, %g, Hs, %hg⟩
  subst hacc
  have hk : k.val < 320 := k.isLt
  have h1 := lanes_inb k.val hk
  have hc1 : k1_chk3 L (jvec k.val) (dvec k.val) := fun _ => h1
  sl_exec_parts
  ihave Hi2 := (Entails.of_eq (pts_ixM1_acc (F := F) d L _).symm) $$ Hi
  iapply (SparseCore.wp_vectorLoadIdx 𝒱₀ (V d (cV1 L) (jV1 L)) none Set.univ (base := ixM1) (S := Finset.univ) (q := fullShare) (Finset.subset_univ _)) $$ Hi2; iintro Hi2
  have h2 := gather_inb d h0 hh s hs k.val h1
  have e1 := read_ixM1 (idxC d s hs h0)
  have hc2 : k1_chk4 L (loadIdx ((ixM1.access (Rect.whole S10x512)).read (Elt F) (idxC d s hs h0)) ![jvec k.val, dvec k.val] h1) := by
    rw [e1]; exact fun _ => h2
  sl_exec_parts
  ihave Hc2 := (Entails.of_eq (pts_colM_acc (F := F) d L _).symm) $$ Hc
  iapply (SparseCore.wp_vectorLoadIdx 𝒱₀ (V d (cV1 L) (jV1 L)) none Set.univ (base := colM) (S := Finset.univ) (q := fullShare) (Finset.subset_univ _)) $$ Hc2; iintro Hc2
  ihave Hi := (Entails.of_eq (pts_ixM1_acc (F := F) d L _)) $$ Hi2
  ihave Hc := (Entails.of_eq (pts_colM_acc (F := F) d L _)) $$ Hc2
  sl_exec_parts
  sl_step
  isplitr
  · ipureintro; exact Prod.ext (lanes_step_j k.val hk) (lanes_step_d k.val hk)
  isplitl [Hc]; · iexact Hc
  isplitl [Hi]; · iexact Hi
  iexists _; isplitl [Hs]
  · iexact Hs
  · ipureintro
    have e2 := read_colM (colC d L k1_h1 av)
    refine stage_step (F := F) sgM1.view g (tgt1 d L hw av h0 s) k.val hk _ (k1_off4_eq k) _ _ _ hg ?_
    intro x
    simp only [e1, e2]
    have hN : 5120 * s + (16 * k.val + lane x) < 40960 := by have := lane_lt x; omega
    exact (gather_val d L hw k1_h1 av h0 hh s hs k.val hk h1 h2 x hN).trans (tgt1_eq d L hw av h0 s _ hN).symm

theorem tile_body1 (hF : (K (F := F)).Facts) (d : Dev nD) (L : grid1.Coords) (q : PosShare TreeShare)
    (av : Buf (Elt F) (aLoc d)) (h0 : Buf (Elt F) (o0Loc d)) (f : Buf (Elt F) (o1Loc d))
    (hh : ∀ i, (h0 i).toNat < 100000)
    (O : CellTallies nD τ sig (HIx 2)) (W : Waits sig (HIx 2)) (hO : ∀ g, O g none = 0) :
    iprop(levAts (K (F := F)).L (K (F := F)).lev ∗ emp ∗ res1 d L q av h0 f
        ∗ scopedBufs (V d (cV1 L) (jV1 L)) ∗ scopedSems0 (V d (cV1 L) (jV1 L)) ∗ owes (V d (cV1 L) (jV1 L)) O W)
      ⊢ wp frame (wpE (defs₀ (F := F)) 𝒱₀ (V d (cV1 L) (jV1 L)) none) Set.univ
          (cc1__hop1_kernel L (Memref.whole main_v0_scv) (Memref.isWhole_whole _) (Memref.whole main_v1_scv) (Memref.isWhole_whole _)
            (Memref.whole main_v2_scv) (Memref.isWhole_whole _) (Memref.whole cc1_scratch0) (Memref.isWhole_whole _)
            (Memref.whole cc1_scratch1) (Memref.isWhole_whole _) (Memref.whole cc1_scratch2) (Memref.isWhole_whole _)
            (Memref.whole cc1_scratch3) (Memref.isWhole_whole _) (Memref.whole cc1_scratch4) (Memref.isWhole_whole _)
            cc1_scratch5 cc1_scratch6 cc1_scratch7 cc1_scratch8 cc1_scratch9)
          fun _ => iprop(res1 d L q av h0 (val1 d h0 av) ∗ scopedBufs (V d (cV1 L) (jV1 L)) ∗ scopedSems0 (V d (cV1 L) (jV1 L))
            ∗ ∃ W', ⌜∀ p ∈ W', p ∈ W ∨ p.2 = none⌝ ∗ owes (V d (cV1 L) (jV1 L)) O W') := by
  by_cases hw : wid1 L < 25
  · have k1_h1 : k1_cond1 L = 1#1 := by
      revert hw; unfold wid1; revert L; decide +kernel
    simp only [cc1__hop1_kernel_eq_skeleton]; unfold cc1__hop1_kernel_skel
    unfold res1
    rw [(K (F := F)).scopedBufs_V hF d (cV1 L) (jV1 L), SparseCore.Cfg.scopedSems0_V (Val := Elt F) d (cV1 L) (jV1 L), ownSems0_V1, ownBufs_V1,
      own1_of_lt hw]
    iintro ⟨#Hlv, -, ⟨Ha, Hh, Ho⟩, ⟨⟨%fc, Hc⟩, ⟨%fi0, Hi0⟩, ⟨%fi1, Hi1⟩, ⟨%fs0, Hs0⟩, ⟨%fs1, Hs1⟩, Hbufs⟩, ⟨HsC, HsI0, HsI1, HsO0, HsO1, Hsems⟩, HO⟩
    ihave Hmw := ((K (F := F)).mayWaits_none (thr := V d (cV1 L) (jV1 L)) hO) $$ Hlv
    ihave Ha' := (Entails.of_eq (pts_aM (F := F) d L q av).symm) $$ Ha
    ihave Hhh := (pointsTo_share (PosShare.mem_left_op_right q)).1 $$ Hh
    icases Hhh with ⟨Hh1, Hh2⟩
    ihave Hh1' := (Entails.of_eq (pts_hM (F := F) d L q.left h0).symm) $$ Hh1
    ihave Hh2' := (Entails.of_eq (pts_hM (F := F) d L q.right h0).symm) $$ Hh2
    ihave Hc' := (Entails.of_eq (pts_colM (F := F) d L fc).symm) $$ Hc
    ihave Hi0' := (Entails.of_eq (pts_ixM0 (F := F) d L fi0).symm) $$ Hi0
    ihave Hi1' := (Entails.of_eq (pts_ixM1 (F := F) d L fi1).symm) $$ Hi1
    ihave Hs0' := (Entails.of_eq (pts_sgM0 (F := F) d L fs0).symm) $$ Hs0
    ihave Hs1' := (Entails.of_eq (pts_sgM1 (F := F) d L fs1).symm) $$ Hs1
    ihave Hos := (row_split (F := F) d L hw k1_h1 f) $$ Ho
    icases Hos with ⟨Ho0, Ho1, Ho2, Ho3, Ho4, Ho5, Ho6, Ho7⟩
    sl_exec_parts
    ihave Hc' := (Entails.of_eq (congrArg (fun g => (colM.view.loc (V d (cV1 L) (jV1 L)) ↦{fullShare} g : sProp 𝕄)) (View.write_whole_univ (Val := Elt F) cc1_scratch0 fc _))) $$ Hc'
    ihave Hi0' := (Entails.of_eq (congrArg (fun g => (ixM0.view.loc (V d (cV1 L) (jV1 L)) ↦{fullShare} g : sProp 𝕄)) (View.write_whole_univ (Val := Elt F) cc1_scratch1 _ _))) $$ Hi0'
    sl_for (inv0 d L hw k1_h1 av h0 0 (by omega)) $$ [Hc' Hi0' Hs0']
    case region => exact fun k acc => trip0 d L hw k1_h1 av h0 hh 0 (by omega) (jvec 0) (jvec 0) (jvec 0) 0#32 k acc
    · unfold inv0
      isplitr; · ipureintro; exact Prod.ext lanes_init_j lanes_init_d
      isplitl [Hc']; · iexact Hc'
      isplitl [Hi0']; · iexact Hi0'
      iexists _; isplitl [Hs0']
      · iexact Hs0'
      · ipureintro; intro n hn h; omega
    iintro %acc1 HI
    unfold inv0
    icases HI with ⟨-, Hc', Hi0', %g0, Hs0', %hg0⟩
    sl_exec_parts
    ihave Hi1' := (Entails.of_eq (congrArg (fun g => (ixM1.view.loc (V d (cV1 L) (jV1 L)) ↦{fullShare} g : sProp 𝕄)) (View.write_whole_univ (Val := Elt F) cc1_scratch2 _ _))) $$ Hi1'
    sl_for (inv1 d L hw k1_h1 av h0 1 (by omega)) $$ [Hc' Hi1' Hs1']
    case region => exact fun k acc => trip1 d L hw k1_h1 av h0 hh 1 (by omega) (jvec 0) (jvec 0) (jvec 0) 0#32 k acc
    · unfold inv1
      isplitr; · ipureintro; exact Prod.ext lanes_init_j lanes_init_d
      isplitl [Hc']; · iexact Hc'
      isplitl [Hi1']; · iexact Hi1'
      iexists _; isplitl [Hs1']
      · iexact Hs1'
      · ipureintro; intro n hn h; omega
    iintro %acc2 HI
    unfold inv1
    icases HI with ⟨-, Hc', Hi1', %g1, Hs1', %hg1⟩
    sl_exec_parts
    ihave Hi0' := (Entails.of_eq (congrArg (fun g => (ixM0.view.loc (V d (cV1 L) (jV1 L)) ↦{fullShare} g : sProp 𝕄)) (View.write_whole_univ (Val := Elt F) cc1_scratch1 _ _))) $$ Hi0'
    sl_for (inv0 d L hw k1_h1 av h0 2 (by omega)) $$ [Hc' Hi0' Hs0']
    case region => exact fun k acc => trip0 d L hw k1_h1 av h0 hh 2 (by omega) (jvec 0) (jvec 0) (jvec 0) 0#32 k acc
    · unfold inv0
      isplitr; · ipureintro; exact Prod.ext lanes_init_j lanes_init_d
      isplitl [Hc']; · iexact Hc'
      isplitl [Hi0']; · iexact Hi0'
      iexists _; isplitl [Hs0']
      · iexact Hs0'
      · ipureintro; intro n hn h; omega
    iintro %acc3 HI
    unfold inv0
    icases HI with ⟨-, Hc', Hi0', %g2, Hs0', %hg2⟩
    sl_exec_parts
    ihave Hi1' := (Entails.of_eq (congrArg (fun g => (ixM1.view.loc (V d (cV1 L) (jV1 L)) ↦{fullShare} g : sProp 𝕄)) (View.write_whole_univ (Val := Elt F) cc1_scratch2 _ _))) $$ Hi1'
    sl_for (inv1 d L hw k1_h1 av h0 3 (by omega)) $$ [Hc' Hi1' Hs1']
    case region => exact fun k acc => trip1 d L hw k1_h1 av h0 hh 3 (by omega) (jvec 0) (jvec 0) (jvec 0) 0#32 k acc
    · unfold inv1
      isplitr; · ipureintro; exact Prod.ext lanes_init_j lanes_init_d
      isplitl [Hc']; · iexact Hc'
      isplitl [Hi1']; · iexact Hi1'
      iexists _; isplitl [Hs1']
      · iexact Hs1'
      · ipureintro; intro n hn h; omega
    iintro %acc4 HI
    unfold inv1
    icases HI with ⟨-, Hc', Hi1', %g3, Hs1', %hg3⟩
    sl_exec_parts
    ihave Hi0' := (Entails.of_eq (congrArg (fun g => (ixM0.view.loc (V d (cV1 L) (jV1 L)) ↦{fullShare} g : sProp 𝕄)) (View.write_whole_univ (Val := Elt F) cc1_scratch1 _ _))) $$ Hi0'
    sl_for (inv0 d L hw k1_h1 av h0 4 (by omega)) $$ [Hc' Hi0' Hs0']
    case region => exact fun k acc => trip0 d L hw k1_h1 av h0 hh 4 (by omega) (jvec 0) (jvec 0) (jvec 0) 0#32 k acc
    · unfold inv0
      isplitr; · ipureintro; exact Prod.ext lanes_init_j lanes_init_d
      isplitl [Hc']; · iexact Hc'
      isplitl [Hi0']; · iexact Hi0'
      iexists _; isplitl [Hs0']
      · iexact Hs0'
      · ipureintro; intro n hn h; omega
    iintro %acc5 HI
    unfold inv0
    icases HI with ⟨-, Hc', Hi0', %g4, Hs0', %hg4⟩
    sl_exec_parts
    ihave Hi1' := (Entails.of_eq (congrArg (fun g => (ixM1.view.loc (V d (cV1 L) (jV1 L)) ↦{fullShare} g : sProp 𝕄)) (View.write_whole_univ (Val := Elt F) cc1_scratch2 _ _))) $$ Hi1'
    sl_for (inv1 d L hw k1_h1 av h0 5 (by omega)) $$ [Hc' Hi1' Hs1']
    case region => exact fun k acc => trip1 d L hw k1_h1 av h0 hh 5 (by omega) (jvec 0) (jvec 0) (jvec 0) 0#32 k acc
    · unfold inv1
      isplitr; · ipureintro; exact Prod.ext lanes_init_j lanes_init_d
      isplitl [Hc']; · iexact Hc'
      isplitl [Hi1']; · iexact Hi1'
      iexists _; isplitl [Hs1']
      · iexact Hs1'
      · ipureintro; intro n hn h; omega
    iintro %acc6 HI
    unfold inv1
    icases HI with ⟨-, Hc', Hi1', %g5, Hs1', %hg5⟩
    sl_exec_parts
    ihave Hi0' := (Entails.of_eq (congrArg (fun g => (ixM0.view.loc (V d (cV1 L) (jV1 L)) ↦{fullShare} g : sProp 𝕄)) (View.write_whole_univ (Val := Elt F) cc1_scratch1 _ _))) $$ Hi0'
    sl_for (inv0 d L hw k1_h1 av h0 6 (by omega)) $$ [Hc' Hi0' Hs0']
    case region => exact fun k acc => trip0 d L hw k1_h1 av h0 hh 6 (by omega) (jvec 0) (jvec 0) (jvec 0) 0#32 k acc
    · unfold inv0
      isplitr; · ipureintro; exact Prod.ext lanes_init_j lanes_init_d
      isplitl [Hc']; · iexact Hc'
      isplitl [Hi0']; · iexact Hi0'
      iexists _; isplitl [Hs0']
      · iexact Hs0'
      · ipureintro; intro n hn h; omega
    iintro %acc7 HI
    unfold inv0
    icases HI with ⟨-, Hc', Hi0', %g6, Hs0', %hg6⟩
    sl_exec_parts
    ihave Hi1' := (Entails.of_eq (congrArg (fun g => (ixM1.view.loc (V d (cV1 L) (jV1 L)) ↦{fullShare} g : sProp 𝕄)) (View.write_whole_univ (Val := Elt F) cc1_scratch2 _ _))) $$ Hi1'
    sl_for (inv1 d L hw k1_h1 av h0 7 (by omega)) $$ [Hc' Hi1' Hs1']
    case region => exact fun k acc => trip1 d L hw k1_h1 av h0 hh 7 (by omega) (jvec 0) (jvec 0) (jvec 0) 0#32 k acc
    · unfold inv1
      isplitr; · ipureintro; exact Prod.ext lanes_init_j lanes_init_d
      isplitl [Hc']; · iexact Hc'
      isplitl [Hi1']; · iexact Hi1'
      iexists _; isplitl [Hs1']
      · iexact Hs1'
      · ipureintro; intro n hn h; omega
    iintro %acc8 HI
    unfold inv1
    icases HI with ⟨-, Hc', Hi1', %g7, Hs1', %hg7⟩
    sl_exec_parts
    sl_step
    have ht1 : Scf.trips k1_t1_loop.lb k1_t1_loop.ub k1_t1_loop.st = 320 := by decide
    have ht2 : Scf.trips k1_t2_loop.lb k1_t2_loop.ub k1_t2_loop.st = 320 := by decide
    have ht3 : Scf.trips k1_t3_loop.lb k1_t3_loop.ub k1_t3_loop.st = 320 := by decide
    have ht4 : Scf.trips k1_t4_loop.lb k1_t4_loop.ub k1_t4_loop.st = 320 := by decide
    have ht5 : Scf.trips k1_t5_loop.lb k1_t5_loop.ub k1_t5_loop.st = 320 := by decide
    have ht6 : Scf.trips k1_t6_loop.lb k1_t6_loop.ub k1_t6_loop.st = 320 := by decide
    have ht7 : Scf.trips k1_t7_loop.lb k1_t7_loop.ub k1_t7_loop.st = 320 := by decide
    have ht8 : Scf.trips k1_t8_loop.lb k1_t8_loop.ub k1_t8_loop.st = 320 := by decide
    ihave Ho0 := (Entails.of_eq (pointsTo_congr (out_val d L hw av h0 0 (by omega) _ (k1_off3_eq L) _ _ g0 (fun n hn => hg0 n hn (by rw [ht1]; omega))))) $$ Ho0
    ihave Ho1 := (Entails.of_eq (pointsTo_congr (out_val d L hw av h0 1 (by omega) _ (k1_off5_eq L) _ _ g1 (fun n hn => hg1 n hn (by rw [ht2]; omega))))) $$ Ho1
    ihave Ho2 := (Entails.of_eq (pointsTo_congr (out_val d L hw av h0 2 (by omega) _ (k1_off7_eq L) _ _ g2 (fun n hn => hg2 n hn (by rw [ht3]; omega))))) $$ Ho2
    ihave Ho3 := (Entails.of_eq (pointsTo_congr (out_val d L hw av h0 3 (by omega) _ (k1_off9_eq L) _ _ g3 (fun n hn => hg3 n hn (by rw [ht4]; omega))))) $$ Ho3
    ihave Ho4 := (Entails.of_eq (pointsTo_congr (out_val d L hw av h0 4 (by omega) _ (k1_off11_eq L) _ _ g4 (fun n hn => hg4 n hn (by rw [ht5]; omega))))) $$ Ho4
    ihave Ho5 := (Entails.of_eq (pointsTo_congr (out_val d L hw av h0 5 (by omega) _ (k1_off13_eq L) _ _ g5 (fun n hn => hg5 n hn (by rw [ht6]; omega))))) $$ Ho5
    ihave Ho6 := (Entails.of_eq (pointsTo_congr (out_val d L hw av h0 6 (by omega) _ (k1_off15_eq L) _ _ g6 (fun n hn => hg6 n hn (by rw [ht7]; omega))))) $$ Ho6
    ihave Ho7 := (Entails.of_eq (pointsTo_congr (out_val d L hw av h0 7 (by omega) _ (k1_off17_eq L) _ _ g7 (fun n hn => hg7 n hn (by rw [ht8]; omega))))) $$ Ho7
    isplitl [Ha' Hh1' Hh2' Ho0 Ho1 Ho2 Ho3 Ho4 Ho5 Ho6 Ho7]
    · isplitl [Ha']
      · iapply (Entails.of_eq (pts_aM (F := F) d L q av)); iexact Ha'
      isplitl [Hh1' Hh2']
      · ihave Hh1 := (Entails.of_eq (pts_hM (F := F) d L q.left h0)) $$ Hh1'
        ihave Hh2 := (Entails.of_eq (pts_hM (F := F) d L q.right h0)) $$ Hh2'
        iapply (pointsTo_share (PosShare.mem_left_op_right q)).2
        isplitl [Hh1]; · iexact Hh1
        iexact Hh2
      · iapply (row_join (F := F) d L hw k1_h1 (val1 d h0 av) (val1 d h0 av) (val1 d h0 av) (val1 d h0 av) (val1 d h0 av) (val1 d h0 av) (val1 d h0 av) (val1 d h0 av) (val1 d h0 av)
          (fun _ _ => rfl) (fun _ _ => rfl) (fun _ _ => rfl) (fun _ _ => rfl) (fun _ _ => rfl) (fun _ _ => rfl) (fun _ _ => rfl) (fun _ _ => rfl))
        isplitl [Ho0]; · iexact Ho0
        isplitl [Ho1]; · iexact Ho1
        isplitl [Ho2]; · iexact Ho2
        isplitl [Ho3]; · iexact Ho3
        isplitl [Ho4]; · iexact Ho4
        isplitl [Ho5]; · iexact Ho5
        isplitl [Ho6]; · iexact Ho6
        iexact Ho7
    isplitl [Hc' Hi0' Hi1' Hs0' Hs1' Hbufs]
    · isplitl [Hc']; · iexists _; iapply (Entails.of_eq (pts_colM (F := F) d L _)); iexact Hc'
      isplitl [Hi0']; · iexists _; iapply (Entails.of_eq (pts_ixM0 (F := F) d L _)); iexact Hi0'
      isplitl [Hi1']; · iexists _; iapply (Entails.of_eq (pts_ixM1 (F := F) d L _)); iexact Hi1'
      isplitl [Hs0']; · iexists _; iapply (Entails.of_eq (pts_sgM0 (F := F) d L _)); iexact Hs0'
      isplitl [Hs1']; · iexists _; iapply (Entails.of_eq (pts_sgM1 (F := F) d L _)); iexact Hs1'
      iexact Hbufs
    isplitl [HsC HsI0 HsI1 HsO0 HsO1 Hsems]
    · isplitl [HsC]; · iexact HsC
      isplitl [HsI0]; · iexact HsI0
      isplitl [HsI1]; · iexact HsI1
      isplitl [HsO0]; · iexact HsO0
      isplitl [HsO1]; · iexact HsO1
      iexact Hsems
    iexists _; isplitr
    pick_goal 2
    · iexact HO
    ipureintro
    repeat (first | exact fun p hp => Or.inl hp | refine waits_insert _ ?_)
  · have k1_h1 : ¬ k1_cond1 L = 1#1 := by
      revert hw; unfold wid1; revert L; decide +kernel
    simp only [cc1__hop1_kernel_eq_skeleton]; unfold cc1__hop1_kernel_skel
    iintro ⟨-, -, Hst, Hsb, Hss, HO⟩
    sl_exec_parts
    sl_step
    isplitl [Hst]
    · unfold res1
      rw [own1_of_not_lt hw, pointsTo_empty, pointsTo_empty]
      iexact Hst
    isplitl [Hsb]; · iexact Hsb
    isplitl [Hss]; · iexact Hss
    iexists W; isplitr
    · ipureintro; exact fun p hp => .inl hp
    · iexact HO

end Cert.Proof.KI

end
-- ==== Proof.KI.Deal.lean ====
/- How the arrays are shared out among the workers, and the two stages' obligations for the launch. -/
import proofs.«215163_g69475390980333_cont_9to1_m_779_28_alg».proof.Proof.KI.Body0
import proofs.«215163_g69475390980333_cont_9to1_m_779_28_alg».proof.Proof.KI.Body1

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 2) (Elt F) ℕ UU ℕ

variable (m : (ℓ : Loc nD τ sig) → Buf (Elt F) ℓ) (ρ : Dev nD → PrngReg)

abbrev X (d : Dev nD) : Buf (Elt F) (xLoc d) := m (xLoc d)
def AT (d : Dev nD) : Buf (Elt F) (aLoc d) := Cert.Spec.adjT (m (adjLoc d))
def H0 (d : Dev nD) : Buf (Elt F) (o0Loc d) := Cert.Spec.k0 (X m d) (AT m d)
def H1 (d : Dev nD) : Buf (Elt F) (o1Loc d) := Cert.Spec.k1 (H0 m d) (AT m d)

def PreOK : Prop := (∀ d i, (m (xLoc d) i).toNat < 100000) ∧ (∀ d i, (m (adjLoc d) i).toNat < 100000)

theorem H0_lt (hpre : PreOK m) (d : Dev nD) (i : Idx (o0Loc d)) : (H0 m d i).toNat < 100000 := hpre.2 d _

def coordsV0 (c : Fin (grid0.bound 0)) (s : Fin (grid0.bound 1)) : grid0.Coords :=
  fun | 0 => c | 1 => s | ⟨_ + 2, h⟩ => absurd h (Nat.not_lt.2 (Nat.le_add_left _ _))
def coordsV1 (c : Fin (grid1.bound 0)) (s : Fin (grid1.bound 1)) : grid1.Coords :=
  fun | 0 => c | 1 => s | ⟨_ + 2, h⟩ => absurd h (Nat.not_lt.2 (Nat.le_add_left _ _))

def own0N (c s : ℕ) : Finset S10x4096.Idx := if h : 2 * s + c < 10 then (row0 ⟨2 * s + c, h⟩).set else ∅
def own1N (c s : ℕ) : Finset S25x40960.Idx := if h : 2 * s + c < 25 then (row1 ⟨2 * s + c, h⟩).set else ∅

theorem own0_coords (c : Fin (grid0.bound 0)) (s : Fin (grid0.bound 1)) : own0 (coordsV0 c s) = own0N c.val s.val := rfl
theorem own1_coords (c : Fin (grid1.bound 0)) (s : Fin (grid1.bound 1)) : own1 (coordsV1 c s) = own1N c.val s.val := rfl

theorem own0N_disjoint {c s c' s' : ℕ} (h : 2 * s + c ≠ 2 * s' + c') : Disjoint (own0N c s) (own0N c' s') := by
  unfold own0N
  split_ifs with h1 h2 h2
  · exact Rect.part_disjoint hdiv0 (fun e => h (congrArg Fin.val e))
  · exact Finset.disjoint_empty_right _
  · exact Finset.disjoint_empty_left _
  · exact Finset.disjoint_empty_left _
theorem own1N_disjoint {c s c' s' : ℕ} (h : 2 * s + c ≠ 2 * s' + c') : Disjoint (own1N c s) (own1N c' s') := by
  unfold own1N
  split_ifs with h1 h2 h2
  · exact Rect.part_disjoint hdiv1 (fun e => h (congrArg Fin.val e))
  · exact Finset.disjoint_empty_right _
  · exact Finset.disjoint_empty_left _
  · exact Finset.disjoint_empty_left _

def ownC0 (c : ℕ) : Finset S10x4096.Idx := (Finset.univ : Finset (Fin 16)).biUnion fun s => own0N c s.val
def ownC1 (c : ℕ) : Finset S25x40960.Idx := (Finset.univ : Finset (Fin 16)).biUnion fun s => own1N c s.val

theorem sub0_disjoint (c : ℕ) : ∀ s ∈ (Finset.univ : Finset (Fin 16)), ∀ s' ∈ (Finset.univ : Finset (Fin 16)), s ≠ s' →
    Disjoint (own0N c s.val) (own0N c s'.val) :=
  fun s _ s' _ h => own0N_disjoint (fun e => h (Fin.ext (by omega)))
theorem sub1_disjoint (c : ℕ) : ∀ s ∈ (Finset.univ : Finset (Fin 16)), ∀ s' ∈ (Finset.univ : Finset (Fin 16)), s ≠ s' →
    Disjoint (own1N c s.val) (own1N c s'.val) :=
  fun s _ s' _ h => own1N_disjoint (fun e => h (Fin.ext (by omega)))

theorem core0_disjoint : ∀ c ∈ (Finset.univ : Finset (Fin 2)), ∀ c' ∈ (Finset.univ : Finset (Fin 2)), c ≠ c' →
    Disjoint (ownC0 c.val) (ownC0 c'.val) := by
  intro c _ c' _ h
  unfold ownC0
  refine (Finset.disjoint_biUnion_left _ _ _).mpr fun s _ => (Finset.disjoint_biUnion_right _ _ _).mpr fun s' _ => ?_
  refine own0N_disjoint fun e => h (Fin.ext ?_)
  have := c.isLt; have := c'.isLt; omega
theorem core1_disjoint : ∀ c ∈ (Finset.univ : Finset (Fin 2)), ∀ c' ∈ (Finset.univ : Finset (Fin 2)), c ≠ c' →
    Disjoint (ownC1 c.val) (ownC1 c'.val) := by
  intro c _ c' _ h
  unfold ownC1
  refine (Finset.disjoint_biUnion_left _ _ _).mpr fun s _ => (Finset.disjoint_biUnion_right _ _ _).mpr fun s' _ => ?_
  refine own1N_disjoint fun e => h (Fin.ext ?_)
  have := c.isLt; have := c'.isLt; omega

theorem core0_cover : (Finset.univ : Finset (Fin 2)).biUnion (fun c => ownC0 c.val) = Finset.univ := by
  ext i
  simp only [Finset.mem_biUnion, Finset.mem_univ, true_and, iff_true]
  obtain ⟨r, hr⟩ := Rect.exists_mem_part hdiv0 i
  have hr10 := r.isLt
  refine ⟨⟨r.val % 2, Nat.mod_lt _ (by decide)⟩, ?_⟩
  unfold ownC0
  simp only [Finset.mem_biUnion, Finset.mem_univ, true_and]
  refine ⟨⟨r.val / 2, by omega⟩, ?_⟩
  have hw : 2 * (r.val / 2) + r.val % 2 = r.val := Nat.div_add_mod r.val 2
  unfold own0N
  rw [dif_pos (by show 2 * (r.val / 2) + r.val % 2 < 10; omega)]
  have e : (⟨2 * (r.val / 2) + r.val % 2, by omega⟩ : Fin 10) = r := Fin.ext hw
  rw [e]; exact hr
theorem core1_cover : (Finset.univ : Finset (Fin 2)).biUnion (fun c => ownC1 c.val) = Finset.univ := by
  ext i
  simp only [Finset.mem_biUnion, Finset.mem_univ, true_and, iff_true]
  obtain ⟨r, hr⟩ := Rect.exists_mem_part hdiv1 i
  have hr25 := r.isLt
  refine ⟨⟨r.val % 2, Nat.mod_lt _ (by decide)⟩, ?_⟩
  unfold ownC1
  simp only [Finset.mem_biUnion, Finset.mem_univ, true_and]
  refine ⟨⟨r.val / 2, by omega⟩, ?_⟩
  have hw : 2 * (r.val / 2) + r.val % 2 = r.val := Nat.div_add_mod r.val 2
  unfold own1N
  rw [dif_pos (by show 2 * (r.val / 2) + r.val % 2 < 25; omega)]
  have e : (⟨2 * (r.val / 2) + r.val % 2, by omega⟩ : Fin 25) = r := Fin.ext hw
  rw [e]; exact hr

abbrev qC (c : ℕ) : PosShare TreeShare := Transfers.shareTokN fullShare c
abbrev qT (c s : ℕ) : PosShare TreeShare := Transfers.shareTokN (qC c) s

variable [FloatOps F]

def P : (K (F := F)).Pay (nD := nD) (Val := Elt F) (Name := ℕ) (U := UU) where
  st := fun q d c => match q with
    | 0 => iprop((xLoc d ↦{qC c.val} X m d) ∗ (aLoc d ↦{qC c.val} AT m d) ∗ (o0Loc d ↦[ownC0 c.val]{fullShare} m (o0Loc d)))
    | 1 => iprop((aLoc d ↦{qC c.val} AT m d) ∗ (o0Loc d ↦{qC c.val} H0 m d) ∗ (o1Loc d ↦[ownC1 c.val]{fullShare} m (o1Loc d)))
  dn := fun q d c => match q with
    | 0 => iprop((xLoc d ↦{qC c.val} X m d) ∗ (aLoc d ↦{qC c.val} AT m d) ∗ (o0Loc d ↦[ownC0 c.val]{fullShare} H0 m d))
    | 1 => iprop((aLoc d ↦{qC c.val} AT m d) ∗ (o0Loc d ↦{qC c.val} H0 m d) ∗ (o1Loc d ↦[ownC1 c.val]{fullShare} H1 m d))
  go := fun q d c i => match q with
    | 0 => res0 d (coordsV0 c i) (qT c.val i.val) (X m d) (AT m d) (m (o0Loc d))
    | 1 => res1 d (coordsV1 c i) (qT c.val i.val) (AT m d) (H0 m d) (m (o1Loc d))
  td := fun q d c i => match q with
    | 0 => res0 d (coordsV0 c i) (qT c.val i.val) (X m d) (AT m d) (H0 m d)
    | 1 => res1 d (coordsV1 c i) (qT c.val i.val) (AT m d) (H0 m d) (H1 m d)
  x := fun _ _ => iprop(emp)

instance P_storable : (P (F := F) m).IsStorable where
  st q d c := match q with
    | 0 => by unfold P; dsimp only; infer_instance
    | 1 => by unfold P; dsimp only; infer_instance
  dn q d c := match q with
    | 0 => by unfold P; dsimp only; infer_instance
    | 1 => by unfold P; dsimp only; infer_instance
  go q d c i := match q with
    | 0 => by unfold P res0; dsimp only; infer_instance
    | 1 => by unfold P res1; dsimp only; infer_instance
  td q d c i := match q with
    | 0 => by unfold P res0; dsimp only; infer_instance
    | 1 => by unfold P res1; dsimp only; infer_instance

theorem defs₀_vector0 (c : Fin τ.nSC) (s : Fin τ.nSub) :
    defs₀ (F := F) (.scVector c s) 0 ()
      = SparseCore.onTile hcore0 hsub0 (fun c s => cc0__hop0_kernel (coordsV0 c s)
          (Memref.whole main_v0_scv) (Memref.isWhole_whole _) (Memref.whole main_arg0_scv) (Memref.isWhole_whole _)
          (Memref.whole main_v1_scv) (Memref.isWhole_whole _) (Memref.whole cc0_scratch0) (Memref.isWhole_whole _)
          (Memref.whole cc0_scratch1) (Memref.isWhole_whole _) (Memref.whole cc0_scratch2) (Memref.isWhole_whole _)
          cc0_scratch3 cc0_scoped0 cc0_scoped1) ⟨⟩ c s := rfl

theorem defs₀_vector1 (c : Fin τ.nSC) (s : Fin τ.nSub) :
    defs₀ (F := F) (.scVector c s) 1 ()
      = SparseCore.onTile hcore1 hsub1 (fun c s => cc1__hop1_kernel (coordsV1 c s)
          (Memref.whole main_v0_scv) (Memref.isWhole_whole _) (Memref.whole main_v1_scv) (Memref.isWhole_whole _)
          (Memref.whole main_v2_scv) (Memref.isWhole_whole _) (Memref.whole cc1_scratch0) (Memref.isWhole_whole _)
          (Memref.whole cc1_scratch1) (Memref.isWhole_whole _) (Memref.whole cc1_scratch2) (Memref.isWhole_whole _)
          (Memref.whole cc1_scratch3) (Memref.isWhole_whole _) (Memref.whole cc1_scratch4) (Memref.isWhole_whole _)
          cc1_scratch5 cc1_scratch6 cc1_scratch7 cc1_scratch8 cc1_scratch9) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl0 (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  exact (tile_body0 hF d (coordsV0 ⟨_, hc.1⟩ ⟨_, hc.2⟩) _ (X m d) (AT m d) (m (o0Loc d)) (hpre.1 d) O W hO).trans (wp_mono frame _ _ fun _ => obl_post)

theorem tileObl1 (hF : (K (F := F)).Facts) (hpre : PreOK m) : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vector1]; simp only [SparseCore.onTile, hc, and_self, ↓reduceDIte]
  exact (tile_body1 hF d (coordsV1 ⟨_, hc.1⟩ ⟨_, hc.2⟩) _ (AT m d) (H0 m d) (m (o1Loc d)) (H0_lt m hpre d) O W hO).trans (wp_mono frame _ _ fun _ => obl_post)

theorem vecSplit0 : (K (F := F)).VecSplit' (P m) 0 := by
  intro d c
  show iprop((xLoc d ↦{qC c.val} X m d) ∗ (aLoc d ↦{qC c.val} AT m d) ∗ (o0Loc d ↦[ownC0 c.val]{fullShare} m (o0Loc d)))
      ⊢ |={Set.univ}=> iprop((bigSep Finset.univ fun i : Fin 16 => res0 d (coordsV0 c i) (qT c.val i.val) (X m d) (AT m d) (m (o0Loc d)))
        ∗ ((bigSep Finset.univ fun i : Fin 16 => res0 d (coordsV0 c i) (qT c.val i.val) (X m d) (AT m d) (H0 m d))
            -∗ iprop((xLoc d ↦{qC c.val} X m d) ∗ (aLoc d ↦{qC c.val} AT m d) ∗ (o0Loc d ↦[ownC0 c.val]{fullShare} H0 m d))))
  simp only [res0, own0_coords]
  rw [bigSep_sep', bigSep_sep', bigSep_sep', bigSep_sep']
  unfold ownC0
  rw [pointsTo_biUnion _ _ (sub0_disjoint c.val), pointsTo_biUnion _ _ (sub0_disjoint c.val)]
  iintro ⟨Hs1, Hs2, Ho⟩
  ihave Hs1' := (Transfers.pointsTo_toks_split (qC c.val) 16) $$ Hs1
  icases Hs1' with ⟨Hs1r, Hs1t⟩
  ihave Hs2' := (Transfers.pointsTo_toks_split (qC c.val) 16) $$ Hs2
  icases Hs2' with ⟨Hs2r, Hs2t⟩
  imodintro
  isplitl [Hs1t Hs2t Ho]
  · isplitl [Hs1t]; · iexact Hs1t
    isplitl [Hs2t]; · iexact Hs2t
    iexact Ho
  iintro ⟨Hs1t, Hs2t, Ho⟩
  isplitl [Hs1r Hs1t]
  · iapply (Transfers.pointsTo_toks_join (qC c.val) 16)
    isplitl [Hs1r]; · iexact Hs1r
    iexact Hs1t
  isplitl [Hs2r Hs2t]
  · iapply (Transfers.pointsTo_toks_join (qC c.val) 16)
    isplitl [Hs2r]; · iexact Hs2r
    iexact Hs2t
  iexact Ho

theorem vecSplit1 : (K (F := F)).VecSplit' (P m) 1 := by
  intro d c
  show iprop((aLoc d ↦{qC c.val} AT m d) ∗ (o0Loc d ↦{qC c.val} H0 m d) ∗ (o1Loc d ↦[ownC1 c.val]{fullShare} m (o1Loc d)))
      ⊢ |={Set.univ}=> iprop((bigSep Finset.univ fun i : Fin 16 => res1 d (coordsV1 c i) (qT c.val i.val) (AT m d) (H0 m d) (m (o1Loc d)))
        ∗ ((bigSep Finset.univ fun i : Fin 16 => res1 d (coordsV1 c i) (qT c.val i.val) (AT m d) (H0 m d) (H1 m d))
            -∗ iprop((aLoc d ↦{qC c.val} AT m d) ∗ (o0Loc d ↦{qC c.val} H0 m d) ∗ (o1Loc d ↦[ownC1 c.val]{fullShare} H1 m d))))
  simp only [res1, own1_coords]
  rw [bigSep_sep', bigSep_sep', bigSep_sep', bigSep_sep']
  unfold ownC1
  rw [pointsTo_biUnion _ _ (sub1_disjoint c.val), pointsTo_biUnion _ _ (sub1_disjoint c.val)]
  iintro ⟨Hs1, Hs2, Ho⟩
  ihave Hs1' := (Transfers.pointsTo_toks_split (qC c.val) 16) $$ Hs1
  icases Hs1' with ⟨Hs1r, Hs1t⟩
  ihave Hs2' := (Transfers.pointsTo_toks_split (qC c.val) 16) $$ Hs2
  icases Hs2' with ⟨Hs2r, Hs2t⟩
  imodintro
  isplitl [Hs1t Hs2t Ho]
  · isplitl [Hs1t]; · iexact Hs1t
    isplitl [Hs2t]; · iexact Hs2t
    iexact Ho
  iintro ⟨Hs1t, Hs2t, Ho⟩
  isplitl [Hs1r Hs1t]
  · iapply (Transfers.pointsTo_toks_join (qC c.val) 16)
    isplitl [Hs1r]; · iexact Hs1r
    iexact Hs1t
  isplitl [Hs2r Hs2t]
  · iapply (Transfers.pointsTo_toks_join (qC c.val) 16)
    isplitl [Hs2r]; · iexact Hs2r
    iexact Hs2t
  iexact Ho

end Cert.Proof.KI

end
-- ==== Proof.KI.Run.lean ====
/- The program's run: both results end at the lookup's functions of the inputs, the inputs unchanged. -/
import proofs.«215163_g69475390980333_cont_9to1_m_779_28_alg».proof.Proof.KI.Deal
import Idealize.ShloMosaic.Lib.ValueLayout

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 2) (Elt F) ℕ UU ℕ

variable (m : (ℓ : Loc nD τ sig) → Buf (Elt F) ℓ) (ρ : Dev nD → PrngReg)

variable [FloatOps F]

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

abbrev x' : DevRef τ sig := Proc.devRef .tc (main_arg0 : Ref sig .tc)
abbrev adj' : DevRef τ sig := Proc.devRef .tc (main_arg1 : Ref sig .tc)
abbrev a' : DevRef τ sig := Proc.devRef .tc (main_v0 : Ref sig .tc)
abbrev o0' : DevRef τ sig := Proc.devRef .tc (main_v1 : Ref sig .tc)
abbrev o1' : DevRef τ sig := Proc.devRef .tc (main_v2 : Ref sig .tc)
abbrev r0' : DevRef τ sig := Proc.devRef .tc (main_v3 : Ref sig .tc)
abbrev r1' : DevRef τ sig := Proc.devRef .tc (main_v4 : Ref sig .tc)

omit [FloatOps F] in

theorem unscopedBufs_eq (d : Dev nD) (W : (b : Ref sig .tc) → Buf (Elt F) ((d.tc : Thread nD τ).loc b)) :
    (unscopedBufs d W : sProp 𝕄) = iprop((xLoc d ↦{fullShare} W main_arg0) ∗ (adjLoc d ↦{fullShare} W main_arg1) ∗ (aLoc d ↦{fullShare} W main_v0)
      ∗ (o0Loc d ↦{fullShare} W main_v1) ∗ (o1Loc d ↦{fullShare} W main_v2) ∗ (r0Loc d ↦{fullShare} W main_v3) ∗ (r1Loc d ↦{fullShare} W main_v4)) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in

theorem held_pair (d : Dev nD) (a b : DevRef τ sig) (hab : a ∉ ({b} : Finset (DevRef τ sig))) (W : Valuation τ sig (Elt F)) :
    (held (T d) {a, b} W : sProp 𝕄) = iprop(((d, a) ↦{fullShare} W a) ∗ ((d, b) ↦{fullShare} W b)) := by
  unfold held
  rw [SparseCore.bigSep_insert' hab, bigSep_singleton]

abbrev opA : HloOp τ sig (Elt F) :=
  StableHlo.unary main_arg1 main_v0 ((transpose S64x100000 [1, 0] · transposes_S100000x64_S64x100000_1_0) : (⟨S100000x64, .i32⟩ : BufTy).Contents (Elt F) → (⟨S64x100000, .i32⟩ : BufTy).Contents (Elt F))
abbrev opB : HloOp τ sig (Elt F) :=
  StableHlo.unary main_v1 main_v3 ((transpose S4096x10 [1, 0] · transposes_S10x4096_S4096x10_1_0) : (⟨S10x4096, .i32⟩ : BufTy).Contents (Elt F) → (⟨S4096x10, .i32⟩ : BufTy).Contents (Elt F))
abbrev opC : HloOp τ sig (Elt F) :=
  StableHlo.unary main_v2 main_v4 ((transpose S40960x25 [1, 0] · transposes_S25x40960_S40960x25_1_0) : (⟨S25x40960, .i32⟩ : BufTy).Contents (Elt F) → (⟨S40960x25, .i32⟩ : BufTy).Contents (Elt F))

theorem hA : (opA (F := F)).bufs ⊆ ({adj', a'} : Finset (DevRef τ sig)) := show ({adj', a'} : Finset (DevRef τ sig)) ⊆ {adj', a'} from Finset.Subset.refl _
theorem hB : (opB (F := F)).bufs ⊆ ({o0', r0'} : Finset (DevRef τ sig)) := show ({o0', r0'} : Finset (DevRef τ sig)) ⊆ {o0', r0'} from Finset.Subset.refl _
theorem hC : (opC (F := F)).bufs ⊆ ({o1', r1'} : Finset (DevRef τ sig)) := show ({o1', r1'} : Finset (DevRef τ sig)) ⊆ {o1', r1'} from Finset.Subset.refl _

def R0 (d : Dev nD) : Buf (Elt F) (r0Loc d) := transpose S4096x10 [1, 0] (H0 m d) transposes_S10x4096_S4096x10_1_0
def R1 (d : Dev nD) : Buf (Elt F) (r1Loc d) := transpose S40960x25 [1, 0] (H1 m d) transposes_S25x40960_S40960x25_1_0

theorem AT_eq (d : Dev nD) : (transpose S64x100000 [1, 0] (m (adjLoc d)) transposes_S100000x64_S64x100000_1_0 : Buf (Elt F) (aLoc d)) = AT m d := by
  funext i
  obtain ⟨p, q, rfl⟩ : ∃ (p : Fin 64) (q : Fin 100000), i = ValueIdx.ix2 p q := ⟨i 0, i 1, ValueIdx.eq_ix2 i⟩
  exact ValueIdx.transpose_ix2_apply _ _ p q

theorem R0_eq (d : Dev nD) : R0 m d = Cert.Spec.hop0 (m (xLoc d)) (m (adjLoc d)) := by
  funext i
  obtain ⟨p, q, rfl⟩ : ∃ (p : Fin 4096) (q : Fin 10), i = ValueIdx.ix2 p q := ⟨i 0, i 1, ValueIdx.eq_ix2 i⟩
  exact ValueIdx.transpose_ix2_apply _ _ p q
theorem R1_eq (d : Dev nD) : R1 m d = Cert.Spec.hop1 (m (xLoc d)) (m (adjLoc d)) := by
  funext i
  obtain ⟨p, q, rfl⟩ : ∃ (p : Fin 40960) (q : Fin 25), i = ValueIdx.ix2 p q := ⟨i 0, i 1, ValueIdx.eq_ix2 i⟩
  exact ValueIdx.transpose_ix2_apply _ _ p q

def V0 (d : Dev nD) : Valuation τ sig (Elt F) := fun b => m (d, b)
def VB (d : Dev nD) : Valuation τ sig (Elt F) := Function.update (V0 m d) o0' (H0 m d)
def VC (d : Dev nD) : Valuation τ sig (Elt F) := Function.update (V0 m d) o1' (H1 m d)

theorem VB_o0 (d : Dev nD) : VB m d o0' = H0 m d := Function.update_self _ _ _
theorem VB_r0 (d : Dev nD) : VB m d r0' = m (r0Loc d) := Function.update_of_ne (show r0' ≠ o0' by decide) _ _
theorem VC_o1 (d : Dev nD) : VC m d o1' = H1 m d := Function.update_self _ _ _
theorem VC_r1 (d : Dev nD) : VC m d r1' = m (r1Loc d) := Function.update_of_ne (show r1' ≠ o1' by decide) _ _

theorem resA_adj (d : Dev nD) : (opA (F := F)).result (V0 m d) adj' = m (adjLoc d) :=
  StableHlo.unary_result_ne' _ _ _ _ (show (main_arg1 : Ref sig .tc) ≠ main_v0 by decide)
theorem resA_a (d : Dev nD) : (opA (F := F)).result (V0 m d) a' = AT m d :=
  (StableHlo.unary_result' _ _ _ _).trans (AT_eq m d)
theorem resB_o0 (d : Dev nD) : (opB (F := F)).result (VB m d) o0' = H0 m d :=
  (StableHlo.unary_result_ne' _ _ _ _ (show (main_v1 : Ref sig .tc) ≠ main_v3 by decide)).trans (VB_o0 m d)
theorem resB_r0 (d : Dev nD) : (opB (F := F)).result (VB m d) r0' = R0 m d := by
  refine (StableHlo.unary_result' _ _ _ _).trans ?_
  show transpose S4096x10 [1, 0] (VB m d o0') transposes_S10x4096_S4096x10_1_0 = _
  rw [VB_o0]; rfl
theorem resC_o1 (d : Dev nD) : (opC (F := F)).result (VC m d) o1' = H1 m d :=
  (StableHlo.unary_result_ne' _ _ _ _ (show (main_v2 : Ref sig .tc) ≠ main_v4 by decide)).trans (VC_o1 m d)
theorem resC_r1 (d : Dev nD) : (opC (F := F)).result (VC m d) r1' = R1 m d := by
  refine (StableHlo.unary_result' _ _ _ _).trans ?_
  show transpose S40960x25 [1, 0] (VC m d o1') transposes_S25x40960_S40960x25_1_0 = _
  rw [VC_o1]; rfl

theorem heldA_res (d : Dev nD) : (held (T d) {adj', a'} ((opA (F := F)).result (V0 m d)) : sProp 𝕄)
    = iprop(((d, adj') ↦{fullShare} m (adjLoc d)) ∗ ((d, a') ↦{fullShare} AT m d)) := by
  rw [held_pair (F := F) d adj' a' (by decide), resA_adj, resA_a]
theorem heldB_res (d : Dev nD) : (held (T d) {o0', r0'} ((opB (F := F)).result (VB m d)) : sProp 𝕄)
    = iprop(((d, o0') ↦{fullShare} H0 m d) ∗ ((d, r0') ↦{fullShare} R0 m d)) := by
  rw [held_pair (F := F) d o0' r0' (by decide), resB_o0, resB_r0]
theorem heldC_res (d : Dev nD) : (held (T d) {o1', r1'} ((opC (F := F)).result (VC m d)) : sProp 𝕄)
    = iprop(((d, o1') ↦{fullShare} H1 m d) ∗ ((d, r1') ↦{fullShare} R1 m d)) := by
  rw [held_pair (F := F) d o1' r1' (by decide), resC_o1, resC_r1]

omit [FloatOps F] in
theorem o0_cores (d : Dev nD) (f : Buf (Elt F) (o0Loc d)) :
    (o0Loc d ↦{fullShare} f : sProp 𝕄) = bigSep Finset.univ fun c : Fin 2 => o0Loc d ↦[ownC0 c.val]{fullShare} f := by
  rw [← pointsTo_biUnion Finset.univ (ℓ := o0Loc d) (fun c : Fin 2 => ownC0 c.val) core0_disjoint, core0_cover]; try rfl
omit [FloatOps F] in
theorem o1_cores (d : Dev nD) (f : Buf (Elt F) (o1Loc d)) :
    (o1Loc d ↦{fullShare} f : sProp 𝕄) = bigSep Finset.univ fun c : Fin 2 => o1Loc d ↦[ownC1 c.val]{fullShare} f := by
  rw [← pointsTo_biUnion Finset.univ (ℓ := o1Loc d) (fun c : Fin 2 => ownC1 c.val) core1_disjoint, core1_cover]; try rfl

theorem st0_eq (d : Dev nD) : (bigSep Finset.univ fun c : Fin ((K (F := F)).nCore 0) => (P m).st 0 d c)
    = iprop((bigSep Finset.univ fun c : Fin 2 => xLoc d ↦{qC c.val} X m d) ∗ (bigSep Finset.univ fun c : Fin 2 => aLoc d ↦{qC c.val} AT m d)
        ∗ (bigSep Finset.univ fun c : Fin 2 => o0Loc d ↦[ownC0 c.val]{fullShare} m (o0Loc d))) := by
  show (bigSep (Finset.univ : Finset (Fin 2)) fun c => iprop((xLoc d ↦{qC c.val} X m d) ∗ (aLoc d ↦{qC c.val} AT m d) ∗ (o0Loc d ↦[ownC0 c.val]{fullShare} m (o0Loc d)))) = _
  rw [bigSep_sep', bigSep_sep']
theorem dn0_eq (d : Dev nD) : (bigSep Finset.univ fun c : Fin ((K (F := F)).nCore 0) => (P m).dn 0 d c)
    = iprop((bigSep Finset.univ fun c : Fin 2 => xLoc d ↦{qC c.val} X m d) ∗ (bigSep Finset.univ fun c : Fin 2 => aLoc d ↦{qC c.val} AT m d)
        ∗ (bigSep Finset.univ fun c : Fin 2 => o0Loc d ↦[ownC0 c.val]{fullShare} H0 m d)) := by
  show (bigSep (Finset.univ : Finset (Fin 2)) fun c => iprop((xLoc d ↦{qC c.val} X m d) ∗ (aLoc d ↦{qC c.val} AT m d) ∗ (o0Loc d ↦[ownC0 c.val]{fullShare} H0 m d))) = _
  rw [bigSep_sep', bigSep_sep']
theorem st1_eq (d : Dev nD) : (bigSep Finset.univ fun c : Fin ((K (F := F)).nCore 1) => (P m).st 1 d c)
    = iprop((bigSep Finset.univ fun c : Fin 2 => aLoc d ↦{qC c.val} AT m d) ∗ (bigSep Finset.univ fun c : Fin 2 => o0Loc d ↦{qC c.val} H0 m d)
        ∗ (bigSep Finset.univ fun c : Fin 2 => o1Loc d ↦[ownC1 c.val]{fullShare} m (o1Loc d))) := by
  show (bigSep (Finset.univ : Finset (Fin 2)) fun c => iprop((aLoc d ↦{qC c.val} AT m d) ∗ (o0Loc d ↦{qC c.val} H0 m d) ∗ (o1Loc d ↦[ownC1 c.val]{fullShare} m (o1Loc d)))) = _
  rw [bigSep_sep', bigSep_sep']
theorem dn1_eq (d : Dev nD) : (bigSep Finset.univ fun c : Fin ((K (F := F)).nCore 1) => (P m).dn 1 d c)
    = iprop((bigSep Finset.univ fun c : Fin 2 => aLoc d ↦{qC c.val} AT m d) ∗ (bigSep Finset.univ fun c : Fin 2 => o0Loc d ↦{qC c.val} H0 m d)
        ∗ (bigSep Finset.univ fun c : Fin 2 => o1Loc d ↦[ownC1 c.val]{fullShare} H1 m d)) := by
  show (bigSep (Finset.univ : Finset (Fin 2)) fun c => iprop((aLoc d ↦{qC c.val} AT m d) ∗ (o0Loc d ↦{qC c.val} H0 m d) ∗ (o1Loc d ↦[ownC1 c.val]{fullShare} H1 m d))) = _
  rw [bigSep_sep', bigSep_sep']

abbrev FIN (d : Dev nD) : sProp 𝕄 :=
  iprop((xLoc d ↦{fullShare} m (xLoc d)) ∗ (adjLoc d ↦{fullShare} m (adjLoc d)) ∗ (r0Loc d ↦{fullShare} R0 m d) ∗ (r1Loc d ↦{fullShare} R1 m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d) := by
  unfold SparseCore.Cfg.tcRes
  rw [unscopedBufs_eq]
  simp only [main, wp_bind, wp_pure]
  iintro ⟨#Hctx, Hst, ⟨Hb, ⟨Hx, Hadj, Ha, Ho0, Ho1, Hr0, Hr1⟩, -, -⟩, -⟩

  iapply (wp_hlo_within 𝒱 (SparseCore.T d) none Set.univ (op := opA) (S := {adj', a'}) hA (V := V0 m d)) $$ [Hb Hadj Ha]
  · isplitl [Hb]; · iexact Hb
    rw [held_pair (F := F) d adj' a' (by decide)]
    isplitl [Hadj]; · iexact Hadj
    iexact Ha
  iintro ⟨Hb, Hheld⟩
  ihave Hh := (Entails.of_eq (heldA_res (F := F) m d)) $$ Hheld
  icases Hh with ⟨Hadj, Ha⟩
  rw [wp_ret]; imodintro

  ihave Hx2 := (Transfers.pointsTo_toks_split fullShare 2) $$ Hx
  icases Hx2 with ⟨Hxr, Hxt⟩
  ihave Ha2 := (Transfers.pointsTo_toks_split fullShare 2) $$ Ha
  icases Ha2 with ⟨Har, Hat⟩
  ihave Ho0c := (Entails.of_eq (o0_cores (F := F) d (m (o0Loc d)))) $$ Ho0
  iapply ((K (F := F)).wp_run (D (F := F)) 𝒱 (EH := EH) (P := P m) κ d 0) $$ [Hst Hxt Hat Ho0c Hb Hadj Hxr Har Ho1 Hr0 Hr1]
  isplitr; · iexact Hctx
  isplitl [Hst]; · iexact Hst
  isplitl [Hxt Hat Ho0c]
  · rw [st0_eq]
    isplitl [Hxt]; · iexact Hxt
    isplitl [Hat]; · iexact Hat
    iexact Ho0c
  iintro ⟨Hst, Hdn⟩
  ihave Hdn' := (Entails.of_eq (dn0_eq m d)) $$ Hdn
  icases Hdn' with ⟨Hxt, Hat, Ho0c⟩
  ihave Hx := (Transfers.pointsTo_toks_join fullShare 2) $$ [Hxr Hxt]
  · isplitl [Hxr]; · iexact Hxr
    iexact Hxt
  ihave Ha := (Transfers.pointsTo_toks_join fullShare 2) $$ [Har Hat]
  · isplitl [Har]; · iexact Har
    iexact Hat
  ihave Ho0 := (Entails.of_eq (o0_cores (F := F) d (H0 m d)).symm) $$ Ho0c

  ihave Ha2 := (Transfers.pointsTo_toks_split fullShare 2) $$ Ha
  icases Ha2 with ⟨Har, Hat⟩
  ihave Ho02 := (Transfers.pointsTo_toks_split fullShare 2) $$ Ho0
  icases Ho02 with ⟨Ho0r, Ho0t⟩
  ihave Ho1c := (Entails.of_eq (o1_cores (F := F) d (m (o1Loc d)))) $$ Ho1
  iapply ((K (F := F)).wp_run (D (F := F)) 𝒱 (EH := EH) (P := P m) κ d 1) $$ [Hst Hat Ho0t Ho1c Hb Hadj Hx Har Ho0r Hr0 Hr1]
  isplitr; · iexact Hctx
  isplitl [Hst]; · iexact Hst
  isplitl [Hat Ho0t Ho1c]
  · rw [st1_eq]
    isplitl [Hat]; · iexact Hat
    isplitl [Ho0t]; · iexact Ho0t
    iexact Ho1c
  iintro ⟨Hst, Hdn⟩
  ihave Hdn' := (Entails.of_eq (dn1_eq m d)) $$ Hdn
  icases Hdn' with ⟨Hat, Ho0t, Ho1c⟩
  ihave Ha := (Transfers.pointsTo_toks_join fullShare 2) $$ [Har Hat]
  · isplitl [Har]; · iexact Har
    iexact Hat
  ihave Ho0 := (Transfers.pointsTo_toks_join fullShare 2) $$ [Ho0r Ho0t]
  · isplitl [Ho0r]; · iexact Ho0r
    iexact Ho0t
  ihave Ho1 := (Entails.of_eq (o1_cores (F := F) d (H1 m d)).symm) $$ Ho1c

  iapply (wp_hlo_within 𝒱 (SparseCore.T d) none Set.univ (op := opB) (S := {o0', r0'}) hB (V := VB m d)) $$ [Hb Ho0 Hr0]
  · isplitl [Hb]; · iexact Hb
    rw [held_pair (F := F) d o0' r0' (by decide), VB_o0, VB_r0]
    isplitl [Ho0]; · iexact Ho0
    iexact Hr0
  iintro ⟨Hb, Hheld⟩
  ihave Hh := (Entails.of_eq (heldB_res (F := F) m d)) $$ Hheld
  icases Hh with ⟨Ho0, Hr0⟩
  rw [wp_ret]; imodintro

  iapply (wp_hlo_within 𝒱 (SparseCore.T d) none Set.univ (op := opC) (S := {o1', r1'}) hC (V := VC m d)) $$ [Hb Ho1 Hr1]
  · isplitl [Hb]; · iexact Hb
    rw [held_pair (F := F) d o1' r1' (by decide), VC_o1, VC_r1]
    isplitl [Ho1]; · iexact Ho1
    iexact Hr1
  iintro ⟨Hb, Hheld⟩
  ihave Hh := (Entails.of_eq (heldC_res (F := F) m d)) $$ Hheld
  icases Hh with ⟨Ho1, Hr1⟩
  rw [wp_ret]; imodintro; imodintro
  isplitl [Hst]; · iexact Hst
  isplitl [Hx]; · iexact Hx
  isplitl [Hadj]; · iexact Hadj
  isplitl [Hr0]; · iexact Hr0
  iexact Hr1

def fq (d : Dev nD) (s' : Phys nD τ sig (Elt F)) : Prop :=
  s'.mem.mem (xLoc d) = m (xLoc d) ∧ s'.mem.mem (adjLoc d) = m (adjLoc d) ∧ s'.mem.mem (r0Loc d) = R0 m d ∧ s'.mem.mem (r1Loc d) = R1 m d

theorem hfin (d : Dev nD) (s' : Phys nD τ sig (Elt F)) : iprop(FIN m d ∗ SI s') ⊢ (⌜fq m d s'⌝ : sProp 𝕄) := by
  iintro ⟨⟨Hx, Hadj, Hr0, Hr1⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := adjLoc d) (I := Finset.univ) (q := fullShare) (f := m (adjLoc d)))) $$ [HSI Hadj]
  · isplitl [HSI] <;> iassumption
  icases H with ⟨%h2, HSI, -⟩
  ihave H := (persistent_entails_right (SI_pointsTo_agree (st := s') (ℓ := r0Loc d) (I := Finset.univ) (q := fullShare) (f := R0 m d))) $$ [HSI Hr0]
  · isplitl [HSI] <;> iassumption
  icases H with ⟨%h3, HSI, -⟩
  ihave H := (SI_pointsTo_agree (st := s') (ℓ := r1Loc d) (I := Finset.univ) (q := fullShare) (f := R1 m d)) $$ [HSI Hr1]
  · isplitl [HSI] <;> iassumption
  icases H with %h4
  ipureintro
  exact ⟨funext fun i => h1 i (Finset.mem_univ i), funext fun i => h2 i (Finset.mem_univ i), funext fun i => h3 i (Finset.mem_univ i),
    funext fun i => h4 i (Finset.mem_univ i)⟩

def QC : PUnit × MemSt nD τ sig (Elt F) → Prop := fun r => ∀ c : Dev nD,
  r.2.mem (r0Loc c) = Cert.Spec.hop0 (m (xLoc c)) (m (adjLoc c)) ∧ r.2.mem (r1Loc c) = Cert.Spec.hop1 (m (xLoc c)) (m (adjLoc c))
    ∧ r.2.mem (xLoc c) = m (xLoc c) ∧ r.2.mem (adjLoc c) = m (adjLoc c)

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq | 1 => nomatch hq)
    (fun q _ => match q with | 0 => tileObl0 m facts hpre | 1 => tileObl1 m facts hpre)
    (fun q _ => match q with | 0 => SparseCore.Cfg.VecSplit.of_plain (vecSplit0 m) | 1 => SparseCore.Cfg.VecSplit.of_plain (vecSplit1 m))
    m ρ main (fun _ => iprop(emp)) (FIN m) (u₀ (F := F)) (sep_elim_left.trans (hu₀ m)) (hmain m ρ) (fq m) (hfin m) (QC m)
    (fun _ h c => ⟨(h c).2.2.1.trans (R0_eq m c), (h c).2.2.2.trans (R1_eq m c), (h c).1, (h c).2.1⟩)

end Cert.Proof.KI

end
-- ==== Proof.RefFn.lean ====
/- The reference's host functions as pure functions of their arguments: one `let` for each step of the printed text. -/
import proofs.«215163_g69475390980333_cont_9to1_m_779_28_alg».proof.ReferenceIdeal

noncomputable section

namespace Cert.RefFn

open Idealize.ShloMosaic
open Cert.ReferenceIdeal
open Cert.ReferenceIdeal.Facts₀ Cert.ReferenceIdeal.Facts

variable [Cert.ReferenceIdeal.Facts]

section Tf

variable (s : Shape) (hb : S_.BroadcastsInDim s ![])

def tf_part9 (arg0 : IVec S_ 32) (v163 : IVec s 32) (v169 : IVec s 32) (v170 : IVec s 32) : IVec s 32 × IVec s 32 :=
  let v171 : IVec s 32 := addi v163 v170
  let v172 : IVec s 32 := broadcastInDim s ![] hb arg0
  let v173 : IVec s 32 := addi v169 v172
  let c_44 : IVec S_ 32 := constantI S_ 32 5#32
  let v174 : IVec s 32 := broadcastInDim s ![] hb c_44
  let v175 : IVec s 32 := addi v173 v174
  (v171, v175)

def tf_part8 (arg0 : IVec S_ 32) (v1 : IVec S_ 32) (v148 : IVec s 32) (v149 : IVec s 32) (v151 : IVec s 32) : IVec s 32 × IVec s 32 :=
  let c_39 : IVec S_ 32 := constantI S_ 32 17#32
  let v152 : IVec s 32 := broadcastInDim s ![] hb c_39
  let v153 : IVec s 32 := Host.shrui v148 v152
  let v154 : IVec s 32 := ori v151 v153
  let v155 : IVec s 32 := xori v149 v154
  let v156 : IVec s 32 := addi v149 v155
  let c_40 : IVec S_ 32 := constantI S_ 32 26#32
  let v157 : IVec s 32 := broadcastInDim s ![] hb c_40
  let v158 : IVec s 32 := Host.shli v155 v157
  let c_41 : IVec S_ 32 := constantI S_ 32 6#32
  let v159 : IVec s 32 := broadcastInDim s ![] hb c_41
  let v160 : IVec s 32 := Host.shrui v155 v159
  let v161 : IVec s 32 := ori v158 v160
  let v162 : IVec s 32 := xori v156 v161
  let v163 : IVec s 32 := addi v156 v162
  let c_42 : IVec S_ 32 := constantI S_ 32 6#32
  let v164 : IVec s 32 := broadcastInDim s ![] hb c_42
  let v165 : IVec s 32 := Host.shli v162 v164
  let c_43 : IVec S_ 32 := constantI S_ 32 26#32
  let v166 : IVec s 32 := broadcastInDim s ![] hb c_43
  let v167 : IVec s 32 := Host.shrui v162 v166
  let v168 : IVec s 32 := ori v165 v167
  let v169 : IVec s 32 := xori v163 v168
  let v170 : IVec s 32 := broadcastInDim s ![] hb v1
  tf_part9 s hb arg0 v163 v169 v170

def tf_part7 (arg0 : IVec S_ 32) (arg1 : IVec S_ 32) (v1 : IVec S_ 32) (v128 : IVec s 32) (v129 : IVec s 32) (v131 : IVec s 32) (c_34 : IVec S_ 32) : IVec s 32 × IVec s 32 :=
  let v132 : IVec s 32 := broadcastInDim s ![] hb c_34
  let v133 : IVec s 32 := Host.shrui v128 v132
  let v134 : IVec s 32 := ori v131 v133
  let v135 : IVec s 32 := xori v129 v134
  let v136 : IVec s 32 := broadcastInDim s ![] hb arg1
  let v137 : IVec s 32 := addi v129 v136
  let v138 : IVec s 32 := broadcastInDim s ![] hb v1
  let v139 : IVec s 32 := addi v135 v138
  let c_35 : IVec S_ 32 := constantI S_ 32 4#32
  let v140 : IVec s 32 := broadcastInDim s ![] hb c_35
  let v141 : IVec s 32 := addi v139 v140
  let v142 : IVec s 32 := addi v137 v141
  let c_36 : IVec S_ 32 := constantI S_ 32 13#32
  let v143 : IVec s 32 := broadcastInDim s ![] hb c_36
  let v144 : IVec s 32 := Host.shli v141 v143
  let c_37 : IVec S_ 32 := constantI S_ 32 19#32
  let v145 : IVec s 32 := broadcastInDim s ![] hb c_37
  let v146 : IVec s 32 := Host.shrui v141 v145
  let v147 : IVec s 32 := ori v144 v146
  let v148 : IVec s 32 := xori v142 v147
  let v149 : IVec s 32 := addi v142 v148
  let c_38 : IVec S_ 32 := constantI S_ 32 15#32
  let v150 : IVec s 32 := broadcastInDim s ![] hb c_38
  let v151 : IVec s 32 := Host.shli v148 v150
  tf_part8 s hb arg0 v1 v148 v149 v151

def tf_part6 (arg0 : IVec S_ 32) (arg1 : IVec S_ 32) (v1 : IVec S_ 32) (v108 : IVec s 32) (v113 : IVec s 32) : IVec s 32 × IVec s 32 :=
  let v114 : IVec s 32 := xori v108 v113
  let v115 : IVec s 32 := addi v108 v114
  let c_29 : IVec S_ 32 := constantI S_ 32 29#32
  let v116 : IVec s 32 := broadcastInDim s ![] hb c_29
  let v117 : IVec s 32 := Host.shli v114 v116
  let c_30 : IVec S_ 32 := constantI S_ 32 3#32
  let v118 : IVec s 32 := broadcastInDim s ![] hb c_30
  let v119 : IVec s 32 := Host.shrui v114 v118
  let v120 : IVec s 32 := ori v117 v119
  let v121 : IVec s 32 := xori v115 v120
  let v122 : IVec s 32 := addi v115 v121
  let c_31 : IVec S_ 32 := constantI S_ 32 16#32
  let v123 : IVec s 32 := broadcastInDim s ![] hb c_31
  let v124 : IVec s 32 := Host.shli v121 v123
  let c_32 : IVec S_ 32 := constantI S_ 32 16#32
  let v125 : IVec s 32 := broadcastInDim s ![] hb c_32
  let v126 : IVec s 32 := Host.shrui v121 v125
  let v127 : IVec s 32 := ori v124 v126
  let v128 : IVec s 32 := xori v122 v127
  let v129 : IVec s 32 := addi v122 v128
  let c_33 : IVec S_ 32 := constantI S_ 32 24#32
  let v130 : IVec s 32 := broadcastInDim s ![] hb c_33
  let v131 : IVec s 32 := Host.shli v128 v130
  let c_34 : IVec S_ 32 := constantI S_ 32 8#32
  tf_part7 s hb arg0 arg1 v1 v128 v129 v131 c_34

def tf_part5 (arg0 : IVec S_ 32) (arg1 : IVec S_ 32) (v1 : IVec S_ 32) (v88 : IVec s 32) (v94 : IVec s 32) : IVec s 32 × IVec s 32 :=
  let v95 : IVec s 32 := addi v88 v94
  let c_24 : IVec S_ 32 := constantI S_ 32 6#32
  let v96 : IVec s 32 := broadcastInDim s ![] hb c_24
  let v97 : IVec s 32 := Host.shli v94 v96
  let c_25 : IVec S_ 32 := constantI S_ 32 26#32
  let v98 : IVec s 32 := broadcastInDim s ![] hb c_25
  let v99 : IVec s 32 := Host.shrui v94 v98
  let v100 : IVec s 32 := ori v97 v99
  let v101 : IVec s 32 := xori v95 v100
  let v102 : IVec s 32 := broadcastInDim s ![] hb arg0
  let v103 : IVec s 32 := addi v95 v102
  let v104 : IVec s 32 := broadcastInDim s ![] hb arg1
  let v105 : IVec s 32 := addi v101 v104
  let c_26 : IVec S_ 32 := constantI S_ 32 3#32
  let v106 : IVec s 32 := broadcastInDim s ![] hb c_26
  let v107 : IVec s 32 := addi v105 v106
  let v108 : IVec s 32 := addi v103 v107
  let c_27 : IVec S_ 32 := constantI S_ 32 17#32
  let v109 : IVec s 32 := broadcastInDim s ![] hb c_27
  let v110 : IVec s 32 := Host.shli v107 v109
  let c_28 : IVec S_ 32 := constantI S_ 32 15#32
  let v111 : IVec s 32 := broadcastInDim s ![] hb c_28
  let v112 : IVec s 32 := Host.shrui v107 v111
  let v113 : IVec s 32 := ori v110 v112
  tf_part6 s hb arg0 arg1 v1 v108 v113

def tf_part4 (arg0 : IVec S_ 32) (arg1 : IVec S_ 32) (v1 : IVec S_ 32) (v73 : IVec s 32) (v74 : IVec s 32) (v75 : IVec s 32) : IVec s 32 × IVec s 32 :=
  let v76 : IVec s 32 := Host.shli v73 v75
  let c_19 : IVec S_ 32 := constantI S_ 32 19#32
  let v77 : IVec s 32 := broadcastInDim s ![] hb c_19
  let v78 : IVec s 32 := Host.shrui v73 v77
  let v79 : IVec s 32 := ori v76 v78
  let v80 : IVec s 32 := xori v74 v79
  let v81 : IVec s 32 := addi v74 v80
  let c_20 : IVec S_ 32 := constantI S_ 32 15#32
  let v82 : IVec s 32 := broadcastInDim s ![] hb c_20
  let v83 : IVec s 32 := Host.shli v80 v82
  let c_21 : IVec S_ 32 := constantI S_ 32 17#32
  let v84 : IVec s 32 := broadcastInDim s ![] hb c_21
  let v85 : IVec s 32 := Host.shrui v80 v84
  let v86 : IVec s 32 := ori v83 v85
  let v87 : IVec s 32 := xori v81 v86
  let v88 : IVec s 32 := addi v81 v87
  let c_22 : IVec S_ 32 := constantI S_ 32 26#32
  let v89 : IVec s 32 := broadcastInDim s ![] hb c_22
  let v90 : IVec s 32 := Host.shli v87 v89
  let c_23 : IVec S_ 32 := constantI S_ 32 6#32
  let v91 : IVec s 32 := broadcastInDim s ![] hb c_23
  let v92 : IVec s 32 := Host.shrui v87 v91
  let v93 : IVec s 32 := ori v90 v92
  let v94 : IVec s 32 := xori v88 v93
  tf_part5 s hb arg0 arg1 v1 v88 v94

def tf_part3 (arg0 : IVec S_ 32) (arg1 : IVec S_ 32) (v1 : IVec S_ 32) (v53 : IVec s 32) (v54 : IVec s 32) (v56 : IVec s 32) : IVec s 32 × IVec s 32 :=
  let c_14 : IVec S_ 32 := constantI S_ 32 16#32
  let v57 : IVec s 32 := broadcastInDim s ![] hb c_14
  let v58 : IVec s 32 := Host.shrui v53 v57
  let v59 : IVec s 32 := ori v56 v58
  let v60 : IVec s 32 := xori v54 v59
  let v61 : IVec s 32 := addi v54 v60
  let c_15 : IVec S_ 32 := constantI S_ 32 24#32
  let v62 : IVec s 32 := broadcastInDim s ![] hb c_15
  let v63 : IVec s 32 := Host.shli v60 v62
  let c_16 : IVec S_ 32 := constantI S_ 32 8#32
  let v64 : IVec s 32 := broadcastInDim s ![] hb c_16
  let v65 : IVec s 32 := Host.shrui v60 v64
  let v66 : IVec s 32 := ori v63 v65
  let v67 : IVec s 32 := xori v61 v66
  let v68 : IVec s 32 := broadcastInDim s ![] hb v1
  let v69 : IVec s 32 := addi v61 v68
  let v70 : IVec s 32 := broadcastInDim s ![] hb arg0
  let v71 : IVec s 32 := addi v67 v70
  let c_17 : IVec S_ 32 := constantI S_ 32 2#32
  let v72 : IVec s 32 := broadcastInDim s ![] hb c_17
  let v73 : IVec s 32 := addi v71 v72
  let v74 : IVec s 32 := addi v69 v73
  let c_18 : IVec S_ 32 := constantI S_ 32 13#32
  let v75 : IVec s 32 := broadcastInDim s ![] hb c_18
  tf_part4 s hb arg0 arg1 v1 v73 v74 v75

def tf_part2 (arg0 : IVec S_ 32) (arg1 : IVec S_ 32) (v1 : IVec S_ 32) (v35 : IVec s 32) (v37 : IVec s 32) (c_8 : IVec S_ 32) : IVec s 32 × IVec s 32 :=
  let v38 : IVec s 32 := broadcastInDim s ![] hb c_8
  let v39 : IVec s 32 := addi v37 v38
  let v40 : IVec s 32 := addi v35 v39
  let c_9 : IVec S_ 32 := constantI S_ 32 17#32
  let v41 : IVec s 32 := broadcastInDim s ![] hb c_9
  let v42 : IVec s 32 := Host.shli v39 v41
  let c_10 : IVec S_ 32 := constantI S_ 32 15#32
  let v43 : IVec s 32 := broadcastInDim s ![] hb c_10
  let v44 : IVec s 32 := Host.shrui v39 v43
  let v45 : IVec s 32 := ori v42 v44
  let v46 : IVec s 32 := xori v40 v45
  let v47 : IVec s 32 := addi v40 v46
  let c_11 : IVec S_ 32 := constantI S_ 32 29#32
  let v48 : IVec s 32 := broadcastInDim s ![] hb c_11
  let v49 : IVec s 32 := Host.shli v46 v48
  let c_12 : IVec S_ 32 := constantI S_ 32 3#32
  let v50 : IVec s 32 := broadcastInDim s ![] hb c_12
  let v51 : IVec s 32 := Host.shrui v46 v50
  let v52 : IVec s 32 := ori v49 v51
  let v53 : IVec s 32 := xori v47 v52
  let v54 : IVec s 32 := addi v47 v53
  let c_13 : IVec S_ 32 := constantI S_ 32 16#32
  let v55 : IVec s 32 := broadcastInDim s ![] hb c_13
  let v56 : IVec s 32 := Host.shli v53 v55
  tf_part3 s hb arg0 arg1 v1 v53 v54 v56

def tf_part1 (arg0 : IVec S_ 32) (arg1 : IVec S_ 32) (v1 : IVec S_ 32) (v13 : IVec s 32) (v18 : IVec s 32) : IVec s 32 × IVec s 32 :=
  let v19 : IVec s 32 := xori v13 v18
  let v20 : IVec s 32 := addi v13 v19
  let c_4 : IVec S_ 32 := constantI S_ 32 26#32
  let v21 : IVec s 32 := broadcastInDim s ![] hb c_4
  let v22 : IVec s 32 := Host.shli v19 v21
  let c_5 : IVec S_ 32 := constantI S_ 32 6#32
  let v23 : IVec s 32 := broadcastInDim s ![] hb c_5
  let v24 : IVec s 32 := Host.shrui v19 v23
  let v25 : IVec s 32 := ori v22 v24
  let v26 : IVec s 32 := xori v20 v25
  let v27 : IVec s 32 := addi v20 v26
  let c_6 : IVec S_ 32 := constantI S_ 32 6#32
  let v28 : IVec s 32 := broadcastInDim s ![] hb c_6
  let v29 : IVec s 32 := Host.shli v26 v28
  let c_7 : IVec S_ 32 := constantI S_ 32 26#32
  let v30 : IVec s 32 := broadcastInDim s ![] hb c_7
  let v31 : IVec s 32 := Host.shrui v26 v30
  let v32 : IVec s 32 := ori v29 v31
  let v33 : IVec s 32 := xori v27 v32
  let v34 : IVec s 32 := broadcastInDim s ![] hb arg1
  let v35 : IVec s 32 := addi v27 v34
  let v36 : IVec s 32 := broadcastInDim s ![] hb v1
  let v37 : IVec s 32 := addi v33 v36
  let c_8 : IVec S_ 32 := constantI S_ 32 1#32
  tf_part2 s hb arg0 arg1 v1 v35 v37 c_8

/-- The counter-mode hash of two key words on two vectors of one shape `s`, whatever the shape; `tf_part1` … `tf_part9` are its later steps. -/
def tf (arg0 : IVec S_ 32) (arg1 : IVec S_ 32) (arg2 : IVec s 32) (arg3 : IVec s 32) : IVec s 32 × IVec s 32 :=
  let v0 : IVec S_ 32 := xori arg0 arg1
  let c : IVec S_ 32 := constantI S_ 32 466688986#32
  let v1 : IVec S_ 32 := xori v0 c
  let v2 : IVec s 32 := broadcastInDim s ![] hb arg0
  let v3 : IVec s 32 := addi arg2 v2
  let v4 : IVec s 32 := broadcastInDim s ![] hb arg1
  let v5 : IVec s 32 := addi arg3 v4
  let v6 : IVec s 32 := addi v3 v5
  let c_0 : IVec S_ 32 := constantI S_ 32 13#32
  let v7 : IVec s 32 := broadcastInDim s ![] hb c_0
  let v8 : IVec s 32 := Host.shli v5 v7
  let c_1 : IVec S_ 32 := constantI S_ 32 19#32
  let v9 : IVec s 32 := broadcastInDim s ![] hb c_1
  let v10 : IVec s 32 := Host.shrui v5 v9
  let v11 : IVec s 32 := ori v8 v10
  let v12 : IVec s 32 := xori v6 v11
  let v13 : IVec s 32 := addi v6 v12
  let c_2 : IVec S_ 32 := constantI S_ 32 15#32
  let v14 : IVec s 32 := broadcastInDim s ![] hb c_2
  let v15 : IVec s 32 := Host.shli v12 v14
  let c_3 : IVec S_ 32 := constantI S_ 32 17#32
  let v16 : IVec s 32 := broadcastInDim s ![] hb c_3
  let v17 : IVec s 32 := Host.shrui v12 v16
  let v18 : IVec s 32 := ori v15 v17
  tf_part1 s hb arg0 arg1 v1 v13 v18

end Tf

def threefry2x32_part9 := tf_part9 S2 bcast_S_S2
def threefry2x32_part8 := tf_part8 S2 bcast_S_S2
def threefry2x32_part7 := tf_part7 S2 bcast_S_S2
def threefry2x32_part6 := tf_part6 S2 bcast_S_S2
def threefry2x32_part5 := tf_part5 S2 bcast_S_S2
def threefry2x32_part4 := tf_part4 S2 bcast_S_S2
def threefry2x32_part3 := tf_part3 S2 bcast_S_S2
def threefry2x32_part2 := tf_part2 S2 bcast_S_S2
def threefry2x32_part1 := tf_part1 S2 bcast_S_S2
def threefry2x32 := tf S2 bcast_S_S2
def threefry2x32_1_part9 := tf_part9 S64 bcast_S_S64
def threefry2x32_1_part8 := tf_part8 S64 bcast_S_S64
def threefry2x32_1_part7 := tf_part7 S64 bcast_S_S64
def threefry2x32_1_part6 := tf_part6 S64 bcast_S_S64
def threefry2x32_1_part5 := tf_part5 S64 bcast_S_S64
def threefry2x32_1_part4 := tf_part4 S64 bcast_S_S64
def threefry2x32_1_part3 := tf_part3 S64 bcast_S_S64
def threefry2x32_1_part2 := tf_part2 S64 bcast_S_S64
def threefry2x32_1_part1 := tf_part1 S64 bcast_S_S64
def threefry2x32_1 := tf S64 bcast_S_S64

def threefry_split (arg0 : IVec S2 32) : IVec S2x2 32 :=
  let v0 : IVec S1 32 := extractStridedSlice S1 ![0] arg0 slices_S2_S1_0
  let v1 : IVec S_ 32 := shapeCast S_ v0 shapeCasts_S1_S_
  let v2 : IVec S1 32 := extractStridedSlice S1 ![1] arg0 slices_S2_S1_1
  let v3 : IVec S_ 32 := shapeCast S_ v2 shapeCasts_S1_S_
  let v4 : IVec S2 64 := iotaInDim S2 64 0
  let c : IVec S_ 64 := constantI S_ 64 1#64
  let v5 : IVec S2 64 := broadcastInDim S2 ![] bcast_S_S2 c
  let v6 : IVec S2 64 := muli v5 v4
  let c_0 : IVec S_ 64 := constantI S_ 64 32#64
  let v7 : IVec S2 64 := broadcastInDim S2 ![] bcast_S_S2 c_0
  let v8 : IVec S2 64 := Host.shrui v6 v7
  let v9 : IVec S2 32 := trunci 32 v6 natLt_32_64
  let v10 : IVec S2 32 := trunci 32 v8 natLt_32_64
  let v11 : IVec S2 32 × IVec S2 32 := threefry2x32 v1 v3 v10 v9
  let v12 : IVec S2x1 32 := broadcastInDim S2x1 ![0] bcast_S2_S2x1_0 v11.1
  let v13 : IVec S2x1 32 := broadcastInDim S2x1 ![0] bcast_S2_S2x1_0 v11.2
  let v14 : IVec S2x2 32 := (fun a b => concatenate S2x2 1 [⟨S2x1, a⟩, ⟨S2x1, b⟩] concatenates_S2x1_S2x1_S2x2_d1) v12 v13
  v14

def threefry_split_0 (arg0 : IVec S2 32) : IVec S2x2 32 :=
  let v0 : IVec S1 32 := extractStridedSlice S1 ![0] arg0 slices_S2_S1_0
  let v1 : IVec S_ 32 := shapeCast S_ v0 shapeCasts_S1_S_
  let v2 : IVec S1 32 := extractStridedSlice S1 ![1] arg0 slices_S2_S1_1
  let v3 : IVec S_ 32 := shapeCast S_ v2 shapeCasts_S1_S_
  let v4 : IVec S2 64 := iotaInDim S2 64 0
  let c : IVec S_ 64 := constantI S_ 64 1#64
  let v5 : IVec S2 64 := broadcastInDim S2 ![] bcast_S_S2 c
  let v6 : IVec S2 64 := muli v5 v4
  let c_0 : IVec S_ 64 := constantI S_ 64 32#64
  let v7 : IVec S2 64 := broadcastInDim S2 ![] bcast_S_S2 c_0
  let v8 : IVec S2 64 := Host.shrui v6 v7
  let v9 : IVec S2 32 := trunci 32 v6 natLt_32_64
  let v10 : IVec S2 32 := trunci 32 v8 natLt_32_64
  let v11 : IVec S2 32 × IVec S2 32 := threefry2x32 v1 v3 v10 v9
  let v12 : IVec S2x1 32 := broadcastInDim S2x1 ![0] bcast_S2_S2x1_0 v11.1
  let v13 : IVec S2x1 32 := broadcastInDim S2x1 ![0] bcast_S2_S2x1_0 v11.2
  let v14 : IVec S2x2 32 := (fun a b => concatenate S2x2 1 [⟨S2x1, a⟩, ⟨S2x1, b⟩] concatenates_S2x1_S2x1_S2x2_d1) v12 v13
  v14

def shuffle (arg0 : IVec S2 32) (arg1 : IVec S64 32) : IVec S64 32 :=
  let v0 : IVec S2x2 32 := threefry_split_0 arg0
  let v1 : IVec S1x2 32 := extractStridedSlice S1x2 ![0, 0] v0 slices_S2x2_S1x2_0_0
  let v2 : IVec S2 32 := shapeCast S2 v1 shapeCasts_S1x2_S2
  let v3 : IVec S1x2 32 := extractStridedSlice S1x2 ![1, 0] v0 slices_S2x2_S1x2_1_0
  let v4 : IVec S2 32 := shapeCast S2 v3 shapeCasts_S1x2_S2
  let v5 : IVec S1 32 := extractStridedSlice S1 ![0] v4 slices_S2_S1_0
  let v6 : IVec S_ 32 := shapeCast S_ v5 shapeCasts_S1_S_
  let v7 : IVec S1 32 := extractStridedSlice S1 ![1] v4 slices_S2_S1_1
  let v8 : IVec S_ 32 := shapeCast S_ v7 shapeCasts_S1_S_
  let v9 : IVec S64 64 := iotaInDim S64 64 0
  let c : IVec S_ 64 := constantI S_ 64 1#64
  let v10 : IVec S64 64 := broadcastInDim S64 ![] bcast_S_S64 c
  let v11 : IVec S64 64 := muli v10 v9
  let c_0 : IVec S_ 64 := constantI S_ 64 32#64
  let v12 : IVec S64 64 := broadcastInDim S64 ![] bcast_S_S64 c_0
  let v13 : IVec S64 64 := Host.shrui v11 v12
  let v14 : IVec S64 32 := trunci 32 v11 natLt_32_64
  let v15 : IVec S64 32 := trunci 32 v13 natLt_32_64
  let v16 : IVec S64 32 × IVec S64 32 := threefry2x32_1 v6 v8 v15 v14
  let v17 : IVec S64 32 := xori v16.1 v16.2
  let v18_0 : IVec S64 32 := (fun x y => (Host.sort2 S64 0 comparator_i32_i32_d0 x y).1) v17 arg1
  let v18_1 : IVec S64 32 := (fun x y => (Host.sort2 S64 0 comparator_i32_i32_d0 x y).2) v17 arg1
  v18_1

def take (arg0 : IVec S100000x64 32) (arg1 : IVec S4096 32) : IVec S4096x64 32 :=
  let c : IVec S_ 32 := constantI S_ 32 0#32
  let v0 : IVec S4096 32 := broadcastInDim S4096 ![] bcast_S_S4096 c
  let v1 : IVec S4096 1 := cmpi .slt arg1 v0
  let c_0 : IVec S_ 32 := constantI S_ 32 100000#32
  let v2 : IVec S4096 32 := broadcastInDim S4096 ![] bcast_S_S4096 c_0
  let v3 : IVec S4096 32 := addi arg1 v2
  let v4 : IVec S4096 32 := select v1 v3 arg1
  let v5 : IVec S4096x1 32 := broadcastInDim S4096x1 ![0] bcast_S4096_S4096x1_0 v4
  let c_1 : IVec S1 32 := constantI S1 32 99999#32
  let c_2 : IVec S_ 32 := constantI S_ 32 0#32
  let v6 : IVec S4096x1 32 := broadcastInDim S4096x1 ![] bcast_S_S4096x1 c_2
  let v7 : IVec S4096x1 1 := cmpi .sge v5 v6
  let v8 : IVec S1x1 32 := broadcastInDim S1x1 ![1] bcast_S1_S1x1_1 c_1
  let v9 : IVec S4096x1 32 := broadcastInDim S4096x1 ![0, 1] bcast_S1x1_S4096x1_0_1 v8
  let v10 : IVec S4096x1 1 := cmpi .sle v5 v9
  let v11 : IVec S4096x1 1 := andi v7 v10
  let c_3 : IVec S_ 1 := constantI S_ 1 1#1
  let v12 : IVec S4096 1 := (fun x v => Host.reduce IntOp.andi x v reducesTo_S4096x1_S4096_d1 h_S_) v11 c_3
  let v13 : IVec S4096x64 32 := (fun x i => Host.gather gather_S100000x64_S4096x1_S4096x64_1_0_n_n_0_1_164 x i) arg0 v5
  let v14 : IVec S4096x64 1 := broadcastInDim S4096x64 ![0] bcast_S4096_S4096x64_0 v12
  let c_4 : IVec S_ 32 := constantI S_ 32 2147483648#32
  let v15 : IVec S4096x64 32 := broadcastInDim S4096x64 ![] bcast_S_S4096x64 c_4
  let v16 : IVec S4096x64 32 := select v14 v13 v15
  v16

def take_2 (arg0 : IVec S100000x64 32) (arg1 : IVec S40960 32) : IVec S40960x64 32 :=
  let c : IVec S_ 32 := constantI S_ 32 0#32
  let v0 : IVec S40960 32 := broadcastInDim S40960 ![] bcast_S_S40960 c
  let v1 : IVec S40960 1 := cmpi .slt arg1 v0
  let c_0 : IVec S_ 32 := constantI S_ 32 100000#32
  let v2 : IVec S40960 32 := broadcastInDim S40960 ![] bcast_S_S40960 c_0
  let v3 : IVec S40960 32 := addi arg1 v2
  let v4 : IVec S40960 32 := select v1 v3 arg1
  let v5 : IVec S40960x1 32 := broadcastInDim S40960x1 ![0] bcast_S40960_S40960x1_0 v4
  let c_1 : IVec S1 32 := constantI S1 32 99999#32
  let c_2 : IVec S_ 32 := constantI S_ 32 0#32
  let v6 : IVec S40960x1 32 := broadcastInDim S40960x1 ![] bcast_S_S40960x1 c_2
  let v7 : IVec S40960x1 1 := cmpi .sge v5 v6
  let v8 : IVec S1x1 32 := broadcastInDim S1x1 ![1] bcast_S1_S1x1_1 c_1
  let v9 : IVec S40960x1 32 := broadcastInDim S40960x1 ![0, 1] bcast_S1x1_S40960x1_0_1 v8
  let v10 : IVec S40960x1 1 := cmpi .sle v5 v9
  let v11 : IVec S40960x1 1 := andi v7 v10
  let c_3 : IVec S_ 1 := constantI S_ 1 1#1
  let v12 : IVec S40960 1 := (fun x v => Host.reduce IntOp.andi x v reducesTo_S40960x1_S40960_d1 h_S_) v11 c_3
  let v13 : IVec S40960x64 32 := (fun x i => Host.gather gather_S100000x64_S40960x1_S40960x64_1_0_n_n_0_1_164 x i) arg0 v5
  let v14 : IVec S40960x64 1 := broadcastInDim S40960x64 ![0] bcast_S40960_S40960x64_0 v12
  let c_4 : IVec S_ 32 := constantI S_ 32 2147483648#32
  let v15 : IVec S40960x64 32 := broadcastInDim S40960x64 ![] bcast_S_S40960x64 c_4
  let v16 : IVec S40960x64 32 := select v14 v13 v15
  v16

def keys : IVec S2x2 32 :=
  let main_c : IVec S_ 32 := constantI S_ 32 42#32
  let main_c_0 : IVec S_ 32 := constantI S_ 32 32#32
  let main_v0 : IVec S_ 32 := Host.shrui main_c main_c_0
  let main_v1 : IVec S_ 32 := id main_v0
  let main_v2 : IVec S1 32 := broadcastInDim S1 ![] bcast_S_S1 main_v1
  let main_c_1 : IVec S_ 32 := constantI S_ 32 4294967295#32
  let main_v3 : IVec S_ 32 := andi main_c main_c_1
  let main_v4 : IVec S_ 32 := id main_v3
  let main_v5 : IVec S1 32 := broadcastInDim S1 ![] bcast_S_S1 main_v4
  let main_v6 : IVec S2 32 := (fun a b => concatenate S2 0 [⟨S1, a⟩, ⟨S1, b⟩] concatenates_S1_S1_S2_d0) main_v2 main_v5
  let main_v7 : IVec S2x2 32 := threefry_split main_v6
  main_v7

def key0 : IVec S2 32 :=
  let main_v7 : IVec S2x2 32 := keys
  let main_v8 : IVec S1x2 32 := extractStridedSlice S1x2 ![0, 0] main_v7 slices_S2x2_S1x2_0_0
  let main_v9 : IVec S2 32 := shapeCast S2 main_v8 shapeCasts_S1x2_S2
  main_v9

def key1 : IVec S2 32 :=
  let main_v7 : IVec S2x2 32 := keys
  let main_v10 : IVec S1x2 32 := extractStridedSlice S1x2 ![1, 0] main_v7 slices_S2x2_S1x2_1_0
  let main_v11 : IVec S2 32 := shapeCast S2 main_v10 shapeCasts_S1x2_S2
  main_v11

def out0 (main_arg0 : IVec S4096 32) (main_arg1 : IVec S100000x64 32) : IVec S4096x10 32 :=
  let main_v12 : IVec S4096x64 32 := take main_arg1 main_arg0
  let main_v13 : IVec S64 32 := iotaInDim S64 32 0
  let main_v14 : IVec S64 32 := shuffle key0 main_v13
  let main_c_2 : IVec S_ 32 := constantI S_ 32 0#32
  let main_v15 : IVec S64 32 := broadcastInDim S64 ![] bcast_S_S64 main_c_2
  let main_v16 : IVec S64 1 := cmpi .slt main_v14 main_v15
  let main_c_3 : IVec S_ 32 := constantI S_ 32 64#32
  let main_v17 : IVec S64 32 := broadcastInDim S64 ![] bcast_S_S64 main_c_3
  let main_v18 : IVec S64 32 := addi main_v14 main_v17
  let main_v19 : IVec S64 32 := select main_v16 main_v18 main_v14
  let main_v20 : IVec S64x1 32 := broadcastInDim S64x1 ![0] bcast_S64_S64x1_0 main_v19
  let main_v21 : IVec S4096x64 32 := (fun x i => Host.gather gather_S4096x64_S64x1_S4096x64_0_1_n_n_1_1_40961 x i) main_v12 main_v20
  let main_c_4 : IVec S_ 32 := constantI S_ 32 0#32
  let main_c_5 : IVec S_ 32 := constantI S_ 32 0#32
  let main_v22 : IVec S4096x10 32 := (fun x i => Host.dynamicSlice S4096x10 x (fun k => (i k (Shape.Idx.first h_S_)).toInt) sliceFits_S4096x64_S4096x10) main_v21 ![main_c_4, main_c_5]
  main_v22

def out1 (main_arg0 : IVec S4096 32) (main_arg1 : IVec S100000x64 32) : IVec S40960x25 32 :=
  let main_v22 : IVec S4096x10 32 := out0 main_arg0 main_arg1
  let main_v23 : IVec S40960 32 := shapeCast S40960 main_v22 shapeCasts_S4096x10_S40960
  let main_v24 : IVec S40960x64 32 := take_2 main_arg1 main_v23
  let main_v25 : IVec S64 32 := iotaInDim S64 32 0
  let main_v26 : IVec S64 32 := shuffle key1 main_v25
  let main_c_6 : IVec S_ 32 := constantI S_ 32 0#32
  let main_v27 : IVec S64 32 := broadcastInDim S64 ![] bcast_S_S64 main_c_6
  let main_v28 : IVec S64 1 := cmpi .slt main_v26 main_v27
  let main_c_7 : IVec S_ 32 := constantI S_ 32 64#32
  let main_v29 : IVec S64 32 := broadcastInDim S64 ![] bcast_S_S64 main_c_7
  let main_v30 : IVec S64 32 := addi main_v26 main_v29
  let main_v31 : IVec S64 32 := select main_v28 main_v30 main_v26
  let main_v32 : IVec S64x1 32 := broadcastInDim S64x1 ![0] bcast_S64_S64x1_0 main_v31
  let main_v33 : IVec S40960x64 32 := (fun x i => Host.gather gather_S40960x64_S64x1_S40960x64_0_1_n_n_1_1_409601 x i) main_v24 main_v32
  let main_c_8 : IVec S_ 32 := constantI S_ 32 0#32
  let main_c_9 : IVec S_ 32 := constantI S_ 32 0#32
  let main_v34 : IVec S40960x25 32 := (fun x i => Host.dynamicSlice S40960x25 x (fun k => (i k (Shape.Idx.first h_S_)).toInt) sliceFits_S40960x64_S40960x25) main_v33 ![main_c_8, main_c_9]
  main_v34

end Cert.RefFn

end
-- ==== Proof.RefRunOps.lean ====
/- The reference's host functions as lines of operations: each function's body is `seq` of one list of operations (a call being the
   callee's list over the call's record), with the references the list writes. -/
import proofs.«215163_g69475390980333_cont_9to1_m_779_28_alg».proof.Proof.RefFn
import Idealize.ShloMosaic.Lib.StableHlo.Run

noncomputable section

namespace Cert.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- A list of operations together with the references it writes, in order. -/
inductive Line : List (HloOp τ sig (Elt F)) → List (Ref sig .tc) → Prop
  | nil : Line [] []
  | cons {op : HloOp τ sig (Elt F)} {ops : List (HloOp τ sig (Elt F))} {y : Ref sig .tc} {W : List (Ref sig .tc)} :
      op.bufs ⊆ tcRefs τ sig → op.fresh = ∅ → op.writes = {Proc.devRef .tc y} → Line ops W → Line (op :: ops) (y :: W)

namespace Line

variable {ops l₁ l₂ : List (HloOp τ sig (Elt F))} {W W₁ W₂ : List (Ref sig .tc)}

theorem append (h₁ : Line l₁ W₁) (h₂ : Line l₂ W₂) : Line (l₁ ++ l₂) (W₁ ++ W₂) := by
  induction h₁ with
  | nil => exact h₂
  | cons hb hf hw _ ih => exact .cons hb hf hw ih

theorem good (h : Line ops W) : ∀ op ∈ ops, op.bufs ⊆ tcRefs τ sig ∧ op.fresh = ∅ := by
  induction h with
  | nil => intro _ h; cases h
  | cons hb hf _ _ ih =>
    intro o ho
    rcases List.mem_cons.mp ho with rfl | ho
    exacts [⟨hb, hf⟩, ih o ho]

theorem writes_sub (h : Line ops W) : ∀ op ∈ ops, op.writes ⊆ (W.map (Proc.devRef (τ := τ) .tc)).toFinset := by
  induction h with
  | nil => intro _ h; cases h
  | cons _ _ hw _ ih =>
    intro o ho b hb
    rcases List.mem_cons.mp ho with rfl | ho
    · rw [hw, Finset.mem_singleton] at hb
      exact List.mem_toFinset.mpr (hb ▸ List.mem_cons_self ..)
    · exact List.mem_toFinset.mpr (List.mem_cons_of_mem _ (List.mem_toFinset.mp (ih o ho hb)))

/-- A reference that is not in `W` keeps its contents across the line. -/
theorem frame (h : Line ops W) {r : Ref sig .tc} (hr : r ∉ W) (V : Valuation τ sig (Elt F)) :
    after ops V (no_index (Proc.devRef .tc r)) = V (Proc.devRef .tc r) :=
  after_of_writes_sub ops V (List.forall_iff_forall_mem.mpr h.writes_sub) hr

theorem nullary {y : Ref sig .tc} {v : y.ty.Contents (Elt F)} {hy} (t : Line ops W) :
    Line (StableHlo.nullary (τ := τ) y v hy :: ops) (y :: W) := .cons (nullary_bufs_sub ..) rfl (nullary_writes ..) t
theorem unary {x y : Ref sig .tc} {f : x.ty.Contents (Elt F) → y.ty.Contents (Elt F)} {hx hy} (t : Line ops W) :
    Line (StableHlo.unary (τ := τ) x y f hx hy :: ops) (y :: W) := .cons (unary_bufs_sub ..) rfl (unary_writes ..) t
theorem binary {a b y : Ref sig .tc} {f : a.ty.Contents (Elt F) → b.ty.Contents (Elt F) → y.ty.Contents (Elt F)} {ha hb hy}
    (t : Line ops W) : Line (StableHlo.binary (τ := τ) a b y f ha hb hy :: ops) (y :: W) :=
  .cons (binary_bufs_sub ..) rfl (binary_writes ..) t
theorem ternary {c a b y : Ref sig .tc}
    {f : c.ty.Contents (Elt F) → a.ty.Contents (Elt F) → b.ty.Contents (Elt F) → y.ty.Contents (Elt F)} {hc ha hb hy}
    (t : Line ops W) : Line (StableHlo.ternary (τ := τ) c a b y f hc ha hb hy :: ops) (y :: W) :=
  .cons (ternary_bufs_sub ..) rfl (ternary_writes ..) t
theorem reshape {x y : Ref sig .tc} {he hn hx hy} (t : Line ops W) :
    Line (StableHlo.reshape (τ := τ) (Val := Elt F) x y he hn hx hy :: ops) (y :: W) :=
  .cons (reshape_bufs_sub ..) rfl (reshape_writes ..) t
theorem unaryIndexed {a y : Ref sig .tc} {n : ℕ} {ix : Fin n → Ref sig .tc} {T : BufTy}
    {f : a.ty.Contents (Elt F) → (Fin n → T.Contents (Elt F)) → y.ty.Contents (Elt F)} {hT ha hix hy} (t : Line ops W) :
    Line (StableHlo.unaryIndexed (τ := τ) a ix T y f hT ha hix hy :: ops) (y :: W) :=
  .cons (unaryIndexed_bufs_sub ..) rfl (unaryIndexed_writes ..) t

end Line

/-- A list cut at three places and put together again. -/
theorem take_drop3 {α : Type} (l : List α) (a b c : ℕ) :
    l.take a ++ ((l.drop a).take b ++ (((l.drop a).drop b).take c ++ ((l.drop a).drop b).drop c)) = l := by
  rw [List.take_append_drop, List.take_append_drop, List.take_append_drop]

theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

theorem unaryIndexed2_result {a y i0 i1 : Ref sig .tc} (T : BufTy)
    (f : a.ty.Contents (Elt F) → (Fin 2 → T.Contents (Elt F)) → y.ty.Contents (Elt F)) (hT ha hix hy) (V : Valuation τ sig (Elt F)) :
    (unaryIndexed (τ := τ) a ![i0, i1] T y f hT ha hix hy).result V (Proc.devRef .tc y)
      = f (V (Proc.devRef .tc a)) ![cast (congrArg (fun U : BufTy => U.Contents (Elt F)) (hT 0)) (V (Proc.devRef .tc i0)),
          cast (congrArg (fun U : BufTy => U.Contents (Elt F)) (hT 1)) (V (Proc.devRef .tc i1))] := by
  rw [unaryIndexed_result]; congr 1; funext k; fin_cases k <;> rfl

theorem unaryIndexed2_result' {a y i0 i1 : Ref sig .tc} (T : BufTy)
    (f : a.ty.Contents (Elt F) → (Fin 2 → T.Contents (Elt F)) → y.ty.Contents (Elt F)) (hT ha hix hy) (V : Valuation τ sig (Elt F)) :
    (unaryIndexed (τ := τ) a ![i0, i1] T y f hT ha hix hy).result V (no_index (Proc.devRef .tc y))
      = f (V (Proc.devRef .tc a)) ![cast (congrArg (fun U : BufTy => U.Contents (Elt F)) (hT 0)) (V (Proc.devRef .tc i0)),
          cast (congrArg (fun U : BufTy => U.Contents (Elt F)) (hT 1)) (V (Proc.devRef .tc i1))] :=
  unaryIndexed2_result T f hT ha hix hy V

def tfC0 (arg0 arg1 : StableHlo.TRef sig ⟨S_, .i32⟩) (arg2 arg3 : StableHlo.TRef sig ⟨S2, .i32⟩) (φ : fn_threefry2x32.Bufs) : List (HloOp τ sig (Elt F)) :=
  [ StableHlo.TRef.binary arg0 arg1 φ.v0 xori,
    StableHlo.TRef.nullary φ.c (constantI S_ 32 466688986#32),
    StableHlo.TRef.binary φ.v0 φ.c φ.v1 xori,
    StableHlo.TRef.unary arg0 φ.v2 (broadcastInDim S2 ![] bcast_S_S2),
    StableHlo.TRef.binary arg2 φ.v2 φ.v3 addi,
    StableHlo.TRef.unary arg1 φ.v4 (broadcastInDim S2 ![] bcast_S_S2),
    StableHlo.TRef.binary arg3 φ.v4 φ.v5 addi,
    StableHlo.TRef.binary φ.v3 φ.v5 φ.v6 addi,
    StableHlo.TRef.nullary φ.c_0 (constantI S_ 32 13#32),
    StableHlo.TRef.unary φ.c_0 φ.v7 (broadcastInDim S2 ![] bcast_S_S2),
    StableHlo.TRef.binary φ.v5 φ.v7 φ.v8 Host.shli,
    StableHlo.TRef.nullary φ.c_1 (constantI S_ 32 19#32),
    StableHlo.TRef.unary φ.c_1 φ.v9 (broadcastInDim S2 ![] bcast_S_S2),
    StableHlo.TRef.binary φ.v5 φ.v9 φ.v10 Host.shrui,
    StableHlo.TRef.binary φ.v8 φ.v10 φ.v11 ori,
    StableHlo.TRef.binary φ.v6 φ.v11 φ.v12 xori,
    StableHlo.TRef.binary φ.v6 φ.v12 φ.v13 addi,
    StableHlo.TRef.nullary φ.c_2 (constantI S_ 32 15#32),
    StableHlo.TRef.unary φ.c_2 φ.v14 (broadcastInDim S2 ![] bcast_S_S2),
    StableHlo.TRef.binary φ.v12 φ.v14 φ.v15 Host.shli,
    StableHlo.TRef.nullary φ.c_3 (constantI S_ 32 17#32),
    StableHlo.TRef.unary φ.c_3 φ.v16 (broadcastInDim S2 ![] bcast_S_S2),
    StableHlo.TRef.binary φ.v12 φ.v16 φ.v17 Host.shrui,
    StableHlo.TRef.binary φ.v15 φ.v17 φ.v18 ori ]

def tfCw0 (φ : fn_threefry2x32.Bufs) : List (Ref sig .tc) :=
  [φ.v0.ref, φ.c.ref, φ.v1.ref, φ.v2.ref, φ.v3.ref, φ.v4.ref, φ.v5.ref, φ.v6.ref, φ.c_0.ref, φ.v7.ref, φ.v8.ref, φ.c_1.ref, φ.v9.ref, φ.v10.ref, φ.v11.ref, φ.v12.ref, φ.v13.ref, φ.c_2.ref, φ.v14.ref, φ.v15.ref, φ.c_3.ref, φ.v16.ref, φ.v17.ref, φ.v18.ref]

def tfC1 (arg0 arg1 : StableHlo.TRef sig ⟨S_, .i32⟩) (arg2 arg3 : StableHlo.TRef sig ⟨S2, .i32⟩) (φ : fn_threefry2x32.Bufs) : List (HloOp τ sig (Elt F)) :=
  [ StableHlo.TRef.binary φ.v13 φ.v18 φ.v19 xori,
    StableHlo.TRef.binary φ.v13 φ.v19 φ.v20 addi,
    StableHlo.TRef.nullary φ.c_4 (constantI S_ 32 26#32),
    StableHlo.TRef.unary φ.c_4 φ.v21 (broadcastInDim S2 ![] bcast_S_S2),
    StableHlo.TRef.binary φ.v19 φ.v21 φ.v22 Host.shli,
    StableHlo.TRef.nullary φ.c_5 (constantI S_ 32 6#32),
    StableHlo.TRef.unary φ.c_5 φ.v23 (broadcastInDim S2 ![] bcast_S_S2),
    StableHlo.TRef.binary φ.v19 φ.v23 φ.v24 Host.shrui,
    StableHlo.TRef.binary φ.v22 φ.v24 φ.v25 ori,
    StableHlo.TRef.binary φ.v20 φ.v25 φ.v26 xori,
    StableHlo.TRef.binary φ.v20 φ.v26 φ.v27 addi,
    StableHlo.TRef.nullary φ.c_6 (constantI S_ 32 6#32),
    StableHlo.TRef.unary φ.c_6 φ.v28 (broadcastInDim S2 ![] bcast_S_S2),
    StableHlo.TRef.binary φ.v26 φ.v28 φ.v29 Host.shli,
    StableHlo.TRef.nullary φ.c_7 (constantI S_ 32 26#32),
    StableHlo.TRef.unary φ.c_7 φ.v30 (broadcastInDim S2 ![] bcast_S_S2),
    StableHlo.TRef.binary φ.v26 φ.v30 φ.v31 Host.shrui,
    StableHlo.TRef.binary φ.v29 φ.v31 φ.v32 ori,
    StableHlo.TRef.binary φ.v27 φ.v32 φ.v33 xori,
    StableHlo.TRef.unary arg1 φ.v34 (broadcastInDim S2 ![] bcast_S_S2),
    StableHlo.TRef.binary φ.v27 φ.v34 φ.v35 addi,
    StableHlo.TRef.unary φ.v1 φ.v36 (broadcastInDim S2 ![] bcast_S_S2),
    StableHlo.TRef.binary φ.v33 φ.v36 φ.v37 addi,
    StableHlo.TRef.nullary φ.c_8 (constantI S_ 32 1#32) ]

def tfCw1 (φ : fn_threefry2x32.Bufs) : List (Ref sig .tc) :=
  [φ.v19.ref, φ.v20.ref, φ.c_4.ref, φ.v21.ref, φ.v22.ref, φ.c_5.ref, φ.v23.ref, φ.v24.ref, φ.v25.ref, φ.v26.ref, φ.v27.ref, φ.c_6.ref, φ.v28.ref, φ.v29.ref, φ.c_7.ref, φ.v30.ref, φ.v31.ref, φ.v32.ref, φ.v33.ref, φ.v34.ref, φ.v35.ref, φ.v36.ref, φ.v37.ref, φ.c_8.ref]

def tfC2 (arg0 arg1 : StableHlo.TRef sig ⟨S_, .i32⟩) (arg2 arg3 : StableHlo.TRef sig ⟨S2, .i32⟩) (φ : fn_threefry2x32.Bufs) : List (HloOp τ sig (Elt F)) :=
  [ StableHlo.TRef.unary φ.c_8 φ.v38 (broadcastInDim S2 ![] bcast_S_S2),
    StableHlo.TRef.binary φ.v37 φ.v38 φ.v39 addi,
    StableHlo.TRef.binary φ.v35 φ.v39 φ.v40 addi,
    StableHlo.TRef.nullary φ.c_9 (constantI S_ 32 17#32),
    StableHlo.TRef.unary φ.c_9 φ.v41 (broadcastInDim S2 ![] bcast_S_S2),
    StableHlo.TRef.binary φ.v39 φ.v41 φ.v42 Host.shli,
    StableHlo.TRef.nullary φ.c_10 (constantI S_ 32 15#32),
    StableHlo.TRef.unary φ.c_10 φ.v43 (broadcastInDim S2 ![] bcast_S_S2),
    StableHlo.TRef.binary φ.v39 φ.v43 φ.v44 Host.shrui,
    StableHlo.TRef.binary φ.v42 φ.v44 φ.v45 ori,
    StableHlo.TRef.binary φ.v40 φ.v45 φ.v46 xori,
    StableHlo.TRef.binary φ.v40 φ.v46 φ.v47 addi,
    StableHlo.TRef.nullary φ.c_11 (constantI S_ 32 29#32),
    StableHlo.TRef.unary φ.c_11 φ.v48 (broadcastInDim S2 ![] bcast_S_S2),
    StableHlo.TRef.binary φ.v46 φ.v48 φ.v49 Host.shli,
    StableHlo.TRef.nullary φ.c_12 (constantI S_ 32 3#32),
    StableHlo.TRef.unary φ.c_12 φ.v50 (broadcastInDim S2 ![] bcast_S_S2),
    StableHlo.TRef.binary φ.v46 φ.v50 φ.v51 Host.shrui,
    StableHlo.TRef.binary φ.v49 φ.v51 φ.v52 ori,
    StableHlo.TRef.binary φ.v47 φ.v52 φ.v53 xori,
    StableHlo.TRef.binary φ.v47 φ.v53 φ.v54 addi,
    StableHlo.TRef.nullary φ.c_13 (constantI S_ 32 16#32),
    StableHlo.TRef.unary φ.c_13 φ.v55 (broadcastInDim S2 ![] bcast_S_S2),
    StableHlo.TRef.binary φ.v53 φ.v55 φ.v56 Host.shli ]

def tfCw2 (φ : fn_threefry2x32.Bufs) : List (Ref sig .tc) :=
  [φ.v38.ref, φ.v39.ref, φ.v40.ref, φ.c_9.ref, φ.v41.ref, φ.v42.ref, φ.c_10.ref, φ.v43.ref, φ.v44.ref, φ.v45.ref, φ.v46.ref, φ.v47.ref, φ.c_11.ref, φ.v48.ref, φ.v49.ref, φ.c_12.ref, φ.v50.ref, φ.v51.ref, φ.v52.ref, φ.v53.ref, φ.v54.ref, φ.c_13.ref, φ.v55.ref, φ.v56.ref]

def tfC3 (arg0 arg1 : StableHlo.TRef sig ⟨S_, .i32⟩) (arg2 arg3 : StableHlo.TRef sig ⟨S2, .i32⟩) (φ : fn_threefry2x32.Bufs) : List (HloOp τ sig (Elt F)) :=
  [ StableHlo.TRef.nullary φ.c_14 (constantI S_ 32 16#32),
    StableHlo.TRef.unary φ.c_14 φ.v57 (broadcastInDim S2 ![] bcast_S_S2),
    StableHlo.TRef.binary φ.v53 φ.v57 φ.v58 Host.shrui,
    StableHlo.TRef.binary φ.v56 φ.v58 φ.v59 ori,
    StableHlo.TRef.binary φ.v54 φ.v59 φ.v60 xori,
    StableHlo.TRef.binary φ.v54 φ.v60 φ.v61 addi,
    StableHlo.TRef.nullary φ.c_15 (constantI S_ 32 24#32),
    StableHlo.TRef.unary φ.c_15 φ.v62 (broadcastInDim S2 ![] bcast_S_S2),
    StableHlo.TRef.binary φ.v60 φ.v62 φ.v63 Host.shli,
    StableHlo.TRef.nullary φ.c_16 (constantI S_ 32 8#32),
    StableHlo.TRef.unary φ.c_16 φ.v64 (broadcastInDim S2 ![] bcast_S_S2),
    StableHlo.TRef.binary φ.v60 φ.v64 φ.v65 Host.shrui,
    StableHlo.TRef.binary φ.v63 φ.v65 φ.v66 ori,
    StableHlo.TRef.binary φ.v61 φ.v66 φ.v67 xori,
    StableHlo.TRef.unary φ.v1 φ.v68 (broadcastInDim S2 ![] bcast_S_S2),
    StableHlo.TRef.binary φ.v61 φ.v68 φ.v69 addi,
    StableHlo.TRef.unary arg0 φ.v70 (broadcastInDim S2 ![] bcast_S_S2),
    StableHlo.TRef.binary φ.v67 φ.v70 φ.v71 addi,
    StableHlo.TRef.nullary φ.c_17 (constantI S_ 32 2#32),
    StableHlo.TRef.unary φ.c_17 φ.v72 (broadcastInDim S2 ![] bcast_S_S2),
    StableHlo.TRef.binary φ.v71 φ.v72 φ.v73 addi,
    StableHlo.TRef.binary φ.v69 φ.v73 φ.v74 addi,
    StableHlo.TRef.nullary φ.c_18 (constantI S_ 32 13#32),
    StableHlo.TRef.unary φ.c_18 φ.v75 (broadcastInDim S2 ![] bcast_S_S2) ]

def tfCw3 (φ : fn_threefry2x32.Bufs) : List (Ref sig .tc) :=
  [φ.c_14.ref, φ.v57.ref, φ.v58.ref, φ.v59.ref, φ.v60.ref, φ.v61.ref, φ.c_15.ref, φ.v62.ref, φ.v63.ref, φ.c_16.ref, φ.v64.ref, φ.v65.ref, φ.v66.ref, φ.v67.ref, φ.v68.ref, φ.v69.ref, φ.v70.ref, φ.v71.ref, φ.c_17.ref, φ.v72.ref, φ.v73.ref, φ.v74.ref, φ.c_18.ref, φ.v75.ref]

def tfC4 (arg0 arg1 : StableHlo.TRef sig ⟨S_, .i32⟩) (arg2 arg3 : StableHlo.TRef sig ⟨S2, .i32⟩) (φ : fn_threefry2x32.Bufs) : List (HloOp τ sig (Elt F)) :=
  [ StableHlo.TRef.binary φ.v73 φ.v75 φ.v76 Host.shli,
    StableHlo.TRef.nullary φ.c_19 (constantI S_ 32 19#32),
    StableHlo.TRef.unary φ.c_19 φ.v77 (broadcastInDim S2 ![] bcast_S_S2),
    StableHlo.TRef.binary φ.v73 φ.v77 φ.v78 Host.shrui,
    StableHlo.TRef.binary φ.v76 φ.v78 φ.v79 ori,
    StableHlo.TRef.binary φ.v74 φ.v79 φ.v80 xori,
    StableHlo.TRef.binary φ.v74 φ.v80 φ.v81 addi,
    StableHlo.TRef.nullary φ.c_20 (constantI S_ 32 15#32),
    StableHlo.TRef.unary φ.c_20 φ.v82 (broadcastInDim S2 ![] bcast_S_S2),
    StableHlo.TRef.binary φ.v80 φ.v82 φ.v83 Host.shli,
    StableHlo.TRef.nullary φ.c_21 (constantI S_ 32 17#32),
    StableHlo.TRef.unary φ.c_21 φ.v84 (broadcastInDim S2 ![] bcast_S_S2),
    StableHlo.TRef.binary φ.v80 φ.v84 φ.v85 Host.shrui,
    StableHlo.TRef.binary φ.v83 φ.v85 φ.v86 ori,
    StableHlo.TRef.binary φ.v81 φ.v86 φ.v87 xori,
    StableHlo.TRef.binary φ.v81 φ.v87 φ.v88 addi,
    StableHlo.TRef.nullary φ.c_22 (constantI S_ 32 26#32),
    StableHlo.TRef.unary φ.c_22 φ.v89 (broadcastInDim S2 ![] bcast_S_S2),
    StableHlo.TRef.binary φ.v87 φ.v89 φ.v90 Host.shli,
    StableHlo.TRef.nullary φ.c_23 (constantI S_ 32 6#32),
    StableHlo.TRef.unary φ.c_23 φ.v91 (broadcastInDim S2 ![] bcast_S_S2),
    StableHlo.TRef.binary φ.v87 φ.v91 φ.v92 Host.shrui,
    StableHlo.TRef.binary φ.v90 φ.v92 φ.v93 ori,
    StableHlo.TRef.binary φ.v88 φ.v93 φ.v94 xori ]

def tfCw4 (φ : fn_threefry2x32.Bufs) : List (Ref sig .tc) :=
  [φ.v76.ref, φ.c_19.ref, φ.v77.ref, φ.v78.ref, φ.v79.ref, φ.v80.ref, φ.v81.ref, φ.c_20.ref, φ.v82.ref, φ.v83.ref, φ.c_21.ref, φ.v84.ref, φ.v85.ref, φ.v86.ref, φ.v87.ref, φ.v88.ref, φ.c_22.ref, φ.v89.ref, φ.v90.ref, φ.c_23.ref, φ.v91.ref, φ.v92.ref, φ.v93.ref, φ.v94.ref]

def tfC5 (arg0 arg1 : StableHlo.TRef sig ⟨S_, .i32⟩) (arg2 arg3 : StableHlo.TRef sig ⟨S2, .i32⟩) (φ : fn_threefry2x32.Bufs) : List (HloOp τ sig (Elt F)) :=
  [ StableHlo.TRef.binary φ.v88 φ.v94 φ.v95 addi,
    StableHlo.TRef.nullary φ.c_24 (constantI S_ 32 6#32),
    StableHlo.TRef.unary φ.c_24 φ.v96 (broadcastInDim S2 ![] bcast_S_S2),
    StableHlo.TRef.binary φ.v94 φ.v96 φ.v97 Host.shli,
    StableHlo.TRef.nullary φ.c_25 (constantI S_ 32 26#32),
    StableHlo.TRef.unary φ.c_25 φ.v98 (broadcastInDim S2 ![] bcast_S_S2),
    StableHlo.TRef.binary φ.v94 φ.v98 φ.v99 Host.shrui,
    StableHlo.TRef.binary φ.v97 φ.v99 φ.v100 ori,
    StableHlo.TRef.binary φ.v95 φ.v100 φ.v101 xori,
    StableHlo.TRef.unary arg0 φ.v102 (broadcastInDim S2 ![] bcast_S_S2),
    StableHlo.TRef.binary φ.v95 φ.v102 φ.v103 addi,
    StableHlo.TRef.unary arg1 φ.v104 (broadcastInDim S2 ![] bcast_S_S2),
    StableHlo.TRef.binary φ.v101 φ.v104 φ.v105 addi,
    StableHlo.TRef.nullary φ.c_26 (constantI S_ 32 3#32),
    StableHlo.TRef.unary φ.c_26 φ.v106 (broadcastInDim S2 ![] bcast_S_S2),
    StableHlo.TRef.binary φ.v105 φ.v106 φ.v107 addi,
    StableHlo.TRef.binary φ.v103 φ.v107 φ.v108 addi,
    StableHlo.TRef.nullary φ.c_27 (constantI S_ 32 17#32),
    StableHlo.TRef.unary φ.c_27 φ.v109 (broadcastInDim S2 ![] bcast_S_S2),
    StableHlo.TRef.binary φ.v107 φ.v109 φ.v110 Host.shli,
    StableHlo.TRef.nullary φ.c_28 (constantI S_ 32 15#32),
    StableHlo.TRef.unary φ.c_28 φ.v111 (broadcastInDim S2 ![] bcast_S_S2),
    StableHlo.TRef.binary φ.v107 φ.v111 φ.v112 Host.shrui,
    StableHlo.TRef.binary φ.v110 φ.v112 φ.v113 ori ]

def tfCw5 (φ : fn_threefry2x32.Bufs) : List (Ref sig .tc) :=
  [φ.v95.ref, φ.c_24.ref, φ.v96.ref, φ.v97.ref, φ.c_25.ref, φ.v98.ref, φ.v99.ref, φ.v100.ref, φ.v101.ref, φ.v102.ref, φ.v103.ref, φ.v104.ref, φ.v105.ref, φ.c_26.ref, φ.v106.ref, φ.v107.ref, φ.v108.ref, φ.c_27.ref, φ.v109.ref, φ.v110.ref, φ.c_28.ref, φ.v111.ref, φ.v112.ref, φ.v113.ref]

def tfC6 (arg0 arg1 : StableHlo.TRef sig ⟨S_, .i32⟩) (arg2 arg3 : StableHlo.TRef sig ⟨S2, .i32⟩) (φ : fn_threefry2x32.Bufs) : List (HloOp τ sig (Elt F)) :=
  [ StableHlo.TRef.binary φ.v108 φ.v113 φ.v114 xori,
    StableHlo.TRef.binary φ.v108 φ.v114 φ.v115 addi,
    StableHlo.TRef.nullary φ.c_29 (constantI S_ 32 29#32),
    StableHlo.TRef.unary φ.c_29 φ.v116 (broadcastInDim S2 ![] bcast_S_S2),
    StableHlo.TRef.binary φ.v114 φ.v116 φ.v117 Host.shli,
    StableHlo.TRef.nullary φ.c_30 (constantI S_ 32 3#32),
    StableHlo.TRef.unary φ.c_30 φ.v118 (broadcastInDim S2 ![] bcast_S_S2),
    StableHlo.TRef.binary φ.v114 φ.v118 φ.v119 Host.shrui,
    StableHlo.TRef.binary φ.v117 φ.v119 φ.v120 ori,
    StableHlo.TRef.binary φ.v115 φ.v120 φ.v121 xori,
    StableHlo.TRef.binary φ.v115 φ.v121 φ.v122 addi,
    StableHlo.TRef.nullary φ.c_31 (constantI S_ 32 16#32),
    StableHlo.TRef.unary φ.c_31 φ.v123 (broadcastInDim S2 ![] bcast_S_S2),
    StableHlo.TRef.binary φ.v121 φ.v123 φ.v124 Host.shli,
    StableHlo.TRef.nullary φ.c_32 (constantI S_ 32 16#32),
    StableHlo.TRef.unary φ.c_32 φ.v125 (broadcastInDim S2 ![] bcast_S_S2),
    StableHlo.TRef.binary φ.v121 φ.v125 φ.v126 Host.shrui,
    StableHlo.TRef.binary φ.v124 φ.v126 φ.v127 ori,
    StableHlo.TRef.binary φ.v122 φ.v127 φ.v128 xori,
    StableHlo.TRef.binary φ.v122 φ.v128 φ.v129 addi,
    StableHlo.TRef.nullary φ.c_33 (constantI S_ 32 24#32),
    StableHlo.TRef.unary φ.c_33 φ.v130 (broadcastInDim S2 ![] bcast_S_S2),
    StableHlo.TRef.binary φ.v128 φ.v130 φ.v131 Host.shli,
    StableHlo.TRef.nullary φ.c_34 (constantI S_ 32 8#32) ]

def tfCw6 (φ : fn_threefry2x32.Bufs) : List (Ref sig .tc) :=
  [φ.v114.ref, φ.v115.ref, φ.c_29.ref, φ.v116.ref, φ.v117.ref, φ.c_30.ref, φ.v118.ref, φ.v119.ref, φ.v120.ref, φ.v121.ref, φ.v122.ref, φ.c_31.ref, φ.v123.ref, φ.v124.ref, φ.c_32.ref, φ.v125.ref, φ.v126.ref, φ.v127.ref, φ.v128.ref, φ.v129.ref, φ.c_33.ref, φ.v130.ref, φ.v131.ref, φ.c_34.ref]

def tfC7 (arg0 arg1 : StableHlo.TRef sig ⟨S_, .i32⟩) (arg2 arg3 : StableHlo.TRef sig ⟨S2, .i32⟩) (φ : fn_threefry2x32.Bufs) : List (HloOp τ sig (Elt F)) :=
  [ StableHlo.TRef.unary φ.c_34 φ.v132 (broadcastInDim S2 ![] bcast_S_S2),
    StableHlo.TRef.binary φ.v128 φ.v132 φ.v133 Host.shrui,
    StableHlo.TRef.binary φ.v131 φ.v133 φ.v134 ori,
    StableHlo.TRef.binary φ.v129 φ.v134 φ.v135 xori,
    StableHlo.TRef.unary arg1 φ.v136 (broadcastInDim S2 ![] bcast_S_S2),
    StableHlo.TRef.binary φ.v129 φ.v136 φ.v137 addi,
    StableHlo.TRef.unary φ.v1 φ.v138 (broadcastInDim S2 ![] bcast_S_S2),
    StableHlo.TRef.binary φ.v135 φ.v138 φ.v139 addi,
    StableHlo.TRef.nullary φ.c_35 (constantI S_ 32 4#32),
    StableHlo.TRef.unary φ.c_35 φ.v140 (broadcastInDim S2 ![] bcast_S_S2),
    StableHlo.TRef.binary φ.v139 φ.v140 φ.v141 addi,
    StableHlo.TRef.binary φ.v137 φ.v141 φ.v142 addi,
    StableHlo.TRef.nullary φ.c_36 (constantI S_ 32 13#32),
    StableHlo.TRef.unary φ.c_36 φ.v143 (broadcastInDim S2 ![] bcast_S_S2),
    StableHlo.TRef.binary φ.v141 φ.v143 φ.v144 Host.shli,
    StableHlo.TRef.nullary φ.c_37 (constantI S_ 32 19#32),
    StableHlo.TRef.unary φ.c_37 φ.v145 (broadcastInDim S2 ![] bcast_S_S2),
    StableHlo.TRef.binary φ.v141 φ.v145 φ.v146 Host.shrui,
    StableHlo.TRef.binary φ.v144 φ.v146 φ.v147 ori,
    StableHlo.TRef.binary φ.v142 φ.v147 φ.v148 xori,
    StableHlo.TRef.binary φ.v142 φ.v148 φ.v149 addi,
    StableHlo.TRef.nullary φ.c_38 (constantI S_ 32 15#32),
    StableHlo.TRef.unary φ.c_38 φ.v150 (broadcastInDim S2 ![] bcast_S_S2),
    StableHlo.TRef.binary φ.v148 φ.v150 φ.v151 Host.shli ]

def tfCw7 (φ : fn_threefry2x32.Bufs) : List (Ref sig .tc) :=
  [φ.v132.ref, φ.v133.ref, φ.v134.ref, φ.v135.ref, φ.v136.ref, φ.v137.ref, φ.v138.ref, φ.v139.ref, φ.c_35.ref, φ.v140.ref, φ.v141.ref, φ.v142.ref, φ.c_36.ref, φ.v143.ref, φ.v144.ref, φ.c_37.ref, φ.v145.ref, φ.v146.ref, φ.v147.ref, φ.v148.ref, φ.v149.ref, φ.c_38.ref, φ.v150.ref, φ.v151.ref]

def tfC8 (arg0 arg1 : StableHlo.TRef sig ⟨S_, .i32⟩) (arg2 arg3 : StableHlo.TRef sig ⟨S2, .i32⟩) (φ : fn_threefry2x32.Bufs) : List (HloOp τ sig (Elt F)) :=
  [ StableHlo.TRef.nullary φ.c_39 (constantI S_ 32 17#32),
    StableHlo.TRef.unary φ.c_39 φ.v152 (broadcastInDim S2 ![] bcast_S_S2),
    StableHlo.TRef.binary φ.v148 φ.v152 φ.v153 Host.shrui,
    StableHlo.TRef.binary φ.v151 φ.v153 φ.v154 ori,
    StableHlo.TRef.binary φ.v149 φ.v154 φ.v155 xori,
    StableHlo.TRef.binary φ.v149 φ.v155 φ.v156 addi,
    StableHlo.TRef.nullary φ.c_40 (constantI S_ 32 26#32),
    StableHlo.TRef.unary φ.c_40 φ.v157 (broadcastInDim S2 ![] bcast_S_S2),
    StableHlo.TRef.binary φ.v155 φ.v157 φ.v158 Host.shli,
    StableHlo.TRef.nullary φ.c_41 (constantI S_ 32 6#32),
    StableHlo.TRef.unary φ.c_41 φ.v159 (broadcastInDim S2 ![] bcast_S_S2),
    StableHlo.TRef.binary φ.v155 φ.v159 φ.v160 Host.shrui,
    StableHlo.TRef.binary φ.v158 φ.v160 φ.v161 ori,
    StableHlo.TRef.binary φ.v156 φ.v161 φ.v162 xori,
    StableHlo.TRef.binary φ.v156 φ.v162 φ.v163 addi,
    StableHlo.TRef.nullary φ.c_42 (constantI S_ 32 6#32),
    StableHlo.TRef.unary φ.c_42 φ.v164 (broadcastInDim S2 ![] bcast_S_S2),
    StableHlo.TRef.binary φ.v162 φ.v164 φ.v165 Host.shli,
    StableHlo.TRef.nullary φ.c_43 (constantI S_ 32 26#32),
    StableHlo.TRef.unary φ.c_43 φ.v166 (broadcastInDim S2 ![] bcast_S_S2),
    StableHlo.TRef.binary φ.v162 φ.v166 φ.v167 Host.shrui,
    StableHlo.TRef.binary φ.v165 φ.v167 φ.v168 ori,
    StableHlo.TRef.binary φ.v163 φ.v168 φ.v169 xori,
    StableHlo.TRef.unary φ.v1 φ.v170 (broadcastInDim S2 ![] bcast_S_S2) ]

def tfCw8 (φ : fn_threefry2x32.Bufs) : List (Ref sig .tc) :=
  [φ.c_39.ref, φ.v152.ref, φ.v153.ref, φ.v154.ref, φ.v155.ref, φ.v156.ref, φ.c_40.ref, φ.v157.ref, φ.v158.ref, φ.c_41.ref, φ.v159.ref, φ.v160.ref, φ.v161.ref, φ.v162.ref, φ.v163.ref, φ.c_42.ref, φ.v164.ref, φ.v165.ref, φ.c_43.ref, φ.v166.ref, φ.v167.ref, φ.v168.ref, φ.v169.ref, φ.v170.ref]

def tfC9 (arg0 arg1 : StableHlo.TRef sig ⟨S_, .i32⟩) (arg2 arg3 : StableHlo.TRef sig ⟨S2, .i32⟩) (φ : fn_threefry2x32.Bufs) : List (HloOp τ sig (Elt F)) :=
  [ StableHlo.TRef.binary φ.v163 φ.v170 φ.v171 addi,
    StableHlo.TRef.unary arg0 φ.v172 (broadcastInDim S2 ![] bcast_S_S2),
    StableHlo.TRef.binary φ.v169 φ.v172 φ.v173 addi,
    StableHlo.TRef.nullary φ.c_44 (constantI S_ 32 5#32),
    StableHlo.TRef.unary φ.c_44 φ.v174 (broadcastInDim S2 ![] bcast_S_S2),
    StableHlo.TRef.binary φ.v173 φ.v174 φ.v175 addi ]

def tfCw9 (φ : fn_threefry2x32.Bufs) : List (Ref sig .tc) :=
  [φ.v171.ref, φ.v172.ref, φ.v173.ref, φ.c_44.ref, φ.v174.ref, φ.v175.ref]

def tfOps (arg0 arg1 : StableHlo.TRef sig ⟨S_, .i32⟩) (arg2 arg3 : StableHlo.TRef sig ⟨S2, .i32⟩) (φ : fn_threefry2x32.Bufs) : List (HloOp τ sig (Elt F)) :=
  tfC0 arg0 arg1 arg2 arg3 φ ++ (tfC1 arg0 arg1 arg2 arg3 φ ++ (tfC2 arg0 arg1 arg2 arg3 φ ++ (tfC3 arg0 arg1 arg2 arg3 φ ++ (tfC4 arg0 arg1 arg2 arg3 φ ++ (tfC5 arg0 arg1 arg2 arg3 φ ++ (tfC6 arg0 arg1 arg2 arg3 φ ++ (tfC7 arg0 arg1 arg2 arg3 φ ++ (tfC8 arg0 arg1 arg2 arg3 φ ++ (tfC9 arg0 arg1 arg2 arg3 φ)))))))))

def tfWr (φ : fn_threefry2x32.Bufs) : List (Ref sig .tc) :=
  tfCw0 φ ++ (tfCw1 φ ++ (tfCw2 φ ++ (tfCw3 φ ++ (tfCw4 φ ++ (tfCw5 φ ++ (tfCw6 φ ++ (tfCw7 φ ++ (tfCw8 φ ++ (tfCw9 φ)))))))))

theorem tfOps_line (arg0 arg1 : StableHlo.TRef sig ⟨S_, .i32⟩) (arg2 arg3 : StableHlo.TRef sig ⟨S2, .i32⟩) (φ : fn_threefry2x32.Bufs) : Line (tfOps (F := F) arg0 arg1 arg2 arg3 φ) (tfWr φ) := by
  unfold tfOps tfWr tfC0 tfC1 tfC2 tfC3 tfC4 tfC5 tfC6 tfC7 tfC8 tfC9 tfCw0 tfCw1 tfCw2 tfCw3 tfCw4 tfCw5 tfCw6 tfCw7 tfCw8 tfCw9
  repeat first | exact .nil | apply Line.append | apply Line.binary | apply Line.unary | apply Line.nullary | apply Line.reshape | apply Line.ternary | apply Line.unaryIndexed

set_option maxRecDepth 4096 in
set_option maxHeartbeats 4000000 in
theorem tf_part0 (arg0 arg1 : StableHlo.TRef sig ⟨S_, .i32⟩) (arg2 arg3 : StableHlo.TRef sig ⟨S2, .i32⟩) (φ : fn_threefry2x32.Bufs) :
    fn_threefry2x32.body_part0 (F := F) arg0 arg1 arg2 arg3 φ = seq ((tfOps arg0 arg1 arg2 arg3 φ).take 60) := rfl

set_option maxRecDepth 4096 in
set_option maxHeartbeats 4000000 in
theorem tf_part1 (arg0 arg1 : StableHlo.TRef sig ⟨S_, .i32⟩) (arg2 arg3 : StableHlo.TRef sig ⟨S2, .i32⟩) (φ : fn_threefry2x32.Bufs) :
    fn_threefry2x32.body_part1 (F := F) arg0 arg1 arg2 arg3 φ = seq (((tfOps arg0 arg1 arg2 arg3 φ).drop 60).take 60) := rfl

set_option maxRecDepth 4096 in
set_option maxHeartbeats 4000000 in
theorem tf_part2 (arg0 arg1 : StableHlo.TRef sig ⟨S_, .i32⟩) (arg2 arg3 : StableHlo.TRef sig ⟨S2, .i32⟩) (φ : fn_threefry2x32.Bufs) :
    fn_threefry2x32.body_part2 (F := F) arg0 arg1 arg2 arg3 φ = seq ((((tfOps arg0 arg1 arg2 arg3 φ).drop 60).drop 60).take 60) := rfl

set_option maxRecDepth 4096 in
set_option maxHeartbeats 4000000 in
theorem tf_part3 (arg0 arg1 : StableHlo.TRef sig ⟨S_, .i32⟩) (arg2 arg3 : StableHlo.TRef sig ⟨S2, .i32⟩) (φ : fn_threefry2x32.Bufs) :
    fn_threefry2x32.body_part3 (F := F) arg0 arg1 arg2 arg3 φ = seq ((((tfOps arg0 arg1 arg2 arg3 φ).drop 60).drop 60).drop 60) := rfl

theorem tf_body (arg0 arg1 : StableHlo.TRef sig ⟨S_, .i32⟩) (arg2 arg3 : StableHlo.TRef sig ⟨S2, .i32⟩) (φ : fn_threefry2x32.Bufs) :
    fn_threefry2x32.body (F := F) arg0 arg1 arg2 arg3 φ = seq (tfOps arg0 arg1 arg2 arg3 φ) := by
  rw [← take_drop3 (tfOps (F := F) arg0 arg1 arg2 arg3 φ) 60 60 60, seq_append, seq_append, seq_append, ← tf_part0, ← tf_part1, ← tf_part2, ← tf_part3]
  rfl

def tgC0 (arg0 arg1 : StableHlo.TRef sig ⟨S_, .i32⟩) (arg2 arg3 : StableHlo.TRef sig ⟨S64, .i32⟩) (φ : fn_threefry2x32_1.Bufs) : List (HloOp τ sig (Elt F)) :=
  [ StableHlo.TRef.binary arg0 arg1 φ.v0 xori,
    StableHlo.TRef.nullary φ.c (constantI S_ 32 466688986#32),
    StableHlo.TRef.binary φ.v0 φ.c φ.v1 xori,
    StableHlo.TRef.unary arg0 φ.v2 (broadcastInDim S64 ![] bcast_S_S64),
    StableHlo.TRef.binary arg2 φ.v2 φ.v3 addi,
    StableHlo.TRef.unary arg1 φ.v4 (broadcastInDim S64 ![] bcast_S_S64),
    StableHlo.TRef.binary arg3 φ.v4 φ.v5 addi,
    StableHlo.TRef.binary φ.v3 φ.v5 φ.v6 addi,
    StableHlo.TRef.nullary φ.c_0 (constantI S_ 32 13#32),
    StableHlo.TRef.unary φ.c_0 φ.v7 (broadcastInDim S64 ![] bcast_S_S64),
    StableHlo.TRef.binary φ.v5 φ.v7 φ.v8 Host.shli,
    StableHlo.TRef.nullary φ.c_1 (constantI S_ 32 19#32),
    StableHlo.TRef.unary φ.c_1 φ.v9 (broadcastInDim S64 ![] bcast_S_S64),
    StableHlo.TRef.binary φ.v5 φ.v9 φ.v10 Host.shrui,
    StableHlo.TRef.binary φ.v8 φ.v10 φ.v11 ori,
    StableHlo.TRef.binary φ.v6 φ.v11 φ.v12 xori,
    StableHlo.TRef.binary φ.v6 φ.v12 φ.v13 addi,
    StableHlo.TRef.nullary φ.c_2 (constantI S_ 32 15#32),
    StableHlo.TRef.unary φ.c_2 φ.v14 (broadcastInDim S64 ![] bcast_S_S64),
    StableHlo.TRef.binary φ.v12 φ.v14 φ.v15 Host.shli,
    StableHlo.TRef.nullary φ.c_3 (constantI S_ 32 17#32),
    StableHlo.TRef.unary φ.c_3 φ.v16 (broadcastInDim S64 ![] bcast_S_S64),
    StableHlo.TRef.binary φ.v12 φ.v16 φ.v17 Host.shrui,
    StableHlo.TRef.binary φ.v15 φ.v17 φ.v18 ori ]

def tgCw0 (φ : fn_threefry2x32_1.Bufs) : List (Ref sig .tc) :=
  [φ.v0.ref, φ.c.ref, φ.v1.ref, φ.v2.ref, φ.v3.ref, φ.v4.ref, φ.v5.ref, φ.v6.ref, φ.c_0.ref, φ.v7.ref, φ.v8.ref, φ.c_1.ref, φ.v9.ref, φ.v10.ref, φ.v11.ref, φ.v12.ref, φ.v13.ref, φ.c_2.ref, φ.v14.ref, φ.v15.ref, φ.c_3.ref, φ.v16.ref, φ.v17.ref, φ.v18.ref]

def tgC1 (arg0 arg1 : StableHlo.TRef sig ⟨S_, .i32⟩) (arg2 arg3 : StableHlo.TRef sig ⟨S64, .i32⟩) (φ : fn_threefry2x32_1.Bufs) : List (HloOp τ sig (Elt F)) :=
  [ StableHlo.TRef.binary φ.v13 φ.v18 φ.v19 xori,
    StableHlo.TRef.binary φ.v13 φ.v19 φ.v20 addi,
    StableHlo.TRef.nullary φ.c_4 (constantI S_ 32 26#32),
    StableHlo.TRef.unary φ.c_4 φ.v21 (broadcastInDim S64 ![] bcast_S_S64),
    StableHlo.TRef.binary φ.v19 φ.v21 φ.v22 Host.shli,
    StableHlo.TRef.nullary φ.c_5 (constantI S_ 32 6#32),
    StableHlo.TRef.unary φ.c_5 φ.v23 (broadcastInDim S64 ![] bcast_S_S64),
    StableHlo.TRef.binary φ.v19 φ.v23 φ.v24 Host.shrui,
    StableHlo.TRef.binary φ.v22 φ.v24 φ.v25 ori,
    StableHlo.TRef.binary φ.v20 φ.v25 φ.v26 xori,
    StableHlo.TRef.binary φ.v20 φ.v26 φ.v27 addi,
    StableHlo.TRef.nullary φ.c_6 (constantI S_ 32 6#32),
    StableHlo.TRef.unary φ.c_6 φ.v28 (broadcastInDim S64 ![] bcast_S_S64),
    StableHlo.TRef.binary φ.v26 φ.v28 φ.v29 Host.shli,
    StableHlo.TRef.nullary φ.c_7 (constantI S_ 32 26#32),
    StableHlo.TRef.unary φ.c_7 φ.v30 (broadcastInDim S64 ![] bcast_S_S64),
    StableHlo.TRef.binary φ.v26 φ.v30 φ.v31 Host.shrui,
    StableHlo.TRef.binary φ.v29 φ.v31 φ.v32 ori,
    StableHlo.TRef.binary φ.v27 φ.v32 φ.v33 xori,
    StableHlo.TRef.unary arg1 φ.v34 (broadcastInDim S64 ![] bcast_S_S64),
    StableHlo.TRef.binary φ.v27 φ.v34 φ.v35 addi,
    StableHlo.TRef.unary φ.v1 φ.v36 (broadcastInDim S64 ![] bcast_S_S64),
    StableHlo.TRef.binary φ.v33 φ.v36 φ.v37 addi,
    StableHlo.TRef.nullary φ.c_8 (constantI S_ 32 1#32) ]

def tgCw1 (φ : fn_threefry2x32_1.Bufs) : List (Ref sig .tc) :=
  [φ.v19.ref, φ.v20.ref, φ.c_4.ref, φ.v21.ref, φ.v22.ref, φ.c_5.ref, φ.v23.ref, φ.v24.ref, φ.v25.ref, φ.v26.ref, φ.v27.ref, φ.c_6.ref, φ.v28.ref, φ.v29.ref, φ.c_7.ref, φ.v30.ref, φ.v31.ref, φ.v32.ref, φ.v33.ref, φ.v34.ref, φ.v35.ref, φ.v36.ref, φ.v37.ref, φ.c_8.ref]

def tgC2 (arg0 arg1 : StableHlo.TRef sig ⟨S_, .i32⟩) (arg2 arg3 : StableHlo.TRef sig ⟨S64, .i32⟩) (φ : fn_threefry2x32_1.Bufs) : List (HloOp τ sig (Elt F)) :=
  [ StableHlo.TRef.unary φ.c_8 φ.v38 (broadcastInDim S64 ![] bcast_S_S64),
    StableHlo.TRef.binary φ.v37 φ.v38 φ.v39 addi,
    StableHlo.TRef.binary φ.v35 φ.v39 φ.v40 addi,
    StableHlo.TRef.nullary φ.c_9 (constantI S_ 32 17#32),
    StableHlo.TRef.unary φ.c_9 φ.v41 (broadcastInDim S64 ![] bcast_S_S64),
    StableHlo.TRef.binary φ.v39 φ.v41 φ.v42 Host.shli,
    StableHlo.TRef.nullary φ.c_10 (constantI S_ 32 15#32),
    StableHlo.TRef.unary φ.c_10 φ.v43 (broadcastInDim S64 ![] bcast_S_S64),
    StableHlo.TRef.binary φ.v39 φ.v43 φ.v44 Host.shrui,
    StableHlo.TRef.binary φ.v42 φ.v44 φ.v45 ori,
    StableHlo.TRef.binary φ.v40 φ.v45 φ.v46 xori,
    StableHlo.TRef.binary φ.v40 φ.v46 φ.v47 addi,
    StableHlo.TRef.nullary φ.c_11 (constantI S_ 32 29#32),
    StableHlo.TRef.unary φ.c_11 φ.v48 (broadcastInDim S64 ![] bcast_S_S64),
    StableHlo.TRef.binary φ.v46 φ.v48 φ.v49 Host.shli,
    StableHlo.TRef.nullary φ.c_12 (constantI S_ 32 3#32),
    StableHlo.TRef.unary φ.c_12 φ.v50 (broadcastInDim S64 ![] bcast_S_S64),
    StableHlo.TRef.binary φ.v46 φ.v50 φ.v51 Host.shrui,
    StableHlo.TRef.binary φ.v49 φ.v51 φ.v52 ori,
    StableHlo.TRef.binary φ.v47 φ.v52 φ.v53 xori,
    StableHlo.TRef.binary φ.v47 φ.v53 φ.v54 addi,
    StableHlo.TRef.nullary φ.c_13 (constantI S_ 32 16#32),
    StableHlo.TRef.unary φ.c_13 φ.v55 (broadcastInDim S64 ![] bcast_S_S64),
    StableHlo.TRef.binary φ.v53 φ.v55 φ.v56 Host.shli ]

def tgCw2 (φ : fn_threefry2x32_1.Bufs) : List (Ref sig .tc) :=
  [φ.v38.ref, φ.v39.ref, φ.v40.ref, φ.c_9.ref, φ.v41.ref, φ.v42.ref, φ.c_10.ref, φ.v43.ref, φ.v44.ref, φ.v45.ref, φ.v46.ref, φ.v47.ref, φ.c_11.ref, φ.v48.ref, φ.v49.ref, φ.c_12.ref, φ.v50.ref, φ.v51.ref, φ.v52.ref, φ.v53.ref, φ.v54.ref, φ.c_13.ref, φ.v55.ref, φ.v56.ref]

def tgC3 (arg0 arg1 : StableHlo.TRef sig ⟨S_, .i32⟩) (arg2 arg3 : StableHlo.TRef sig ⟨S64, .i32⟩) (φ : fn_threefry2x32_1.Bufs) : List (HloOp τ sig (Elt F)) :=
  [ StableHlo.TRef.nullary φ.c_14 (constantI S_ 32 16#32),
    StableHlo.TRef.unary φ.c_14 φ.v57 (broadcastInDim S64 ![] bcast_S_S64),
    StableHlo.TRef.binary φ.v53 φ.v57 φ.v58 Host.shrui,
    StableHlo.TRef.binary φ.v56 φ.v58 φ.v59 ori,
    StableHlo.TRef.binary φ.v54 φ.v59 φ.v60 xori,
    StableHlo.TRef.binary φ.v54 φ.v60 φ.v61 addi,
    StableHlo.TRef.nullary φ.c_15 (constantI S_ 32 24#32),
    StableHlo.TRef.unary φ.c_15 φ.v62 (broadcastInDim S64 ![] bcast_S_S64),
    StableHlo.TRef.binary φ.v60 φ.v62 φ.v63 Host.shli,
    StableHlo.TRef.nullary φ.c_16 (constantI S_ 32 8#32),
    StableHlo.TRef.unary φ.c_16 φ.v64 (broadcastInDim S64 ![] bcast_S_S64),
    StableHlo.TRef.binary φ.v60 φ.v64 φ.v65 Host.shrui,
    StableHlo.TRef.binary φ.v63 φ.v65 φ.v66 ori,
    StableHlo.TRef.binary φ.v61 φ.v66 φ.v67 xori,
    StableHlo.TRef.unary φ.v1 φ.v68 (broadcastInDim S64 ![] bcast_S_S64),
    StableHlo.TRef.binary φ.v61 φ.v68 φ.v69 addi,
    StableHlo.TRef.unary arg0 φ.v70 (broadcastInDim S64 ![] bcast_S_S64),
    StableHlo.TRef.binary φ.v67 φ.v70 φ.v71 addi,
    StableHlo.TRef.nullary φ.c_17 (constantI S_ 32 2#32),
    StableHlo.TRef.unary φ.c_17 φ.v72 (broadcastInDim S64 ![] bcast_S_S64),
    StableHlo.TRef.binary φ.v71 φ.v72 φ.v73 addi,
    StableHlo.TRef.binary φ.v69 φ.v73 φ.v74 addi,
    StableHlo.TRef.nullary φ.c_18 (constantI S_ 32 13#32),
    StableHlo.TRef.unary φ.c_18 φ.v75 (broadcastInDim S64 ![] bcast_S_S64) ]

def tgCw3 (φ : fn_threefry2x32_1.Bufs) : List (Ref sig .tc) :=
  [φ.c_14.ref, φ.v57.ref, φ.v58.ref, φ.v59.ref, φ.v60.ref, φ.v61.ref, φ.c_15.ref, φ.v62.ref, φ.v63.ref, φ.c_16.ref, φ.v64.ref, φ.v65.ref, φ.v66.ref, φ.v67.ref, φ.v68.ref, φ.v69.ref, φ.v70.ref, φ.v71.ref, φ.c_17.ref, φ.v72.ref, φ.v73.ref, φ.v74.ref, φ.c_18.ref, φ.v75.ref]

def tgC4 (arg0 arg1 : StableHlo.TRef sig ⟨S_, .i32⟩) (arg2 arg3 : StableHlo.TRef sig ⟨S64, .i32⟩) (φ : fn_threefry2x32_1.Bufs) : List (HloOp τ sig (Elt F)) :=
  [ StableHlo.TRef.binary φ.v73 φ.v75 φ.v76 Host.shli,
    StableHlo.TRef.nullary φ.c_19 (constantI S_ 32 19#32),
    StableHlo.TRef.unary φ.c_19 φ.v77 (broadcastInDim S64 ![] bcast_S_S64),
    StableHlo.TRef.binary φ.v73 φ.v77 φ.v78 Host.shrui,
    StableHlo.TRef.binary φ.v76 φ.v78 φ.v79 ori,
    StableHlo.TRef.binary φ.v74 φ.v79 φ.v80 xori,
    StableHlo.TRef.binary φ.v74 φ.v80 φ.v81 addi,
    StableHlo.TRef.nullary φ.c_20 (constantI S_ 32 15#32),
    StableHlo.TRef.unary φ.c_20 φ.v82 (broadcastInDim S64 ![] bcast_S_S64),
    StableHlo.TRef.binary φ.v80 φ.v82 φ.v83 Host.shli,
    StableHlo.TRef.nullary φ.c_21 (constantI S_ 32 17#32),
    StableHlo.TRef.unary φ.c_21 φ.v84 (broadcastInDim S64 ![] bcast_S_S64),
    StableHlo.TRef.binary φ.v80 φ.v84 φ.v85 Host.shrui,
    StableHlo.TRef.binary φ.v83 φ.v85 φ.v86 ori,
    StableHlo.TRef.binary φ.v81 φ.v86 φ.v87 xori,
    StableHlo.TRef.binary φ.v81 φ.v87 φ.v88 addi,
    StableHlo.TRef.nullary φ.c_22 (constantI S_ 32 26#32),
    StableHlo.TRef.unary φ.c_22 φ.v89 (broadcastInDim S64 ![] bcast_S_S64),
    StableHlo.TRef.binary φ.v87 φ.v89 φ.v90 Host.shli,
    StableHlo.TRef.nullary φ.c_23 (constantI S_ 32 6#32),
    StableHlo.TRef.unary φ.c_23 φ.v91 (broadcastInDim S64 ![] bcast_S_S64),
    StableHlo.TRef.binary φ.v87 φ.v91 φ.v92 Host.shrui,
    StableHlo.TRef.binary φ.v90 φ.v92 φ.v93 ori,
    StableHlo.TRef.binary φ.v88 φ.v93 φ.v94 xori ]

def tgCw4 (φ : fn_threefry2x32_1.Bufs) : List (Ref sig .tc) :=
  [φ.v76.ref, φ.c_19.ref, φ.v77.ref, φ.v78.ref, φ.v79.ref, φ.v80.ref, φ.v81.ref, φ.c_20.ref, φ.v82.ref, φ.v83.ref, φ.c_21.ref, φ.v84.ref, φ.v85.ref, φ.v86.ref, φ.v87.ref, φ.v88.ref, φ.c_22.ref, φ.v89.ref, φ.v90.ref, φ.c_23.ref, φ.v91.ref, φ.v92.ref, φ.v93.ref, φ.v94.ref]

def tgC5 (arg0 arg1 : StableHlo.TRef sig ⟨S_, .i32⟩) (arg2 arg3 : StableHlo.TRef sig ⟨S64, .i32⟩) (φ : fn_threefry2x32_1.Bufs) : List (HloOp τ sig (Elt F)) :=
  [ StableHlo.TRef.binary φ.v88 φ.v94 φ.v95 addi,
    StableHlo.TRef.nullary φ.c_24 (constantI S_ 32 6#32),
    StableHlo.TRef.unary φ.c_24 φ.v96 (broadcastInDim S64 ![] bcast_S_S64),
    StableHlo.TRef.binary φ.v94 φ.v96 φ.v97 Host.shli,
    StableHlo.TRef.nullary φ.c_25 (constantI S_ 32 26#32),
    StableHlo.TRef.unary φ.c_25 φ.v98 (broadcastInDim S64 ![] bcast_S_S64),
    StableHlo.TRef.binary φ.v94 φ.v98 φ.v99 Host.shrui,
    StableHlo.TRef.binary φ.v97 φ.v99 φ.v100 ori,
    StableHlo.TRef.binary φ.v95 φ.v100 φ.v101 xori,
    StableHlo.TRef.unary arg0 φ.v102 (broadcastInDim S64 ![] bcast_S_S64),
    StableHlo.TRef.binary φ.v95 φ.v102 φ.v103 addi,
    StableHlo.TRef.unary arg1 φ.v104 (broadcastInDim S64 ![] bcast_S_S64),
    StableHlo.TRef.binary φ.v101 φ.v104 φ.v105 addi,
    StableHlo.TRef.nullary φ.c_26 (constantI S_ 32 3#32),
    StableHlo.TRef.unary φ.c_26 φ.v106 (broadcastInDim S64 ![] bcast_S_S64),
    StableHlo.TRef.binary φ.v105 φ.v106 φ.v107 addi,
    StableHlo.TRef.binary φ.v103 φ.v107 φ.v108 addi,
    StableHlo.TRef.nullary φ.c_27 (constantI S_ 32 17#32),
    StableHlo.TRef.unary φ.c_27 φ.v109 (broadcastInDim S64 ![] bcast_S_S64),
    StableHlo.TRef.binary φ.v107 φ.v109 φ.v110 Host.shli,
    StableHlo.TRef.nullary φ.c_28 (constantI S_ 32 15#32),
    StableHlo.TRef.unary φ.c_28 φ.v111 (broadcastInDim S64 ![] bcast_S_S64),
    StableHlo.TRef.binary φ.v107 φ.v111 φ.v112 Host.shrui,
    StableHlo.TRef.binary φ.v110 φ.v112 φ.v113 ori ]

def tgCw5 (φ : fn_threefry2x32_1.Bufs) : List (Ref sig .tc) :=
  [φ.v95.ref, φ.c_24.ref, φ.v96.ref, φ.v97.ref, φ.c_25.ref, φ.v98.ref, φ.v99.ref, φ.v100.ref, φ.v101.ref, φ.v102.ref, φ.v103.ref, φ.v104.ref, φ.v105.ref, φ.c_26.ref, φ.v106.ref, φ.v107.ref, φ.v108.ref, φ.c_27.ref, φ.v109.ref, φ.v110.ref, φ.c_28.ref, φ.v111.ref, φ.v112.ref, φ.v113.ref]

def tgC6 (arg0 arg1 : StableHlo.TRef sig ⟨S_, .i32⟩) (arg2 arg3 : StableHlo.TRef sig ⟨S64, .i32⟩) (φ : fn_threefry2x32_1.Bufs) : List (HloOp τ sig (Elt F)) :=
  [ StableHlo.TRef.binary φ.v108 φ.v113 φ.v114 xori,
    StableHlo.TRef.binary φ.v108 φ.v114 φ.v115 addi,
    StableHlo.TRef.nullary φ.c_29 (constantI S_ 32 29#32),
    StableHlo.TRef.unary φ.c_29 φ.v116 (broadcastInDim S64 ![] bcast_S_S64),
    StableHlo.TRef.binary φ.v114 φ.v116 φ.v117 Host.shli,
    StableHlo.TRef.nullary φ.c_30 (constantI S_ 32 3#32),
    StableHlo.TRef.unary φ.c_30 φ.v118 (broadcastInDim S64 ![] bcast_S_S64),
    StableHlo.TRef.binary φ.v114 φ.v118 φ.v119 Host.shrui,
    StableHlo.TRef.binary φ.v117 φ.v119 φ.v120 ori,
    StableHlo.TRef.binary φ.v115 φ.v120 φ.v121 xori,
    StableHlo.TRef.binary φ.v115 φ.v121 φ.v122 addi,
    StableHlo.TRef.nullary φ.c_31 (constantI S_ 32 16#32),
    StableHlo.TRef.unary φ.c_31 φ.v123 (broadcastInDim S64 ![] bcast_S_S64),
    StableHlo.TRef.binary φ.v121 φ.v123 φ.v124 Host.shli,
    StableHlo.TRef.nullary φ.c_32 (constantI S_ 32 16#32),
    StableHlo.TRef.unary φ.c_32 φ.v125 (broadcastInDim S64 ![] bcast_S_S64),
    StableHlo.TRef.binary φ.v121 φ.v125 φ.v126 Host.shrui,
    StableHlo.TRef.binary φ.v124 φ.v126 φ.v127 ori,
    StableHlo.TRef.binary φ.v122 φ.v127 φ.v128 xori,
    StableHlo.TRef.binary φ.v122 φ.v128 φ.v129 addi,
    StableHlo.TRef.nullary φ.c_33 (constantI S_ 32 24#32),
    StableHlo.TRef.unary φ.c_33 φ.v130 (broadcastInDim S64 ![] bcast_S_S64),
    StableHlo.TRef.binary φ.v128 φ.v130 φ.v131 Host.shli,
    StableHlo.TRef.nullary φ.c_34 (constantI S_ 32 8#32) ]

def tgCw6 (φ : fn_threefry2x32_1.Bufs) : List (Ref sig .tc) :=
  [φ.v114.ref, φ.v115.ref, φ.c_29.ref, φ.v116.ref, φ.v117.ref, φ.c_30.ref, φ.v118.ref, φ.v119.ref, φ.v120.ref, φ.v121.ref, φ.v122.ref, φ.c_31.ref, φ.v123.ref, φ.v124.ref, φ.c_32.ref, φ.v125.ref, φ.v126.ref, φ.v127.ref, φ.v128.ref, φ.v129.ref, φ.c_33.ref, φ.v130.ref, φ.v131.ref, φ.c_34.ref]

def tgC7 (arg0 arg1 : StableHlo.TRef sig ⟨S_, .i32⟩) (arg2 arg3 : StableHlo.TRef sig ⟨S64, .i32⟩) (φ : fn_threefry2x32_1.Bufs) : List (HloOp τ sig (Elt F)) :=
  [ StableHlo.TRef.unary φ.c_34 φ.v132 (broadcastInDim S64 ![] bcast_S_S64),
    StableHlo.TRef.binary φ.v128 φ.v132 φ.v133 Host.shrui,
    StableHlo.TRef.binary φ.v131 φ.v133 φ.v134 ori,
    StableHlo.TRef.binary φ.v129 φ.v134 φ.v135 xori,
    StableHlo.TRef.unary arg1 φ.v136 (broadcastInDim S64 ![] bcast_S_S64),
    StableHlo.TRef.binary φ.v129 φ.v136 φ.v137 addi,
    StableHlo.TRef.unary φ.v1 φ.v138 (broadcastInDim S64 ![] bcast_S_S64),
    StableHlo.TRef.binary φ.v135 φ.v138 φ.v139 addi,
    StableHlo.TRef.nullary φ.c_35 (constantI S_ 32 4#32),
    StableHlo.TRef.unary φ.c_35 φ.v140 (broadcastInDim S64 ![] bcast_S_S64),
    StableHlo.TRef.binary φ.v139 φ.v140 φ.v141 addi,
    StableHlo.TRef.binary φ.v137 φ.v141 φ.v142 addi,
    StableHlo.TRef.nullary φ.c_36 (constantI S_ 32 13#32),
    StableHlo.TRef.unary φ.c_36 φ.v143 (broadcastInDim S64 ![] bcast_S_S64),
    StableHlo.TRef.binary φ.v141 φ.v143 φ.v144 Host.shli,
    StableHlo.TRef.nullary φ.c_37 (constantI S_ 32 19#32),
    StableHlo.TRef.unary φ.c_37 φ.v145 (broadcastInDim S64 ![] bcast_S_S64),
    StableHlo.TRef.binary φ.v141 φ.v145 φ.v146 Host.shrui,
    StableHlo.TRef.binary φ.v144 φ.v146 φ.v147 ori,
    StableHlo.TRef.binary φ.v142 φ.v147 φ.v148 xori,
    StableHlo.TRef.binary φ.v142 φ.v148 φ.v149 addi,
    StableHlo.TRef.nullary φ.c_38 (constantI S_ 32 15#32),
    StableHlo.TRef.unary φ.c_38 φ.v150 (broadcastInDim S64 ![] bcast_S_S64),
    StableHlo.TRef.binary φ.v148 φ.v150 φ.v151 Host.shli ]

def tgCw7 (φ : fn_threefry2x32_1.Bufs) : List (Ref sig .tc) :=
  [φ.v132.ref, φ.v133.ref, φ.v134.ref, φ.v135.ref, φ.v136.ref, φ.v137.ref, φ.v138.ref, φ.v139.ref, φ.c_35.ref, φ.v140.ref, φ.v141.ref, φ.v142.ref, φ.c_36.ref, φ.v143.ref, φ.v144.ref, φ.c_37.ref, φ.v145.ref, φ.v146.ref, φ.v147.ref, φ.v148.ref, φ.v149.ref, φ.c_38.ref, φ.v150.ref, φ.v151.ref]

def tgC8 (arg0 arg1 : StableHlo.TRef sig ⟨S_, .i32⟩) (arg2 arg3 : StableHlo.TRef sig ⟨S64, .i32⟩) (φ : fn_threefry2x32_1.Bufs) : List (HloOp τ sig (Elt F)) :=
  [ StableHlo.TRef.nullary φ.c_39 (constantI S_ 32 17#32),
    StableHlo.TRef.unary φ.c_39 φ.v152 (broadcastInDim S64 ![] bcast_S_S64),
    StableHlo.TRef.binary φ.v148 φ.v152 φ.v153 Host.shrui,
    StableHlo.TRef.binary φ.v151 φ.v153 φ.v154 ori,
    StableHlo.TRef.binary φ.v149 φ.v154 φ.v155 xori,
    StableHlo.TRef.binary φ.v149 φ.v155 φ.v156 addi,
    StableHlo.TRef.nullary φ.c_40 (constantI S_ 32 26#32),
    StableHlo.TRef.unary φ.c_40 φ.v157 (broadcastInDim S64 ![] bcast_S_S64),
    StableHlo.TRef.binary φ.v155 φ.v157 φ.v158 Host.shli,
    StableHlo.TRef.nullary φ.c_41 (constantI S_ 32 6#32),
    StableHlo.TRef.unary φ.c_41 φ.v159 (broadcastInDim S64 ![] bcast_S_S64),
    StableHlo.TRef.binary φ.v155 φ.v159 φ.v160 Host.shrui,
    StableHlo.TRef.binary φ.v158 φ.v160 φ.v161 ori,
    StableHlo.TRef.binary φ.v156 φ.v161 φ.v162 xori,
    StableHlo.TRef.binary φ.v156 φ.v162 φ.v163 addi,
    StableHlo.TRef.nullary φ.c_42 (constantI S_ 32 6#32),
    StableHlo.TRef.unary φ.c_42 φ.v164 (broadcastInDim S64 ![] bcast_S_S64),
    StableHlo.TRef.binary φ.v162 φ.v164 φ.v165 Host.shli,
    StableHlo.TRef.nullary φ.c_43 (constantI S_ 32 26#32),
    StableHlo.TRef.unary φ.c_43 φ.v166 (broadcastInDim S64 ![] bcast_S_S64),
    StableHlo.TRef.binary φ.v162 φ.v166 φ.v167 Host.shrui,
    StableHlo.TRef.binary φ.v165 φ.v167 φ.v168 ori,
    StableHlo.TRef.binary φ.v163 φ.v168 φ.v169 xori,
    StableHlo.TRef.unary φ.v1 φ.v170 (broadcastInDim S64 ![] bcast_S_S64) ]

def tgCw8 (φ : fn_threefry2x32_1.Bufs) : List (Ref sig .tc) :=
  [φ.c_39.ref, φ.v152.ref, φ.v153.ref, φ.v154.ref, φ.v155.ref, φ.v156.ref, φ.c_40.ref, φ.v157.ref, φ.v158.ref, φ.c_41.ref, φ.v159.ref, φ.v160.ref, φ.v161.ref, φ.v162.ref, φ.v163.ref, φ.c_42.ref, φ.v164.ref, φ.v165.ref, φ.c_43.ref, φ.v166.ref, φ.v167.ref, φ.v168.ref, φ.v169.ref, φ.v170.ref]

def tgC9 (arg0 arg1 : StableHlo.TRef sig ⟨S_, .i32⟩) (arg2 arg3 : StableHlo.TRef sig ⟨S64, .i32⟩) (φ : fn_threefry2x32_1.Bufs) : List (HloOp τ sig (Elt F)) :=
  [ StableHlo.TRef.binary φ.v163 φ.v170 φ.v171 addi,
    StableHlo.TRef.unary arg0 φ.v172 (broadcastInDim S64 ![] bcast_S_S64),
    StableHlo.TRef.binary φ.v169 φ.v172 φ.v173 addi,
    StableHlo.TRef.nullary φ.c_44 (constantI S_ 32 5#32),
    StableHlo.TRef.unary φ.c_44 φ.v174 (broadcastInDim S64 ![] bcast_S_S64),
    StableHlo.TRef.binary φ.v173 φ.v174 φ.v175 addi ]

def tgCw9 (φ : fn_threefry2x32_1.Bufs) : List (Ref sig .tc) :=
  [φ.v171.ref, φ.v172.ref, φ.v173.ref, φ.c_44.ref, φ.v174.ref, φ.v175.ref]

def tgOps (arg0 arg1 : StableHlo.TRef sig ⟨S_, .i32⟩) (arg2 arg3 : StableHlo.TRef sig ⟨S64, .i32⟩) (φ : fn_threefry2x32_1.Bufs) : List (HloOp τ sig (Elt F)) :=
  tgC0 arg0 arg1 arg2 arg3 φ ++ (tgC1 arg0 arg1 arg2 arg3 φ ++ (tgC2 arg0 arg1 arg2 arg3 φ ++ (tgC3 arg0 arg1 arg2 arg3 φ ++ (tgC4 arg0 arg1 arg2 arg3 φ ++ (tgC5 arg0 arg1 arg2 arg3 φ ++ (tgC6 arg0 arg1 arg2 arg3 φ ++ (tgC7 arg0 arg1 arg2 arg3 φ ++ (tgC8 arg0 arg1 arg2 arg3 φ ++ (tgC9 arg0 arg1 arg2 arg3 φ)))))))))

def tgWr (φ : fn_threefry2x32_1.Bufs) : List (Ref sig .tc) :=
  tgCw0 φ ++ (tgCw1 φ ++ (tgCw2 φ ++ (tgCw3 φ ++ (tgCw4 φ ++ (tgCw5 φ ++ (tgCw6 φ ++ (tgCw7 φ ++ (tgCw8 φ ++ (tgCw9 φ)))))))))

theorem tgOps_line (arg0 arg1 : StableHlo.TRef sig ⟨S_, .i32⟩) (arg2 arg3 : StableHlo.TRef sig ⟨S64, .i32⟩) (φ : fn_threefry2x32_1.Bufs) : Line (tgOps (F := F) arg0 arg1 arg2 arg3 φ) (tgWr φ) := by
  unfold tgOps tgWr tgC0 tgC1 tgC2 tgC3 tgC4 tgC5 tgC6 tgC7 tgC8 tgC9 tgCw0 tgCw1 tgCw2 tgCw3 tgCw4 tgCw5 tgCw6 tgCw7 tgCw8 tgCw9
  repeat first | exact .nil | apply Line.append | apply Line.binary | apply Line.unary | apply Line.nullary | apply Line.reshape | apply Line.ternary | apply Line.unaryIndexed

set_option maxRecDepth 4096 in
set_option maxHeartbeats 4000000 in
theorem tg_part0 (arg0 arg1 : StableHlo.TRef sig ⟨S_, .i32⟩) (arg2 arg3 : StableHlo.TRef sig ⟨S64, .i32⟩) (φ : fn_threefry2x32_1.Bufs) :
    fn_threefry2x32_1.body_part0 (F := F) arg0 arg1 arg2 arg3 φ = seq ((tgOps arg0 arg1 arg2 arg3 φ).take 60) := rfl

set_option maxRecDepth 4096 in
set_option maxHeartbeats 4000000 in
theorem tg_part1 (arg0 arg1 : StableHlo.TRef sig ⟨S_, .i32⟩) (arg2 arg3 : StableHlo.TRef sig ⟨S64, .i32⟩) (φ : fn_threefry2x32_1.Bufs) :
    fn_threefry2x32_1.body_part1 (F := F) arg0 arg1 arg2 arg3 φ = seq (((tgOps arg0 arg1 arg2 arg3 φ).drop 60).take 60) := rfl

set_option maxRecDepth 4096 in
set_option maxHeartbeats 4000000 in
theorem tg_part2 (arg0 arg1 : StableHlo.TRef sig ⟨S_, .i32⟩) (arg2 arg3 : StableHlo.TRef sig ⟨S64, .i32⟩) (φ : fn_threefry2x32_1.Bufs) :
    fn_threefry2x32_1.body_part2 (F := F) arg0 arg1 arg2 arg3 φ = seq ((((tgOps arg0 arg1 arg2 arg3 φ).drop 60).drop 60).take 60) := rfl

set_option maxRecDepth 4096 in
set_option maxHeartbeats 4000000 in
theorem tg_part3 (arg0 arg1 : StableHlo.TRef sig ⟨S_, .i32⟩) (arg2 arg3 : StableHlo.TRef sig ⟨S64, .i32⟩) (φ : fn_threefry2x32_1.Bufs) :
    fn_threefry2x32_1.body_part3 (F := F) arg0 arg1 arg2 arg3 φ = seq ((((tgOps arg0 arg1 arg2 arg3 φ).drop 60).drop 60).drop 60) := rfl

theorem tg_body (arg0 arg1 : StableHlo.TRef sig ⟨S_, .i32⟩) (arg2 arg3 : StableHlo.TRef sig ⟨S64, .i32⟩) (φ : fn_threefry2x32_1.Bufs) :
    fn_threefry2x32_1.body (F := F) arg0 arg1 arg2 arg3 φ = seq (tgOps arg0 arg1 arg2 arg3 φ) := by
  rw [← take_drop3 (tgOps (F := F) arg0 arg1 arg2 arg3 φ) 60 60 60, seq_append, seq_append, seq_append, ← tg_part0, ← tg_part1, ← tg_part2, ← tg_part3]
  rfl

def whS0 (arg0 : StableHlo.TRef sig ⟨S4096, .i1⟩) (arg1 : StableHlo.TRef sig ⟨S4096, .i32⟩) (arg2 : StableHlo.TRef sig ⟨S4096, .i32⟩) (φ : fn_where.Bufs) : List (HloOp τ sig (Elt F)) :=
  [ StableHlo.TRef.ternary arg0 arg1 arg2 φ.v0 select ]

def whSw0 (φ : fn_where.Bufs) : List (Ref sig .tc) :=
  [φ.v0.ref]

def whOps (arg0 : StableHlo.TRef sig ⟨S4096, .i1⟩) (arg1 : StableHlo.TRef sig ⟨S4096, .i32⟩) (arg2 : StableHlo.TRef sig ⟨S4096, .i32⟩) (φ : fn_where.Bufs) : List (HloOp τ sig (Elt F)) :=
  whS0 arg0 arg1 arg2 φ

def whWr (φ : fn_where.Bufs) : List (Ref sig .tc) :=
  whSw0 φ

theorem whOps_line (arg0 : StableHlo.TRef sig ⟨S4096, .i1⟩) (arg1 : StableHlo.TRef sig ⟨S4096, .i32⟩) (arg2 : StableHlo.TRef sig ⟨S4096, .i32⟩) (φ : fn_where.Bufs) : Line (whOps (F := F) arg0 arg1 arg2 φ) (whWr φ) := by
  unfold whOps whWr whS0 whSw0
  repeat first | exact .nil | apply Line.append | apply Line.binary | apply Line.unary | apply Line.nullary | apply Line.reshape | apply Line.ternary | apply Line.unaryIndexed

set_option maxRecDepth 4096 in
theorem wh_body (arg0 : StableHlo.TRef sig ⟨S4096, .i1⟩) (arg1 : StableHlo.TRef sig ⟨S4096, .i32⟩) (arg2 : StableHlo.TRef sig ⟨S4096, .i32⟩) (φ : fn_where.Bufs) :
    fn_where.body (F := F) arg0 arg1 arg2 φ = seq (whOps arg0 arg1 arg2 φ) := by
  unfold fn_where.body whOps
  simp only [seq_append, whS0, seq, bind_assoc, pure_bind]
  try rfl

def wh3S0 (arg0 : StableHlo.TRef sig ⟨S40960, .i1⟩) (arg1 : StableHlo.TRef sig ⟨S40960, .i32⟩) (arg2 : StableHlo.TRef sig ⟨S40960, .i32⟩) (φ : fn_where_3.Bufs) : List (HloOp τ sig (Elt F)) :=
  [ StableHlo.TRef.ternary arg0 arg1 arg2 φ.v0 select ]

def wh3Sw0 (φ : fn_where_3.Bufs) : List (Ref sig .tc) :=
  [φ.v0.ref]

def wh3Ops (arg0 : StableHlo.TRef sig ⟨S40960, .i1⟩) (arg1 : StableHlo.TRef sig ⟨S40960, .i32⟩) (arg2 : StableHlo.TRef sig ⟨S40960, .i32⟩) (φ : fn_where_3.Bufs) : List (HloOp τ sig (Elt F)) :=
  wh3S0 arg0 arg1 arg2 φ

def wh3Wr (φ : fn_where_3.Bufs) : List (Ref sig .tc) :=
  wh3Sw0 φ

theorem wh3Ops_line (arg0 : StableHlo.TRef sig ⟨S40960, .i1⟩) (arg1 : StableHlo.TRef sig ⟨S40960, .i32⟩) (arg2 : StableHlo.TRef sig ⟨S40960, .i32⟩) (φ : fn_where_3.Bufs) : Line (wh3Ops (F := F) arg0 arg1 arg2 φ) (wh3Wr φ) := by
  unfold wh3Ops wh3Wr wh3S0 wh3Sw0
  repeat first | exact .nil | apply Line.append | apply Line.binary | apply Line.unary | apply Line.nullary | apply Line.reshape | apply Line.ternary | apply Line.unaryIndexed

set_option maxRecDepth 4096 in
theorem wh3_body (arg0 : StableHlo.TRef sig ⟨S40960, .i1⟩) (arg1 : StableHlo.TRef sig ⟨S40960, .i32⟩) (arg2 : StableHlo.TRef sig ⟨S40960, .i32⟩) (φ : fn_where_3.Bufs) :
    fn_where_3.body (F := F) arg0 arg1 arg2 φ = seq (wh3Ops arg0 arg1 arg2 φ) := by
  unfold fn_where_3.body wh3Ops
  simp only [seq_append, wh3S0, seq, bind_assoc, pure_bind]
  try rfl

def splitS0 (arg0 : StableHlo.TRef sig ⟨S2, .i32⟩) (φ : fn_threefry_split.Bufs) : List (HloOp τ sig (Elt F)) :=
  [ StableHlo.TRef.unary arg0 φ.v0 (extractStridedSlice S1 ![0] · slices_S2_S1_0),
    StableHlo.TRef.reshape φ.v0 φ.v1 rfl shapeCasts_S1_S_,
    StableHlo.TRef.unary arg0 φ.v2 (extractStridedSlice S1 ![1] · slices_S2_S1_1),
    StableHlo.TRef.reshape φ.v2 φ.v3 rfl shapeCasts_S1_S_,
    StableHlo.TRef.nullary φ.v4 (iotaInDim S2 64 0),
    StableHlo.TRef.nullary φ.c (constantI S_ 64 1#64),
    StableHlo.TRef.unary φ.c φ.v5 (broadcastInDim S2 ![] bcast_S_S2),
    StableHlo.TRef.binary φ.v5 φ.v4 φ.v6 muli,
    StableHlo.TRef.nullary φ.c_0 (constantI S_ 64 32#64),
    StableHlo.TRef.unary φ.c_0 φ.v7 (broadcastInDim S2 ![] bcast_S_S2),
    StableHlo.TRef.binary φ.v6 φ.v7 φ.v8 Host.shrui,
    StableHlo.TRef.unary φ.v6 φ.v9 (trunci 32 · natLt_32_64),
    StableHlo.TRef.unary φ.v8 φ.v10 (trunci 32 · natLt_32_64) ]

def splitSw0 (φ : fn_threefry_split.Bufs) : List (Ref sig .tc) :=
  [φ.v0.ref, φ.v1.ref, φ.v2.ref, φ.v3.ref, φ.v4.ref, φ.c.ref, φ.v5.ref, φ.v6.ref, φ.c_0.ref, φ.v7.ref, φ.v8.ref, φ.v9.ref, φ.v10.ref]

def splitS1 (arg0 : StableHlo.TRef sig ⟨S2, .i32⟩) (φ : fn_threefry_split.Bufs) : List (HloOp τ sig (Elt F)) :=
  [ StableHlo.TRef.unary φ.call0.v171 φ.v12 (broadcastInDim S2x1 ![0] bcast_S2_S2x1_0),
    StableHlo.TRef.unary φ.call0.v175 φ.v13 (broadcastInDim S2x1 ![0] bcast_S2_S2x1_0),
    StableHlo.TRef.binary φ.v12 φ.v13 φ.v14 (fun a b => concatenate S2x2 1 [⟨S2x1, a⟩, ⟨S2x1, b⟩] concatenates_S2x1_S2x1_S2x2_d1) ]

def splitSw1 (φ : fn_threefry_split.Bufs) : List (Ref sig .tc) :=
  [φ.v12.ref, φ.v13.ref, φ.v14.ref]

def splitOps (arg0 : StableHlo.TRef sig ⟨S2, .i32⟩) (φ : fn_threefry_split.Bufs) : List (HloOp τ sig (Elt F)) :=
  splitS0 arg0 φ ++ (tfOps φ.v1 φ.v3 φ.v10 φ.v9 φ.call0 ++ (splitS1 arg0 φ))

def splitWr (φ : fn_threefry_split.Bufs) : List (Ref sig .tc) :=
  splitSw0 φ ++ (tfWr φ.call0 ++ (splitSw1 φ))

theorem splitOps_line (arg0 : StableHlo.TRef sig ⟨S2, .i32⟩) (φ : fn_threefry_split.Bufs) : Line (splitOps (F := F) arg0 φ) (splitWr φ) := by
  unfold splitOps splitWr splitS0 splitS1 splitSw0 splitSw1
  refine .append ?_ (.append (tfOps_line ..) ?_)
  all_goals repeat first | exact .nil | apply Line.append | apply Line.binary | apply Line.unary | apply Line.nullary | apply Line.reshape | apply Line.ternary | apply Line.unaryIndexed

set_option maxRecDepth 4096 in
theorem split_body (arg0 : StableHlo.TRef sig ⟨S2, .i32⟩) (φ : fn_threefry_split.Bufs) :
    fn_threefry_split.body (F := F) arg0 φ = seq (splitOps arg0 φ) := by
  unfold fn_threefry_split.body splitOps
  rw [tf_body]
  simp only [seq_append, splitS0, splitS1, seq, bind_assoc, pure_bind]
  try rfl

def split0S0 (arg0 : StableHlo.TRef sig ⟨S2, .i32⟩) (φ : fn_threefry_split_0.Bufs) : List (HloOp τ sig (Elt F)) :=
  [ StableHlo.TRef.unary arg0 φ.v0 (extractStridedSlice S1 ![0] · slices_S2_S1_0),
    StableHlo.TRef.reshape φ.v0 φ.v1 rfl shapeCasts_S1_S_,
    StableHlo.TRef.unary arg0 φ.v2 (extractStridedSlice S1 ![1] · slices_S2_S1_1),
    StableHlo.TRef.reshape φ.v2 φ.v3 rfl shapeCasts_S1_S_,
    StableHlo.TRef.nullary φ.v4 (iotaInDim S2 64 0),
    StableHlo.TRef.nullary φ.c (constantI S_ 64 1#64),
    StableHlo.TRef.unary φ.c φ.v5 (broadcastInDim S2 ![] bcast_S_S2),
    StableHlo.TRef.binary φ.v5 φ.v4 φ.v6 muli,
    StableHlo.TRef.nullary φ.c_0 (constantI S_ 64 32#64),
    StableHlo.TRef.unary φ.c_0 φ.v7 (broadcastInDim S2 ![] bcast_S_S2),
    StableHlo.TRef.binary φ.v6 φ.v7 φ.v8 Host.shrui,
    StableHlo.TRef.unary φ.v6 φ.v9 (trunci 32 · natLt_32_64),
    StableHlo.TRef.unary φ.v8 φ.v10 (trunci 32 · natLt_32_64) ]

def split0Sw0 (φ : fn_threefry_split_0.Bufs) : List (Ref sig .tc) :=
  [φ.v0.ref, φ.v1.ref, φ.v2.ref, φ.v3.ref, φ.v4.ref, φ.c.ref, φ.v5.ref, φ.v6.ref, φ.c_0.ref, φ.v7.ref, φ.v8.ref, φ.v9.ref, φ.v10.ref]

def split0S1 (arg0 : StableHlo.TRef sig ⟨S2, .i32⟩) (φ : fn_threefry_split_0.Bufs) : List (HloOp τ sig (Elt F)) :=
  [ StableHlo.TRef.unary φ.call0.v171 φ.v12 (broadcastInDim S2x1 ![0] bcast_S2_S2x1_0),
    StableHlo.TRef.unary φ.call0.v175 φ.v13 (broadcastInDim S2x1 ![0] bcast_S2_S2x1_0),
    StableHlo.TRef.binary φ.v12 φ.v13 φ.v14 (fun a b => concatenate S2x2 1 [⟨S2x1, a⟩, ⟨S2x1, b⟩] concatenates_S2x1_S2x1_S2x2_d1) ]

def split0Sw1 (φ : fn_threefry_split_0.Bufs) : List (Ref sig .tc) :=
  [φ.v12.ref, φ.v13.ref, φ.v14.ref]

def split0Ops (arg0 : StableHlo.TRef sig ⟨S2, .i32⟩) (φ : fn_threefry_split_0.Bufs) : List (HloOp τ sig (Elt F)) :=
  split0S0 arg0 φ ++ (tfOps φ.v1 φ.v3 φ.v10 φ.v9 φ.call0 ++ (split0S1 arg0 φ))

def split0Wr (φ : fn_threefry_split_0.Bufs) : List (Ref sig .tc) :=
  split0Sw0 φ ++ (tfWr φ.call0 ++ (split0Sw1 φ))

theorem split0Ops_line (arg0 : StableHlo.TRef sig ⟨S2, .i32⟩) (φ : fn_threefry_split_0.Bufs) : Line (split0Ops (F := F) arg0 φ) (split0Wr φ) := by
  unfold split0Ops split0Wr split0S0 split0S1 split0Sw0 split0Sw1
  refine .append ?_ (.append (tfOps_line ..) ?_)
  all_goals repeat first | exact .nil | apply Line.append | apply Line.binary | apply Line.unary | apply Line.nullary | apply Line.reshape | apply Line.ternary | apply Line.unaryIndexed

set_option maxRecDepth 4096 in
theorem split0_body (arg0 : StableHlo.TRef sig ⟨S2, .i32⟩) (φ : fn_threefry_split_0.Bufs) :
    fn_threefry_split_0.body (F := F) arg0 φ = seq (split0Ops arg0 φ) := by
  unfold fn_threefry_split_0.body split0Ops
  rw [tf_body]
  simp only [seq_append, split0S0, split0S1, seq, bind_assoc, pure_bind]
  try rfl

def shuffleS0 (arg0 : StableHlo.TRef sig ⟨S2, .i32⟩) (arg1 : StableHlo.TRef sig ⟨S64, .i32⟩) (φ : fn_shuffle.Bufs) : List (HloOp τ sig (Elt F)) :=
  [ StableHlo.TRef.unary φ.call0.v14 φ.v1 (extractStridedSlice S1x2 ![0, 0] · slices_S2x2_S1x2_0_0),
    StableHlo.TRef.reshape φ.v1 φ.v2 rfl shapeCasts_S1x2_S2,
    StableHlo.TRef.unary φ.call0.v14 φ.v3 (extractStridedSlice S1x2 ![1, 0] · slices_S2x2_S1x2_1_0),
    StableHlo.TRef.reshape φ.v3 φ.v4 rfl shapeCasts_S1x2_S2,
    StableHlo.TRef.unary φ.v4 φ.v5 (extractStridedSlice S1 ![0] · slices_S2_S1_0),
    StableHlo.TRef.reshape φ.v5 φ.v6 rfl shapeCasts_S1_S_,
    StableHlo.TRef.unary φ.v4 φ.v7 (extractStridedSlice S1 ![1] · slices_S2_S1_1),
    StableHlo.TRef.reshape φ.v7 φ.v8 rfl shapeCasts_S1_S_,
    StableHlo.TRef.nullary φ.v9 (iotaInDim S64 64 0),
    StableHlo.TRef.nullary φ.c (constantI S_ 64 1#64),
    StableHlo.TRef.unary φ.c φ.v10 (broadcastInDim S64 ![] bcast_S_S64),
    StableHlo.TRef.binary φ.v10 φ.v9 φ.v11 muli,
    StableHlo.TRef.nullary φ.c_0 (constantI S_ 64 32#64),
    StableHlo.TRef.unary φ.c_0 φ.v12 (broadcastInDim S64 ![] bcast_S_S64),
    StableHlo.TRef.binary φ.v11 φ.v12 φ.v13 Host.shrui,
    StableHlo.TRef.unary φ.v11 φ.v14 (trunci 32 · natLt_32_64),
    StableHlo.TRef.unary φ.v13 φ.v15 (trunci 32 · natLt_32_64) ]

def shuffleSw0 (φ : fn_shuffle.Bufs) : List (Ref sig .tc) :=
  [φ.v1.ref, φ.v2.ref, φ.v3.ref, φ.v4.ref, φ.v5.ref, φ.v6.ref, φ.v7.ref, φ.v8.ref, φ.v9.ref, φ.c.ref, φ.v10.ref, φ.v11.ref, φ.c_0.ref, φ.v12.ref, φ.v13.ref, φ.v14.ref, φ.v15.ref]

def shuffleS1 (arg0 : StableHlo.TRef sig ⟨S2, .i32⟩) (arg1 : StableHlo.TRef sig ⟨S64, .i32⟩) (φ : fn_shuffle.Bufs) : List (HloOp τ sig (Elt F)) :=
  [ StableHlo.TRef.binary φ.call1.v171 φ.call1.v175 φ.v17 xori,
    StableHlo.TRef.binary φ.v17 arg1 φ.v18_0 (fun x y => (Host.sort2 S64 0 comparator_i32_i32_d0 x y).1),
    StableHlo.TRef.binary φ.v17 arg1 φ.v18_1 (fun x y => (Host.sort2 S64 0 comparator_i32_i32_d0 x y).2) ]

def shuffleSw1 (φ : fn_shuffle.Bufs) : List (Ref sig .tc) :=
  [φ.v17.ref, φ.v18_0.ref, φ.v18_1.ref]

def shuffleOps (arg0 : StableHlo.TRef sig ⟨S2, .i32⟩) (arg1 : StableHlo.TRef sig ⟨S64, .i32⟩) (φ : fn_shuffle.Bufs) : List (HloOp τ sig (Elt F)) :=
  split0Ops arg0 φ.call0 ++ (shuffleS0 arg0 arg1 φ ++ (tgOps φ.v6 φ.v8 φ.v15 φ.v14 φ.call1 ++ (shuffleS1 arg0 arg1 φ)))

def shuffleWr (φ : fn_shuffle.Bufs) : List (Ref sig .tc) :=
  split0Wr φ.call0 ++ (shuffleSw0 φ ++ (tgWr φ.call1 ++ (shuffleSw1 φ)))

theorem shuffleOps_line (arg0 : StableHlo.TRef sig ⟨S2, .i32⟩) (arg1 : StableHlo.TRef sig ⟨S64, .i32⟩) (φ : fn_shuffle.Bufs) : Line (shuffleOps (F := F) arg0 arg1 φ) (shuffleWr φ) := by
  unfold shuffleOps shuffleWr shuffleS0 shuffleS1 shuffleSw0 shuffleSw1
  refine .append (split0Ops_line ..) (.append ?_ (.append (tgOps_line ..) ?_))
  all_goals repeat first | exact .nil | apply Line.append | apply Line.binary | apply Line.unary | apply Line.nullary | apply Line.reshape | apply Line.ternary | apply Line.unaryIndexed

set_option maxRecDepth 4096 in
theorem shuffle_body (arg0 : StableHlo.TRef sig ⟨S2, .i32⟩) (arg1 : StableHlo.TRef sig ⟨S64, .i32⟩) (φ : fn_shuffle.Bufs) :
    fn_shuffle.body (F := F) arg0 arg1 φ = seq (shuffleOps arg0 arg1 φ) := by
  unfold fn_shuffle.body shuffleOps
  rw [split0_body, tg_body]
  simp only [seq_append, shuffleS0, shuffleS1, seq, bind_assoc, pure_bind]
  try rfl

def takeS0 (arg0 : StableHlo.TRef sig ⟨S100000x64, .i32⟩) (arg1 : StableHlo.TRef sig ⟨S4096, .i32⟩) (φ : fn_take.Bufs) : List (HloOp τ sig (Elt F)) :=
  [ StableHlo.TRef.nullary φ.c (constantI S_ 32 0#32),
    StableHlo.TRef.unary φ.c φ.v0 (broadcastInDim S4096 ![] bcast_S_S4096),
    StableHlo.TRef.binary arg1 φ.v0 φ.v1 (cmpi .slt),
    StableHlo.TRef.nullary φ.c_0 (constantI S_ 32 100000#32),
    StableHlo.TRef.unary φ.c_0 φ.v2 (broadcastInDim S4096 ![] bcast_S_S4096),
    StableHlo.TRef.binary arg1 φ.v2 φ.v3 addi ]

def takeSw0 (φ : fn_take.Bufs) : List (Ref sig .tc) :=
  [φ.c.ref, φ.v0.ref, φ.v1.ref, φ.c_0.ref, φ.v2.ref, φ.v3.ref]

def takeS1 (arg0 : StableHlo.TRef sig ⟨S100000x64, .i32⟩) (arg1 : StableHlo.TRef sig ⟨S4096, .i32⟩) (φ : fn_take.Bufs) : List (HloOp τ sig (Elt F)) :=
  [ StableHlo.TRef.unary φ.call0.v0 φ.v5 (broadcastInDim S4096x1 ![0] bcast_S4096_S4096x1_0),
    StableHlo.TRef.nullary φ.c_1 (constantI S1 32 99999#32),
    StableHlo.TRef.nullary φ.c_2 (constantI S_ 32 0#32),
    StableHlo.TRef.unary φ.c_2 φ.v6 (broadcastInDim S4096x1 ![] bcast_S_S4096x1),
    StableHlo.TRef.binary φ.v5 φ.v6 φ.v7 (cmpi .sge),
    StableHlo.TRef.unary φ.c_1 φ.v8 (broadcastInDim S1x1 ![1] bcast_S1_S1x1_1),
    StableHlo.TRef.unary φ.v8 φ.v9 (broadcastInDim S4096x1 ![0, 1] bcast_S1x1_S4096x1_0_1),
    StableHlo.TRef.binary φ.v5 φ.v9 φ.v10 (cmpi .sle),
    StableHlo.TRef.binary φ.v7 φ.v10 φ.v11 andi,
    StableHlo.TRef.nullary φ.c_3 (constantI S_ 1 1#1),
    StableHlo.TRef.binary φ.v11 φ.c_3 φ.v12 (fun x v => Host.reduce IntOp.andi x v reducesTo_S4096x1_S4096_d1 h_S_),
    StableHlo.TRef.binary arg0 φ.v5 φ.v13 (fun x i => Host.gather gather_S100000x64_S4096x1_S4096x64_1_0_n_n_0_1_164 x i),
    StableHlo.TRef.unary φ.v12 φ.v14 (broadcastInDim S4096x64 ![0] bcast_S4096_S4096x64_0),
    StableHlo.TRef.nullary φ.c_4 (constantI S_ 32 2147483648#32),
    StableHlo.TRef.unary φ.c_4 φ.v15 (broadcastInDim S4096x64 ![] bcast_S_S4096x64),
    StableHlo.TRef.ternary φ.v14 φ.v13 φ.v15 φ.v16 select ]

def takeSw1 (φ : fn_take.Bufs) : List (Ref sig .tc) :=
  [φ.v5.ref, φ.c_1.ref, φ.c_2.ref, φ.v6.ref, φ.v7.ref, φ.v8.ref, φ.v9.ref, φ.v10.ref, φ.v11.ref, φ.c_3.ref, φ.v12.ref, φ.v13.ref, φ.v14.ref, φ.c_4.ref, φ.v15.ref, φ.v16.ref]

def takeOps (arg0 : StableHlo.TRef sig ⟨S100000x64, .i32⟩) (arg1 : StableHlo.TRef sig ⟨S4096, .i32⟩) (φ : fn_take.Bufs) : List (HloOp τ sig (Elt F)) :=
  takeS0 arg0 arg1 φ ++ (whOps φ.v1 φ.v3 arg1 φ.call0 ++ (takeS1 arg0 arg1 φ))

def takeWr (φ : fn_take.Bufs) : List (Ref sig .tc) :=
  takeSw0 φ ++ (whWr φ.call0 ++ (takeSw1 φ))

theorem takeOps_line (arg0 : StableHlo.TRef sig ⟨S100000x64, .i32⟩) (arg1 : StableHlo.TRef sig ⟨S4096, .i32⟩) (φ : fn_take.Bufs) : Line (takeOps (F := F) arg0 arg1 φ) (takeWr φ) := by
  unfold takeOps takeWr takeS0 takeS1 takeSw0 takeSw1
  refine .append ?_ (.append (whOps_line ..) ?_)
  all_goals repeat first | exact .nil | apply Line.append | apply Line.binary | apply Line.unary | apply Line.nullary | apply Line.reshape | apply Line.ternary | apply Line.unaryIndexed

set_option maxRecDepth 4096 in
theorem take_body (arg0 : StableHlo.TRef sig ⟨S100000x64, .i32⟩) (arg1 : StableHlo.TRef sig ⟨S4096, .i32⟩) (φ : fn_take.Bufs) :
    fn_take.body (F := F) arg0 arg1 φ = seq (takeOps arg0 arg1 φ) := by
  unfold fn_take.body takeOps
  rw [wh_body]
  simp only [seq_append, takeS0, takeS1, seq, bind_assoc, pure_bind]
  try rfl

def take2S0 (arg0 : StableHlo.TRef sig ⟨S100000x64, .i32⟩) (arg1 : StableHlo.TRef sig ⟨S40960, .i32⟩) (φ : fn_take_2.Bufs) : List (HloOp τ sig (Elt F)) :=
  [ StableHlo.TRef.nullary φ.c (constantI S_ 32 0#32),
    StableHlo.TRef.unary φ.c φ.v0 (broadcastInDim S40960 ![] bcast_S_S40960),
    StableHlo.TRef.binary arg1 φ.v0 φ.v1 (cmpi .slt),
    StableHlo.TRef.nullary φ.c_0 (constantI S_ 32 100000#32),
    StableHlo.TRef.unary φ.c_0 φ.v2 (broadcastInDim S40960 ![] bcast_S_S40960),
    StableHlo.TRef.binary arg1 φ.v2 φ.v3 addi ]

def take2Sw0 (φ : fn_take_2.Bufs) : List (Ref sig .tc) :=
  [φ.c.ref, φ.v0.ref, φ.v1.ref, φ.c_0.ref, φ.v2.ref, φ.v3.ref]

def take2S1 (arg0 : StableHlo.TRef sig ⟨S100000x64, .i32⟩) (arg1 : StableHlo.TRef sig ⟨S40960, .i32⟩) (φ : fn_take_2.Bufs) : List (HloOp τ sig (Elt F)) :=
  [ StableHlo.TRef.unary φ.call0.v0 φ.v5 (broadcastInDim S40960x1 ![0] bcast_S40960_S40960x1_0),
    StableHlo.TRef.nullary φ.c_1 (constantI S1 32 99999#32),
    StableHlo.TRef.nullary φ.c_2 (constantI S_ 32 0#32),
    StableHlo.TRef.unary φ.c_2 φ.v6 (broadcastInDim S40960x1 ![] bcast_S_S40960x1),
    StableHlo.TRef.binary φ.v5 φ.v6 φ.v7 (cmpi .sge),
    StableHlo.TRef.unary φ.c_1 φ.v8 (broadcastInDim S1x1 ![1] bcast_S1_S1x1_1),
    StableHlo.TRef.unary φ.v8 φ.v9 (broadcastInDim S40960x1 ![0, 1] bcast_S1x1_S40960x1_0_1),
    StableHlo.TRef.binary φ.v5 φ.v9 φ.v10 (cmpi .sle),
    StableHlo.TRef.binary φ.v7 φ.v10 φ.v11 andi,
    StableHlo.TRef.nullary φ.c_3 (constantI S_ 1 1#1),
    StableHlo.TRef.binary φ.v11 φ.c_3 φ.v12 (fun x v => Host.reduce IntOp.andi x v reducesTo_S40960x1_S40960_d1 h_S_),
    StableHlo.TRef.binary arg0 φ.v5 φ.v13 (fun x i => Host.gather gather_S100000x64_S40960x1_S40960x64_1_0_n_n_0_1_164 x i),
    StableHlo.TRef.unary φ.v12 φ.v14 (broadcastInDim S40960x64 ![0] bcast_S40960_S40960x64_0),
    StableHlo.TRef.nullary φ.c_4 (constantI S_ 32 2147483648#32),
    StableHlo.TRef.unary φ.c_4 φ.v15 (broadcastInDim S40960x64 ![] bcast_S_S40960x64),
    StableHlo.TRef.ternary φ.v14 φ.v13 φ.v15 φ.v16 select ]

def take2Sw1 (φ : fn_take_2.Bufs) : List (Ref sig .tc) :=
  [φ.v5.ref, φ.c_1.ref, φ.c_2.ref, φ.v6.ref, φ.v7.ref, φ.v8.ref, φ.v9.ref, φ.v10.ref, φ.v11.ref, φ.c_3.ref, φ.v12.ref, φ.v13.ref, φ.v14.ref, φ.c_4.ref, φ.v15.ref, φ.v16.ref]

def take2Ops (arg0 : StableHlo.TRef sig ⟨S100000x64, .i32⟩) (arg1 : StableHlo.TRef sig ⟨S40960, .i32⟩) (φ : fn_take_2.Bufs) : List (HloOp τ sig (Elt F)) :=
  take2S0 arg0 arg1 φ ++ (wh3Ops φ.v1 φ.v3 arg1 φ.call0 ++ (take2S1 arg0 arg1 φ))

def take2Wr (φ : fn_take_2.Bufs) : List (Ref sig .tc) :=
  take2Sw0 φ ++ (wh3Wr φ.call0 ++ (take2Sw1 φ))

theorem take2Ops_line (arg0 : StableHlo.TRef sig ⟨S100000x64, .i32⟩) (arg1 : StableHlo.TRef sig ⟨S40960, .i32⟩) (φ : fn_take_2.Bufs) : Line (take2Ops (F := F) arg0 arg1 φ) (take2Wr φ) := by
  unfold take2Ops take2Wr take2S0 take2S1 take2Sw0 take2Sw1
  refine .append ?_ (.append (wh3Ops_line ..) ?_)
  all_goals repeat first | exact .nil | apply Line.append | apply Line.binary | apply Line.unary | apply Line.nullary | apply Line.reshape | apply Line.ternary | apply Line.unaryIndexed

set_option maxRecDepth 4096 in
theorem take2_body (arg0 : StableHlo.TRef sig ⟨S100000x64, .i32⟩) (arg1 : StableHlo.TRef sig ⟨S40960, .i32⟩) (φ : fn_take_2.Bufs) :
    fn_take_2.body (F := F) arg0 arg1 φ = seq (take2Ops arg0 arg1 φ) := by
  unfold fn_take_2.body take2Ops
  rw [wh3_body]
  simp only [seq_append, take2S0, take2S1, seq, bind_assoc, pure_bind]
  try rfl

def mainS0 : List (HloOp τ sig (Elt F)) :=
  [ StableHlo.nullary main_c (constantI S_ 32 42#32),
    StableHlo.nullary main_c_0 (constantI S_ 32 32#32),
    StableHlo.binary main_c main_c_0 main_v0 (Host.shrui : (⟨S_, .i32⟩ : BufTy).Contents (Elt F) → (⟨S_, .i32⟩ : BufTy).Contents (Elt F) → (⟨S_, .i32⟩ : BufTy).Contents (Elt F)),
    StableHlo.unary main_v0 main_v1 (id : (⟨S_, .i32⟩ : BufTy).Contents (Elt F) → (⟨S_, .i32⟩ : BufTy).Contents (Elt F)),
    StableHlo.unary main_v1 main_v2 (broadcastInDim S1 ![] bcast_S_S1 : (⟨S_, .i32⟩ : BufTy).Contents (Elt F) → (⟨S1, .i32⟩ : BufTy).Contents (Elt F)),
    StableHlo.nullary main_c_1 (constantI S_ 32 4294967295#32),
    StableHlo.binary main_c main_c_1 main_v3 (andi : (⟨S_, .i32⟩ : BufTy).Contents (Elt F) → (⟨S_, .i32⟩ : BufTy).Contents (Elt F) → (⟨S_, .i32⟩ : BufTy).Contents (Elt F)),
    StableHlo.unary main_v3 main_v4 (id : (⟨S_, .i32⟩ : BufTy).Contents (Elt F) → (⟨S_, .i32⟩ : BufTy).Contents (Elt F)),
    StableHlo.unary main_v4 main_v5 (broadcastInDim S1 ![] bcast_S_S1 : (⟨S_, .i32⟩ : BufTy).Contents (Elt F) → (⟨S1, .i32⟩ : BufTy).Contents (Elt F)),
    StableHlo.binary main_v2 main_v5 main_v6 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ]

def mainSw0 : List (Ref sig .tc) :=
  [main_c, main_c_0, main_v0, main_v1, main_v2, main_c_1, main_v3, main_v4, main_v5, main_v6]

theorem mainS0_line : Line (mainS0 (F := F)) (mainSw0) := by
  unfold mainS0 mainSw0
  repeat first | exact .nil | apply Line.append | apply Line.binary | apply Line.unary | apply Line.nullary | apply Line.reshape | apply Line.ternary | apply Line.unaryIndexed

def mainS1 : List (HloOp τ sig (Elt F)) :=
  [ StableHlo.unary main_v7 main_v8 ((extractStridedSlice S1x2 ![0, 0] · slices_S2x2_S1x2_0_0) : (⟨S2x2, .i32⟩ : BufTy).Contents (Elt F) → (⟨S1x2, .i32⟩ : BufTy).Contents (Elt F)),
    StableHlo.reshape main_v8 main_v9 rfl shapeCasts_S1x2_S2,
    StableHlo.unary main_v7 main_v10 ((extractStridedSlice S1x2 ![1, 0] · slices_S2x2_S1x2_1_0) : (⟨S2x2, .i32⟩ : BufTy).Contents (Elt F) → (⟨S1x2, .i32⟩ : BufTy).Contents (Elt F)),
    StableHlo.reshape main_v10 main_v11 rfl shapeCasts_S1x2_S2 ]

def mainSw1 : List (Ref sig .tc) :=
  [main_v8, main_v9, main_v10, main_v11]

def mainS2 : List (HloOp τ sig (Elt F)) :=
  [ StableHlo.nullary main_v13 (iotaInDim S64 32 0) ]

def mainSw2 : List (Ref sig .tc) :=
  [main_v13]

def mainS3 : List (HloOp τ sig (Elt F)) :=
  [ StableHlo.nullary main_c_2 (constantI S_ 32 0#32),
    StableHlo.unary main_c_2 main_v15 (broadcastInDim S64 ![] bcast_S_S64 : (⟨S_, .i32⟩ : BufTy).Contents (Elt F) → (⟨S64, .i32⟩ : BufTy).Contents (Elt F)),
    StableHlo.binary main_v14 main_v15 main_v16 (cmpi .slt : (⟨S64, .i32⟩ : BufTy).Contents (Elt F) → (⟨S64, .i32⟩ : BufTy).Contents (Elt F) → (⟨S64, .i1⟩ : BufTy).Contents (Elt F)),
    StableHlo.nullary main_c_3 (constantI S_ 32 64#32),
    StableHlo.unary main_c_3 main_v17 (broadcastInDim S64 ![] bcast_S_S64 : (⟨S_, .i32⟩ : BufTy).Contents (Elt F) → (⟨S64, .i32⟩ : BufTy).Contents (Elt F)),
    StableHlo.binary main_v14 main_v17 main_v18 (addi : (⟨S64, .i32⟩ : BufTy).Contents (Elt F) → (⟨S64, .i32⟩ : BufTy).Contents (Elt F) → (⟨S64, .i32⟩ : BufTy).Contents (Elt F)),
    StableHlo.ternary main_v16 main_v18 main_v14 main_v19 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v19 main_v20 (broadcastInDim S64x1 ![0] bcast_S64_S64x1_0 : (⟨S64, .i32⟩ : BufTy).Contents (Elt F) → (⟨S64x1, .i32⟩ : BufTy).Contents (Elt F)),
    StableHlo.binary main_v12 main_v20 main_v21 ((fun x i => Host.gather gather_S4096x64_S64x1_S4096x64_0_1_n_n_1_1_40961 x i) : (⟨S4096x64, .i32⟩ : BufTy).Contents (Elt F) → (⟨S64x1, .i32⟩ : BufTy).Contents (Elt F) → (⟨S4096x64, .i32⟩ : BufTy).Contents (Elt F)),
    StableHlo.nullary main_c_4 (constantI S_ 32 0#32),
    StableHlo.nullary main_c_5 (constantI S_ 32 0#32),
    StableHlo.unaryIndexed main_v21 ![main_c_4, main_c_5] ⟨S_, .i32⟩ main_v22 ((fun x i => Host.dynamicSlice S4096x10 x (fun k => (i k (Shape.Idx.first h_S_)).toInt) sliceFits_S4096x64_S4096x10) : (⟨S4096x64, .i32⟩ : BufTy).Contents (Elt F) → (Fin 2 → (⟨S_, .i32⟩ : BufTy).Contents (Elt F)) → (⟨S4096x10, .i32⟩ : BufTy).Contents (Elt F)),
    StableHlo.reshape main_v22 main_v23 rfl shapeCasts_S4096x10_S40960 ]

def mainSw3 : List (Ref sig .tc) :=
  [main_c_2, main_v15, main_v16, main_c_3, main_v17, main_v18, main_v19, main_v20, main_v21, main_c_4, main_c_5, main_v22, main_v23]

def mainS4 : List (HloOp τ sig (Elt F)) :=
  [ StableHlo.nullary main_v25 (iotaInDim S64 32 0) ]

def mainSw4 : List (Ref sig .tc) :=
  [main_v25]

def mainS5 : List (HloOp τ sig (Elt F)) :=
  [ StableHlo.nullary main_c_6 (constantI S_ 32 0#32),
    StableHlo.unary main_c_6 main_v27 (broadcastInDim S64 ![] bcast_S_S64 : (⟨S_, .i32⟩ : BufTy).Contents (Elt F) → (⟨S64, .i32⟩ : BufTy).Contents (Elt F)),
    StableHlo.binary main_v26 main_v27 main_v28 (cmpi .slt : (⟨S64, .i32⟩ : BufTy).Contents (Elt F) → (⟨S64, .i32⟩ : BufTy).Contents (Elt F) → (⟨S64, .i1⟩ : BufTy).Contents (Elt F)),
    StableHlo.nullary main_c_7 (constantI S_ 32 64#32),
    StableHlo.unary main_c_7 main_v29 (broadcastInDim S64 ![] bcast_S_S64 : (⟨S_, .i32⟩ : BufTy).Contents (Elt F) → (⟨S64, .i32⟩ : BufTy).Contents (Elt F)),
    StableHlo.binary main_v26 main_v29 main_v30 (addi : (⟨S64, .i32⟩ : BufTy).Contents (Elt F) → (⟨S64, .i32⟩ : BufTy).Contents (Elt F) → (⟨S64, .i32⟩ : BufTy).Contents (Elt F)),
    StableHlo.ternary main_v28 main_v30 main_v26 main_v31 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v31 main_v32 (broadcastInDim S64x1 ![0] bcast_S64_S64x1_0 : (⟨S64, .i32⟩ : BufTy).Contents (Elt F) → (⟨S64x1, .i32⟩ : BufTy).Contents (Elt F)),
    StableHlo.binary main_v24 main_v32 main_v33 ((fun x i => Host.gather gather_S40960x64_S64x1_S40960x64_0_1_n_n_1_1_409601 x i) : (⟨S40960x64, .i32⟩ : BufTy).Contents (Elt F) → (⟨S64x1, .i32⟩ : BufTy).Contents (Elt F) → (⟨S40960x64, .i32⟩ : BufTy).Contents (Elt F)),
    StableHlo.nullary main_c_8 (constantI S_ 32 0#32),
    StableHlo.nullary main_c_9 (constantI S_ 32 0#32),
    StableHlo.unaryIndexed main_v33 ![main_c_8, main_c_9] ⟨S_, .i32⟩ main_v34 ((fun x i => Host.dynamicSlice S40960x25 x (fun k => (i k (Shape.Idx.first h_S_)).toInt) sliceFits_S40960x64_S40960x25) : (⟨S40960x64, .i32⟩ : BufTy).Contents (Elt F) → (Fin 2 → (⟨S_, .i32⟩ : BufTy).Contents (Elt F)) → (⟨S40960x25, .i32⟩ : BufTy).Contents (Elt F)) ]

def mainSw5 : List (Ref sig .tc) :=
  [main_c_6, main_v27, main_v28, main_c_7, main_v29, main_v30, main_v31, main_v32, main_v33, main_c_8, main_c_9, main_v34]

def mainOps : List (HloOp τ sig (Elt F)) :=
  mainS0 ++ (splitOps (.of main_v6) main_call0 ++ (mainS1 ++ (takeOps (.of main_arg1) (.of main_arg0) main_call1 ++ (mainS2 ++ (shuffleOps (.of main_v9) (.of main_v13) main_call2 ++ (mainS3 ++ (take2Ops (.of main_arg1) (.of main_v23) main_call3 ++ (mainS4 ++ (shuffleOps (.of main_v11) (.of main_v25) main_call4 ++ (mainS5))))))))))

def mainWr : List (Ref sig .tc) :=
  mainSw0 ++ (splitWr main_call0 ++ (mainSw1 ++ (takeWr main_call1 ++ (mainSw2 ++ (shuffleWr main_call2 ++ (mainSw3 ++ (take2Wr main_call3 ++ (mainSw4 ++ (shuffleWr main_call4 ++ (mainSw5))))))))))

theorem mainOps_line : Line (mainOps (F := F)) (mainWr) := by
  unfold mainOps mainWr mainS0 mainS1 mainS2 mainS3 mainS4 mainS5 mainSw0 mainSw1 mainSw2 mainSw3 mainSw4 mainSw5
  refine .append ?_ (.append (splitOps_line ..) (.append ?_ (.append (takeOps_line ..) (.append ?_ (.append (shuffleOps_line ..) (.append ?_ (.append (take2Ops_line ..) (.append ?_ (.append (shuffleOps_line ..) ?_)))))))))
  all_goals repeat first | exact .nil | apply Line.append | apply Line.binary | apply Line.unary | apply Line.nullary | apply Line.reshape | apply Line.ternary | apply Line.unaryIndexed

end Cert.RefRun

end
-- ==== Proof.RefRunT_c0_0.lean ====
/- One call of @threefry2x32, window by window: its two results are the pure function of its arguments' contents. -/
import proofs.«215163_g69475390980333_cont_9to1_m_779_28_alg».proof.Proof.RefRunOps

noncomputable section

namespace Cert.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]
theorem tf_c0_0_w0 (V : Valuation τ sig (Elt F)) :
    let A := after (tfC0 (F := F) main_call0.v1 main_call0.v3 main_call0.v10 main_call0.v9 main_call0.call0) V
    RefFn.threefry2x32 (V (Proc.devRef .tc main_call0_v1)) (V (Proc.devRef .tc main_call0_v3)) (V (Proc.devRef .tc main_call0_v10)) (V (Proc.devRef .tc main_call0_v9))
      = RefFn.threefry2x32_part1 (A (Proc.devRef .tc main_call0_v1)) (A (Proc.devRef .tc main_call0_v3)) (A (Proc.devRef .tc main_call0_call0_v1)) (A (Proc.devRef .tc main_call0_call0_v13)) (A (Proc.devRef .tc main_call0_call0_v18)) := by
  unfold RefFn.threefry2x32 RefFn.tf
  simp only [tfC0]
  after_results_simp
  all_goals rfl

theorem tf_c0_0_w1 (V : Valuation τ sig (Elt F)) :
    let A := after (tfC1 (F := F) main_call0.v1 main_call0.v3 main_call0.v10 main_call0.v9 main_call0.call0) V
    RefFn.threefry2x32_part1 (V (Proc.devRef .tc main_call0_v1)) (V (Proc.devRef .tc main_call0_v3)) (V (Proc.devRef .tc main_call0_call0_v1)) (V (Proc.devRef .tc main_call0_call0_v13)) (V (Proc.devRef .tc main_call0_call0_v18))
      = RefFn.threefry2x32_part2 (A (Proc.devRef .tc main_call0_v1)) (A (Proc.devRef .tc main_call0_v3)) (A (Proc.devRef .tc main_call0_call0_v1)) (A (Proc.devRef .tc main_call0_call0_v35)) (A (Proc.devRef .tc main_call0_call0_v37)) (A (Proc.devRef .tc main_call0_call0_c_8)) := by
  unfold RefFn.threefry2x32_part1 RefFn.tf_part1
  simp only [tfC1]
  after_results_simp
  all_goals rfl

theorem tf_c0_0_w2 (V : Valuation τ sig (Elt F)) :
    let A := after (tfC2 (F := F) main_call0.v1 main_call0.v3 main_call0.v10 main_call0.v9 main_call0.call0) V
    RefFn.threefry2x32_part2 (V (Proc.devRef .tc main_call0_v1)) (V (Proc.devRef .tc main_call0_v3)) (V (Proc.devRef .tc main_call0_call0_v1)) (V (Proc.devRef .tc main_call0_call0_v35)) (V (Proc.devRef .tc main_call0_call0_v37)) (V (Proc.devRef .tc main_call0_call0_c_8))
      = RefFn.threefry2x32_part3 (A (Proc.devRef .tc main_call0_v1)) (A (Proc.devRef .tc main_call0_v3)) (A (Proc.devRef .tc main_call0_call0_v1)) (A (Proc.devRef .tc main_call0_call0_v53)) (A (Proc.devRef .tc main_call0_call0_v54)) (A (Proc.devRef .tc main_call0_call0_v56)) := by
  unfold RefFn.threefry2x32_part2 RefFn.tf_part2
  simp only [tfC2]
  after_results_simp
  all_goals rfl

theorem tf_c0_0_w3 (V : Valuation τ sig (Elt F)) :
    let A := after (tfC3 (F := F) main_call0.v1 main_call0.v3 main_call0.v10 main_call0.v9 main_call0.call0) V
    RefFn.threefry2x32_part3 (V (Proc.devRef .tc main_call0_v1)) (V (Proc.devRef .tc main_call0_v3)) (V (Proc.devRef .tc main_call0_call0_v1)) (V (Proc.devRef .tc main_call0_call0_v53)) (V (Proc.devRef .tc main_call0_call0_v54)) (V (Proc.devRef .tc main_call0_call0_v56))
      = RefFn.threefry2x32_part4 (A (Proc.devRef .tc main_call0_v1)) (A (Proc.devRef .tc main_call0_v3)) (A (Proc.devRef .tc main_call0_call0_v1)) (A (Proc.devRef .tc main_call0_call0_v73)) (A (Proc.devRef .tc main_call0_call0_v74)) (A (Proc.devRef .tc main_call0_call0_v75)) := by
  unfold RefFn.threefry2x32_part3 RefFn.tf_part3
  simp only [tfC3]
  after_results_simp
  all_goals rfl

theorem tf_c0_0_w4 (V : Valuation τ sig (Elt F)) :
    let A := after (tfC4 (F := F) main_call0.v1 main_call0.v3 main_call0.v10 main_call0.v9 main_call0.call0) V
    RefFn.threefry2x32_part4 (V (Proc.devRef .tc main_call0_v1)) (V (Proc.devRef .tc main_call0_v3)) (V (Proc.devRef .tc main_call0_call0_v1)) (V (Proc.devRef .tc main_call0_call0_v73)) (V (Proc.devRef .tc main_call0_call0_v74)) (V (Proc.devRef .tc main_call0_call0_v75))
      = RefFn.threefry2x32_part5 (A (Proc.devRef .tc main_call0_v1)) (A (Proc.devRef .tc main_call0_v3)) (A (Proc.devRef .tc main_call0_call0_v1)) (A (Proc.devRef .tc main_call0_call0_v88)) (A (Proc.devRef .tc main_call0_call0_v94)) := by
  unfold RefFn.threefry2x32_part4 RefFn.tf_part4
  simp only [tfC4]
  after_results_simp
  all_goals rfl

theorem tf_c0_0_w5 (V : Valuation τ sig (Elt F)) :
    let A := after (tfC5 (F := F) main_call0.v1 main_call0.v3 main_call0.v10 main_call0.v9 main_call0.call0) V
    RefFn.threefry2x32_part5 (V (Proc.devRef .tc main_call0_v1)) (V (Proc.devRef .tc main_call0_v3)) (V (Proc.devRef .tc main_call0_call0_v1)) (V (Proc.devRef .tc main_call0_call0_v88)) (V (Proc.devRef .tc main_call0_call0_v94))
      = RefFn.threefry2x32_part6 (A (Proc.devRef .tc main_call0_v1)) (A (Proc.devRef .tc main_call0_v3)) (A (Proc.devRef .tc main_call0_call0_v1)) (A (Proc.devRef .tc main_call0_call0_v108)) (A (Proc.devRef .tc main_call0_call0_v113)) := by
  unfold RefFn.threefry2x32_part5 RefFn.tf_part5
  simp only [tfC5]
  after_results_simp
  all_goals rfl

theorem tf_c0_0_w6 (V : Valuation τ sig (Elt F)) :
    let A := after (tfC6 (F := F) main_call0.v1 main_call0.v3 main_call0.v10 main_call0.v9 main_call0.call0) V
    RefFn.threefry2x32_part6 (V (Proc.devRef .tc main_call0_v1)) (V (Proc.devRef .tc main_call0_v3)) (V (Proc.devRef .tc main_call0_call0_v1)) (V (Proc.devRef .tc main_call0_call0_v108)) (V (Proc.devRef .tc main_call0_call0_v113))
      = RefFn.threefry2x32_part7 (A (Proc.devRef .tc main_call0_v1)) (A (Proc.devRef .tc main_call0_v3)) (A (Proc.devRef .tc main_call0_call0_v1)) (A (Proc.devRef .tc main_call0_call0_v128)) (A (Proc.devRef .tc main_call0_call0_v129)) (A (Proc.devRef .tc main_call0_call0_v131)) (A (Proc.devRef .tc main_call0_call0_c_34)) := by
  unfold RefFn.threefry2x32_part6 RefFn.tf_part6
  simp only [tfC6]
  after_results_simp
  all_goals rfl

theorem tf_c0_0_w7 (V : Valuation τ sig (Elt F)) :
    let A := after (tfC7 (F := F) main_call0.v1 main_call0.v3 main_call0.v10 main_call0.v9 main_call0.call0) V
    RefFn.threefry2x32_part7 (V (Proc.devRef .tc main_call0_v1)) (V (Proc.devRef .tc main_call0_v3)) (V (Proc.devRef .tc main_call0_call0_v1)) (V (Proc.devRef .tc main_call0_call0_v128)) (V (Proc.devRef .tc main_call0_call0_v129)) (V (Proc.devRef .tc main_call0_call0_v131)) (V (Proc.devRef .tc main_call0_call0_c_34))
      = RefFn.threefry2x32_part8 (A (Proc.devRef .tc main_call0_v1)) (A (Proc.devRef .tc main_call0_call0_v1)) (A (Proc.devRef .tc main_call0_call0_v148)) (A (Proc.devRef .tc main_call0_call0_v149)) (A (Proc.devRef .tc main_call0_call0_v151)) := by
  unfold RefFn.threefry2x32_part7 RefFn.tf_part7
  simp only [tfC7]
  after_results_simp
  all_goals rfl

theorem tf_c0_0_w8 (V : Valuation τ sig (Elt F)) :
    let A := after (tfC8 (F := F) main_call0.v1 main_call0.v3 main_call0.v10 main_call0.v9 main_call0.call0) V
    RefFn.threefry2x32_part8 (V (Proc.devRef .tc main_call0_v1)) (V (Proc.devRef .tc main_call0_call0_v1)) (V (Proc.devRef .tc main_call0_call0_v148)) (V (Proc.devRef .tc main_call0_call0_v149)) (V (Proc.devRef .tc main_call0_call0_v151))
      = RefFn.threefry2x32_part9 (A (Proc.devRef .tc main_call0_v1)) (A (Proc.devRef .tc main_call0_call0_v163)) (A (Proc.devRef .tc main_call0_call0_v169)) (A (Proc.devRef .tc main_call0_call0_v170)) := by
  unfold RefFn.threefry2x32_part8 RefFn.tf_part8
  simp only [tfC8]
  after_results_simp
  all_goals rfl

theorem tf_c0_0_w9 (V : Valuation τ sig (Elt F)) :
    let A := after (tfC9 (F := F) main_call0.v1 main_call0.v3 main_call0.v10 main_call0.v9 main_call0.call0) V
    RefFn.threefry2x32_part9 (V (Proc.devRef .tc main_call0_v1)) (V (Proc.devRef .tc main_call0_call0_v163)) (V (Proc.devRef .tc main_call0_call0_v169)) (V (Proc.devRef .tc main_call0_call0_v170))
      = (A (Proc.devRef .tc main_call0_v11_0), A (Proc.devRef .tc main_call0_v11_1)) := by
  unfold RefFn.threefry2x32_part9 RefFn.tf_part9
  simp only [tfC9]
  after_results_simp
  all_goals rfl

theorem tf_c0_0_val (V : Valuation τ sig (Elt F)) :
    (after (tfOps (F := F) main_call0.v1 main_call0.v3 main_call0.v10 main_call0.v9 main_call0.call0) V (Proc.devRef .tc main_call0_v11_0), after (tfOps (F := F) main_call0.v1 main_call0.v3 main_call0.v10 main_call0.v9 main_call0.call0) V (Proc.devRef .tc main_call0_v11_1))
      = RefFn.threefry2x32 (V (Proc.devRef .tc main_call0_v1)) (V (Proc.devRef .tc main_call0_v3)) (V (Proc.devRef .tc main_call0_v10)) (V (Proc.devRef .tc main_call0_v9)) := by
  unfold tfOps
  simp only [after_app]
  exact ((tf_c0_0_w0 V).trans ((tf_c0_0_w1 _).trans ((tf_c0_0_w2 _).trans ((tf_c0_0_w3 _).trans ((tf_c0_0_w4 _).trans ((tf_c0_0_w5 _).trans ((tf_c0_0_w6 _).trans ((tf_c0_0_w7 _).trans ((tf_c0_0_w8 _).trans (tf_c0_0_w9 _)))))))))).symm

theorem tf_c0_0_v171 (V : Valuation τ sig (Elt F)) :
    after (tfOps (F := F) main_call0.v1 main_call0.v3 main_call0.v10 main_call0.v9 main_call0.call0) V (no_index (Proc.devRef .tc main_call0_v11_0)) = (RefFn.threefry2x32 (V (Proc.devRef .tc main_call0_v1)) (V (Proc.devRef .tc main_call0_v3)) (V (Proc.devRef .tc main_call0_v10)) (V (Proc.devRef .tc main_call0_v9))).1 :=
  congrArg Prod.fst (tf_c0_0_val V)

theorem tf_c0_0_v175 (V : Valuation τ sig (Elt F)) :
    after (tfOps (F := F) main_call0.v1 main_call0.v3 main_call0.v10 main_call0.v9 main_call0.call0) V (no_index (Proc.devRef .tc main_call0_v11_1)) = (RefFn.threefry2x32 (V (Proc.devRef .tc main_call0_v1)) (V (Proc.devRef .tc main_call0_v3)) (V (Proc.devRef .tc main_call0_v10)) (V (Proc.devRef .tc main_call0_v9))).2 :=
  congrArg Prod.snd (tf_c0_0_val V)

end Cert.RefRun

end
-- ==== Proof.RefRunT_c2_0_0.lean ====
/- One call of @threefry2x32, window by window: its two results are the pure function of its arguments' contents. -/
import proofs.«215163_g69475390980333_cont_9to1_m_779_28_alg».proof.Proof.RefRunOps

noncomputable section

namespace Cert.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]
theorem tf_c2_0_0_w0 (V : Valuation τ sig (Elt F)) :
    let A := after (tfC0 (F := F) main_call2.call0.v1 main_call2.call0.v3 main_call2.call0.v10 main_call2.call0.v9 main_call2.call0.call0) V
    RefFn.threefry2x32 (V (Proc.devRef .tc main_call2_call0_v1)) (V (Proc.devRef .tc main_call2_call0_v3)) (V (Proc.devRef .tc main_call2_call0_v10)) (V (Proc.devRef .tc main_call2_call0_v9))
      = RefFn.threefry2x32_part1 (A (Proc.devRef .tc main_call2_call0_v1)) (A (Proc.devRef .tc main_call2_call0_v3)) (A (Proc.devRef .tc main_call2_call0_call0_v1)) (A (Proc.devRef .tc main_call2_call0_call0_v13)) (A (Proc.devRef .tc main_call2_call0_call0_v18)) := by
  unfold RefFn.threefry2x32 RefFn.tf
  simp only [tfC0]
  after_results_simp
  all_goals rfl

theorem tf_c2_0_0_w1 (V : Valuation τ sig (Elt F)) :
    let A := after (tfC1 (F := F) main_call2.call0.v1 main_call2.call0.v3 main_call2.call0.v10 main_call2.call0.v9 main_call2.call0.call0) V
    RefFn.threefry2x32_part1 (V (Proc.devRef .tc main_call2_call0_v1)) (V (Proc.devRef .tc main_call2_call0_v3)) (V (Proc.devRef .tc main_call2_call0_call0_v1)) (V (Proc.devRef .tc main_call2_call0_call0_v13)) (V (Proc.devRef .tc main_call2_call0_call0_v18))
      = RefFn.threefry2x32_part2 (A (Proc.devRef .tc main_call2_call0_v1)) (A (Proc.devRef .tc main_call2_call0_v3)) (A (Proc.devRef .tc main_call2_call0_call0_v1)) (A (Proc.devRef .tc main_call2_call0_call0_v35)) (A (Proc.devRef .tc main_call2_call0_call0_v37)) (A (Proc.devRef .tc main_call2_call0_call0_c_8)) := by
  unfold RefFn.threefry2x32_part1 RefFn.tf_part1
  simp only [tfC1]
  after_results_simp
  all_goals rfl

theorem tf_c2_0_0_w2 (V : Valuation τ sig (Elt F)) :
    let A := after (tfC2 (F := F) main_call2.call0.v1 main_call2.call0.v3 main_call2.call0.v10 main_call2.call0.v9 main_call2.call0.call0) V
    RefFn.threefry2x32_part2 (V (Proc.devRef .tc main_call2_call0_v1)) (V (Proc.devRef .tc main_call2_call0_v3)) (V (Proc.devRef .tc main_call2_call0_call0_v1)) (V (Proc.devRef .tc main_call2_call0_call0_v35)) (V (Proc.devRef .tc main_call2_call0_call0_v37)) (V (Proc.devRef .tc main_call2_call0_call0_c_8))
      = RefFn.threefry2x32_part3 (A (Proc.devRef .tc main_call2_call0_v1)) (A (Proc.devRef .tc main_call2_call0_v3)) (A (Proc.devRef .tc main_call2_call0_call0_v1)) (A (Proc.devRef .tc main_call2_call0_call0_v53)) (A (Proc.devRef .tc main_call2_call0_call0_v54)) (A (Proc.devRef .tc main_call2_call0_call0_v56)) := by
  unfold RefFn.threefry2x32_part2 RefFn.tf_part2
  simp only [tfC2]
  after_results_simp
  all_goals rfl

theorem tf_c2_0_0_w3 (V : Valuation τ sig (Elt F)) :
    let A := after (tfC3 (F := F) main_call2.call0.v1 main_call2.call0.v3 main_call2.call0.v10 main_call2.call0.v9 main_call2.call0.call0) V
    RefFn.threefry2x32_part3 (V (Proc.devRef .tc main_call2_call0_v1)) (V (Proc.devRef .tc main_call2_call0_v3)) (V (Proc.devRef .tc main_call2_call0_call0_v1)) (V (Proc.devRef .tc main_call2_call0_call0_v53)) (V (Proc.devRef .tc main_call2_call0_call0_v54)) (V (Proc.devRef .tc main_call2_call0_call0_v56))
      = RefFn.threefry2x32_part4 (A (Proc.devRef .tc main_call2_call0_v1)) (A (Proc.devRef .tc main_call2_call0_v3)) (A (Proc.devRef .tc main_call2_call0_call0_v1)) (A (Proc.devRef .tc main_call2_call0_call0_v73)) (A (Proc.devRef .tc main_call2_call0_call0_v74)) (A (Proc.devRef .tc main_call2_call0_call0_v75)) := by
  unfold RefFn.threefry2x32_part3 RefFn.tf_part3
  simp only [tfC3]
  after_results_simp
  all_goals rfl

theorem tf_c2_0_0_w4 (V : Valuation τ sig (Elt F)) :
    let A := after (tfC4 (F := F) main_call2.call0.v1 main_call2.call0.v3 main_call2.call0.v10 main_call2.call0.v9 main_call2.call0.call0) V
    RefFn.threefry2x32_part4 (V (Proc.devRef .tc main_call2_call0_v1)) (V (Proc.devRef .tc main_call2_call0_v3)) (V (Proc.devRef .tc main_call2_call0_call0_v1)) (V (Proc.devRef .tc main_call2_call0_call0_v73)) (V (Proc.devRef .tc main_call2_call0_call0_v74)) (V (Proc.devRef .tc main_call2_call0_call0_v75))
      = RefFn.threefry2x32_part5 (A (Proc.devRef .tc main_call2_call0_v1)) (A (Proc.devRef .tc main_call2_call0_v3)) (A (Proc.devRef .tc main_call2_call0_call0_v1)) (A (Proc.devRef .tc main_call2_call0_call0_v88)) (A (Proc.devRef .tc main_call2_call0_call0_v94)) := by
  unfold RefFn.threefry2x32_part4 RefFn.tf_part4
  simp only [tfC4]
  after_results_simp
  all_goals rfl

theorem tf_c2_0_0_w5 (V : Valuation τ sig (Elt F)) :
    let A := after (tfC5 (F := F) main_call2.call0.v1 main_call2.call0.v3 main_call2.call0.v10 main_call2.call0.v9 main_call2.call0.call0) V
    RefFn.threefry2x32_part5 (V (Proc.devRef .tc main_call2_call0_v1)) (V (Proc.devRef .tc main_call2_call0_v3)) (V (Proc.devRef .tc main_call2_call0_call0_v1)) (V (Proc.devRef .tc main_call2_call0_call0_v88)) (V (Proc.devRef .tc main_call2_call0_call0_v94))
      = RefFn.threefry2x32_part6 (A (Proc.devRef .tc main_call2_call0_v1)) (A (Proc.devRef .tc main_call2_call0_v3)) (A (Proc.devRef .tc main_call2_call0_call0_v1)) (A (Proc.devRef .tc main_call2_call0_call0_v108)) (A (Proc.devRef .tc main_call2_call0_call0_v113)) := by
  unfold RefFn.threefry2x32_part5 RefFn.tf_part5
  simp only [tfC5]
  after_results_simp
  all_goals rfl

theorem tf_c2_0_0_w6 (V : Valuation τ sig (Elt F)) :
    let A := after (tfC6 (F := F) main_call2.call0.v1 main_call2.call0.v3 main_call2.call0.v10 main_call2.call0.v9 main_call2.call0.call0) V
    RefFn.threefry2x32_part6 (V (Proc.devRef .tc main_call2_call0_v1)) (V (Proc.devRef .tc main_call2_call0_v3)) (V (Proc.devRef .tc main_call2_call0_call0_v1)) (V (Proc.devRef .tc main_call2_call0_call0_v108)) (V (Proc.devRef .tc main_call2_call0_call0_v113))
      = RefFn.threefry2x32_part7 (A (Proc.devRef .tc main_call2_call0_v1)) (A (Proc.devRef .tc main_call2_call0_v3)) (A (Proc.devRef .tc main_call2_call0_call0_v1)) (A (Proc.devRef .tc main_call2_call0_call0_v128)) (A (Proc.devRef .tc main_call2_call0_call0_v129)) (A (Proc.devRef .tc main_call2_call0_call0_v131)) (A (Proc.devRef .tc main_call2_call0_call0_c_34)) := by
  unfold RefFn.threefry2x32_part6 RefFn.tf_part6
  simp only [tfC6]
  after_results_simp
  all_goals rfl

theorem tf_c2_0_0_w7 (V : Valuation τ sig (Elt F)) :
    let A := after (tfC7 (F := F) main_call2.call0.v1 main_call2.call0.v3 main_call2.call0.v10 main_call2.call0.v9 main_call2.call0.call0) V
    RefFn.threefry2x32_part7 (V (Proc.devRef .tc main_call2_call0_v1)) (V (Proc.devRef .tc main_call2_call0_v3)) (V (Proc.devRef .tc main_call2_call0_call0_v1)) (V (Proc.devRef .tc main_call2_call0_call0_v128)) (V (Proc.devRef .tc main_call2_call0_call0_v129)) (V (Proc.devRef .tc main_call2_call0_call0_v131)) (V (Proc.devRef .tc main_call2_call0_call0_c_34))
      = RefFn.threefry2x32_part8 (A (Proc.devRef .tc main_call2_call0_v1)) (A (Proc.devRef .tc main_call2_call0_call0_v1)) (A (Proc.devRef .tc main_call2_call0_call0_v148)) (A (Proc.devRef .tc main_call2_call0_call0_v149)) (A (Proc.devRef .tc main_call2_call0_call0_v151)) := by
  unfold RefFn.threefry2x32_part7 RefFn.tf_part7
  simp only [tfC7]
  after_results_simp
  all_goals rfl

theorem tf_c2_0_0_w8 (V : Valuation τ sig (Elt F)) :
    let A := after (tfC8 (F := F) main_call2.call0.v1 main_call2.call0.v3 main_call2.call0.v10 main_call2.call0.v9 main_call2.call0.call0) V
    RefFn.threefry2x32_part8 (V (Proc.devRef .tc main_call2_call0_v1)) (V (Proc.devRef .tc main_call2_call0_call0_v1)) (V (Proc.devRef .tc main_call2_call0_call0_v148)) (V (Proc.devRef .tc main_call2_call0_call0_v149)) (V (Proc.devRef .tc main_call2_call0_call0_v151))
      = RefFn.threefry2x32_part9 (A (Proc.devRef .tc main_call2_call0_v1)) (A (Proc.devRef .tc main_call2_call0_call0_v163)) (A (Proc.devRef .tc main_call2_call0_call0_v169)) (A (Proc.devRef .tc main_call2_call0_call0_v170)) := by
  unfold RefFn.threefry2x32_part8 RefFn.tf_part8
  simp only [tfC8]
  after_results_simp
  all_goals rfl

theorem tf_c2_0_0_w9 (V : Valuation τ sig (Elt F)) :
    let A := after (tfC9 (F := F) main_call2.call0.v1 main_call2.call0.v3 main_call2.call0.v10 main_call2.call0.v9 main_call2.call0.call0) V
    RefFn.threefry2x32_part9 (V (Proc.devRef .tc main_call2_call0_v1)) (V (Proc.devRef .tc main_call2_call0_call0_v163)) (V (Proc.devRef .tc main_call2_call0_call0_v169)) (V (Proc.devRef .tc main_call2_call0_call0_v170))
      = (A (Proc.devRef .tc main_call2_call0_v11_0), A (Proc.devRef .tc main_call2_call0_v11_1)) := by
  unfold RefFn.threefry2x32_part9 RefFn.tf_part9
  simp only [tfC9]
  after_results_simp
  all_goals rfl

theorem tf_c2_0_0_val (V : Valuation τ sig (Elt F)) :
    (after (tfOps (F := F) main_call2.call0.v1 main_call2.call0.v3 main_call2.call0.v10 main_call2.call0.v9 main_call2.call0.call0) V (Proc.devRef .tc main_call2_call0_v11_0), after (tfOps (F := F) main_call2.call0.v1 main_call2.call0.v3 main_call2.call0.v10 main_call2.call0.v9 main_call2.call0.call0) V (Proc.devRef .tc main_call2_call0_v11_1))
      = RefFn.threefry2x32 (V (Proc.devRef .tc main_call2_call0_v1)) (V (Proc.devRef .tc main_call2_call0_v3)) (V (Proc.devRef .tc main_call2_call0_v10)) (V (Proc.devRef .tc main_call2_call0_v9)) := by
  unfold tfOps
  simp only [after_app]
  exact ((tf_c2_0_0_w0 V).trans ((tf_c2_0_0_w1 _).trans ((tf_c2_0_0_w2 _).trans ((tf_c2_0_0_w3 _).trans ((tf_c2_0_0_w4 _).trans ((tf_c2_0_0_w5 _).trans ((tf_c2_0_0_w6 _).trans ((tf_c2_0_0_w7 _).trans ((tf_c2_0_0_w8 _).trans (tf_c2_0_0_w9 _)))))))))).symm

theorem tf_c2_0_0_v171 (V : Valuation τ sig (Elt F)) :
    after (tfOps (F := F) main_call2.call0.v1 main_call2.call0.v3 main_call2.call0.v10 main_call2.call0.v9 main_call2.call0.call0) V (no_index (Proc.devRef .tc main_call2_call0_v11_0)) = (RefFn.threefry2x32 (V (Proc.devRef .tc main_call2_call0_v1)) (V (Proc.devRef .tc main_call2_call0_v3)) (V (Proc.devRef .tc main_call2_call0_v10)) (V (Proc.devRef .tc main_call2_call0_v9))).1 :=
  congrArg Prod.fst (tf_c2_0_0_val V)

theorem tf_c2_0_0_v175 (V : Valuation τ sig (Elt F)) :
    after (tfOps (F := F) main_call2.call0.v1 main_call2.call0.v3 main_call2.call0.v10 main_call2.call0.v9 main_call2.call0.call0) V (no_index (Proc.devRef .tc main_call2_call0_v11_1)) = (RefFn.threefry2x32 (V (Proc.devRef .tc main_call2_call0_v1)) (V (Proc.devRef .tc main_call2_call0_v3)) (V (Proc.devRef .tc main_call2_call0_v10)) (V (Proc.devRef .tc main_call2_call0_v9))).2 :=
  congrArg Prod.snd (tf_c2_0_0_val V)

end Cert.RefRun

end
-- ==== Proof.RefRunT_c2_1.lean ====
/- One call of @threefry2x32_1, window by window: its two results are the pure function of its arguments' contents. -/
import proofs.«215163_g69475390980333_cont_9to1_m_779_28_alg».proof.Proof.RefRunOps

noncomputable section

namespace Cert.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]
theorem tg_c2_1_w0 (V : Valuation τ sig (Elt F)) :
    let A := after (tgC0 (F := F) main_call2.v6 main_call2.v8 main_call2.v15 main_call2.v14 main_call2.call1) V
    RefFn.threefry2x32_1 (V (Proc.devRef .tc main_call2_v6)) (V (Proc.devRef .tc main_call2_v8)) (V (Proc.devRef .tc main_call2_v15)) (V (Proc.devRef .tc main_call2_v14))
      = RefFn.threefry2x32_1_part1 (A (Proc.devRef .tc main_call2_v6)) (A (Proc.devRef .tc main_call2_v8)) (A (Proc.devRef .tc main_call2_call1_v1)) (A (Proc.devRef .tc main_call2_call1_v13)) (A (Proc.devRef .tc main_call2_call1_v18)) := by
  unfold RefFn.threefry2x32_1 RefFn.tf
  simp only [tgC0]
  after_results_simp
  all_goals rfl

theorem tg_c2_1_w1 (V : Valuation τ sig (Elt F)) :
    let A := after (tgC1 (F := F) main_call2.v6 main_call2.v8 main_call2.v15 main_call2.v14 main_call2.call1) V
    RefFn.threefry2x32_1_part1 (V (Proc.devRef .tc main_call2_v6)) (V (Proc.devRef .tc main_call2_v8)) (V (Proc.devRef .tc main_call2_call1_v1)) (V (Proc.devRef .tc main_call2_call1_v13)) (V (Proc.devRef .tc main_call2_call1_v18))
      = RefFn.threefry2x32_1_part2 (A (Proc.devRef .tc main_call2_v6)) (A (Proc.devRef .tc main_call2_v8)) (A (Proc.devRef .tc main_call2_call1_v1)) (A (Proc.devRef .tc main_call2_call1_v35)) (A (Proc.devRef .tc main_call2_call1_v37)) (A (Proc.devRef .tc main_call2_call1_c_8)) := by
  unfold RefFn.threefry2x32_1_part1 RefFn.tf_part1
  simp only [tgC1]
  after_results_simp
  all_goals rfl

theorem tg_c2_1_w2 (V : Valuation τ sig (Elt F)) :
    let A := after (tgC2 (F := F) main_call2.v6 main_call2.v8 main_call2.v15 main_call2.v14 main_call2.call1) V
    RefFn.threefry2x32_1_part2 (V (Proc.devRef .tc main_call2_v6)) (V (Proc.devRef .tc main_call2_v8)) (V (Proc.devRef .tc main_call2_call1_v1)) (V (Proc.devRef .tc main_call2_call1_v35)) (V (Proc.devRef .tc main_call2_call1_v37)) (V (Proc.devRef .tc main_call2_call1_c_8))
      = RefFn.threefry2x32_1_part3 (A (Proc.devRef .tc main_call2_v6)) (A (Proc.devRef .tc main_call2_v8)) (A (Proc.devRef .tc main_call2_call1_v1)) (A (Proc.devRef .tc main_call2_call1_v53)) (A (Proc.devRef .tc main_call2_call1_v54)) (A (Proc.devRef .tc main_call2_call1_v56)) := by
  unfold RefFn.threefry2x32_1_part2 RefFn.tf_part2
  simp only [tgC2]
  after_results_simp
  all_goals rfl

theorem tg_c2_1_w3 (V : Valuation τ sig (Elt F)) :
    let A := after (tgC3 (F := F) main_call2.v6 main_call2.v8 main_call2.v15 main_call2.v14 main_call2.call1) V
    RefFn.threefry2x32_1_part3 (V (Proc.devRef .tc main_call2_v6)) (V (Proc.devRef .tc main_call2_v8)) (V (Proc.devRef .tc main_call2_call1_v1)) (V (Proc.devRef .tc main_call2_call1_v53)) (V (Proc.devRef .tc main_call2_call1_v54)) (V (Proc.devRef .tc main_call2_call1_v56))
      = RefFn.threefry2x32_1_part4 (A (Proc.devRef .tc main_call2_v6)) (A (Proc.devRef .tc main_call2_v8)) (A (Proc.devRef .tc main_call2_call1_v1)) (A (Proc.devRef .tc main_call2_call1_v73)) (A (Proc.devRef .tc main_call2_call1_v74)) (A (Proc.devRef .tc main_call2_call1_v75)) := by
  unfold RefFn.threefry2x32_1_part3 RefFn.tf_part3
  simp only [tgC3]
  after_results_simp
  all_goals rfl

theorem tg_c2_1_w4 (V : Valuation τ sig (Elt F)) :
    let A := after (tgC4 (F := F) main_call2.v6 main_call2.v8 main_call2.v15 main_call2.v14 main_call2.call1) V
    RefFn.threefry2x32_1_part4 (V (Proc.devRef .tc main_call2_v6)) (V (Proc.devRef .tc main_call2_v8)) (V (Proc.devRef .tc main_call2_call1_v1)) (V (Proc.devRef .tc main_call2_call1_v73)) (V (Proc.devRef .tc main_call2_call1_v74)) (V (Proc.devRef .tc main_call2_call1_v75))
      = RefFn.threefry2x32_1_part5 (A (Proc.devRef .tc main_call2_v6)) (A (Proc.devRef .tc main_call2_v8)) (A (Proc.devRef .tc main_call2_call1_v1)) (A (Proc.devRef .tc main_call2_call1_v88)) (A (Proc.devRef .tc main_call2_call1_v94)) := by
  unfold RefFn.threefry2x32_1_part4 RefFn.tf_part4
  simp only [tgC4]
  after_results_simp
  all_goals rfl

theorem tg_c2_1_w5 (V : Valuation τ sig (Elt F)) :
    let A := after (tgC5 (F := F) main_call2.v6 main_call2.v8 main_call2.v15 main_call2.v14 main_call2.call1) V
    RefFn.threefry2x32_1_part5 (V (Proc.devRef .tc main_call2_v6)) (V (Proc.devRef .tc main_call2_v8)) (V (Proc.devRef .tc main_call2_call1_v1)) (V (Proc.devRef .tc main_call2_call1_v88)) (V (Proc.devRef .tc main_call2_call1_v94))
      = RefFn.threefry2x32_1_part6 (A (Proc.devRef .tc main_call2_v6)) (A (Proc.devRef .tc main_call2_v8)) (A (Proc.devRef .tc main_call2_call1_v1)) (A (Proc.devRef .tc main_call2_call1_v108)) (A (Proc.devRef .tc main_call2_call1_v113)) := by
  unfold RefFn.threefry2x32_1_part5 RefFn.tf_part5
  simp only [tgC5]
  after_results_simp
  all_goals rfl

theorem tg_c2_1_w6 (V : Valuation τ sig (Elt F)) :
    let A := after (tgC6 (F := F) main_call2.v6 main_call2.v8 main_call2.v15 main_call2.v14 main_call2.call1) V
    RefFn.threefry2x32_1_part6 (V (Proc.devRef .tc main_call2_v6)) (V (Proc.devRef .tc main_call2_v8)) (V (Proc.devRef .tc main_call2_call1_v1)) (V (Proc.devRef .tc main_call2_call1_v108)) (V (Proc.devRef .tc main_call2_call1_v113))
      = RefFn.threefry2x32_1_part7 (A (Proc.devRef .tc main_call2_v6)) (A (Proc.devRef .tc main_call2_v8)) (A (Proc.devRef .tc main_call2_call1_v1)) (A (Proc.devRef .tc main_call2_call1_v128)) (A (Proc.devRef .tc main_call2_call1_v129)) (A (Proc.devRef .tc main_call2_call1_v131)) (A (Proc.devRef .tc main_call2_call1_c_34)) := by
  unfold RefFn.threefry2x32_1_part6 RefFn.tf_part6
  simp only [tgC6]
  after_results_simp
  all_goals rfl

theorem tg_c2_1_w7 (V : Valuation τ sig (Elt F)) :
    let A := after (tgC7 (F := F) main_call2.v6 main_call2.v8 main_call2.v15 main_call2.v14 main_call2.call1) V
    RefFn.threefry2x32_1_part7 (V (Proc.devRef .tc main_call2_v6)) (V (Proc.devRef .tc main_call2_v8)) (V (Proc.devRef .tc main_call2_call1_v1)) (V (Proc.devRef .tc main_call2_call1_v128)) (V (Proc.devRef .tc main_call2_call1_v129)) (V (Proc.devRef .tc main_call2_call1_v131)) (V (Proc.devRef .tc main_call2_call1_c_34))
      = RefFn.threefry2x32_1_part8 (A (Proc.devRef .tc main_call2_v6)) (A (Proc.devRef .tc main_call2_call1_v1)) (A (Proc.devRef .tc main_call2_call1_v148)) (A (Proc.devRef .tc main_call2_call1_v149)) (A (Proc.devRef .tc main_call2_call1_v151)) := by
  unfold RefFn.threefry2x32_1_part7 RefFn.tf_part7
  simp only [tgC7]
  after_results_simp
  all_goals rfl

theorem tg_c2_1_w8 (V : Valuation τ sig (Elt F)) :
    let A := after (tgC8 (F := F) main_call2.v6 main_call2.v8 main_call2.v15 main_call2.v14 main_call2.call1) V
    RefFn.threefry2x32_1_part8 (V (Proc.devRef .tc main_call2_v6)) (V (Proc.devRef .tc main_call2_call1_v1)) (V (Proc.devRef .tc main_call2_call1_v148)) (V (Proc.devRef .tc main_call2_call1_v149)) (V (Proc.devRef .tc main_call2_call1_v151))
      = RefFn.threefry2x32_1_part9 (A (Proc.devRef .tc main_call2_v6)) (A (Proc.devRef .tc main_call2_call1_v163)) (A (Proc.devRef .tc main_call2_call1_v169)) (A (Proc.devRef .tc main_call2_call1_v170)) := by
  unfold RefFn.threefry2x32_1_part8 RefFn.tf_part8
  simp only [tgC8]
  after_results_simp
  all_goals rfl

theorem tg_c2_1_w9 (V : Valuation τ sig (Elt F)) :
    let A := after (tgC9 (F := F) main_call2.v6 main_call2.v8 main_call2.v15 main_call2.v14 main_call2.call1) V
    RefFn.threefry2x32_1_part9 (V (Proc.devRef .tc main_call2_v6)) (V (Proc.devRef .tc main_call2_call1_v163)) (V (Proc.devRef .tc main_call2_call1_v169)) (V (Proc.devRef .tc main_call2_call1_v170))
      = (A (Proc.devRef .tc main_call2_v16_0), A (Proc.devRef .tc main_call2_v16_1)) := by
  unfold RefFn.threefry2x32_1_part9 RefFn.tf_part9
  simp only [tgC9]
  after_results_simp
  all_goals rfl

theorem tg_c2_1_val (V : Valuation τ sig (Elt F)) :
    (after (tgOps (F := F) main_call2.v6 main_call2.v8 main_call2.v15 main_call2.v14 main_call2.call1) V (Proc.devRef .tc main_call2_v16_0), after (tgOps (F := F) main_call2.v6 main_call2.v8 main_call2.v15 main_call2.v14 main_call2.call1) V (Proc.devRef .tc main_call2_v16_1))
      = RefFn.threefry2x32_1 (V (Proc.devRef .tc main_call2_v6)) (V (Proc.devRef .tc main_call2_v8)) (V (Proc.devRef .tc main_call2_v15)) (V (Proc.devRef .tc main_call2_v14)) := by
  unfold tgOps
  simp only [after_app]
  exact ((tg_c2_1_w0 V).trans ((tg_c2_1_w1 _).trans ((tg_c2_1_w2 _).trans ((tg_c2_1_w3 _).trans ((tg_c2_1_w4 _).trans ((tg_c2_1_w5 _).trans ((tg_c2_1_w6 _).trans ((tg_c2_1_w7 _).trans ((tg_c2_1_w8 _).trans (tg_c2_1_w9 _)))))))))).symm

theorem tg_c2_1_v171 (V : Valuation τ sig (Elt F)) :
    after (tgOps (F := F) main_call2.v6 main_call2.v8 main_call2.v15 main_call2.v14 main_call2.call1) V (no_index (Proc.devRef .tc main_call2_v16_0)) = (RefFn.threefry2x32_1 (V (Proc.devRef .tc main_call2_v6)) (V (Proc.devRef .tc main_call2_v8)) (V (Proc.devRef .tc main_call2_v15)) (V (Proc.devRef .tc main_call2_v14))).1 :=
  congrArg Prod.fst (tg_c2_1_val V)

theorem tg_c2_1_v175 (V : Valuation τ sig (Elt F)) :
    after (tgOps (F := F) main_call2.v6 main_call2.v8 main_call2.v15 main_call2.v14 main_call2.call1) V (no_index (Proc.devRef .tc main_call2_v16_1)) = (RefFn.threefry2x32_1 (V (Proc.devRef .tc main_call2_v6)) (V (Proc.devRef .tc main_call2_v8)) (V (Proc.devRef .tc main_call2_v15)) (V (Proc.devRef .tc main_call2_v14))).2 :=
  congrArg Prod.snd (tg_c2_1_val V)

end Cert.RefRun

end
-- ==== Proof.RefRunT_c4_0_0.lean ====
/- One call of @threefry2x32, window by window: its two results are the pure function of its arguments' contents. -/
import proofs.«215163_g69475390980333_cont_9to1_m_779_28_alg».proof.Proof.RefRunOps

noncomputable section

namespace Cert.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]
theorem tf_c4_0_0_w0 (V : Valuation τ sig (Elt F)) :
    let A := after (tfC0 (F := F) main_call4.call0.v1 main_call4.call0.v3 main_call4.call0.v10 main_call4.call0.v9 main_call4.call0.call0) V
    RefFn.threefry2x32 (V (Proc.devRef .tc main_call4_call0_v1)) (V (Proc.devRef .tc main_call4_call0_v3)) (V (Proc.devRef .tc main_call4_call0_v10)) (V (Proc.devRef .tc main_call4_call0_v9))
      = RefFn.threefry2x32_part1 (A (Proc.devRef .tc main_call4_call0_v1)) (A (Proc.devRef .tc main_call4_call0_v3)) (A (Proc.devRef .tc main_call4_call0_call0_v1)) (A (Proc.devRef .tc main_call4_call0_call0_v13)) (A (Proc.devRef .tc main_call4_call0_call0_v18)) := by
  unfold RefFn.threefry2x32 RefFn.tf
  simp only [tfC0]
  after_results_simp
  all_goals rfl

theorem tf_c4_0_0_w1 (V : Valuation τ sig (Elt F)) :
    let A := after (tfC1 (F := F) main_call4.call0.v1 main_call4.call0.v3 main_call4.call0.v10 main_call4.call0.v9 main_call4.call0.call0) V
    RefFn.threefry2x32_part1 (V (Proc.devRef .tc main_call4_call0_v1)) (V (Proc.devRef .tc main_call4_call0_v3)) (V (Proc.devRef .tc main_call4_call0_call0_v1)) (V (Proc.devRef .tc main_call4_call0_call0_v13)) (V (Proc.devRef .tc main_call4_call0_call0_v18))
      = RefFn.threefry2x32_part2 (A (Proc.devRef .tc main_call4_call0_v1)) (A (Proc.devRef .tc main_call4_call0_v3)) (A (Proc.devRef .tc main_call4_call0_call0_v1)) (A (Proc.devRef .tc main_call4_call0_call0_v35)) (A (Proc.devRef .tc main_call4_call0_call0_v37)) (A (Proc.devRef .tc main_call4_call0_call0_c_8)) := by
  unfold RefFn.threefry2x32_part1 RefFn.tf_part1
  simp only [tfC1]
  after_results_simp
  all_goals rfl

theorem tf_c4_0_0_w2 (V : Valuation τ sig (Elt F)) :
    let A := after (tfC2 (F := F) main_call4.call0.v1 main_call4.call0.v3 main_call4.call0.v10 main_call4.call0.v9 main_call4.call0.call0) V
    RefFn.threefry2x32_part2 (V (Proc.devRef .tc main_call4_call0_v1)) (V (Proc.devRef .tc main_call4_call0_v3)) (V (Proc.devRef .tc main_call4_call0_call0_v1)) (V (Proc.devRef .tc main_call4_call0_call0_v35)) (V (Proc.devRef .tc main_call4_call0_call0_v37)) (V (Proc.devRef .tc main_call4_call0_call0_c_8))
      = RefFn.threefry2x32_part3 (A (Proc.devRef .tc main_call4_call0_v1)) (A (Proc.devRef .tc main_call4_call0_v3)) (A (Proc.devRef .tc main_call4_call0_call0_v1)) (A (Proc.devRef .tc main_call4_call0_call0_v53)) (A (Proc.devRef .tc main_call4_call0_call0_v54)) (A (Proc.devRef .tc main_call4_call0_call0_v56)) := by
  unfold RefFn.threefry2x32_part2 RefFn.tf_part2
  simp only [tfC2]
  after_results_simp
  all_goals rfl

theorem tf_c4_0_0_w3 (V : Valuation τ sig (Elt F)) :
    let A := after (tfC3 (F := F) main_call4.call0.v1 main_call4.call0.v3 main_call4.call0.v10 main_call4.call0.v9 main_call4.call0.call0) V
    RefFn.threefry2x32_part3 (V (Proc.devRef .tc main_call4_call0_v1)) (V (Proc.devRef .tc main_call4_call0_v3)) (V (Proc.devRef .tc main_call4_call0_call0_v1)) (V (Proc.devRef .tc main_call4_call0_call0_v53)) (V (Proc.devRef .tc main_call4_call0_call0_v54)) (V (Proc.devRef .tc main_call4_call0_call0_v56))
      = RefFn.threefry2x32_part4 (A (Proc.devRef .tc main_call4_call0_v1)) (A (Proc.devRef .tc main_call4_call0_v3)) (A (Proc.devRef .tc main_call4_call0_call0_v1)) (A (Proc.devRef .tc main_call4_call0_call0_v73)) (A (Proc.devRef .tc main_call4_call0_call0_v74)) (A (Proc.devRef .tc main_call4_call0_call0_v75)) := by
  unfold RefFn.threefry2x32_part3 RefFn.tf_part3
  simp only [tfC3]
  after_results_simp
  all_goals rfl

theorem tf_c4_0_0_w4 (V : Valuation τ sig (Elt F)) :
    let A := after (tfC4 (F := F) main_call4.call0.v1 main_call4.call0.v3 main_call4.call0.v10 main_call4.call0.v9 main_call4.call0.call0) V
    RefFn.threefry2x32_part4 (V (Proc.devRef .tc main_call4_call0_v1)) (V (Proc.devRef .tc main_call4_call0_v3)) (V (Proc.devRef .tc main_call4_call0_call0_v1)) (V (Proc.devRef .tc main_call4_call0_call0_v73)) (V (Proc.devRef .tc main_call4_call0_call0_v74)) (V (Proc.devRef .tc main_call4_call0_call0_v75))
      = RefFn.threefry2x32_part5 (A (Proc.devRef .tc main_call4_call0_v1)) (A (Proc.devRef .tc main_call4_call0_v3)) (A (Proc.devRef .tc main_call4_call0_call0_v1)) (A (Proc.devRef .tc main_call4_call0_call0_v88)) (A (Proc.devRef .tc main_call4_call0_call0_v94)) := by
  unfold RefFn.threefry2x32_part4 RefFn.tf_part4
  simp only [tfC4]
  after_results_simp
  all_goals rfl

theorem tf_c4_0_0_w5 (V : Valuation τ sig (Elt F)) :
    let A := after (tfC5 (F := F) main_call4.call0.v1 main_call4.call0.v3 main_call4.call0.v10 main_call4.call0.v9 main_call4.call0.call0) V
    RefFn.threefry2x32_part5 (V (Proc.devRef .tc main_call4_call0_v1)) (V (Proc.devRef .tc main_call4_call0_v3)) (V (Proc.devRef .tc main_call4_call0_call0_v1)) (V (Proc.devRef .tc main_call4_call0_call0_v88)) (V (Proc.devRef .tc main_call4_call0_call0_v94))
      = RefFn.threefry2x32_part6 (A (Proc.devRef .tc main_call4_call0_v1)) (A (Proc.devRef .tc main_call4_call0_v3)) (A (Proc.devRef .tc main_call4_call0_call0_v1)) (A (Proc.devRef .tc main_call4_call0_call0_v108)) (A (Proc.devRef .tc main_call4_call0_call0_v113)) := by
  unfold RefFn.threefry2x32_part5 RefFn.tf_part5
  simp only [tfC5]
  after_results_simp
  all_goals rfl

theorem tf_c4_0_0_w6 (V : Valuation τ sig (Elt F)) :
    let A := after (tfC6 (F := F) main_call4.call0.v1 main_call4.call0.v3 main_call4.call0.v10 main_call4.call0.v9 main_call4.call0.call0) V
    RefFn.threefry2x32_part6 (V (Proc.devRef .tc main_call4_call0_v1)) (V (Proc.devRef .tc main_call4_call0_v3)) (V (Proc.devRef .tc main_call4_call0_call0_v1)) (V (Proc.devRef .tc main_call4_call0_call0_v108)) (V (Proc.devRef .tc main_call4_call0_call0_v113))
      = RefFn.threefry2x32_part7 (A (Proc.devRef .tc main_call4_call0_v1)) (A (Proc.devRef .tc main_call4_call0_v3)) (A (Proc.devRef .tc main_call4_call0_call0_v1)) (A (Proc.devRef .tc main_call4_call0_call0_v128)) (A (Proc.devRef .tc main_call4_call0_call0_v129)) (A (Proc.devRef .tc main_call4_call0_call0_v131)) (A (Proc.devRef .tc main_call4_call0_call0_c_34)) := by
  unfold RefFn.threefry2x32_part6 RefFn.tf_part6
  simp only [tfC6]
  after_results_simp
  all_goals rfl

theorem tf_c4_0_0_w7 (V : Valuation τ sig (Elt F)) :
    let A := after (tfC7 (F := F) main_call4.call0.v1 main_call4.call0.v3 main_call4.call0.v10 main_call4.call0.v9 main_call4.call0.call0) V
    RefFn.threefry2x32_part7 (V (Proc.devRef .tc main_call4_call0_v1)) (V (Proc.devRef .tc main_call4_call0_v3)) (V (Proc.devRef .tc main_call4_call0_call0_v1)) (V (Proc.devRef .tc main_call4_call0_call0_v128)) (V (Proc.devRef .tc main_call4_call0_call0_v129)) (V (Proc.devRef .tc main_call4_call0_call0_v131)) (V (Proc.devRef .tc main_call4_call0_call0_c_34))
      = RefFn.threefry2x32_part8 (A (Proc.devRef .tc main_call4_call0_v1)) (A (Proc.devRef .tc main_call4_call0_call0_v1)) (A (Proc.devRef .tc main_call4_call0_call0_v148)) (A (Proc.devRef .tc main_call4_call0_call0_v149)) (A (Proc.devRef .tc main_call4_call0_call0_v151)) := by
  unfold RefFn.threefry2x32_part7 RefFn.tf_part7
  simp only [tfC7]
  after_results_simp
  all_goals rfl

theorem tf_c4_0_0_w8 (V : Valuation τ sig (Elt F)) :
    let A := after (tfC8 (F := F) main_call4.call0.v1 main_call4.call0.v3 main_call4.call0.v10 main_call4.call0.v9 main_call4.call0.call0) V
    RefFn.threefry2x32_part8 (V (Proc.devRef .tc main_call4_call0_v1)) (V (Proc.devRef .tc main_call4_call0_call0_v1)) (V (Proc.devRef .tc main_call4_call0_call0_v148)) (V (Proc.devRef .tc main_call4_call0_call0_v149)) (V (Proc.devRef .tc main_call4_call0_call0_v151))
      = RefFn.threefry2x32_part9 (A (Proc.devRef .tc main_call4_call0_v1)) (A (Proc.devRef .tc main_call4_call0_call0_v163)) (A (Proc.devRef .tc main_call4_call0_call0_v169)) (A (Proc.devRef .tc main_call4_call0_call0_v170)) := by
  unfold RefFn.threefry2x32_part8 RefFn.tf_part8
  simp only [tfC8]
  after_results_simp
  all_goals rfl

theorem tf_c4_0_0_w9 (V : Valuation τ sig (Elt F)) :
    let A := after (tfC9 (F := F) main_call4.call0.v1 main_call4.call0.v3 main_call4.call0.v10 main_call4.call0.v9 main_call4.call0.call0) V
    RefFn.threefry2x32_part9 (V (Proc.devRef .tc main_call4_call0_v1)) (V (Proc.devRef .tc main_call4_call0_call0_v163)) (V (Proc.devRef .tc main_call4_call0_call0_v169)) (V (Proc.devRef .tc main_call4_call0_call0_v170))
      = (A (Proc.devRef .tc main_call4_call0_v11_0), A (Proc.devRef .tc main_call4_call0_v11_1)) := by
  unfold RefFn.threefry2x32_part9 RefFn.tf_part9
  simp only [tfC9]
  after_results_simp
  all_goals rfl

theorem tf_c4_0_0_val (V : Valuation τ sig (Elt F)) :
    (after (tfOps (F := F) main_call4.call0.v1 main_call4.call0.v3 main_call4.call0.v10 main_call4.call0.v9 main_call4.call0.call0) V (Proc.devRef .tc main_call4_call0_v11_0), after (tfOps (F := F) main_call4.call0.v1 main_call4.call0.v3 main_call4.call0.v10 main_call4.call0.v9 main_call4.call0.call0) V (Proc.devRef .tc main_call4_call0_v11_1))
      = RefFn.threefry2x32 (V (Proc.devRef .tc main_call4_call0_v1)) (V (Proc.devRef .tc main_call4_call0_v3)) (V (Proc.devRef .tc main_call4_call0_v10)) (V (Proc.devRef .tc main_call4_call0_v9)) := by
  unfold tfOps
  simp only [after_app]
  exact ((tf_c4_0_0_w0 V).trans ((tf_c4_0_0_w1 _).trans ((tf_c4_0_0_w2 _).trans ((tf_c4_0_0_w3 _).trans ((tf_c4_0_0_w4 _).trans ((tf_c4_0_0_w5 _).trans ((tf_c4_0_0_w6 _).trans ((tf_c4_0_0_w7 _).trans ((tf_c4_0_0_w8 _).trans (tf_c4_0_0_w9 _)))))))))).symm

theorem tf_c4_0_0_v171 (V : Valuation τ sig (Elt F)) :
    after (tfOps (F := F) main_call4.call0.v1 main_call4.call0.v3 main_call4.call0.v10 main_call4.call0.v9 main_call4.call0.call0) V (no_index (Proc.devRef .tc main_call4_call0_v11_0)) = (RefFn.threefry2x32 (V (Proc.devRef .tc main_call4_call0_v1)) (V (Proc.devRef .tc main_call4_call0_v3)) (V (Proc.devRef .tc main_call4_call0_v10)) (V (Proc.devRef .tc main_call4_call0_v9))).1 :=
  congrArg Prod.fst (tf_c4_0_0_val V)

theorem tf_c4_0_0_v175 (V : Valuation τ sig (Elt F)) :
    after (tfOps (F := F) main_call4.call0.v1 main_call4.call0.v3 main_call4.call0.v10 main_call4.call0.v9 main_call4.call0.call0) V (no_index (Proc.devRef .tc main_call4_call0_v11_1)) = (RefFn.threefry2x32 (V (Proc.devRef .tc main_call4_call0_v1)) (V (Proc.devRef .tc main_call4_call0_v3)) (V (Proc.devRef .tc main_call4_call0_v10)) (V (Proc.devRef .tc main_call4_call0_v9))).2 :=
  congrArg Prod.snd (tf_c4_0_0_val V)

end Cert.RefRun

end
-- ==== Proof.RefRunT_c4_1.lean ====
/- One call of @threefry2x32_1, window by window: its two results are the pure function of its arguments' contents. -/
import proofs.«215163_g69475390980333_cont_9to1_m_779_28_alg».proof.Proof.RefRunOps

noncomputable section

namespace Cert.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]
theorem tg_c4_1_w0 (V : Valuation τ sig (Elt F)) :
    let A := after (tgC0 (F := F) main_call4.v6 main_call4.v8 main_call4.v15 main_call4.v14 main_call4.call1) V
    RefFn.threefry2x32_1 (V (Proc.devRef .tc main_call4_v6)) (V (Proc.devRef .tc main_call4_v8)) (V (Proc.devRef .tc main_call4_v15)) (V (Proc.devRef .tc main_call4_v14))
      = RefFn.threefry2x32_1_part1 (A (Proc.devRef .tc main_call4_v6)) (A (Proc.devRef .tc main_call4_v8)) (A (Proc.devRef .tc main_call4_call1_v1)) (A (Proc.devRef .tc main_call4_call1_v13)) (A (Proc.devRef .tc main_call4_call1_v18)) := by
  unfold RefFn.threefry2x32_1 RefFn.tf
  simp only [tgC0]
  after_results_simp
  all_goals rfl

theorem tg_c4_1_w1 (V : Valuation τ sig (Elt F)) :
    let A := after (tgC1 (F := F) main_call4.v6 main_call4.v8 main_call4.v15 main_call4.v14 main_call4.call1) V
    RefFn.threefry2x32_1_part1 (V (Proc.devRef .tc main_call4_v6)) (V (Proc.devRef .tc main_call4_v8)) (V (Proc.devRef .tc main_call4_call1_v1)) (V (Proc.devRef .tc main_call4_call1_v13)) (V (Proc.devRef .tc main_call4_call1_v18))
      = RefFn.threefry2x32_1_part2 (A (Proc.devRef .tc main_call4_v6)) (A (Proc.devRef .tc main_call4_v8)) (A (Proc.devRef .tc main_call4_call1_v1)) (A (Proc.devRef .tc main_call4_call1_v35)) (A (Proc.devRef .tc main_call4_call1_v37)) (A (Proc.devRef .tc main_call4_call1_c_8)) := by
  unfold RefFn.threefry2x32_1_part1 RefFn.tf_part1
  simp only [tgC1]
  after_results_simp
  all_goals rfl

theorem tg_c4_1_w2 (V : Valuation τ sig (Elt F)) :
    let A := after (tgC2 (F := F) main_call4.v6 main_call4.v8 main_call4.v15 main_call4.v14 main_call4.call1) V
    RefFn.threefry2x32_1_part2 (V (Proc.devRef .tc main_call4_v6)) (V (Proc.devRef .tc main_call4_v8)) (V (Proc.devRef .tc main_call4_call1_v1)) (V (Proc.devRef .tc main_call4_call1_v35)) (V (Proc.devRef .tc main_call4_call1_v37)) (V (Proc.devRef .tc main_call4_call1_c_8))
      = RefFn.threefry2x32_1_part3 (A (Proc.devRef .tc main_call4_v6)) (A (Proc.devRef .tc main_call4_v8)) (A (Proc.devRef .tc main_call4_call1_v1)) (A (Proc.devRef .tc main_call4_call1_v53)) (A (Proc.devRef .tc main_call4_call1_v54)) (A (Proc.devRef .tc main_call4_call1_v56)) := by
  unfold RefFn.threefry2x32_1_part2 RefFn.tf_part2
  simp only [tgC2]
  after_results_simp
  all_goals rfl

theorem tg_c4_1_w3 (V : Valuation τ sig (Elt F)) :
    let A := after (tgC3 (F := F) main_call4.v6 main_call4.v8 main_call4.v15 main_call4.v14 main_call4.call1) V
    RefFn.threefry2x32_1_part3 (V (Proc.devRef .tc main_call4_v6)) (V (Proc.devRef .tc main_call4_v8)) (V (Proc.devRef .tc main_call4_call1_v1)) (V (Proc.devRef .tc main_call4_call1_v53)) (V (Proc.devRef .tc main_call4_call1_v54)) (V (Proc.devRef .tc main_call4_call1_v56))
      = RefFn.threefry2x32_1_part4 (A (Proc.devRef .tc main_call4_v6)) (A (Proc.devRef .tc main_call4_v8)) (A (Proc.devRef .tc main_call4_call1_v1)) (A (Proc.devRef .tc main_call4_call1_v73)) (A (Proc.devRef .tc main_call4_call1_v74)) (A (Proc.devRef .tc main_call4_call1_v75)) := by
  unfold RefFn.threefry2x32_1_part3 RefFn.tf_part3
  simp only [tgC3]
  after_results_simp
  all_goals rfl

theorem tg_c4_1_w4 (V : Valuation τ sig (Elt F)) :
    let A := after (tgC4 (F := F) main_call4.v6 main_call4.v8 main_call4.v15 main_call4.v14 main_call4.call1) V
    RefFn.threefry2x32_1_part4 (V (Proc.devRef .tc main_call4_v6)) (V (Proc.devRef .tc main_call4_v8)) (V (Proc.devRef .tc main_call4_call1_v1)) (V (Proc.devRef .tc main_call4_call1_v73)) (V (Proc.devRef .tc main_call4_call1_v74)) (V (Proc.devRef .tc main_call4_call1_v75))
      = RefFn.threefry2x32_1_part5 (A (Proc.devRef .tc main_call4_v6)) (A (Proc.devRef .tc main_call4_v8)) (A (Proc.devRef .tc main_call4_call1_v1)) (A (Proc.devRef .tc main_call4_call1_v88)) (A (Proc.devRef .tc main_call4_call1_v94)) := by
  unfold RefFn.threefry2x32_1_part4 RefFn.tf_part4
  simp only [tgC4]
  after_results_simp
  all_goals rfl

theorem tg_c4_1_w5 (V : Valuation τ sig (Elt F)) :
    let A := after (tgC5 (F := F) main_call4.v6 main_call4.v8 main_call4.v15 main_call4.v14 main_call4.call1) V
    RefFn.threefry2x32_1_part5 (V (Proc.devRef .tc main_call4_v6)) (V (Proc.devRef .tc main_call4_v8)) (V (Proc.devRef .tc main_call4_call1_v1)) (V (Proc.devRef .tc main_call4_call1_v88)) (V (Proc.devRef .tc main_call4_call1_v94))
      = RefFn.threefry2x32_1_part6 (A (Proc.devRef .tc main_call4_v6)) (A (Proc.devRef .tc main_call4_v8)) (A (Proc.devRef .tc main_call4_call1_v1)) (A (Proc.devRef .tc main_call4_call1_v108)) (A (Proc.devRef .tc main_call4_call1_v113)) := by
  unfold RefFn.threefry2x32_1_part5 RefFn.tf_part5
  simp only [tgC5]
  after_results_simp
  all_goals rfl

theorem tg_c4_1_w6 (V : Valuation τ sig (Elt F)) :
    let A := after (tgC6 (F := F) main_call4.v6 main_call4.v8 main_call4.v15 main_call4.v14 main_call4.call1) V
    RefFn.threefry2x32_1_part6 (V (Proc.devRef .tc main_call4_v6)) (V (Proc.devRef .tc main_call4_v8)) (V (Proc.devRef .tc main_call4_call1_v1)) (V (Proc.devRef .tc main_call4_call1_v108)) (V (Proc.devRef .tc main_call4_call1_v113))
      = RefFn.threefry2x32_1_part7 (A (Proc.devRef .tc main_call4_v6)) (A (Proc.devRef .tc main_call4_v8)) (A (Proc.devRef .tc main_call4_call1_v1)) (A (Proc.devRef .tc main_call4_call1_v128)) (A (Proc.devRef .tc main_call4_call1_v129)) (A (Proc.devRef .tc main_call4_call1_v131)) (A (Proc.devRef .tc main_call4_call1_c_34)) := by
  unfold RefFn.threefry2x32_1_part6 RefFn.tf_part6
  simp only [tgC6]
  after_results_simp
  all_goals rfl

theorem tg_c4_1_w7 (V : Valuation τ sig (Elt F)) :
    let A := after (tgC7 (F := F) main_call4.v6 main_call4.v8 main_call4.v15 main_call4.v14 main_call4.call1) V
    RefFn.threefry2x32_1_part7 (V (Proc.devRef .tc main_call4_v6)) (V (Proc.devRef .tc main_call4_v8)) (V (Proc.devRef .tc main_call4_call1_v1)) (V (Proc.devRef .tc main_call4_call1_v128)) (V (Proc.devRef .tc main_call4_call1_v129)) (V (Proc.devRef .tc main_call4_call1_v131)) (V (Proc.devRef .tc main_call4_call1_c_34))
      = RefFn.threefry2x32_1_part8 (A (Proc.devRef .tc main_call4_v6)) (A (Proc.devRef .tc main_call4_call1_v1)) (A (Proc.devRef .tc main_call4_call1_v148)) (A (Proc.devRef .tc main_call4_call1_v149)) (A (Proc.devRef .tc main_call4_call1_v151)) := by
  unfold RefFn.threefry2x32_1_part7 RefFn.tf_part7
  simp only [tgC7]
  after_results_simp
  all_goals rfl

theorem tg_c4_1_w8 (V : Valuation τ sig (Elt F)) :
    let A := after (tgC8 (F := F) main_call4.v6 main_call4.v8 main_call4.v15 main_call4.v14 main_call4.call1) V
    RefFn.threefry2x32_1_part8 (V (Proc.devRef .tc main_call4_v6)) (V (Proc.devRef .tc main_call4_call1_v1)) (V (Proc.devRef .tc main_call4_call1_v148)) (V (Proc.devRef .tc main_call4_call1_v149)) (V (Proc.devRef .tc main_call4_call1_v151))
      = RefFn.threefry2x32_1_part9 (A (Proc.devRef .tc main_call4_v6)) (A (Proc.devRef .tc main_call4_call1_v163)) (A (Proc.devRef .tc main_call4_call1_v169)) (A (Proc.devRef .tc main_call4_call1_v170)) := by
  unfold RefFn.threefry2x32_1_part8 RefFn.tf_part8
  simp only [tgC8]
  after_results_simp
  all_goals rfl

theorem tg_c4_1_w9 (V : Valuation τ sig (Elt F)) :
    let A := after (tgC9 (F := F) main_call4.v6 main_call4.v8 main_call4.v15 main_call4.v14 main_call4.call1) V
    RefFn.threefry2x32_1_part9 (V (Proc.devRef .tc main_call4_v6)) (V (Proc.devRef .tc main_call4_call1_v163)) (V (Proc.devRef .tc main_call4_call1_v169)) (V (Proc.devRef .tc main_call4_call1_v170))
      = (A (Proc.devRef .tc main_call4_v16_0), A (Proc.devRef .tc main_call4_v16_1)) := by
  unfold RefFn.threefry2x32_1_part9 RefFn.tf_part9
  simp only [tgC9]
  after_results_simp
  all_goals rfl

theorem tg_c4_1_val (V : Valuation τ sig (Elt F)) :
    (after (tgOps (F := F) main_call4.v6 main_call4.v8 main_call4.v15 main_call4.v14 main_call4.call1) V (Proc.devRef .tc main_call4_v16_0), after (tgOps (F := F) main_call4.v6 main_call4.v8 main_call4.v15 main_call4.v14 main_call4.call1) V (Proc.devRef .tc main_call4_v16_1))
      = RefFn.threefry2x32_1 (V (Proc.devRef .tc main_call4_v6)) (V (Proc.devRef .tc main_call4_v8)) (V (Proc.devRef .tc main_call4_v15)) (V (Proc.devRef .tc main_call4_v14)) := by
  unfold tgOps
  simp only [after_app]
  exact ((tg_c4_1_w0 V).trans ((tg_c4_1_w1 _).trans ((tg_c4_1_w2 _).trans ((tg_c4_1_w3 _).trans ((tg_c4_1_w4 _).trans ((tg_c4_1_w5 _).trans ((tg_c4_1_w6 _).trans ((tg_c4_1_w7 _).trans ((tg_c4_1_w8 _).trans (tg_c4_1_w9 _)))))))))).symm

theorem tg_c4_1_v171 (V : Valuation τ sig (Elt F)) :
    after (tgOps (F := F) main_call4.v6 main_call4.v8 main_call4.v15 main_call4.v14 main_call4.call1) V (no_index (Proc.devRef .tc main_call4_v16_0)) = (RefFn.threefry2x32_1 (V (Proc.devRef .tc main_call4_v6)) (V (Proc.devRef .tc main_call4_v8)) (V (Proc.devRef .tc main_call4_v15)) (V (Proc.devRef .tc main_call4_v14))).1 :=
  congrArg Prod.fst (tg_c4_1_val V)

theorem tg_c4_1_v175 (V : Valuation τ sig (Elt F)) :
    after (tgOps (F := F) main_call4.v6 main_call4.v8 main_call4.v15 main_call4.v14 main_call4.call1) V (no_index (Proc.devRef .tc main_call4_v16_1)) = (RefFn.threefry2x32_1 (V (Proc.devRef .tc main_call4_v6)) (V (Proc.devRef .tc main_call4_v8)) (V (Proc.devRef .tc main_call4_v15)) (V (Proc.devRef .tc main_call4_v14))).2 :=
  congrArg Prod.snd (tg_c4_1_val V)

end Cert.RefRun

end
-- ==== Proof.RefRun.lean ====
/- The reference's run: @main is one line of operations, and after it the two results hold the pure functions of the arguments. -/
import proofs.«215163_g69475390980333_cont_9to1_m_779_28_alg».proof.Proof.RefRunT_c0_0
import proofs.«215163_g69475390980333_cont_9to1_m_779_28_alg».proof.Proof.RefRunT_c2_0_0
import proofs.«215163_g69475390980333_cont_9to1_m_779_28_alg».proof.Proof.RefRunT_c2_1
import proofs.«215163_g69475390980333_cont_9to1_m_779_28_alg».proof.Proof.RefRunT_c4_0_0
import proofs.«215163_g69475390980333_cont_9to1_m_779_28_alg».proof.Proof.RefRunT_c4_1

noncomputable section

namespace Cert.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

theorem concat2_congr {α : Type} {t A B : Shape} {d : Fin t.rank} {a a' : A.Idx → α} {b b' : B.Idx → α}
    (h : Shape.Concatenates [A, B] t d) (ha : a = a') (hb : b = b') :
    concatenate t d [⟨A, a⟩, ⟨B, b⟩] h = concatenate t d [⟨A, a'⟩, ⟨B, b'⟩] h := by
  subst ha; subst hb; rfl
abbrev t_main_v6 : StableHlo.TRef sig ⟨S2, .i32⟩ := .of main_v6

abbrev t_main_arg1 : StableHlo.TRef sig ⟨S100000x64, .i32⟩ := .of main_arg1

abbrev t_main_arg0 : StableHlo.TRef sig ⟨S4096, .i32⟩ := .of main_arg0

abbrev t_main_v9 : StableHlo.TRef sig ⟨S2, .i32⟩ := .of main_v9

abbrev t_main_v13 : StableHlo.TRef sig ⟨S64, .i32⟩ := .of main_v13

abbrev t_main_v23 : StableHlo.TRef sig ⟨S40960, .i32⟩ := .of main_v23

abbrev t_main_v11 : StableHlo.TRef sig ⟨S2, .i32⟩ := .of main_v11

abbrev t_main_v25 : StableHlo.TRef sig ⟨S64, .i32⟩ := .of main_v25

theorem split_c0_val (V : Valuation τ sig (Elt F)) :
    after (splitOps (F := F) t_main_v6 main_call0) V (no_index (Proc.devRef .tc main_v7)) = RefFn.threefry_split (V (Proc.devRef .tc main_v6)) := by
  unfold splitOps RefFn.threefry_split
  simp (config := { proj := false }) (disch := decide) only [after_app, after_cons, after_nil, splitS0, splitS1, tf_c0_0_v171, tf_c0_0_v175,
    nullary_result', unary_result', binary_result', ternary_result', reshape_result', unaryIndexed2_result', nullary_result_ne', unary_result_ne', binary_result_ne', ternary_result_ne', reshape_result_ne', unaryIndexed_result_ne', cast_eq]
  refine concat2_congr _ ?_ ?_ <;> simp (config := { proj := false }) (disch := decide) only [after_app, after_cons, after_nil, splitS0, splitS1, tf_c0_0_v171, tf_c0_0_v175,
        nullary_result', unary_result', binary_result', ternary_result', reshape_result', unaryIndexed2_result', nullary_result_ne', unary_result_ne', binary_result_ne', ternary_result_ne', reshape_result_ne', unaryIndexed_result_ne', cast_eq] <;> first | done | rfl

theorem take_c1_val (V : Valuation τ sig (Elt F)) :
    after (takeOps (F := F) t_main_arg1 t_main_arg0 main_call1) V (no_index (Proc.devRef .tc main_v12)) = RefFn.take (V (Proc.devRef .tc main_arg1)) (V (Proc.devRef .tc main_arg0)) := by
  unfold takeOps RefFn.take
  simp (config := { proj := false }) (disch := decide) only [after_app, after_cons, after_nil, takeS0, takeS1, whOps, whS0,
    nullary_result', unary_result', binary_result', ternary_result', reshape_result', unaryIndexed2_result', nullary_result_ne', unary_result_ne', binary_result_ne', ternary_result_ne', reshape_result_ne', unaryIndexed_result_ne', cast_eq]

theorem split0_c2_0_val (V : Valuation τ sig (Elt F)) :
    after (split0Ops (F := F) t_main_v9 main_call2.call0) V (no_index (Proc.devRef .tc main_call2_v0)) = RefFn.threefry_split_0 (V (Proc.devRef .tc main_v9)) := by
  unfold split0Ops RefFn.threefry_split_0
  simp (config := { proj := false }) (disch := decide) only [after_app, after_cons, after_nil, split0S0, split0S1, tf_c2_0_0_v171, tf_c2_0_0_v175,
    nullary_result', unary_result', binary_result', ternary_result', reshape_result', unaryIndexed2_result', nullary_result_ne', unary_result_ne', binary_result_ne', ternary_result_ne', reshape_result_ne', unaryIndexed_result_ne', cast_eq]
  refine concat2_congr _ ?_ ?_ <;> simp (config := { proj := false }) (disch := decide) only [after_app, after_cons, after_nil, split0S0, split0S1, tf_c2_0_0_v171, tf_c2_0_0_v175,
        nullary_result', unary_result', binary_result', ternary_result', reshape_result', unaryIndexed2_result', nullary_result_ne', unary_result_ne', binary_result_ne', ternary_result_ne', reshape_result_ne', unaryIndexed_result_ne', cast_eq] <;> first | done | rfl

theorem split0_c2_0_fr_main_v13 (V : Valuation τ sig (Elt F)) :
    after (split0Ops (F := F) t_main_v9 main_call2.call0) V (no_index (Proc.devRef .tc main_v13)) = V (Proc.devRef .tc main_v13) :=
  (split0Ops_line t_main_v9 main_call2.call0).frame (by decide +kernel) V

theorem tg_c2_1_fr_main_v13 (V : Valuation τ sig (Elt F)) :
    after (tgOps (F := F) main_call2.v6 main_call2.v8 main_call2.v15 main_call2.v14 main_call2.call1) V (no_index (Proc.devRef .tc main_v13)) = V (Proc.devRef .tc main_v13) :=
  (tgOps_line main_call2.v6 main_call2.v8 main_call2.v15 main_call2.v14 main_call2.call1).frame (by decide +kernel) V

theorem shuffle_c2_val (V : Valuation τ sig (Elt F)) :
    after (shuffleOps (F := F) t_main_v9 t_main_v13 main_call2) V (no_index (Proc.devRef .tc main_v14)) = RefFn.shuffle (V (Proc.devRef .tc main_v9)) (V (Proc.devRef .tc main_v13)) := by
  unfold shuffleOps RefFn.shuffle
  simp (config := { proj := false }) (disch := decide) only [after_app, after_cons, after_nil, shuffleS0, shuffleS1, split0_c2_0_val, tg_c2_1_v171, tg_c2_1_v175, split0_c2_0_fr_main_v13, tg_c2_1_fr_main_v13,
    nullary_result', unary_result', binary_result', ternary_result', reshape_result', unaryIndexed2_result', nullary_result_ne', unary_result_ne', binary_result_ne', ternary_result_ne', reshape_result_ne', unaryIndexed_result_ne', cast_eq]
  rfl

theorem take2_c3_val (V : Valuation τ sig (Elt F)) :
    after (take2Ops (F := F) t_main_arg1 t_main_v23 main_call3) V (no_index (Proc.devRef .tc main_v24)) = RefFn.take_2 (V (Proc.devRef .tc main_arg1)) (V (Proc.devRef .tc main_v23)) := by
  unfold take2Ops RefFn.take_2
  simp (config := { proj := false }) (disch := decide) only [after_app, after_cons, after_nil, take2S0, take2S1, wh3Ops, wh3S0,
    nullary_result', unary_result', binary_result', ternary_result', reshape_result', unaryIndexed2_result', nullary_result_ne', unary_result_ne', binary_result_ne', ternary_result_ne', reshape_result_ne', unaryIndexed_result_ne', cast_eq]

theorem split0_c4_0_val (V : Valuation τ sig (Elt F)) :
    after (split0Ops (F := F) t_main_v11 main_call4.call0) V (no_index (Proc.devRef .tc main_call4_v0)) = RefFn.threefry_split_0 (V (Proc.devRef .tc main_v11)) := by
  unfold split0Ops RefFn.threefry_split_0
  simp (config := { proj := false }) (disch := decide) only [after_app, after_cons, after_nil, split0S0, split0S1, tf_c4_0_0_v171, tf_c4_0_0_v175,
    nullary_result', unary_result', binary_result', ternary_result', reshape_result', unaryIndexed2_result', nullary_result_ne', unary_result_ne', binary_result_ne', ternary_result_ne', reshape_result_ne', unaryIndexed_result_ne', cast_eq]
  refine concat2_congr _ ?_ ?_ <;> simp (config := { proj := false }) (disch := decide) only [after_app, after_cons, after_nil, split0S0, split0S1, tf_c4_0_0_v171, tf_c4_0_0_v175,
        nullary_result', unary_result', binary_result', ternary_result', reshape_result', unaryIndexed2_result', nullary_result_ne', unary_result_ne', binary_result_ne', ternary_result_ne', reshape_result_ne', unaryIndexed_result_ne', cast_eq] <;> first | done | rfl

theorem split0_c4_0_fr_main_v25 (V : Valuation τ sig (Elt F)) :
    after (split0Ops (F := F) t_main_v11 main_call4.call0) V (no_index (Proc.devRef .tc main_v25)) = V (Proc.devRef .tc main_v25) :=
  (split0Ops_line t_main_v11 main_call4.call0).frame (by decide +kernel) V

theorem tg_c4_1_fr_main_v25 (V : Valuation τ sig (Elt F)) :
    after (tgOps (F := F) main_call4.v6 main_call4.v8 main_call4.v15 main_call4.v14 main_call4.call1) V (no_index (Proc.devRef .tc main_v25)) = V (Proc.devRef .tc main_v25) :=
  (tgOps_line main_call4.v6 main_call4.v8 main_call4.v15 main_call4.v14 main_call4.call1).frame (by decide +kernel) V

theorem shuffle_c4_val (V : Valuation τ sig (Elt F)) :
    after (shuffleOps (F := F) t_main_v11 t_main_v25 main_call4) V (no_index (Proc.devRef .tc main_v26)) = RefFn.shuffle (V (Proc.devRef .tc main_v11)) (V (Proc.devRef .tc main_v25)) := by
  unfold shuffleOps RefFn.shuffle
  simp (config := { proj := false }) (disch := decide) only [after_app, after_cons, after_nil, shuffleS0, shuffleS1, split0_c4_0_val, tg_c4_1_v171, tg_c4_1_v175, split0_c4_0_fr_main_v25, tg_c4_1_fr_main_v25,
    nullary_result', unary_result', binary_result', ternary_result', reshape_result', unaryIndexed2_result', nullary_result_ne', unary_result_ne', binary_result_ne', ternary_result_ne', reshape_result_ne', unaryIndexed_result_ne', cast_eq]
  rfl
set_option maxRecDepth 4096 in
theorem main_eq (c : Dev nD) : main (F := F) c = seq mainOps := by
  unfold main mainOps
  rw [split_body, take_body, shuffle_body, take2_body, shuffle_body]
  simp only [seq_append, mainS0, mainS1, mainS2, mainS3, mainS4, mainS5, seq, bind_assoc, pure_bind]
  try rfl

def key6 : IVec S2 32 :=
  let main_c : IVec S_ 32 := constantI S_ 32 42#32
  let main_c_0 : IVec S_ 32 := constantI S_ 32 32#32
  let main_v0 : IVec S_ 32 := Host.shrui main_c main_c_0
  let main_v1 : IVec S_ 32 := id main_v0
  let main_v2 : IVec S1 32 := broadcastInDim S1 ![] bcast_S_S1 main_v1
  let main_c_1 : IVec S_ 32 := constantI S_ 32 4294967295#32
  let main_v3 : IVec S_ 32 := andi main_c main_c_1
  let main_v4 : IVec S_ 32 := id main_v3
  let main_v5 : IVec S1 32 := broadcastInDim S1 ![] bcast_S_S1 main_v4
  let main_v6 : IVec S2 32 := (fun a b => concatenate S2 0 [⟨S1, a⟩, ⟨S1, b⟩] concatenates_S1_S1_S2_d0) main_v2 main_v5
  main_v6

theorem keys_eq : RefFn.keys = RefFn.threefry_split key6 := rfl

theorem mainS0_v6 (V : Valuation τ sig (Elt F)) : after (mainS0 (F := F)) V (no_index (Proc.devRef .tc main_v6)) = key6 := by
  unfold mainS0 key6
  simp (config := { proj := false }) (disch := decide) only [after_cons, after_nil, nullary_result', unary_result', binary_result', ternary_result', reshape_result', unaryIndexed2_result', nullary_result_ne', unary_result_ne', binary_result_ne', ternary_result_ne', reshape_result_ne', unaryIndexed_result_ne', cast_eq]
  refine concat2_congr _ ?_ ?_ <;> simp (config := { proj := false }) (disch := decide) only [after_cons, after_nil, nullary_result', unary_result', binary_result', ternary_result', reshape_result', unaryIndexed2_result', nullary_result_ne', unary_result_ne', binary_result_ne', ternary_result_ne', reshape_result_ne', unaryIndexed_result_ne', cast_eq] <;> first | done | rfl

theorem mainS0_fr_main_arg0 (V : Valuation τ sig (Elt F)) : after (mainS0 (F := F)) V (no_index (Proc.devRef .tc main_arg0)) = V (Proc.devRef .tc main_arg0) :=
  mainS0_line.frame (by decide) V

theorem mainS0_fr_main_arg1 (V : Valuation τ sig (Elt F)) : after (mainS0 (F := F)) V (no_index (Proc.devRef .tc main_arg1)) = V (Proc.devRef .tc main_arg1) :=
  mainS0_line.frame (by decide) V

theorem split_c0_fr_main_arg1 (V : Valuation τ sig (Elt F)) :
    after (splitOps (F := F) t_main_v6 main_call0) V (no_index (Proc.devRef .tc main_arg1)) = V (Proc.devRef .tc main_arg1) :=
  (splitOps_line t_main_v6 main_call0).frame (by decide +kernel) V

theorem split_c0_fr_main_arg0 (V : Valuation τ sig (Elt F)) :
    after (splitOps (F := F) t_main_v6 main_call0) V (no_index (Proc.devRef .tc main_arg0)) = V (Proc.devRef .tc main_arg0) :=
  (splitOps_line t_main_v6 main_call0).frame (by decide +kernel) V

theorem take_c1_fr_main_v9 (V : Valuation τ sig (Elt F)) :
    after (takeOps (F := F) t_main_arg1 t_main_arg0 main_call1) V (no_index (Proc.devRef .tc main_v9)) = V (Proc.devRef .tc main_v9) :=
  (takeOps_line t_main_arg1 t_main_arg0 main_call1).frame (by decide +kernel) V

theorem take_c1_fr_main_arg1 (V : Valuation τ sig (Elt F)) :
    after (takeOps (F := F) t_main_arg1 t_main_arg0 main_call1) V (no_index (Proc.devRef .tc main_arg1)) = V (Proc.devRef .tc main_arg1) :=
  (takeOps_line t_main_arg1 t_main_arg0 main_call1).frame (by decide +kernel) V

theorem take_c1_fr_main_v11 (V : Valuation τ sig (Elt F)) :
    after (takeOps (F := F) t_main_arg1 t_main_arg0 main_call1) V (no_index (Proc.devRef .tc main_v11)) = V (Proc.devRef .tc main_v11) :=
  (takeOps_line t_main_arg1 t_main_arg0 main_call1).frame (by decide +kernel) V

theorem shuffle_c2_fr_main_v12 (V : Valuation τ sig (Elt F)) :
    after (shuffleOps (F := F) t_main_v9 t_main_v13 main_call2) V (no_index (Proc.devRef .tc main_v12)) = V (Proc.devRef .tc main_v12) :=
  (shuffleOps_line t_main_v9 t_main_v13 main_call2).frame (by decide +kernel) V

theorem shuffle_c2_fr_main_arg1 (V : Valuation τ sig (Elt F)) :
    after (shuffleOps (F := F) t_main_v9 t_main_v13 main_call2) V (no_index (Proc.devRef .tc main_arg1)) = V (Proc.devRef .tc main_arg1) :=
  (shuffleOps_line t_main_v9 t_main_v13 main_call2).frame (by decide +kernel) V

theorem shuffle_c2_fr_main_v11 (V : Valuation τ sig (Elt F)) :
    after (shuffleOps (F := F) t_main_v9 t_main_v13 main_call2) V (no_index (Proc.devRef .tc main_v11)) = V (Proc.devRef .tc main_v11) :=
  (shuffleOps_line t_main_v9 t_main_v13 main_call2).frame (by decide +kernel) V

theorem take2_c3_fr_main_v22 (V : Valuation τ sig (Elt F)) :
    after (take2Ops (F := F) t_main_arg1 t_main_v23 main_call3) V (no_index (Proc.devRef .tc main_v22)) = V (Proc.devRef .tc main_v22) :=
  (take2Ops_line t_main_arg1 t_main_v23 main_call3).frame (by decide +kernel) V

theorem take2_c3_fr_main_v11 (V : Valuation τ sig (Elt F)) :
    after (take2Ops (F := F) t_main_arg1 t_main_v23 main_call3) V (no_index (Proc.devRef .tc main_v11)) = V (Proc.devRef .tc main_v11) :=
  (take2Ops_line t_main_arg1 t_main_v23 main_call3).frame (by decide +kernel) V

theorem shuffle_c4_fr_main_v22 (V : Valuation τ sig (Elt F)) :
    after (shuffleOps (F := F) t_main_v11 t_main_v25 main_call4) V (no_index (Proc.devRef .tc main_v22)) = V (Proc.devRef .tc main_v22) :=
  (shuffleOps_line t_main_v11 t_main_v25 main_call4).frame (by decide +kernel) V

theorem shuffle_c4_fr_main_v24 (V : Valuation τ sig (Elt F)) :
    after (shuffleOps (F := F) t_main_v11 t_main_v25 main_call4) V (no_index (Proc.devRef .tc main_v24)) = V (Proc.devRef .tc main_v24) :=
  (shuffleOps_line t_main_v11 t_main_v25 main_call4).frame (by decide +kernel) V

theorem main_v22_val (V : Valuation τ sig (Elt F)) :
    after (mainOps (F := F)) V (Proc.devRef .tc main_v22) = RefFn.out0 (V (Proc.devRef .tc main_arg0)) (V (Proc.devRef .tc main_arg1)) := by
  unfold mainOps RefFn.out0 RefFn.key0
  rw [keys_eq]
  simp (config := { proj := false }) (disch := decide) only [after_app, after_cons, after_nil, mainS1, mainS2, mainS3, mainS4, mainS5, split_c0_val, take_c1_val, shuffle_c2_val, take2_c3_val, shuffle_c4_val, split_c0_fr_main_arg1, split_c0_fr_main_arg0, take_c1_fr_main_v9, take_c1_fr_main_arg1, take_c1_fr_main_v11, shuffle_c2_fr_main_v12, shuffle_c2_fr_main_arg1, shuffle_c2_fr_main_v11, take2_c3_fr_main_v22, take2_c3_fr_main_v11, shuffle_c4_fr_main_v22, shuffle_c4_fr_main_v24, mainS0_v6, mainS0_fr_main_arg0, mainS0_fr_main_arg1,
    nullary_result', unary_result', binary_result', ternary_result', reshape_result', unaryIndexed2_result', nullary_result_ne', unary_result_ne', binary_result_ne', ternary_result_ne', reshape_result_ne', unaryIndexed_result_ne', cast_eq]
  all_goals rfl

theorem main_v34_val (V : Valuation τ sig (Elt F)) :
    after (mainOps (F := F)) V (Proc.devRef .tc main_v34) = RefFn.out1 (V (Proc.devRef .tc main_arg0)) (V (Proc.devRef .tc main_arg1)) := by
  unfold mainOps RefFn.out1 RefFn.out0 RefFn.key1 RefFn.key0
  rw [keys_eq]
  simp (config := { proj := false }) (disch := decide) only [after_app, after_cons, after_nil, mainS1, mainS2, mainS3, mainS4, mainS5, split_c0_val, take_c1_val, shuffle_c2_val, take2_c3_val, shuffle_c4_val, split_c0_fr_main_arg1, split_c0_fr_main_arg0, take_c1_fr_main_v9, take_c1_fr_main_arg1, take_c1_fr_main_v11, shuffle_c2_fr_main_v12, shuffle_c2_fr_main_arg1, shuffle_c2_fr_main_v11, take2_c3_fr_main_v22, take2_c3_fr_main_v11, shuffle_c4_fr_main_v22, shuffle_c4_fr_main_v24, mainS0_v6, mainS0_fr_main_arg0, mainS0_fr_main_arg1,
    nullary_result', unary_result', binary_result', ternary_result', reshape_result', unaryIndexed2_result', nullary_result_ne', unary_result_ne', binary_result_ne', ternary_result_ne', reshape_result_ne', unaryIndexed_result_ne', cast_eq]
  all_goals rfl

theorem main_arg0_val (V : Valuation τ sig (Elt F)) : after (mainOps (F := F)) V (Proc.devRef .tc main_arg0) = V (Proc.devRef .tc main_arg0) :=
  mainOps_line.frame (by decide) V

theorem main_arg1_val (V : Valuation τ sig (Elt F)) : after (mainOps (F := F)) V (Proc.devRef .tc main_arg1) = V (Proc.devRef .tc main_arg1) :=
  mainOps_line.frame (by decide) V

theorem scopedRefs_eq : (Finset.univ.filter fun b : Ref sig .tc => b.isScoped) = ∅ := by decide
theorem scopedSems_eq : (Finset.univ.filter fun sm : SemLoc sig => sm.isScoped .tc) = ∅ := by decide

theorem run [Cert.ReferenceIdeal.Facts] (m : (ℓ : Loc Cert.ReferenceIdeal.nD Cert.ReferenceIdeal.τ Cert.ReferenceIdeal.sig) → Buf (Elt F) ℓ) (g : Dev Cert.ReferenceIdeal.nD → PrngReg) :
    θ_run (Cert.ReferenceIdeal.defs (F := F)) (onTc (τ := Cert.ReferenceIdeal.τ) (Cert.ReferenceIdeal.main (F := F))) ⟨m, fun _ => 0, g⟩ (fun r => ∀ c : Dev Cert.ReferenceIdeal.nD,
      r.2.mem ((c.tc : Thread _ _).loc Cert.ReferenceIdeal.main_v22) = RefFn.out0 (m ((c.tc : Thread _ _).loc Cert.ReferenceIdeal.main_arg0)) (m ((c.tc : Thread _ _).loc Cert.ReferenceIdeal.main_arg1))
      ∧ r.2.mem ((c.tc : Thread _ _).loc Cert.ReferenceIdeal.main_v34) = RefFn.out1 (m ((c.tc : Thread _ _).loc Cert.ReferenceIdeal.main_arg0)) (m ((c.tc : Thread _ _).loc Cert.ReferenceIdeal.main_arg1))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)) :=
  (θ_run defs _ _).mono (fun _ h c => ⟨(h c main_v22).trans (main_v22_val _), (h c main_v34).trans (main_v34_val _),
      (h c main_arg0).trans (main_arg0_val _), (h c main_arg1).trans (main_arg1_val _)⟩)
    (run_seq scopedRefs_eq scopedSems_eq defs main (fun _ => mainOps) main_eq
      (fun _ => List.forall_iff_forall_mem.mpr fun op hop => (mainOps_line.good op hop).1) m g
      (fun _ op hop => (mainOps_line.good op hop).2))

end Cert.RefRun

end
-- ==== Proof.RefValue.lean ====
/- The reference's two results read at an index: over words below 100000 each entry is one entry of the table. -/
import proofs.«215163_g69475390980333_cont_9to1_m_779_28_alg».proof.Proof.Spec
import proofs.«215163_g69475390980333_cont_9to1_m_779_28_alg».proof.Proof.RefFn
import Idealize.ShloMosaic.PureOps
import Idealize.ShloMosaic.Lib.ValueIdx
import Idealize.ShloMosaic.Lib.StableHlo.Predicate
import Idealize.ShloMosaic.Lib.ReduceAll
import Idealize.ShloMosaic.Lib.Pipeline.Value

namespace Cert.RefValue

open Idealize.ShloMosaic Idealize.ShloMosaic.ValueIdx Idealize.ShloMosaic.StableHlo.Predicate

theorem toInt_toNat_of_lt {w : BitVec 32} (h : w.toNat < 2 ^ 31) : w.toInt.toNat = w.toNat := by
  rw [toInt_eq_toNat_of_lt h]; rfl

theorem slt_zero_of_lt {w : BitVec 32} (h : w.toNat < 2 ^ 31) : ¬ IntOp.cmpi .slt w 0#32 = 1#1 := by
  rw [IntOp.cmpi_slt, toInt_eq_toNat_of_lt h, show (0#32 : BitVec 32).toInt = 0 from by decide]
  omega

theorem wrap_of_lt {w k : BitVec 32} (h : w.toNat < 2 ^ 31) :
    Scalar.select (IntOp.cmpi .slt w 0#32) (IntOp.addi w k) w = w := if_neg (slt_zero_of_lt h)

theorem inrange_of_lt {w : BitVec 32} (h : w.toNat < 100000) :
    IntOp.andi (IntOp.cmpi .sge w 0#32) (IntOp.cmpi .sle w 99999#32) = 1#1 := by
  rw [IntOp.andi_eq_one, IntOp.cmpi_sge, IntOp.cmpi_sle, toInt_eq_toNat_of_lt (a := w) (by omega),
    show (0#32 : BitVec 32).toInt = 0 from by decide, show (99999#32 : BitVec 32).toInt = 99999 from by decide]
  omega

theorem foldl_andi_ones {ι : Type} (f : ι → BitVec 1) (hf : ∀ i, f i = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_ones f hf l

theorem reduce_andi_ones {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  rw [Host.reduce_eq_foldl, hi]
  exact foldl_andi_ones x hx _

theorem gather_rows_apply {α : Type} {N C n w : Nat} (hN : 0 < N)
    (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (b : Fin n) (c : Fin C) :
    Host.gather d x idx (ix2 b c) = x (ix2 ⟨min (idx (ixP b)).toInt.toNat (N - 1), by omega⟩ c) := by
  obtain ⟨od, cd, ob, sb, sm, iv, ss, wf⟩ := d
  dsimp only at hoff hcoll hob hsim hivd
  subst hoff hcoll hob hsim hivd
  unfold Host.gather
  congr 1
  funext a
  apply Fin.ext
  match a with
  | ⟨0, _⟩ =>
    simp [GatherDims.operandIdx, GatherDims.start, GatherDims.batchCoord, GatherDims.offCoord, GatherDims.sKept, Shape.kept]
    have hss : ss 0 = 1 := wf.2.2.2.2.2.2.2.2.2.2.2.1 0 (List.mem_singleton.mpr rfl)
    rw [hss]
    refine congrArg (fun z => min (idx z).toInt.toNat (N - 1)) ?_
    funext b'
    apply Fin.ext
    match b' with
    | ⟨0, _⟩ =>
      simp [GatherDims.siIdx, GatherDims.siCoord, GatherDims.siKept, GatherDims.batchDims, Shape.kept]
      rfl
    | ⟨1, _⟩ =>
      simp [GatherDims.siIdx]
  | ⟨1, _⟩ =>
    simp [GatherDims.operandIdx, GatherDims.start, GatherDims.batchCoord, GatherDims.offCoord, GatherDims.sKept, Shape.kept]
    rfl

theorem gather_cols_apply {α : Type} {R C m w : Nat} (hC : 0 < C)
    (d : GatherDims ⟨2, ![R, C]⟩ ⟨2, ![m, 1]⟩ ⟨2, ![R, m]⟩)
    (hoff : d.offsetDims = [0]) (hcoll : d.collapsedSliceDims = [1]) (hob : d.operandBatchingDims = [])
    (hsim : d.startIndexMap = [1]) (hivd : d.indexVectorDim = 1)
    (x : (⟨2, ![R, C]⟩ : Shape).Idx → α) (idx : IVec ⟨2, ![m, 1]⟩ w) (r : Fin R) (j : Fin m) :
    Host.gather d x idx (ix2 r j) = x (ix2 r ⟨min (idx (ixP j)).toInt.toNat (C - 1), by omega⟩) := by
  obtain ⟨od, cd, ob, sb, sm, iv, ss, wf⟩ := d
  dsimp only at hoff hcoll hob hsim hivd
  subst hoff hcoll hob hsim hivd
  unfold Host.gather
  congr 1
  funext a
  apply Fin.ext
  match a with
  | ⟨0, _⟩ =>
    simp [GatherDims.operandIdx, GatherDims.start, GatherDims.batchCoord, GatherDims.offCoord, GatherDims.sKept, Shape.kept]
    rfl
  | ⟨1, _⟩ =>
    simp [GatherDims.operandIdx, GatherDims.start, GatherDims.batchCoord, GatherDims.offCoord, GatherDims.sKept, Shape.kept]
    have hss : ss 1 = 1 := wf.2.2.2.2.2.2.2.2.2.2.2.1 1 (List.mem_singleton.mpr rfl)
    rw [hss]
    refine congrArg (fun z => min (idx z).toInt.toNat (C - 1)) ?_
    funext b'
    apply Fin.ext
    match b' with
    | ⟨0, _⟩ =>
      simp [GatherDims.siIdx, GatherDims.siCoord, GatherDims.siKept, GatherDims.batchDims, Shape.kept]
      rfl
    | ⟨1, _⟩ =>
      simp [GatherDims.siIdx]

theorem dynamicSlice_origin_apply {α : Type} {R C c : Nat} (x : (⟨2, ![R, C]⟩ : Shape).Idx → α) (start : Fin 2 → Int)
    (hs : ∀ a, start a = 0) (h : (⟨2, ![R, C]⟩ : Shape).Slices (fun _ => 0) ⟨2, ![R, c]⟩) (hc : c ≤ C) (r : Fin R) (j : Fin c) :
    Host.dynamicSlice ⟨2, ![R, c]⟩ x start h (ix2 r j) = x (ix2 r ⟨j.val, by omega⟩) := by
  unfold Host.dynamicSlice
  refine extractStridedSlice_apply _ x _ _ _ fun a => ?_
  rw [hs a]
  match a with
  | ⟨0, _⟩ => show r.val = (min (max (0 : Int) 0) _).toNat + r.val; omega
  | ⟨1, _⟩ => show j.val = (min (max (0 : Int) 0) _).toNat + j.val; omega

theorem flatten_apply {α : Type} {R c M : Nat} (hc : 0 < c) (hM : M = R * c) (x : (⟨2, ![R, c]⟩ : Shape).Idx → α)
    (h : (⟨2, ![R, c]⟩ : Shape).ShapeCasts ⟨1, ![M]⟩) (n : Fin M) :
    shapeCast ⟨1, ![M]⟩ x h (ix1 n) =
      x (ix2 ⟨n.val / c, by have := n.isLt; subst hM; exact Nat.div_lt_of_lt_mul (Nat.mul_comm R c ▸ this)⟩
          ⟨n.val % c, Nat.mod_lt _ hc⟩) := by
  refine shapeCast_apply x h _ _ ?_
  rw [Shape.rowMajor_val_two, Shape.rowMajor_val_one]
  show n.val / c * c + n.val % c = n.val
  rw [Nat.mul_comm]; exact Nat.div_add_mod _ _

theorem bcast_col_apply {α : Type} {n : Nat} (h : (⟨1, ![n]⟩ : Shape).BroadcastsInDim ⟨2, ![n, 1]⟩ ![0])
    (v : (⟨1, ![n]⟩ : Shape).Idx → α) (p : Fin n) : broadcastInDim ⟨2, ![n, 1]⟩ ![0] h v (ixP p) = v (ix1 p) := by
  refine broadcastInDim_apply _ h v _ _ fun a => ?_
  obtain rfl : a = 0 := Subsingleton.elim _ _
  show p.val = if n = 1 then 0 else p.val
  have := p.isLt
  split <;> omega

theorem bcast_along_rows_apply {α : Type} {n m : Nat} (h : (⟨1, ![n]⟩ : Shape).BroadcastsInDim ⟨2, ![n, m]⟩ ![0])
    (v : (⟨1, ![n]⟩ : Shape).Idx → α) (p : Fin n) (q : Fin m) : broadcastInDim ⟨2, ![n, m]⟩ ![0] h v (ix2 p q) = v (ix1 p) := by
  refine broadcastInDim_apply _ h v _ _ fun a => ?_
  obtain rfl : a = 0 := Subsingleton.elim _ _
  show p.val = if n = 1 then 0 else p.val
  have := p.isLt
  split <;> omega

section Take
variable {n : Nat}
  (hb0 : (⟨0, ![]⟩ : Shape).BroadcastsInDim ⟨1, ![n]⟩ (![] : Fin 0 → Fin (⟨1, ![n]⟩ : Shape).rank))
  (hb1 : (⟨1, ![n]⟩ : Shape).BroadcastsInDim ⟨2, ![n, 1]⟩ (![0] : Fin 1 → Fin (⟨2, ![n, 1]⟩ : Shape).rank))
  (hb2 : (⟨0, ![]⟩ : Shape).BroadcastsInDim ⟨2, ![n, 1]⟩ (![] : Fin 0 → Fin (⟨2, ![n, 1]⟩ : Shape).rank))
  (hb3 : (⟨1, ![1]⟩ : Shape).BroadcastsInDim ⟨2, ![1, 1]⟩ (![1] : Fin 1 → Fin (⟨2, ![1, 1]⟩ : Shape).rank))
  (hb4 : (⟨2, ![1, 1]⟩ : Shape).BroadcastsInDim ⟨2, ![n, 1]⟩ (![0, 1] : Fin 2 → Fin (⟨2, ![n, 1]⟩ : Shape).rank))
  (hr : (⟨2, ![n, 1]⟩ : Shape).ReducesTo [1] ⟨1, ![n]⟩) (h0 : 0 < (⟨0, ![]⟩ : Shape).numel)
  (d : GatherDims ⟨2, ![100000, 64]⟩ ⟨2, ![n, 1]⟩ ⟨2, ![n, 64]⟩)
  (hb5 : (⟨1, ![n]⟩ : Shape).BroadcastsInDim ⟨2, ![n, 64]⟩ (![0] : Fin 1 → Fin (⟨2, ![n, 64]⟩ : Shape).rank))
  (hb6 : (⟨0, ![]⟩ : Shape).BroadcastsInDim ⟨2, ![n, 64]⟩ (![] : Fin 0 → Fin (⟨2, ![n, 64]⟩ : Shape).rank))

def wrapIdx (k : BitVec 32) (idx : IVec ⟨1, ![n]⟩ 32) : IVec ⟨1, ![n]⟩ 32 :=
  select (cmpi .slt idx (broadcastInDim ⟨1, ![n]⟩ ![] hb0 (constantI ⟨0, ![]⟩ 32 0#32)))
    (addi idx (broadcastInDim ⟨1, ![n]⟩ ![] hb0 (constantI ⟨0, ![]⟩ 32 k))) idx

def inRange (v5 : IVec ⟨2, ![n, 1]⟩ 32) : IVec ⟨1, ![n]⟩ 1 :=
  Host.reduce IntOp.andi
    (andi (cmpi .sge v5 (broadcastInDim ⟨2, ![n, 1]⟩ ![] hb2 (constantI ⟨0, ![]⟩ 32 0#32)))
      (cmpi .sle v5 (broadcastInDim ⟨2, ![n, 1]⟩ ![0, 1] hb4
        (broadcastInDim ⟨2, ![1, 1]⟩ ![1] hb3 (constantI ⟨1, ![1]⟩ 32 99999#32)))))
    (constantI ⟨0, ![]⟩ 1 1#1) hr h0

def takeTerm (adj : IVec ⟨2, ![100000, 64]⟩ 32) (idx : IVec ⟨1, ![n]⟩ 32) : IVec ⟨2, ![n, 64]⟩ 32 :=
  select (broadcastInDim ⟨2, ![n, 64]⟩ ![0] hb5
      (inRange hb2 hb3 hb4 hr h0 (broadcastInDim ⟨2, ![n, 1]⟩ ![0] hb1 (wrapIdx hb0 100000#32 idx))))
    (Host.gather d adj (broadcastInDim ⟨2, ![n, 1]⟩ ![0] hb1 (wrapIdx hb0 100000#32 idx)))
    (broadcastInDim ⟨2, ![n, 64]⟩ ![] hb6 (constantI ⟨0, ![]⟩ 32 2147483648#32))

theorem wrapIdx_apply (k : BitVec 32) (idx : IVec ⟨1, ![n]⟩ 32) (i : (⟨1, ![n]⟩ : Shape).Idx) (hi : (idx i).toNat < 2 ^ 31) :
    wrapIdx hb0 k idx i = idx i := wrap_of_lt hi

theorem wrapIdx_eq (k : BitVec 32) (idx : IVec ⟨1, ![n]⟩ 32) (hidx : ∀ i, (idx i).toNat < 2 ^ 31) : wrapIdx hb0 k idx = idx :=
  funext fun i => wrapIdx_apply hb0 k idx i (hidx i)

theorem inRange_eq_one (v5 : IVec ⟨2, ![n, 1]⟩ 32) (hv : ∀ i, (v5 i).toNat < 100000) (j : (⟨1, ![n]⟩ : Shape).Idx) :
    inRange hb2 hb3 hb4 hr h0 v5 j = 1#1 :=
  reduce_andi_ones _ _ hr h0 (fun i => inrange_of_lt (hv i)) (fun _ => rfl) j

theorem takeTerm_apply (hoff : d.offsetDims = [1]) (hcoll : d.collapsedSliceDims = [0]) (hob : d.operandBatchingDims = [])
    (hsim : d.startIndexMap = [0]) (hivd : d.indexVectorDim = 1)
    (adj : IVec ⟨2, ![100000, 64]⟩ 32) (idx : IVec ⟨1, ![n]⟩ 32) (hidx : ∀ i, (idx i).toNat < 100000)
    (b : Fin n) (c : Fin 64) :
    takeTerm hb0 hb1 hb2 hb3 hb4 hr h0 d hb5 hb6 adj idx (ix2 b c) = adj (ix2 ⟨(idx (ix1 b)).toNat, hidx _⟩ c) := by
  unfold takeTerm
  rw [wrapIdx_eq hb0 100000#32 idx fun i => by have := hidx i; omega]
  rw [select_apply]
  have hcol : ∀ i, (broadcastInDim ⟨2, ![n, 1]⟩ ![0] hb1 idx i).toNat < 100000 := fun i => hidx _
  rw [bcast_along_rows_apply, inRange_eq_one hb2 hb3 hb4 hr h0 _ hcol, select_one,
    gather_rows_apply (by decide) d hoff hcoll hob hsim hivd]
  congr 1
  refine congrArg (fun r : Fin 100000 => ix2 r c) (Fin.ext ?_)
  show min (broadcastInDim ⟨2, ![n, 1]⟩ ![0] hb1 idx (ixP b)).toInt.toNat (100000 - 1) = (idx (ix1 b)).toNat
  have := hidx (ix1 b)
  rw [bcast_col_apply, toInt_toNat_of_lt (by omega)]
  omega

end Take

section Pick
variable {R c : Nat}
  (hbs : (⟨0, ![]⟩ : Shape).BroadcastsInDim ⟨1, ![64]⟩ (![] : Fin 0 → Fin (⟨1, ![64]⟩ : Shape).rank))
  (hbc : (⟨1, ![64]⟩ : Shape).BroadcastsInDim ⟨2, ![64, 1]⟩ (![0] : Fin 1 → Fin (⟨2, ![64, 1]⟩ : Shape).rank))
  (d : GatherDims ⟨2, ![R, 64]⟩ ⟨2, ![64, 1]⟩ ⟨2, ![R, 64]⟩)
  (hs : (⟨2, ![R, 64]⟩ : Shape).Slices (fun _ => 0) ⟨2, ![R, c]⟩)

def pickTerm (opnd : IVec ⟨2, ![R, 64]⟩ 32) (perm : IVec ⟨1, ![64]⟩ 32) (start : Fin 2 → Int) : IVec ⟨2, ![R, c]⟩ 32 :=
  Host.dynamicSlice ⟨2, ![R, c]⟩
    (Host.gather d opnd (broadcastInDim ⟨2, ![64, 1]⟩ ![0] hbc (wrapIdx hbs 64#32 perm))) start hs

theorem pickTerm_apply (hoff : d.offsetDims = [0]) (hcoll : d.collapsedSliceDims = [1]) (hob : d.operandBatchingDims = [])
    (hsim : d.startIndexMap = [1]) (hivd : d.indexVectorDim = 1) (hc : c ≤ 64)
    (opnd : IVec ⟨2, ![R, 64]⟩ 32) (perm : IVec ⟨1, ![64]⟩ 32) (start : Fin 2 → Int) (hstart : ∀ a, start a = 0)
    (p : Fin c → Fin 64) (hp : ∀ j : Fin c, perm (ix1 ⟨j.val, by omega⟩) = BitVec.ofNat 32 (p j).val)
    (r : Fin R) (j : Fin c) :
    pickTerm hbs hbc d hs opnd perm start (ix2 r j) = opnd (ix2 r (p j)) := by
  unfold pickTerm
  rw [dynamicSlice_origin_apply _ start hstart hs hc, gather_cols_apply (by decide) d hoff hcoll hob hsim hivd]
  congr 1
  refine congrArg (fun q : Fin 64 => ix2 r q) (Fin.ext ?_)
  show min (broadcastInDim ⟨2, ![64, 1]⟩ ![0] hbc (wrapIdx hbs 64#32 perm) (ixP ⟨j.val, by omega⟩)).toInt.toNat (64 - 1)
    = (p j).val
  have hlt := (p j).isLt
  have hw : (perm (ix1 ⟨j.val, by omega⟩)).toNat < 2 ^ 31 := by rw [hp, BitVec.toNat_ofNat]; omega
  rw [bcast_col_apply, wrapIdx_apply hbs 64#32 perm _ hw, toInt_toNat_of_lt hw, hp, BitVec.toNat_ofNat]
  omega

end Pick

section Results
open Cert.ReferenceIdeal Cert.ReferenceIdeal.Facts₀ Cert.ReferenceIdeal.Facts
variable [Cert.ReferenceIdeal.Facts]

theorem take_eq (adj : IVec S100000x64 32) (idx : IVec S4096 32) :
    Cert.RefFn.take adj idx = takeTerm bcast_S_S4096 bcast_S4096_S4096x1_0 bcast_S_S4096x1 bcast_S1_S1x1_1
      bcast_S1x1_S4096x1_0_1 reducesTo_S4096x1_S4096_d1 h_S_ gather_S100000x64_S4096x1_S4096x64_1_0_n_n_0_1_164
      bcast_S4096_S4096x64_0 bcast_S_S4096x64 adj idx := rfl

theorem take_2_eq (adj : IVec S100000x64 32) (idx : IVec S40960 32) :
    Cert.RefFn.take_2 adj idx = takeTerm bcast_S_S40960 bcast_S40960_S40960x1_0 bcast_S_S40960x1 bcast_S1_S1x1_1
      bcast_S1x1_S40960x1_0_1 reducesTo_S40960x1_S40960_d1 h_S_ gather_S100000x64_S40960x1_S40960x64_1_0_n_n_0_1_164
      bcast_S40960_S40960x64_0 bcast_S_S40960x64 adj idx := rfl

theorem take_apply (adj : IVec S100000x64 32) (idx : IVec S4096 32) (hidx : ∀ i, (idx i).toNat < 100000)
    (b : Fin 4096) (c : Fin 64) : Cert.RefFn.take adj idx (ix2 b c) = adj (ix2 ⟨(idx (ix1 b)).toNat, hidx _⟩ c) := by
  rw [take_eq]
  exact takeTerm_apply _ _ _ _ _ _ _ _ _ _ rfl rfl rfl rfl rfl adj idx hidx b c

theorem take_2_apply (adj : IVec S100000x64 32) (idx : IVec S40960 32) (hidx : ∀ i, (idx i).toNat < 100000)
    (b : Fin 40960) (c : Fin 64) : Cert.RefFn.take_2 adj idx (ix2 b c) = adj (ix2 ⟨(idx (ix1 b)).toNat, hidx _⟩ c) := by
  rw [take_2_eq]
  exact takeTerm_apply _ _ _ _ _ _ _ _ _ _ rfl rfl rfl rfl rfl adj idx hidx b c

theorem start_zero (a : Fin 2) :
    ((![constantI S_ 32 0#32, constantI S_ 32 0#32] : Fin 2 → IVec S_ 32) a (Shape.Idx.first h_S_)).toInt = 0 := by
  match a with
  | ⟨0, _⟩ => rfl
  | ⟨1, _⟩ => rfl

theorem out0_eq_pick (x : IVec S4096 32) (adj : IVec S100000x64 32) :
    Cert.RefFn.out0 x adj = pickTerm bcast_S_S64 bcast_S64_S64x1_0 gather_S4096x64_S64x1_S4096x64_0_1_n_n_1_1_40961
      sliceFits_S4096x64_S4096x10 (Cert.RefFn.take adj x) (Cert.RefFn.shuffle Cert.RefFn.key0 (iotaInDim S64 32 0))
      (fun k => ((![constantI S_ 32 0#32, constantI S_ 32 0#32] : Fin 2 → IVec S_ 32) k (Shape.Idx.first h_S_)).toInt) := rfl

theorem out1_eq_pick (x : IVec S4096 32) (adj : IVec S100000x64 32) :
    Cert.RefFn.out1 x adj = pickTerm bcast_S_S64 bcast_S64_S64x1_0 gather_S40960x64_S64x1_S40960x64_0_1_n_n_1_1_409601
      sliceFits_S40960x64_S40960x25
      (Cert.RefFn.take_2 adj (shapeCast S40960 (Cert.RefFn.out0 x adj) shapeCasts_S4096x10_S40960))
      (Cert.RefFn.shuffle Cert.RefFn.key1 (iotaInDim S64 32 0))
      (fun k => ((![constantI S_ 32 0#32, constantI S_ 32 0#32] : Fin 2 → IVec S_ 32) k (Shape.Idx.first h_S_)).toInt) := rfl

theorem out0_eq (x : IVec S4096 32) (adj : IVec S100000x64 32)
    (hx : ∀ i, (x i).toNat < 100000) (hadj : ∀ i, (adj i).toNat < 100000)
    (hp0 : ∀ j : Fin 10, Cert.RefFn.shuffle Cert.RefFn.key0 (iotaInDim S64 32 0) (ix1 ⟨j.val, by omega⟩)
      = BitVec.ofNat 32 (Cert.Spec.p0 j).val) :
    Cert.RefFn.out0 x adj = Cert.Spec.hop0 x adj := by
  funext i
  obtain ⟨b, j, rfl⟩ : ∃ (b : Fin 4096) (j : Fin 10), i = ix2 b j := ⟨i 0, i 1, eq_ix2 i⟩
  rw [out0_eq_pick,
    pickTerm_apply _ _ _ _ rfl rfl rfl rfl rfl (by decide) _ _ _ start_zero Cert.Spec.p0 hp0, take_apply adj x hx]
  show adj _ = adj (ix2 (Cert.Spec.rowOf (x (ix1 b))) (Cert.Spec.p0 j))
  congr 1
  refine congrArg (fun r : Fin 100000 => ix2 r (Cert.Spec.p0 j)) (Fin.ext ?_)
  exact (Cert.Spec.rowOf_val_of_lt (hx _)).symm

theorem out1_eq (x : IVec S4096 32) (adj : IVec S100000x64 32)
    (hx : ∀ i, (x i).toNat < 100000) (hadj : ∀ i, (adj i).toNat < 100000)
    (hp0 : ∀ j : Fin 10, Cert.RefFn.shuffle Cert.RefFn.key0 (iotaInDim S64 32 0) (ix1 ⟨j.val, by omega⟩)
      = BitVec.ofNat 32 (Cert.Spec.p0 j).val)
    (hp1 : ∀ j : Fin 25, Cert.RefFn.shuffle Cert.RefFn.key1 (iotaInDim S64 32 0) (ix1 ⟨j.val, by omega⟩)
      = BitVec.ofNat 32 (Cert.Spec.p1 j).val) :
    Cert.RefFn.out1 x adj = Cert.Spec.hop1 x adj := by
  funext i
  obtain ⟨n, w, rfl⟩ : ∃ (n : Fin 40960) (w : Fin 25), i = ix2 n w := ⟨i 0, i 1, eq_ix2 i⟩
  have h0 := out0_eq x adj hx hadj hp0

  have hflat : ∀ m : Fin 40960, shapeCast S40960 (Cert.RefFn.out0 x adj) shapeCasts_S4096x10_S40960 (ix1 m)
      = Cert.Spec.hop0 x adj (ix2 (Cert.Spec.rowIn m) (Cert.Spec.colOf m)) := fun m => by
    rw [flatten_apply (by decide) (by decide) _ shapeCasts_S4096x10_S40960 m, h0]; rfl

  have hidx : ∀ i, (shapeCast S40960 (Cert.RefFn.out0 x adj) shapeCasts_S4096x10_S40960 i).toNat < 100000 := fun i => by
    obtain ⟨m, rfl⟩ : ∃ m : Fin 40960, i = ix1 m := ⟨i 0, eq_ix1 i⟩
    rw [hflat]; exact hadj _
  rw [out1_eq_pick,
    pickTerm_apply _ _ _ _ rfl rfl rfl rfl rfl (by decide) _ _ _ start_zero Cert.Spec.p1 hp1, take_2_apply adj _ hidx]
  show adj _ = adj (ix2 (Cert.Spec.rowOf (Cert.Spec.hop0 x adj (ix2 (Cert.Spec.rowIn n) (Cert.Spec.colOf n)))) (Cert.Spec.p1 w))
  congr 1
  refine congrArg (fun r : Fin 100000 => ix2 r (Cert.Spec.p1 w)) (Fin.ext ?_)
  show (shapeCast S40960 (Cert.RefFn.out0 x adj) shapeCasts_S4096x10_S40960 (ix1 n)).toNat = _
  rw [hflat n]
  exact (Cert.Spec.rowOf_val_of_lt (hadj _)).symm

end Results

end Cert.RefValue
-- ==== Proof.PermEval.lean ====
/- The first entries of a stable sort of (keys, iota) by pairwise distinct keys, and the two literal key tables. -/
import Idealize.ShloMosaic.PureOps
import Idealize.ShloMosaic.Lib.SortFacts
import Idealize.ShloMosaic.Lib.SortPrefix
import Idealize.ShloMosaic.Lib.ValueIdx

namespace Cert.PermEval
open Idealize.ShloMosaic Idealize.ShloMosaic.ValueIdx

def keyNat0 : List Nat :=
  [
   1788795708, 371401475, 2070398019, 533967593, 4175555310, 1360115163, 3184579100, 3221567173,
   4288162548, 820032275, 3882633196, 1286434149, 2975821250, 3653736283, 1864861971, 1381088800,
   3056468851, 119133799, 2802891179, 778988747, 1670953869, 2516890273, 2751318768, 4281677667,
   2845788631, 4105899005, 2866085631, 123541828, 689983884, 4016505177, 2571466884, 1337058995,
   308894144, 954795303, 4101528243, 2292208732, 2139062900, 3702851257, 2056461057, 1447585597,
   677834510, 4200355808, 137676234, 2647009154, 1876969256, 1325580537, 1857046330, 1584029064,
   3623283617, 1875411568, 1497634967, 659003295, 764453459, 2932978087, 2131199219, 3460924592,
   4126671095, 3405735965, 635371656, 2534842573, 3705570312, 2067640499, 2445426952, 2482200556]

def keyNat1 : List Nat :=
  [
   639354893, 3013878472, 27235784, 2912284508, 750944403, 1611617508, 2706999241, 1818970346,
   3270650092, 1981336631, 194245196, 977544916, 1158140104, 2453395911, 2990073377, 191431764,
   1559899681, 1146808230, 1556855825, 1326199931, 986848871, 848248318, 1343175322, 1681460772,
   3792662226, 320557724, 1796735702, 1603603446, 577839162, 1853307729, 4066507290, 3434856918,
   149679724, 3362060035, 2693082683, 4191776928, 2582139882, 2614870032, 3364224986, 1689367950,
   3209970386, 2341067891, 828767630, 3972994911, 3226503153, 4119186948, 2799297761, 3350842898,
   278556260, 648472905, 4275990207, 3715221540, 2913994133, 2390534756, 1961035256, 3365711382,
   3846135769, 1117621540, 3332009812, 4106426928, 798756109, 3150381207, 2838528423, 3786906329]

def keyTable0 (i : Fin 64) : BitVec 32 := BitVec.ofNat 32 (keyNat0.getD i.val 0)
def keyTable1 (i : Fin 64) : BitVec 32 := BitVec.ofNat 32 (keyNat1.getD i.val 0)

def keyBefore {n : Nat} (tbl : Fin n → BitVec 32) (k k' : Fin n) : Bool := (tbl k).ult (tbl k')

theorem strictTotal_keyBefore {n : Nat} (tbl : Fin n → BitVec 32) (hinj : Function.Injective tbl) :
    StrictTotalBefore (keyBefore tbl) where
  irrefl a := by simp [keyBefore, BitVec.ult]
  trans a b c hab hbc := by
    simp only [keyBefore, BitVec.ult, decide_eq_true_eq] at hab hbc ⊢
    exact Nat.lt_trans hab hbc
  total a b hne := by
    simp only [keyBefore, BitVec.ult, decide_eq_true_eq]
    have h : (tbl a).toNat ≠ (tbl b).toNat := fun e => hne (hinj (BitVec.eq_of_toNat_eq e))
    exact Nat.lt_or_gt_of_ne h

theorem sort2_rank1 {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (Shape.Idx.ofFin (sortedFrom (fun k k' =>
          cmp (x (Shape.Idx.ofFin k), y (Shape.Idx.ofFin k)) (x (Shape.Idx.ofFin k'), y (Shape.Idx.ofFin k')) == 1#1) (j 0))) := by
  unfold Host.sort2
  simp

theorem sort2_iota_prefix {m : Nat} (hm : m ≤ 64)
    (cmp : BitVec 32 × BitVec 32 → BitVec 32 × BitVec 32 → BitVec 1)
    (hcmp : ∀ l r, cmp l r = IntOp.cmpi .ult l.1 r.1)
    (keys : IVec ⟨1, ![64]⟩ 32) (tbl : Fin 64 → BitVec 32) (hk : ∀ i : Fin 64, keys (ix1 i) = tbl i)
    (hinj : Function.Injective tbl)
    (σ : Fin m → Fin 64) (hσ : Function.Injective σ)
    (hord : ∀ i j : Fin m, i < j → keyBefore tbl (σ j) (σ i) = false)
    (hdom : ∀ (i : Fin m) (p : Fin 64), (∀ j, σ j ≠ p) → keyBefore tbl p (σ i) = false) (j : Fin m) :
    (Host.sort2 ⟨1, ![64]⟩ 0 cmp keys (iotaInDim ⟨1, ![64]⟩ 32 0)).2 (ix1 (j.castLE hm))
      = BitVec.ofNat 32 (σ j).val := by
  have hB : (fun k k' : Fin 64 =>
      cmp (keys (Shape.Idx.ofFin k), iotaInDim ⟨1, ![64]⟩ 32 0 (Shape.Idx.ofFin k))
          (keys (Shape.Idx.ofFin k'), iotaInDim ⟨1, ![64]⟩ 32 0 (Shape.Idx.ofFin k')) == 1#1) = keyBefore tbl := by
    funext k k'
    have e : ∀ q : Fin 64, keys (Shape.Idx.ofFin q) = tbl q := fun q => by
      rw [eq_ix1 (Shape.Idx.ofFin q), Shape.Idx.ofFin_zero]; exact hk q
    rw [hcmp]
    simp only [e, keyBefore, IntOp.cmpi]
    cases (tbl k).ult (tbl k') <;> rfl
  have hs := (strictTotal_keyBefore tbl hinj).sortedFrom_eq_of_prefix hm σ hσ hord hdom j
  rw [sort2_rank1, hB]
  have h0 : (ix1 (j.castLE hm) : (⟨1, ![64]⟩ : Shape).Idx) 0 = j.castLE hm := rfl
  rw [h0, hs]
  simp [iotaInDim]

def P0 : List Nat := [17, 27, 42, 32, 1, 3, 58, 51, 40, 28]

def P1 : List Nat := [2, 32, 15, 10, 48, 25, 28, 0, 49, 4, 60, 42, 21, 11, 20, 57, 17, 12, 19, 22, 18, 16, 27, 5, 23]

def sel0 (j : Fin 10) : Fin 64 := Fin.ofNat 64 (P0.getD j.val 0)
def sel1 (j : Fin 25) : Fin 64 := Fin.ofNat 64 (P1.getD j.val 0)

theorem sel0_val : ∀ j : Fin 10, (sel0 j).val = P0.getD j.val 0 := by decide +kernel
theorem sel1_val : ∀ j : Fin 25, (sel1 j).val = P1.getD j.val 0 := by decide +kernel

theorem keyTable0_injective : Function.Injective keyTable0 := by
  have h : ∀ a b : Fin 64, keyTable0 a = keyTable0 b → a = b := by decide +kernel
  exact fun a b e => h a b e
theorem keyTable1_injective : Function.Injective keyTable1 := by
  have h : ∀ a b : Fin 64, keyTable1 a = keyTable1 b → a = b := by decide +kernel
  exact fun a b e => h a b e

theorem sel0_injective : Function.Injective sel0 := by
  have h : ∀ a b : Fin 10, sel0 a = sel0 b → a = b := by decide +kernel
  exact fun a b e => h a b e
theorem sel1_injective : Function.Injective sel1 := by
  have h : ∀ a b : Fin 25, sel1 a = sel1 b → a = b := by decide +kernel
  exact fun a b e => h a b e

theorem sel0_ordered : ∀ i j : Fin 10, i < j → keyBefore keyTable0 (sel0 j) (sel0 i) = false := by decide +kernel
theorem sel1_ordered : ∀ i j : Fin 25, i < j → keyBefore keyTable1 (sel1 j) (sel1 i) = false := by decide +kernel

theorem sel0_dominates : ∀ (i : Fin 10) (p : Fin 64), (∀ j : Fin 10, sel0 j ≠ p) → keyBefore keyTable0 p (sel0 i) = false := by
  decide +kernel
theorem sel1_dominates : ∀ (i : Fin 25) (p : Fin 64), (∀ j : Fin 25, sel1 j ≠ p) → keyBefore keyTable1 p (sel1 i) = false := by
  decide +kernel

theorem perm0_val (cmp : BitVec 32 × BitVec 32 → BitVec 32 × BitVec 32 → BitVec 1)
    (hcmp : ∀ l r, cmp l r = IntOp.cmpi .ult l.1 r.1)
    (keys : IVec ⟨1, ![64]⟩ 32) (hk : ∀ i : Fin 64, keys (ix1 i) = keyTable0 i) (j : Fin 10) :
    (Host.sort2 ⟨1, ![64]⟩ 0 cmp keys (iotaInDim ⟨1, ![64]⟩ 32 0)).2 (ix1 (j.castLE (by decide)))
      = BitVec.ofNat 32 (P0.getD j.val 0) := by
  rw [sort2_iota_prefix (by decide) cmp hcmp keys keyTable0 hk keyTable0_injective sel0 sel0_injective
    sel0_ordered sel0_dominates j, sel0_val j]

theorem perm1_val (cmp : BitVec 32 × BitVec 32 → BitVec 32 × BitVec 32 → BitVec 1)
    (hcmp : ∀ l r, cmp l r = IntOp.cmpi .ult l.1 r.1)
    (keys : IVec ⟨1, ![64]⟩ 32) (hk : ∀ i : Fin 64, keys (ix1 i) = keyTable1 i) (j : Fin 25) :
    (Host.sort2 ⟨1, ![64]⟩ 0 cmp keys (iotaInDim ⟨1, ![64]⟩ 32 0)).2 (ix1 (j.castLE (by decide)))
      = BitVec.ofNat 32 (P1.getD j.val 0) := by
  rw [sort2_iota_prefix (by decide) cmp hcmp keys keyTable1 hk keyTable1_injective sel1 sel1_injective
    sel1_ordered sel1_dominates j, sel1_val j]

end Cert.PermEval
-- ==== Proof.PermRef.lean ====
/- The reference's shuffle at the two keys it draws with: its sort keys evaluated, the sort's leading entries read off. -/
import proofs.«215163_g69475390980333_cont_9to1_m_779_28_alg».proof.Proof.RefFn
import proofs.«215163_g69475390980333_cont_9to1_m_779_28_alg».proof.Proof.Gen.ReferenceIdeal
import proofs.«215163_g69475390980333_cont_9to1_m_779_28_alg».proof.Proof.PermEval
import proofs.«215163_g69475390980333_cont_9to1_m_779_28_alg».proof.Proof.Spec

namespace Cert.PermRef

open Idealize.ShloMosaic Idealize.ShloMosaic.ValueIdx
open Cert.ReferenceIdeal Cert.ReferenceIdeal.Facts₀ Cert.ReferenceIdeal.Facts
open Cert.PermEval
open Cert.RefFn (threefry_split_0 threefry2x32_1)

section
variable [Cert.ReferenceIdeal.Facts]

noncomputable def shuffleKeys (arg0 : IVec S2 32) : IVec S64 32 :=
  let v0 : IVec S2x2 32 := threefry_split_0 arg0
  let v1 : IVec S1x2 32 := extractStridedSlice S1x2 ![0, 0] v0 slices_S2x2_S1x2_0_0
  let v2 : IVec S2 32 := shapeCast S2 v1 shapeCasts_S1x2_S2
  let v3 : IVec S1x2 32 := extractStridedSlice S1x2 ![1, 0] v0 slices_S2x2_S1x2_1_0
  let v4 : IVec S2 32 := shapeCast S2 v3 shapeCasts_S1x2_S2
  let v5 : IVec S1 32 := extractStridedSlice S1 ![0] v4 slices_S2_S1_0
  let v6 : IVec S_ 32 := shapeCast S_ v5 shapeCasts_S1_S_
  let v7 : IVec S1 32 := extractStridedSlice S1 ![1] v4 slices_S2_S1_1
  let v8 : IVec S_ 32 := shapeCast S_ v7 shapeCasts_S1_S_
  let v9 : IVec S64 64 := iotaInDim S64 64 0
  let c : IVec S_ 64 := constantI S_ 64 1#64
  let v10 : IVec S64 64 := broadcastInDim S64 ![] bcast_S_S64 c
  let v11 : IVec S64 64 := muli v10 v9
  let c_0 : IVec S_ 64 := constantI S_ 64 32#64
  let v12 : IVec S64 64 := broadcastInDim S64 ![] bcast_S_S64 c_0
  let v13 : IVec S64 64 := Host.shrui v11 v12
  let v14 : IVec S64 32 := trunci 32 v11 natLt_32_64
  let v15 : IVec S64 32 := trunci 32 v13 natLt_32_64
  let v16 : IVec S64 32 × IVec S64 32 := threefry2x32_1 v6 v8 v15 v14
  let v17 : IVec S64 32 := xori v16.1 v16.2
  v17

theorem shuffle_eq_sort (arg0 : IVec S2 32) (arg1 : IVec S64 32) :
    Cert.RefFn.shuffle arg0 arg1 = (Host.sort2 S64 0 comparator_i32_i32_d0 (shuffleKeys arg0) arg1).2 := rfl
end

set_option maxRecDepth 100000 in

theorem shuffleKeys_key0_closed :
    ∀ i : Fin 64, @shuffleKeys Cert.ReferenceIdeal.Gen.facts (@Cert.RefFn.key0 Cert.ReferenceIdeal.Gen.facts) (ix1 i) = keyTable0 i := by
  decide +kernel

set_option maxRecDepth 100000 in

theorem shuffleKeys_key1_closed :
    ∀ i : Fin 64, @shuffleKeys Cert.ReferenceIdeal.Gen.facts (@Cert.RefFn.key1 Cert.ReferenceIdeal.Gen.facts) (ix1 i) = keyTable1 i := by
  decide +kernel

section
variable [inst : Cert.ReferenceIdeal.Facts]

theorem shuffleKeys_key0 (i : Fin 64) : shuffleKeys Cert.RefFn.key0 (ix1 i) = keyTable0 i :=
  shuffleKeys_key0_closed i
theorem shuffleKeys_key1 (i : Fin 64) : shuffleKeys Cert.RefFn.key1 (ix1 i) = keyTable1 i :=
  shuffleKeys_key1_closed i

theorem p0_val : ∀ j : Fin 10, (Cert.Spec.p0 j).val = P0.getD j.val 0 := by decide +kernel
theorem p1_val : ∀ j : Fin 25, (Cert.Spec.p1 j).val = P1.getD j.val 0 := by decide +kernel

theorem shuffle_key0 : ∀ j : Fin 10,
    Cert.RefFn.shuffle Cert.RefFn.key0 (iotaInDim Cert.ReferenceIdeal.S64 32 0) (ix1 ⟨j.val, by omega⟩)
      = BitVec.ofNat 32 (Cert.Spec.p0 j).val := by
  intro j
  rw [shuffle_eq_sort, p0_val j]
  exact perm0_val comparator_i32_i32_d0 (fun _ _ => rfl) (shuffleKeys Cert.RefFn.key0) shuffleKeys_key0 j

theorem shuffle_key1 : ∀ j : Fin 25,
    Cert.RefFn.shuffle Cert.RefFn.key1 (iotaInDim Cert.ReferenceIdeal.S64 32 0) (ix1 ⟨j.val, by omega⟩)
      = BitVec.ofNat 32 (Cert.Spec.p1 j).val := by
  intro j
  rw [shuffle_eq_sort, p1_val j]
  exact perm1_val comparator_i32_i32_d0 (fun _ _ => rfl) (shuffleKeys Cert.RefFn.key1) shuffleKeys_key1 j
end

end Cert.PermRef
-- ==== Proof.PreDecode.lean ====
/- The precondition read back: every word of the batch and of the table is below 100000. -/
import proofs.«215163_g69475390980333_cont_9to1_m_779_28_alg».proof.Pre_input_domain
import proofs.«215163_g69475390980333_cont_9to1_m_779_28_alg».proof.Proof.Gen.Pre_input_domain
import Idealize.ShloMosaic.Lib.StableHlo.Predicate
import Idealize.ShloMosaic.Lib.ReduceAll

namespace Cert.PreDecode

open Idealize.ShloMosaic
open Cert.Pre_input_domain

instance subsingleton_scalar_idx : Subsingleton S_.Idx := ⟨fun a b => funext fun d => d.elim0⟩

theorem toNat_lt_of_signed_range (w : BitVec 32) (h0 : IntOp.cmpi .sge w 0#32 = 1#1)
    (h1 : IntOp.cmpi .sle w 99999#32 = 1#1) : w.toNat < 100000 := by
  rw [IntOp.cmpi_sge, show (0#32 : BitVec 32).toInt = 0 from by decide] at h0
  rw [IntOp.cmpi_sle, show (99999#32 : BitVec 32).toInt = 99999 from by decide] at h1
  have hw := w.isLt
  unfold BitVec.toInt at h0 h1
  split at h0 <;> omega

theorem elem_lt {s : Shape} (hb : S_.BroadcastsInDim s (![] : Fin 0 → Fin s.rank)) (v : IVec s 32) (i : s.Idx)
    (e : andi (cmpi .sge v (broadcastInDim s ![] hb (constantI S_ 32 0#32)))
              (cmpi .sle v (broadcastInDim s ![] hb (constantI S_ 32 99999#32))) i = 1#1) :
    (v i).toNat < 100000 := by
  obtain ⟨h0, h1⟩ := IntOp.andi_eq_one.1 e
  exact toNat_lt_of_signed_range (v i) h0 h1

theorem ranges_of_pre {F : FTy → Type} [FloatOps F] [Cert.Pre_input_domain.Facts]
    (x : IVec Cert.Pre_input_domain.S4096 32) (adj : IVec Cert.Pre_input_domain.S100000x64 32)
    (h : Cert.Pre_input_domain.fn (F := F) x adj = fun _ => 1#1) :
    (∀ i, (x i).toNat < 100000) ∧ (∀ i, (adj i).toNat < 100000) := by
  have e := congrFun h (Shape.Idx.first Facts.h_S_)
  dsimp only [fn] at e
  obtain ⟨ex, eadj⟩ := IntOp.andi_eq_one.1 e
  refine ⟨fun i => ?_, fun i => ?_⟩
  · exact elem_lt Facts.bcast_S_S4096 x i (Host.reduce_andi_all _ _ _ _ _ ex i)
  · exact elem_lt Facts.bcast_S_S100000x64 adj i (Host.reduce_andi_all _ _ _ _ _ eadj i)

end Cert.PreDecode
-- ==== Proof.lean ====
/- The two-hop neighbour lookup against its reference over the reals: both runs end at the same two functions of the inputs. -/
import proofs.«215163_g69475390980333_cont_9to1_m_779_28_alg».proof.Defs
import proofs.«215163_g69475390980333_cont_9to1_m_779_28_alg».proof.Proof.Gen.Kernel
import proofs.«215163_g69475390980333_cont_9to1_m_779_28_alg».proof.Proof.Gen.Kernel.Skeleton
import proofs.«215163_g69475390980333_cont_9to1_m_779_28_alg».proof.Proof.Gen.KernelIdeal
import proofs.«215163_g69475390980333_cont_9to1_m_779_28_alg».proof.Proof.Gen.KernelIdeal.Skeleton
import proofs.«215163_g69475390980333_cont_9to1_m_779_28_alg».proof.Proof.Gen.ReferenceIdeal
import proofs.«215163_g69475390980333_cont_9to1_m_779_28_alg».proof.Proof.Gen.Pre_input_domain
import proofs.«215163_g69475390980333_cont_9to1_m_779_28_alg».proof.Proof.K.Run
import proofs.«215163_g69475390980333_cont_9to1_m_779_28_alg».proof.Proof.KI.Run
import proofs.«215163_g69475390980333_cont_9to1_m_779_28_alg».proof.Proof.RefRun
import proofs.«215163_g69475390980333_cont_9to1_m_779_28_alg».proof.Proof.RefValue
import proofs.«215163_g69475390980333_cont_9to1_m_779_28_alg».proof.Proof.PermRef
import proofs.«215163_g69475390980333_cont_9to1_m_779_28_alg».proof.Proof.PreDecode
import Idealize.ShloMosaic.Adequacy
import Idealize.ShloMosaic.Init

noncomputable section

namespace Cert.Proof

open Idealize.ShloMosaic Idealize.SL.Sem

theorem preK [Cert.Pre_input_domain.Facts] (m : (ℓ : Loc Cert.Kernel.nD Cert.Kernel.τ Cert.Kernel.sig) → Buf (Elt Bits) ℓ) (h : Cert.Pre_Kernel m) :
    Cert.Proof.K.PreOK (F := Bits) m :=
  ⟨fun d => (Cert.PreDecode.ranges_of_pre (F := Bits) _ _ (h d)).1, fun d => (Cert.PreDecode.ranges_of_pre (F := Bits) _ _ (h d)).2⟩
theorem preKI [Cert.Pre_input_domain.Facts] (m : (ℓ : Loc Cert.KernelIdeal.nD Cert.KernelIdeal.τ Cert.KernelIdeal.sig) → Buf (Elt Ideal) ℓ) (h : Cert.Pre_KernelIdeal m) :
    Cert.Proof.KI.PreOK (F := Ideal) m :=
  ⟨fun d => (Cert.PreDecode.ranges_of_pre (F := Ideal) _ _ (h d)).1, fun d => (Cert.PreDecode.ranges_of_pre (F := Ideal) _ _ (h d)).2⟩

theorem claim : Cert.Claim := by
  refine ⟨Cert.Kernel.Gen.facts, Cert.KernelIdeal.Gen.facts, Cert.ReferenceIdeal.Gen.facts, Cert.Pre_input_domain.Gen.facts, ?_, ?_, ?_, trivial, ?_⟩
  ·
    intro m g hpre
    exact (θ_run Cert.Kernel.defs _ _).mono (fun _ h c => ⟨(h c).2.2.1, (h c).2.2.2⟩) (Cert.Proof.K.run_main (F := Bits) m g (preK m hpre))
  · intro m g hpre
    exact (θ_run Cert.KernelIdeal.defs _ _).mono (fun _ h c => ⟨(h c).2.2.1, (h c).2.2.2⟩) (Cert.Proof.KI.run_main (F := Ideal) m g (preKI m hpre))
  ·
    intro m g _
    exact (θ_run Cert.ReferenceIdeal.defs _ _).mono (fun _ h c => ⟨(h c).2.2.1, (h c).2.2.2⟩) (Cert.RefRun.run (F := Ideal) m g)
  ·
    intro m g m' g' hpre hagree
    have hok := preKI m hpre
    refine ⟨fun c => Cert.Spec.hop0 (m ((c.tc : Thread _ _).loc Cert.KernelIdeal.main_arg0)) (m ((c.tc : Thread _ _).loc Cert.KernelIdeal.main_arg1)),
      fun c => Cert.Spec.hop1 (m ((c.tc : Thread _ _).loc Cert.KernelIdeal.main_arg0)) (m ((c.tc : Thread _ _).loc Cert.KernelIdeal.main_arg1)), ?_, ?_⟩
    · exact (θ_run Cert.KernelIdeal.defs _ _).mono (fun _ h c => h c) (Cert.Proof.KI.run_main (F := Ideal) m g hok)
    · refine (θ_run Cert.ReferenceIdeal.defs _ _).mono (fun _ h c => ⟨?_, ?_, (h c).2.2.1, (h c).2.2.2⟩) (Cert.RefRun.run (F := Ideal) m' g')
      · rw [(h c).1, (hagree c).1, (hagree c).2]
        exact Cert.RefValue.out0_eq _ _ (hok.1 c) (hok.2 c) Cert.PermRef.shuffle_key0
      · rw [(h c).2.1, (hagree c).1, (hagree c).2]
        exact Cert.RefValue.out1_eq _ _ (hok.1 c) (hok.2 c) Cert.PermRef.shuffle_key0 Cert.PermRef.shuffle_key1

end Cert.Proof

end
